-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_v311) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1024x512x128 : Shape := ⟨3, ![1024, 512, 128]⟩
abbrev S1024x256 : Shape := ⟨2, ![1024, 256]⟩
abbrev S1024x4x512 : Shape := ⟨3, ![1024, 4, 512]⟩
abbrev S768x128 : Shape := ⟨2, ![768, 128]⟩
abbrev S768x256 : Shape := ⟨2, ![768, 256]⟩
abbrev S768 : Shape := ⟨1, ![768]⟩
abbrev S536x256 : Shape := ⟨2, ![536, 256]⟩
abbrev S536 : Shape := ⟨1, ![536]⟩
abbrev S1560x256 : Shape := ⟨2, ![1560, 256]⟩
abbrev S1560 : Shape := ⟨1, ![1560]⟩
abbrev S128x512 : Shape := ⟨2, ![128, 512]⟩
abbrev S128x256 : Shape := ⟨2, ![128, 256]⟩
abbrev S128 : Shape := ⟨1, ![128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S1024x512x128 : S_.BroadcastsInDim S1024x512x128 (![] : Fin 0 → Fin S1024x512x128.rank)
  reducesTo_S1024x512x128_S_d0_1_2 : S1024x512x128.ReducesTo [0, 1, 2] S_
  bcast_S_S1024x256 : S_.BroadcastsInDim S1024x256 (![] : Fin 0 → Fin S1024x256.rank)
  reducesTo_S1024x256_S_d0_1 : S1024x256.ReducesTo [0, 1] S_
  bcast_S_S1024x4x512 : S_.BroadcastsInDim S1024x4x512 (![] : Fin 0 → Fin S1024x4x512.rank)
  reducesTo_S1024x4x512_S_d0_1_2 : S1024x4x512.ReducesTo [0, 1, 2] S_
  bcast_S_S768x128 : S_.BroadcastsInDim S768x128 (![] : Fin 0 → Fin S768x128.rank)
  reducesTo_S768x128_S_d0_1 : S768x128.ReducesTo [0, 1] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S536x256 : S_.BroadcastsInDim S536x256 (![] : Fin 0 → Fin S536x256.rank)
  reducesTo_S536x256_S_d0_1 : S536x256.ReducesTo [0, 1] S_
  bcast_S_S536 : S_.BroadcastsInDim S536 (![] : Fin 0 → Fin S536.rank)
  reducesTo_S536_S_d0 : S536.ReducesTo [0] S_
  bcast_S_S1560x256 : S_.BroadcastsInDim S1560x256 (![] : Fin 0 → Fin S1560x256.rank)
  reducesTo_S1560x256_S_d0_1 : S1560x256.ReducesTo [0, 1] S_
  bcast_S_S1560 : S_.BroadcastsInDim S1560 (![] : Fin 0 → Fin S1560.rank)
  reducesTo_S1560_S_d0 : S1560.ReducesTo [0] S_
  bcast_S_S128x512 : S_.BroadcastsInDim S128x512 (![] : Fin 0 → Fin S128x512.rank)
  reducesTo_S128x512_S_d0_1 : S128x512.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_v82 : IVec S_ 1) (main_v84 : IVec S1024x4x512 1) : IVec S_ 1 :=
  let main_c_33 : IVec S_ 1 := constantI S_ 1 1#1
  let main_v85 : IVec S_ 1 := (fun x v => Host.reduce IntOp.andi x v reducesTo_S1024x4x512_S_d0_1_2 h_S_) main_v84 main_c_33
  let main_v86 : IVec S_ 1 := andi main_v82 main_v85
  main_v86

def fn_part4 {F : FTy → Type} [FloatOps F] (main_arg3 : FVec F S1024x4x512 .f32) (main_arg4 : FVec F S1024x4x512 .f32) (main_arg14 : FVec F S128x256 .f32) (main_arg15 : FVec F S128 .f32) (main_v63 : IVec S_ 1) (main_v67 : IVec S_ 1) : IVec S_ 1 :=
  let main_v68 : IVec S_ 1 := andi main_v63 main_v67
  let main_v69 : FVec F S128x256 .f32 := Host.absf main_arg14
  let main_cst_26 : FVec F S_ .f32 := constant S_ .f32 0x7F800000#32
  let main_v70 : FVec F S128x256 .f32 := broadcastInDim S128x256 ![] bcast_S_S128x256 main_cst_26
  let main_v71 : IVec S128x256 1 := cmpf .olt main_v69 main_v70
  let main_c_27 : IVec S_ 1 := constantI S_ 1 1#1
  let main_v72 : IVec S_ 1 := (fun x v => Host.reduce IntOp.andi x v reducesTo_S128x256_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_cst_30 : FVec F S_ .f32 := constant S_ .f32 0x00000000#32
  let main_v79 : FVec F S1024x4x512 .f32 := broadcastInDim S1024x4x512 ![] bcast_S_S1024x4x512 main_cst_30
  let main_v80 : IVec S1024x4x512 1 := cmpf .oge main_arg3 main_v79
  let main_c_31 : IVec S_ 1 := constantI S_ 1 1#1
  let main_v81 : IVec S_ 1 := (fun x v => Host.reduce IntOp.andi x v reducesTo_S1024x4x512_S_d0_1_2 h_S_) main_v80 main_c_31
  let main_v82 : IVec S_ 1 := andi main_v78 main_v81
  let main_cst_32 : FVec F S_ .f32 := constant S_ .f32 0x00000000#32
  let main_v83 : FVec F S1024x4x512 .f32 := broadcastInDim S1024x4x512 ![] bcast_S_S1024x4x512 main_cst_32
  let main_v84 : IVec S1024x4x512 1 := cmpf .oge main_arg4 main_v83
  fn_part5 (F := F) main_v82 main_v84

def fn_part3 {F : FTy → Type} [FloatOps F] (main_arg3 : FVec F S1024x4x512 .f32) (main_arg4 : FVec F S1024x4x512 .f32) (main_arg11 : FVec F S1560x256 .f32) (main_arg12 : FVec F S1560 .f32) (main_arg13 : FVec F S128x512 .f32) (main_arg14 : FVec F S128x256 .f32) (main_arg15 : FVec F S128 .f32) (main_v48 : IVec S_ 1) (main_v49 : FVec F S536 .f32) (main_v50 : FVec F S536 .f32) : IVec S_ 1 :=
  let main_v51 : IVec S536 1 := cmpf .olt main_v49 main_v50
  let main_c_19 : IVec S_ 1 := constantI S_ 1 1#1
  let main_v52 : IVec S_ 1 := (fun x v => Host.reduce IntOp.andi x v reducesTo_S536_S_d0 h_S_) main_v51 main_c_19
  let main_v53 : IVec S_ 1 := andi main_v48 main_v52
  let main_v54 : FVec F S1560x256 .f32 := Host.absf main_arg11
  let main_cst_20 : FVec F S_ .f32 := constant S_ .f32 0x7F800000#32
  let main_v55 : FVec F S1560x256 .f32 := broadcastInDim S1560x256 ![] bcast_S_S1560x256 main_cst_20
  let main_v56 : IVec S1560x256 1 := cmpf .olt main_v54 main_v55
  let main_c_21 : IVec S_ 1 := constantI S_ 1 1#1
  let main_v57 : IVec S_ 1 := (fun x v => Host.reduce IntOp.andi x v reducesTo_S1560x256_S_d0_1 h_S_) main_v56 main_c_21
  let main_v58 : IVec S_ 1 := andi main_v53 main_v57
  let main_v59 : FVec F S1560 .f32 := Host.absf main_arg12
  let main_cst_22 : FVec F S_ .f32 := constant S_ .f32 0x7F800000#32
  let main_v60 : FVec F S1560 .f32 := broadcastInDim S1560 ![] bcast_S_S1560 main_cst_22
  let main_v61 : IVec S1560 1 := cmpf .olt main_v59 main_v60
  let main_c_23 : IVec S_ 1 := constantI S_ 1 1#1
  let main_v62 : IVec S_ 1 := (fun x v => Host.reduce IntOp.andi x v reducesTo_S1560_S_d0 h_S_) main_v61 main_c_23
  let main_v63 : IVec S_ 1 := andi main_v58 main_v62
  let main_v64 : FVec F S128x512 .f32 := Host.absf main_arg13
  let main_cst_24 : FVec F S_ .f32 := constant S_ .f32 0x7F800000#32
  let main_v65 : FVec F S128x512 .f32 := broadcastInDim S128x512 ![] bcast_S_S128x512 main_cst_24
  let main_v66 : IVec S128x512 1 := cmpf .olt main_v64 main_v65
  let main_c_25 : IVec S_ 1 := constantI S_ 1 1#1
  let main_v67 : IVec S_ 1 := (fun x v => Host.reduce IntOp.andi x v reducesTo_S128x512_S_d0_1 h_S_) main_v66 main_c_25
  fn_part4 (F := F) main_arg3 main_arg4 main_arg14 main_arg15 main_v63 main_v67

def fn_part2 {F : FTy → Type} [FloatOps F] (main_arg3 : FVec F S1024x4x512 .f32) (main_arg4 : FVec F S1024x4x512 .f32) (main_arg7 : FVec F S768 .f32) (main_arg8 : FVec F S768 .f32) (main_arg9 : FVec F S536x256 .f32) (main_arg10 : FVec F S536 .f32) (main_arg11 : FVec F S1560x256 .f32) (main_arg12 : FVec F S1560 .f32) (main_arg13 : FVec F S128x512 .f32) (main_arg14 : FVec F S128x256 .f32) (main_arg15 : FVec F S128 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S536x256 .f32 := Host.absf main_arg9
  let main_cst_16 : FVec F S_ .f32 := constant S_ .f32 0x7F800000#32
  let main_v45 : FVec F S536x256 .f32 := broadcastInDim S536x256 ![] bcast_S_S536x256 main_cst_16
  let main_v46 : IVec S536x256 1 := cmpf .olt main_v44 main_v45
  let main_c_17 : IVec S_ 1 := constantI S_ 1 1#1
  let main_v47 : IVec S_ 1 := (fun x v => Host.reduce IntOp.andi x v reducesTo_S536x256_S_d0_1 h_S_) main_v46 main_c_17
  let main_v48 : IVec S_ 1 := andi main_v43 main_v47
  let main_v49 : FVec F S536 .f32 := Host.absf main_arg10
  let main_cst_18 : FVec F S_ .f32 := constant S_ .f32 0x7F800000#32
  let main_v50 : FVec F S536 .f32 := broadcastInDim S536 ![] bcast_S_S536 main_cst_18
  fn_part3 (F := F) main_arg3 main_arg4 main_arg11 main_arg12 main_arg13 main_arg14 main_arg15 main_v48 main_v49 main_v50

def fn_part1 {F : FTy → Type} [FloatOps F] (main_arg3 : FVec F S1024x4x512 .f32) (main_arg4 : FVec F S1024x4x512 .f32) (main_arg5 : FVec F S768x128 .f32) (main_arg6 : FVec F S768x256 .f32) (main_arg7 : FVec F S768 .f32) (main_arg8 : FVec F S768 .f32) (main_arg9 : FVec F S536x256 .f32) (main_arg10 : FVec F S536 .f32) (main_arg11 : FVec F S1560x256 .f32) (main_arg12 : FVec F S1560 .f32) (main_arg13 : FVec F S128x512 .f32) (main_arg14 : FVec F S128x256 .f32) (main_arg15 : FVec F S128 .f32) (main_v13 : IVec S_ 1) (main_v16 : IVec S1024x4x512 1) : IVec S_ 1 :=
  let main_c_5 : IVec S_ 1 := constantI S_ 1 1#1
  let main_v17 : IVec S_ 1 := (fun x v => Host.reduce IntOp.andi x v reducesTo_S1024x4x512_S_d0_1_2 h_S_) main_v16 main_c_5
  let main_v18 : IVec S_ 1 := andi main_v13 main_v17
  let main_v19 : FVec F S1024x4x512 .f32 := Host.absf main_arg4
  let main_cst_6 : FVec F S_ .f32 := constant S_ .f32 0x7F800000#32
  let main_v20 : FVec F S1024x4x512 .f32 := broadcastInDim S1024x4x512 ![] bcast_S_S1024x4x512 main_cst_6
  let main_v21 : IVec S1024x4x512 1 := cmpf .olt main_v19 main_v20
  let main_c_7 : IVec S_ 1 := constantI S_ 1 1#1
  let main_v22 : IVec S_ 1 := (fun x v => Host.reduce IntOp.andi x v reducesTo_S1024x4x512_S_d0_1_2 h_S_) main_v21 main_c_7
  let main_v23 : IVec S_ 1 := andi main_v18 main_v22
  let main_v24 : FVec F S768x128 .f32 := Host.absf main_arg5
  let main_cst_8 : FVec F S_ .f32 := constant S_ .f32 0x7F800000#32
  let main_v25 : FVec F S768x128 .f32 := broadcastInDim S768x128 ![] bcast_S_S768x128 main_cst_8
  let main_v26 : IVec S768x128 1 := cmpf .olt main_v24 main_v25
  let main_c_9 : IVec S_ 1 := constantI S_ 1 1#1
  let main_v27 : IVec S_ 1 := (fun x v => Host.reduce IntOp.andi x v reducesTo_S768x128_S_d0_1 h_S_) main_v26 main_c_9
  let main_v28 : IVec S_ 1 := andi main_v23 main_v27
  let main_v29 : FVec F S768x256 .f32 := Host.absf main_arg6
  let main_cst_10 : FVec F S_ .f32 := constant S_ .f32 0x7F800000#32
  let main_v30 : FVec F S768x256 .f32 := broadcastInDim S768x256 ![] bcast_S_S768x256 main_cst_10
  let main_v31 : IVec S768x256 1 := cmpf .olt main_v29 main_v30
  let main_c_11 : IVec S_ 1 := constantI S_ 1 1#1
  let main_v32 : IVec S_ 1 := (fun x v => Host.reduce IntOp.andi x v reducesTo_S768x256_S_d0_1 h_S_) main_v31 main_c_11
  let main_v33 : IVec S_ 1 := andi main_v28 main_v32
  fn_part2 (F := F) main_arg3 main_arg4 main_arg7 main_arg8 main_arg9 main_arg10 main_arg11 main_arg12 main_arg13 main_arg14 main_arg15 main_v33

def fn {F : FTy → Type} [FloatOps F] (main_arg0 : FVec F S1024x128 .f32) (main_arg1 : FVec F S1024x512x128 .f32) (main_arg2 : FVec F S1024x256 .f32) (main_arg3 : FVec F S1024x4x512 .f32) (main_arg4 : FVec F S1024x4x512 .f32) (main_arg5 : FVec F S768x128 .f32) (main_arg6 : FVec F S768x256 .f32) (main_arg7 : FVec F S768 .f32) (main_arg8 : FVec F S768 .f32) (main_arg9 : FVec F S536x256 .f32) (main_arg10 : FVec F S536 .f32) (main_arg11 : FVec F S1560x256 .f32) (main_arg12 : FVec F S1560 .f32) (main_arg13 : FVec F S128x512 .f32) (main_arg14 : FVec F S128x256 .f32) (main_arg15 : FVec F S128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1024x512x128 .f32 := Host.absf main_arg1
  let main_cst_0 : FVec F S_ .f32 := constant S_ .f32 0x7F800000#32
  let main_v5 : FVec F S1024x512x128 .f32 := broadcastInDim S1024x512x128 ![] bcast_S_S1024x512x128 main_cst_0
  let main_v6 : IVec S1024x512x128 1 := cmpf .olt main_v4 main_v5
  let main_c_1 : IVec S_ 1 := constantI S_ 1 1#1
  let main_v7 : IVec S_ 1 := (fun x v => Host.reduce IntOp.andi x v reducesTo_S1024x512x128_S_d0_1_2 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S1024x4x512 .f32 := Host.absf main_arg3
  let main_cst_4 : FVec F S_ .f32 := constant S_ .f32 0x7F800000#32
  let main_v15 : FVec F S1024x4x512 .f32 := broadcastInDim S1024x4x512 ![] bcast_S_S1024x4x512 main_cst_4
  let main_v16 : IVec S1024x4x512 1 := cmpf .olt main_v14 main_v15
  fn_part1 (F := F) main_arg3 main_arg4 main_arg5 main_arg6 main_arg7 main_arg8 main_arg9 main_arg10 main_arg11 main_arg12 main_arg13 main_arg14 main_arg15 main_v13 main_v16
-- ==== Kernel.lean ====
abbrev S1024x128 : Shape := ⟨2, ![1024, 128]⟩
abbrev S1024x512x128 : Shape := ⟨3, ![1024, 512, 128]⟩
abbrev S1024x256 : Shape := ⟨2, ![1024, 256]⟩
abbrev S1024x4x512 : Shape := ⟨3, ![1024, 4, 512]⟩
abbrev S768x128 : Shape := ⟨2, ![768, 128]⟩
abbrev S768x256 : Shape := ⟨2, ![768, 256]⟩
abbrev S768 : Shape := ⟨1, ![768]⟩
abbrev S536x256 : Shape := ⟨2, ![536, 256]⟩
abbrev S536 : Shape := ⟨1, ![536]⟩
abbrev S1560x256 : Shape := ⟨2, ![1560, 256]⟩
abbrev S1560 : Shape := ⟨1, ![1560]⟩
abbrev S128x512 : Shape := ⟨2, ![128, 512]⟩
abbrev S128x256 : Shape := ⟨2, ![128, 256]⟩
abbrev S128 : Shape := ⟨1, ![128]⟩
abbrev S8x128 : Shape := ⟨2, ![8, 128]⟩
abbrev S8x512x128 : Shape := ⟨3, ![8, 512, 128]⟩
abbrev S8x256 : Shape := ⟨2, ![8, 256]⟩
abbrev S8x4x512 : Shape := ⟨3, ![8, 4, 512]⟩
abbrev S128x768 : Shape := ⟨2, ![128, 768]⟩
abbrev S8x768 : Shape := ⟨2, ![8, 768]⟩
abbrev S1x768 : Shape := ⟨2, ![1, 768]⟩
abbrev S256x768 : Shape := ⟨2, ![256, 768]⟩
abbrev S8x512 : Shape := ⟨2, ![8, 512]⟩
abbrev S8x512x1 : Shape := ⟨3, ![8, 512, 1]⟩
abbrev S256x536 : Shape := ⟨2, ![256, 536]⟩
abbrev S8x536 : Shape := ⟨2, ![8, 536]⟩
abbrev S1x536 : Shape := ⟨2, ![1, 536]⟩
abbrev S8x4x134 : Shape := ⟨3, ![8, 4, 134]⟩
abbrev S8x4x128 : Shape := ⟨3, ![8, 4, 128]⟩
abbrev S8x4x1 : Shape := ⟨3, ![8, 4, 1]⟩
abbrev S8x4 : Shape := ⟨2, ![8, 4]⟩
abbrev S8x4x3 : Shape := ⟨3, ![8, 4, 3]⟩
abbrev S256x1560 : Shape := ⟨2, ![256, 1560]⟩
abbrev S8x1560 : Shape := ⟨2, ![8, 1560]⟩
abbrev S1x1560 : Shape := ⟨2, ![1, 1560]⟩
abbrev S8x4x390 : Shape := ⟨3, ![8, 4, 390]⟩
abbrev S8x1x512 : Shape := ⟨3, ![8, 1, 512]⟩
abbrev S8x1x128 : Shape := ⟨3, ![8, 1, 128]⟩
abbrev S256x128 : Shape := ⟨2, ![256, 128]⟩
abbrev S1x128 : Shape := ⟨2, ![1, 128]⟩
abbrev S512x128 : Shape := ⟨2, ![512, 128]⟩

abbrev nBuf : Space → Nat
  | .hbm => 24
  | .vmem => 25
  | .smem => 0
  | _ => 0

abbrev bufTy : (tb : Table) → Fin (tcTables nBuf tb) → BufTy
  | .hbm, ⟨0, _⟩ => ⟨S1024x128, .f32⟩
  | .hbm, ⟨1, _⟩ => ⟨S1024x512x128, .f32⟩
  | .hbm, ⟨2, _⟩ => ⟨S1024x256, .f32⟩
  | .hbm, ⟨3, _⟩ => ⟨S1024x4x512, .f32⟩
  | .hbm, ⟨4, _⟩ => ⟨S1024x4x512, .f32⟩
  | .hbm, ⟨5, _⟩ => ⟨S768x128, .f32⟩
  | .hbm, ⟨6, _⟩ => ⟨S768x256, .f32⟩
  | .hbm, ⟨7, _⟩ => ⟨S768, .f32⟩
  | .hbm, ⟨8, _⟩ => ⟨S768, .f32⟩
  | .hbm, ⟨9, _⟩ => ⟨S536x256, .f32⟩
  | .hbm, ⟨10, _⟩ => ⟨S536, .f32⟩
  | .hbm, ⟨11, _⟩ => ⟨S1560x256, .f32⟩
  | .hbm, ⟨12, _⟩ => ⟨S1560, .f32⟩
  | .hbm, ⟨13, _⟩ => ⟨S128x512, .f32⟩
  | .hbm, ⟨14, _⟩ => ⟨S128x256, .f32⟩
  | .hbm, ⟨15, _⟩ => ⟨S128, .f32⟩
  | .hbm, ⟨16, _⟩ => ⟨S768x128, .bf16⟩
  | .hbm, ⟨17, _⟩ => ⟨S768x256, .bf16⟩
  | .hbm, ⟨18, _⟩ => ⟨S536x256, .bf16⟩
  | .hbm, ⟨19, _⟩ => ⟨S1560x256, .bf16⟩
  | .hbm, ⟨20, _⟩ => ⟨S128x512, .bf16⟩
  | .hbm, ⟨21, _⟩ => ⟨S128x256, .bf16⟩
  | .hbm, ⟨22, _⟩ => ⟨S1024x128, .f32⟩
  | .hbm, ⟨23, _⟩ => ⟨S1024x512x128, .f32⟩
  | .local _ .vmem, ⟨0, _⟩ => ⟨S8x128, .f32⟩
  | .local _ .vmem, ⟨1, _⟩ => ⟨S8x128, .f32⟩
  | .local _ .vmem, ⟨2, _⟩ => ⟨S8x512x128, .f32⟩
  | .local _ .vmem, ⟨3, _⟩ => ⟨S8x512x128, .f32⟩
  | .local _ .vmem, ⟨4, _⟩ => ⟨S8x256, .f32⟩
  | .local _ .vmem, ⟨5, _⟩ => ⟨S8x256, .f32⟩
  | .local _ .vmem, ⟨6, _⟩ => ⟨S8x4x512, .f32⟩
  | .local _ .vmem, ⟨7, _⟩ => ⟨S8x4x512, .f32⟩
  | .local _ .vmem, ⟨8, _⟩ => ⟨S8x4x512, .f32⟩
  | .local _ .vmem, ⟨9, _⟩ => ⟨S8x4x512, .f32⟩
  | .local _ .vmem, ⟨10, _⟩ => ⟨S768x128, .bf16⟩
  | .local _ .vmem, ⟨11, _⟩ => ⟨S768x256, .bf16⟩
  | .local _ .vmem, ⟨12, _⟩ => ⟨S768, .f32⟩
  | .local _ .vmem, ⟨13, _⟩ => ⟨S768, .f32⟩
  | .local _ .vmem, ⟨14, _⟩ => ⟨S536x256, .bf16⟩
  | .local _ .vmem, ⟨15, _⟩ => ⟨S536, .f32⟩
  | .local _ .vmem, ⟨16, _⟩ => ⟨S1560x256, .bf16⟩
  | .local _ .vmem, ⟨17, _⟩ => ⟨S1560, .f32⟩
  | .local _ .vmem, ⟨18, _⟩ => ⟨S128x512, .bf16⟩
  | .local _ .vmem, ⟨19, _⟩ => ⟨S128x256, .bf16⟩
  | .local _ .vmem, ⟨20, _⟩ => ⟨S128, .f32⟩
  | .local _ .vmem, ⟨21, _⟩ => ⟨S8x128, .f32⟩
  | .local _ .vmem, ⟨22, _⟩ => ⟨S8x128, .f32⟩
  | .local _ .vmem, ⟨23, _⟩ => ⟨S8x512x128, .f32⟩
  | .local _ .vmem, ⟨24, _⟩ => ⟨S8x512x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6_0 : Ref sig .tc := ⟨.hbm, 22, rfl⟩
abbrev main_v6_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22
abbrev cc0_sem17_0 : DmaSem sig := 23
abbrev cc0_sem17_1 : DmaSem sig := 24

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S768x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S536x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1560x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1560 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  bitsLt_bf16_f32 : FTy.bits .bf16 < FTy.bits .f32
  inb_S8x128_S8x128_0_0 : ∀ a, (![0, 0] : Fin 2 → Nat) a + S8x128.size a ≤ S8x128.size a
  h_S8x128 : 0 < S8x128.numel
  inb_S8x512x128_S8x512x128_0_0_0 : ∀ a, (![0, 0, 0] : Fin 3 → Nat) a + S8x512x128.size a ≤ S8x512x128.size a
  h_S8x512x128 : 0 < S8x512x128.numel
  inb_S8x256_S8x256_0_0 : ∀ a, (![0, 0] : Fin 2 → Nat) a + S8x256.size a ≤ S8x256.size a
  h_S8x256 : 0 < S8x256.numel
  inb_S8x4x512_S8x4x512_0_0_0 : ∀ a, (![0, 0, 0] : Fin 3 → Nat) a + S8x4x512.size a ≤ S8x4x512.size a
  h_S8x4x512 : 0 < S8x4x512.numel
  inb_S768x128_S768x128_0_0 : ∀ a, (![0, 0] : Fin 2 → Nat) a + S768x128.size a ≤ S768x128.size a
  h_S768x128 : 0 < S768x128.numel
  shapeCasts_S768x128_S768x128 : S768x128.ShapeCasts S768x128
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S768_S768_0 : ∀ a, (![0] : Fin 1 → Nat) a + S768.size a ≤ S768.size a
  h_S768 : 0 < S768.numel
  inb_S536x256_S536x256_0_0 : ∀ a, (![0, 0] : Fin 2 → Nat) a + S536x256.size a ≤ S536x256.size a
  h_S536x256 : 0 < S536x256.numel
  shapeCasts_S536x256_S536x256 : S536x256.ShapeCasts S536x256
  inb_S536_S536_0 : ∀ a, (![0] : Fin 1 → Nat) a + S536.size a ≤ S536.size a
  h_S536 : 0 < S536.numel
  inb_S1560x256_S1560x256_0_0 : ∀ a, (![0, 0] : Fin 2 → Nat) a + S1560x256.size a ≤ S1560x256.size a
  h_S1560x256 : 0 < S1560x256.numel
  shapeCasts_S1560x256_S1560x256 : S1560x256.ShapeCasts S1560x256
  inb_S1560_S1560_0 : ∀ a, (![0] : Fin 1 → Nat) a + S1560.size a ≤ S1560.size a
  h_S1560 : 0 < S1560.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S128_S128_0 : ∀ a, (![0] : Fin 1 → Nat) a + S128.size a ≤ S128.size a
  h_S128 : 0 < S128.numel
  transposes_S768x128_p1_0_S128x768 : S768x128.Transposes [1, 0] S128x768
  shapeCasts_S768_S1x768 : S768.ShapeCasts S1x768
  broadcasts_S1x768_S8x768 : S1x768.Broadcasts S8x768
  transposes_S768x256_p1_0_S256x768 : S768x256.Transposes [1, 0] S256x768
  slices_S8x768_o0_0_S8x256 : S8x768.Slices ![0, 0] S8x256
  slices_S8x768_o0_256_S8x256 : S8x768.Slices ![0, 256] S8x256
  slices_S8x768_o0_512_S8x256 : S8x768.Slices ![0, 512] S8x256
  reduces_S8x512x128_S8x512 : S8x512x128.Reduces [2] S8x512
  shapeCasts_S8x512_S8x512x1 : S8x512.ShapeCasts S8x512x1
  broadcasts_S8x512x1_S8x512x128 : S8x512x1.Broadcasts S8x512x128
  transposes_S536x256_p1_0_S256x536 : S536x256.Transposes [1, 0] S256x536
  shapeCasts_S536_S1x536 : S536.ShapeCasts S1x536
  broadcasts_S1x536_S8x536 : S1x536.Broadcasts S8x536
  shapeCasts_S8x536_S8x4x134 : S8x536.ShapeCasts S8x4x134
  slices_S8x4x134_o0_0_0_S8x4x128 : S8x4x134.Slices ![0, 0, 0] S8x4x128
  slices_S8x4x134_o0_0_128_S8x4x1 : S8x4x134.Slices ![0, 0, 128] S8x4x1
  shapeCasts_S8x4x1_S8x4 : S8x4x1.ShapeCasts S8x4
  slices_S8x4x134_o0_0_129_S8x4x1 : S8x4x134.Slices ![0, 0, 129] S8x4x1
  slices_S8x4x134_o0_0_130_S8x4x3 : S8x4x134.Slices ![0, 0, 130] S8x4x3
  slices_S8x4x134_o0_0_133_S8x4x1 : S8x4x134.Slices ![0, 0, 133] S8x4x1
  reduces_S8x4x128_S8x4 : S8x4x128.Reduces [2] S8x4
  shapeCasts_S8x4_S8x4x1 : S8x4.ShapeCasts S8x4x1
  broadcasts_S8x4x1_S8x4x128 : S8x4x1.Broadcasts S8x4x128
  broadcasts_S8x4x1_S8x4x512 : S8x4x1.Broadcasts S8x4x512
  reduces_S8x4x512_S8x4 : S8x4x512.Reduces [2] S8x4
  reduces_S8x4x3_S8x4 : S8x4x3.Reduces [2] S8x4
  broadcasts_S8x4x1_S8x4x3 : S8x4x1.Broadcasts S8x4x3
  rotates_S8x4x512_d2 : S8x4x512.Rotates 2 none
  slices_S8x4x3_o0_0_0_S8x4x1 : S8x4x3.Slices ![0, 0, 0] S8x4x1
  slices_S8x4x3_o0_0_1_S8x4x1 : S8x4x3.Slices ![0, 0, 1] S8x4x1
  slices_S8x4x3_o0_0_2_S8x4x1 : S8x4x3.Slices ![0, 0, 2] S8x4x1
  shapeCasts_S8x4x128_S8x512 : S8x4x128.ShapeCasts S8x512
  transposes_S1560x256_p1_0_S256x1560 : S1560x256.Transposes [1, 0] S256x1560
  shapeCasts_S1560_S1x1560 : S1560.ShapeCasts S1x1560
  broadcasts_S1x1560_S8x1560 : S1x1560.Broadcasts S8x1560
  shapeCasts_S8x1560_S8x4x390 : S8x1560.ShapeCasts S8x4x390
  slices_S8x4x390_o0_0_0_S8x4x128 : S8x4x390.Slices ![0, 0, 0] S8x4x128
  slices_S8x4x390_o0_0_128_S8x4x1 : S8x4x390.Slices ![0, 0, 128] S8x4x1
  slices_S8x4x390_o0_0_129_S8x4x1 : S8x4x390.Slices ![0, 0, 129] S8x4x1
  slices_S8x4x390_o0_0_130_S8x4x3 : S8x4x390.Slices ![0, 0, 130] S8x4x3
  slices_S8x4x390_o0_0_133_S8x4x1 : S8x4x390.Slices ![0, 0, 133] S8x4x1
  slices_S8x4x390_o0_0_134_S8x4x128 : S8x4x390.Slices ![0, 0, 134] S8x4x128
  slices_S8x4x390_o0_0_262_S8x4x128 : S8x4x390.Slices ![0, 0, 262] S8x4x128
  slices_S8x4x512_o0_0_0_S8x1x512 : S8x4x512.Slices ![0, 0, 0] S8x1x512
  shapeCasts_S8x1x512_S8x512 : S8x1x512.ShapeCasts S8x512
  slices_S8x4x128_o0_0_0_S8x1x128 : S8x4x128.Slices ![0, 0, 0] S8x1x128
  shapeCasts_S8x1x128_S8x128 : S8x1x128.ShapeCasts S8x128
  shapeCasts_S8x128_S8x1x128 : S8x128.ShapeCasts S8x1x128
  broadcasts_S8x1x128_S8x512x128 : S8x1x128.Broadcasts S8x512x128
  slices_S8x4x512_o0_1_0_S8x1x512 : S8x4x512.Slices ![0, 1, 0] S8x1x512
  slices_S8x4x128_o0_1_0_S8x1x128 : S8x4x128.Slices ![0, 1, 0] S8x1x128
  slices_S8x4x512_o0_2_0_S8x1x512 : S8x4x512.Slices ![0, 2, 0] S8x1x512
  slices_S8x4x128_o0_2_0_S8x1x128 : S8x4x128.Slices ![0, 2, 0] S8x1x128
  slices_S8x4x512_o0_3_0_S8x1x512 : S8x4x512.Slices ![0, 3, 0] S8x1x512
  slices_S8x4x128_o0_3_0_S8x1x128 : S8x4x128.Slices ![0, 3, 0] S8x1x128
  transposes_S128x256_p1_0_S256x128 : S128x256.Transposes [1, 0] S256x128
  shapeCasts_S128_S1x128 : S128.ShapeCasts S1x128
  broadcasts_S1x128_S8x128 : S1x128.Broadcasts S8x128
  transposes_S128x512_p1_0_S512x128 : S128x512.Transposes [1, 0] S512x128
  dot_S8x128_S128x768_S8x768_1_0_0_1_n_n_wf : DotDims.WF S8x128 S128x768 S8x768 [1] [0] [0] [1] [] []
  dot_S8x256_S256x768_S8x768_1_0_0_1_n_n_wf : DotDims.WF S8x256 S256x768 S8x768 [1] [0] [0] [1] [] []
  dot_S8x256_S256x536_S8x536_1_0_0_1_n_n_wf : DotDims.WF S8x256 S256x536 S8x536 [1] [0] [0] [1] [] []
  dot_S8x4x128_S8x512x128_S8x4x512_2_2_1_1_0_0_wf : DotDims.WF S8x4x128 S8x512x128 S8x4x512 [2] [2] [1] [1] [0] [0]
  dot_S8x4x512_S8x512x128_S8x4x128_2_1_1_2_0_0_wf : DotDims.WF S8x4x512 S8x512x128 S8x4x128 [2] [1] [1] [2] [0] [0]
  dot_S8x256_S256x1560_S8x1560_1_0_0_1_n_n_wf : DotDims.WF S8x256 S256x1560 S8x1560 [1] [0] [0] [1] [] []
  dot_S8x256_S256x128_S8x128_1_0_0_1_n_n_wf : DotDims.WF S8x256 S256x128 S8x128 [1] [0] [0] [1] [] []
  dot_S8x512_S512x128_S8x128_1_0_0_1_n_n_wf : DotDims.WF S8x512 S512x128 S8x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128.size a ≤ S1024x128.size a
  hwx0_0 : ∀ i : grid0.Coords, EltTy.bits .f32 = 32 ∨ (Rect.block (s := S1024x128) S8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x128.size a ≤ S1024x512x128.size a
  hwx0_1 : ∀ i : grid0.Coords, EltTy.bits .f32 = 32 ∨ (Rect.block (s := S1024x512x128) S8x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S1024x256.size a
  hwx0_2 : ∀ i : grid0.Coords, EltTy.bits .f32 = 32 ∨ (Rect.block (s := S1024x256) S8x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x4x512.size a ≤ S1024x4x512.size a
  hwx0_3 : ∀ i : grid0.Coords, EltTy.bits .f32 = 32 ∨ (Rect.block (s := S1024x4x512) S8x4x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x4x512.size a ≤ S1024x4x512.size a
  hwx0_4 : ∀ i : grid0.Coords, EltTy.bits .f32 = 32 ∨ (Rect.block (s := S1024x4x512) S8x4x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x128.size a ≤ S768x128.size a
  hwx0_5 : ∀ i : grid0.Coords, EltTy.bits .bf16 = 32 ∨ (Rect.block (s := S768x128) S768x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768x256.size a ≤ S768x256.size a
  hwx0_6 : ∀ i : grid0.Coords, EltTy.bits .bf16 = 32 ∨ (Rect.block (s := S768x256) S768x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768.size a ≤ S768.size a
  hwx0_7 : ∀ i : grid0.Coords, EltTy.bits .f32 = 32 ∨ (Rect.block (s := S768) S768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S768.size a ≤ S768.size a
  hwx0_8 : ∀ i : grid0.Coords, EltTy.bits .f32 = 32 ∨ (Rect.block (s := S768) S768.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S536x256.size a ≤ S536x256.size a
  hwx0_9 : ∀ i : grid0.Coords, EltTy.bits .bf16 = 32 ∨ (Rect.block (s := S536x256) S536x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S536.size a ≤ S536.size a
  hwx0_10 : ∀ i : grid0.Coords, EltTy.bits .f32 = 32 ∨ (Rect.block (s := S536) S536.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1560x256.size a ≤ S1560x256.size a
  hwx0_11 : ∀ i : grid0.Coords, EltTy.bits .bf16 = 32 ∨ (Rect.block (s := S1560x256) S1560x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1560.size a ≤ S1560.size a
  hwx0_12 : ∀ i : grid0.Coords, EltTy.bits .f32 = 32 ∨ (Rect.block (s := S1560) S1560.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x512.size a ≤ S128x512.size a
  hwx0_13 : ∀ i : grid0.Coords, EltTy.bits .bf16 = 32 ∨ (Rect.block (s := S128x512) S128x512.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x256.size a ≤ S128x256.size a
  hwx0_14 : ∀ i : grid0.Coords, EltTy.bits .bf16 = 32 ∨ (Rect.block (s := S128x256) S128x256.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128.size a ≤ S128.size a
  hwx0_15 : ∀ i : grid0.Coords, EltTy.bits .f32 = 32 ∨ (Rect.block (s := S128) S128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S8x128.size a ≤ S1024x128.size a
  hwx0_16 : ∀ i : grid0.Coords, EltTy.bits .f32 = 32 ∨ (Rect.block (s := S1024x128) S8x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S8x512x128.size a ≤ S1024x512x128.size a
  hwx0_17 : ∀ i : grid0.Coords, EltTy.bits .f32 = 32 ∨ (Rect.block (s := S1024x512x128) S8x512x128.size (cc0_transform_17 i) (hinb0_17 i)).WholeWords (EltTy.packing .f32)

variable [Facts₀]

def dot_S8x128_S128x768_S8x768_1_0_0_1_n_n : DotDims S8x128 S128x768 S8x768 where
  lhsContracting := [1]
  rhsContracting := [0]
  lhsNonContracting := [0]
  rhsNonContracting := [1]
  lhsBatch := []
  rhsBatch := []
  wf := dot_S8x128_S128x768_S8x768_1_0_0_1_n_n_wf
def dot_S8x256_S256x768_S8x768_1_0_0_1_n_n : DotDims S8x256 S256x768 S8x768 where
  lhsContracting := [1]
  rhsContracting := [0]
  lhsNonContracting := [0]
  rhsNonContracting := [1]
  lhsBatch := []
  rhsBatch := []
  wf := dot_S8x256_S256x768_S8x768_1_0_0_1_n_n_wf
def dot_S8x256_S256x536_S8x536_1_0_0_1_n_n : DotDims S8x256 S256x536 S8x536 where
  lhsContracting := [1]
  rhsContracting := [0]
  lhsNonContracting := [0]
  rhsNonContracting := [1]
  lhsBatch := []
  rhsBatch := []
  wf := dot_S8x256_S256x536_S8x536_1_0_0_1_n_n_wf
def dot_S8x4x128_S8x512x128_S8x4x512_2_2_1_1_0_0 : DotDims S8x4x128 S8x512x128 S8x4x512 where
  lhsContracting := [2]
  rhsContracting := [2]
  lhsNonContracting := [1]
  rhsNonContracting := [1]
  lhsBatch := [0]
  rhsBatch := [0]
  wf := dot_S8x4x128_S8x512x128_S8x4x512_2_2_1_1_0_0_wf
def dot_S8x4x512_S8x512x128_S8x4x128_2_1_1_2_0_0 : DotDims S8x4x512 S8x512x128 S8x4x128 where
  lhsContracting := [2]
  rhsContracting := [1]
  lhsNonContracting := [1]
  rhsNonContracting := [2]
  lhsBatch := [0]
  rhsBatch := [0]
  wf := dot_S8x4x512_S8x512x128_S8x4x128_2_1_1_2_0_0_wf
def dot_S8x256_S256x1560_S8x1560_1_0_0_1_n_n : DotDims S8x256 S256x1560 S8x1560 where
  lhsContracting := [1]
  rhsContracting := [0]
  lhsNonContracting := [0]
  rhsNonContracting := [1]
  lhsBatch := []
  rhsBatch := []
  wf := dot_S8x256_S256x1560_S8x1560_1_0_0_1_n_n_wf
def dot_S8x256_S256x128_S8x128_1_0_0_1_n_n : DotDims S8x256 S256x128 S8x128 where
  lhsContracting := [1]
  rhsContracting := [0]
  lhsNonContracting := [0]
  rhsNonContracting := [1]
  lhsBatch := []
  rhsBatch := []
  wf := dot_S8x256_S256x128_S8x128_1_0_0_1_n_n_wf
def dot_S8x512_S512x128_S8x128_1_0_0_1_n_n : DotDims S8x512 S512x128 S8x128 where
  lhsContracting := [1]
  rhsContracting := [0]
  lhsNonContracting := [0]
  rhsNonContracting := [1]
  lhsBatch := []
  rhsBatch := []
  wf := dot_S8x512_S512x128_S8x128_1_0_0_1_n_n_wf

abbrev win0_0 : Pipeline.Window sig grid0 :=
  Pipeline.Window.ofSpec (Memref.whole main_arg0) S8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x4x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x4x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S768x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S768x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S536x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S536.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v3) S1560x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1560.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v4) S128x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v5) S128x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v6_0) S8x128.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v6_1) S8x512x128.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S1024x128 : Shape := ⟨2, ![1024, 128]⟩
abbrev S1024x512x128 : Shape := ⟨3, ![1024, 512, 128]⟩
abbrev S1024x256 : Shape := ⟨2, ![1024, 256]⟩
abbrev S1024x4x512 : Shape := ⟨3, ![1024, 4, 512]⟩
abbrev S768x128 : Shape := ⟨2, ![768, 128]⟩
abbrev S768x256 : Shape := ⟨2, ![768, 256]⟩
abbrev S768 : Shape := ⟨1, ![768]⟩
abbrev S536x256 : Shape := ⟨2, ![536, 256]⟩
abbrev S536 : Shape := ⟨1, ![536]⟩
abbrev S1560x256 : Shape := ⟨2, ![1560, 256]⟩
abbrev S1560 : Shape := ⟨1, ![1560]⟩
abbrev S128x512 : Shape := ⟨2, ![128, 512]⟩
abbrev S128x256 : Shape := ⟨2, ![128, 256]⟩
abbrev S128 : Shape := ⟨1, ![128]⟩
abbrev S128x768 : Shape := ⟨2, ![128, 768]⟩
abbrev S1024x768 : Shape := ⟨2, ![1024, 768]⟩
abbrev S1x768 : Shape := ⟨2, ![1, 768]⟩
abbrev S256x768 : Shape := ⟨2, ![256, 768]⟩
abbrev S_ : Shape := ⟨0, ![]⟩
abbrev S1024x512 : Shape := ⟨2, ![1024, 512]⟩
abbrev S1024x512x1 : Shape := ⟨3, ![1024, 512, 1]⟩
abbrev S256x536 : Shape := ⟨2, ![256, 536]⟩
abbrev S1024x536 : Shape := ⟨2, ![1024, 536]⟩
abbrev S1x536 : Shape := ⟨2, ![1, 536]⟩
abbrev S1024x4x134 : Shape := ⟨3, ![1024, 4, 134]⟩
abbrev S1024x4x128 : Shape := ⟨3, ![1024, 4, 128]⟩
abbrev S1024x4x1 : Shape := ⟨3, ![1024, 4, 1]⟩
abbrev S1024x4 : Shape := ⟨2, ![1024, 4]⟩
abbrev S1024x4x3 : Shape := ⟨3, ![1024, 4, 3]⟩
abbrev S1024x4x511 : Shape := ⟨3, ![1024, 4, 511]⟩
abbrev S256x128 : Shape := ⟨2, ![256, 128]⟩
abbrev S1x128 : Shape := ⟨2, ![1, 128]⟩
abbrev S512x128 : Shape := ⟨2, ![512, 128]⟩
abbrev S256x1560 : Shape := ⟨2, ![256, 1560]⟩
abbrev S1024x1560 : Shape := ⟨2, ![1024, 1560]⟩
abbrev S1x1560 : Shape := ⟨2, ![1, 1560]⟩
abbrev S1024x4x390 : Shape := ⟨3, ![1024, 4, 390]⟩
abbrev S1024x1x512 : Shape := ⟨3, ![1024, 1, 512]⟩
abbrev S1024x1x128 : Shape := ⟨3, ![1024, 1, 128]⟩

abbrev nBuf : Space → Nat
  | .hbm => 440
  | .vmem => 0
  | .smem => 0
  | _ => 0

abbrev hbmTy0_0 (i : Nat) : BufTy := match i % 128 with
  | 0 => ⟨S1024x128, .f32⟩
  | 1 => ⟨S1024x512x128, .f32⟩
  | 2 => ⟨S1024x256, .f32⟩
  | 3 => ⟨S1024x4x512, .f32⟩
  | 4 => ⟨S1024x4x512, .f32⟩
  | 5 => ⟨S768x128, .f32⟩
  | 6 => ⟨S768x256, .f32⟩
  | 7 => ⟨S768, .f32⟩
  | 8 => ⟨S768, .f32⟩
  | 9 => ⟨S536x256, .f32⟩
  | 10 => ⟨S536, .f32⟩
  | 11 => ⟨S1560x256, .f32⟩
  | 12 => ⟨S1560, .f32⟩
  | 13 => ⟨S128x512, .f32⟩
  | 14 => ⟨S128x256, .f32⟩
  | 15 => ⟨S128, .f32⟩
  | 16 => ⟨S128x768, .f32⟩
  | 17 => ⟨S1024x768, .f32⟩
  | 18 => ⟨S1x768, .f32⟩
  | 19 => ⟨S1024x768, .f32⟩
  | 20 => ⟨S1024x768, .f32⟩
  | 21 => ⟨S256x768, .f32⟩
  | 22 => ⟨S1024x768, .f32⟩
  | 23 => ⟨S1x768, .f32⟩
  | 24 => ⟨S1024x768, .f32⟩
  | 25 => ⟨S1024x768, .f32⟩
  | 26 => ⟨S1024x256, .f32⟩
  | 27 => ⟨S1024x256, .f32⟩
  | 28 => ⟨S1024x256, .f32⟩
  | 29 => ⟨S1024x256, .f32⟩
  | 30 => ⟨S1024x256, .f32⟩
  | 31 => ⟨S1024x256, .f32⟩
  | 32 => ⟨S1024x256, .f32⟩
  | 33 => ⟨S1024x256, .f32⟩
  | 34 => ⟨S1024x256, .f32⟩
  | 35 => ⟨S_, .f32⟩
  | 36 => ⟨S1024x256, .f32⟩
  | 37 => ⟨S1024x256, .f32⟩
  | 38 => ⟨S_, .f32⟩
  | 39 => ⟨S1024x256, .f32⟩
  | 40 => ⟨S1024x256, .f32⟩
  | 41 => ⟨S1024x256, .f32⟩
  | 42 => ⟨S1024x256, .f32⟩
  | 43 => ⟨S1024x256, .f32⟩
  | 44 => ⟨S_, .f32⟩
  | 45 => ⟨S1024x256, .f32⟩
  | 46 => ⟨S1024x256, .f32⟩
  | 47 => ⟨S_, .f32⟩
  | 48 => ⟨S1024x256, .f32⟩
  | 49 => ⟨S1024x256, .f32⟩
  | 50 => ⟨S1024x256, .f32⟩
  | 51 => ⟨S1024x256, .f32⟩
  | 52 => ⟨S1024x256, .f32⟩
  | 53 => ⟨S_, .f32⟩
  | 54 => ⟨S1024x256, .f32⟩
  | 55 => ⟨S1024x256, .f32⟩
  | 56 => ⟨S1024x256, .f32⟩
  | 57 => ⟨S1024x256, .f32⟩
  | 58 => ⟨S1024x256, .f32⟩
  | 59 => ⟨S1024x512x128, .f32⟩
  | 60 => ⟨S_, .f32⟩
  | 61 => ⟨S1024x512, .f32⟩
  | 62 => ⟨S1024x512x1, .f32⟩
  | 63 => ⟨S1024x512x1, .f32⟩
  | 64 => ⟨S_, .f32⟩
  | 65 => ⟨S1024x512x1, .f32⟩
  | 66 => ⟨S1024x512x1, .f32⟩
  | 67 => ⟨S1024x512x128, .f32⟩
  | 68 => ⟨S1024x512x128, .f32⟩
  | 69 => ⟨S256x536, .f32⟩
  | 70 => ⟨S1024x536, .f32⟩
  | 71 => ⟨S1x536, .f32⟩
  | 72 => ⟨S1024x536, .f32⟩
  | 73 => ⟨S1024x536, .f32⟩
  | 74 => ⟨S1024x4x134, .f32⟩
  | 75 => ⟨S1024x4x128, .f32⟩
  | 76 => ⟨S1024x4x1, .f32⟩
  | 77 => ⟨S1024x4, .f32⟩
  | 78 => ⟨S1024x4x1, .f32⟩
  | 79 => ⟨S1024x4, .f32⟩
  | 80 => ⟨S1024x4x3, .f32⟩
  | 81 => ⟨S1024x4x1, .f32⟩
  | 82 => ⟨S1024x4, .f32⟩
  | 83 => ⟨S_, .f32⟩
  | 84 => ⟨S1024x4, .f32⟩
  | 85 => ⟨S1024x4, .f32⟩
  | 86 => ⟨S1024x4, .f32⟩
  | 87 => ⟨S1024x4, .f32⟩
  | 88 => ⟨S1024x4, .i1⟩
  | 89 => ⟨S1024x4, .f32⟩
  | 90 => ⟨S1024x4, .f32⟩
  | 91 => ⟨S1024x4, .f32⟩
  | 92 => ⟨S1024x4, .f32⟩
  | 93 => ⟨S1024x4, .f32⟩
  | 94 => ⟨S1024x4, .f32⟩
  | 95 => ⟨S1024x4, .f32⟩
  | 96 => ⟨S1024x4, .f32⟩
  | 97 => ⟨S1024x4x128, .f32⟩
  | 98 => ⟨S_, .f32⟩
  | 99 => ⟨S1024x4, .f32⟩
  | 100 => ⟨S1024x4x1, .f32⟩
  | 101 => ⟨S1024x4x1, .f32⟩
  | 102 => ⟨S_, .f32⟩
  | 103 => ⟨S1024x4x1, .f32⟩
  | 104 => ⟨S1024x4x1, .f32⟩
  | 105 => ⟨S1024x4x128, .f32⟩
  | 106 => ⟨S1024x4x128, .f32⟩
  | 107 => ⟨S1024x4x512, .f32⟩
  | 108 => ⟨S1024x4x1, .f32⟩
  | 109 => ⟨S1024x4x512, .f32⟩
  | 110 => ⟨S1024x4x512, .f32⟩
  | 111 => ⟨S_, .f32⟩
  | 112 => ⟨S1024x4, .f32⟩
  | 113 => ⟨S_, .f32⟩
  | 114 => ⟨S1024x4, .f32⟩
  | 115 => ⟨S1024x4, .f32⟩
  | 116 => ⟨S1024x4x1, .f32⟩
  | 117 => ⟨S1024x4x512, .f32⟩
  | 118 => ⟨S1024x4x512, .f32⟩
  | 119 => ⟨S1024x4x512, .f32⟩
  | 120 => ⟨S_, .f32⟩
  | 121 => ⟨S1024x4, .f32⟩
  | 122 => ⟨S1024x4x1, .f32⟩
  | 123 => ⟨S1024x4x512, .f32⟩
  | 124 => ⟨S1024x4x512, .f32⟩
  | 125 => ⟨S1024x4, .f32⟩
  | 126 => ⟨S1024x4, .f32⟩
  | 127 => ⟨S_, .f32⟩
  | _ => ⟨S1024x128, .f32⟩

abbrev hbmTy0_1 (i : Nat) : BufTy := match i % 128 with
  | 0 => ⟨S1024x4, .f32⟩
  | 1 => ⟨S1024x4, .f32⟩
  | 2 => ⟨S_, .f32⟩
  | 3 => ⟨S1024x4, .f32⟩
  | 4 => ⟨S1024x4, .f32⟩
  | 5 => ⟨S1024x4x1, .f32⟩
  | 6 => ⟨S1024x4x512, .f32⟩
  | 7 => ⟨S1024x4x512, .f32⟩
  | 8 => ⟨S_, .f32⟩
  | 9 => ⟨S1024x4x1, .f32⟩
  | 10 => ⟨S1024x4x1, .f32⟩
  | 11 => ⟨S1024x4x512, .f32⟩
  | 12 => ⟨S1024x4x512, .f32⟩
  | 13 => ⟨S1024x4x512, .f32⟩
  | 14 => ⟨S_, .f32⟩
  | 15 => ⟨S1024x4, .f32⟩
  | 16 => ⟨S_, .f32⟩
  | 17 => ⟨S1024x4, .f32⟩
  | 18 => ⟨S1024x4, .f32⟩
  | 19 => ⟨S1024x4x1, .f32⟩
  | 20 => ⟨S1024x4x3, .f32⟩
  | 21 => ⟨S1024x4x3, .f32⟩
  | 22 => ⟨S1024x4x3, .f32⟩
  | 23 => ⟨S_, .f32⟩
  | 24 => ⟨S1024x4, .f32⟩
  | 25 => ⟨S1024x4x1, .f32⟩
  | 26 => ⟨S1024x4x3, .f32⟩
  | 27 => ⟨S1024x4x3, .f32⟩
  | 28 => ⟨S1024x4x1, .f32⟩
  | 29 => ⟨S1024x4x511, .f32⟩
  | 30 => ⟨S1024x4x1, .f32⟩
  | 31 => ⟨S1024x4x512, .f32⟩
  | 32 => ⟨S1024x4x512, .f32⟩
  | 33 => ⟨S1024x4x512, .f32⟩
  | 34 => ⟨S1024x4x1, .f32⟩
  | 35 => ⟨S1024x4x512, .f32⟩
  | 36 => ⟨S1024x4x512, .f32⟩
  | 37 => ⟨S1024x4x512, .f32⟩
  | 38 => ⟨S1024x4x1, .f32⟩
  | 39 => ⟨S1024x4x1, .f32⟩
  | 40 => ⟨S1024x4x511, .f32⟩
  | 41 => ⟨S1024x4x512, .f32⟩
  | 42 => ⟨S1024x4x512, .f32⟩
  | 43 => ⟨S1024x4x512, .f32⟩
  | 44 => ⟨S1024x4x512, .f32⟩
  | 45 => ⟨S_, .f32⟩
  | 46 => ⟨S1024x4, .f32⟩
  | 47 => ⟨S1024x4, .f32⟩
  | 48 => ⟨S1024x4, .f32⟩
  | 49 => ⟨S1024x4, .f32⟩
  | 50 => ⟨S1024x4, .i1⟩
  | 51 => ⟨S1024x4, .f32⟩
  | 52 => ⟨S1024x4, .f32⟩
  | 53 => ⟨S1024x4, .f32⟩
  | 54 => ⟨S1024x4, .f32⟩
  | 55 => ⟨S1024x4, .f32⟩
  | 56 => ⟨S1024x4, .f32⟩
  | 57 => ⟨S1024x4, .f32⟩
  | 58 => ⟨S1024x4, .f32⟩
  | 59 => ⟨S_, .f32⟩
  | 60 => ⟨S1024x4, .f32⟩
  | 61 => ⟨S1024x4, .f32⟩
  | 62 => ⟨S_, .f32⟩
  | 63 => ⟨S1024x4x512, .f32⟩
  | 64 => ⟨S1024x4x512, .f32⟩
  | 65 => ⟨S1024x4x1, .f32⟩
  | 66 => ⟨S1024x4x512, .f32⟩
  | 67 => ⟨S1024x4x512, .f32⟩
  | 68 => ⟨S_, .f32⟩
  | 69 => ⟨S1024x4, .f32⟩
  | 70 => ⟨S1024x4x1, .f32⟩
  | 71 => ⟨S_, .f32⟩
  | 72 => ⟨S1024x4x1, .f32⟩
  | 73 => ⟨S1024x4x1, .f32⟩
  | 74 => ⟨S1024x4x512, .f32⟩
  | 75 => ⟨S1024x4x512, .f32⟩
  | 76 => ⟨S1024x4x128, .f32⟩
  | 77 => ⟨S1024x512, .f32⟩
  | 78 => ⟨S256x128, .f32⟩
  | 79 => ⟨S1024x128, .f32⟩
  | 80 => ⟨S1x128, .f32⟩
  | 81 => ⟨S1024x128, .f32⟩
  | 82 => ⟨S1024x128, .f32⟩
  | 83 => ⟨S512x128, .f32⟩
  | 84 => ⟨S1024x128, .f32⟩
  | 85 => ⟨S1024x128, .f32⟩
  | 86 => ⟨S256x1560, .f32⟩
  | 87 => ⟨S1024x1560, .f32⟩
  | 88 => ⟨S1x1560, .f32⟩
  | 89 => ⟨S1024x1560, .f32⟩
  | 90 => ⟨S1024x1560, .f32⟩
  | 91 => ⟨S1024x4x390, .f32⟩
  | 92 => ⟨S1024x4x128, .f32⟩
  | 93 => ⟨S1024x4x1, .f32⟩
  | 94 => ⟨S1024x4, .f32⟩
  | 95 => ⟨S1024x4x1, .f32⟩
  | 96 => ⟨S1024x4, .f32⟩
  | 97 => ⟨S1024x4x3, .f32⟩
  | 98 => ⟨S1024x4x1, .f32⟩
  | 99 => ⟨S1024x4, .f32⟩
  | 100 => ⟨S_, .f32⟩
  | 101 => ⟨S1024x4, .f32⟩
  | 102 => ⟨S1024x4, .f32⟩
  | 103 => ⟨S1024x4, .f32⟩
  | 104 => ⟨S1024x4, .f32⟩
  | 105 => ⟨S1024x4, .i1⟩
  | 106 => ⟨S1024x4, .f32⟩
  | 107 => ⟨S1024x4, .f32⟩
  | 108 => ⟨S1024x4, .f32⟩
  | 109 => ⟨S1024x4, .f32⟩
  | 110 => ⟨S1024x4, .f32⟩
  | 111 => ⟨S1024x4, .f32⟩
  | 112 => ⟨S1024x4, .f32⟩
  | 113 => ⟨S1024x4, .f32⟩
  | 114 => ⟨S1024x4x128, .f32⟩
  | 115 => ⟨S_, .f32⟩
  | 116 => ⟨S1024x4, .f32⟩
  | 117 => ⟨S1024x4x1, .f32⟩
  | 118 => ⟨S1024x4x1, .f32⟩
  | 119 => ⟨S_, .f32⟩
  | 120 => ⟨S1024x4x1, .f32⟩
  | 121 => ⟨S1024x4x1, .f32⟩
  | 122 => ⟨S1024x4x128, .f32⟩
  | 123 => ⟨S1024x4x128, .f32⟩
  | 124 => ⟨S1024x4x512, .f32⟩
  | 125 => ⟨S1024x4x1, .f32⟩
  | 126 => ⟨S1024x4x512, .f32⟩
  | 127 => ⟨S1024x4x512, .f32⟩
  | _ => ⟨S1024x128, .f32⟩

abbrev hbmTy0_2 (i : Nat) : BufTy := match i % 128 with
  | 0 => ⟨S_, .f32⟩
  | 1 => ⟨S1024x4, .f32⟩
  | 2 => ⟨S_, .f32⟩
  | 3 => ⟨S1024x4, .f32⟩
  | 4 => ⟨S1024x4, .f32⟩
  | 5 => ⟨S1024x4x1, .f32⟩
  | 6 => ⟨S1024x4x512, .f32⟩
  | 7 => ⟨S1024x4x512, .f32⟩
  | 8 => ⟨S1024x4x512, .f32⟩
  | 9 => ⟨S_, .f32⟩
  | 10 => ⟨S1024x4, .f32⟩
  | 11 => ⟨S1024x4x1, .f32⟩
  | 12 => ⟨S1024x4x512, .f32⟩
  | 13 => ⟨S1024x4x512, .f32⟩
  | 14 => ⟨S1024x4, .f32⟩
  | 15 => ⟨S1024x4, .f32⟩
  | 16 => ⟨S_, .f32⟩
  | 17 => ⟨S1024x4, .f32⟩
  | 18 => ⟨S1024x4, .f32⟩
  | 19 => ⟨S_, .f32⟩
  | 20 => ⟨S1024x4, .f32⟩
  | 21 => ⟨S1024x4, .f32⟩
  | 22 => ⟨S1024x4x1, .f32⟩
  | 23 => ⟨S1024x4x512, .f32⟩
  | 24 => ⟨S1024x4x512, .f32⟩
  | 25 => ⟨S_, .f32⟩
  | 26 => ⟨S1024x4x1, .f32⟩
  | 27 => ⟨S1024x4x1, .f32⟩
  | 28 => ⟨S1024x4x512, .f32⟩
  | 29 => ⟨S1024x4x512, .f32⟩
  | 30 => ⟨S1024x4x512, .f32⟩
  | 31 => ⟨S_, .f32⟩
  | 32 => ⟨S1024x4, .f32⟩
  | 33 => ⟨S_, .f32⟩
  | 34 => ⟨S1024x4, .f32⟩
  | 35 => ⟨S1024x4, .f32⟩
  | 36 => ⟨S1024x4x1, .f32⟩
  | 37 => ⟨S1024x4x3, .f32⟩
  | 38 => ⟨S1024x4x3, .f32⟩
  | 39 => ⟨S1024x4x3, .f32⟩
  | 40 => ⟨S_, .f32⟩
  | 41 => ⟨S1024x4, .f32⟩
  | 42 => ⟨S1024x4x1, .f32⟩
  | 43 => ⟨S1024x4x3, .f32⟩
  | 44 => ⟨S1024x4x3, .f32⟩
  | 45 => ⟨S1024x4x1, .f32⟩
  | 46 => ⟨S1024x4x511, .f32⟩
  | 47 => ⟨S1024x4x1, .f32⟩
  | 48 => ⟨S1024x4x512, .f32⟩
  | 49 => ⟨S1024x4x512, .f32⟩
  | 50 => ⟨S1024x4x512, .f32⟩
  | 51 => ⟨S1024x4x1, .f32⟩
  | 52 => ⟨S1024x4x512, .f32⟩
  | 53 => ⟨S1024x4x512, .f32⟩
  | 54 => ⟨S1024x4x512, .f32⟩
  | 55 => ⟨S1024x4x1, .f32⟩
  | 56 => ⟨S1024x4x1, .f32⟩
  | 57 => ⟨S1024x4x511, .f32⟩
  | 58 => ⟨S1024x4x512, .f32⟩
  | 59 => ⟨S1024x4x512, .f32⟩
  | 60 => ⟨S1024x4x512, .f32⟩
  | 61 => ⟨S1024x4x512, .f32⟩
  | 62 => ⟨S_, .f32⟩
  | 63 => ⟨S1024x4, .f32⟩
  | 64 => ⟨S1024x4, .f32⟩
  | 65 => ⟨S1024x4, .f32⟩
  | 66 => ⟨S1024x4, .f32⟩
  | 67 => ⟨S1024x4, .i1⟩
  | 68 => ⟨S1024x4, .f32⟩
  | 69 => ⟨S1024x4, .f32⟩
  | 70 => ⟨S1024x4, .f32⟩
  | 71 => ⟨S1024x4, .f32⟩
  | 72 => ⟨S1024x4, .f32⟩
  | 73 => ⟨S1024x4, .f32⟩
  | 74 => ⟨S1024x4, .f32⟩
  | 75 => ⟨S1024x4, .f32⟩
  | 76 => ⟨S_, .f32⟩
  | 77 => ⟨S1024x4, .f32⟩
  | 78 => ⟨S1024x4, .f32⟩
  | 79 => ⟨S_, .f32⟩
  | 80 => ⟨S1024x4x512, .f32⟩
  | 81 => ⟨S1024x4x512, .f32⟩
  | 82 => ⟨S1024x4x1, .f32⟩
  | 83 => ⟨S1024x4x512, .f32⟩
  | 84 => ⟨S1024x4x512, .f32⟩
  | 85 => ⟨S_, .f32⟩
  | 86 => ⟨S1024x4, .f32⟩
  | 87 => ⟨S1024x4x1, .f32⟩
  | 88 => ⟨S_, .f32⟩
  | 89 => ⟨S1024x4x1, .f32⟩
  | 90 => ⟨S1024x4x1, .f32⟩
  | 91 => ⟨S1024x4x512, .f32⟩
  | 92 => ⟨S1024x4x512, .f32⟩
  | 93 => ⟨S1024x4x128, .f32⟩
  | 94 => ⟨S1024x4x128, .f32⟩
  | 95 => ⟨S1024x4x128, .f32⟩
  | 96 => ⟨S_, .f32⟩
  | 97 => ⟨S1024x4x128, .f32⟩
  | 98 => ⟨S1024x4x128, .f32⟩
  | 99 => ⟨S_, .f32⟩
  | 100 => ⟨S1024x4x128, .f32⟩
  | 101 => ⟨S1024x4x128, .f32⟩
  | 102 => ⟨S1024x4x128, .f32⟩
  | 103 => ⟨S1024x4x128, .f32⟩
  | 104 => ⟨S1024x1x512, .f32⟩
  | 105 => ⟨S1024x512, .f32⟩
  | 106 => ⟨S1024x512x1, .f32⟩
  | 107 => ⟨S1024x1x128, .f32⟩
  | 108 => ⟨S1024x128, .f32⟩
  | 109 => ⟨S1024x1x128, .f32⟩
  | 110 => ⟨S1024x512x128, .f32⟩
  | 111 => ⟨S1024x512x128, .f32⟩
  | 112 => ⟨S1024x512x128, .f32⟩
  | 113 => ⟨S_, .f32⟩
  | 114 => ⟨S1024x512x128, .f32⟩
  | 115 => ⟨S1024x512x128, .f32⟩
  | 116 => ⟨S1024x512x128, .f32⟩
  | 117 => ⟨S1024x1x128, .f32⟩
  | 118 => ⟨S1024x128, .f32⟩
  | 119 => ⟨S1024x1x128, .f32⟩
  | 120 => ⟨S1024x512x128, .f32⟩
  | 121 => ⟨S1024x512x128, .f32⟩
  | 122 => ⟨S1024x512x128, .f32⟩
  | 123 => ⟨S1024x512x128, .f32⟩
  | 124 => ⟨S1024x1x512, .f32⟩
  | 125 => ⟨S1024x512, .f32⟩
  | 126 => ⟨S1024x512x1, .f32⟩
  | 127 => ⟨S1024x1x128, .f32⟩
  | _ => ⟨S1024x128, .f32⟩

abbrev hbmTy0_3 (i : Nat) : BufTy := match i % 128 with
  | 0 => ⟨S1024x128, .f32⟩
  | 1 => ⟨S1024x1x128, .f32⟩
  | 2 => ⟨S1024x512x128, .f32⟩
  | 3 => ⟨S1024x512x128, .f32⟩
  | 4 => ⟨S1024x512x128, .f32⟩
  | 5 => ⟨S_, .f32⟩
  | 6 => ⟨S1024x512x128, .f32⟩
  | 7 => ⟨S1024x512x128, .f32⟩
  | 8 => ⟨S1024x512x128, .f32⟩
  | 9 => ⟨S1024x1x128, .f32⟩
  | 10 => ⟨S1024x128, .f32⟩
  | 11 => ⟨S1024x1x128, .f32⟩
  | 12 => ⟨S1024x512x128, .f32⟩
  | 13 => ⟨S1024x512x128, .f32⟩
  | 14 => ⟨S1024x512x128, .f32⟩
  | 15 => ⟨S1024x512x128, .f32⟩
  | 16 => ⟨S1024x1x512, .f32⟩
  | 17 => ⟨S1024x512, .f32⟩
  | 18 => ⟨S1024x512x1, .f32⟩
  | 19 => ⟨S1024x1x128, .f32⟩
  | 20 => ⟨S1024x128, .f32⟩
  | 21 => ⟨S1024x1x128, .f32⟩
  | 22 => ⟨S1024x512x128, .f32⟩
  | 23 => ⟨S1024x512x128, .f32⟩
  | 24 => ⟨S1024x512x128, .f32⟩
  | 25 => ⟨S_, .f32⟩
  | 26 => ⟨S1024x512x128, .f32⟩
  | 27 => ⟨S1024x512x128, .f32⟩
  | 28 => ⟨S1024x512x128, .f32⟩
  | 29 => ⟨S1024x1x128, .f32⟩
  | 30 => ⟨S1024x128, .f32⟩
  | 31 => ⟨S1024x1x128, .f32⟩
  | 32 => ⟨S1024x512x128, .f32⟩
  | 33 => ⟨S1024x512x128, .f32⟩
  | 34 => ⟨S1024x512x128, .f32⟩
  | 35 => ⟨S1024x512x128, .f32⟩
  | 36 => ⟨S1024x1x512, .f32⟩
  | 37 => ⟨S1024x512, .f32⟩
  | 38 => ⟨S1024x512x1, .f32⟩
  | 39 => ⟨S1024x1x128, .f32⟩
  | 40 => ⟨S1024x128, .f32⟩
  | 41 => ⟨S1024x1x128, .f32⟩
  | 42 => ⟨S1024x512x128, .f32⟩
  | 43 => ⟨S1024x512x128, .f32⟩
  | 44 => ⟨S1024x512x128, .f32⟩
  | 45 => ⟨S_, .f32⟩
  | 46 => ⟨S1024x512x128, .f32⟩
  | 47 => ⟨S1024x512x128, .f32⟩
  | 48 => ⟨S1024x512x128, .f32⟩
  | 49 => ⟨S1024x1x128, .f32⟩
  | 50 => ⟨S1024x128, .f32⟩
  | 51 => ⟨S1024x1x128, .f32⟩
  | 52 => ⟨S1024x512x128, .f32⟩
  | 53 => ⟨S1024x512x128, .f32⟩
  | 54 => ⟨S1024x512x128, .f32⟩
  | 55 => ⟨S1024x512x128, .f32⟩
  | _ => ⟨S1024x128, .f32⟩

abbrev hbmTy (i : Nat) : BufTy := match i / 128 with
  | 0 => hbmTy0_0 i
  | 1 => hbmTy0_1 i
  | 2 => hbmTy0_2 i
  | 3 => hbmTy0_3 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_cst_0 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_1 : Ref sig .tc := ⟨.hbm, 44, rfl⟩
abbrev main_v26 : Ref sig .tc := ⟨.hbm, 45, rfl⟩
abbrev main_v27 : Ref sig .tc := ⟨.hbm, 46, rfl⟩
abbrev main_cst_2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_3 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call0_v0 : Ref sig .tc := ⟨.hbm, 59, rfl⟩
abbrev main_call0_cst : Ref sig .tc := ⟨.hbm, 60, rfl⟩
abbrev main_call0_v1 : Ref sig .tc := ⟨.hbm, 61, rfl⟩
abbrev main_call0_v2 : Ref sig .tc := ⟨.hbm, 62, rfl⟩
abbrev main_v38 : Ref sig .tc := ⟨.hbm, 63, rfl⟩
abbrev main_cst_4 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call1_cst : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_v6 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_v57 : Ref sig .tc := ⟨.hbm, 96, rfl⟩
abbrev main_call2_v0 : Ref sig .tc := ⟨.hbm, 97, rfl⟩
abbrev main_call2_cst : Ref sig .tc := ⟨.hbm, 98, rfl⟩
abbrev main_call2_v1 : Ref sig .tc := ⟨.hbm, 99, rfl⟩
abbrev main_call2_v2 : Ref sig .tc := ⟨.hbm, 100, rfl⟩
abbrev main_v58 : Ref sig .tc := ⟨.hbm, 101, rfl⟩
abbrev main_cst_5 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_cst_6 : Ref sig .tc := ⟨.hbm, 111, rfl⟩
abbrev main_v67 : Ref sig .tc := ⟨.hbm, 112, rfl⟩
abbrev main_cst_7 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_cst_8 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_cst_9 : Ref sig .tc := ⟨.hbm, 127, rfl⟩
abbrev main_v80 : Ref sig .tc := ⟨.hbm, 128, rfl⟩
abbrev main_v81 : Ref sig .tc := ⟨.hbm, 129, rfl⟩
abbrev main_cst_10 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_cst_11 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_12 : Ref sig .tc := ⟨.hbm, 142, rfl⟩
abbrev main_v92 : Ref sig .tc := ⟨.hbm, 143, rfl⟩
abbrev main_cst_13 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_cst_14 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_call3_v0 : Ref sig .tc := ⟨.hbm, 157, rfl⟩
abbrev main_call3_v1 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_call4_v0 : Ref sig .tc := ⟨.hbm, 167, rfl⟩
abbrev main_call4_v1 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_call5_cst : Ref sig .tc := ⟨.hbm, 173, rfl⟩
abbrev main_call5_v0 : Ref sig .tc := ⟨.hbm, 174, rfl⟩
abbrev main_call5_v1 : Ref sig .tc := ⟨.hbm, 175, rfl⟩
abbrev main_call5_v2 : Ref sig .tc := ⟨.hbm, 176, rfl⟩
abbrev main_call5_v3 : Ref sig .tc := ⟨.hbm, 177, rfl⟩
abbrev main_call5_v4 : Ref sig .tc := ⟨.hbm, 178, rfl⟩
abbrev main_call5_v5 : Ref sig .tc := ⟨.hbm, 179, rfl⟩
abbrev main_call5_v6 : Ref sig .tc := ⟨.hbm, 180, rfl⟩
abbrev main_call5_v7 : Ref sig .tc := ⟨.hbm, 181, rfl⟩
abbrev main_call5_v8 : Ref sig .tc := ⟨.hbm, 182, rfl⟩
abbrev main_call5_v9 : Ref sig .tc := ⟨.hbm, 183, rfl⟩
abbrev main_call5_v10 : Ref sig .tc := ⟨.hbm, 184, rfl⟩
abbrev main_call5_v11 : Ref sig .tc := ⟨.hbm, 185, rfl⟩
abbrev main_v116 : Ref sig .tc := ⟨.hbm, 186, rfl⟩
abbrev main_cst_15 : Ref sig .tc := ⟨.hbm, 187, rfl⟩
abbrev main_v117 : Ref sig .tc := ⟨.hbm, 188, rfl⟩
abbrev main_v118 : Ref sig .tc := ⟨.hbm, 189, rfl⟩
abbrev main_cst_16 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_cst_17 : Ref sig .tc := ⟨.hbm, 196, rfl⟩
abbrev main_v124 : Ref sig .tc := ⟨.hbm, 197, rfl⟩
abbrev main_v125 : Ref sig .tc := ⟨.hbm, 198, rfl⟩
abbrev main_cst_18 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_call6_cst : Ref sig .tc := ⟨.hbm, 228, rfl⟩
abbrev main_call6_v0 : Ref sig .tc := ⟨.hbm, 229, rfl⟩
abbrev main_call6_v1 : Ref sig .tc := ⟨.hbm, 230, rfl⟩
abbrev main_call6_v2 : Ref sig .tc := ⟨.hbm, 231, rfl⟩
abbrev main_call6_v3 : Ref sig .tc := ⟨.hbm, 232, rfl⟩
abbrev main_call6_v4 : Ref sig .tc := ⟨.hbm, 233, rfl⟩
abbrev main_call6_v5 : Ref sig .tc := ⟨.hbm, 234, rfl⟩
abbrev main_call6_v6 : Ref sig .tc := ⟨.hbm, 235, rfl⟩
abbrev main_call6_v7 : Ref sig .tc := ⟨.hbm, 236, rfl⟩
abbrev main_call6_v8 : Ref sig .tc := ⟨.hbm, 237, rfl⟩
abbrev main_call6_v9 : Ref sig .tc := ⟨.hbm, 238, rfl⟩
abbrev main_call6_v10 : Ref sig .tc := ⟨.hbm, 239, rfl⟩
abbrev main_call6_v11 : Ref sig .tc := ⟨.hbm, 240, rfl⟩
abbrev main_v154 : Ref sig .tc := ⟨.hbm, 241, rfl⟩
abbrev main_call7_v0 : Ref sig .tc := ⟨.hbm, 242, rfl⟩
abbrev main_call7_cst : Ref sig .tc := ⟨.hbm, 243, rfl⟩
abbrev main_call7_v1 : Ref sig .tc := ⟨.hbm, 244, rfl⟩
abbrev main_call7_v2 : Ref sig .tc := ⟨.hbm, 245, rfl⟩
abbrev main_v155 : Ref sig .tc := ⟨.hbm, 246, rfl⟩
abbrev main_cst_19 : Ref sig .tc := ⟨.hbm, 247, rfl⟩
abbrev main_v156 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_v160 : Ref sig .tc := ⟨.hbm, 252, rfl⟩
abbrev main_v161 : Ref sig .tc := ⟨.hbm, 253, rfl⟩
abbrev main_v162 : Ref sig .tc := ⟨.hbm, 254, rfl⟩
abbrev main_v163 : Ref sig .tc := ⟨.hbm, 255, rfl⟩
abbrev main_cst_20 : Ref sig .tc := ⟨.hbm, 256, rfl⟩
abbrev main_v164 : Ref sig .tc := ⟨.hbm, 257, rfl⟩
abbrev main_cst_21 : Ref sig .tc := ⟨.hbm, 258, rfl⟩
abbrev main_v165 : Ref sig .tc := ⟨.hbm, 259, rfl⟩
abbrev main_v166 : Ref sig .tc := ⟨.hbm, 260, rfl⟩
abbrev main_v167 : Ref sig .tc := ⟨.hbm, 261, rfl⟩
abbrev main_v168 : Ref sig .tc := ⟨.hbm, 262, rfl⟩
abbrev main_v169 : Ref sig .tc := ⟨.hbm, 263, rfl⟩
abbrev main_v170 : Ref sig .tc := ⟨.hbm, 264, rfl⟩
abbrev main_cst_22 : Ref sig .tc := ⟨.hbm, 265, rfl⟩
abbrev main_v171 : Ref sig .tc := ⟨.hbm, 266, rfl⟩
abbrev main_v172 : Ref sig .tc := ⟨.hbm, 267, rfl⟩
abbrev main_v173 : Ref sig .tc := ⟨.hbm, 268, rfl⟩
abbrev main_v174 : Ref sig .tc := ⟨.hbm, 269, rfl⟩
abbrev main_v175 : Ref sig .tc := ⟨.hbm, 270, rfl⟩
abbrev main_v176 : Ref sig .tc := ⟨.hbm, 271, rfl⟩
abbrev main_cst_23 : Ref sig .tc := ⟨.hbm, 272, rfl⟩
abbrev main_v177 : Ref sig .tc := ⟨.hbm, 273, rfl⟩
abbrev main_v178 : Ref sig .tc := ⟨.hbm, 274, rfl⟩
abbrev main_cst_24 : Ref sig .tc := ⟨.hbm, 275, rfl⟩
abbrev main_v179 : Ref sig .tc := ⟨.hbm, 276, rfl⟩
abbrev main_v180 : Ref sig .tc := ⟨.hbm, 277, rfl⟩
abbrev main_v181 : Ref sig .tc := ⟨.hbm, 278, rfl⟩
abbrev main_v182 : Ref sig .tc := ⟨.hbm, 279, rfl⟩
abbrev main_v183 : Ref sig .tc := ⟨.hbm, 280, rfl⟩
abbrev main_cst_25 : Ref sig .tc := ⟨.hbm, 281, rfl⟩
abbrev main_v184 : Ref sig .tc := ⟨.hbm, 282, rfl⟩
abbrev main_v185 : Ref sig .tc := ⟨.hbm, 283, rfl⟩
abbrev main_v186 : Ref sig .tc := ⟨.hbm, 284, rfl⟩
abbrev main_v187 : Ref sig .tc := ⟨.hbm, 285, rfl⟩
abbrev main_v188 : Ref sig .tc := ⟨.hbm, 286, rfl⟩
abbrev main_cst_26 : Ref sig .tc := ⟨.hbm, 287, rfl⟩
abbrev main_v189 : Ref sig .tc := ⟨.hbm, 288, rfl⟩
abbrev main_cst_27 : Ref sig .tc := ⟨.hbm, 289, rfl⟩
abbrev main_v190 : Ref sig .tc := ⟨.hbm, 290, rfl⟩
abbrev main_v191 : Ref sig .tc := ⟨.hbm, 291, rfl⟩
abbrev main_v192 : Ref sig .tc := ⟨.hbm, 292, rfl⟩
abbrev main_v193 : Ref sig .tc := ⟨.hbm, 293, rfl⟩
abbrev main_v194 : Ref sig .tc := ⟨.hbm, 294, rfl⟩
abbrev main_v195 : Ref sig .tc := ⟨.hbm, 295, rfl⟩
abbrev main_cst_28 : Ref sig .tc := ⟨.hbm, 296, rfl⟩
abbrev main_v196 : Ref sig .tc := ⟨.hbm, 297, rfl⟩
abbrev main_v197 : Ref sig .tc := ⟨.hbm, 298, rfl⟩
abbrev main_v198 : Ref sig .tc := ⟨.hbm, 299, rfl⟩
abbrev main_v199 : Ref sig .tc := ⟨.hbm, 300, rfl⟩
abbrev main_v200 : Ref sig .tc := ⟨.hbm, 301, rfl⟩
abbrev main_call8_v0 : Ref sig .tc := ⟨.hbm, 302, rfl⟩
abbrev main_call8_v1 : Ref sig .tc := ⟨.hbm, 303, rfl⟩
abbrev main_v201 : Ref sig .tc := ⟨.hbm, 304, rfl⟩
abbrev main_v202 : Ref sig .tc := ⟨.hbm, 305, rfl⟩
abbrev main_v203 : Ref sig .tc := ⟨.hbm, 306, rfl⟩
abbrev main_v204 : Ref sig .tc := ⟨.hbm, 307, rfl⟩
abbrev main_v205 : Ref sig .tc := ⟨.hbm, 308, rfl⟩
abbrev main_v206 : Ref sig .tc := ⟨.hbm, 309, rfl⟩
abbrev main_v207 : Ref sig .tc := ⟨.hbm, 310, rfl⟩
abbrev main_v208 : Ref sig .tc := ⟨.hbm, 311, rfl⟩
abbrev main_call9_v0 : Ref sig .tc := ⟨.hbm, 312, rfl⟩
abbrev main_call9_v1 : Ref sig .tc := ⟨.hbm, 313, rfl⟩
abbrev main_v209 : Ref sig .tc := ⟨.hbm, 314, rfl⟩
abbrev main_v210 : Ref sig .tc := ⟨.hbm, 315, rfl⟩
abbrev main_v211 : Ref sig .tc := ⟨.hbm, 316, rfl⟩
abbrev main_v212 : Ref sig .tc := ⟨.hbm, 317, rfl⟩
abbrev main_call10_cst : Ref sig .tc := ⟨.hbm, 318, rfl⟩
abbrev main_call10_v0 : Ref sig .tc := ⟨.hbm, 319, rfl⟩
abbrev main_call10_v1 : Ref sig .tc := ⟨.hbm, 320, rfl⟩
abbrev main_call10_v2 : Ref sig .tc := ⟨.hbm, 321, rfl⟩
abbrev main_call10_v3 : Ref sig .tc := ⟨.hbm, 322, rfl⟩
abbrev main_call10_v4 : Ref sig .tc := ⟨.hbm, 323, rfl⟩
abbrev main_call10_v5 : Ref sig .tc := ⟨.hbm, 324, rfl⟩
abbrev main_call10_v6 : Ref sig .tc := ⟨.hbm, 325, rfl⟩
abbrev main_call10_v7 : Ref sig .tc := ⟨.hbm, 326, rfl⟩
abbrev main_call10_v8 : Ref sig .tc := ⟨.hbm, 327, rfl⟩
abbrev main_call10_v9 : Ref sig .tc := ⟨.hbm, 328, rfl⟩
abbrev main_call10_v10 : Ref sig .tc := ⟨.hbm, 329, rfl⟩
abbrev main_call10_v11 : Ref sig .tc := ⟨.hbm, 330, rfl⟩
abbrev main_v213 : Ref sig .tc := ⟨.hbm, 331, rfl⟩
abbrev main_cst_29 : Ref sig .tc := ⟨.hbm, 332, rfl⟩
abbrev main_v214 : Ref sig .tc := ⟨.hbm, 333, rfl⟩
abbrev main_v215 : Ref sig .tc := ⟨.hbm, 334, rfl⟩
abbrev main_cst_30 : Ref sig .tc := ⟨.hbm, 335, rfl⟩
abbrev main_v216 : Ref sig .tc := ⟨.hbm, 336, rfl⟩
abbrev main_v217 : Ref sig .tc := ⟨.hbm, 337, rfl⟩
abbrev main_v218 : Ref sig .tc := ⟨.hbm, 338, rfl⟩
abbrev main_v219 : Ref sig .tc := ⟨.hbm, 339, rfl⟩
abbrev main_v220 : Ref sig .tc := ⟨.hbm, 340, rfl⟩
abbrev main_cst_31 : Ref sig .tc := ⟨.hbm, 341, rfl⟩
abbrev main_v221 : Ref sig .tc := ⟨.hbm, 342, rfl⟩
abbrev main_v222 : Ref sig .tc := ⟨.hbm, 343, rfl⟩
abbrev main_cst_32 : Ref sig .tc := ⟨.hbm, 344, rfl⟩
abbrev main_v223 : Ref sig .tc := ⟨.hbm, 345, rfl⟩
abbrev main_v224 : Ref sig .tc := ⟨.hbm, 346, rfl⟩
abbrev main_v225 : Ref sig .tc := ⟨.hbm, 347, rfl⟩
abbrev main_v226 : Ref sig .tc := ⟨.hbm, 348, rfl⟩
abbrev main_v227 : Ref sig .tc := ⟨.hbm, 349, rfl⟩
abbrev main_v228 : Ref sig .tc := ⟨.hbm, 350, rfl⟩
abbrev main_v229 : Ref sig .tc := ⟨.hbm, 351, rfl⟩
abbrev main_cst_33 : Ref sig .tc := ⟨.hbm, 352, rfl⟩
abbrev main_v230 : Ref sig .tc := ⟨.hbm, 353, rfl⟩
abbrev main_v231 : Ref sig .tc := ⟨.hbm, 354, rfl⟩
abbrev main_cst_34 : Ref sig .tc := ⟨.hbm, 355, rfl⟩
abbrev main_v232 : Ref sig .tc := ⟨.hbm, 356, rfl⟩
abbrev main_v233 : Ref sig .tc := ⟨.hbm, 357, rfl⟩
abbrev main_v234 : Ref sig .tc := ⟨.hbm, 358, rfl⟩
abbrev main_v235 : Ref sig .tc := ⟨.hbm, 359, rfl⟩
abbrev main_v236 : Ref sig .tc := ⟨.hbm, 360, rfl⟩
abbrev main_v237 : Ref sig .tc := ⟨.hbm, 361, rfl⟩
abbrev main_v238 : Ref sig .tc := ⟨.hbm, 362, rfl⟩
abbrev main_v239 : Ref sig .tc := ⟨.hbm, 363, rfl⟩
abbrev main_v240 : Ref sig .tc := ⟨.hbm, 364, rfl⟩
abbrev main_v241 : Ref sig .tc := ⟨.hbm, 365, rfl⟩
abbrev main_v242 : Ref sig .tc := ⟨.hbm, 366, rfl⟩
abbrev main_v243 : Ref sig .tc := ⟨.hbm, 367, rfl⟩
abbrev main_v244 : Ref sig .tc := ⟨.hbm, 368, rfl⟩
abbrev main_cst_35 : Ref sig .tc := ⟨.hbm, 369, rfl⟩
abbrev main_v245 : Ref sig .tc := ⟨.hbm, 370, rfl⟩
abbrev main_v246 : Ref sig .tc := ⟨.hbm, 371, rfl⟩
abbrev main_v247 : Ref sig .tc := ⟨.hbm, 372, rfl⟩
abbrev main_v248 : Ref sig .tc := ⟨.hbm, 373, rfl⟩
abbrev main_v249 : Ref sig .tc := ⟨.hbm, 374, rfl⟩
abbrev main_v250 : Ref sig .tc := ⟨.hbm, 375, rfl⟩
abbrev main_v251 : Ref sig .tc := ⟨.hbm, 376, rfl⟩
abbrev main_v252 : Ref sig .tc := ⟨.hbm, 377, rfl⟩
abbrev main_v253 : Ref sig .tc := ⟨.hbm, 378, rfl⟩
abbrev main_v254 : Ref sig .tc := ⟨.hbm, 379, rfl⟩
abbrev main_v255 : Ref sig .tc := ⟨.hbm, 380, rfl⟩
abbrev main_v256 : Ref sig .tc := ⟨.hbm, 381, rfl⟩
abbrev main_v257 : Ref sig .tc := ⟨.hbm, 382, rfl⟩
abbrev main_v258 : Ref sig .tc := ⟨.hbm, 383, rfl⟩
abbrev main_v259 : Ref sig .tc := ⟨.hbm, 384, rfl⟩
abbrev main_v260 : Ref sig .tc := ⟨.hbm, 385, rfl⟩
abbrev main_v261 : Ref sig .tc := ⟨.hbm, 386, rfl⟩
abbrev main_v262 : Ref sig .tc := ⟨.hbm, 387, rfl⟩
abbrev main_v263 : Ref sig .tc := ⟨.hbm, 388, rfl⟩
abbrev main_cst_36 : Ref sig .tc := ⟨.hbm, 389, rfl⟩
abbrev main_v264 : Ref sig .tc := ⟨.hbm, 390, rfl⟩
abbrev main_v265 : Ref sig .tc := ⟨.hbm, 391, rfl⟩
abbrev main_v266 : Ref sig .tc := ⟨.hbm, 392, rfl⟩
abbrev main_v267 : Ref sig .tc := ⟨.hbm, 393, rfl⟩
abbrev main_v268 : Ref sig .tc := ⟨.hbm, 394, rfl⟩
abbrev main_v269 : Ref sig .tc := ⟨.hbm, 395, rfl⟩
abbrev main_v270 : Ref sig .tc := ⟨.hbm, 396, rfl⟩
abbrev main_v271 : Ref sig .tc := ⟨.hbm, 397, rfl⟩
abbrev main_v272 : Ref sig .tc := ⟨.hbm, 398, rfl⟩
abbrev main_v273 : Ref sig .tc := ⟨.hbm, 399, rfl⟩
abbrev main_v274 : Ref sig .tc := ⟨.hbm, 400, rfl⟩
abbrev main_v275 : Ref sig .tc := ⟨.hbm, 401, rfl⟩
abbrev main_v276 : Ref sig .tc := ⟨.hbm, 402, rfl⟩
abbrev main_v277 : Ref sig .tc := ⟨.hbm, 403, rfl⟩
abbrev main_v278 : Ref sig .tc := ⟨.hbm, 404, rfl⟩
abbrev main_v279 : Ref sig .tc := ⟨.hbm, 405, rfl⟩
abbrev main_v280 : Ref sig .tc := ⟨.hbm, 406, rfl⟩
abbrev main_v281 : Ref sig .tc := ⟨.hbm, 407, rfl⟩
abbrev main_v282 : Ref sig .tc := ⟨.hbm, 408, rfl⟩
abbrev main_cst_37 : Ref sig .tc := ⟨.hbm, 409, rfl⟩
abbrev main_v283 : Ref sig .tc := ⟨.hbm, 410, rfl⟩
abbrev main_v284 : Ref sig .tc := ⟨.hbm, 411, rfl⟩
abbrev main_v285 : Ref sig .tc := ⟨.hbm, 412, rfl⟩
abbrev main_v286 : Ref sig .tc := ⟨.hbm, 413, rfl⟩
abbrev main_v287 : Ref sig .tc := ⟨.hbm, 414, rfl⟩
abbrev main_v288 : Ref sig .tc := ⟨.hbm, 415, rfl⟩
abbrev main_v289 : Ref sig .tc := ⟨.hbm, 416, rfl⟩
abbrev main_v290 : Ref sig .tc := ⟨.hbm, 417, rfl⟩
abbrev main_v291 : Ref sig .tc := ⟨.hbm, 418, rfl⟩
abbrev main_v292 : Ref sig .tc := ⟨.hbm, 419, rfl⟩
abbrev main_v293 : Ref sig .tc := ⟨.hbm, 420, rfl⟩
abbrev main_v294 : Ref sig .tc := ⟨.hbm, 421, rfl⟩
abbrev main_v295 : Ref sig .tc := ⟨.hbm, 422, rfl⟩
abbrev main_v296 : Ref sig .tc := ⟨.hbm, 423, rfl⟩
abbrev main_v297 : Ref sig .tc := ⟨.hbm, 424, rfl⟩
abbrev main_v298 : Ref sig .tc := ⟨.hbm, 425, rfl⟩
abbrev main_v299 : Ref sig .tc := ⟨.hbm, 426, rfl⟩
abbrev main_v300 : Ref sig .tc := ⟨.hbm, 427, rfl⟩
abbrev main_v301 : Ref sig .tc := ⟨.hbm, 428, rfl⟩
abbrev main_cst_38 : Ref sig .tc := ⟨.hbm, 429, rfl⟩
abbrev main_v302 : Ref sig .tc := ⟨.hbm, 430, rfl⟩
abbrev main_v303 : Ref sig .tc := ⟨.hbm, 431, rfl⟩
abbrev main_v304 : Ref sig .tc := ⟨.hbm, 432, rfl⟩
abbrev main_v305 : Ref sig .tc := ⟨.hbm, 433, rfl⟩
abbrev main_v306 : Ref sig .tc := ⟨.hbm, 434, rfl⟩
abbrev main_v307 : Ref sig .tc := ⟨.hbm, 435, rfl⟩
abbrev main_v308 : Ref sig .tc := ⟨.hbm, 436, rfl⟩
abbrev main_v309 : Ref sig .tc := ⟨.hbm, 437, rfl⟩
abbrev main_v310 : Ref sig .tc := ⟨.hbm, 438, rfl⟩
abbrev main_v311 : Ref sig .tc := ⟨.hbm, 439, rfl⟩

abbrev nD : Nat := 1
abbrev τ : Topo := Topo.v7x

variable {F : FTy → Type} [FloatOps F]

class Facts₀ : Prop where
  transposes_S768x128_S128x768_1_0 : S768x128.Transposes [1, 0] S128x768
  bcast_S768_S1x768_1 : S768.BroadcastsInDim S1x768 (![1] : Fin 1 → Fin S1x768.rank)
  bcast_S1x768_S1024x768_0_1 : S1x768.BroadcastsInDim S1024x768 (![0, 1] : Fin 2 → Fin S1024x768.rank)
  transposes_S768x256_S256x768_1_0 : S768x256.Transposes [1, 0] S256x768
  slices_S1024x768_S1024x256_0_0 : S1024x768.Slices ![0, 0] S1024x256
  slices_S1024x768_S1024x256_0_256 : S1024x768.Slices ![0, 256] S1024x256
  slices_S1024x768_S1024x256_0_512 : S1024x768.Slices ![0, 512] S1024x256
  bcast_S_S1024x256 : S_.BroadcastsInDim S1024x256 (![] : Fin 0 → Fin S1024x256.rank)
  reducesTo_S1024x512x128_S1024x512_d2 : S1024x512x128.ReducesTo [2] S1024x512
  h_S_ : 0 < S_.numel
  bcast_S1024x512_S1024x512x1_0_1 : S1024x512.BroadcastsInDim S1024x512x1 (![0, 1] : Fin 2 → Fin S1024x512x1.rank)
  bcast_S_S1024x512x1 : S_.BroadcastsInDim S1024x512x1 (![] : Fin 0 → Fin S1024x512x1.rank)
  bcast_S1024x512x1_S1024x512x128_0_1_2 : S1024x512x1.BroadcastsInDim S1024x512x128 (![0, 1, 2] : Fin 3 → Fin S1024x512x128.rank)
  transposes_S536x256_S256x536_1_0 : S536x256.Transposes [1, 0] S256x536
  bcast_S536_S1x536_1 : S536.BroadcastsInDim S1x536 (![1] : Fin 1 → Fin S1x536.rank)
  bcast_S1x536_S1024x536_0_1 : S1x536.BroadcastsInDim S1024x536 (![0, 1] : Fin 2 → Fin S1024x536.rank)
  shapeCasts_S1024x536_S1024x4x134 : S1024x536.ShapeCasts S1024x4x134
  slices_S1024x4x134_S1024x4x128_0_0_0 : S1024x4x134.Slices ![0, 0, 0] S1024x4x128
  slices_S1024x4x134_S1024x4x1_0_0_128 : S1024x4x134.Slices ![0, 0, 128] S1024x4x1
  shapeCasts_S1024x4x1_S1024x4 : S1024x4x1.ShapeCasts S1024x4
  slices_S1024x4x134_S1024x4x1_0_0_129 : S1024x4x134.Slices ![0, 0, 129] S1024x4x1
  slices_S1024x4x134_S1024x4x3_0_0_130 : S1024x4x134.Slices ![0, 0, 130] S1024x4x3
  slices_S1024x4x134_S1024x4x1_0_0_133 : S1024x4x134.Slices ![0, 0, 133] S1024x4x1
  bcast_S_S1024x4 : S_.BroadcastsInDim S1024x4 (![] : Fin 0 → Fin S1024x4.rank)
  reducesTo_S1024x4x128_S1024x4_d2 : S1024x4x128.ReducesTo [2] S1024x4
  bcast_S1024x4_S1024x4x1_0_1 : S1024x4.BroadcastsInDim S1024x4x1 (![0, 1] : Fin 2 → Fin S1024x4x1.rank)
  bcast_S_S1024x4x1 : S_.BroadcastsInDim S1024x4x1 (![] : Fin 0 → Fin S1024x4x1.rank)
  bcast_S1024x4x1_S1024x4x128_0_1_2 : S1024x4x1.BroadcastsInDim S1024x4x128 (![0, 1, 2] : Fin 3 → Fin S1024x4x128.rank)
  bcast_S1024x4x1_S1024x4x512_0_1_2 : S1024x4x1.BroadcastsInDim S1024x4x512 (![0, 1, 2] : Fin 3 → Fin S1024x4x512.rank)
  reducesTo_S1024x4x512_S1024x4_d2 : S1024x4x512.ReducesTo [2] S1024x4
  reducesTo_S1024x4x3_S1024x4_d2 : S1024x4x3.ReducesTo [2] S1024x4
  bcast_S1024x4x1_S1024x4x3_0_1_2 : S1024x4x1.BroadcastsInDim S1024x4x3 (![0, 1, 2] : Fin 3 → Fin S1024x4x3.rank)
  slices_S1024x4x3_S1024x4x1_0_0_0 : S1024x4x3.Slices ![0, 0, 0] S1024x4x1
  slices_S1024x4x512_S1024x4x511_0_0_1 : S1024x4x512.Slices ![0, 0, 1] S1024x4x511
  slices_S1024x4x512_S1024x4x1_0_0_0 : S1024x4x512.Slices ![0, 0, 0] S1024x4x1
  concatenates_S1024x4x511_S1024x4x1_S1024x4x512_d2 : Shape.Concatenates [S1024x4x511, S1024x4x1] S1024x4x512 2
  slices_S1024x4x3_S1024x4x1_0_0_1 : S1024x4x3.Slices ![0, 0, 1] S1024x4x1
  slices_S1024x4x3_S1024x4x1_0_0_2 : S1024x4x3.Slices ![0, 0, 2] S1024x4x1
  slices_S1024x4x512_S1024x4x1_0_0_511 : S1024x4x512.Slices ![0, 0, 511] S1024x4x1
  slices_S1024x4x512_S1024x4x511_0_0_0 : S1024x4x512.Slices ![0, 0, 0] S1024x4x511
  concatenates_S1024x4x1_S1024x4x511_S1024x4x512_d2 : Shape.Concatenates [S1024x4x1, S1024x4x511] S1024x4x512 2
  bcast_S_S1024x4x512 : S_.BroadcastsInDim S1024x4x512 (![] : Fin 0 → Fin S1024x4x512.rank)
  shapeCasts_S1024x4x128_S1024x512 : S1024x4x128.ShapeCasts S1024x512
  transposes_S128x256_S256x128_1_0 : S128x256.Transposes [1, 0] S256x128
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  transposes_S128x512_S512x128_1_0 : S128x512.Transposes [1, 0] S512x128
  transposes_S1560x256_S256x1560_1_0 : S1560x256.Transposes [1, 0] S256x1560
  bcast_S1560_S1x1560_1 : S1560.BroadcastsInDim S1x1560 (![1] : Fin 1 → Fin S1x1560.rank)
  bcast_S1x1560_S1024x1560_0_1 : S1x1560.BroadcastsInDim S1024x1560 (![0, 1] : Fin 2 → Fin S1024x1560.rank)
  shapeCasts_S1024x1560_S1024x4x390 : S1024x1560.ShapeCasts S1024x4x390
  slices_S1024x4x390_S1024x4x128_0_0_0 : S1024x4x390.Slices ![0, 0, 0] S1024x4x128
  slices_S1024x4x390_S1024x4x1_0_0_128 : S1024x4x390.Slices ![0, 0, 128] S1024x4x1
  slices_S1024x4x390_S1024x4x1_0_0_129 : S1024x4x390.Slices ![0, 0, 129] S1024x4x1
  slices_S1024x4x390_S1024x4x3_0_0_130 : S1024x4x390.Slices ![0, 0, 130] S1024x4x3
  slices_S1024x4x390_S1024x4x1_0_0_133 : S1024x4x390.Slices ![0, 0, 133] S1024x4x1
  slices_S1024x4x390_S1024x4x128_0_0_134 : S1024x4x390.Slices ![0, 0, 134] S1024x4x128
  bcast_S_S1024x4x128 : S_.BroadcastsInDim S1024x4x128 (![] : Fin 0 → Fin S1024x4x128.rank)
  slices_S1024x4x390_S1024x4x128_0_0_262 : S1024x4x390.Slices ![0, 0, 262] S1024x4x128
  slices_S1024x4x512_S1024x1x512_0_0_0 : S1024x4x512.Slices ![0, 0, 0] S1024x1x512
  shapeCasts_S1024x1x512_S1024x512 : S1024x1x512.ShapeCasts S1024x512
  slices_S1024x4x128_S1024x1x128_0_0_0 : S1024x4x128.Slices ![0, 0, 0] S1024x1x128
  shapeCasts_S1024x1x128_S1024x128 : S1024x1x128.ShapeCasts S1024x128
  bcast_S1024x128_S1024x1x128_0_2 : S1024x128.BroadcastsInDim S1024x1x128 (![0, 2] : Fin 2 → Fin S1024x1x128.rank)
  bcast_S1024x1x128_S1024x512x128_0_1_2 : S1024x1x128.BroadcastsInDim S1024x512x128 (![0, 1, 2] : Fin 3 → Fin S1024x512x128.rank)
  bcast_S_S1024x512x128 : S_.BroadcastsInDim S1024x512x128 (![] : Fin 0 → Fin S1024x512x128.rank)
  slices_S1024x4x512_S1024x1x512_0_1_0 : S1024x4x512.Slices ![0, 1, 0] S1024x1x512
  slices_S1024x4x128_S1024x1x128_0_1_0 : S1024x4x128.Slices ![0, 1, 0] S1024x1x128
  slices_S1024x4x512_S1024x1x512_0_2_0 : S1024x4x512.Slices ![0, 2, 0] S1024x1x512
  slices_S1024x4x128_S1024x1x128_0_2_0 : S1024x4x128.Slices ![0, 2, 0] S1024x1x128
  slices_S1024x4x512_S1024x1x512_0_3_0 : S1024x4x512.Slices ![0, 3, 0] S1024x1x512
  slices_S1024x4x128_S1024x1x128_0_3_0 : S1024x4x128.Slices ![0, 3, 0] S1024x1x128
  dot_S1024x128_S128x768_S1024x768_1_0_0_1_n_n_wf : DotDims.WF S1024x128 S128x768 S1024x768 [1] [0] [0] [1] [] []
  dot_S1024x256_S256x768_S1024x768_1_0_0_1_n_n_wf : DotDims.WF S1024x256 S256x768 S1024x768 [1] [0] [0] [1] [] []
  dot_S1024x256_S256x536_S1024x536_1_0_0_1_n_n_wf : DotDims.WF S1024x256 S256x536 S1024x536 [1] [0] [0] [1] [] []
  dot_S1024x4x128_S1024x512x128_S1024x4x512_2_2_1_1_0_0_wf : DotDims.WF S1024x4x128 S1024x512x128 S1024x4x512 [2] [2] [1] [1] [0] [0]
  dot_S1024x4x512_S1024x512x128_S1024x4x128_2_1_1_2_0_0_wf : DotDims.WF S1024x4x512 S1024x512x128 S1024x4x128 [2] [1] [1] [2] [0] [0]
  dot_S1024x256_S256x128_S1024x128_1_0_0_1_n_n_wf : DotDims.WF S1024x256 S256x128 S1024x128 [1] [0] [0] [1] [] []
  dot_S1024x512_S512x128_S1024x128_1_0_0_1_n_n_wf : DotDims.WF S1024x512 S512x128 S1024x128 [1] [0] [0] [1] [] []
  dot_S1024x256_S256x1560_S1024x1560_1_0_0_1_n_n_wf : DotDims.WF S1024x256 S256x1560 S1024x1560 [1] [0] [0] [1] [] []

variable [Facts₀]

def dot_S1024x128_S128x768_S1024x768_1_0_0_1_n_n : DotDims S1024x128 S128x768 S1024x768 where
  lhsContracting := [1]
  rhsContracting := [0]
  lhsNonContracting := [0]
  rhsNonContracting := [1]
  lhsBatch := []
  rhsBatch := []
  wf := dot_S1024x128_S128x768_S1024x768_1_0_0_1_n_n_wf
def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S1024x256_S256x536_S1024x536_1_0_0_1_n_n : DotDims S1024x256 S256x536 S1024x536 where
  lhsContracting := [1]
  rhsContracting := [0]
  lhsNonContracting := [0]
  rhsNonContracting := [1]
  lhsBatch := []
  rhsBatch := []
  wf := dot_S1024x256_S256x536_S1024x536_1_0_0_1_n_n_wf
def dot_S1024x4x128_S1024x512x128_S1024x4x512_2_2_1_1_0_0 : DotDims S1024x4x128 S1024x512x128 S1024x4x512 where
  lhsContracting := [2]
  rhsContracting := [2]
  lhsNonContracting := [1]
  rhsNonContracting := [1]
  lhsBatch := [0]
  rhsBatch := [0]
  wf := dot_S1024x4x128_S1024x512x128_S1024x4x512_2_2_1_1_0_0_wf
def dot_S1024x4x512_S1024x512x128_S1024x4x128_2_1_1_2_0_0 : DotDims S1024x4x512 S1024x512x128 S1024x4x128 where
  lhsContracting := [2]
  rhsContracting := [1]
  lhsNonContracting := [1]
  rhsNonContracting := [2]
  lhsBatch := [0]
  rhsBatch := [0]
  wf := dot_S1024x4x512_S1024x512x128_S1024x4x128_2_1_1_2_0_0_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x256_S256x1560_S1024x1560_1_0_0_1_n_n : DotDims S1024x256 S256x1560 S1024x1560 where
  lhsContracting := [1]
  rhsContracting := [0]
  lhsNonContracting := [0]
  rhsNonContracting := [1]
  lhsBatch := []
  rhsBatch := []
  wf := dot_S1024x256_S256x1560_S1024x1560_1_0_0_1_n_n_wf

class Facts : Prop extends Facts₀ where

variable [Facts]
-- ==== Proof.Spec.lean ====
import Idealize.ShloMosaic.PureOps.Ideal

noncomputable section

namespace NTM

open Idealize.ShloMosaic

abbrev epsE : EReal := Ideal.ofBits .f32 0x2B8CBCCC#32
abbrev oneE : EReal := Ideal.ofBits .f32 0x3F800000#32
abbrev ninfE : EReal := Ideal.ofBits .f32 0xFF800000#32

structure Row where
  x : Fin 128 → EReal
  mem : Fin 512 → Fin 128 → EReal
  hid : Fin 256 → EReal
  rw : Fin 4 → Fin 512 → EReal
  ww : Fin 4 → Fin 512 → EReal

structure Wts where
  Wih : Fin 768 → Fin 128 → EReal
  Whh : Fin 768 → Fin 256 → EReal
  bih : Fin 768 → EReal
  bhh : Fin 768 → EReal
  Wrh : Fin 536 → Fin 256 → EReal
  brh : Fin 536 → EReal
  Wwh : Fin 1560 → Fin 256 → EReal
  bwh : Fin 1560 → EReal
  Wrm : Fin 128 → Fin 512 → EReal
  Wout : Fin 128 → Fin 256 → EReal
  bout : Fin 128 → EReal

/-- The affine map `v ↦ W v + b`, entry `j`. -/
def lin {n k : ℕ} (W : Fin n → Fin k → EReal) (b : Fin n → EReal) (v : Fin k → EReal) (j : Fin n) : EReal :=
  (∑ q : Fin k, v q * W j q) + b j

/-- `log (1 + eˣ)` written as `max x 0 + log1p (e^(-|x|))`. -/
def softplus (x : EReal) : EReal := max x 0 + Ideal.log1p (Ideal.exp (-(max x (-x))))

/-- A gated recurrent cell: reset gate, update gate, candidate, and their blend with the previous state. -/
def rGate (gi gh : Fin 768 → EReal) (j : Fin 256) : EReal :=
  Ideal.logistic (gi ⟨j.val, by omega⟩ + gh ⟨j.val, by omega⟩)
def zGate (gi gh : Fin 768 → EReal) (j : Fin 256) : EReal :=
  Ideal.logistic (gi ⟨256 + j.val, by omega⟩ + gh ⟨256 + j.val, by omega⟩)
def nCand (gi gh : Fin 768 → EReal) (j : Fin 256) : EReal :=
  Ideal.tanh (gi ⟨512 + j.val, by omega⟩ + rGate gi gh j * gh ⟨512 + j.val, by omega⟩)
def ctrl (gi gh : Fin 768 → EReal) (hid : Fin 256 → EReal) (j : Fin 256) : EReal :=
  (oneE - zGate gi gh j) * nCand gi gh j + zGate gi gh j * hid j

def o (R : Row) (W : Wts) : Fin 256 → EReal := ctrl (lin W.Wih W.bih R.x) (lin W.Whh W.bhh R.hid) R.hid

/-- A memory slot divided by its Euclidean norm plus `eps`. -/
def mnorm (mem : Fin 512 → Fin 128 → EReal) (n : Fin 512) (k : Fin 128) : EReal :=
  Ideal.div (mem n k) (Ideal.sqrt (∑ q : Fin 128, mem n q * mem n q) + epsE)

def hdR (p : Fin 536 → EReal) (h : Fin 4) (c : Fin 134) : EReal := p ⟨134 * h.val + c.val, by omega⟩
def hdW (p : Fin 1560 → EReal) (h : Fin 4) (c : Fin 390) : EReal := p ⟨390 * h.val + c.val, by omega⟩

/-- What addresses the memory, for four heads: key, key strength, interpolation gate, three shift taps, sharpening exponent. -/
structure Head where
  keyv : Fin 4 → Fin 128 → EReal
  beta : Fin 4 → EReal
  gate : Fin 4 → EReal
  shift : Fin 4 → Fin 3 → EReal
  gamma : Fin 4 → EReal

def headR (p : Fin 536 → EReal) : Head where
  keyv h k := hdR p h ⟨k.val, by omega⟩
  beta h := hdR p h ⟨128, by omega⟩
  gate h := hdR p h ⟨129, by omega⟩
  shift h s := hdR p h ⟨130 + s.val, by omega⟩
  gamma h := hdR p h ⟨133, by omega⟩

def headW (p : Fin 1560 → EReal) : Head where
  keyv h k := hdW p h ⟨k.val, by omega⟩
  beta h := hdW p h ⟨128, by omega⟩
  gate h := hdW p h ⟨129, by omega⟩
  shift h s := hdW p h ⟨130 + s.val, by omega⟩
  gamma h := hdW p h ⟨133, by omega⟩

def erase (p : Fin 1560 → EReal) (h : Fin 4) (k : Fin 128) : EReal := Ideal.logistic (hdW p h ⟨134 + k.val, by omega⟩)
def addv (p : Fin 1560 → EReal) (h : Fin 4) (k : Fin 128) : EReal := Ideal.tanh (hdW p h ⟨262 + k.val, by omega⟩)

/-- A softmax, with the maximum taken from `-∞` before the exponentials. -/
def rowMax {n : ℕ} (f : Fin n → EReal) : EReal := max ninfE ((Finset.univ : Finset (Fin n)).fold max ninfE f)
def smExp {n : ℕ} (f : Fin n → EReal) (i : Fin n) : EReal := Ideal.exp (f i - rowMax f)
def softmax {n : ℕ} (f : Fin n → EReal) (i : Fin n) : EReal := Ideal.div (smExp f i) (∑ q : Fin n, smExp f q)

def knorm (H : Head) (h : Fin 4) : EReal := Ideal.sqrt (∑ q : Fin 128, H.keyv h q * H.keyv h q) + epsE
def kn (H : Head) (h : Fin 4) (k : Fin 128) : EReal := Ideal.div (H.keyv h k) (knorm H h)
def cosv (H : Head) (mn : Fin 512 → Fin 128 → EReal) (h : Fin 4) (n : Fin 512) : EReal := ∑ k : Fin 128, kn H h k * mn n k
def logit (H : Head) (mn : Fin 512 → Fin 128 → EReal) (h : Fin 4) (n : Fin 512) : EReal := softplus (H.beta h) * cosv H mn h n
def gsig (H : Head) (h : Fin 4) : EReal := Ideal.logistic (H.gate h)
/-- Content weighting (softmax of strength times cosine similarity) blended with the previous weighting by the gate. -/
def wtI (H : Head) (mn : Fin 512 → Fin 128 → EReal) (prev : Fin 4 → Fin 512 → EReal) (h : Fin 4) (n : Fin 512) : EReal :=
  gsig H h * softmax (logit H mn h) n + (oneE - gsig H h) * prev h n
def nxt (n : Fin 512) : Fin 512 := ⟨(n.val + 1) % 512, Nat.mod_lt _ (by omega)⟩
def prv (n : Fin 512) : Fin 512 := ⟨(n.val + 511) % 512, Nat.mod_lt _ (by omega)⟩
/-- Circular convolution with the three normalised taps: next slot, this slot, previous slot. -/
def shifted (H : Head) (mn : Fin 512 → Fin 128 → EReal) (prev : Fin 4 → Fin 512 → EReal) (h : Fin 4) (n : Fin 512) : EReal :=
  softmax (H.shift h) 0 * wtI H mn prev h (nxt n) + softmax (H.shift h) 1 * wtI H mn prev h n
    + softmax (H.shift h) 2 * wtI H mn prev h (prv n)
def gam (H : Head) (h : Fin 4) : EReal := oneE + softplus (H.gamma h)
/-- Sharpening by a power `P x g` (the parameter is how the power is spelt), then renormalising over the slots. -/
def sharp (P : EReal → EReal → EReal) (H : Head) (mn : Fin 512 → Fin 128 → EReal) (prev : Fin 4 → Fin 512 → EReal)
    (h : Fin 4) (n : Fin 512) : EReal := P (shifted H mn prev h n + epsE) (gam H h)
def addr (P : EReal → EReal → EReal) (H : Head) (mn : Fin 512 → Fin 128 → EReal) (prev : Fin 4 → Fin 512 → EReal)
    (h : Fin 4) (n : Fin 512) : EReal :=
  Ideal.div (sharp P H mn prev h n) ((∑ q : Fin 512, sharp P H mn prev h q) + epsE)

def powK (x g : EReal) : EReal := Ideal.exp (g * Ideal.log x)
def powR (x g : EReal) : EReal := Ideal.pow x g

def rp (R : Row) (W : Wts) : Fin 536 → EReal := lin W.Wrh W.brh (o R W)
def wp (R : Row) (W : Wts) : Fin 1560 → EReal := lin W.Wwh W.bwh (o R W)
def mn (R : Row) : Fin 512 → Fin 128 → EReal := mnorm R.mem
def rwt (P : EReal → EReal → EReal) (R : Row) (W : Wts) : Fin 4 → Fin 512 → EReal := addr P (headR (rp R W)) (mn R) R.rw
def wwt (P : EReal → EReal → EReal) (R : Row) (W : Wts) : Fin 4 → Fin 512 → EReal := addr P (headW (wp R W)) (mn R) R.ww
def rv (P : EReal → EReal → EReal) (R : Row) (W : Wts) (h : Fin 4) (k : Fin 128) : EReal := ∑ n : Fin 512, rwt P R W h n * R.mem n k
def rvFlat (P : EReal → EReal → EReal) (R : Row) (W : Wts) (q : Fin 512) : EReal :=
  rv P R W ⟨q.val / 128, by omega⟩ ⟨q.val % 128, Nat.mod_lt _ (by omega)⟩
def y (P : EReal → EReal → EReal) (R : Row) (W : Wts) (j : Fin 128) : EReal :=
  lin W.Wout W.bout (o R W) j + ∑ q : Fin 512, rvFlat P R W q * W.Wrm j q
/-- One write head erases and adds: `M ↦ M ∘ (1 - w ⊗ e) + w ⊗ a`; the four heads act in turn. -/
def nmStep (w : Fin 512 → EReal) (e a : Fin 128 → EReal) (M : Fin 512 → Fin 128 → EReal) (n : Fin 512) (k : Fin 128) : EReal :=
  M n k * (oneE - w n * e k) + w n * a k
def nmUpTo (P : EReal → EReal → EReal) (R : Row) (W : Wts) : ℕ → Fin 512 → Fin 128 → EReal
  | 0 => R.mem
  | i + 1 => if h : i < 4 then nmStep (wwt P R W ⟨i, h⟩) (erase (wp R W) ⟨i, h⟩) (addv (wp R W) ⟨i, h⟩) (nmUpTo P R W i) else nmUpTo P R W i
def nm (P : EReal → EReal → EReal) (R : Row) (W : Wts) : Fin 512 → Fin 128 → EReal := nmUpTo P R W 4

end NTM

end
-- ==== Proof.Rows.lean ====
import proofs.«155057_j13159779795433_2_alg».proof.Proof.Spec
import Idealize.ShloMosaic.Lib.ValueIdx

noncomputable section

namespace NTM

open Idealize.ShloMosaic Idealize.ShloMosaic.ValueIdx

def rowOf {B : ℕ} (X0 : (⟨2, ![B, 128]⟩ : Shape).Idx → EReal) (X1 : (⟨3, ![B, 512, 128]⟩ : Shape).Idx → EReal)
    (X2 : (⟨2, ![B, 256]⟩ : Shape).Idx → EReal) (X3 X4 : (⟨3, ![B, 4, 512]⟩ : Shape).Idx → EReal) (b : Fin B) : Row where
  x k := X0 (ix2 b k)
  mem n k := X1 (ix3 b n k)
  hid k := X2 (ix2 b k)
  rw h n := X3 (ix3 b h n)
  ww h n := X4 (ix3 b h n)

def wtsOf (X5 : (⟨2, ![768, 128]⟩ : Shape).Idx → EReal) (X6 : (⟨2, ![768, 256]⟩ : Shape).Idx → EReal)
    (X7 X8 : (⟨1, ![768]⟩ : Shape).Idx → EReal) (X9 : (⟨2, ![536, 256]⟩ : Shape).Idx → EReal)
    (X10 : (⟨1, ![536]⟩ : Shape).Idx → EReal) (X11 : (⟨2, ![1560, 256]⟩ : Shape).Idx → EReal)
    (X12 : (⟨1, ![1560]⟩ : Shape).Idx → EReal) (X13 : (⟨2, ![128, 512]⟩ : Shape).Idx → EReal)
    (X14 : (⟨2, ![128, 256]⟩ : Shape).Idx → EReal) (X15 : (⟨1, ![128]⟩ : Shape).Idx → EReal) : Wts where
  Wih j k := X5 (ix2 j k)
  Whh j k := X6 (ix2 j k)
  bih j := X7 (ix1 j)
  bhh j := X8 (ix1 j)
  Wrh j k := X9 (ix2 j k)
  brh j := X10 (ix1 j)
  Wwh j k := X11 (ix2 j k)
  bwh j := X12 (ix1 j)
  Wrm j k := X13 (ix2 j k)
  Wout j k := X14 (ix2 j k)
  bout j := X15 (ix1 j)

end NTM

end
-- ==== Proof.KTerms.lean ====
import proofs.«155057_j13159779795433_2_alg».proof.Proof.Gen.KernelIdeal.Frame
import proofs.«155057_j13159779795433_2_alg».proof.Proof.Rows

noncomputable section

namespace NTM.K

open Idealize.ShloMosaic Idealize.ShloMosaic.TcCoe Cert.KernelIdeal Cert.KernelIdeal.Gen

variable (L0 : Vec Ideal S8x128 .f32) (L1 : Vec Ideal S8x512x128 .f32) (L2 : Vec Ideal S8x256 .f32)
  (L3 L4 : Vec Ideal S8x4x512 .f32) (L5 : Vec Ideal S768x128 .bf16) (L6 : Vec Ideal S768x256 .bf16)
  (L7 L8 : Vec Ideal S768 .f32) (L9 : Vec Ideal S536x256 .bf16) (L10 : Vec Ideal S536 .f32)
  (L11 : Vec Ideal S1560x256 .bf16) (L12 : Vec Ideal S1560 .f32) (L13 : Vec Ideal S128x512 .bf16)
  (L14 : Vec Ideal S128x256 .bf16) (L15 : Vec Ideal S128 .f32)

abbrev oB : FVec Ideal S8x256 .bf16 := k0_pay11 L2 (k0_pay1 L6) L8 (k0_pay6 L2) (k0_pay7 L0 L5) (k0_pay8 L7)
abbrev mnB : FVec Ideal S8x512x128 .bf16 := k0_pay9 L1
abbrev memB : FVec Ideal S8x512x128 .bf16 := k0_pay10 L1

abbrev keyvR : FVec Ideal S8x4x128 .f32 := k0_pay13 L2 (k0_pay1 L6) L8 (k0_pay2 L9) L10 (k0_pay6 L2) (k0_pay7 L0 L5) (k0_pay8 L7)
abbrev betaR : FVec Ideal S8x4 .f32 := k0_pay14 L2 (k0_pay1 L6) L8 (k0_pay2 L9) L10 (k0_pay6 L2) (k0_pay7 L0 L5) (k0_pay8 L7)
abbrev gateR : FVec Ideal S8x4 .f32 := k0_pay15 L2 (k0_pay1 L6) L8 (k0_pay2 L9) L10 (k0_pay6 L2) (k0_pay7 L0 L5) (k0_pay8 L7)
abbrev shiftR : FVec Ideal S8x4x3 .f32 := k0_pay16 L2 (k0_pay1 L6) L8 (k0_pay2 L9) L10 (k0_pay6 L2) (k0_pay7 L0 L5) (k0_pay8 L7)
abbrev gammaR : FVec Ideal S8x4 .f32 := k0_pay17 L2 (k0_pay1 L6) L8 (k0_pay2 L9) L10 (k0_pay6 L2) (k0_pay7 L0 L5) (k0_pay8 L7)
abbrev maxbR : FVec Ideal S8x4 .f32 := k0_pay18 L2 (k0_pay1 L6) L8 (k0_pay2 L9) L10 (k0_pay6 L2) (k0_pay7 L0 L5) (k0_pay8 L7)
abbrev subbR : FVec Ideal S8x4 .f32 := k0_pay19 L2 (k0_pay1 L6) L8 (k0_pay2 L9) L10 (k0_pay6 L2) (k0_pay7 L0 L5) (k0_pay8 L7)
abbrev cmpbR : IVec S8x4 1 := k0_pay20 L2 (k0_pay1 L6) L8 (k0_pay2 L9) L10 (k0_pay6 L2) (k0_pay7 L0 L5) (k0_pay8 L7)
abbrev wtR : FVec Ideal S8x4x512 .f32 :=
  k0_pay21 L3 (mnB L1) (keyvR L0 L2 L5 L6 L7 L8 L9 L10) (betaR L0 L2 L5 L6 L7 L8 L9 L10) (gateR L0 L2 L5 L6 L7 L8 L9 L10)
    (Scalar.ofBits .f32 0x00000000#32) (maxbR L0 L2 L5 L6 L7 L8 L9 L10) (subbR L0 L2 L5 L6 L7 L8 L9 L10) (cmpbR L0 L2 L5 L6 L7 L8 L9 L10)
abbrev esR : FVec Ideal S8x4x3 .f32 := k0_pay22 (shiftR L0 L2 L5 L6 L7 L8 L9 L10)
abbrev rvF : FVec Ideal S8x512 .f32 :=
  k0_pay23 (memB L1) (gammaR L0 L2 L5 L6 L7 L8 L9 L10) (wtR L0 L1 L2 L3 L5 L6 L7 L8 L9 L10) (esR L0 L2 L5 L6 L7 L8 L9 L10)
abbrev yB : FVec Ideal S8x128 .f32 :=
  k0_pay40 (k0_pay4 L13) (k0_pay5 L14) L15 (oB L0 L2 L5 L6 L7 L8) (rvF L0 L1 L2 L3 L5 L6 L7 L8 L9 L10)

abbrev WwhT : FVec Ideal S256x1560 .bf16 := k0_pay24 (k0_pay3 L11)
abbrev zerosW : FVec Ideal S8x1560 .f32 := constant S8x1560 .f32 0x00000000#32
abbrev eraseW : FVec Ideal S8x4x128 .f32 := k0_pay29 L12 (oB L0 L2 L5 L6 L7 L8) (WwhT L11) zerosW
abbrev addW : FVec Ideal S8x4x128 .f32 := k0_pay30 L12 (oB L0 L2 L5 L6 L7 L8) (WwhT L11) zerosW
abbrev gateW : FVec Ideal S8x4 .f32 := k0_pay26 L12 (oB L0 L2 L5 L6 L7 L8) (WwhT L11) zerosW
abbrev shiftW : FVec Ideal S8x4x3 .f32 := k0_pay27 L12 (oB L0 L2 L5 L6 L7 L8) (WwhT L11) zerosW
abbrev gammaW : FVec Ideal S8x4 .f32 := k0_pay28 L12 (oB L0 L2 L5 L6 L7 L8) (WwhT L11) zerosW
abbrev expW : FVec Ideal S8x4x512 .f32 := k0_pay31 L12 (mnB L1) (oB L0 L2 L5 L6 L7 L8) (WwhT L11) zerosW
abbrev sumW : FVec Ideal S8x4 .f32 := k0_pay32 L12 (mnB L1) (oB L0 L2 L5 L6 L7 L8) (WwhT L11) zerosW
abbrev shiftedW : FVec Ideal S8x4x512 .f32 :=
  k0_pay33 L4 (gateW L0 L2 L5 L6 L7 L8 L11 L12) (shiftW L0 L2 L5 L6 L7 L8 L11 L12) (expW L0 L1 L2 L5 L6 L7 L8 L11 L12) (sumW L0 L1 L2 L5 L6 L7 L8 L11 L12)
abbrev spW : FVec Ideal S8x4 .f32 := k0_pay34 (gammaW L0 L2 L5 L6 L7 L8 L11 L12)
abbrev onesW : FVec Ideal S8x4 .f32 := k0_pay35 (F := Ideal)
abbrev wwB : FVec Ideal S8x4x512 .f32 := k0_pay36 (shiftedW L0 L1 L2 L4 L5 L6 L7 L8 L11 L12) (spW L0 L2 L5 L6 L7 L8 L11 L12) onesW
abbrev nmMid : FVec Ideal S8x512x128 .f32 :=
  k0_pay37 L1 (eraseW L0 L2 L5 L6 L7 L8 L11 L12) (addW L0 L2 L5 L6 L7 L8 L11 L12) (shiftedW L0 L1 L2 L4 L5 L6 L7 L8 L11 L12) (spW L0 L2 L5 L6 L7 L8 L11 L12) onesW
abbrev wcolW : FVec Ideal S8x512x1 .f32 := k0_pay38 (shiftedW L0 L1 L2 L4 L5 L6 L7 L8 L11 L12) (spW L0 L2 L5 L6 L7 L8 L11 L12) onesW
abbrev nmB : FVec Ideal S8x512x128 .f32 :=
  k0_pay39 (eraseW L0 L2 L5 L6 L7 L8 L11 L12) (addW L0 L2 L5 L6 L7 L8 L11 L12) (wwB L0 L1 L2 L4 L5 L6 L7 L8 L11 L12)
    (nmMid L0 L1 L2 L4 L5 L6 L7 L8 L11 L12) (wcolW L0 L1 L2 L4 L5 L6 L7 L8 L11 L12)

theorem out16_eq (x0 : Vec Ideal S8x128 .f32) (x1 : Vec Ideal S8x512x128 .f32) (x2 : Vec Ideal S8x256 .f32) (x3 x4 : Vec Ideal S8x4x512 .f32) (x5 : Vec Ideal S768x128 .bf16) (x6 : Vec Ideal S768x256 .bf16) (x7 x8 : Vec Ideal S768 .f32) (x9 : Vec Ideal S536x256 .bf16) (x10 : Vec Ideal S536 .f32) (x11 : Vec Ideal S1560x256 .bf16) (x12 : Vec Ideal S1560 .f32) (x13 : Vec Ideal S128x512 .bf16) (x14 : Vec Ideal S128x256 .bf16) (x15 : Vec Ideal S128 .f32) :
    out0_16 x0 x1 x2 x3 x4 x5 x6 x7 x8 x9 x10 x11 x12 x13 x14 x15
      = View.canon [⟨r0_0, yB (View.ld x0 r0_0) (View.ld x1 r0_1) (View.ld x2 r0_2) (View.ld x3 r0_3) (View.ld x5 r0_4) (View.ld x6 r0_5) (View.ld x7 r0_6) (View.ld x8 r0_6) (View.ld x9 r0_7) (View.ld x10 r0_8) (View.ld x13 r0_11) (View.ld x14 r0_12) (View.ld x15 r0_13)⟩] := rfl

theorem out17_eq (x0 : Vec Ideal S8x128 .f32) (x1 : Vec Ideal S8x512x128 .f32) (x2 : Vec Ideal S8x256 .f32) (x3 x4 : Vec Ideal S8x4x512 .f32) (x5 : Vec Ideal S768x128 .bf16) (x6 : Vec Ideal S768x256 .bf16) (x7 x8 : Vec Ideal S768 .f32) (x9 : Vec Ideal S536x256 .bf16) (x10 : Vec Ideal S536 .f32) (x11 : Vec Ideal S1560x256 .bf16) (x12 : Vec Ideal S1560 .f32) (x13 : Vec Ideal S128x512 .bf16) (x14 : Vec Ideal S128x256 .bf16) (x15 : Vec Ideal S128 .f32) :
    out0_17 x0 x1 x2 x3 x4 x5 x6 x7 x8 x9 x10 x11 x12 x13 x14 x15
      = View.canon [⟨r0_1, nmB (View.ld x0 r0_0) (View.ld x1 r0_1) (View.ld x2 r0_2) (View.ld x4 r0_3) (View.ld x5 r0_4) (View.ld x6 r0_5) (View.ld x7 r0_6) (View.ld x8 r0_6) (View.ld x11 r0_9) (View.ld x12 r0_10)⟩] := rfl

end NTM.K

end
-- ==== Proof.KEntry.lean ====
import proofs.«155057_j13159779795433_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace NTM.K

open Idealize.ShloMosaic Idealize.ShloMosaic.TcCoe Idealize.ShloMosaic.ValueIdx NTM

section Layout
variable {α : Type}

theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

theorem rot3_axis2_apply {n0 n1 n2 : ℕ} (sb : BitVec 32) (x : (⟨3, ![n0, n1, n2]⟩ : Shape).Idx → α)
    (h : (⟨3, ![n0, n1, n2]⟩ : Shape).Rotates 2 none) (a : Fin n0) (b : Fin n1) (j k : Fin n2)
    (hk : k.val = (j.val + n2 - sb.toNat % n2) % n2) :
    dynamicRotate 2 sb none x h (ix3 a b j) = x (ix3 a b k) := by
  unfold dynamicRotate
  refine congrArg x (funext fun c => Fin.ext ?_)
  match c with
  | ⟨0, _⟩ => rfl
  | ⟨1, _⟩ => rfl
  | ⟨2, _⟩ =>
    show (j.val + n2 - (sb.toNat + 0) % n2) % n2 = k.val
    rw [Nat.add_zero, hk]

/-- A vector laid as one row and repeated down the rows reads its entry j. -/
theorem bias_row {a b : ℕ} (v : (⟨1, ![b]⟩ : Shape).Idx → α) (hc : (⟨1, ![b]⟩ : Shape).ShapeCasts ⟨2, ![1, b]⟩)
    (hb : (⟨2, ![1, b]⟩ : Shape).Broadcasts ⟨2, ![a, b]⟩) (p : Fin a) (j : Fin b) :
    broadcastTo ⟨2, ![a, b]⟩ (shapeCast ⟨2, ![1, b]⟩ v hc) hb (ix2 p j) = v (ix1 j) :=
  (broadcastTo_1b_ab_apply _ hb p j).trans (shapeCast_a_1a_apply v hc 0 j)

theorem lift3_axis2 {n0 n1 n2 : ℕ} (h : (⟨3, ![n0, n1, n2]⟩ : Shape).Reduces [2] ⟨2, ![n0, n1]⟩)
    (a : Fin n0) (b : Fin n1) (k : Fin n2) : h.lift (ix2 a b) k = ix3 a b k := by
  funext c
  match c with
  | ⟨0, _⟩ => rfl
  | ⟨1, _⟩ => rfl
  | ⟨2, _⟩ => rfl

end Layout

section Pointwise
variable {s : Shape} {φ : FTy}
theorem sqrt_apply (a : FVec Ideal s φ) (i : s.Idx) : sqrt a i = Ideal.sqrt (a i) := rfl
theorem exp_apply (a : FVec Ideal s φ) (i : s.Idx) : exp a i = Ideal.exp (a i) := rfl
theorem log_apply (a : FVec Ideal s φ) (i : s.Idx) : log a i = Ideal.log (a i) := rfl
theorem logistic_apply (a : FVec Ideal s φ) (i : s.Idx) : logistic a i = Ideal.logistic (a i) := rfl
theorem tanh_apply (a : FVec Ideal s φ) (i : s.Idx) : tanh a i = Ideal.tanh (a i) := rfl

/-- "Ordered and unequal" never holds of a value and itself, so the guard picks the overflow-safe branch. -/
theorem softplus_eq (x : EReal) :
    Scalar.select (Ideal.cmp .one (x - Ideal.ofBits .f32 0x00000000#32) (x - Ideal.ofBits .f32 0x00000000#32)) (x + Ideal.ofBits .f32 0x00000000#32)
        (max x (Ideal.ofBits .f32 0x00000000#32) + Ideal.log1p (Ideal.exp (Ideal.ofBits .f32 0x00000000#32 - max (x - Ideal.ofBits .f32 0x00000000#32) (-(x - Ideal.ofBits .f32 0x00000000#32)))))
      = NTM.softplus x := by
  rw [show Ideal.cmp .one (x - Ideal.ofBits .f32 0x00000000#32) (x - Ideal.ofBits .f32 0x00000000#32) = 0#1 by simp [Ideal.cmp],
    select_zero, Ideal.ofBits_zero_f32, sub_zero, zero_sub]
  rfl

theorem softplusK_apply (g : FVec Ideal s .f32) (i : s.Idx) :
    select (cmpf .one (subf g (broadcast s (Scalar.ofBits .f32 0x00000000#32))) (subf g (broadcast s (Scalar.ofBits .f32 0x00000000#32))))
        (addf g (broadcast s (Scalar.ofBits .f32 0x00000000#32)))
        (addf (maximumf g (broadcast s (Scalar.ofBits .f32 0x00000000#32)))
          (log1p (exp (subf (broadcast s (Scalar.ofBits .f32 0x00000000#32)) (absf (subf g (broadcast s (Scalar.ofBits .f32 0x00000000#32))))))))
      i = NTM.softplus (g i) :=
  softplus_eq (g i)
end Pointwise

section Reduce
variable {n0 n1 n2 : ℕ}

theorem sum3_axis2_apply (V : FVec Ideal (⟨3, ![n0, n1, n2]⟩ : Shape) .f32)
    (h : (⟨3, ![n0, n1, n2]⟩ : Shape).Reduces [2] ⟨2, ![n0, n1]⟩) (hφ : FKind.Formats .f32)
    (hacc : (0x00000000#32 : BitVec 32) = 0x00000000#32) (a : Fin n0) (b : Fin n1) :
    multiReduction .add [2] ⟨2, ![n0, n1]⟩ V 0x00000000#32 h hφ hacc (ix2 a b) = ∑ k : Fin n2, V (ix3 a b k) :=
  (Ideal.multiReduction_add_single V _ h hφ hacc (ix2 a b)).trans
    (Finset.sum_congr rfl fun k _ => congrArg V (lift3_axis2 h a b k))

theorem max3_axis2_apply (V : FVec Ideal (⟨3, ![n0, n1, n2]⟩ : Shape) .f32)
    (h : (⟨3, ![n0, n1, n2]⟩ : Shape).Reduces [2] ⟨2, ![n0, n1]⟩) (hφ : FKind.Formats .f32)
    (hacc : (0xFF800000#32 : BitVec 32) = 0xFF800000#32) (a : Fin n0) (b : Fin n1) :
    multiReduction .maximumf [2] ⟨2, ![n0, n1]⟩ V 0xFF800000#32 h hφ hacc (ix2 a b)
      = (Finset.univ : Finset (Fin n2)).fold max NTM.ninfE (fun k => V (ix3 a b k)) :=
  (Ideal.multiReduction_maximumf_single V _ h hφ hacc (ix2 a b)).trans
    (congrArg (Finset.fold max NTM.ninfE · Finset.univ) (funext fun k => congrArg V (lift3_axis2 h a b k)))

end Reduce

section Product
variable {φ₁ φ₂ : FTy}

/-- A product over one contracted axis of extent n, at an entry: the sum over that axis of the operands' entries there. -/
theorem matmul_at {sl sr so : Shape} (d : DotDims sl sr so) (n : ℕ) (hr : d.contr.rank = 1)
    (hs : d.contr.size ⟨0, by omega⟩ = n) (a : FVec Ideal sl φ₁) (b : FVec Ideal sr φ₂) (j : so.Idx)
    (l : Fin n → sl.Idx) (r : Fin n → sr.Idx)
    (hl : ∀ q : d.contr.Idx, ∀ c, (d.lhsIdx j q c).val = (l ((contrEquiv1 d n hr hs) q) c).val)
    (hrr : ∀ q : d.contr.Idx, ∀ c, (d.rhsIdx j q c).val = (r ((contrEquiv1 d n hr hs) q) c).val) :
    matmul d none a b (constant so .f32 0x00000000#32) j = ∑ k : Fin n, a (l k) * b (r k) := by
  simp only [matmul]
  rw [Ideal.matmul_constant_zero_apply, ← Equiv.sum_comp (contrEquiv1 d n hr hs).symm]
  refine Finset.sum_congr rfl fun k _ => ?_
  have el : d.lhsIdx j ((contrEquiv1 d n hr hs).symm k) = l k := funext fun c => Fin.ext (by rw [hl, Equiv.apply_symm_apply])
  have er : d.rhsIdx j ((contrEquiv1 d n hr hs).symm k) = r k := funext fun c => Fin.ext (by rw [hrr, Equiv.apply_symm_apply])
  rw [el, er]

/-- A plain product at (p, j). -/
theorem mm_plain_apply {m k n : ℕ} (D : DotDims ⟨2, ![m, k]⟩ ⟨2, ![k, n]⟩ ⟨2, ![m, n]⟩)
    (hD : ∃ wf, D = ⟨[1], [0], [0], [1], [], [], wf⟩) (a : FVec Ideal ⟨2, ![m, k]⟩ φ₁) (b : FVec Ideal ⟨2, ![k, n]⟩ φ₂)
    (p : Fin m) (j : Fin n) :
    matmul D none a b (constant ⟨2, ![m, n]⟩ .f32 0x00000000#32) (ix2 p j) = ∑ q : Fin k, a (ix2 p q) * b (ix2 q j) := by
  obtain ⟨wf, rfl⟩ := hD
  exact matmul_at _ k rfl rfl a b (ix2 p j) (fun q => ix2 p q) (fun q => ix2 q j)
    (fun q c => by match c with | ⟨0, _⟩ => rfl | ⟨1, _⟩ => rfl)
    (fun q c => by match c with | ⟨0, _⟩ => rfl | ⟨1, _⟩ => rfl)

/-- A row block times a transposed matrix at (p, j): row p against row j. -/
theorem mm_plain_tr_apply {m k n : ℕ} (D : DotDims ⟨2, ![m, k]⟩ ⟨2, ![k, n]⟩ ⟨2, ![m, n]⟩)
    (hD : ∃ wf, D = ⟨[1], [0], [0], [1], [], [], wf⟩) (a : FVec Ideal ⟨2, ![m, k]⟩ φ₁) (w : FVec Ideal ⟨2, ![n, k]⟩ φ₂)
    (ht : (⟨2, ![n, k]⟩ : Shape).Transposes [1, 0] ⟨2, ![k, n]⟩) (p : Fin m) (j : Fin n) :
    matmul D none a (transpose ⟨2, ![k, n]⟩ [1, 0] w ht) (constant ⟨2, ![m, n]⟩ .f32 0x00000000#32) (ix2 p j)
      = ∑ q : Fin k, a (ix2 p q) * w (ix2 j q) :=
  (mm_plain_apply D hD a _ p j).trans (Finset.sum_congr rfl fun q _ => by rw [transpose_ix2_apply])

/-- A product batched over axis 0, both operands contracted on their last axis, at (p, g, j). -/
theorem mm_batch_nt_apply {r m k n : ℕ} (D : DotDims ⟨3, ![r, m, k]⟩ ⟨3, ![r, n, k]⟩ ⟨3, ![r, m, n]⟩)
    (hD : ∃ wf, D = ⟨[2], [2], [1], [1], [0], [0], wf⟩) (a : FVec Ideal ⟨3, ![r, m, k]⟩ φ₁) (b : FVec Ideal ⟨3, ![r, n, k]⟩ φ₂)
    (p : Fin r) (g : Fin m) (j : Fin n) :
    matmul D none a b (constant ⟨3, ![r, m, n]⟩ .f32 0x00000000#32) (ix3 p g j) = ∑ q : Fin k, a (ix3 p g q) * b (ix3 p j q) := by
  obtain ⟨wf, rfl⟩ := hD
  exact matmul_at _ k rfl rfl a b (ix3 p g j) (fun q => ix3 p g q) (fun q => ix3 p j q)
    (fun q c => by match c with | ⟨0, _⟩ => rfl | ⟨1, _⟩ => rfl | ⟨2, _⟩ => rfl)
    (fun q c => by match c with | ⟨0, _⟩ => rfl | ⟨1, _⟩ => rfl | ⟨2, _⟩ => rfl)

/-- A product batched over axis 0, rows of the left against columns of the right, at (p, g, j). -/
theorem mm_batch_nn_apply {r m k n : ℕ} (D : DotDims ⟨3, ![r, m, k]⟩ ⟨3, ![r, k, n]⟩ ⟨3, ![r, m, n]⟩)
    (hD : ∃ wf, D = ⟨[2], [1], [1], [2], [0], [0], wf⟩) (a : FVec Ideal ⟨3, ![r, m, k]⟩ φ₁) (b : FVec Ideal ⟨3, ![r, k, n]⟩ φ₂)
    (p : Fin r) (g : Fin m) (j : Fin n) :
    matmul D none a b (constant ⟨3, ![r, m, n]⟩ .f32 0x00000000#32) (ix3 p g j) = ∑ q : Fin k, a (ix3 p g q) * b (ix3 p q j) := by
  obtain ⟨wf, rfl⟩ := hD
  exact matmul_at _ k rfl rfl a b (ix3 p g j) (fun q => ix3 p g q) (fun q => ix3 p q j)
    (fun q c => by match c with | ⟨0, _⟩ => rfl | ⟨1, _⟩ => rfl | ⟨2, _⟩ => rfl)
    (fun q c => by match c with | ⟨0, _⟩ => rfl | ⟨1, _⟩ => rfl | ⟨2, _⟩ => rfl)

end Product

end NTM.K

end
-- ==== Proof.KA.lean ====
import proofs.«155057_j13159779795433_2_alg».proof.Proof.KTerms
import proofs.«155057_j13159779795433_2_alg».proof.Proof.KEntry

noncomputable section

namespace NTM.K

open Idealize.ShloMosaic Idealize.ShloMosaic.TcCoe Idealize.ShloMosaic.ValueIdx Cert.KernelIdeal Cert.KernelIdeal.Gen NTM

variable (L0 : Vec Ideal S8x128 .f32) (L1 : Vec Ideal S8x512x128 .f32) (L2 : Vec Ideal S8x256 .f32)
  (L3 L4 : Vec Ideal S8x4x512 .f32) (L5 : Vec Ideal S768x128 .bf16) (L6 : Vec Ideal S768x256 .bf16)
  (L7 L8 : Vec Ideal S768 .f32) (L9 : Vec Ideal S536x256 .bf16) (L10 : Vec Ideal S536 .f32)
  (L11 : Vec Ideal S1560x256 .bf16) (L12 : Vec Ideal S1560 .f32) (L13 : Vec Ideal S128x512 .bf16)
  (L14 : Vec Ideal S128x256 .bf16) (L15 : Vec Ideal S128 .f32)

theorem oB_apply (p : Fin 8) (j : Fin 256) :
    oB L0 L2 L5 L6 L7 L8 (ix2 p j) = NTM.o (rowOf (B := 8) L0 L1 L2 L3 L4 p) (wtsOf L5 L6 L7 L8 L9 L10 L11 L12 L13 L14 L15) j := by
  show k0_pay11 L2 (k0_pay1 L6) L8 (k0_pay6 L2) (k0_pay7 L0 L5) (k0_pay8 L7) (ix2 p j) = _
  unfold k0_pay11 k0_pay1 k0_pay6 k0_pay7 k0_pay8
  simp only [truncf_apply, addf_apply, mulf_apply, subf_apply, broadcast_apply, logistic_apply, tanh_apply,
    slice2_axis1_eq, Nat.zero_add, shapeCast_self, bias_row,
    mm_plain_tr_apply dot_S8x128_S128x768_S8x768_1_0_0_1_n_n ⟨_, rfl⟩, mm_plain_tr_apply dot_S8x256_S256x768_S8x768_1_0_0_1_n_n ⟨_, rfl⟩]
  rfl

theorem mnB_apply (p : Fin 8) (n : Fin 512) (k : Fin 128) :
    mnB L1 (ix3 p n k) = NTM.mn (rowOf (B := 8) L0 L1 L2 L3 L4 p) n k := by
  show k0_pay9 L1 (ix3 p n k) = _
  unfold k0_pay9
  simp only [truncf_apply, divf_apply, addf_apply, broadcast_apply, sqrt_apply, broadcastTo_ab1_abc_apply, shapeCast_ab_ab1_apply]
  rw [sum3_axis2_apply]
  rfl

theorem memB_apply (p : Fin 8) (n : Fin 512) (k : Fin 128) : memB L1 (ix3 p n k) = L1 (ix3 p n k) := rfl

end NTM.K

end
-- ==== Proof.KAddr.lean ====
import proofs.«155057_j13159779795433_2_alg».proof.Proof.KA

noncomputable section

namespace NTM.K

open Idealize.ShloMosaic Idealize.ShloMosaic.TcCoe Idealize.ShloMosaic.ValueIdx Cert.KernelIdeal Cert.KernelIdeal.Gen NTM

section Softmax
variable {n : ℕ} (V : FVec Ideal ⟨3, ![8, 4, n]⟩ .f32) (hr : (⟨3, ![8, 4, n]⟩ : Shape).Reduces [2] S8x4) (hb : S8x4x1.Broadcasts ⟨3, ![8, 4, n]⟩)

/-- exp of each entry less its row's maximum. -/
def expV : FVec Ideal ⟨3, ![8, 4, n]⟩ .f32 :=
  exp (subf V (broadcastTo ⟨3, ![8, 4, n]⟩ (shapeCast S8x4x1 (maximumf (broadcast S8x4 (Scalar.ofBits .f32 0xFF800000#32))
    (multiReduction .maximumf [2] S8x4 V 0xFF800000#32 hr (.inl rfl) rfl)) shapeCasts_S8x4_S8x4x1) hb))

/-- The softmax along the last axis. -/
def softmaxV : FVec Ideal ⟨3, ![8, 4, n]⟩ .f32 :=
  divf (expV V hr hb) (broadcastTo ⟨3, ![8, 4, n]⟩ (shapeCast S8x4x1
    (multiReduction .add [2] S8x4 (expV V hr hb) 0x00000000#32 hr (.inl rfl) rfl) shapeCasts_S8x4_S8x4x1) hb)

theorem expV_apply (p : Fin 8) (h : Fin 4) (f : Fin n → EReal) (hV : ∀ m, V (ix3 p h m) = f m) (m : Fin n) :
    expV V hr hb (ix3 p h m) = NTM.smExp f m := by
  unfold expV
  rw [exp_apply, subf_apply, broadcastTo_ab1_abc_apply, shapeCast_ab_ab1_apply, maximumf_apply, broadcast_apply, max3_axis2_apply, hV]
  simp only [hV]
  rfl

theorem softmaxV_apply (p : Fin 8) (h : Fin 4) (f : Fin n → EReal) (hV : ∀ m, V (ix3 p h m) = f m) (m : Fin n) :
    softmaxV V hr hb (ix3 p h m) = NTM.softmax f m := by
  unfold softmaxV NTM.softmax
  rw [divf_apply, broadcastTo_ab1_abc_apply, shapeCast_ab_ab1_apply, sum3_axis2_apply]
  simp only [expV_apply V hr hb p h f hV]

end Softmax

section Addressing
variable (K : FVec Ideal S8x4x128 .f32) (B g G O : FVec Ideal S8x4 .f32) (sh : FVec Ideal S8x4x3 .f32)
  (prev : FVec Ideal S8x4x512 .f32) (M : FVec Ideal S8x512x128 .bf16)

/-- Each head's unit key against each unit slot, scaled by B. -/
def logitV : FVec Ideal S8x4x512 .f32 :=
  mulf (broadcastTo S8x4x512 (shapeCast S8x4x1 B shapeCasts_S8x4_S8x4x1) broadcasts_S8x4x1_S8x4x512)
    (matmul dot_S8x4x128_S8x512x128_S8x4x512_2_2_1_1_0_0 none
      (truncf .bf16 (divf K (broadcastTo S8x4x128 (addf (sqrt (shapeCast S8x4x1
        (multiReduction .add [2] S8x4 (mulf K K) 0x00000000#32 reduces_S8x4x128_S8x4 (.inl rfl) rfl) shapeCasts_S8x4_S8x4x1))
        (broadcast S8x4x1 (Scalar.ofBits .f32 0x2B8CBCCC#32))) broadcasts_S8x4x1_S8x4x128)) bitsLt_bf16_f32)
      M (constant S8x4x512 .f32 0x00000000#32))

/-- The content weighting mixed with the previous weighting by the gate. -/
def wtIV : FVec Ideal S8x4x512 .f32 :=
  addf (mulf (broadcastTo S8x4x512 (shapeCast S8x4x1 (logistic g) shapeCasts_S8x4_S8x4x1) broadcasts_S8x4x1_S8x4x512)
      (softmaxV (logitV K B M) reduces_S8x4x512_S8x4 broadcasts_S8x4x1_S8x4x512))
    (mulf (broadcastTo S8x4x512 (subf (broadcast S8x4x1 (Scalar.ofBits .f32 0x3F800000#32))
      (shapeCast S8x4x1 (logistic g) shapeCasts_S8x4_S8x4x1)) broadcasts_S8x4x1_S8x4x512) prev)

/-- The three-tap circular shift of a weighting Wt by the taps T. -/
def shiftV (T : FVec Ideal S8x4x3 .f32) (Wt : FVec Ideal S8x4x512 .f32) : FVec Ideal S8x4x512 .f32 :=
  addf (addf (mulf (broadcastTo S8x4x512 (extractStridedSlice S8x4x1 ![0, 0, 0] T slices_S8x4x3_o0_0_0_S8x4x1) broadcasts_S8x4x1_S8x4x512)
        (dynamicRotate 2 511#32 none Wt rotates_S8x4x512_d2))
      (mulf (broadcastTo S8x4x512 (extractStridedSlice S8x4x1 ![0, 0, 1] T slices_S8x4x3_o0_0_1_S8x4x1) broadcasts_S8x4x1_S8x4x512) Wt))
    (mulf (broadcastTo S8x4x512 (extractStridedSlice S8x4x1 ![0, 0, 2] T slices_S8x4x3_o0_0_2_S8x4x1) broadcasts_S8x4x1_S8x4x512)
      (dynamicRotate 2 1#32 none Wt rotates_S8x4x512_d2))

/-- The whole addressing: content weighting, interpolation, shift, sharpening by O + G, renormalising. -/
def addrV : FVec Ideal S8x4x512 .f32 :=
  k0_pay36 (shiftV (softmaxV sh reduces_S8x4x3_S8x4 broadcasts_S8x4x1_S8x4x3) (wtIV K B g prev M)) G O

theorem logitV_apply (p : Fin 8) (h : Fin 4) (H : NTM.Head) (mn : Fin 512 → Fin 128 → EReal)
    (hK : ∀ k, K (ix3 p h k) = H.keyv h k) (hB : B (ix2 p h) = NTM.softplus (H.beta h))
    (hM : ∀ n k, M (ix3 p n k) = mn n k) (m : Fin 512) : logitV K B M (ix3 p h m) = NTM.logit H mn h m := by
  unfold logitV NTM.logit NTM.cosv NTM.kn NTM.knorm
  rw [mulf_apply, broadcastTo_ab1_abc_apply, shapeCast_ab_ab1_apply, hB, mm_batch_nt_apply dot_S8x4x128_S8x512x128_S8x4x512_2_2_1_1_0_0 ⟨_, rfl⟩]
  refine congrArg (_ * ·) (Finset.sum_congr rfl fun k _ => ?_)
  rw [truncf_apply, divf_apply, broadcastTo_ab1_abc_apply, addf_apply, sqrt_apply, shapeCast_ab_ab1_apply, sum3_axis2_apply, broadcast_apply, hM]
  simp only [mulf_apply, hK]
  rfl

theorem wtIV_apply (p : Fin 8) (h : Fin 4) (H : NTM.Head) (mn : Fin 512 → Fin 128 → EReal) (pv : Fin 4 → Fin 512 → EReal)
    (hK : ∀ k, K (ix3 p h k) = H.keyv h k) (hB : B (ix2 p h) = NTM.softplus (H.beta h)) (hg : g (ix2 p h) = H.gate h)
    (hM : ∀ n k, M (ix3 p n k) = mn n k) (hprev : ∀ m, prev (ix3 p h m) = pv h m) (m : Fin 512) :
    wtIV K B g prev M (ix3 p h m) = NTM.wtI H mn pv h m := by
  unfold wtIV NTM.wtI NTM.gsig
  rw [addf_apply, mulf_apply, mulf_apply, broadcastTo_ab1_abc_apply, broadcastTo_ab1_abc_apply, subf_apply, shapeCast_ab_ab1_apply,
    broadcast_apply, logistic_apply, hg, hprev, softmaxV_apply _ _ _ p h _ (logitV_apply K B M p h H mn hK hB hM)]
  rfl

/-- Row p, head h of the addressing is the row-level addressing of that head. -/
theorem addrV_apply (p : Fin 8) (h : Fin 4) (H : NTM.Head) (mn : Fin 512 → Fin 128 → EReal) (pv : Fin 4 → Fin 512 → EReal)
    (hK : ∀ k, K (ix3 p h k) = H.keyv h k) (hB : B (ix2 p h) = NTM.softplus (H.beta h)) (hg : g (ix2 p h) = H.gate h)
    (hsh : ∀ s, sh (ix3 p h s) = H.shift h s) (hG : G (ix2 p h) = NTM.softplus (H.gamma h)) (hO : O (ix2 p h) = NTM.oneE)
    (hM : ∀ n k, M (ix3 p n k) = mn n k) (hprev : ∀ m, prev (ix3 p h m) = pv h m) (n : Fin 512) :
    addrV K B g G O sh prev M (ix3 p h n) = NTM.addr NTM.powK H mn pv h n := by
  have hS (m : Fin 512) : shiftV (softmaxV sh reduces_S8x4x3_S8x4 broadcasts_S8x4x1_S8x4x3) (wtIV K B g prev M) (ix3 p h m)
      = NTM.shifted H mn pv h m := by
    unfold shiftV NTM.shifted
    rw [addf_apply, addf_apply, mulf_apply, mulf_apply, mulf_apply,
      broadcastTo_ab1_abc_apply, broadcastTo_ab1_abc_apply, broadcastTo_ab1_abc_apply,
      slice3_axis2_apply 0 _ _ p h 0 0 rfl, slice3_axis2_apply 1 _ _ p h 0 1 rfl, slice3_axis2_apply 2 _ _ p h 0 2 rfl,
      rot3_axis2_apply 511#32 _ _ p h m (NTM.nxt m) (by show (m.val + 1) % 512 = (m.val + 512 - 511 % 512) % 512; omega),
      rot3_axis2_apply 1#32 _ _ p h m (NTM.prv m) (by show (m.val + 511) % 512 = (m.val + 512 - 1 % 512) % 512; omega)]
    simp only [softmaxV_apply sh _ _ p h _ hsh, wtIV_apply K B g prev M p h H mn pv hK hB hg hM hprev]
  unfold addrV k0_pay36
  repeat (first | rw [sum3_axis2_apply] | simp only [divf_apply, exp_apply, mulf_apply, log_apply, addf_apply, broadcast_apply,
    broadcastTo_ab1_abc_apply, shapeCast_ab_ab1_apply, hS, hG, hO])
  rfl

end Addressing

end NTM.K

end
-- ==== Proof.KB.lean ====
import proofs.«155057_j13159779795433_2_alg».proof.Proof.KAddr

noncomputable section

namespace NTM.K

open Idealize.ShloMosaic Idealize.ShloMosaic.TcCoe Idealize.ShloMosaic.ValueIdx Cert.KernelIdeal Cert.KernelIdeal.Gen NTM

variable (L0 : Vec Ideal S8x128 .f32) (L1 : Vec Ideal S8x512x128 .f32) (L2 : Vec Ideal S8x256 .f32)
  (L3 L4 : Vec Ideal S8x4x512 .f32) (L5 : Vec Ideal S768x128 .bf16) (L6 : Vec Ideal S768x256 .bf16)
  (L7 L8 : Vec Ideal S768 .f32) (L9 : Vec Ideal S536x256 .bf16) (L10 : Vec Ideal S536 .f32)
  (L11 : Vec Ideal S1560x256 .bf16) (L12 : Vec Ideal S1560 .f32) (L13 : Vec Ideal S128x512 .bf16)
  (L14 : Vec Ideal S128x256 .bf16) (L15 : Vec Ideal S128 .f32)

namespace KB

section Casts
variable {α : Type}

/-- The flat projection of a row is four heads of 134 numbers each. -/
theorem sc_536_4x134 (x : S8x536.Idx → α) (h : S8x536.ShapeCasts S8x4x134) (p : Fin 8) (g : Fin 4) (c : Fin 134) :
    shapeCast S8x4x134 x h (ix3 p g c) = x (ix2 p ⟨134 * g.val + c.val, by omega⟩) :=
  shapeCast_apply x h _ _ (by
    rw [Shape.rowMajor_val_two, Shape.rowMajor_val_three]
    show p.val * 536 + (134 * g.val + c.val) = (p.val * 4 + g.val) * 134 + c.val
    omega)

theorem sc_4x128_512 (x : S8x4x128.Idx → α) (h : S8x4x128.ShapeCasts S8x512) (p : Fin 8) (q : Fin 512) :
    shapeCast S8x512 x h (ix2 p q) = x (ix3 p ⟨q.val / 128, by omega⟩ ⟨q.val % 128, Nat.mod_lt _ (by omega)⟩) :=
  shapeCast_apply x h _ _ (by
    rw [Shape.rowMajor_val_two, Shape.rowMajor_val_three]
    show (p.val * 4 + q.val / 128) * 128 + q.val % 128 = p.val * 512 + q.val
    omega)

end Casts

theorem pay2_eq : k0_pay2 L9 = L9 := by unfold k0_pay2; exact shapeCast_self _ _
theorem pay4_eq : k0_pay4 L13 = L13 := by unfold k0_pay4; exact shapeCast_self _ _
theorem pay5_eq : k0_pay5 L14 = L14 := by unfold k0_pay5; exact shapeCast_self _ _

/-- The read heads' parameters of row p. -/
abbrev HR (p : Fin 8) : NTM.Head :=
  NTM.headR (NTM.rp (rowOf (B := 8) L0 L1 L2 L3 L4 p) (wtsOf L5 L6 L7 L8 L9 L10 L11 L12 L13 L14 L15))

/-- Entry c of head g of row p of the read projection is the affine map of that row's controller output. -/
theorem proj_apply (p : Fin 8) (g : Fin 4) (c : Fin 134) :
    k0_pay12 L2 (k0_pay1 L6) L8 (k0_pay2 L9) L10 (k0_pay6 L2) (k0_pay7 L0 L5) (k0_pay8 L7) (ix3 p g c)
      = NTM.hdR (NTM.rp (rowOf (B := 8) L0 L1 L2 L3 L4 p) (wtsOf L5 L6 L7 L8 L9 L10 L11 L12 L13 L14 L15)) g c := by
  unfold k0_pay12
  rw [sc_536_4x134, addf_apply, mm_plain_tr_apply dot_S8x256_S256x536_S8x536_1_0_0_1_n_n ⟨_, rfl⟩, bias_row, pay2_eq]
  simp only [oB_apply L0 L1 L2 L3 L4 L5 L6 L7 L8 L9 L10 L11 L12 L13 L14 L15]
  rfl

theorem keyv_apply (p : Fin 8) (g : Fin 4) (k : Fin 128) :
    keyvR L0 L2 L5 L6 L7 L8 L9 L10 (ix3 p g k) = (HR L0 L1 L2 L3 L4 L5 L6 L7 L8 L9 L10 L11 L12 L13 L14 L15 p).keyv g k := by
  unfold keyvR k0_pay13
  refine (slice3_axis2_apply 0 _ _ p g k ⟨k.val, by omega⟩ (by show k.val = 0 + k.val; omega)).trans ?_
  exact proj_apply L0 L1 L2 L3 L4 L5 L6 L7 L8 L9 L10 L11 L12 L13 L14 L15 p g _
theorem beta_apply (p : Fin 8) (g : Fin 4) : betaR L0 L2 L5 L6 L7 L8 L9 L10 (ix2 p g) = (HR L0 L1 L2 L3 L4 L5 L6 L7 L8 L9 L10 L11 L12 L13 L14 L15 p).beta g := by
  unfold betaR k0_pay14
  exact (shapeCast_ab1_ab_apply _ _ p g).trans ((slice3_axis2_apply 128 _ _ p g 0 ⟨128, by omega⟩ rfl).trans (proj_apply L0 L1 L2 L3 L4 L5 L6 L7 L8 L9 L10 L11 L12 L13 L14 L15 p g _))
theorem gate_apply (p : Fin 8) (g : Fin 4) : gateR L0 L2 L5 L6 L7 L8 L9 L10 (ix2 p g) = (HR L0 L1 L2 L3 L4 L5 L6 L7 L8 L9 L10 L11 L12 L13 L14 L15 p).gate g := by
  unfold gateR k0_pay15
  exact (shapeCast_ab1_ab_apply _ _ p g).trans ((slice3_axis2_apply 129 _ _ p g 0 ⟨129, by omega⟩ rfl).trans (proj_apply L0 L1 L2 L3 L4 L5 L6 L7 L8 L9 L10 L11 L12 L13 L14 L15 p g _))
theorem gamma_apply (p : Fin 8) (g : Fin 4) : gammaR L0 L2 L5 L6 L7 L8 L9 L10 (ix2 p g) = (HR L0 L1 L2 L3 L4 L5 L6 L7 L8 L9 L10 L11 L12 L13 L14 L15 p).gamma g := by
  unfold gammaR k0_pay17
  exact (shapeCast_ab1_ab_apply _ _ p g).trans ((slice3_axis2_apply 133 _ _ p g 0 ⟨133, by omega⟩ rfl).trans (proj_apply L0 L1 L2 L3 L4 L5 L6 L7 L8 L9 L10 L11 L12 L13 L14 L15 p g _))
theorem shift_apply (p : Fin 8) (g : Fin 4) (s : Fin 3) :
    shiftR L0 L2 L5 L6 L7 L8 L9 L10 (ix3 p g s) = (HR L0 L1 L2 L3 L4 L5 L6 L7 L8 L9 L10 L11 L12 L13 L14 L15 p).shift g s := by
  unfold shiftR k0_pay16
  exact (slice3_axis2_apply 130 _ _ p g s ⟨130 + s.val, by omega⟩ rfl).trans (proj_apply L0 L1 L2 L3 L4 L5 L6 L7 L8 L9 L10 L11 L12 L13 L14 L15 p g _)

theorem pay40_apply (v18 : FVec Ideal S128x512 .bf16) (v20 : FVec Ideal S128x256 .bf16) (v21 : FVec Ideal S128 .f32)
    (v62 : FVec Ideal S8x256 .bf16) (v179 : FVec Ideal S8x512 .f32) (p : Fin 8) (j : Fin 128) :
    k0_pay40 v18 v20 v21 v62 v179 (ix2 p j)
      = ((∑ k : Fin 256, v62 (ix2 p k) * v20 (ix2 j k)) + v21 (ix1 j)) + ∑ k : Fin 512, v179 (ix2 p k) * v18 (ix2 j k) := by
  unfold k0_pay40
  rw [addf_apply, addf_apply, mm_plain_tr_apply dot_S8x256_S256x128_S8x128_1_0_0_1_n_n ⟨_, rfl⟩,
    mm_plain_tr_apply dot_S8x512_S512x128_S8x128_1_0_0_1_n_n ⟨_, rfl⟩, bias_row]
  rfl

end KB

/-- What head q / 128 reads: the read weighting (the addressing of row p) summed against the slots. -/
theorem rvF_apply (p : Fin 8) (q : Fin 512) :
    rvF L0 L1 L2 L3 L5 L6 L7 L8 L9 L10 (ix2 p q) = NTM.rvFlat NTM.powK (rowOf (B := 8) L0 L1 L2 L3 L4 p) (wtsOf L5 L6 L7 L8 L9 L10 L11 L12 L13 L14 L15) q := by
  unfold rvF k0_pay23
  rw [KB.sc_4x128_512, mm_batch_nn_apply dot_S8x4x512_S8x512x128_S8x4x128_2_1_1_2_0_0 ⟨_, rfl⟩]
  refine Finset.sum_congr rfl fun n _ => congrArg₂ (· * ·) ?_ rfl
  rw [truncf_apply]
  exact addrV_apply (keyvR L0 L2 L5 L6 L7 L8 L9 L10) _ (gateR L0 L2 L5 L6 L7 L8 L9 L10) _ _ (shiftR L0 L2 L5 L6 L7 L8 L9 L10) L3 (mnB L1) p _ (KB.HR L0 L1 L2 L3 L4 L5 L6 L7 L8 L9 L10 L11 L12 L13 L14 L15 p) _ (rowOf (B := 8) L0 L1 L2 L3 L4 p).rw
    (KB.keyv_apply L0 L1 L2 L3 L4 L5 L6 L7 L8 L9 L10 L11 L12 L13 L14 L15 p _) ((softplusK_apply (betaR L0 L2 L5 L6 L7 L8 L9 L10) _).trans (congrArg NTM.softplus (KB.beta_apply L0 L1 L2 L3 L4 L5 L6 L7 L8 L9 L10 L11 L12 L13 L14 L15 p _)))
    (KB.gate_apply L0 L1 L2 L3 L4 L5 L6 L7 L8 L9 L10 L11 L12 L13 L14 L15 p _) (KB.shift_apply L0 L1 L2 L3 L4 L5 L6 L7 L8 L9 L10 L11 L12 L13 L14 L15 p _)
    ((softplusK_apply (gammaR L0 L2 L5 L6 L7 L8 L9 L10) _).trans (congrArg NTM.softplus (KB.gamma_apply L0 L1 L2 L3 L4 L5 L6 L7 L8 L9 L10 L11 L12 L13 L14 L15 p _))) rfl
    (mnB_apply L0 L1 L2 L3 L4 p) (fun _ => rfl) n

theorem yB_apply (p : Fin 8) (j : Fin 128) :
    yB L0 L1 L2 L3 L5 L6 L7 L8 L9 L10 L13 L14 L15 (ix2 p j) = NTM.y NTM.powK (rowOf (B := 8) L0 L1 L2 L3 L4 p) (wtsOf L5 L6 L7 L8 L9 L10 L11 L12 L13 L14 L15) j := by
  unfold yB
  rw [KB.pay40_apply, KB.pay4_eq, KB.pay5_eq]
  simp only [oB_apply L0 L1 L2 L3 L4 L5 L6 L7 L8 L9 L10 L11 L12 L13 L14 L15, rvF_apply L0 L1 L2 L3 L4 L5 L6 L7 L8 L9 L10 L11 L12 L13 L14 L15]
  rfl

end NTM.K

end
-- ==== Proof.KC.lean ====
import proofs.«155057_j13159779795433_2_alg».proof.Proof.KAddr

noncomputable section

namespace NTM.K

open Idealize.ShloMosaic Idealize.ShloMosaic.TcCoe Idealize.ShloMosaic.ValueIdx Cert.KernelIdeal Cert.KernelIdeal.Gen NTM

variable (L0 : Vec Ideal S8x128 .f32) (L1 : Vec Ideal S8x512x128 .f32) (L2 : Vec Ideal S8x256 .f32)
  (L3 L4 : Vec Ideal S8x4x512 .f32) (L5 : Vec Ideal S768x128 .bf16) (L6 : Vec Ideal S768x256 .bf16)
  (L7 L8 : Vec Ideal S768 .f32) (L9 : Vec Ideal S536x256 .bf16) (L10 : Vec Ideal S536 .f32)
  (L11 : Vec Ideal S1560x256 .bf16) (L12 : Vec Ideal S1560 .f32) (L13 : Vec Ideal S128x512 .bf16)
  (L14 : Vec Ideal S128x256 .bf16) (L15 : Vec Ideal S128 .f32)

namespace KC

section Heads
variable (b : Vec Ideal S1560 .f32) (o : FVec Ideal S8x256 .bf16) (w : FVec Ideal S256x1560 .bf16) (M : FVec Ideal S8x512x128 .bf16)

/-- The addressing parameters of row p's four heads, read off a projection block. -/
def headX (X : FVec Ideal S8x4x390 .f32) (p : Fin 8) : NTM.Head where
  keyv h k := X (ix3 p h (⟨k.val, by omega⟩ : Fin 390))
  beta h := X (ix3 p h (⟨128, by omega⟩ : Fin 390))
  gate h := X (ix3 p h (⟨129, by omega⟩ : Fin 390))
  shift h s := X (ix3 p h (⟨130 + s.val, by omega⟩ : Fin 390))
  gamma h := X (ix3 p h (⟨133, by omega⟩ : Fin 390))

theorem keyK_apply (X : FVec Ideal S8x4x390 .f32) (hs : S8x4x390.Slices ![0, 0, 0] S8x4x128) (p : Fin 8) (h : Fin 4) (k : Fin 128) :
    extractStridedSlice S8x4x128 ![0, 0, 0] X hs (ix3 p h k) = X (ix3 p h (⟨k.val, by omega⟩ : Fin 390)) :=
  slice3_axis2_apply 0 X hs p h k _ (Nat.zero_add _).symm

theorem pay26_apply (p : Fin 8) (h : Fin 4) :
    k0_pay26 b o w (constant S8x1560 .f32 0x00000000#32) (ix2 p h)
      = (headX (k0_pay25 b o w (constant S8x1560 .f32 0x00000000#32)) p).gate h := by
  unfold k0_pay26
  rw [shapeCast_ab1_ab_apply, slice3_axis2_apply 129 _ _ p h 0 (⟨129, by omega⟩ : Fin 390) rfl]
  rfl

theorem pay27_apply (p : Fin 8) (h : Fin 4) (s : Fin 3) :
    k0_pay27 b o w (constant S8x1560 .f32 0x00000000#32) (ix3 p h s)
      = (headX (k0_pay25 b o w (constant S8x1560 .f32 0x00000000#32)) p).shift h s := by
  unfold k0_pay27
  rw [slice3_axis2_apply 130 _ _ p h s (⟨130 + s.val, by omega⟩ : Fin 390) rfl]
  rfl

theorem pay28_apply (p : Fin 8) (h : Fin 4) :
    k0_pay28 b o w (constant S8x1560 .f32 0x00000000#32) (ix2 p h)
      = (headX (k0_pay25 b o w (constant S8x1560 .f32 0x00000000#32)) p).gamma h := by
  unfold k0_pay28
  rw [shapeCast_ab1_ab_apply, slice3_axis2_apply 133 _ _ p h 0 (⟨133, by omega⟩ : Fin 390) rfl]
  rfl

end Heads

theorem WwhT_apply (q : Fin 256) (j : Fin 1560) : WwhT L11 (ix2 q j) = L11 (ix2 j q) := by
  unfold WwhT k0_pay24 k0_pay3
  rw [transpose_ix2_apply, shapeCast_self]

/-- The write projection of a row is four heads of 390 numbers each, an affine map of the row's controller output. -/
theorem projW_apply (p : Fin 8) (h : Fin 4) (c : Fin 390) :
    k0_pay25 L12 (oB L0 L2 L5 L6 L7 L8) (WwhT L11) zerosW (ix3 p h c) = NTM.hdW (NTM.wp (rowOf (B := 8) L0 L1 L2 L3 L4 p) (wtsOf L5 L6 L7 L8 L9 L10 L11 L12 L13 L14 L15)) h c := by
  unfold k0_pay25
  refine (shapeCast_apply _ _ (ix3 p h c) (ix2 p (⟨390 * h.val + c.val, by omega⟩ : Fin 1560)) (by
    rw [Shape.rowMajor_val_two, Shape.rowMajor_val_three]
    show p.val * 1560 + (390 * h.val + c.val) = (p.val * 4 + h.val) * 390 + c.val
    omega)).trans ?_
  rw [addf_apply, mm_plain_apply dot_S8x256_S256x1560_S8x1560_1_0_0_1_n_n ⟨_, rfl⟩, bias_row]
  unfold NTM.hdW NTM.wp NTM.lin
  refine congrArg₂ (· + ·) (Finset.sum_congr rfl fun q _ => ?_) rfl
  rw [oB_apply L0 L1 L2 L3 L4 L5 L6 L7 L8 L9 L10 L11 L12 L13 L14 L15, WwhT_apply]
  rfl

/-- The write heads' parameters of row p. -/
abbrev HW (p : Fin 8) : NTM.Head := NTM.headW (NTM.wp (rowOf (B := 8) L0 L1 L2 L3 L4 p) (wtsOf L5 L6 L7 L8 L9 L10 L11 L12 L13 L14 L15))

theorem headX_proj (p : Fin 8) : headX (k0_pay25 L12 (oB L0 L2 L5 L6 L7 L8) (WwhT L11) zerosW) p = HW L0 L1 L2 L3 L4 L5 L6 L7 L8 L9 L10 L11 L12 L13 L14 L15 p := by
  unfold headX HW NTM.headW
  simp only [projW_apply L0 L1 L2 L3 L4 L5 L6 L7 L8 L9 L10 L11 L12 L13 L14 L15]

end KC

theorem eraseW_apply (p : Fin 8) (h : Fin 4) (k : Fin 128) :
    eraseW L0 L2 L5 L6 L7 L8 L11 L12 (ix3 p h k) = NTM.erase (NTM.wp (rowOf (B := 8) L0 L1 L2 L3 L4 p) (wtsOf L5 L6 L7 L8 L9 L10 L11 L12 L13 L14 L15)) h k := by
  unfold eraseW k0_pay29
  rw [logistic_apply, slice3_axis2_apply 134 _ _ p h k ⟨134 + k.val, by omega⟩ rfl, KC.projW_apply L0 L1 L2 L3 L4 L5 L6 L7 L8 L9 L10 L11 L12 L13 L14 L15]
  rfl

theorem addW_apply (p : Fin 8) (h : Fin 4) (k : Fin 128) :
    addW L0 L2 L5 L6 L7 L8 L11 L12 (ix3 p h k) = NTM.addv (NTM.wp (rowOf (B := 8) L0 L1 L2 L3 L4 p) (wtsOf L5 L6 L7 L8 L9 L10 L11 L12 L13 L14 L15)) h k := by
  unfold addW k0_pay30
  rw [tanh_apply, slice3_axis2_apply 262 _ _ p h k ⟨262 + k.val, by omega⟩ rfl, KC.projW_apply L0 L1 L2 L3 L4 L5 L6 L7 L8 L9 L10 L11 L12 L13 L14 L15]
  rfl

theorem spW_apply (p : Fin 8) (h : Fin 4) :
    spW L0 L2 L5 L6 L7 L8 L11 L12 (ix2 p h) = NTM.softplus ((KC.HW L0 L1 L2 L3 L4 L5 L6 L7 L8 L9 L10 L11 L12 L13 L14 L15 p).gamma h) := by
  unfold spW k0_pay34
  exact (softplusK_apply _ _).trans (congrArg NTM.softplus ((KC.pay28_apply L12 _ _ p h).trans (congrArg (·.gamma h) (KC.headX_proj L0 L1 L2 L3 L4 L5 L6 L7 L8 L9 L10 L11 L12 L13 L14 L15 p))))

theorem onesW_apply (p : Fin 8) (h : Fin 4) : (onesW : FVec Ideal S8x4 .f32) (ix2 p h) = NTM.oneE := rfl

end NTM.K

end
-- ==== Proof.KD.lean ====
import proofs.«155057_j13159779795433_2_alg».proof.Proof.KC

noncomputable section

namespace NTM.K

open Idealize.ShloMosaic Idealize.ShloMosaic.TcCoe Idealize.ShloMosaic.ValueIdx Cert.KernelIdeal Cert.KernelIdeal.Gen NTM

namespace KD

def colV (Wt : FVec Ideal S8x4x512 .f32) (o : Nat) (hs : S8x4x512.Slices ![0, o, 0] S8x1x512) : FVec Ideal S8x512x1 .f32 :=
  shapeCast S8x512x1 (shapeCast S8x512 (extractStridedSlice S8x1x512 ![0, o, 0] Wt hs) shapeCasts_S8x1x512_S8x512) shapeCasts_S8x512_S8x512x1

theorem colV_apply (Wt : FVec Ideal S8x4x512 .f32) (o : Nat) (hs : S8x4x512.Slices ![0, o, 0] S8x1x512)
    (p : Fin 8) (h : Fin 4) (ho : h.val = o) (n : Fin 512) :
    colV Wt o hs (ix3 p n (0 : Fin 1)) = Wt (ix3 p h n) := by
  unfold colV
  rw [shapeCast_ab_ab1_apply]
  refine (shapeCast_apply _ _ _ (ix3 p (0 : Fin 1) n) ?_).trans ?_
  · rw [Shape.rowMajor_val_two, Shape.rowMajor_val_three]
    show (p.val * 1 + 0) * 512 + n.val = p.val * 512 + n.val
    omega
  exact slice3_axis1_apply o Wt hs p (0 : Fin 1) n h (by show h.val = o + 0; omega)

def rowV (E : FVec Ideal S8x4x128 .f32) (o : Nat) (hs : S8x4x128.Slices ![0, o, 0] S8x1x128) : FVec Ideal S8x1x128 .f32 :=
  shapeCast S8x1x128 (shapeCast S8x128 (extractStridedSlice S8x1x128 ![0, o, 0] E hs) shapeCasts_S8x1x128_S8x128) shapeCasts_S8x128_S8x1x128

theorem rowV_apply (E : FVec Ideal S8x4x128 .f32) (o : Nat) (hs : S8x4x128.Slices ![0, o, 0] S8x1x128)
    (p : Fin 8) (h : Fin 4) (ho : h.val = o) (k : Fin 128) :
    rowV E o hs (ix3 p (0 : Fin 1) k) = E (ix3 p h k) := by
  unfold rowV
  rw [shapeCast_shapeCast]
  exact slice3_axis1_apply o E hs p (0 : Fin 1) k h (by show h.val = o + 0; omega)

/-- One head's erase and add on the whole block: M * (1 - w e) + w a. -/
def stepV (W1 : FVec Ideal S8x512x1 .f32) (E1 A1 : FVec Ideal S8x1x128 .f32) (M : FVec Ideal S8x512x128 .f32) : FVec Ideal S8x512x128 .f32 :=
  addf (mulf M (subf (broadcast S8x512x128 (Scalar.ofBits .f32 0x3F800000#32))
      (mulf (broadcastTo S8x512x128 W1 broadcasts_S8x512x1_S8x512x128) (broadcastTo S8x512x128 E1 broadcasts_S8x1x128_S8x512x128))))
    (mulf (broadcastTo S8x512x128 W1 broadcasts_S8x512x1_S8x512x128) (broadcastTo S8x512x128 A1 broadcasts_S8x1x128_S8x512x128))

theorem rowSpread_apply (E1 : FVec Ideal S8x1x128 .f32) (p : Fin 8) (n : Fin 512) (k : Fin 128) :
    broadcastTo S8x512x128 E1 broadcasts_S8x1x128_S8x512x128 (ix3 p n k) = E1 (ix3 p (0 : Fin 1) k) :=
  broadcastTo_apply _ _ (ix3 p n k) (ix3 p (0 : Fin 1) k) fun a => by
    match a with
    | ⟨0, _⟩ => rfl
    | ⟨1, _⟩ => rfl
    | ⟨2, _⟩ => rfl

theorem stepV_apply (W1 : FVec Ideal S8x512x1 .f32) (E1 A1 : FVec Ideal S8x1x128 .f32) (M : FVec Ideal S8x512x128 .f32)
    (p : Fin 8) (n : Fin 512) (k : Fin 128) :
    stepV W1 E1 A1 M (ix3 p n k)
      = M (ix3 p n k) * (NTM.oneE - W1 (ix3 p n (0 : Fin 1)) * E1 (ix3 p (0 : Fin 1) k)) + W1 (ix3 p n (0 : Fin 1)) * A1 (ix3 p (0 : Fin 1) k) := by
  simp only [stepV, addf_apply, mulf_apply, subf_apply, broadcast_apply, broadcastTo_ab1_abc_apply, rowSpread_apply]
  rfl

theorem headStep_apply (Wt : FVec Ideal S8x4x512 .f32) (E A : FVec Ideal S8x4x128 .f32) (M : FVec Ideal S8x512x128 .f32)
    (o : Nat) (hw : S8x4x512.Slices ![0, o, 0] S8x1x512) (he : S8x4x128.Slices ![0, o, 0] S8x1x128)
    (p : Fin 8) (h : Fin 4) (ho : h.val = o)
    (w : Fin 512 → EReal) (e a : Fin 128 → EReal) (m : Fin 512 → Fin 128 → EReal)
    (hW : ∀ n, Wt (ix3 p h n) = w n) (hE : ∀ k, E (ix3 p h k) = e k) (hA : ∀ k, A (ix3 p h k) = a k)
    (hM : ∀ n k, M (ix3 p n k) = m n k) (n : Fin 512) (k : Fin 128) :
    stepV (colV Wt o hw) (rowV E o he) (rowV A o he) M (ix3 p n k) = NTM.nmStep w e a m n k := by
  rw [stepV_apply, colV_apply Wt o hw p h ho, rowV_apply E o he p h ho, rowV_apply A o he p h ho, hW, hE, hA, hM]
  rfl

end KD

variable (L0 : Vec Ideal S8x128 .f32) (L1 : Vec Ideal S8x512x128 .f32) (L2 : Vec Ideal S8x256 .f32)
  (L3 L4 : Vec Ideal S8x4x512 .f32) (L5 : Vec Ideal S768x128 .bf16) (L6 : Vec Ideal S768x256 .bf16)
  (L7 L8 : Vec Ideal S768 .f32) (L9 : Vec Ideal S536x256 .bf16) (L10 : Vec Ideal S536 .f32)
  (L11 : Vec Ideal S1560x256 .bf16) (L12 : Vec Ideal S1560 .f32) (L13 : Vec Ideal S128x512 .bf16)
  (L14 : Vec Ideal S128x256 .bf16) (L15 : Vec Ideal S128 .f32)

/-- The write weighting is the addressing of row p with the write heads' parameters. -/
theorem wwB_apply (p : Fin 8) (h : Fin 4) (n : Fin 512) :
    wwB L0 L1 L2 L4 L5 L6 L7 L8 L11 L12 (ix3 p h n) = NTM.wwt NTM.powK (rowOf (B := 8) L0 L1 L2 L3 L4 p) (wtsOf L5 L6 L7 L8 L9 L10 L11 L12 L13 L14 L15) h n := by
  have hX := KC.headX_proj L0 L1 L2 L3 L4 L5 L6 L7 L8 L9 L10 L11 L12 L13 L14 L15 p
  exact addrV_apply _ _ _ _ _ _ L4 (mnB L1) p h (KC.HW L0 L1 L2 L3 L4 L5 L6 L7 L8 L9 L10 L11 L12 L13 L14 L15 p) _ (rowOf (B := 8) L0 L1 L2 L3 L4 p).ww
    (fun k => (KC.keyK_apply _ _ p h k).trans (congrArg (·.keyv h k) hX))
    ((softplusK_apply _ _).trans (congrArg NTM.softplus ((shapeCast_ab1_ab_apply _ _ p h).trans
      ((slice3_axis2_apply 128 _ _ p h 0 ⟨128, by omega⟩ rfl).trans (congrArg (·.beta h) hX)))))
    ((KC.pay26_apply L12 _ _ p h).trans (congrArg (·.gate h) hX))
    (fun s => (KC.pay27_apply L12 _ _ p h s).trans (congrArg (·.shift h s) hX))
    (spW_apply L0 L1 L2 L3 L4 L5 L6 L7 L8 L9 L10 L11 L12 L13 L14 L15 p h) (onesW_apply p h) (mnB_apply L0 L1 L2 L3 L4 p) (fun _ => rfl) n

/-- The four heads write one after the other, head 0 first. -/
theorem nmB_apply (p : Fin 8) (n : Fin 512) (k : Fin 128) :
    nmB L0 L1 L2 L4 L5 L6 L7 L8 L11 L12 (ix3 p n k) = NTM.nm NTM.powK (rowOf (B := 8) L0 L1 L2 L3 L4 p) (wtsOf L5 L6 L7 L8 L9 L10 L11 L12 L13 L14 L15) n k := by
  have hw := wwB_apply L0 L1 L2 L3 L4 L5 L6 L7 L8 L9 L10 L11 L12 L13 L14 L15 p
  have he := eraseW_apply L0 L1 L2 L3 L4 L5 L6 L7 L8 L9 L10 L11 L12 L13 L14 L15 p
  have ha := addW_apply L0 L1 L2 L3 L4 L5 L6 L7 L8 L9 L10 L11 L12 L13 L14 L15 p
  refine KD.headStep_apply _ _ _ _ 3 _ _ p 3 rfl _ _ _ _ (hw 3) (he 3) (ha 3) (fun n k => ?_) n k
  refine KD.headStep_apply _ _ _ _ 2 _ _ p 2 rfl _ _ _ _ (hw 2) (he 2) (ha 2) (fun n k => ?_) n k
  refine KD.headStep_apply _ _ _ _ 1 _ _ p 1 rfl _ _ _ _ (hw 1) (he 1) (ha 1) (fun n k => ?_) n k
  exact KD.headStep_apply _ _ _ _ 0 _ _ p 0 rfl _ _ _ _ (hw 0) (he 0) (ha 0) (fun _ _ => rfl) n k

end NTM.K

end
-- ==== Proof.Blocks.lean ====
import proofs.«155057_j13159779795433_2_alg».proof.Proof.ValueB
import proofs.«155057_j13159779795433_2_alg».proof.Proof.KB
import proofs.«155057_j13159779795433_2_alg».proof.Proof.KD
import Idealize.ShloMosaic.Lib.Pipeline.Value
import Idealize.ShloMosaic.Lib.StableHlo.Run

noncomputable section

namespace NTM.Blocks

open Idealize.ShloMosaic Idealize.ShloMosaic.TcCoe Idealize.ShloMosaic.ValueIdx Idealize.SL.Sem
open Cert.KernelIdeal Cert.KernelIdeal.Gen NTM NTM.K
open Idealize.ShloMosaic.Pipeline (Dat)

variable (m : (ℓ : Loc nD τ sig) → Buf (Elt Ideal) ℓ)

theorem hz1 : (![0] : Fin 1 → Nat) = fun _ => 0 := by decide
theorem hz2 : (![0, 0] : Fin 2 → Nat) = fun _ => 0 := by decide
theorem hz3 : (![0, 0, 0] : Fin 3 → Nat) = fun _ => 0 := by decide

/-- Narrowing a weight array's number format is the identity on extended reals. -/
theorem V_v0 (c : Dev nD) : (V m c main_v0 : S768x128.Idx → EReal) = m ((c : Thread nD τ).loc main_arg5) := by
  dsimp only [Gen.V, Gen.hostOps0]; after_results; rfl
theorem V_v1 (c : Dev nD) : (V m c main_v1 : S768x256.Idx → EReal) = m ((c : Thread nD τ).loc main_arg6) := by
  dsimp only [Gen.V, Gen.hostOps0]; after_results; rfl
theorem V_v2 (c : Dev nD) : (V m c main_v2 : S536x256.Idx → EReal) = m ((c : Thread nD τ).loc main_arg9) := by
  dsimp only [Gen.V, Gen.hostOps0]; after_results; rfl
theorem V_v3 (c : Dev nD) : (V m c main_v3 : S1560x256.Idx → EReal) = m ((c : Thread nD τ).loc main_arg11) := by
  dsimp only [Gen.V, Gen.hostOps0]; after_results; rfl
theorem V_v4 (c : Dev nD) : (V m c main_v4 : S128x512.Idx → EReal) = m ((c : Thread nD τ).loc main_arg13) := by
  dsimp only [Gen.V, Gen.hostOps0]; after_results; rfl
theorem V_v5 (c : Dev nD) : (V m c main_v5 : S128x256.Idx → EReal) = m ((c : Thread nD τ).loc main_arg14) := by
  dsimp only [Gen.V, Gen.hostOps0]; after_results; rfl

/-- The grid has one axis: point `t`'s coordinate is `t`. -/
theorem coord : ∀ t : Fin cfg0.N, (BitVec.ofNat 32 (grid0.coords t 0).val).toNat = t.val :=
  (by decide +kernel : ∀ t : Fin grid0.N, _)

/-- The array row under row `p` of block `t`, the blocks holding 8 rows each. -/
def row8 (t : Fin cfg0.N) (p : Fin 8) : Fin 1024 := ⟨8 * t.val + p.val, by have := t.isLt; have hN : cfg0.N = 128 := N_0; omega⟩

/-- On an axis cut into blocks of 8, entry `y` of block `t` sits at `8t + y`. -/
theorem row_val (w : Pipeline.Window sig grid0) (t : Fin grid0.N) (a : Fin w.shape.rank) (hs : w.size a = 8)
    (hi : w.index t a = (BitVec.ofNat 32 (grid0.coords t 0).val).toNat) (y : (w.xblock (grid0.coords t)).Idx) :
    ((w.rect t).emb y a : ℕ) = 8 * t.val + y a := by
  rw [w.rect_emb_val, hi, hs, coord]; omega

theorem idx_ext₃ {n : Fin 3 → ℕ} {x y : (a : Fin 3) → Fin (n a)} (h0 : (x 0 : ℕ) = y 0) (h1 : (x 1 : ℕ) = y 1)
    (h2 : (x 2 : ℕ) = y 2) : x = y :=
  funext fun a => Fin.ext <| match a with | ⟨0, _⟩ => h0 | ⟨1, _⟩ => h1 | ⟨2, _⟩ => h2

/-- Entry `y` of a block whose block index is zero on every axis sits at `y`. -/
theorem whole_blk (w : Pipeline.Window sig grid0) (t : Fin grid0.N) (hz : w.index t = fun _ => 0)
    (y : (w.xblock (grid0.coords t)).Idx) (a : Fin w.shape.rank) : ((w.rect t).emb y a : ℕ) = y a :=
  w.rect_emb_val_of_index_zero t a (congrFun hz a) y

/-- Reading through an injection that fixes every coordinate reads the array itself. -/
theorem read_id {S : Shape} {α : Type} {X A : S.Idx → α} (hX : X = A) {e : S.Idx → S.Idx}
    (he : ∀ y a, ((e y a : Fin _) : ℕ) = y a) : (fun y => X (e y)) = A :=
  hX ▸ funext fun y => congrArg X (funext fun a => Fin.ext (he y a))

abbrev rowAt (c : Dev nD) (b : Fin 1024) : Row :=
  rowOf (B := 1024) (m ((c : Thread nD τ).loc main_arg0)) (m ((c : Thread nD τ).loc main_arg1)) (m ((c : Thread nD τ).loc main_arg2)) (m ((c : Thread nD τ).loc main_arg3)) (m ((c : Thread nD τ).loc main_arg4)) b
abbrev wts (c : Dev nD) : Wts :=
  wtsOf (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

/-- The first result as a function of the arguments: row by row, `NTM.y`. -/
def G16 (c : Dev nD) : S1024x128.Idx → EReal := fun i =>
  NTM.y NTM.powK (rowAt m c ⟨(i 0).val, idx2_lt0 i⟩) (wts m c) ⟨(i 1).val, idx2_lt1 i⟩

/-- The second result as a function of the arguments: row by row, `NTM.nm`. -/
def G17 (c : Dev nD) : S1024x512x128.Idx → EReal := fun i =>
  NTM.nm NTM.powK (rowAt m c ⟨(i 0).val, (i 0).isLt⟩) (wts m c) ⟨(i 1).val, (i 1).isLt⟩ ⟨(i 2).val, (i 2).isLt⟩

/-- Row `p` of the five batched blocks at `t` is row `8t + p` of the arguments. -/
theorem row_blk (c : Dev nD) (t : Fin cfg0.N) (p : Fin 8) :
    rowOf (B := 8) (iblk m c 0 t) (iblk m c 1 t) (iblk m c 2 t) (iblk m c 3 t) (iblk m c 4 t) p = rowAt m c (row8 t p) := by
  unfold rowAt rowOf
  congr 1
  · funext k; exact congr (V_main_arg0 m c) (Shape.idx_ext₂ (row_val win0_0 t 0 rfl rfl _) (win0_0.rect_emb_val_of_index_zero t 1 rfl _))
  · funext n k; exact congr (V_main_arg1 m c) (idx_ext₃ (row_val win0_1 t 0 rfl rfl _) (win0_1.rect_emb_val_of_index_zero t 1 rfl _) (win0_1.rect_emb_val_of_index_zero t 2 rfl _))
  · funext k; exact congr (V_main_arg2 m c) (Shape.idx_ext₂ (row_val win0_2 t 0 rfl rfl _) (win0_2.rect_emb_val_of_index_zero t 1 rfl _))
  · funext h n; exact congr (V_main_arg3 m c) (idx_ext₃ (row_val win0_3 t 0 rfl rfl _) (win0_3.rect_emb_val_of_index_zero t 1 rfl _) (win0_3.rect_emb_val_of_index_zero t 2 rfl _))
  · funext h n; exact congr (V_main_arg4 m c) (idx_ext₃ (row_val win0_4 t 0 rfl rfl _) (win0_4.rect_emb_val_of_index_zero t 1 rfl _) (win0_4.rect_emb_val_of_index_zero t 2 rfl _))

/-- Each weight block is its whole weight array. -/
theorem wts_blk (c : Dev nD) (t : Fin cfg0.N) :
    wtsOf (iblk m c 5 t) (iblk m c 6 t) (iblk m c 7 t) (iblk m c 8 t) (iblk m c 9 t) (iblk m c 10 t) (iblk m c 11 t) (iblk m c 12 t)
      (iblk m c 13 t) (iblk m c 14 t) (iblk m c 15 t) = wts m c := by
  unfold wts
  congr 1
  · exact read_id (V_v0 m c) (whole_blk win0_5 t hz2)
  · exact read_id (V_v1 m c) (whole_blk win0_6 t hz2)
  · exact read_id (V_main_arg7 m c) (whole_blk win0_7 t hz1)
  · exact read_id (V_main_arg8 m c) (whole_blk win0_8 t hz1)
  · exact read_id (V_v2 m c) (whole_blk win0_9 t hz2)
  · exact read_id (V_main_arg10 m c) (whole_blk win0_10 t hz1)
  · exact read_id (V_v3 m c) (whole_blk win0_11 t hz2)
  · exact read_id (V_main_arg12 m c) (whole_blk win0_12 t hz1)
  · exact read_id (V_v4 m c) (whole_blk win0_13 t hz2)
  · exact read_id (V_v5 m c) (whole_blk win0_14 t hz2)
  · exact read_id (V_main_arg15 m c) (whole_blk win0_15 t hz1)

/-- Point `t` writes rows `8t … 8t+7` of `G16` to the first result. -/
theorem flushed16_eq (c : Dev nD) (t : Fin cfg0.N) :
    (dats m 0 c).flushed 16 t = ((cfg0.win 16).blk t).view.read (Elt Ideal) (G16 m c) := by
  rw [Cert.KernelIdeal.ValueB.flushed16, K.out16_eq]
  simp (disch := decide) only [View.canon_unit_zero, View.ld_unit_zero]
  refine funext fun (j : S8x128.Idx) => ?_
  obtain ⟨p, q, rfl⟩ : ∃ (p : Fin 8) (q : Fin 128), j = ix2 p q := ⟨j 0, j 1, eq_ix2 j⟩
  refine (yB_apply _ _ _ _ (iblk m c 4 t) _ _ _ _ _ _ (iblk m c 11 t) (iblk m c 12 t) _ _ _ p q).trans ?_
  have hi : ((cfg0.win 16).blk t).view.emb (ix2 p q) = (ix2 (row8 t p) q : S1024x128.Idx) :=
    Shape.idx_ext₂ (row_val win0_16 t 0 rfl rfl _) (win0_16.rect_emb_val_of_index_zero t 1 rfl _)
  rw [row_blk, wts_blk]
  exact (congrArg (G16 m c) hi).symm

/-- Point `t` writes rows `8t … 8t+7` of `G17` to the second result. -/
theorem flushed17_eq (c : Dev nD) (t : Fin cfg0.N) :
    (dats m 0 c).flushed 17 t = ((cfg0.win 17).blk t).view.read (Elt Ideal) (G17 m c) := by
  rw [Cert.KernelIdeal.ValueB.flushed17, K.out17_eq]
  simp (disch := decide) only [View.canon_unit_zero, View.ld_unit_zero]
  refine funext fun (j : S8x512x128.Idx) => ?_
  obtain ⟨p, n, k, rfl⟩ : ∃ (p : Fin 8) (n : Fin 512) (k : Fin 128), j = ix3 p n k := ⟨j 0, j 1, j 2, eq_ix3 j⟩
  refine (nmB_apply _ _ _ (iblk m c 3 t) _ _ _ _ _ (iblk m c 9 t) (iblk m c 10 t) _ _ (iblk m c 13 t) (iblk m c 14 t) (iblk m c 15 t) p n k).trans ?_
  have hi : ((cfg0.win 17).blk t).view.emb (ix3 p n k) = (ix3 (row8 t p) n k : S1024x512x128.Idx) :=
    idx_ext₃ (row_val win0_17 t 0 rfl rfl _) (win0_17.rect_emb_val_of_index_zero t 1 rfl _) (win0_17.rect_emb_val_of_index_zero t 2 rfl _)
  rw [row_blk, wts_blk]
  exact (congrArg (G17 m c) hi).symm

/-- The block that holds row `b`. -/
def ptOf (b : ℕ) (hb : b < 1024) : Fin cfg0.N := ⟨b / 8, by have hN : cfg0.N = 128 := N_0; omega⟩

theorem in_blk {i b : ℕ} (h : i = b / 8) : i * 8 ≤ b ∧ b < i * 8 + 8 := by omega
theorem in_whole {n b : ℕ} (h : b < n) : 0 * n ≤ b ∧ b < 0 * n + n := by omega

theorem mem_slice_unit {b : Ref sig .tc} {off size : Fin b.ty.shape.rank → ℕ} {inb} {i : b.ty.shape.Idx}
    (h : ∀ a, off a ≤ i a ∧ (i a : ℕ) < off a + size a) : i ∈ ((View.whole b).slice (Rect.unit off size inb)).set := by
  rw [View.set_slice_whole, Rect.mem_set_unit]; exact h

/-- The 128 blocks cover the first result, so it ends as `G16`. -/
theorem final16 (c : Dev nD) : (dats m 0 c).arrAt 16 cfg0.N = G16 m c :=
  (dats m 0 c).arrAt_eq_of_cover 16 (G16 m c) (fun t _ => flushed16_eq m c t) fun i =>
    ⟨ptOf (i 0).val (idx2_lt0 i), flush0_16 _, mem_slice_unit (b := main_v6_0) fun (a : Fin 2) => match a with
      | ⟨0, _⟩ => in_blk (coord _)
      | ⟨1, _⟩ => in_whole (idx2_lt1 i)⟩

/-- The 128 blocks cover the second result, so it ends as `G17`. -/
theorem final17 (c : Dev nD) : (dats m 0 c).arrAt 17 cfg0.N = G17 m c :=
  (dats m 0 c).arrAt_eq_of_cover 17 (G17 m c) (fun t _ => flushed17_eq m c t) fun i =>
    ⟨ptOf (i 0).val (i 0).isLt, flush0_17 _, mem_slice_unit (b := main_v6_1) fun (a : Fin 3) => match a with
      | ⟨0, _⟩ => in_blk (coord _)
      | ⟨1, _⟩ => in_whole (i 1).isLt
      | ⟨2, _⟩ => in_whole (i 2).isLt⟩

end NTM.Blocks

end
-- ==== Proof.ReadB.lean ====

import proofs.«155057_j13159779795433_2_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.ReadB

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S1024x128, .f32⟩ : BufTy).Contents (Elt F)) (x1 : (⟨S1024x512x128, .f32⟩ : BufTy).Contents (Elt F)) (x2 : (⟨S1024x256, .f32⟩ : BufTy).Contents (Elt F)) (x3 : (⟨S1024x4x512, .f32⟩ : BufTy).Contents (Elt F)) (x4 : (⟨S1024x4x512, .f32⟩ : BufTy).Contents (Elt F)) (x5 : (⟨S768x128, .f32⟩ : BufTy).Contents (Elt F)) (x6 : (⟨S768x256, .f32⟩ : BufTy).Contents (Elt F)) (x7 : (⟨S768, .f32⟩ : BufTy).Contents (Elt F)) (x8 : (⟨S768, .f32⟩ : BufTy).Contents (Elt F)) (x9 : (⟨S536x256, .f32⟩ : BufTy).Contents (Elt F)) (x10 : (⟨S536, .f32⟩ : BufTy).Contents (Elt F)) (x11 : (⟨S1560x256, .f32⟩ : BufTy).Contents (Elt F)) (x12 : (⟨S1560, .f32⟩ : BufTy).Contents (Elt F)) (x13 : (⟨S128x512, .f32⟩ : BufTy).Contents (Elt F)) (x14 : (⟨S128x256, .f32⟩ : BufTy).Contents (Elt F)) (x15 : (⟨S128, .f32⟩ : BufTy).Contents (Elt F))

def val_main_v0 : (⟨S128x768, .f32⟩ : BufTy).Contents (Elt F) :=
  transpose S128x768 [1, 0] (x5) transposes_S768x128_S128x768_1_0
abbrev idx_main_v0 (i : S128x768.Idx) : S768x128.Idx := fun a => match a with
  | ⟨0, _⟩ => ⟨(i 1).val, (i 1).isLt⟩
  | ⟨1, _⟩ => ⟨(i 0).val, (i 0).isLt⟩
theorem val_main_v0_apply (i : S128x768.Idx) :
    val_main_v0 (F := F) x5 i = x5 (idx_main_v0 i) := by
  unfold val_main_v0
  exact transpose_apply [1, 0] x5 transposes_S768x128_S128x768_1_0 i (idx_main_v0 i) (fun b => match b with
    | ⟨0, _⟩ => rfl
    | ⟨1, _⟩ => rfl)

def val_main_v1 : (⟨S1024x768, .f32⟩ : BufTy).Contents (Elt F) :=
  Host.dotGeneral dot_S1024x128_S128x768_S1024x768_1_0_0_1_n_n none (x0) (val_main_v0 (F := F) x5)
theorem lhs_main_v1_0 (i : S1024x768.Idx) (q : dot_S1024x128_S128x768_S1024x768_1_0_0_1_n_n.contr.Idx) :
    (dot_S1024x128_S128x768_S1024x768_1_0_0_1_n_n.lhsIdx i q 0).val = (i 0).val := by
  unfold DotDims.lhsIdx
  rw [dif_neg (show ¬(0 : Fin S1024x128.rank) ∈ dot_S1024x128_S128x768_S1024x768_1_0_0_1_n_n.lhsBatch by decide), dif_pos (show (0 : Fin S1024x128.rank) ∈ dot_S1024x128_S128x768_S1024x768_1_0_0_1_n_n.lhsNonContracting by decide)]
  rfl
theorem lhs_main_v1_1 (i : S1024x768.Idx) (q : dot_S1024x128_S128x768_S1024x768_1_0_0_1_n_n.contr.Idx) :
    (dot_S1024x128_S128x768_S1024x768_1_0_0_1_n_n.lhsIdx i q 1).val = (q ⟨0, by decide⟩).val :=
  dot_S1024x128_S128x768_S1024x768_1_0_0_1_n_n.lhsIdx_val_of_single rfl i q
theorem rhs_main_v1_0 (i : S1024x768.Idx) (q : dot_S1024x128_S128x768_S1024x768_1_0_0_1_n_n.contr.Idx) :
    (dot_S1024x128_S128x768_S1024x768_1_0_0_1_n_n.rhsIdx i q 0).val = (q ⟨0, by decide⟩).val :=
  dot_S1024x128_S128x768_S1024x768_1_0_0_1_n_n.rhsIdx_val_of_single rfl i q
theorem rhs_main_v1_1 (i : S1024x768.Idx) (q : dot_S1024x128_S128x768_S1024x768_1_0_0_1_n_n.contr.Idx) :
    (dot_S1024x128_S128x768_S1024x768_1_0_0_1_n_n.rhsIdx i q 1).val = (i 1).val := by
  unfold DotDims.rhsIdx
  rw [dif_neg (show ¬(1 : Fin S128x768.rank) ∈ dot_S1024x128_S128x768_S1024x768_1_0_0_1_n_n.rhsBatch by decide), dif_pos (show (1 : Fin S128x768.rank) ∈ dot_S1024x128_S128x768_S1024x768_1_0_0_1_n_n.rhsNonContracting by decide)]
  rfl
abbrev lidx_main_v1 (i : S1024x768.Idx) (k : Fin 128) : S1024x128.Idx := fun a => match a with
  | ⟨0, _⟩ => ⟨(i 0).val, (i 0).isLt⟩
  | ⟨1, _⟩ => ⟨k.val, k.isLt⟩
abbrev ridx_main_v1 (i : S1024x768.Idx) (k : Fin 128) : S128x768.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v1_apply (x0 : (⟨S1024x128, .f32⟩ : BufTy).Contents (Elt Ideal)) (x5 : (⟨S768x128, .f32⟩ : BufTy).Contents (Elt Ideal)) (i : S1024x768.Idx) :
    val_main_v1 (F := Ideal) x0 x5 i = ∑ k : Fin 128, x0 (lidx_main_v1 i k) * (val_main_v0 (F := Ideal) x5) (ridx_main_v1 i k) := by
  unfold val_main_v1
  generalize val_main_v0 (F := Ideal) x5 = y0
  simp only [Host.dotGeneral]
  rw [Ideal.dotGeneral_apply, ← Equiv.sum_comp (ValueIdx.contrEquiv1 dot_S1024x128_S128x768_S1024x768_1_0_0_1_n_n 128 rfl rfl).symm]
  refine Finset.sum_congr rfl fun k _ => ?_
  have hk := ValueIdx.contrEquiv1_symm_val dot_S1024x128_S128x768_S1024x768_1_0_0_1_n_n 128 rfl rfl k
  have el : dot_S1024x128_S128x768_S1024x768_1_0_0_1_n_n.lhsIdx i ((ValueIdx.contrEquiv1 dot_S1024x128_S128x768_S1024x768_1_0_0_1_n_n 128 rfl rfl).symm k) = lidx_main_v1 i k := funext fun a => Fin.ext (by
    match a with
    | ⟨0, _⟩ => exact lhs_main_v1_0 _ _
    | ⟨1, _⟩ => exact (lhs_main_v1_1 _ _).trans hk)
  have er : dot_S1024x128_S128x768_S1024x768_1_0_0_1_n_n.rhsIdx i ((ValueIdx.contrEquiv1 dot_S1024x128_S128x768_S1024x768_1_0_0_1_n_n 128 rfl rfl).symm k) = ridx_main_v1 i k := funext fun a => Fin.ext (by
    match a with
    | ⟨0, _⟩ => exact (rhs_main_v1_0 _ _).trans hk
    | ⟨1, _⟩ => exact rhs_main_v1_1 _ _)
  rw [el, er]

def val_main_v2 : (⟨S1x768, .f32⟩ : BufTy).Contents (Elt F) :=
  broadcastInDim S1x768 ![1] bcast_S768_S1x768_1 (x7)
abbrev idx_main_v2 (i : S1x768.Idx) : S768.Idx := fun a => match a with
  | ⟨0, _⟩ => ⟨(i 1).val, (i 1).isLt⟩
theorem val_main_v2_apply (i : S1x768.Idx) :
    val_main_v2 (F := F) x7 i = x7 (idx_main_v2 i) := by
  unfold val_main_v2
  exact broadcastInDim_apply _ bcast_S768_S1x768_1 x7 i (idx_main_v2 i) (fun a => match a with
    | ⟨0, _⟩ => by show (i 1).val = if (768 : Nat) = 1 then 0 else (i 1).val; rw [if_neg (by decide)])

def val_main_v3 : (⟨S1024x768, .f32⟩ : BufTy).Contents (Elt F) :=
  broadcastInDim S1024x768 ![0, 1] bcast_S1x768_S1024x768_0_1 (val_main_v2 (F := F) x7)
abbrev idx_main_v3 (i : S1024x768.Idx) : S1x768.Idx := fun a => match a with
  | ⟨0, _⟩ => ⟨0, Nat.one_pos⟩
  | ⟨1, _⟩ => ⟨(i 1).val, (i 1).isLt⟩
theorem val_main_v3_apply (i : S1024x768.Idx) :
    val_main_v3 (F := F) x7 i = val_main_v2 (F := F) x7 (idx_main_v3 i) := by
  unfold val_main_v3
  generalize val_main_v2 (F := F) x7 = y
  exact broadcastInDim_apply _ bcast_S1x768_S1024x768_0_1 y i (idx_main_v3 i) (fun a => match a with
    | ⟨0, _⟩ => by show 0 = if (1 : Nat) = 1 then 0 else (i 0).val; rw [if_pos rfl]
    | ⟨1, _⟩ => by show (i 1).val = if (768 : Nat) = 1 then 0 else (i 1).val; rw [if_neg (by decide)])

def val_main_v4 : (⟨S1024x768, .f32⟩ : BufTy).Contents (Elt F) :=
  addf (val_main_v1 (F := F) x0 x5) (val_main_v3 (F := F) x7)
theorem val_main_v4_apply (i : S1024x768.Idx) :
    val_main_v4 (F := F) x0 x5 x7 i = FloatOps.addf (val_main_v1 (F := F) x0 x5 i) (val_main_v3 (F := F) x7 i) := rfl

def val_main_v5 : (⟨S256x768, .f32⟩ : BufTy).Contents (Elt F) :=
  transpose S256x768 [1, 0] (x6) transposes_S768x256_S256x768_1_0
abbrev idx_main_v5 (i : S256x768.Idx) : S768x256.Idx := fun a => match a with
  | ⟨0, _⟩ => ⟨(i 1).val, (i 1).isLt⟩
  | ⟨1, _⟩ => ⟨(i 0).val, (i 0).isLt⟩
theorem val_main_v5_apply (i : S256x768.Idx) :
    val_main_v5 (F := F) x6 i = x6 (idx_main_v5 i) := by
  unfold val_main_v5
  exact transpose_apply [1, 0] x6 transposes_S768x256_S256x768_1_0 i (idx_main_v5 i) (fun b => match b with
    | ⟨0, _⟩ => rfl
    | ⟨1, _⟩ => rfl)

def val_main_v6 : (⟨S1024x768, .f32⟩ : BufTy).Contents (Elt F) :=
  Host.dotGeneral dot_S1024x256_S256x768_S1024x768_1_0_0_1_n_n none (x2) (val_main_v5 (F := F) x6)
theorem lhs_main_v6_0 (i : S1024x768.Idx) (q : dot_S1024x256_S256x768_S1024x768_1_0_0_1_n_n.contr.Idx) :
    (dot_S1024x256_S256x768_S1024x768_1_0_0_1_n_n.lhsIdx i q 0).val = (i 0).val := by
  unfold DotDims.lhsIdx
  rw [dif_neg (show ¬(0 : Fin S1024x256.rank) ∈ dot_S1024x256_S256x768_S1024x768_1_0_0_1_n_n.lhsBatch by decide), dif_pos (show (0 : Fin S1024x256.rank) ∈ dot_S1024x256_S256x768_S1024x768_1_0_0_1_n_n.lhsNonContracting by decide)]
  rfl
theorem lhs_main_v6_1 (i : S1024x768.Idx) (q : dot_S1024x256_S256x768_S1024x768_1_0_0_1_n_n.contr.Idx) :
    (dot_S1024x256_S256x768_S1024x768_1_0_0_1_n_n.lhsIdx i q 1).val = (q ⟨0, by decide⟩).val :=
  dot_S1024x256_S256x768_S1024x768_1_0_0_1_n_n.lhsIdx_val_of_single rfl i q
theorem rhs_main_v6_0 (i : S1024x768.Idx) (q : dot_S1024x256_S256x768_S1024x768_1_0_0_1_n_n.contr.Idx) :
    (dot_S1024x256_S256x768_S1024x768_1_0_0_1_n_n.rhsIdx i q 0).val = (q ⟨0, by decide⟩).val :=
  dot_S1024x256_S256x768_S1024x768_1_0_0_1_n_n.rhsIdx_val_of_single rfl i q
theorem rhs_main_v6_1 (i : S1024x768.Idx) (q : dot_S1024x256_S256x768_S1024x768_1_0_0_1_n_n.contr.Idx) :
    (dot_S1024x256_S256x768_S1024x768_1_0_0_1_n_n.rhsIdx i q 1).val = (i 1).val := by
  unfold DotDims.rhsIdx
  rw [dif_neg (show ¬(1 : Fin S256x768.rank) ∈ dot_S1024x256_S256x768_S1024x768_1_0_0_1_n_n.rhsBatch by decide), dif_pos (show (1 : Fin S256x768.rank) ∈ dot_S1024x256_S256x768_S1024x768_1_0_0_1_n_n.rhsNonContracting by decide)]
  rfl
abbrev lidx_main_v6 (i : S1024x768.Idx) (k : Fin 256) : S1024x256.Idx := fun a => match a with
  | ⟨0, _⟩ => ⟨(i 0).val, (i 0).isLt⟩
  | ⟨1, _⟩ => ⟨k.val, k.isLt⟩
abbrev ridx_main_v6 (i : S1024x768.Idx) (k : Fin 256) : S256x768.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v6_apply (x2 : (⟨S1024x256, .f32⟩ : BufTy).Contents (Elt Ideal)) (x6 : (⟨S768x256, .f32⟩ : BufTy).Contents (Elt Ideal)) (i : S1024x768.Idx) :
    val_main_v6 (F := Ideal) x2 x6 i = ∑ k : Fin 256, x2 (lidx_main_v6 i k) * (val_main_v5 (F := Ideal) x6) (ridx_main_v6 i k) := by
  unfold val_main_v6
  generalize val_main_v5 (F := Ideal) x6 = y0
  simp only [Host.dotGeneral]
  rw [Ideal.dotGeneral_apply, ← Equiv.sum_comp (ValueIdx.contrEquiv1 dot_S1024x256_S256x768_S1024x768_1_0_0_1_n_n 256 rfl rfl).symm]
  refine Finset.sum_congr rfl fun k _ => ?_
  have hk := ValueIdx.contrEquiv1_symm_val dot_S1024x256_S256x768_S1024x768_1_0_0_1_n_n 256 rfl rfl k
  have el : dot_S1024x256_S256x768_S1024x768_1_0_0_1_n_n.lhsIdx i ((ValueIdx.contrEquiv1 dot_S1024x256_S256x768_S1024x768_1_0_0_1_n_n 256 rfl rfl).symm k) = lidx_main_v6 i k := funext fun a => Fin.ext (by
    match a with
    | ⟨0, _⟩ => exact lhs_main_v6_0 _ _
    | ⟨1, _⟩ => exact (lhs_main_v6_1 _ _).trans hk)
  have er : dot_S1024x256_S256x768_S1024x768_1_0_0_1_n_n.rhsIdx i ((ValueIdx.contrEquiv1 dot_S1024x256_S256x768_S1024x768_1_0_0_1_n_n 256 rfl rfl).symm k) = ridx_main_v6 i k := funext fun a => Fin.ext (by
    match a with
    | ⟨0, _⟩ => exact (rhs_main_v6_0 _ _).trans hk
    | ⟨1, _⟩ => exact rhs_main_v6_1 _ _)
  rw [el, er]

def val_main_v7 : (⟨S1x768, .f32⟩ : BufTy).Contents (Elt F) :=
  broadcastInDim S1x768 ![1] bcast_S768_S1x768_1 (x8)
abbrev idx_main_v7 (i : S1x768.Idx) : S768.Idx := fun a => match a with
  | ⟨0, _⟩ => ⟨(i 1).val, (i 1).isLt⟩
theorem val_main_v7_apply (i : S1x768.Idx) :
    val_main_v7 (F := F) x8 i = x8 (idx_main_v7 i) := by
  unfold val_main_v7
  exact broadcastInDim_apply _ bcast_S768_S1x768_1 x8 i (idx_main_v7 i) (fun a => match a with
    | ⟨0, _⟩ => by show (i 1).val = if (768 : Nat) = 1 then 0 else (i 1).val; rw [if_neg (by decide)])

def val_main_v8 : (⟨S1024x768, .f32⟩ : BufTy).Contents (Elt F) :=
  broadcastInDim S1024x768 ![0, 1] bcast_S1x768_S1024x768_0_1 (val_main_v7 (F := F) x8)
abbrev idx_main_v8 (i : S1024x768.Idx) : S1x768.Idx := fun a => match a with
  | ⟨0, _⟩ => ⟨0, Nat.one_pos⟩
  | ⟨1, _⟩ => ⟨(i 1).val, (i 1).isLt⟩
theorem val_main_v8_apply (i : S1024x768.Idx) :
    val_main_v8 (F := F) x8 i = val_main_v7 (F := F) x8 (idx_main_v8 i) := by
  unfold val_main_v8
  generalize val_main_v7 (F := F) x8 = y
  exact broadcastInDim_apply _ bcast_S1x768_S1024x768_0_1 y i (idx_main_v8 i) (fun a => match a with
    | ⟨0, _⟩ => by show 0 = if (1 : Nat) = 1 then 0 else (i 0).val; rw [if_pos rfl]
    | ⟨1, _⟩ => by show (i 1).val = if (768 : Nat) = 1 then 0 else (i 1).val; rw [if_neg (by decide)])

def val_main_v9 : (⟨S1024x768, .f32⟩ : BufTy).Contents (Elt F) :=
  addf (val_main_v6 (F := F) x2 x6) (val_main_v8 (F := F) x8)
theorem val_main_v9_apply (i : S1024x768.Idx) :
    val_main_v9 (F := F) x2 x6 x8 i = FloatOps.addf (val_main_v6 (F := F) x2 x6 i) (val_main_v8 (F := F) x8 i) := rfl

def val_main_v10 : (⟨S1024x256, .f32⟩ : BufTy).Contents (Elt F) :=
  extractStridedSlice S1024x256 ![0, 0] (val_main_v4 (F := F) x0 x5 x7) slices_S1024x768_S1024x256_0_0
abbrev idx_main_v10 (i : S1024x256.Idx) : S1024x768.Idx := fun a => match a with
  | ⟨0, _⟩ => ⟨(i 0).val, (i 0).isLt⟩
  | ⟨1, _⟩ => ⟨(i 1).val, by have h1 : (i 1).val < 256 := (i 1).isLt; show (i 1).val < 768; omega⟩
theorem val_main_v10_apply (i : S1024x256.Idx) :
    val_main_v10 (F := F) x0 x5 x7 i = val_main_v4 (F := F) x0 x5 x7 (idx_main_v10 i) := by
  unfold val_main_v10
  generalize val_main_v4 (F := F) x0 x5 x7 = y
  exact extractStridedSlice_apply ![0, 0] y slices_S1024x768_S1024x256_0_0 i (idx_main_v10 i) (fun a => match a with
    | ⟨0, _⟩ => by show (i 0).val = 0 + (i 0).val; omega
    | ⟨1, _⟩ => by show (i 1).val = 0 + (i 1).val; omega)

def val_main_v11 : (⟨S1024x256, .f32⟩ : BufTy).Contents (Elt F) :=
  extractStridedSlice S1024x256 ![0, 256] (val_main_v4 (F := F) x0 x5 x7) slices_S1024x768_S1024x256_0_256
abbrev idx_main_v11 (i : S1024x256.Idx) : S1024x768.Idx := fun a => match a with
  | ⟨0, _⟩ => ⟨(i 0).val, (i 0).isLt⟩
  | ⟨1, _⟩ => ⟨256 + (i 1).val, by have h1 : (i 1).val < 256 := (i 1).isLt; show 256 + (i 1).val < 768; omega⟩
theorem val_main_v11_apply (i : S1024x256.Idx) :
    val_main_v11 (F := F) x0 x5 x7 i = val_main_v4 (F := F) x0 x5 x7 (idx_main_v11 i) := by
  unfold val_main_v11
  generalize val_main_v4 (F := F) x0 x5 x7 = y
  exact extractStridedSlice_apply ![0, 256] y slices_S1024x768_S1024x256_0_256 i (idx_main_v11 i) (fun a => match a with
    | ⟨0, _⟩ => by show (i 0).val = 0 + (i 0).val; omega
    | ⟨1, _⟩ => by show 256 + (i 1).val = 256 + (i 1).val; omega)

def val_main_v12 : (⟨S1024x256, .f32⟩ : BufTy).Contents (Elt F) :=
  extractStridedSlice S1024x256 ![0, 512] (val_main_v4 (F := F) x0 x5 x7) slices_S1024x768_S1024x256_0_512
abbrev idx_main_v12 (i : S1024x256.Idx) : S1024x768.Idx := fun a => match a with
  | ⟨0, _⟩ => ⟨(i 0).val, (i 0).isLt⟩
  | ⟨1, _⟩ => ⟨512 + (i 1).val, by have h1 : (i 1).val < 256 := (i 1).isLt; show 512 + (i 1).val < 768; omega⟩
theorem val_main_v12_apply (i : S1024x256.Idx) :
    val_main_v12 (F := F) x0 x5 x7 i = val_main_v4 (F := F) x0 x5 x7 (idx_main_v12 i) := by
  unfold val_main_v12
  generalize val_main_v4 (F := F) x0 x5 x7 = y
  exact extractStridedSlice_apply ![0, 512] y slices_S1024x768_S1024x256_0_512 i (idx_main_v12 i) (fun a => match a with
    | ⟨0, _⟩ => by show (i 0).val = 0 + (i 0).val; omega
    | ⟨1, _⟩ => by show 512 + (i 1).val = 512 + (i 1).val; omega)

def val_main_v13 : (⟨S1024x256, .f32⟩ : BufTy).Contents (Elt F) :=
  extractStridedSlice S1024x256 ![0, 0] (val_main_v9 (F := F) x2 x6 x8) slices_S1024x768_S1024x256_0_0
abbrev idx_main_v13 (i : S1024x256.Idx) : S1024x768.Idx := fun a => match a with
  | ⟨0, _⟩ => ⟨(i 0).val, (i 0).isLt⟩
  | ⟨1, _⟩ => ⟨(i 1).val, by have h1 : (i 1).val < 256 := (i 1).isLt; show (i 1).val < 768; omega⟩
theorem val_main_v13_apply (i : S1024x256.Idx) :
    val_main_v13 (F := F) x2 x6 x8 i = val_main_v9 (F := F) x2 x6 x8 (idx_main_v13 i) := by
  unfold val_main_v13
  generalize val_main_v9 (F := F) x2 x6 x8 = y
  exact extractStridedSlice_apply ![0, 0] y slices_S1024x768_S1024x256_0_0 i (idx_main_v13 i) (fun a => match a with
    | ⟨0, _⟩ => by show (i 0).val = 0 + (i 0).val; omega
    | ⟨1, _⟩ => by show (i 1).val = 0 + (i 1).val; omega)

def val_main_v14 : (⟨S1024x256, .f32⟩ : BufTy).Contents (Elt F) :=
  extractStridedSlice S1024x256 ![0, 256] (val_main_v9 (F := F) x2 x6 x8) slices_S1024x768_S1024x256_0_256
abbrev idx_main_v14 (i : S1024x256.Idx) : S1024x768.Idx := fun a => match a with
  | ⟨0, _⟩ => ⟨(i 0).val, (i 0).isLt⟩
  | ⟨1, _⟩ => ⟨256 + (i 1).val, by have h1 : (i 1).val < 256 := (i 1).isLt; show 256 + (i 1).val < 768; omega⟩
theorem val_main_v14_apply (i : S1024x256.Idx) :
    val_main_v14 (F := F) x2 x6 x8 i = val_main_v9 (F := F) x2 x6 x8 (idx_main_v14 i) := by
  unfold val_main_v14
  generalize val_main_v9 (F := F) x2 x6 x8 = y
  exact extractStridedSlice_apply ![0, 256] y slices_S1024x768_S1024x256_0_256 i (idx_main_v14 i) (fun a => match a with
    | ⟨0, _⟩ => by show (i 0).val = 0 + (i 0).val; omega
    | ⟨1, _⟩ => by show 256 + (i 1).val = 256 + (i 1).val; omega)

def val_main_v15 : (⟨S1024x256, .f32⟩ : BufTy).Contents (Elt F) :=
  extractStridedSlice S1024x256 ![0, 512] (val_main_v9 (F := F) x2 x6 x8) slices_S1024x768_S1024x256_0_512
abbrev idx_main_v15 (i : S1024x256.Idx) : S1024x768.Idx := fun a => match a with
  | ⟨0, _⟩ => ⟨(i 0).val, (i 0).isLt⟩
  | ⟨1, _⟩ => ⟨512 + (i 1).val, by have h1 : (i 1).val < 256 := (i 1).isLt; show 512 + (i 1).val < 768; omega⟩
theorem val_main_v15_apply (i : S1024x256.Idx) :
    val_main_v15 (F := F) x2 x6 x8 i = val_main_v9 (F := F) x2 x6 x8 (idx_main_v15 i) := by
  unfold val_main_v15
  generalize val_main_v9 (F := F) x2 x6 x8 = y
  exact extractStridedSlice_apply ![0, 512] y slices_S1024x768_S1024x256_0_512 i (idx_main_v15 i) (fun a => match a with
    | ⟨0, _⟩ => by show (i 0).val = 0 + (i 0).val; omega
    | ⟨1, _⟩ => by show 512 + (i 1).val = 512 + (i 1).val; omega)

def val_main_v16 : (⟨S1024x256, .f32⟩ : BufTy).Contents (Elt F) :=
  addf (val_main_v10 (F := F) x0 x5 x7) (val_main_v13 (F := F) x2 x6 x8)
theorem val_main_v16_apply (i : S1024x256.Idx) :
    val_main_v16 (F := F) x0 x2 x5 x6 x7 x8 i = FloatOps.addf (val_main_v10 (F := F) x0 x5 x7 i) (val_main_v13 (F := F) x2 x6 x8 i) := rfl

def val_main_v17 : (⟨S1024x256, .f32⟩ : BufTy).Contents (Elt F) :=
  Host.negf (val_main_v16 (F := F) x0 x2 x5 x6 x7 x8)
theorem val_main_v17_apply (i : S1024x256.Idx) :
    val_main_v17 (F := F) x0 x2 x5 x6 x7 x8 i = FloatOps.hostNegf (val_main_v16 (F := F) x0 x2 x5 x6 x7 x8 i) := rfl

def val_main_v18 : (⟨S1024x256, .f32⟩ : BufTy).Contents (Elt F) :=
  Host.exp (val_main_v17 (F := F) x0 x2 x5 x6 x7 x8)
theorem val_main_v18_apply (i : S1024x256.Idx) :
    val_main_v18 (F := F) x0 x2 x5 x6 x7 x8 i = FloatOps.hostUnary .exp (val_main_v17 (F := F) x0 x2 x5 x6 x7 x8 i) := rfl

def val_main_cst : (⟨S_, .f32⟩ : BufTy).Contents (Elt F) :=
  constant S_ .f32 0x3F800000#32
theorem val_main_cst_apply (i : S_.Idx) :
    val_main_cst (F := F) i = FloatOps.ofBits .f32 0x3F800000#32 := rfl

def val_main_v19 : (⟨S1024x256, .f32⟩ : BufTy).Contents (Elt F) :=
  broadcastInDim S1024x256 ![] bcast_S_S1024x256 (val_main_cst (F := F))
abbrev idx_main_v19 (i : S1024x256.Idx) : S_.Idx := fun a => a.elim0
theorem val_main_v19_apply (i : S1024x256.Idx) :
    val_main_v19 (F := F) i = val_main_cst (F := F) (idx_main_v19 i) := by
  unfold val_main_v19
  generalize val_main_cst (F := F) = y
  exact broadcastInDim_apply _ bcast_S_S1024x256 y i (idx_main_v19 i) (fun a => a.elim0)

def val_main_v20 : (⟨S1024x256, .f32⟩ : BufTy).Contents (Elt F) :=
  addf (val_main_v19 (F := F)) (val_main_v18 (F := F) x0 x2 x5 x6 x7 x8)
theorem val_main_v20_apply (i : S1024x256.Idx) :
    val_main_v20 (F := F) x0 x2 x5 x6 x7 x8 i = FloatOps.addf (val_main_v19 (F := F) i) (val_main_v18 (F := F) x0 x2 x5 x6 x7 x8 i) := rfl

def val_main_cst_0 : (⟨S_, .f32⟩ : BufTy).Contents (Elt F) :=
  constant S_ .f32 0x3F800000#32
theorem val_main_cst_0_apply (i : S_.Idx) :
    val_main_cst_0 (F := F) i = FloatOps.ofBits .f32 0x3F800000#32 := rfl

def val_main_v21 : (⟨S1024x256, .f32⟩ : BufTy).Contents (Elt F) :=
  broadcastInDim S1024x256 ![] bcast_S_S1024x256 (val_main_cst_0 (F := F))
abbrev idx_main_v21 (i : S1024x256.Idx) : S_.Idx := fun a => a.elim0
theorem val_main_v21_apply (i : S1024x256.Idx) :
    val_main_v21 (F := F) i = val_main_cst_0 (F := F) (idx_main_v21 i) := by
  unfold val_main_v21
  generalize val_main_cst_0 (F := F) = y
  exact broadcastInDim_apply _ bcast_S_S1024x256 y i (idx_main_v21 i) (fun a => a.elim0)

def val_main_v22 : (⟨S1024x256, .f32⟩ : BufTy).Contents (Elt F) :=
  Host.divf (val_main_v21 (F := F)) (val_main_v20 (F := F) x0 x2 x5 x6 x7 x8)
theorem val_main_v22_apply (i : S1024x256.Idx) :
    val_main_v22 (F := F) x0 x2 x5 x6 x7 x8 i = FloatOps.hostDivf (val_main_v21 (F := F) i) (val_main_v20 (F := F) x0 x2 x5 x6 x7 x8 i) := rfl

def val_main_v23 : (⟨S1024x256, .f32⟩ : BufTy).Contents (Elt F) :=
  addf (val_main_v11 (F := F) x0 x5 x7) (val_main_v14 (F := F) x2 x6 x8)
theorem val_main_v23_apply (i : S1024x256.Idx) :
    val_main_v23 (F := F) x0 x2 x5 x6 x7 x8 i = FloatOps.addf (val_main_v11 (F := F) x0 x5 x7 i) (val_main_v14 (F := F) x2 x6 x8 i) := rfl

def val_main_v24 : (⟨S1024x256, .f32⟩ : BufTy).Contents (Elt F) :=
  Host.negf (val_main_v23 (F := F) x0 x2 x5 x6 x7 x8)
theorem val_main_v24_apply (i : S1024x256.Idx) :
    val_main_v24 (F := F) x0 x2 x5 x6 x7 x8 i = FloatOps.hostNegf (val_main_v23 (F := F) x0 x2 x5 x6 x7 x8 i) := rfl

def val_main_v25 : (⟨S1024x256, .f32⟩ : BufTy).Contents (Elt F) :=
  Host.exp (val_main_v24 (F := F) x0 x2 x5 x6 x7 x8)
theorem val_main_v25_apply (i : S1024x256.Idx) :
    val_main_v25 (F := F) x0 x2 x5 x6 x7 x8 i = FloatOps.hostUnary .exp (val_main_v24 (F := F) x0 x2 x5 x6 x7 x8 i) := rfl

def val_main_cst_1 : (⟨S_, .f32⟩ : BufTy).Contents (Elt F) :=
  constant S_ .f32 0x3F800000#32
theorem val_main_cst_1_apply (i : S_.Idx) :
    val_main_cst_1 (F := F) i = FloatOps.ofBits .f32 0x3F800000#32 := rfl

def val_main_v26 : (⟨S1024x256, .f32⟩ : BufTy).Contents (Elt F) :=
  broadcastInDim S1024x256 ![] bcast_S_S1024x256 (val_main_cst_1 (F := F))
abbrev idx_main_v26 (i : S1024x256.Idx) : S_.Idx := fun a => a.elim0
theorem val_main_v26_apply (i : S1024x256.Idx) :
    val_main_v26 (F := F) i = val_main_cst_1 (F := F) (idx_main_v26 i) := by
  unfold val_main_v26
  generalize val_main_cst_1 (F := F) = y
  exact broadcastInDim_apply _ bcast_S_S1024x256 y i (idx_main_v26 i) (fun a => a.elim0)

def val_main_v27 : (⟨S1024x256, .f32⟩ : BufTy).Contents (Elt F) :=
  addf (val_main_v26 (F := F)) (val_main_v25 (F := F) x0 x2 x5 x6 x7 x8)
theorem val_main_v27_apply (i : S1024x256.Idx) :
    val_main_v27 (F := F) x0 x2 x5 x6 x7 x8 i = FloatOps.addf (val_main_v26 (F := F) i) (val_main_v25 (F := F) x0 x2 x5 x6 x7 x8 i) := rfl

def val_main_cst_2 : (⟨S_, .f32⟩ : BufTy).Contents (Elt F) :=
  constant S_ .f32 0x3F800000#32
theorem val_main_cst_2_apply (i : S_.Idx) :
    val_main_cst_2 (F := F) i = FloatOps.ofBits .f32 0x3F800000#32 := rfl

def val_main_v28 : (⟨S1024x256, .f32⟩ : BufTy).Contents (Elt F) :=
  broadcastInDim S1024x256 ![] bcast_S_S1024x256 (val_main_cst_2 (F := F))
abbrev idx_main_v28 (i : S1024x256.Idx) : S_.Idx := fun a => a.elim0
theorem val_main_v28_apply (i : S1024x256.Idx) :
    val_main_v28 (F := F) i = val_main_cst_2 (F := F) (idx_main_v28 i) := by
  unfold val_main_v28
  generalize val_main_cst_2 (F := F) = y
  exact broadcastInDim_apply _ bcast_S_S1024x256 y i (idx_main_v28 i) (fun a => a.elim0)

def val_main_v29 : (⟨S1024x256, .f32⟩ : BufTy).Contents (Elt F) :=
  Host.divf (val_main_v28 (F := F)) (val_main_v27 (F := F) x0 x2 x5 x6 x7 x8)
theorem val_main_v29_apply (i : S1024x256.Idx) :
    val_main_v29 (F := F) x0 x2 x5 x6 x7 x8 i = FloatOps.hostDivf (val_main_v28 (F := F) i) (val_main_v27 (F := F) x0 x2 x5 x6 x7 x8 i) := rfl

def val_main_v30 : (⟨S1024x256, .f32⟩ : BufTy).Contents (Elt F) :=
  mulf (val_main_v22 (F := F) x0 x2 x5 x6 x7 x8) (val_main_v15 (F := F) x2 x6 x8)
theorem val_main_v30_apply (i : S1024x256.Idx) :
    val_main_v30 (F := F) x0 x2 x5 x6 x7 x8 i = FloatOps.mulf (val_main_v22 (F := F) x0 x2 x5 x6 x7 x8 i) (val_main_v15 (F := F) x2 x6 x8 i) := rfl

def val_main_v31 : (⟨S1024x256, .f32⟩ : BufTy).Contents (Elt F) :=
  addf (val_main_v12 (F := F) x0 x5 x7) (val_main_v30 (F := F) x0 x2 x5 x6 x7 x8)
theorem val_main_v31_apply (i : S1024x256.Idx) :
    val_main_v31 (F := F) x0 x2 x5 x6 x7 x8 i = FloatOps.addf (val_main_v12 (F := F) x0 x5 x7 i) (val_main_v30 (F := F) x0 x2 x5 x6 x7 x8 i) := rfl

def val_main_v32 : (⟨S1024x256, .f32⟩ : BufTy).Contents (Elt F) :=
  Host.tanh (val_main_v31 (F := F) x0 x2 x5 x6 x7 x8)
theorem val_main_v32_apply (i : S1024x256.Idx) :
    val_main_v32 (F := F) x0 x2 x5 x6 x7 x8 i = FloatOps.hostUnary .tanh (val_main_v31 (F := F) x0 x2 x5 x6 x7 x8 i) := rfl

def val_main_cst_3 : (⟨S_, .f32⟩ : BufTy).Contents (Elt F) :=
  constant S_ .f32 0x3F800000#32
theorem val_main_cst_3_apply (i : S_.Idx) :
    val_main_cst_3 (F := F) i = FloatOps.ofBits .f32 0x3F800000#32 := rfl

def val_main_v33 : (⟨S1024x256, .f32⟩ : BufTy).Contents (Elt F) :=
  broadcastInDim S1024x256 ![] bcast_S_S1024x256 (val_main_cst_3 (F := F))
abbrev idx_main_v33 (i : S1024x256.Idx) : S_.Idx := fun a => a.elim0
theorem val_main_v33_apply (i : S1024x256.Idx) :
    val_main_v33 (F := F) i = val_main_cst_3 (F := F) (idx_main_v33 i) := by
  unfold val_main_v33
  generalize val_main_cst_3 (F := F) = y
  exact broadcastInDim_apply _ bcast_S_S1024x256 y i (idx_main_v33 i) (fun a => a.elim0)

def val_main_v34 : (⟨S1024x256, .f32⟩ : BufTy).Contents (Elt F) :=
  subf (val_main_v33 (F := F)) (val_main_v29 (F := F) x0 x2 x5 x6 x7 x8)
theorem val_main_v34_apply (i : S1024x256.Idx) :
    val_main_v34 (F := F) x0 x2 x5 x6 x7 x8 i = FloatOps.subf (val_main_v33 (F := F) i) (val_main_v29 (F := F) x0 x2 x5 x6 x7 x8 i) := rfl

def val_main_v35 : (⟨S1024x256, .f32⟩ : BufTy).Contents (Elt F) :=
  mulf (val_main_v34 (F := F) x0 x2 x5 x6 x7 x8) (val_main_v32 (F := F) x0 x2 x5 x6 x7 x8)
theorem val_main_v35_apply (i : S1024x256.Idx) :
    val_main_v35 (F := F) x0 x2 x5 x6 x7 x8 i = FloatOps.mulf (val_main_v34 (F := F) x0 x2 x5 x6 x7 x8 i) (val_main_v32 (F := F) x0 x2 x5 x6 x7 x8 i) := rfl

def val_main_v36 : (⟨S1024x256, .f32⟩ : BufTy).Contents (Elt F) :=
  mulf (val_main_v29 (F := F) x0 x2 x5 x6 x7 x8) (x2)
theorem val_main_v36_apply (i : S1024x256.Idx) :
    val_main_v36 (F := F) x0 x2 x5 x6 x7 x8 i = FloatOps.mulf (val_main_v29 (F := F) x0 x2 x5 x6 x7 x8 i) (x2 i) := rfl

def val_main_v37 : (⟨S1024x256, .f32⟩ : BufTy).Contents (Elt F) :=
  addf (val_main_v35 (F := F) x0 x2 x5 x6 x7 x8) (val_main_v36 (F := F) x0 x2 x5 x6 x7 x8)
theorem val_main_v37_apply (i : S1024x256.Idx) :
    val_main_v37 (F := F) x0 x2 x5 x6 x7 x8 i = FloatOps.addf (val_main_v35 (F := F) x0 x2 x5 x6 x7 x8 i) (val_main_v36 (F := F) x0 x2 x5 x6 x7 x8 i) := rfl

def val_main_call0_v0 : (⟨S1024x512x128, .f32⟩ : BufTy).Contents (Elt F) :=
  mulf (x1) (x1)
theorem val_main_call0_v0_apply (i : S1024x512x128.Idx) :
    val_main_call0_v0 (F := F) x1 i = FloatOps.mulf (x1 i) (x1 i) := rfl

def val_main_call0_cst : (⟨S_, .f32⟩ : BufTy).Contents (Elt F) :=
  constant S_ .f32 0x00000000#32
theorem val_main_call0_cst_apply (i : S_.Idx) :
    val_main_call0_cst (F := F) i = FloatOps.ofBits .f32 0x00000000#32 := rfl

def val_main_call0_v1 : (⟨S1024x512, .f32⟩ : BufTy).Contents (Elt F) :=
  Host.reduceAdd (val_main_call0_v0 (F := F) x1) (val_main_call0_cst (F := F)) reducesTo_S1024x512x128_S1024x512_d2 h_S_
abbrev idx_main_call0_v1 (i : S1024x512.Idx) (k : Fin 128) : S1024x512x128.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_call0_v1_apply (x1 : (⟨S1024x512x128, .f32⟩ : BufTy).Contents (Elt Ideal)) (i : S1024x512.Idx) :
    val_main_call0_v1 (F := Ideal) x1 i = (val_main_call0_cst (F := Ideal)) (Shape.Idx.first h_S_) + ∑ k : Fin 128, (val_main_call0_v0 (F := Ideal) x1) (idx_main_call0_v1 i k) := by
  unfold val_main_call0_v1
  generalize val_main_call0_v0 (F := Ideal) x1 = y0
  simp only [Host.reduceAdd, Ideal.hostReduceAdd_def]
  rw [Ideal.hostReduceAdd_single reducesTo_S1024x512x128_S1024x512_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_call0_v2 : (⟨S1024x512x1, .f32⟩ : BufTy).Contents (Elt F) :=
  broadcastInDim S1024x512x1 ![0, 1] bcast_S1024x512_S1024x512x1_0_1 (val_main_call0_v1 (F := F) x1)
abbrev idx_main_call0_v2 (i : S1024x512x1.Idx) : S1024x512.Idx := fun a => match a with
  | ⟨0, _⟩ => ⟨(i 0).val, (i 0).isLt⟩
  | ⟨1, _⟩ => ⟨(i 1).val, (i 1).isLt⟩
theorem val_main_call0_v2_apply (i : S1024x512x1.Idx) :
    val_main_call0_v2 (F := F) x1 i = val_main_call0_v1 (F := F) x1 (idx_main_call0_v2 i) := by
  unfold val_main_call0_v2
  generalize val_main_call0_v1 (F := F) x1 = y
  exact broadcastInDim_apply _ bcast_S1024x512_S1024x512x1_0_1 y i (idx_main_call0_v2 i) (fun a => match a with
    | ⟨0, _⟩ => by show (i 0).val = if (1024 : Nat) = 1 then 0 else (i 0).val; rw [if_neg (by decide)]
    | ⟨1, _⟩ => by show (i 1).val = if (512 : Nat) = 1 then 0 else (i 1).val; rw [if_neg (by decide)])

def val_main_v38 : (⟨S1024x512x1, .f32⟩ : BufTy).Contents (Elt F) :=
  Host.sqrt (val_main_call0_v2 (F := F) x1)
theorem val_main_v38_apply (i : S1024x512x1.Idx) :
    val_main_v38 (F := F) x1 i = FloatOps.hostUnary .sqrt (val_main_call0_v2 (F := F) x1 i) := rfl

def val_main_cst_4 : (⟨S_, .f32⟩ : BufTy).Contents (Elt F) :=
  constant S_ .f32 0x2B8CBCCC#32
theorem val_main_cst_4_apply (i : S_.Idx) :
    val_main_cst_4 (F := F) i = FloatOps.ofBits .f32 0x2B8CBCCC#32 := rfl

def val_main_v39 : (⟨S1024x512x1, .f32⟩ : BufTy).Contents (Elt F) :=
  broadcastInDim S1024x512x1 ![] bcast_S_S1024x512x1 (val_main_cst_4 (F := F))
abbrev idx_main_v39 (i : S1024x512x1.Idx) : S_.Idx := fun a => a.elim0
theorem val_main_v39_apply (i : S1024x512x1.Idx) :
    val_main_v39 (F := F) i = val_main_cst_4 (F := F) (idx_main_v39 i) := by
  unfold val_main_v39
  generalize val_main_cst_4 (F := F) = y
  exact broadcastInDim_apply _ bcast_S_S1024x512x1 y i (idx_main_v39 i) (fun a => a.elim0)

def val_main_v40 : (⟨S1024x512x1, .f32⟩ : BufTy).Contents (Elt F) :=
  addf (val_main_v38 (F := F) x1) (val_main_v39 (F := F))
theorem val_main_v40_apply (i : S1024x512x1.Idx) :
    val_main_v40 (F := F) x1 i = FloatOps.addf (val_main_v38 (F := F) x1 i) (val_main_v39 (F := F) i) := rfl

def val_main_v41 : (⟨S1024x512x128, .f32⟩ : BufTy).Contents (Elt F) :=
  broadcastInDim S1024x512x128 ![0, 1, 2] bcast_S1024x512x1_S1024x512x128_0_1_2 (val_main_v40 (F := F) x1)
abbrev idx_main_v41 (i : S1024x512x128.Idx) : S1024x512x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v41_apply (i : S1024x512x128.Idx) :
    val_main_v41 (F := F) x1 i = val_main_v40 (F := F) x1 (idx_main_v41 i) := by
  unfold val_main_v41
  generalize val_main_v40 (F := F) x1 = y
  exact broadcastInDim_apply _ bcast_S1024x512x1_S1024x512x128_0_1_2 y i (idx_main_v41 i) (fun a => match a with
    | ⟨0, _⟩ => by show (i 0).val = if (1024 : Nat) = 1 then 0 else (i 0).val; rw [if_neg (by decide)]
    | ⟨1, _⟩ => by show (i 1).val = if (512 : Nat) = 1 then 0 else (i 1).val; rw [if_neg (by decide)]
    | ⟨2, _⟩ => by show 0 = if (1 : Nat) = 1 then 0 else (i 2).val; rw [if_pos rfl])

def val_main_v42 : (⟨S1024x512x128, .f32⟩ : BufTy).Contents (Elt F) :=
  Host.divf (x1) (val_main_v41 (F := F) x1)
theorem val_main_v42_apply (i : S1024x512x128.Idx) :
    val_main_v42 (F := F) x1 i = FloatOps.hostDivf (x1 i) (val_main_v41 (F := F) x1 i) := rfl

def val_main_v43 : (⟨S256x536, .f32⟩ : BufTy).Contents (Elt F) :=
  transpose S256x536 [1, 0] (x9) transposes_S536x256_S256x536_1_0
abbrev idx_main_v43 (i : S256x536.Idx) : S536x256.Idx := fun a => match a with
  | ⟨0, _⟩ => ⟨(i 1).val, (i 1).isLt⟩
  | ⟨1, _⟩ => ⟨(i 0).val, (i 0).isLt⟩
theorem val_main_v43_apply (i : S256x536.Idx) :
    val_main_v43 (F := F) x9 i = x9 (idx_main_v43 i) := by
  unfold val_main_v43
  exact transpose_apply [1, 0] x9 transposes_S536x256_S256x536_1_0 i (idx_main_v43 i) (fun b => match b with
    | ⟨0, _⟩ => rfl
    | ⟨1, _⟩ => rfl)

def val_main_v44 : (⟨S1024x536, .f32⟩ : BufTy).Contents (Elt F) :=
  Host.dotGeneral dot_S1024x256_S256x536_S1024x536_1_0_0_1_n_n none (val_main_v37 (F := F) x0 x2 x5 x6 x7 x8) (val_main_v43 (F := F) x9)
theorem lhs_main_v44_0 (i : S1024x536.Idx) (q : dot_S1024x256_S256x536_S1024x536_1_0_0_1_n_n.contr.Idx) :
    (dot_S1024x256_S256x536_S1024x536_1_0_0_1_n_n.lhsIdx i q 0).val = (i 0).val := by
  unfold DotDims.lhsIdx
  rw [dif_neg (show ¬(0 : Fin S1024x256.rank) ∈ dot_S1024x256_S256x536_S1024x536_1_0_0_1_n_n.lhsBatch by decide), dif_pos (show (0 : Fin S1024x256.rank) ∈ dot_S1024x256_S256x536_S1024x536_1_0_0_1_n_n.lhsNonContracting by decide)]
  rfl
theorem lhs_main_v44_1 (i : S1024x536.Idx) (q : dot_S1024x256_S256x536_S1024x536_1_0_0_1_n_n.contr.Idx) :
    (dot_S1024x256_S256x536_S1024x536_1_0_0_1_n_n.lhsIdx i q 1).val = (q ⟨0, by decide⟩).val :=
  dot_S1024x256_S256x536_S1024x536_1_0_0_1_n_n.lhsIdx_val_of_single rfl i q
theorem rhs_main_v44_0 (i : S1024x536.Idx) (q : dot_S1024x256_S256x536_S1024x536_1_0_0_1_n_n.contr.Idx) :
    (dot_S1024x256_S256x536_S1024x536_1_0_0_1_n_n.rhsIdx i q 0).val = (q ⟨0, by decide⟩).val :=
  dot_S1024x256_S256x536_S1024x536_1_0_0_1_n_n.rhsIdx_val_of_single rfl i q
theorem rhs_main_v44_1 (i : S1024x536.Idx) (q : dot_S1024x256_S256x536_S1024x536_1_0_0_1_n_n.contr.Idx) :
    (dot_S1024x256_S256x536_S1024x536_1_0_0_1_n_n.rhsIdx i q 1).val = (i 1).val := by
  unfold DotDims.rhsIdx
  rw [dif_neg (show ¬(1 : Fin S256x536.rank) ∈ dot_S1024x256_S256x536_S1024x536_1_0_0_1_n_n.rhsBatch by decide), dif_pos (show (1 : Fin S256x536.rank) ∈ dot_S1024x256_S256x536_S1024x536_1_0_0_1_n_n.rhsNonContracting by decide)]
  rfl
abbrev lidx_main_v44 (i : S1024x536.Idx) (k : Fin 256) : S1024x256.Idx := fun a => match a with
  | ⟨0, _⟩ => ⟨(i 0).val, (i 0).isLt⟩
  | ⟨1, _⟩ => ⟨k.val, k.isLt⟩
abbrev ridx_main_v44 (i : S1024x536.Idx) (k : Fin 256) : S256x536.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v44_apply (x0 : (⟨S1024x128, .f32⟩ : BufTy).Contents (Elt Ideal)) (x2 : (⟨S1024x256, .f32⟩ : BufTy).Contents (Elt Ideal)) (x5 : (⟨S768x128, .f32⟩ : BufTy).Contents (Elt Ideal)) (x6 : (⟨S768x256, .f32⟩ : BufTy).Contents (Elt Ideal)) (x7 x8 : (⟨S768, .f32⟩ : BufTy).Contents (Elt Ideal)) (x9 : (⟨S536x256, .f32⟩ : BufTy).Contents (Elt Ideal)) (i : S1024x536.Idx) :
    val_main_v44 (F := Ideal) x0 x2 x5 x6 x7 x8 x9 i = ∑ k : Fin 256, (val_main_v37 (F := Ideal) x0 x2 x5 x6 x7 x8) (lidx_main_v44 i k) * (val_main_v43 (F := Ideal) x9) (ridx_main_v44 i k) := by
  unfold val_main_v44
  generalize val_main_v37 (F := Ideal) x0 x2 x5 x6 x7 x8 = y0
  generalize val_main_v43 (F := Ideal) x9 = y1
  simp only [Host.dotGeneral]
  rw [Ideal.dotGeneral_apply, ← Equiv.sum_comp (ValueIdx.contrEquiv1 dot_S1024x256_S256x536_S1024x536_1_0_0_1_n_n 256 rfl rfl).symm]
  refine Finset.sum_congr rfl fun k _ => ?_
  have hk := ValueIdx.contrEquiv1_symm_val dot_S1024x256_S256x536_S1024x536_1_0_0_1_n_n 256 rfl rfl k
  have el : dot_S1024x256_S256x536_S1024x536_1_0_0_1_n_n.lhsIdx i ((ValueIdx.contrEquiv1 dot_S1024x256_S256x536_S1024x536_1_0_0_1_n_n 256 rfl rfl).symm k) = lidx_main_v44 i k := funext fun a => Fin.ext (by
    match a with
    | ⟨0, _⟩ => exact lhs_main_v44_0 _ _
    | ⟨1, _⟩ => exact (lhs_main_v44_1 _ _).trans hk)
  have er : dot_S1024x256_S256x536_S1024x536_1_0_0_1_n_n.rhsIdx i ((ValueIdx.contrEquiv1 dot_S1024x256_S256x536_S1024x536_1_0_0_1_n_n 256 rfl rfl).symm k) = ridx_main_v44 i k := funext fun a => Fin.ext (by
    match a with
    | ⟨0, _⟩ => exact (rhs_main_v44_0 _ _).trans hk
    | ⟨1, _⟩ => exact rhs_main_v44_1 _ _)
  rw [el, er]

def val_main_v45 : (⟨S1x536, .f32⟩ : BufTy).Contents (Elt F) :=
  broadcastInDim S1x536 ![1] bcast_S536_S1x536_1 (x10)
abbrev idx_main_v45 (i : S1x536.Idx) : S536.Idx := fun a => match a with
  | ⟨0, _⟩ => ⟨(i 1).val, (i 1).isLt⟩
theorem val_main_v45_apply (i : S1x536.Idx) :
    val_main_v45 (F := F) x10 i = x10 (idx_main_v45 i) := by
  unfold val_main_v45
  exact broadcastInDim_apply _ bcast_S536_S1x536_1 x10 i (idx_main_v45 i) (fun a => match a with
    | ⟨0, _⟩ => by show (i 1).val = if (536 : Nat) = 1 then 0 else (i 1).val; rw [if_neg (by decide)])

def val_main_v46 : (⟨S1024x536, .f32⟩ : BufTy).Contents (Elt F) :=
  broadcastInDim S1024x536 ![0, 1] bcast_S1x536_S1024x536_0_1 (val_main_v45 (F := F) x10)
abbrev idx_main_v46 (i : S1024x536.Idx) : S1x536.Idx := fun a => match a with
  | ⟨0, _⟩ => ⟨0, Nat.one_pos⟩
  | ⟨1, _⟩ => ⟨(i 1).val, (i 1).isLt⟩
theorem val_main_v46_apply (i : S1024x536.Idx) :
    val_main_v46 (F := F) x10 i = val_main_v45 (F := F) x10 (idx_main_v46 i) := by
  unfold val_main_v46
  generalize val_main_v45 (F := F) x10 = y
  exact broadcastInDim_apply _ bcast_S1x536_S1024x536_0_1 y i (idx_main_v46 i) (fun a => match a with
    | ⟨0, _⟩ => by show 0 = if (1 : Nat) = 1 then 0 else (i 0).val; rw [if_pos rfl]
    | ⟨1, _⟩ => by show (i 1).val = if (536 : Nat) = 1 then 0 else (i 1).val; rw [if_neg (by decide)])

def val_main_v47 : (⟨S1024x536, .f32⟩ : BufTy).Contents (Elt F) :=
  addf (val_main_v44 (F := F) x0 x2 x5 x6 x7 x8 x9) (val_main_v46 (F := F) x10)
theorem val_main_v47_apply (i : S1024x536.Idx) :
    val_main_v47 (F := F) x0 x2 x5 x6 x7 x8 x9 x10 i = FloatOps.addf (val_main_v44 (F := F) x0 x2 x5 x6 x7 x8 x9 i) (val_main_v46 (F := F) x10 i) := rfl

def val_main_v48 : (⟨S1024x4x134, .f32⟩ : BufTy).Contents (Elt F) :=
  shapeCast _ (val_main_v47 (F := F) x0 x2 x5 x6 x7 x8 x9 x10) shapeCasts_S1024x536_S1024x4x134
abbrev idx_main_v48 (i : S1024x4x134.Idx) : S1024x536.Idx := fun a => match a with
  | ⟨0, _⟩ => ⟨(((i 0).val * 4 + (i 1).val) * 134 + (i 2).val) / 536, by have h0 : (i 0).val < 1024 := (i 0).isLt; have h1 : (i 1).val < 4 := (i 1).isLt; have h2 : (i 2).val < 134 := (i 2).isLt; show (((i 0).val * 4 + (i 1).val) * 134 + (i 2).val) / 536 < 1024; omega⟩
  | ⟨1, _⟩ => ⟨(((i 0).val * 4 + (i 1).val) * 134 + (i 2).val) % 536, by have h0 : (i 0).val < 1024 := (i 0).isLt; have h1 : (i 1).val < 4 := (i 1).isLt; have h2 : (i 2).val < 134 := (i 2).isLt; show (((i 0).val * 4 + (i 1).val) * 134 + (i 2).val) % 536 < 536; omega⟩
theorem val_main_v48_apply (i : S1024x4x134.Idx) :
    val_main_v48 (F := F) x0 x2 x5 x6 x7 x8 x9 x10 i = val_main_v47 (F := F) x0 x2 x5 x6 x7 x8 x9 x10 (idx_main_v48 i) := by
  unfold val_main_v48
  generalize val_main_v47 (F := F) x0 x2 x5 x6 x7 x8 x9 x10 = y
  exact shapeCast_apply y shapeCasts_S1024x536_S1024x4x134 i (idx_main_v48 i)
    (by rewrite [Shape.rowMajor_val_two, Shape.rowMajor_val_three]; have h0 : (i 0).val < 1024 := (i 0).isLt; have h1 : (i 1).val < 4 := (i 1).isLt; have h2 : (i 2).val < 134 := (i 2).isLt; show (((i 0).val * 4 + (i 1).val) * 134 + (i 2).val) / 536 * 536 + (((i 0).val * 4 + (i 1).val) * 134 + (i 2).val) % 536 = ((i 0).val * 4 + (i 1).val) * 134 + (i 2).val; omega)

def val_main_v49 : (⟨S1024x4x128, .f32⟩ : BufTy).Contents (Elt F) :=
  extractStridedSlice S1024x4x128 ![0, 0, 0] (val_main_v48 (F := F) x0 x2 x5 x6 x7 x8 x9 x10) slices_S1024x4x134_S1024x4x128_0_0_0
abbrev idx_main_v49 (i : S1024x4x128.Idx) : S1024x4x134.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 128 := (i 2).isLt; show (i 2).val < 134; omega⟩
theorem val_main_v49_apply (i : S1024x4x128.Idx) :
    val_main_v49 (F := F) x0 x2 x5 x6 x7 x8 x9 x10 i = val_main_v48 (F := F) x0 x2 x5 x6 x7 x8 x9 x10 (idx_main_v49 i) := by
  unfold val_main_v49
  generalize val_main_v48 (F := F) x0 x2 x5 x6 x7 x8 x9 x10 = y
  exact extractStridedSlice_apply ![0, 0, 0] y slices_S1024x4x134_S1024x4x128_0_0_0 i (idx_main_v49 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v50 : (⟨S1024x4x1, .f32⟩ : BufTy).Contents (Elt F) :=
  extractStridedSlice S1024x4x1 ![0, 0, 128] (val_main_v48 (F := F) x0 x2 x5 x6 x7 x8 x9 x10) slices_S1024x4x134_S1024x4x1_0_0_128
abbrev idx_main_v50 (i : S1024x4x1.Idx) : S1024x4x134.Idx := fun a => match a with
  | ⟨0, _⟩ => ⟨(i 0).val, (i 0).isLt⟩
  | ⟨1, _⟩ => ⟨(i 1).val, (i 1).isLt⟩
  | ⟨2, _⟩ => ⟨128 + (i 2).val, by have h2 : (i 2).val < 1 := (i 2).isLt; show 128 + (i 2).val < 134; omega⟩
theorem val_main_v50_apply (i : S1024x4x1.Idx) :
    val_main_v50 (F := F) x0 x2 x5 x6 x7 x8 x9 x10 i = val_main_v48 (F := F) x0 x2 x5 x6 x7 x8 x9 x10 (idx_main_v50 i) := by
  unfold val_main_v50
  generalize val_main_v48 (F := F) x0 x2 x5 x6 x7 x8 x9 x10 = y
  exact extractStridedSlice_apply ![0, 0, 128] y slices_S1024x4x134_S1024x4x1_0_0_128 i (idx_main_v50 i) (fun a => match a with
    | ⟨0, _⟩ => by show (i 0).val = 0 + (i 0).val; omega
    | ⟨1, _⟩ => by show (i 1).val = 0 + (i 1).val; omega
    | ⟨2, _⟩ => by show 128 + (i 2).val = 128 + (i 2).val; omega)

def val_main_v51 : (⟨S1024x4, .f32⟩ : BufTy).Contents (Elt F) :=
  shapeCast _ (val_main_v50 (F := F) x0 x2 x5 x6 x7 x8 x9 x10) shapeCasts_S1024x4x1_S1024x4
abbrev idx_main_v51 (i : S1024x4.Idx) : S1024x4x1.Idx := fun a => match a with
  | ⟨0, _⟩ => ⟨((i 0).val * 4 + (i 1).val) / 4, by have h0 : (i 0).val < 1024 := (i 0).isLt; have h1 : (i 1).val < 4 := (i 1).isLt; show ((i 0).val * 4 + (i 1).val) / 4 < 1024; omega⟩
  | ⟨1, _⟩ => ⟨((i 0).val * 4 + (i 1).val) / 1 % 4, by have h0 : (i 0).val < 1024 := (i 0).isLt; have h1 : (i 1).val < 4 := (i 1).isLt; show ((i 0).val * 4 + (i 1).val) / 1 % 4 < 4; omega⟩
  | ⟨2, _⟩ => ⟨0, Nat.one_pos⟩
theorem val_main_v51_apply (i : S1024x4.Idx) :
    val_main_v51 (F := F) x0 x2 x5 x6 x7 x8 x9 x10 i = val_main_v50 (F := F) x0 x2 x5 x6 x7 x8 x9 x10 (idx_main_v51 i) := by
  unfold val_main_v51
  generalize val_main_v50 (F := F) x0 x2 x5 x6 x7 x8 x9 x10 = y
  exact shapeCast_apply y shapeCasts_S1024x4x1_S1024x4 i (idx_main_v51 i)
    (by rewrite [Shape.rowMajor_val_three, Shape.rowMajor_val_two]; have h0 : (i 0).val < 1024 := (i 0).isLt; have h1 : (i 1).val < 4 := (i 1).isLt; show (((i 0).val * 4 + (i 1).val) / 4 * 4 + ((i 0).val * 4 + (i 1).val) / 1 % 4) * 1 + 0 = (i 0).val * 4 + (i 1).val; omega)

def val_main_v52 : (⟨S1024x4x1, .f32⟩ : BufTy).Contents (Elt F) :=
  extractStridedSlice S1024x4x1 ![0, 0, 129] (val_main_v48 (F := F) x0 x2 x5 x6 x7 x8 x9 x10) slices_S1024x4x134_S1024x4x1_0_0_129
abbrev idx_main_v52 (i : S1024x4x1.Idx) : S1024x4x134.Idx := fun a => match a with
  | ⟨0, _⟩ => ⟨(i 0).val, (i 0).isLt⟩
  | ⟨1, _⟩ => ⟨(i 1).val, (i 1).isLt⟩
  | ⟨2, _⟩ => ⟨129 + (i 2).val, by have h2 : (i 2).val < 1 := (i 2).isLt; show 129 + (i 2).val < 134; omega⟩
theorem val_main_v52_apply (i : S1024x4x1.Idx) :
    val_main_v52 (F := F) x0 x2 x5 x6 x7 x8 x9 x10 i = val_main_v48 (F := F) x0 x2 x5 x6 x7 x8 x9 x10 (idx_main_v52 i) := by
  unfold val_main_v52
  generalize val_main_v48 (F := F) x0 x2 x5 x6 x7 x8 x9 x10 = y
  exact extractStridedSlice_apply ![0, 0, 129] y slices_S1024x4x134_S1024x4x1_0_0_129 i (idx_main_v52 i) (fun a => match a with
    | ⟨0, _⟩ => by show (i 0).val = 0 + (i 0).val; omega
    | ⟨1, _⟩ => by show (i 1).val = 0 + (i 1).val; omega
    | ⟨2, _⟩ => by show 129 + (i 2).val = 129 + (i 2).val; omega)

def val_main_v53 : (⟨S1024x4, .f32⟩ : BufTy).Contents (Elt F) :=
  shapeCast _ (val_main_v52 (F := F) x0 x2 x5 x6 x7 x8 x9 x10) shapeCasts_S1024x4x1_S1024x4
abbrev idx_main_v53 (i : S1024x4.Idx) : S1024x4x1.Idx := fun a => match a with
  | ⟨0, _⟩ => ⟨((i 0).val * 4 + (i 1).val) / 4, by have h0 : (i 0).val < 1024 := (i 0).isLt; have h1 : (i 1).val < 4 := (i 1).isLt; show ((i 0).val * 4 + (i 1).val) / 4 < 1024; omega⟩
  | ⟨1, _⟩ => ⟨((i 0).val * 4 + (i 1).val) / 1 % 4, by have h0 : (i 0).val < 1024 := (i 0).isLt; have h1 : (i 1).val < 4 := (i 1).isLt; show ((i 0).val * 4 + (i 1).val) / 1 % 4 < 4; omega⟩
  | ⟨2, _⟩ => ⟨0, Nat.one_pos⟩
theorem val_main_v53_apply (i : S1024x4.Idx) :
    val_main_v53 (F := F) x0 x2 x5 x6 x7 x8 x9 x10 i = val_main_v52 (F := F) x0 x2 x5 x6 x7 x8 x9 x10 (idx_main_v53 i) := by
  unfold val_main_v53
  generalize val_main_v52 (F := F) x0 x2 x5 x6 x7 x8 x9 x10 = y
  exact shapeCast_apply y shapeCasts_S1024x4x1_S1024x4 i (idx_main_v53 i)
    (by rewrite [Shape.rowMajor_val_three, Shape.rowMajor_val_two]; have h0 : (i 0).val < 1024 := (i 0).isLt; have h1 : (i 1).val < 4 := (i 1).isLt; show (((i 0).val * 4 + (i 1).val) / 4 * 4 + ((i 0).val * 4 + (i 1).val) / 1 % 4) * 1 + 0 = (i 0).val * 4 + (i 1).val; omega)

def val_main_v54 : (⟨S1024x4x3, .f32⟩ : BufTy).Contents (Elt F) :=
  extractStridedSlice S1024x4x3 ![0, 0, 130] (val_main_v48 (F := F) x0 x2 x5 x6 x7 x8 x9 x10) slices_S1024x4x134_S1024x4x3_0_0_130
abbrev idx_main_v54 (i : S1024x4x3.Idx) : S1024x4x134.Idx := fun a => match a with
  | ⟨0, _⟩ => ⟨(i 0).val, (i 0).isLt⟩
  | ⟨1, _⟩ => ⟨(i 1).val, (i 1).isLt⟩
  | ⟨2, _⟩ => ⟨130 + (i 2).val, by have h2 : (i 2).val < 3 := (i 2).isLt; show 130 + (i 2).val < 134; omega⟩
theorem val_main_v54_apply (i : S1024x4x3.Idx) :
    val_main_v54 (F := F) x0 x2 x5 x6 x7 x8 x9 x10 i = val_main_v48 (F := F) x0 x2 x5 x6 x7 x8 x9 x10 (idx_main_v54 i) := by
  unfold val_main_v54
  generalize val_main_v48 (F := F) x0 x2 x5 x6 x7 x8 x9 x10 = y
  exact extractStridedSlice_apply ![0, 0, 130] y slices_S1024x4x134_S1024x4x3_0_0_130 i (idx_main_v54 i) (fun a => match a with
    | ⟨0, _⟩ => by show (i 0).val = 0 + (i 0).val; omega
    | ⟨1, _⟩ => by show (i 1).val = 0 + (i 1).val; omega
    | ⟨2, _⟩ => by show 130 + (i 2).val = 130 + (i 2).val; omega)

def val_main_v55 : (⟨S1024x4x1, .f32⟩ : BufTy).Contents (Elt F) :=
  extractStridedSlice S1024x4x1 ![0, 0, 133] (val_main_v48 (F := F) x0 x2 x5 x6 x7 x8 x9 x10) slices_S1024x4x134_S1024x4x1_0_0_133
abbrev idx_main_v55 (i : S1024x4x1.Idx) : S1024x4x134.Idx := fun a => match a with
  | ⟨0, _⟩ => ⟨(i 0).val, (i 0).isLt⟩
  | ⟨1, _⟩ => ⟨(i 1).val, (i 1).isLt⟩
  | ⟨2, _⟩ => ⟨133 + (i 2).val, by have h2 : (i 2).val < 1 := (i 2).isLt; show 133 + (i 2).val < 134; omega⟩
theorem val_main_v55_apply (i : S1024x4x1.Idx) :
    val_main_v55 (F := F) x0 x2 x5 x6 x7 x8 x9 x10 i = val_main_v48 (F := F) x0 x2 x5 x6 x7 x8 x9 x10 (idx_main_v55 i) := by
  unfold val_main_v55
  generalize val_main_v48 (F := F) x0 x2 x5 x6 x7 x8 x9 x10 = y
  exact extractStridedSlice_apply ![0, 0, 133] y slices_S1024x4x134_S1024x4x1_0_0_133 i (idx_main_v55 i) (fun a => match a with
    | ⟨0, _⟩ => by show (i 0).val = 0 + (i 0).val; omega
    | ⟨1, _⟩ => by show (i 1).val = 0 + (i 1).val; omega
    | ⟨2, _⟩ => by show 133 + (i 2).val = 133 + (i 2).val; omega)

def val_main_v56 : (⟨S1024x4, .f32⟩ : BufTy).Contents (Elt F) :=
  shapeCast _ (val_main_v55 (F := F) x0 x2 x5 x6 x7 x8 x9 x10) shapeCasts_S1024x4x1_S1024x4
abbrev idx_main_v56 (i : S1024x4.Idx) : S1024x4x1.Idx := fun a => match a with
  | ⟨0, _⟩ => ⟨((i 0).val * 4 + (i 1).val) / 4, by have h0 : (i 0).val < 1024 := (i 0).isLt; have h1 : (i 1).val < 4 := (i 1).isLt; show ((i 0).val * 4 + (i 1).val) / 4 < 1024; omega⟩
  | ⟨1, _⟩ => ⟨((i 0).val * 4 + (i 1).val) / 1 % 4, by have h0 : (i 0).val < 1024 := (i 0).isLt; have h1 : (i 1).val < 4 := (i 1).isLt; show ((i 0).val * 4 + (i 1).val) / 1 % 4 < 4; omega⟩
  | ⟨2, _⟩ => ⟨0, Nat.one_pos⟩
theorem val_main_v56_apply (i : S1024x4.Idx) :
    val_main_v56 (F := F) x0 x2 x5 x6 x7 x8 x9 x10 i = val_main_v55 (F := F) x0 x2 x5 x6 x7 x8 x9 x10 (idx_main_v56 i) := by
  unfold val_main_v56
  generalize val_main_v55 (F := F) x0 x2 x5 x6 x7 x8 x9 x10 = y
  exact shapeCast_apply y shapeCasts_S1024x4x1_S1024x4 i (idx_main_v56 i)
    (by rewrite [Shape.rowMajor_val_three, Shape.rowMajor_val_two]; have h0 : (i 0).val < 1024 := (i 0).isLt; have h1 : (i 1).val < 4 := (i 1).isLt; show (((i 0).val * 4 + (i 1).val) / 4 * 4 + ((i 0).val * 4 + (i 1).val) / 1 % 4) * 1 + 0 = (i 0).val * 4 + (i 1).val; omega)

def val_main_call1_cst : (⟨S_, .f32⟩ : BufTy).Contents (Elt F) :=
  constant S_ .f32 0x00000000#32
theorem val_main_call1_cst_apply (i : S_.Idx) :
    val_main_call1_cst (F := F) i = FloatOps.ofBits .f32 0x00000000#32 := rfl

def val_main_call1_v0 : (⟨S1024x4, .f32⟩ : BufTy).Contents (Elt F) :=
  broadcastInDim S1024x4 ![] bcast_S_S1024x4 (val_main_call1_cst (F := F))
abbrev idx_main_call1_v0 (i : S1024x4.Idx) : S_.Idx := fun a => a.elim0
theorem val_main_call1_v0_apply (i : S1024x4.Idx) :
    val_main_call1_v0 (F := F) i = val_main_call1_cst (F := F) (idx_main_call1_v0 i) := by
  unfold val_main_call1_v0
  generalize val_main_call1_cst (F := F) = y
  exact broadcastInDim_apply _ bcast_S_S1024x4 y i (idx_main_call1_v0 i) (fun a => a.elim0)

def val_main_call1_v1 : (⟨S1024x4, .f32⟩ : BufTy).Contents (Elt F) :=
  maximumf (val_main_v51 (F := F) x0 x2 x5 x6 x7 x8 x9 x10) (val_main_call1_v0 (F := F))
theorem val_main_call1_v1_apply (i : S1024x4.Idx) :
    val_main_call1_v1 (F := F) x0 x2 x5 x6 x7 x8 x9 x10 i = FloatOps.maximumf (val_main_v51 (F := F) x0 x2 x5 x6 x7 x8 x9 x10 i) (val_main_call1_v0 (F := F) i) := rfl

def val_main_call1_v2 : (⟨S1024x4, .f32⟩ : BufTy).Contents (Elt F) :=
  broadcastInDim S1024x4 ![] bcast_S_S1024x4 (val_main_call1_cst (F := F))
abbrev idx_main_call1_v2 (i : S1024x4.Idx) : S_.Idx := fun a => a.elim0
theorem val_main_call1_v2_apply (i : S1024x4.Idx) :
    val_main_call1_v2 (F := F) i = val_main_call1_cst (F := F) (idx_main_call1_v2 i) := by
  unfold val_main_call1_v2
  generalize val_main_call1_cst (F := F) = y
  exact broadcastInDim_apply _ bcast_S_S1024x4 y i (idx_main_call1_v2 i) (fun a => a.elim0)

def val_main_call1_v3 : (⟨S1024x4, .f32⟩ : BufTy).Contents (Elt F) :=
  subf (val_main_v51 (F := F) x0 x2 x5 x6 x7 x8 x9 x10) (val_main_call1_v2 (F := F))
theorem val_main_call1_v3_apply (i : S1024x4.Idx) :
    val_main_call1_v3 (F := F) x0 x2 x5 x6 x7 x8 x9 x10 i = FloatOps.subf (val_main_v51 (F := F) x0 x2 x5 x6 x7 x8 x9 x10 i) (val_main_call1_v2 (F := F) i) := rfl

def val_main_call1_v4 : (⟨S1024x4, .i1⟩ : BufTy).Contents (Elt F) :=
  cmpf .une (val_main_call1_v3 (F := F) x0 x2 x5 x6 x7 x8 x9 x10) (val_main_call1_v3 (F := F) x0 x2 x5 x6 x7 x8 x9 x10)
theorem val_main_call1_v4_apply (i : S1024x4.Idx) :
    val_main_call1_v4 (F := F) x0 x2 x5 x6 x7 x8 x9 x10 i = FloatOps.cmpf .une (val_main_call1_v3 (F := F) x0 x2 x5 x6 x7 x8 x9 x10 i) (val_main_call1_v3 (F := F) x0 x2 x5 x6 x7 x8 x9 x10 i) := rfl

def val_main_call1_v5 : (⟨S1024x4, .f32⟩ : BufTy).Contents (Elt F) :=
  broadcastInDim S1024x4 ![] bcast_S_S1024x4 (val_main_call1_cst (F := F))
abbrev idx_main_call1_v5 (i : S1024x4.Idx) : S_.Idx := fun a => a.elim0
theorem val_main_call1_v5_apply (i : S1024x4.Idx) :
    val_main_call1_v5 (F := F) i = val_main_call1_cst (F := F) (idx_main_call1_v5 i) := by
  unfold val_main_call1_v5
  generalize val_main_call1_cst (F := F) = y
  exact broadcastInDim_apply _ bcast_S_S1024x4 y i (idx_main_call1_v5 i) (fun a => a.elim0)

def val_main_call1_v6 : (⟨S1024x4, .f32⟩ : BufTy).Contents (Elt F) :=
  addf (val_main_v51 (F := F) x0 x2 x5 x6 x7 x8 x9 x10) (val_main_call1_v5 (F := F))
theorem val_main_call1_v6_apply (i : S1024x4.Idx) :
    val_main_call1_v6 (F := F) x0 x2 x5 x6 x7 x8 x9 x10 i = FloatOps.addf (val_main_v51 (F := F) x0 x2 x5 x6 x7 x8 x9 x10 i) (val_main_call1_v5 (F := F) i) := rfl

def val_main_call1_v7 : (⟨S1024x4, .f32⟩ : BufTy).Contents (Elt F) :=
  Host.absf (val_main_call1_v3 (F := F) x0 x2 x5 x6 x7 x8 x9 x10)
theorem val_main_call1_v7_apply (i : S1024x4.Idx) :
    val_main_call1_v7 (F := F) x0 x2 x5 x6 x7 x8 x9 x10 i = FloatOps.hostAbsf (val_main_call1_v3 (F := F) x0 x2 x5 x6 x7 x8 x9 x10 i) := rfl

def val_main_call1_v8 : (⟨S1024x4, .f32⟩ : BufTy).Contents (Elt F) :=
  Host.negf (val_main_call1_v7 (F := F) x0 x2 x5 x6 x7 x8 x9 x10)
theorem val_main_call1_v8_apply (i : S1024x4.Idx) :
    val_main_call1_v8 (F := F) x0 x2 x5 x6 x7 x8 x9 x10 i = FloatOps.hostNegf (val_main_call1_v7 (F := F) x0 x2 x5 x6 x7 x8 x9 x10 i) := rfl

def val_main_call1_v9 : (⟨S1024x4, .f32⟩ : BufTy).Contents (Elt F) :=
  Host.exp (val_main_call1_v8 (F := F) x0 x2 x5 x6 x7 x8 x9 x10)
theorem val_main_call1_v9_apply (i : S1024x4.Idx) :
    val_main_call1_v9 (F := F) x0 x2 x5 x6 x7 x8 x9 x10 i = FloatOps.hostUnary .exp (val_main_call1_v8 (F := F) x0 x2 x5 x6 x7 x8 x9 x10 i) := rfl

def val_main_call1_v10 : (⟨S1024x4, .f32⟩ : BufTy).Contents (Elt F) :=
  Host.log1p (val_main_call1_v9 (F := F) x0 x2 x5 x6 x7 x8 x9 x10)
theorem val_main_call1_v10_apply (i : S1024x4.Idx) :
    val_main_call1_v10 (F := F) x0 x2 x5 x6 x7 x8 x9 x10 i = FloatOps.hostUnary .log1p (val_main_call1_v9 (F := F) x0 x2 x5 x6 x7 x8 x9 x10 i) := rfl

def val_main_call1_v11 : (⟨S1024x4, .f32⟩ : BufTy).Contents (Elt F) :=
  addf (val_main_call1_v1 (F := F) x0 x2 x5 x6 x7 x8 x9 x10) (val_main_call1_v10 (F := F) x0 x2 x5 x6 x7 x8 x9 x10)
theorem val_main_call1_v11_apply (i : S1024x4.Idx) :
    val_main_call1_v11 (F := F) x0 x2 x5 x6 x7 x8 x9 x10 i = FloatOps.addf (val_main_call1_v1 (F := F) x0 x2 x5 x6 x7 x8 x9 x10 i) (val_main_call1_v10 (F := F) x0 x2 x5 x6 x7 x8 x9 x10 i) := rfl

def val_main_v57 : (⟨S1024x4, .f32⟩ : BufTy).Contents (Elt F) :=
  select (val_main_call1_v4 (F := F) x0 x2 x5 x6 x7 x8 x9 x10) (val_main_call1_v6 (F := F) x0 x2 x5 x6 x7 x8 x9 x10) (val_main_call1_v11 (F := F) x0 x2 x5 x6 x7 x8 x9 x10)
theorem val_main_v57_apply (i : S1024x4.Idx) :
    val_main_v57 (F := F) x0 x2 x5 x6 x7 x8 x9 x10 i = Scalar.select (val_main_call1_v4 (F := F) x0 x2 x5 x6 x7 x8 x9 x10 i) (val_main_call1_v6 (F := F) x0 x2 x5 x6 x7 x8 x9 x10 i) (val_main_call1_v11 (F := F) x0 x2 x5 x6 x7 x8 x9 x10 i) := rfl

def val_main_call2_v0 : (⟨S1024x4x128, .f32⟩ : BufTy).Contents (Elt F) :=
  mulf (val_main_v49 (F := F) x0 x2 x5 x6 x7 x8 x9 x10) (val_main_v49 (F := F) x0 x2 x5 x6 x7 x8 x9 x10)
theorem val_main_call2_v0_apply (i : S1024x4x128.Idx) :
    val_main_call2_v0 (F := F) x0 x2 x5 x6 x7 x8 x9 x10 i = FloatOps.mulf (val_main_v49 (F := F) x0 x2 x5 x6 x7 x8 x9 x10 i) (val_main_v49 (F := F) x0 x2 x5 x6 x7 x8 x9 x10 i) := rfl

def val_main_call2_cst : (⟨S_, .f32⟩ : BufTy).Contents (Elt F) :=
  constant S_ .f32 0x00000000#32
theorem val_main_call2_cst_apply (i : S_.Idx) :
    val_main_call2_cst (F := F) i = FloatOps.ofBits .f32 0x00000000#32 := rfl

def val_main_call2_v1 : (⟨S1024x4, .f32⟩ : BufTy).Contents (Elt F) :=
  Host.reduceAdd (val_main_call2_v0 (F := F) x0 x2 x5 x6 x7 x8 x9 x10) (val_main_call2_cst (F := F)) reducesTo_S1024x4x128_S1024x4_d2 h_S_
abbrev idx_main_call2_v1 (i : S1024x4.Idx) (k : Fin 128) : S1024x4x128.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_call2_v1_apply (x0 : (⟨S1024x128, .f32⟩ : BufTy).Contents (Elt Ideal)) (x2 : (⟨S1024x256, .f32⟩ : BufTy).Contents (Elt Ideal)) (x5 : (⟨S768x128, .f32⟩ : BufTy).Contents (Elt Ideal)) (x6 : (⟨S768x256, .f32⟩ : BufTy).Contents (Elt Ideal)) (x7 x8 : (⟨S768, .f32⟩ : BufTy).Contents (Elt Ideal)) (x9 : (⟨S536x256, .f32⟩ : BufTy).Contents (Elt Ideal)) (x10 : (⟨S536, .f32⟩ : BufTy).Contents (Elt Ideal)) (i : S1024x4.Idx) :
    val_main_call2_v1 (F := Ideal) x0 x2 x5 x6 x7 x8 x9 x10 i = (val_main_call2_cst (F := Ideal)) (Shape.Idx.first h_S_) + ∑ k : Fin 128, (val_main_call2_v0 (F := Ideal) x0 x2 x5 x6 x7 x8 x9 x10) (idx_main_call2_v1 i k) := by
  unfold val_main_call2_v1
  generalize val_main_call2_v0 (F := Ideal) x0 x2 x5 x6 x7 x8 x9 x10 = y0
  simp only [Host.reduceAdd, Ideal.hostReduceAdd_def]
  rw [Ideal.hostReduceAdd_single reducesTo_S1024x4x128_S1024x4_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_call2_v2 : (⟨S1024x4x1, .f32⟩ : BufTy).Contents (Elt F) :=
  broadcastInDim S1024x4x1 ![0, 1] bcast_S1024x4_S1024x4x1_0_1 (val_main_call2_v1 (F := F) x0 x2 x5 x6 x7 x8 x9 x10)
abbrev idx_main_call2_v2 (i : S1024x4x1.Idx) : S1024x4.Idx := fun a => match a with
  | ⟨0, _⟩ => ⟨(i 0).val, (i 0).isLt⟩
  | ⟨1, _⟩ => ⟨(i 1).val, (i 1).isLt⟩
theorem val_main_call2_v2_apply (i : S1024x4x1.Idx) :
    val_main_call2_v2 (F := F) x0 x2 x5 x6 x7 x8 x9 x10 i = val_main_call2_v1 (F := F) x0 x2 x5 x6 x7 x8 x9 x10 (idx_main_call2_v2 i) := by
  unfold val_main_call2_v2
  generalize val_main_call2_v1 (F := F) x0 x2 x5 x6 x7 x8 x9 x10 = y
  exact broadcastInDim_apply _ bcast_S1024x4_S1024x4x1_0_1 y i (idx_main_call2_v2 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)])

def val_main_v58 : (⟨S1024x4x1, .f32⟩ : BufTy).Contents (Elt F) :=
  Host.sqrt (val_main_call2_v2 (F := F) x0 x2 x5 x6 x7 x8 x9 x10)
theorem val_main_v58_apply (i : S1024x4x1.Idx) :
    val_main_v58 (F := F) x0 x2 x5 x6 x7 x8 x9 x10 i = FloatOps.hostUnary .sqrt (val_main_call2_v2 (F := F) x0 x2 x5 x6 x7 x8 x9 x10 i) := rfl

def val_main_cst_5 : (⟨S_, .f32⟩ : BufTy).Contents (Elt F) :=
  constant S_ .f32 0x2B8CBCCC#32
theorem val_main_cst_5_apply (i : S_.Idx) :
    val_main_cst_5 (F := F) i = FloatOps.ofBits .f32 0x2B8CBCCC#32 := rfl

def val_main_v59 : (⟨S1024x4x1, .f32⟩ : BufTy).Contents (Elt F) :=
  broadcastInDim S1024x4x1 ![] bcast_S_S1024x4x1 (val_main_cst_5 (F := F))
abbrev idx_main_v59 (i : S1024x4x1.Idx) : S_.Idx := fun a => a.elim0
theorem val_main_v59_apply (i : S1024x4x1.Idx) :
    val_main_v59 (F := F) i = val_main_cst_5 (F := F) (idx_main_v59 i) := by
  unfold val_main_v59
  generalize val_main_cst_5 (F := F) = y
  exact broadcastInDim_apply _ bcast_S_S1024x4x1 y i (idx_main_v59 i) (fun a => a.elim0)

def val_main_v60 : (⟨S1024x4x1, .f32⟩ : BufTy).Contents (Elt F) :=
  addf (val_main_v58 (F := F) x0 x2 x5 x6 x7 x8 x9 x10) (val_main_v59 (F := F))
theorem val_main_v60_apply (i : S1024x4x1.Idx) :
    val_main_v60 (F := F) x0 x2 x5 x6 x7 x8 x9 x10 i = FloatOps.addf (val_main_v58 (F := F) x0 x2 x5 x6 x7 x8 x9 x10 i) (val_main_v59 (F := F) i) := rfl

def val_main_v61 : (⟨S1024x4x128, .f32⟩ : BufTy).Contents (Elt F) :=
  broadcastInDim S1024x4x128 ![0, 1, 2] bcast_S1024x4x1_S1024x4x128_0_1_2 (val_main_v60 (F := F) x0 x2 x5 x6 x7 x8 x9 x10)
abbrev idx_main_v61 (i : S1024x4x128.Idx) : S1024x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v61_apply (i : S1024x4x128.Idx) :
    val_main_v61 (F := F) x0 x2 x5 x6 x7 x8 x9 x10 i = val_main_v60 (F := F) x0 x2 x5 x6 x7 x8 x9 x10 (idx_main_v61 i) := by
  unfold val_main_v61
  generalize val_main_v60 (F := F) x0 x2 x5 x6 x7 x8 x9 x10 = y
  exact broadcastInDim_apply _ bcast_S1024x4x1_S1024x4x128_0_1_2 y i (idx_main_v61 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

def val_main_v62 : (⟨S1024x4x128, .f32⟩ : BufTy).Contents (Elt F) :=
  Host.divf (val_main_v49 (F := F) x0 x2 x5 x6 x7 x8 x9 x10) (val_main_v61 (F := F) x0 x2 x5 x6 x7 x8 x9 x10)
theorem val_main_v62_apply (i : S1024x4x128.Idx) :
    val_main_v62 (F := F) x0 x2 x5 x6 x7 x8 x9 x10 i = FloatOps.hostDivf (val_main_v49 (F := F) x0 x2 x5 x6 x7 x8 x9 x10 i) (val_main_v61 (F := F) x0 x2 x5 x6 x7 x8 x9 x10 i) := rfl

def val_main_v63 : (⟨S1024x4x512, .f32⟩ : BufTy).Contents (Elt F) :=
  Host.dotGeneral dot_S1024x4x128_S1024x512x128_S1024x4x512_2_2_1_1_0_0 none (val_main_v62 (F := F) x0 x2 x5 x6 x7 x8 x9 x10) (val_main_v42 (F := F) x1)
theorem lhs_main_v63_0 (i : S1024x4x512.Idx) (q : dot_S1024x4x128_S1024x512x128_S1024x4x512_2_2_1_1_0_0.contr.Idx) :
    (dot_S1024x4x128_S1024x512x128_S1024x4x512_2_2_1_1_0_0.lhsIdx i q 0).val = (i 0).val := by
  unfold DotDims.lhsIdx
  rw [dif_pos (show (0 : Fin S1024x4x128.rank) ∈ dot_S1024x4x128_S1024x512x128_S1024x4x512_2_2_1_1_0_0.lhsBatch by decide)]
  rfl
theorem lhs_main_v63_1 (i : S1024x4x512.Idx) (q : dot_S1024x4x128_S1024x512x128_S1024x4x512_2_2_1_1_0_0.contr.Idx) :
    (dot_S1024x4x128_S1024x512x128_S1024x4x512_2_2_1_1_0_0.lhsIdx i q 1).val = (i 1).val := by
  unfold DotDims.lhsIdx
  rw [dif_neg (show ¬(1 : Fin S1024x4x128.rank) ∈ dot_S1024x4x128_S1024x512x128_S1024x4x512_2_2_1_1_0_0.lhsBatch by decide), dif_pos (show (1 : Fin S1024x4x128.rank) ∈ dot_S1024x4x128_S1024x512x128_S1024x4x512_2_2_1_1_0_0.lhsNonContracting by decide)]
  rfl
theorem lhs_main_v63_2 (i : S1024x4x512.Idx) (q : dot_S1024x4x128_S1024x512x128_S1024x4x512_2_2_1_1_0_0.contr.Idx) :
    (dot_S1024x4x128_S1024x512x128_S1024x4x512_2_2_1_1_0_0.lhsIdx i q 2).val = (q ⟨0, by decide⟩).val :=
  dot_S1024x4x128_S1024x512x128_S1024x4x512_2_2_1_1_0_0.lhsIdx_val_of_single rfl i q
theorem rhs_main_v63_0 (i : S1024x4x512.Idx) (q : dot_S1024x4x128_S1024x512x128_S1024x4x512_2_2_1_1_0_0.contr.Idx) :
    (dot_S1024x4x128_S1024x512x128_S1024x4x512_2_2_1_1_0_0.rhsIdx i q 0).val = (i 0).val := by
  unfold DotDims.rhsIdx
  rw [dif_pos (show (0 : Fin S1024x512x128.rank) ∈ dot_S1024x4x128_S1024x512x128_S1024x4x512_2_2_1_1_0_0.rhsBatch by decide)]
  rfl
theorem rhs_main_v63_1 (i : S1024x4x512.Idx) (q : dot_S1024x4x128_S1024x512x128_S1024x4x512_2_2_1_1_0_0.contr.Idx) :
    (dot_S1024x4x128_S1024x512x128_S1024x4x512_2_2_1_1_0_0.rhsIdx i q 1).val = (i 2).val := by
  unfold DotDims.rhsIdx
  rw [dif_neg (show ¬(1 : Fin S1024x512x128.rank) ∈ dot_S1024x4x128_S1024x512x128_S1024x4x512_2_2_1_1_0_0.rhsBatch by decide), dif_pos (show (1 : Fin S1024x512x128.rank) ∈ dot_S1024x4x128_S1024x512x128_S1024x4x512_2_2_1_1_0_0.rhsNonContracting by decide)]
  rfl
theorem rhs_main_v63_2 (i : S1024x4x512.Idx) (q : dot_S1024x4x128_S1024x512x128_S1024x4x512_2_2_1_1_0_0.contr.Idx) :
    (dot_S1024x4x128_S1024x512x128_S1024x4x512_2_2_1_1_0_0.rhsIdx i q 2).val = (q ⟨0, by decide⟩).val :=
  dot_S1024x4x128_S1024x512x128_S1024x4x512_2_2_1_1_0_0.rhsIdx_val_of_single rfl i q
abbrev lidx_main_v63 (i : S1024x4x512.Idx) (k : Fin 128) : S1024x4x128.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v63 (i : S1024x4x512.Idx) (k : Fin 128) : S1024x512x128.Idx := fun a => match a with
  | ⟨0, _⟩ => ⟨(i 0).val, (i 0).isLt⟩
  | ⟨1, _⟩ => ⟨(i 2).val, (i 2).isLt⟩
  | ⟨2, _⟩ => ⟨k.val, k.isLt⟩
/-- Stated at `F := Ideal`, where the host's `dot_general` is this sum; at a bit-exact instance it is an opaque function of its operands. -/
theorem val_main_v63_apply (x0 : (⟨S1024x128, .f32⟩ : BufTy).Contents (Elt Ideal)) (x1 : (⟨S1024x512x128, .f32⟩ : BufTy).Contents (Elt Ideal)) (x2 : (⟨S1024x256, .f32⟩ : BufTy).Contents (Elt Ideal)) (x5 : (⟨S768x128, .f32⟩ : BufTy).Contents (Elt Ideal)) (x6 : (⟨S768x256, .f32⟩ : BufTy).Contents (Elt Ideal)) (x7 x8 : (⟨S768, .f32⟩ : BufTy).Contents (Elt Ideal)) (x9 : (⟨S536x256, .f32⟩ : BufTy).Contents (Elt Ideal)) (x10 : (⟨S536, .f32⟩ : BufTy).Contents (Elt Ideal)) (i : S1024x4x512.Idx) :
    val_main_v63 (F := Ideal) x0 x1 x2 x5 x6 x7 x8 x9 x10 i = ∑ k : Fin 128, (val_main_v62 (F := Ideal) x0 x2 x5 x6 x7 x8 x9 x10) (lidx_main_v63 i k) * (val_main_v42 (F := Ideal) x1) (ridx_main_v63 i k) := by
  unfold val_main_v63
  generalize val_main_v62 (F := Ideal) x0 x2 x5 x6 x7 x8 x9 x10 = y0
  generalize val_main_v42 (F := Ideal) x1 = y1
  simp only [Host.dotGeneral]
  rw [Ideal.dotGeneral_apply, ← Equiv.sum_comp (ValueIdx.contrEquiv1 dot_S1024x4x128_S1024x512x128_S1024x4x512_2_2_1_1_0_0 128 rfl rfl).symm]
  refine Finset.sum_congr rfl fun k _ => ?_
  have hk := ValueIdx.contrEquiv1_symm_val dot_S1024x4x128_S1024x512x128_S1024x4x512_2_2_1_1_0_0 128 rfl rfl k
  have el : dot_S1024x4x128_S1024x512x128_S1024x4x512_2_2_1_1_0_0.lhsIdx i ((ValueIdx.contrEquiv1 dot_S1024x4x128_S1024x512x128_S1024x4x512_2_2_1_1_0_0 128 rfl rfl).symm k) = lidx_main_v63 i k := funext fun a => Fin.ext (by
    match a with
    | ⟨0, _⟩ => exact lhs_main_v63_0 _ _
    | ⟨1, _⟩ => exact lhs_main_v63_1 _ _
    | ⟨2, _⟩ => exact (lhs_main_v63_2 _ _).trans hk)
  have er : dot_S1024x4x128_S1024x512x128_S1024x4x512_2_2_1_1_0_0.rhsIdx i ((ValueIdx.contrEquiv1 dot_S1024x4x128_S1024x512x128_S1024x4x512_2_2_1_1_0_0 128 rfl rfl).symm k) = ridx_main_v63 i k := funext fun a => Fin.ext (by
    match a with
    | ⟨0, _⟩ => exact rhs_main_v63_0 _ _
    | ⟨1, _⟩ => exact rhs_main_v63_1 _ _
    | ⟨2, _⟩ => exact (rhs_main_v63_2 _ _).trans hk)
  rw [el, er]

def val_main_v64 : (⟨S1024x4x1, .f32⟩ : BufTy).Contents (Elt F) :=
  broadcastInDim S1024x4x1 ![0, 1] bcast_S1024x4_S1024x4x1_0_1 (val_main_v57 (F := F) x0 x2 x5 x6 x7 x8 x9 x10)
abbrev idx_main_v64 (i : S1024x4x1.Idx) : S1024x4.Idx := fun a => match a with
  | ⟨0, _⟩ => ⟨(i 0).val, (i 0).isLt⟩
  | ⟨1, _⟩ => ⟨(i 1).val, (i 1).isLt⟩
theorem val_main_v64_apply (i : S1024x4x1.Idx) :
    val_main_v64 (F := F) x0 x2 x5 x6 x7 x8 x9 x10 i = val_main_v57 (F := F) x0 x2 x5 x6 x7 x8 x9 x10 (idx_main_v64 i) := by
  unfold val_main_v64
  generalize val_main_v57 (F := F) x0 x2 x5 x6 x7 x8 x9 x10 = y
  exact broadcastInDim_apply _ bcast_S1024x4_S1024x4x1_0_1 y i (idx_main_v64 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)])

def val_main_v65 : (⟨S1024x4x512, .f32⟩ : BufTy).Contents (Elt F) :=
  broadcastInDim S1024x4x512 ![0, 1, 2] bcast_S1024x4x1_S1024x4x512_0_1_2 (val_main_v64 (F := F) x0 x2 x5 x6 x7 x8 x9 x10)
abbrev idx_main_v65 (i : S1024x4x512.Idx) : S1024x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v65_apply (i : S1024x4x512.Idx) :
    val_main_v65 (F := F) x0 x2 x5 x6 x7 x8 x9 x10 i = val_main_v64 (F := F) x0 x2 x5 x6 x7 x8 x9 x10 (idx_main_v65 i) := by
  unfold val_main_v65
  generalize val_main_v64 (F := F) x0 x2 x5 x6 x7 x8 x9 x10 = y
  exact broadcastInDim_apply _ bcast_S1024x4x1_S1024x4x512_0_1_2 y i (idx_main_v65 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

def val_main_v66 : (⟨S1024x4x512, .f32⟩ : BufTy).Contents (Elt F) :=
  mulf (val_main_v65 (F := F) x0 x2 x5 x6 x7 x8 x9 x10) (val_main_v63 (F := F) x0 x1 x2 x5 x6 x7 x8 x9 x10)
theorem val_main_v66_apply (i : S1024x4x512.Idx) :
    val_main_v66 (F := F) x0 x1 x2 x5 x6 x7 x8 x9 x10 i = FloatOps.mulf (val_main_v65 (F := F) x0 x2 x5 x6 x7 x8 x9 x10 i) (val_main_v63 (F := F) x0 x1 x2 x5 x6 x7 x8 x9 x10 i) := rfl

def val_main_cst_6 : (⟨S_, .f32⟩ : BufTy).Contents (Elt F) :=
  constant S_ .f32 0xFF800000#32
theorem val_main_cst_6_apply (i : S_.Idx) :
    val_main_cst_6 (F := F) i = FloatOps.ofBits .f32 0xFF800000#32 := rfl

def val_main_v67 : (⟨S1024x4, .f32⟩ : BufTy).Contents (Elt F) :=
  Host.reduce FloatOps.maximumf (val_main_v66 (F := F) x0 x1 x2 x5 x6 x7 x8 x9 x10) (val_main_cst_6 (F := F)) reducesTo_S1024x4x512_S1024x4_d2 h_S_

def val_main_cst_7 : (⟨S_, .f32⟩ : BufTy).Contents (Elt F) :=
  constant S_ .f32 0xFF800000#32
theorem val_main_cst_7_apply (i : S_.Idx) :
    val_main_cst_7 (F := F) i = FloatOps.ofBits .f32 0xFF800000#32 := rfl

def val_main_v68 : (⟨S1024x4, .f32⟩ : BufTy).Contents (Elt F) :=
  broadcastInDim S1024x4 ![] bcast_S_S1024x4 (val_main_cst_7 (F := F))
abbrev idx_main_v68 (i : S1024x4.Idx) : S_.Idx := fun a => a.elim0
theorem val_main_v68_apply (i : S1024x4.Idx) :
    val_main_v68 (F := F) i = val_main_cst_7 (F := F) (idx_main_v68 i) := by
  unfold val_main_v68
  generalize val_main_cst_7 (F := F) = y
  exact broadcastInDim_apply _ bcast_S_S1024x4 y i (idx_main_v68 i) (fun a => a.elim0)

def val_main_v69 : (⟨S1024x4, .f32⟩ : BufTy).Contents (Elt F) :=
  maximumf (val_main_v68 (F := F)) (val_main_v67 (F := F) x0 x1 x2 x5 x6 x7 x8 x9 x10)
theorem val_main_v69_apply (i : S1024x4.Idx) :
    val_main_v69 (F := F) x0 x1 x2 x5 x6 x7 x8 x9 x10 i = FloatOps.maximumf (val_main_v68 (F := F) i) (val_main_v67 (F := F) x0 x1 x2 x5 x6 x7 x8 x9 x10 i) := rfl

def val_main_v70 : (⟨S1024x4x1, .f32⟩ : BufTy).Contents (Elt F) :=
  broadcastInDim S1024x4x1 ![0, 1] bcast_S1024x4_S1024x4x1_0_1 (val_main_v69 (F := F) x0 x1 x2 x5 x6 x7 x8 x9 x10)
abbrev idx_main_v70 (i : S1024x4x1.Idx) : S1024x4.Idx := fun a => match a with
  | ⟨0, _⟩ => ⟨(i 0).val, (i 0).isLt⟩
  | ⟨1, _⟩ => ⟨(i 1).val, (i 1).isLt⟩
theorem val_main_v70_apply (i : S1024x4x1.Idx) :
    val_main_v70 (F := F) x0 x1 x2 x5 x6 x7 x8 x9 x10 i = val_main_v69 (F := F) x0 x1 x2 x5 x6 x7 x8 x9 x10 (idx_main_v70 i) := by
  unfold val_main_v70
  generalize val_main_v69 (F := F) x0 x1 x2 x5 x6 x7 x8 x9 x10 = y
  exact broadcastInDim_apply _ bcast_S1024x4_S1024x4x1_0_1 y i (idx_main_v70 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)])

def val_main_v71 : (⟨S1024x4x512, .f32⟩ : BufTy).Contents (Elt F) :=
  broadcastInDim S1024x4x512 ![0, 1, 2] bcast_S1024x4x1_S1024x4x512_0_1_2 (val_main_v70 (F := F) x0 x1 x2 x5 x6 x7 x8 x9 x10)
abbrev idx_main_v71 (i : S1024x4x512.Idx) : S1024x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v71_apply (i : S1024x4x512.Idx) :
    val_main_v71 (F := F) x0 x1 x2 x5 x6 x7 x8 x9 x10 i = val_main_v70 (F := F) x0 x1 x2 x5 x6 x7 x8 x9 x10 (idx_main_v71 i) := by
  unfold val_main_v71
  generalize val_main_v70 (F := F) x0 x1 x2 x5 x6 x7 x8 x9 x10 = y
  exact broadcastInDim_apply _ bcast_S1024x4x1_S1024x4x512_0_1_2 y i (idx_main_v71 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

def val_main_v72 : (⟨S1024x4x512, .f32⟩ : BufTy).Contents (Elt F) :=
  subf (val_main_v66 (F := F) x0 x1 x2 x5 x6 x7 x8 x9 x10) (val_main_v71 (F := F) x0 x1 x2 x5 x6 x7 x8 x9 x10)
theorem val_main_v72_apply (i : S1024x4x512.Idx) :
    val_main_v72 (F := F) x0 x1 x2 x5 x6 x7 x8 x9 x10 i = FloatOps.subf (val_main_v66 (F := F) x0 x1 x2 x5 x6 x7 x8 x9 x10 i) (val_main_v71 (F := F) x0 x1 x2 x5 x6 x7 x8 x9 x10 i) := rfl

def val_main_v73 : (⟨S1024x4x512, .f32⟩ : BufTy).Contents (Elt F) :=
  Host.exp (val_main_v72 (F := F) x0 x1 x2 x5 x6 x7 x8 x9 x10)
theorem val_main_v73_apply (i : S1024x4x512.Idx) :
    val_main_v73 (F := F) x0 x1 x2 x5 x6 x7 x8 x9 x10 i = FloatOps.hostUnary .exp (val_main_v72 (F := F) x0 x1 x2 x5 x6 x7 x8 x9 x10 i) := rfl

def val_main_cst_8 : (⟨S_, .f32⟩ : BufTy).Contents (Elt F) :=
  constant S_ .f32 0x00000000#32
theorem val_main_cst_8_apply (i : S_.Idx) :
    val_main_cst_8 (F := F) i = FloatOps.ofBits .f32 0x00000000#32 := rfl

def val_main_v74 : (⟨S1024x4, .f32⟩ : BufTy).Contents (Elt F) :=
  Host.reduceAdd (val_main_v73 (F := F) x0 x1 x2 x5 x6 x7 x8 x9 x10) (val_main_cst_8 (F := F)) reducesTo_S1024x4x512_S1024x4_d2 h_S_
abbrev idx_main_v74 (i : S1024x4.Idx) (k : Fin 512) : S1024x4x512.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v74_apply (x0 : (⟨S1024x128, .f32⟩ : BufTy).Contents (Elt Ideal)) (x1 : (⟨S1024x512x128, .f32⟩ : BufTy).Contents (Elt Ideal)) (x2 : (⟨S1024x256, .f32⟩ : BufTy).Contents (Elt Ideal)) (x5 : (⟨S768x128, .f32⟩ : BufTy).Contents (Elt Ideal)) (x6 : (⟨S768x256, .f32⟩ : BufTy).Contents (Elt Ideal)) (x7 x8 : (⟨S768, .f32⟩ : BufTy).Contents (Elt Ideal)) (x9 : (⟨S536x256, .f32⟩ : BufTy).Contents (Elt Ideal)) (x10 : (⟨S536, .f32⟩ : BufTy).Contents (Elt Ideal)) (i : S1024x4.Idx) :
    val_main_v74 (F := Ideal) x0 x1 x2 x5 x6 x7 x8 x9 x10 i = (val_main_cst_8 (F := Ideal)) (Shape.Idx.first h_S_) + ∑ k : Fin 512, (val_main_v73 (F := Ideal) x0 x1 x2 x5 x6 x7 x8 x9 x10) (idx_main_v74 i k) := by
  unfold val_main_v74
  generalize val_main_v73 (F := Ideal) x0 x1 x2 x5 x6 x7 x8 x9 x10 = y0
  simp only [Host.reduceAdd, Ideal.hostReduceAdd_def]
  rw [Ideal.hostReduceAdd_single reducesTo_S1024x4x512_S1024x4_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_v75 : (⟨S1024x4x1, .f32⟩ : BufTy).Contents (Elt F) :=
  broadcastInDim S1024x4x1 ![0, 1] bcast_S1024x4_S1024x4x1_0_1 (val_main_v74 (F := F) x0 x1 x2 x5 x6 x7 x8 x9 x10)
abbrev idx_main_v75 (i : S1024x4x1.Idx) : S1024x4.Idx := fun a => match a with
  | ⟨0, _⟩ => ⟨(i 0).val, (i 0).isLt⟩
  | ⟨1, _⟩ => ⟨(i 1).val, (i 1).isLt⟩
theorem val_main_v75_apply (i : S1024x4x1.Idx) :
    val_main_v75 (F := F) x0 x1 x2 x5 x6 x7 x8 x9 x10 i = val_main_v74 (F := F) x0 x1 x2 x5 x6 x7 x8 x9 x10 (idx_main_v75 i) := by
  unfold val_main_v75
  generalize val_main_v74 (F := F) x0 x1 x2 x5 x6 x7 x8 x9 x10 = y
  exact broadcastInDim_apply _ bcast_S1024x4_S1024x4x1_0_1 y i (idx_main_v75 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)])

def val_main_v76 : (⟨S1024x4x512, .f32⟩ : BufTy).Contents (Elt F) :=
  broadcastInDim S1024x4x512 ![0, 1, 2] bcast_S1024x4x1_S1024x4x512_0_1_2 (val_main_v75 (F := F) x0 x1 x2 x5 x6 x7 x8 x9 x10)
abbrev idx_main_v76 (i : S1024x4x512.Idx) : S1024x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v76_apply (i : S1024x4x512.Idx) :
    val_main_v76 (F := F) x0 x1 x2 x5 x6 x7 x8 x9 x10 i = val_main_v75 (F := F) x0 x1 x2 x5 x6 x7 x8 x9 x10 (idx_main_v76 i) := by
  unfold val_main_v76
  generalize val_main_v75 (F := F) x0 x1 x2 x5 x6 x7 x8 x9 x10 = y
  exact broadcastInDim_apply _ bcast_S1024x4x1_S1024x4x512_0_1_2 y i (idx_main_v76 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

def val_main_v77 : (⟨S1024x4x512, .f32⟩ : BufTy).Contents (Elt F) :=
  Host.divf (val_main_v73 (F := F) x0 x1 x2 x5 x6 x7 x8 x9 x10) (val_main_v76 (F := F) x0 x1 x2 x5 x6 x7 x8 x9 x10)
theorem val_main_v77_apply (i : S1024x4x512.Idx) :
    val_main_v77 (F := F) x0 x1 x2 x5 x6 x7 x8 x9 x10 i = FloatOps.hostDivf (val_main_v73 (F := F) x0 x1 x2 x5 x6 x7 x8 x9 x10 i) (val_main_v76 (F := F) x0 x1 x2 x5 x6 x7 x8 x9 x10 i) := rfl

def val_main_v78 : (⟨S1024x4, .f32⟩ : BufTy).Contents (Elt F) :=
  Host.negf (val_main_v53 (F := F) x0 x2 x5 x6 x7 x8 x9 x10)
theorem val_main_v78_apply (i : S1024x4.Idx) :
    val_main_v78 (F := F) x0 x2 x5 x6 x7 x8 x9 x10 i = FloatOps.hostNegf (val_main_v53 (F := F) x0 x2 x5 x6 x7 x8 x9 x10 i) := rfl

def val_main_v79 : (⟨S1024x4, .f32⟩ : BufTy).Contents (Elt F) :=
  Host.exp (val_main_v78 (F := F) x0 x2 x5 x6 x7 x8 x9 x10)
theorem val_main_v79_apply (i : S1024x4.Idx) :
    val_main_v79 (F := F) x0 x2 x5 x6 x7 x8 x9 x10 i = FloatOps.hostUnary .exp (val_main_v78 (F := F) x0 x2 x5 x6 x7 x8 x9 x10 i) := rfl

def val_main_cst_9 : (⟨S_, .f32⟩ : BufTy).Contents (Elt F) :=
  constant S_ .f32 0x3F800000#32
theorem val_main_cst_9_apply (i : S_.Idx) :
    val_main_cst_9 (F := F) i = FloatOps.ofBits .f32 0x3F800000#32 := rfl

def val_main_v80 : (⟨S1024x4, .f32⟩ : BufTy).Contents (Elt F) :=
  broadcastInDim S1024x4 ![] bcast_S_S1024x4 (val_main_cst_9 (F := F))
abbrev idx_main_v80 (i : S1024x4.Idx) : S_.Idx := fun a => a.elim0
theorem val_main_v80_apply (i : S1024x4.Idx) :
    val_main_v80 (F := F) i = val_main_cst_9 (F := F) (idx_main_v80 i) := by
  unfold val_main_v80
  generalize val_main_cst_9 (F := F) = y
  exact broadcastInDim_apply _ bcast_S_S1024x4 y i (idx_main_v80 i) (fun a => a.elim0)

def val_main_v81 : (⟨S1024x4, .f32⟩ : BufTy).Contents (Elt F) :=
  addf (val_main_v80 (F := F)) (val_main_v79 (F := F) x0 x2 x5 x6 x7 x8 x9 x10)
theorem val_main_v81_apply (i : S1024x4.Idx) :
    val_main_v81 (F := F) x0 x2 x5 x6 x7 x8 x9 x10 i = FloatOps.addf (val_main_v80 (F := F) i) (val_main_v79 (F := F) x0 x2 x5 x6 x7 x8 x9 x10 i) := rfl

def val_main_cst_10 : (⟨S_, .f32⟩ : BufTy).Contents (Elt F) :=
  constant S_ .f32 0x3F800000#32
theorem val_main_cst_10_apply (i : S_.Idx) :
    val_main_cst_10 (F := F) i = FloatOps.ofBits .f32 0x3F800000#32 := rfl

def val_main_v82 : (⟨S1024x4, .f32⟩ : BufTy).Contents (Elt F) :=
  broadcastInDim S1024x4 ![] bcast_S_S1024x4 (val_main_cst_10 (F := F))
abbrev idx_main_v82 (i : S1024x4.Idx) : S_.Idx := fun a => a.elim0
theorem val_main_v82_apply (i : S1024x4.Idx) :
    val_main_v82 (F := F) i = val_main_cst_10 (F := F) (idx_main_v82 i) := by
  unfold val_main_v82
  generalize val_main_cst_10 (F := F) = y
  exact broadcastInDim_apply _ bcast_S_S1024x4 y i (idx_main_v82 i) (fun a => a.elim0)

def val_main_v83 : (⟨S1024x4, .f32⟩ : BufTy).Contents (Elt F) :=
  Host.divf (val_main_v82 (F := F)) (val_main_v81 (F := F) x0 x2 x5 x6 x7 x8 x9 x10)
theorem val_main_v83_apply (i : S1024x4.Idx) :
    val_main_v83 (F := F) x0 x2 x5 x6 x7 x8 x9 x10 i = FloatOps.hostDivf (val_main_v82 (F := F) i) (val_main_v81 (F := F) x0 x2 x5 x6 x7 x8 x9 x10 i) := rfl

def val_main_v84 : (⟨S1024x4x1, .f32⟩ : BufTy).Contents (Elt F) :=
  broadcastInDim S1024x4x1 ![0, 1] bcast_S1024x4_S1024x4x1_0_1 (val_main_v83 (F := F) x0 x2 x5 x6 x7 x8 x9 x10)
abbrev idx_main_v84 (i : S1024x4x1.Idx) : S1024x4.Idx := fun a => match a with
  | ⟨0, _⟩ => ⟨(i 0).val, (i 0).isLt⟩
  | ⟨1, _⟩ => ⟨(i 1).val, (i 1).isLt⟩
theorem val_main_v84_apply (i : S1024x4x1.Idx) :
    val_main_v84 (F := F) x0 x2 x5 x6 x7 x8 x9 x10 i = val_main_v83 (F := F) x0 x2 x5 x6 x7 x8 x9 x10 (idx_main_v84 i) := by
  unfold val_main_v84
  generalize val_main_v83 (F := F) x0 x2 x5 x6 x7 x8 x9 x10 = y
  exact broadcastInDim_apply _ bcast_S1024x4_S1024x4x1_0_1 y i (idx_main_v84 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)])

def val_main_v85 : (⟨S1024x4x512, .f32⟩ : BufTy).Contents (Elt F) :=
  broadcastInDim S1024x4x512 ![0, 1, 2] bcast_S1024x4x1_S1024x4x512_0_1_2 (val_main_v84 (F := F) x0 x2 x5 x6 x7 x8 x9 x10)
abbrev idx_main_v85 (i : S1024x4x512.Idx) : S1024x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v85_apply (i : S1024x4x512.Idx) :
    val_main_v85 (F := F) x0 x2 x5 x6 x7 x8 x9 x10 i = val_main_v84 (F := F) x0 x2 x5 x6 x7 x8 x9 x10 (idx_main_v85 i) := by
  unfold val_main_v85
  generalize val_main_v84 (F := F) x0 x2 x5 x6 x7 x8 x9 x10 = y
  exact broadcastInDim_apply _ bcast_S1024x4x1_S1024x4x512_0_1_2 y i (idx_main_v85 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

def val_main_v86 : (⟨S1024x4x512, .f32⟩ : BufTy).Contents (Elt F) :=
  mulf (val_main_v85 (F := F) x0 x2 x5 x6 x7 x8 x9 x10) (val_main_v77 (F := F) x0 x1 x2 x5 x6 x7 x8 x9 x10)
theorem val_main_v86_apply (i : S1024x4x512.Idx) :
    val_main_v86 (F := F) x0 x1 x2 x5 x6 x7 x8 x9 x10 i = FloatOps.mulf (val_main_v85 (F := F) x0 x2 x5 x6 x7 x8 x9 x10 i) (val_main_v77 (F := F) x0 x1 x2 x5 x6 x7 x8 x9 x10 i) := rfl

def val_main_cst_11 : (⟨S_, .f32⟩ : BufTy).Contents (Elt F) :=
  constant S_ .f32 0x3F800000#32
theorem val_main_cst_11_apply (i : S_.Idx) :
    val_main_cst_11 (F := F) i = FloatOps.ofBits .f32 0x3F800000#32 := rfl

def val_main_v87 : (⟨S1024x4x1, .f32⟩ : BufTy).Contents (Elt F) :=
  broadcastInDim S1024x4x1 ![] bcast_S_S1024x4x1 (val_main_cst_11 (F := F))
abbrev idx_main_v87 (i : S1024x4x1.Idx) : S_.Idx := fun a => a.elim0
theorem val_main_v87_apply (i : S1024x4x1.Idx) :
    val_main_v87 (F := F) i = val_main_cst_11 (F := F) (idx_main_v87 i) := by
  unfold val_main_v87
  generalize val_main_cst_11 (F := F) = y
  exact broadcastInDim_apply _ bcast_S_S1024x4x1 y i (idx_main_v87 i) (fun a => a.elim0)

def val_main_v88 : (⟨S1024x4x1, .f32⟩ : BufTy).Contents (Elt F) :=
  subf (val_main_v87 (F := F)) (val_main_v84 (F := F) x0 x2 x5 x6 x7 x8 x9 x10)
theorem val_main_v88_apply (i : S1024x4x1.Idx) :
    val_main_v88 (F := F) x0 x2 x5 x6 x7 x8 x9 x10 i = FloatOps.subf (val_main_v87 (F := F) i) (val_main_v84 (F := F) x0 x2 x5 x6 x7 x8 x9 x10 i) := rfl

def val_main_v89 : (⟨S1024x4x512, .f32⟩ : BufTy).Contents (Elt F) :=
  broadcastInDim S1024x4x512 ![0, 1, 2] bcast_S1024x4x1_S1024x4x512_0_1_2 (val_main_v88 (F := F) x0 x2 x5 x6 x7 x8 x9 x10)
abbrev idx_main_v89 (i : S1024x4x512.Idx) : S1024x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v89_apply (i : S1024x4x512.Idx) :
    val_main_v89 (F := F) x0 x2 x5 x6 x7 x8 x9 x10 i = val_main_v88 (F := F) x0 x2 x5 x6 x7 x8 x9 x10 (idx_main_v89 i) := by
  unfold val_main_v89
  generalize val_main_v88 (F := F) x0 x2 x5 x6 x7 x8 x9 x10 = y
  exact broadcastInDim_apply _ bcast_S1024x4x1_S1024x4x512_0_1_2 y i (idx_main_v89 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

def val_main_v90 : (⟨S1024x4x512, .f32⟩ : BufTy).Contents (Elt F) :=
  mulf (val_main_v89 (F := F) x0 x2 x5 x6 x7 x8 x9 x10) (x3)
theorem val_main_v90_apply (i : S1024x4x512.Idx) :
    val_main_v90 (F := F) x0 x2 x3 x5 x6 x7 x8 x9 x10 i = FloatOps.mulf (val_main_v89 (F := F) x0 x2 x5 x6 x7 x8 x9 x10 i) (x3 i) := rfl

def val_main_v91 : (⟨S1024x4x512, .f32⟩ : BufTy).Contents (Elt F) :=
  addf (val_main_v86 (F := F) x0 x1 x2 x5 x6 x7 x8 x9 x10) (val_main_v90 (F := F) x0 x2 x3 x5 x6 x7 x8 x9 x10)
theorem val_main_v91_apply (i : S1024x4x512.Idx) :
    val_main_v91 (F := F) x0 x1 x2 x3 x5 x6 x7 x8 x9 x10 i = FloatOps.addf (val_main_v86 (F := F) x0 x1 x2 x5 x6 x7 x8 x9 x10 i) (val_main_v90 (F := F) x0 x2 x3 x5 x6 x7 x8 x9 x10 i) := rfl

def val_main_cst_12 : (⟨S_, .f32⟩ : BufTy).Contents (Elt F) :=
  constant S_ .f32 0xFF800000#32
theorem val_main_cst_12_apply (i : S_.Idx) :
    val_main_cst_12 (F := F) i = FloatOps.ofBits .f32 0xFF800000#32 := rfl

def val_main_v92 : (⟨S1024x4, .f32⟩ : BufTy).Contents (Elt F) :=
  Host.reduce FloatOps.maximumf (val_main_v54 (F := F) x0 x2 x5 x6 x7 x8 x9 x10) (val_main_cst_12 (F := F)) reducesTo_S1024x4x3_S1024x4_d2 h_S_

def val_main_cst_13 : (⟨S_, .f32⟩ : BufTy).Contents (Elt F) :=
  constant S_ .f32 0xFF800000#32
theorem val_main_cst_13_apply (i : S_.Idx) :
    val_main_cst_13 (F := F) i = FloatOps.ofBits .f32 0xFF800000#32 := rfl

def val_main_v93 : (⟨S1024x4, .f32⟩ : BufTy).Contents (Elt F) :=
  broadcastInDim S1024x4 ![] bcast_S_S1024x4 (val_main_cst_13 (F := F))
abbrev idx_main_v93 (i : S1024x4.Idx) : S_.Idx := fun a => a.elim0
theorem val_main_v93_apply (i : S1024x4.Idx) :
    val_main_v93 (F := F) i = val_main_cst_13 (F := F) (idx_main_v93 i) := by
  unfold val_main_v93
  generalize val_main_cst_13 (F := F) = y
  exact broadcastInDim_apply _ bcast_S_S1024x4 y i (idx_main_v93 i) (fun a => a.elim0)

def val_main_v94 : (⟨S1024x4, .f32⟩ : BufTy).Contents (Elt F) :=
  maximumf (val_main_v93 (F := F)) (val_main_v92 (F := F) x0 x2 x5 x6 x7 x8 x9 x10)
theorem val_main_v94_apply (i : S1024x4.Idx) :
    val_main_v94 (F := F) x0 x2 x5 x6 x7 x8 x9 x10 i = FloatOps.maximumf (val_main_v93 (F := F) i) (val_main_v92 (F := F) x0 x2 x5 x6 x7 x8 x9 x10 i) := rfl

def val_main_v95 : (⟨S1024x4x1, .f32⟩ : BufTy).Contents (Elt F) :=
  broadcastInDim S1024x4x1 ![0, 1] bcast_S1024x4_S1024x4x1_0_1 (val_main_v94 (F := F) x0 x2 x5 x6 x7 x8 x9 x10)
abbrev idx_main_v95 (i : S1024x4x1.Idx) : S1024x4.Idx := fun a => match a with
  | ⟨0, _⟩ => ⟨(i 0).val, (i 0).isLt⟩
  | ⟨1, _⟩ => ⟨(i 1).val, (i 1).isLt⟩
theorem val_main_v95_apply (i : S1024x4x1.Idx) :
    val_main_v95 (F := F) x0 x2 x5 x6 x7 x8 x9 x10 i = val_main_v94 (F := F) x0 x2 x5 x6 x7 x8 x9 x10 (idx_main_v95 i) := by
  unfold val_main_v95
  generalize val_main_v94 (F := F) x0 x2 x5 x6 x7 x8 x9 x10 = y
  exact broadcastInDim_apply _ bcast_S1024x4_S1024x4x1_0_1 y i (idx_main_v95 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)])

def val_main_v96 : (⟨S1024x4x3, .f32⟩ : BufTy).Contents (Elt F) :=
  broadcastInDim S1024x4x3 ![0, 1, 2] bcast_S1024x4x1_S1024x4x3_0_1_2 (val_main_v95 (F := F) x0 x2 x5 x6 x7 x8 x9 x10)
abbrev idx_main_v96 (i : S1024x4x3.Idx) : S1024x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v96_apply (i : S1024x4x3.Idx) :
    val_main_v96 (F := F) x0 x2 x5 x6 x7 x8 x9 x10 i = val_main_v95 (F := F) x0 x2 x5 x6 x7 x8 x9 x10 (idx_main_v96 i) := by
  unfold val_main_v96
  generalize val_main_v95 (F := F) x0 x2 x5 x6 x7 x8 x9 x10 = y
  exact broadcastInDim_apply _ bcast_S1024x4x1_S1024x4x3_0_1_2 y i (idx_main_v96 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

def val_main_v97 : (⟨S1024x4x3, .f32⟩ : BufTy).Contents (Elt F) :=
  subf (val_main_v54 (F := F) x0 x2 x5 x6 x7 x8 x9 x10) (val_main_v96 (F := F) x0 x2 x5 x6 x7 x8 x9 x10)
theorem val_main_v97_apply (i : S1024x4x3.Idx) :
    val_main_v97 (F := F) x0 x2 x5 x6 x7 x8 x9 x10 i = FloatOps.subf (val_main_v54 (F := F) x0 x2 x5 x6 x7 x8 x9 x10 i) (val_main_v96 (F := F) x0 x2 x5 x6 x7 x8 x9 x10 i) := rfl

def val_main_v98 : (⟨S1024x4x3, .f32⟩ : BufTy).Contents (Elt F) :=
  Host.exp (val_main_v97 (F := F) x0 x2 x5 x6 x7 x8 x9 x10)
theorem val_main_v98_apply (i : S1024x4x3.Idx) :
    val_main_v98 (F := F) x0 x2 x5 x6 x7 x8 x9 x10 i = FloatOps.hostUnary .exp (val_main_v97 (F := F) x0 x2 x5 x6 x7 x8 x9 x10 i) := rfl

def val_main_cst_14 : (⟨S_, .f32⟩ : BufTy).Contents (Elt F) :=
  constant S_ .f32 0x00000000#32
theorem val_main_cst_14_apply (i : S_.Idx) :
    val_main_cst_14 (F := F) i = FloatOps.ofBits .f32 0x00000000#32 := rfl

def val_main_v99 : (⟨S1024x4, .f32⟩ : BufTy).Contents (Elt F) :=
  Host.reduceAdd (val_main_v98 (F := F) x0 x2 x5 x6 x7 x8 x9 x10) (val_main_cst_14 (F := F)) reducesTo_S1024x4x3_S1024x4_d2 h_S_
abbrev idx_main_v99 (i : S1024x4.Idx) (k : Fin 3) : S1024x4x3.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v99_apply (x0 : (⟨S1024x128, .f32⟩ : BufTy).Contents (Elt Ideal)) (x2 : (⟨S1024x256, .f32⟩ : BufTy).Contents (Elt Ideal)) (x5 : (⟨S768x128, .f32⟩ : BufTy).Contents (Elt Ideal)) (x6 : (⟨S768x256, .f32⟩ : BufTy).Contents (Elt Ideal)) (x7 x8 : (⟨S768, .f32⟩ : BufTy).Contents (Elt Ideal)) (x9 : (⟨S536x256, .f32⟩ : BufTy).Contents (Elt Ideal)) (x10 : (⟨S536, .f32⟩ : BufTy).Contents (Elt Ideal)) (i : S1024x4.Idx) :
    val_main_v99 (F := Ideal) x0 x2 x5 x6 x7 x8 x9 x10 i = (val_main_cst_14 (F := Ideal)) (Shape.Idx.first h_S_) + ∑ k : Fin 3, (val_main_v98 (F := Ideal) x0 x2 x5 x6 x7 x8 x9 x10) (idx_main_v99 i k) := by
  unfold val_main_v99
  generalize val_main_v98 (F := Ideal) x0 x2 x5 x6 x7 x8 x9 x10 = y0
  simp only [Host.reduceAdd, Ideal.hostReduceAdd_def]
  rw [Ideal.hostReduceAdd_single reducesTo_S1024x4x3_S1024x4_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_v100 : (⟨S1024x4x1, .f32⟩ : BufTy).Contents (Elt F) :=
  broadcastInDim S1024x4x1 ![0, 1] bcast_S1024x4_S1024x4x1_0_1 (val_main_v99 (F := F) x0 x2 x5 x6 x7 x8 x9 x10)
abbrev idx_main_v100 (i : S1024x4x1.Idx) : S1024x4.Idx := fun a => match a with
  | ⟨0, _⟩ => ⟨(i 0).val, (i 0).isLt⟩
  | ⟨1, _⟩ => ⟨(i 1).val, (i 1).isLt⟩
theorem val_main_v100_apply (i : S1024x4x1.Idx) :
    val_main_v100 (F := F) x0 x2 x5 x6 x7 x8 x9 x10 i = val_main_v99 (F := F) x0 x2 x5 x6 x7 x8 x9 x10 (idx_main_v100 i) := by
  unfold val_main_v100
  generalize val_main_v99 (F := F) x0 x2 x5 x6 x7 x8 x9 x10 = y
  exact broadcastInDim_apply _ bcast_S1024x4_S1024x4x1_0_1 y i (idx_main_v100 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)])

def val_main_v101 : (⟨S1024x4x3, .f32⟩ : BufTy).Contents (Elt F) :=
  broadcastInDim S1024x4x3 ![0, 1, 2] bcast_S1024x4x1_S1024x4x3_0_1_2 (val_main_v100 (F := F) x0 x2 x5 x6 x7 x8 x9 x10)
abbrev idx_main_v101 (i : S1024x4x3.Idx) : S1024x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v101_apply (i : S1024x4x3.Idx) :
    val_main_v101 (F := F) x0 x2 x5 x6 x7 x8 x9 x10 i = val_main_v100 (F := F) x0 x2 x5 x6 x7 x8 x9 x10 (idx_main_v101 i) := by
  unfold val_main_v101
  generalize val_main_v100 (F := F) x0 x2 x5 x6 x7 x8 x9 x10 = y
  exact broadcastInDim_apply _ bcast_S1024x4x1_S1024x4x3_0_1_2 y i (idx_main_v101 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

def val_main_v102 : (⟨S1024x4x3, .f32⟩ : BufTy).Contents (Elt F) :=
  Host.divf (val_main_v98 (F := F) x0 x2 x5 x6 x7 x8 x9 x10) (val_main_v101 (F := F) x0 x2 x5 x6 x7 x8 x9 x10)
theorem val_main_v102_apply (i : S1024x4x3.Idx) :
    val_main_v102 (F := F) x0 x2 x5 x6 x7 x8 x9 x10 i = FloatOps.hostDivf (val_main_v98 (F := F) x0 x2 x5 x6 x7 x8 x9 x10 i) (val_main_v101 (F := F) x0 x2 x5 x6 x7 x8 x9 x10 i) := rfl

def val_main_v103 : (⟨S1024x4x1, .f32⟩ : BufTy).Contents (Elt F) :=
  extractStridedSlice S1024x4x1 ![0, 0, 0] (val_main_v102 (F := F) x0 x2 x5 x6 x7 x8 x9 x10) slices_S1024x4x3_S1024x4x1_0_0_0
abbrev idx_main_v103 (i : S1024x4x1.Idx) : S1024x4x3.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 3; omega⟩
theorem val_main_v103_apply (i : S1024x4x1.Idx) :
    val_main_v103 (F := F) x0 x2 x5 x6 x7 x8 x9 x10 i = val_main_v102 (F := F) x0 x2 x5 x6 x7 x8 x9 x10 (idx_main_v103 i) := by
  unfold val_main_v103
  generalize val_main_v102 (F := F) x0 x2 x5 x6 x7 x8 x9 x10 = y
  exact extractStridedSlice_apply ![0, 0, 0] y slices_S1024x4x3_S1024x4x1_0_0_0 i (idx_main_v103 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_call3_v0 : (⟨S1024x4x511, .f32⟩ : BufTy).Contents (Elt F) :=
  extractStridedSlice S1024x4x511 ![0, 0, 1] (val_main_v91 (F := F) x0 x1 x2 x3 x5 x6 x7 x8 x9 x10) slices_S1024x4x512_S1024x4x511_0_0_1
abbrev idx_main_call3_v0 (i : S1024x4x511.Idx) : S1024x4x512.Idx := fun a => match a with
  | ⟨0, _⟩ => ⟨(i 0).val, (i 0).isLt⟩
  | ⟨1, _⟩ => ⟨(i 1).val, (i 1).isLt⟩
  | ⟨2, _⟩ => ⟨1 + (i 2).val, by have h2 : (i 2).val < 511 := (i 2).isLt; show 1 + (i 2).val < 512; omega⟩
theorem val_main_call3_v0_apply (i : S1024x4x511.Idx) :
    val_main_call3_v0 (F := F) x0 x1 x2 x3 x5 x6 x7 x8 x9 x10 i = val_main_v91 (F := F) x0 x1 x2 x3 x5 x6 x7 x8 x9 x10 (idx_main_call3_v0 i) := by
  unfold val_main_call3_v0
  generalize val_main_v91 (F := F) x0 x1 x2 x3 x5 x6 x7 x8 x9 x10 = y
  exact extractStridedSlice_apply ![0, 0, 1] y slices_S1024x4x512_S1024x4x511_0_0_1 i (idx_main_call3_v0 i) (fun a => match a with
    | ⟨0, _⟩ => by show (i 0).val = 0 + (i 0).val; omega
    | ⟨1, _⟩ => by show (i 1).val = 0 + (i 1).val; omega
    | ⟨2, _⟩ => by show 1 + (i 2).val = 1 + (i 2).val; omega)

def val_main_call3_v1 : (⟨S1024x4x1, .f32⟩ : BufTy).Contents (Elt F) :=
  extractStridedSlice S1024x4x1 ![0, 0, 0] (val_main_v91 (F := F) x0 x1 x2 x3 x5 x6 x7 x8 x9 x10) slices_S1024x4x512_S1024x4x1_0_0_0
abbrev idx_main_call3_v1 (i : S1024x4x1.Idx) : S1024x4x512.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 512; omega⟩
theorem val_main_call3_v1_apply (i : S1024x4x1.Idx) :
    val_main_call3_v1 (F := F) x0 x1 x2 x3 x5 x6 x7 x8 x9 x10 i = val_main_v91 (F := F) x0 x1 x2 x3 x5 x6 x7 x8 x9 x10 (idx_main_call3_v1 i) := by
  unfold val_main_call3_v1
  generalize val_main_v91 (F := F) x0 x1 x2 x3 x5 x6 x7 x8 x9 x10 = y
  exact extractStridedSlice_apply ![0, 0, 0] y slices_S1024x4x512_S1024x4x1_0_0_0 i (idx_main_call3_v1 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v104 : (⟨S1024x4x512, .f32⟩ : BufTy).Contents (Elt F) :=
  concatenate S1024x4x512 2 [⟨S1024x4x511, (val_main_call3_v0 (F := F) x0 x1 x2 x3 x5 x6 x7 x8 x9 x10)⟩, ⟨S1024x4x1, (val_main_call3_v1 (F := F) x0 x1 x2 x3 x5 x6 x7 x8 x9 x10)⟩] concatenates_S1024x4x511_S1024x4x1_S1024x4x512_d2

def val_main_v105 : (⟨S1024x4x512, .f32⟩ : BufTy).Contents (Elt F) :=
  broadcastInDim S1024x4x512 ![0, 1, 2] bcast_S1024x4x1_S1024x4x512_0_1_2 (val_main_v103 (F := F) x0 x2 x5 x6 x7 x8 x9 x10)
abbrev idx_main_v105 (i : S1024x4x512.Idx) : S1024x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v105_apply (i : S1024x4x512.Idx) :
    val_main_v105 (F := F) x0 x2 x5 x6 x7 x8 x9 x10 i = val_main_v103 (F := F) x0 x2 x5 x6 x7 x8 x9 x10 (idx_main_v105 i) := by
  unfold val_main_v105
  generalize val_main_v103 (F := F) x0 x2 x5 x6 x7 x8 x9 x10 = y
  exact broadcastInDim_apply _ bcast_S1024x4x1_S1024x4x512_0_1_2 y i (idx_main_v105 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

def val_main_v106 : (⟨S1024x4x512, .f32⟩ : BufTy).Contents (Elt F) :=
  mulf (val_main_v105 (F := F) x0 x2 x5 x6 x7 x8 x9 x10) (val_main_v104 (F := F) x0 x1 x2 x3 x5 x6 x7 x8 x9 x10)
theorem val_main_v106_apply (i : S1024x4x512.Idx) :
    val_main_v106 (F := F) x0 x1 x2 x3 x5 x6 x7 x8 x9 x10 i = FloatOps.mulf (val_main_v105 (F := F) x0 x2 x5 x6 x7 x8 x9 x10 i) (val_main_v104 (F := F) x0 x1 x2 x3 x5 x6 x7 x8 x9 x10 i) := rfl

def val_main_v107 : (⟨S1024x4x1, .f32⟩ : BufTy).Contents (Elt F) :=
  extractStridedSlice S1024x4x1 ![0, 0, 1] (val_main_v102 (F := F) x0 x2 x5 x6 x7 x8 x9 x10) slices_S1024x4x3_S1024x4x1_0_0_1
abbrev idx_main_v107 (i : S1024x4x1.Idx) : S1024x4x3.Idx := fun a => match a with
  | ⟨0, _⟩ => ⟨(i 0).val, (i 0).isLt⟩
  | ⟨1, _⟩ => ⟨(i 1).val, (i 1).isLt⟩
  | ⟨2, _⟩ => ⟨1 + (i 2).val, by have h2 : (i 2).val < 1 := (i 2).isLt; show 1 + (i 2).val < 3; omega⟩
theorem val_main_v107_apply (i : S1024x4x1.Idx) :
    val_main_v107 (F := F) x0 x2 x5 x6 x7 x8 x9 x10 i = val_main_v102 (F := F) x0 x2 x5 x6 x7 x8 x9 x10 (idx_main_v107 i) := by
  unfold val_main_v107
  generalize val_main_v102 (F := F) x0 x2 x5 x6 x7 x8 x9 x10 = y
  exact extractStridedSlice_apply ![0, 0, 1] y slices_S1024x4x3_S1024x4x1_0_0_1 i (idx_main_v107 i) (fun a => match a with
    | ⟨0, _⟩ => by show (i 0).val = 0 + (i 0).val; omega
    | ⟨1, _⟩ => by show (i 1).val = 0 + (i 1).val; omega
    | ⟨2, _⟩ => by show 1 + (i 2).val = 1 + (i 2).val; omega)

def val_main_v108 : (⟨S1024x4x512, .f32⟩ : BufTy).Contents (Elt F) :=
  broadcastInDim S1024x4x512 ![0, 1, 2] bcast_S1024x4x1_S1024x4x512_0_1_2 (val_main_v107 (F := F) x0 x2 x5 x6 x7 x8 x9 x10)
abbrev idx_main_v108 (i : S1024x4x512.Idx) : S1024x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v108_apply (i : S1024x4x512.Idx) :
    val_main_v108 (F := F) x0 x2 x5 x6 x7 x8 x9 x10 i = val_main_v107 (F := F) x0 x2 x5 x6 x7 x8 x9 x10 (idx_main_v108 i) := by
  unfold val_main_v108
  generalize val_main_v107 (F := F) x0 x2 x5 x6 x7 x8 x9 x10 = y
  exact broadcastInDim_apply _ bcast_S1024x4x1_S1024x4x512_0_1_2 y i (idx_main_v108 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

def val_main_v109 : (⟨S1024x4x512, .f32⟩ : BufTy).Contents (Elt F) :=
  mulf (val_main_v108 (F := F) x0 x2 x5 x6 x7 x8 x9 x10) (val_main_v91 (F := F) x0 x1 x2 x3 x5 x6 x7 x8 x9 x10)
theorem val_main_v109_apply (i : S1024x4x512.Idx) :
    val_main_v109 (F := F) x0 x1 x2 x3 x5 x6 x7 x8 x9 x10 i = FloatOps.mulf (val_main_v108 (F := F) x0 x2 x5 x6 x7 x8 x9 x10 i) (val_main_v91 (F := F) x0 x1 x2 x3 x5 x6 x7 x8 x9 x10 i) := rfl

def val_main_v110 : (⟨S1024x4x512, .f32⟩ : BufTy).Contents (Elt F) :=
  addf (val_main_v106 (F := F) x0 x1 x2 x3 x5 x6 x7 x8 x9 x10) (val_main_v109 (F := F) x0 x1 x2 x3 x5 x6 x7 x8 x9 x10)
theorem val_main_v110_apply (i : S1024x4x512.Idx) :
    val_main_v110 (F := F) x0 x1 x2 x3 x5 x6 x7 x8 x9 x10 i = FloatOps.addf (val_main_v106 (F := F) x0 x1 x2 x3 x5 x6 x7 x8 x9 x10 i) (val_main_v109 (F := F) x0 x1 x2 x3 x5 x6 x7 x8 x9 x10 i) := rfl

def val_main_v111 : (⟨S1024x4x1, .f32⟩ : BufTy).Contents (Elt F) :=
  extractStridedSlice S1024x4x1 ![0, 0, 2] (val_main_v102 (F := F) x0 x2 x5 x6 x7 x8 x9 x10) slices_S1024x4x3_S1024x4x1_0_0_2
abbrev idx_main_v111 (i : S1024x4x1.Idx) : S1024x4x3.Idx := fun a => match a with
  | ⟨0, _⟩ => ⟨(i 0).val, (i 0).isLt⟩
  | ⟨1, _⟩ => ⟨(i 1).val, (i 1).isLt⟩
  | ⟨2, _⟩ => ⟨2 + (i 2).val, by have h2 : (i 2).val < 1 := (i 2).isLt; show 2 + (i 2).val < 3; omega⟩
theorem val_main_v111_apply (i : S1024x4x1.Idx) :
    val_main_v111 (F := F) x0 x2 x5 x6 x7 x8 x9 x10 i = val_main_v102 (F := F) x0 x2 x5 x6 x7 x8 x9 x10 (idx_main_v111 i) := by
  unfold val_main_v111
  generalize val_main_v102 (F := F) x0 x2 x5 x6 x7 x8 x9 x10 = y
  exact extractStridedSlice_apply ![0, 0, 2] y slices_S1024x4x3_S1024x4x1_0_0_2 i (idx_main_v111 i) (fun a => match a with
    | ⟨0, _⟩ => by show (i 0).val = 0 + (i 0).val; omega
    | ⟨1, _⟩ => by show (i 1).val = 0 + (i 1).val; omega
    | ⟨2, _⟩ => by show 2 + (i 2).val = 2 + (i 2).val; omega)

def val_main_call4_v0 : (⟨S1024x4x1, .f32⟩ : BufTy).Contents (Elt F) :=
  extractStridedSlice S1024x4x1 ![0, 0, 511] (val_main_v91 (F := F) x0 x1 x2 x3 x5 x6 x7 x8 x9 x10) slices_S1024x4x512_S1024x4x1_0_0_511
abbrev idx_main_call4_v0 (i : S1024x4x1.Idx) : S1024x4x512.Idx := fun a => match a with
  | ⟨0, _⟩ => ⟨(i 0).val, (i 0).isLt⟩
  | ⟨1, _⟩ => ⟨(i 1).val, (i 1).isLt⟩
  | ⟨2, _⟩ => ⟨511 + (i 2).val, by have h2 : (i 2).val < 1 := (i 2).isLt; show 511 + (i 2).val < 512; omega⟩
theorem val_main_call4_v0_apply (i : S1024x4x1.Idx) :
    val_main_call4_v0 (F := F) x0 x1 x2 x3 x5 x6 x7 x8 x9 x10 i = val_main_v91 (F := F) x0 x1 x2 x3 x5 x6 x7 x8 x9 x10 (idx_main_call4_v0 i) := by
  unfold val_main_call4_v0
  generalize val_main_v91 (F := F) x0 x1 x2 x3 x5 x6 x7 x8 x9 x10 = y
  exact extractStridedSlice_apply ![0, 0, 511] y slices_S1024x4x512_S1024x4x1_0_0_511 i (idx_main_call4_v0 i) (fun a => match a with
    | ⟨0, _⟩ => by show (i 0).val = 0 + (i 0).val; omega
    | ⟨1, _⟩ => by show (i 1).val = 0 + (i 1).val; omega
    | ⟨2, _⟩ => by show 511 + (i 2).val = 511 + (i 2).val; omega)

def val_main_call4_v1 : (⟨S1024x4x511, .f32⟩ : BufTy).Contents (Elt F) :=
  extractStridedSlice S1024x4x511 ![0, 0, 0] (val_main_v91 (F := F) x0 x1 x2 x3 x5 x6 x7 x8 x9 x10) slices_S1024x4x512_S1024x4x511_0_0_0
abbrev idx_main_call4_v1 (i : S1024x4x511.Idx) : S1024x4x512.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 511 := (i 2).isLt; show (i 2).val < 512; omega⟩
theorem val_main_call4_v1_apply (i : S1024x4x511.Idx) :
    val_main_call4_v1 (F := F) x0 x1 x2 x3 x5 x6 x7 x8 x9 x10 i = val_main_v91 (F := F) x0 x1 x2 x3 x5 x6 x7 x8 x9 x10 (idx_main_call4_v1 i) := by
  unfold val_main_call4_v1
  generalize val_main_v91 (F := F) x0 x1 x2 x3 x5 x6 x7 x8 x9 x10 = y
  exact extractStridedSlice_apply ![0, 0, 0] y slices_S1024x4x512_S1024x4x511_0_0_0 i (idx_main_call4_v1 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v112 : (⟨S1024x4x512, .f32⟩ : BufTy).Contents (Elt F) :=
  concatenate S1024x4x512 2 [⟨S1024x4x1, (val_main_call4_v0 (F := F) x0 x1 x2 x3 x5 x6 x7 x8 x9 x10)⟩, ⟨S1024x4x511, (val_main_call4_v1 (F := F) x0 x1 x2 x3 x5 x6 x7 x8 x9 x10)⟩] concatenates_S1024x4x1_S1024x4x511_S1024x4x512_d2

def val_main_v113 : (⟨S1024x4x512, .f32⟩ : BufTy).Contents (Elt F) :=
  broadcastInDim S1024x4x512 ![0, 1, 2] bcast_S1024x4x1_S1024x4x512_0_1_2 (val_main_v111 (F := F) x0 x2 x5 x6 x7 x8 x9 x10)
abbrev idx_main_v113 (i : S1024x4x512.Idx) : S1024x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v113_apply (i : S1024x4x512.Idx) :
    val_main_v113 (F := F) x0 x2 x5 x6 x7 x8 x9 x10 i = val_main_v111 (F := F) x0 x2 x5 x6 x7 x8 x9 x10 (idx_main_v113 i) := by
  unfold val_main_v113
  generalize val_main_v111 (F := F) x0 x2 x5 x6 x7 x8 x9 x10 = y
  exact broadcastInDim_apply _ bcast_S1024x4x1_S1024x4x512_0_1_2 y i (idx_main_v113 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

def val_main_v114 : (⟨S1024x4x512, .f32⟩ : BufTy).Contents (Elt F) :=
  mulf (val_main_v113 (F := F) x0 x2 x5 x6 x7 x8 x9 x10) (val_main_v112 (F := F) x0 x1 x2 x3 x5 x6 x7 x8 x9 x10)
theorem val_main_v114_apply (i : S1024x4x512.Idx) :
    val_main_v114 (F := F) x0 x1 x2 x3 x5 x6 x7 x8 x9 x10 i = FloatOps.mulf (val_main_v113 (F := F) x0 x2 x5 x6 x7 x8 x9 x10 i) (val_main_v112 (F := F) x0 x1 x2 x3 x5 x6 x7 x8 x9 x10 i) := rfl

def val_main_v115 : (⟨S1024x4x512, .f32⟩ : BufTy).Contents (Elt F) :=
  addf (val_main_v110 (F := F) x0 x1 x2 x3 x5 x6 x7 x8 x9 x10) (val_main_v114 (F := F) x0 x1 x2 x3 x5 x6 x7 x8 x9 x10)
theorem val_main_v115_apply (i : S1024x4x512.Idx) :
    val_main_v115 (F := F) x0 x1 x2 x3 x5 x6 x7 x8 x9 x10 i = FloatOps.addf (val_main_v110 (F := F) x0 x1 x2 x3 x5 x6 x7 x8 x9 x10 i) (val_main_v114 (F := F) x0 x1 x2 x3 x5 x6 x7 x8 x9 x10 i) := rfl

def val_main_call5_cst : (⟨S_, .f32⟩ : BufTy).Contents (Elt F) :=
  constant S_ .f32 0x00000000#32
theorem val_main_call5_cst_apply (i : S_.Idx) :
    val_main_call5_cst (F := F) i = FloatOps.ofBits .f32 0x00000000#32 := rfl

def val_main_call5_v0 : (⟨S1024x4, .f32⟩ : BufTy).Contents (Elt F) :=
  broadcastInDim S1024x4 ![] bcast_S_S1024x4 (val_main_call5_cst (F := F))
abbrev idx_main_call5_v0 (i : S1024x4.Idx) : S_.Idx := fun a => a.elim0
theorem val_main_call5_v0_apply (i : S1024x4.Idx) :
    val_main_call5_v0 (F := F) i = val_main_call5_cst (F := F) (idx_main_call5_v0 i) := by
  unfold val_main_call5_v0
  generalize val_main_call5_cst (F := F) = y
  exact broadcastInDim_apply _ bcast_S_S1024x4 y i (idx_main_call5_v0 i) (fun a => a.elim0)

def val_main_call5_v1 : (⟨S1024x4, .f32⟩ : BufTy).Contents (Elt F) :=
  maximumf (val_main_v56 (F := F) x0 x2 x5 x6 x7 x8 x9 x10) (val_main_call5_v0 (F := F))
theorem val_main_call5_v1_apply (i : S1024x4.Idx) :
    val_main_call5_v1 (F := F) x0 x2 x5 x6 x7 x8 x9 x10 i = FloatOps.maximumf (val_main_v56 (F := F) x0 x2 x5 x6 x7 x8 x9 x10 i) (val_main_call5_v0 (F := F) i) := rfl

def val_main_call5_v2 : (⟨S1024x4, .f32⟩ : BufTy).Contents (Elt F) :=
  broadcastInDim S1024x4 ![] bcast_S_S1024x4 (val_main_call5_cst (F := F))
abbrev idx_main_call5_v2 (i : S1024x4.Idx) : S_.Idx := fun a => a.elim0
theorem val_main_call5_v2_apply (i : S1024x4.Idx) :
    val_main_call5_v2 (F := F) i = val_main_call5_cst (F := F) (idx_main_call5_v2 i) := by
  unfold val_main_call5_v2
  generalize val_main_call5_cst (F := F) = y
  exact broadcastInDim_apply _ bcast_S_S1024x4 y i (idx_main_call5_v2 i) (fun a => a.elim0)

def val_main_call5_v3 : (⟨S1024x4, .f32⟩ : BufTy).Contents (Elt F) :=
  subf (val_main_v56 (F := F) x0 x2 x5 x6 x7 x8 x9 x10) (val_main_call5_v2 (F := F))
theorem val_main_call5_v3_apply (i : S1024x4.Idx) :
    val_main_call5_v3 (F := F) x0 x2 x5 x6 x7 x8 x9 x10 i = FloatOps.subf (val_main_v56 (F := F) x0 x2 x5 x6 x7 x8 x9 x10 i) (val_main_call5_v2 (F := F) i) := rfl

def val_main_call5_v4 : (⟨S1024x4, .i1⟩ : BufTy).Contents (Elt F) :=
  cmpf .une (val_main_call5_v3 (F := F) x0 x2 x5 x6 x7 x8 x9 x10) (val_main_call5_v3 (F := F) x0 x2 x5 x6 x7 x8 x9 x10)
theorem val_main_call5_v4_apply (i : S1024x4.Idx) :
    val_main_call5_v4 (F := F) x0 x2 x5 x6 x7 x8 x9 x10 i = FloatOps.cmpf .une (val_main_call5_v3 (F := F) x0 x2 x5 x6 x7 x8 x9 x10 i) (val_main_call5_v3 (F := F) x0 x2 x5 x6 x7 x8 x9 x10 i) := rfl

def val_main_call5_v5 : (⟨S1024x4, .f32⟩ : BufTy).Contents (Elt F) :=
  broadcastInDim S1024x4 ![] bcast_S_S1024x4 (val_main_call5_cst (F := F))
abbrev idx_main_call5_v5 (i : S1024x4.Idx) : S_.Idx := fun a => a.elim0
theorem val_main_call5_v5_apply (i : S1024x4.Idx) :
    val_main_call5_v5 (F := F) i = val_main_call5_cst (F := F) (idx_main_call5_v5 i) := by
  unfold val_main_call5_v5
  generalize val_main_call5_cst (F := F) = y
  exact broadcastInDim_apply _ bcast_S_S1024x4 y i (idx_main_call5_v5 i) (fun a => a.elim0)

def val_main_call5_v6 : (⟨S1024x4, .f32⟩ : BufTy).Contents (Elt F) :=
  addf (val_main_v56 (F := F) x0 x2 x5 x6 x7 x8 x9 x10) (val_main_call5_v5 (F := F))
theorem val_main_call5_v6_apply (i : S1024x4.Idx) :
    val_main_call5_v6 (F := F) x0 x2 x5 x6 x7 x8 x9 x10 i = FloatOps.addf (val_main_v56 (F := F) x0 x2 x5 x6 x7 x8 x9 x10 i) (val_main_call5_v5 (F := F) i) := rfl

def val_main_call5_v7 : (⟨S1024x4, .f32⟩ : BufTy).Contents (Elt F) :=
  Host.absf (val_main_call5_v3 (F := F) x0 x2 x5 x6 x7 x8 x9 x10)
theorem val_main_call5_v7_apply (i : S1024x4.Idx) :
    val_main_call5_v7 (F := F) x0 x2 x5 x6 x7 x8 x9 x10 i = FloatOps.hostAbsf (val_main_call5_v3 (F := F) x0 x2 x5 x6 x7 x8 x9 x10 i) := rfl

def val_main_call5_v8 : (⟨S1024x4, .f32⟩ : BufTy).Contents (Elt F) :=
  Host.negf (val_main_call5_v7 (F := F) x0 x2 x5 x6 x7 x8 x9 x10)
theorem val_main_call5_v8_apply (i : S1024x4.Idx) :
    val_main_call5_v8 (F := F) x0 x2 x5 x6 x7 x8 x9 x10 i = FloatOps.hostNegf (val_main_call5_v7 (F := F) x0 x2 x5 x6 x7 x8 x9 x10 i) := rfl

def val_main_call5_v9 : (⟨S1024x4, .f32⟩ : BufTy).Contents (Elt F) :=
  Host.exp (val_main_call5_v8 (F := F) x0 x2 x5 x6 x7 x8 x9 x10)
theorem val_main_call5_v9_apply (i : S1024x4.Idx) :
    val_main_call5_v9 (F := F) x0 x2 x5 x6 x7 x8 x9 x10 i = FloatOps.hostUnary .exp (val_main_call5_v8 (F := F) x0 x2 x5 x6 x7 x8 x9 x10 i) := rfl

def val_main_call5_v10 : (⟨S1024x4, .f32⟩ : BufTy).Contents (Elt F) :=
  Host.log1p (val_main_call5_v9 (F := F) x0 x2 x5 x6 x7 x8 x9 x10)
theorem val_main_call5_v10_apply (i : S1024x4.Idx) :
    val_main_call5_v10 (F := F) x0 x2 x5 x6 x7 x8 x9 x10 i = FloatOps.hostUnary .log1p (val_main_call5_v9 (F := F) x0 x2 x5 x6 x7 x8 x9 x10 i) := rfl

def val_main_call5_v11 : (⟨S1024x4, .f32⟩ : BufTy).Contents (Elt F) :=
  addf (val_main_call5_v1 (F := F) x0 x2 x5 x6 x7 x8 x9 x10) (val_main_call5_v10 (F := F) x0 x2 x5 x6 x7 x8 x9 x10)
theorem val_main_call5_v11_apply (i : S1024x4.Idx) :
    val_main_call5_v11 (F := F) x0 x2 x5 x6 x7 x8 x9 x10 i = FloatOps.addf (val_main_call5_v1 (F := F) x0 x2 x5 x6 x7 x8 x9 x10 i) (val_main_call5_v10 (F := F) x0 x2 x5 x6 x7 x8 x9 x10 i) := rfl

def val_main_v116 : (⟨S1024x4, .f32⟩ : BufTy).Contents (Elt F) :=
  select (val_main_call5_v4 (F := F) x0 x2 x5 x6 x7 x8 x9 x10) (val_main_call5_v6 (F := F) x0 x2 x5 x6 x7 x8 x9 x10) (val_main_call5_v11 (F := F) x0 x2 x5 x6 x7 x8 x9 x10)
theorem val_main_v116_apply (i : S1024x4.Idx) :
    val_main_v116 (F := F) x0 x2 x5 x6 x7 x8 x9 x10 i = Scalar.select (val_main_call5_v4 (F := F) x0 x2 x5 x6 x7 x8 x9 x10 i) (val_main_call5_v6 (F := F) x0 x2 x5 x6 x7 x8 x9 x10 i) (val_main_call5_v11 (F := F) x0 x2 x5 x6 x7 x8 x9 x10 i) := rfl

def val_main_cst_15 : (⟨S_, .f32⟩ : BufTy).Contents (Elt F) :=
  constant S_ .f32 0x3F800000#32
theorem val_main_cst_15_apply (i : S_.Idx) :
    val_main_cst_15 (F := F) i = FloatOps.ofBits .f32 0x3F800000#32 := rfl

def val_main_v117 : (⟨S1024x4, .f32⟩ : BufTy).Contents (Elt F) :=
  broadcastInDim S1024x4 ![] bcast_S_S1024x4 (val_main_cst_15 (F := F))
abbrev idx_main_v117 (i : S1024x4.Idx) : S_.Idx := fun a => a.elim0
theorem val_main_v117_apply (i : S1024x4.Idx) :
    val_main_v117 (F := F) i = val_main_cst_15 (F := F) (idx_main_v117 i) := by
  unfold val_main_v117
  generalize val_main_cst_15 (F := F) = y
  exact broadcastInDim_apply _ bcast_S_S1024x4 y i (idx_main_v117 i) (fun a => a.elim0)

def val_main_v118 : (⟨S1024x4, .f32⟩ : BufTy).Contents (Elt F) :=
  addf (val_main_v117 (F := F)) (val_main_v116 (F := F) x0 x2 x5 x6 x7 x8 x9 x10)
theorem val_main_v118_apply (i : S1024x4.Idx) :
    val_main_v118 (F := F) x0 x2 x5 x6 x7 x8 x9 x10 i = FloatOps.addf (val_main_v117 (F := F) i) (val_main_v116 (F := F) x0 x2 x5 x6 x7 x8 x9 x10 i) := rfl

def val_main_cst_16 : (⟨S_, .f32⟩ : BufTy).Contents (Elt F) :=
  constant S_ .f32 0x2B8CBCCC#32
theorem val_main_cst_16_apply (i : S_.Idx) :
    val_main_cst_16 (F := F) i = FloatOps.ofBits .f32 0x2B8CBCCC#32 := rfl

def val_main_v119 : (⟨S1024x4x512, .f32⟩ : BufTy).Contents (Elt F) :=
  broadcastInDim S1024x4x512 ![] bcast_S_S1024x4x512 (val_main_cst_16 (F := F))
abbrev idx_main_v119 (i : S1024x4x512.Idx) : S_.Idx := fun a => a.elim0
theorem val_main_v119_apply (i : S1024x4x512.Idx) :
    val_main_v119 (F := F) i = val_main_cst_16 (F := F) (idx_main_v119 i) := by
  unfold val_main_v119
  generalize val_main_cst_16 (F := F) = y
  exact broadcastInDim_apply _ bcast_S_S1024x4x512 y i (idx_main_v119 i) (fun a => a.elim0)

def val_main_v120 : (⟨S1024x4x512, .f32⟩ : BufTy).Contents (Elt F) :=
  addf (val_main_v115 (F := F) x0 x1 x2 x3 x5 x6 x7 x8 x9 x10) (val_main_v119 (F := F))
theorem val_main_v120_apply (i : S1024x4x512.Idx) :
    val_main_v120 (F := F) x0 x1 x2 x3 x5 x6 x7 x8 x9 x10 i = FloatOps.addf (val_main_v115 (F := F) x0 x1 x2 x3 x5 x6 x7 x8 x9 x10 i) (val_main_v119 (F := F) i) := rfl

def val_main_v121 : (⟨S1024x4x1, .f32⟩ : BufTy).Contents (Elt F) :=
  broadcastInDim S1024x4x1 ![0, 1] bcast_S1024x4_S1024x4x1_0_1 (val_main_v118 (F := F) x0 x2 x5 x6 x7 x8 x9 x10)
abbrev idx_main_v121 (i : S1024x4x1.Idx) : S1024x4.Idx := fun a => match a with
  | ⟨0, _⟩ => ⟨(i 0).val, (i 0).isLt⟩
  | ⟨1, _⟩ => ⟨(i 1).val, (i 1).isLt⟩
theorem val_main_v121_apply (i : S1024x4x1.Idx) :
    val_main_v121 (F := F) x0 x2 x5 x6 x7 x8 x9 x10 i = val_main_v118 (F := F) x0 x2 x5 x6 x7 x8 x9 x10 (idx_main_v121 i) := by
  unfold val_main_v121
  generalize val_main_v118 (F := F) x0 x2 x5 x6 x7 x8 x9 x10 = y
  exact broadcastInDim_apply _ bcast_S1024x4_S1024x4x1_0_1 y i (idx_main_v121 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)])

def val_main_v122 : (⟨S1024x4x512, .f32⟩ : BufTy).Contents (Elt F) :=
  broadcastInDim S1024x4x512 ![0, 1, 2] bcast_S1024x4x1_S1024x4x512_0_1_2 (val_main_v121 (F := F) x0 x2 x5 x6 x7 x8 x9 x10)
abbrev idx_main_v122 (i : S1024x4x512.Idx) : S1024x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v122_apply (i : S1024x4x512.Idx) :
    val_main_v122 (F := F) x0 x2 x5 x6 x7 x8 x9 x10 i = val_main_v121 (F := F) x0 x2 x5 x6 x7 x8 x9 x10 (idx_main_v122 i) := by
  unfold val_main_v122
  generalize val_main_v121 (F := F) x0 x2 x5 x6 x7 x8 x9 x10 = y
  exact broadcastInDim_apply _ bcast_S1024x4x1_S1024x4x512_0_1_2 y i (idx_main_v122 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

def val_main_v123 : (⟨S1024x4x512, .f32⟩ : BufTy).Contents (Elt F) :=
  Host.powf (val_main_v120 (F := F) x0 x1 x2 x3 x5 x6 x7 x8 x9 x10) (val_main_v122 (F := F) x0 x2 x5 x6 x7 x8 x9 x10)
theorem val_main_v123_apply (i : S1024x4x512.Idx) :
    val_main_v123 (F := F) x0 x1 x2 x3 x5 x6 x7 x8 x9 x10 i = FloatOps.hostPowf (val_main_v120 (F := F) x0 x1 x2 x3 x5 x6 x7 x8 x9 x10 i) (val_main_v122 (F := F) x0 x2 x5 x6 x7 x8 x9 x10 i) := rfl

def val_main_cst_17 : (⟨S_, .f32⟩ : BufTy).Contents (Elt F) :=
  constant S_ .f32 0x00000000#32
theorem val_main_cst_17_apply (i : S_.Idx) :
    val_main_cst_17 (F := F) i = FloatOps.ofBits .f32 0x00000000#32 := rfl

def val_main_v124 : (⟨S1024x4, .f32⟩ : BufTy).Contents (Elt F) :=
  Host.reduceAdd (val_main_v123 (F := F) x0 x1 x2 x3 x5 x6 x7 x8 x9 x10) (val_main_cst_17 (F := F)) reducesTo_S1024x4x512_S1024x4_d2 h_S_
abbrev idx_main_v124 (i : S1024x4.Idx) (k : Fin 512) : S1024x4x512.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v124_apply (x0 : (⟨S1024x128, .f32⟩ : BufTy).Contents (Elt Ideal)) (x1 : (⟨S1024x512x128, .f32⟩ : BufTy).Contents (Elt Ideal)) (x2 : (⟨S1024x256, .f32⟩ : BufTy).Contents (Elt Ideal)) (x3 : (⟨S1024x4x512, .f32⟩ : BufTy).Contents (Elt Ideal)) (x5 : (⟨S768x128, .f32⟩ : BufTy).Contents (Elt Ideal)) (x6 : (⟨S768x256, .f32⟩ : BufTy).Contents (Elt Ideal)) (x7 x8 : (⟨S768, .f32⟩ : BufTy).Contents (Elt Ideal)) (x9 : (⟨S536x256, .f32⟩ : BufTy).Contents (Elt Ideal)) (x10 : (⟨S536, .f32⟩ : BufTy).Contents (Elt Ideal)) (i : S1024x4.Idx) :
    val_main_v124 (F := Ideal) x0 x1 x2 x3 x5 x6 x7 x8 x9 x10 i = (val_main_cst_17 (F := Ideal)) (Shape.Idx.first h_S_) + ∑ k : Fin 512, (val_main_v123 (F := Ideal) x0 x1 x2 x3 x5 x6 x7 x8 x9 x10) (idx_main_v124 i k) := by
  unfold val_main_v124
  generalize val_main_v123 (F := Ideal) x0 x1 x2 x3 x5 x6 x7 x8 x9 x10 = y0
  simp only [Host.reduceAdd, Ideal.hostReduceAdd_def]
  rw [Ideal.hostReduceAdd_single reducesTo_S1024x4x512_S1024x4_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_v125 : (⟨S1024x4x1, .f32⟩ : BufTy).Contents (Elt F) :=
  broadcastInDim S1024x4x1 ![0, 1] bcast_S1024x4_S1024x4x1_0_1 (val_main_v124 (F := F) x0 x1 x2 x3 x5 x6 x7 x8 x9 x10)
abbrev idx_main_v125 (i : S1024x4x1.Idx) : S1024x4.Idx := fun a => match a with
  | ⟨0, _⟩ => ⟨(i 0).val, (i 0).isLt⟩
  | ⟨1, _⟩ => ⟨(i 1).val, (i 1).isLt⟩
theorem val_main_v125_apply (i : S1024x4x1.Idx) :
    val_main_v125 (F := F) x0 x1 x2 x3 x5 x6 x7 x8 x9 x10 i = val_main_v124 (F := F) x0 x1 x2 x3 x5 x6 x7 x8 x9 x10 (idx_main_v125 i) := by
  unfold val_main_v125
  generalize val_main_v124 (F := F) x0 x1 x2 x3 x5 x6 x7 x8 x9 x10 = y
  exact broadcastInDim_apply _ bcast_S1024x4_S1024x4x1_0_1 y i (idx_main_v125 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)])

def val_main_cst_18 : (⟨S_, .f32⟩ : BufTy).Contents (Elt F) :=
  constant S_ .f32 0x2B8CBCCC#32
theorem val_main_cst_18_apply (i : S_.Idx) :
    val_main_cst_18 (F := F) i = FloatOps.ofBits .f32 0x2B8CBCCC#32 := rfl

def val_main_v126 : (⟨S1024x4x1, .f32⟩ : BufTy).Contents (Elt F) :=
  broadcastInDim S1024x4x1 ![] bcast_S_S1024x4x1 (val_main_cst_18 (F := F))
abbrev idx_main_v126 (i : S1024x4x1.Idx) : S_.Idx := fun a => a.elim0
theorem val_main_v126_apply (i : S1024x4x1.Idx) :
    val_main_v126 (F := F) i = val_main_cst_18 (F := F) (idx_main_v126 i) := by
  unfold val_main_v126
  generalize val_main_cst_18 (F := F) = y
  exact broadcastInDim_apply _ bcast_S_S1024x4x1 y i (idx_main_v126 i) (fun a => a.elim0)

def val_main_v127 : (⟨S1024x4x1, .f32⟩ : BufTy).Contents (Elt F) :=
  addf (val_main_v125 (F := F) x0 x1 x2 x3 x5 x6 x7 x8 x9 x10) (val_main_v126 (F := F))
theorem val_main_v127_apply (i : S1024x4x1.Idx) :
    val_main_v127 (F := F) x0 x1 x2 x3 x5 x6 x7 x8 x9 x10 i = FloatOps.addf (val_main_v125 (F := F) x0 x1 x2 x3 x5 x6 x7 x8 x9 x10 i) (val_main_v126 (F := F) i) := rfl

def val_main_v128 : (⟨S1024x4x512, .f32⟩ : BufTy).Contents (Elt F) :=
  broadcastInDim S1024x4x512 ![0, 1, 2] bcast_S1024x4x1_S1024x4x512_0_1_2 (val_main_v127 (F := F) x0 x1 x2 x3 x5 x6 x7 x8 x9 x10)
abbrev idx_main_v128 (i : S1024x4x512.Idx) : S1024x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v128_apply (i : S1024x4x512.Idx) :
    val_main_v128 (F := F) x0 x1 x2 x3 x5 x6 x7 x8 x9 x10 i = val_main_v127 (F := F) x0 x1 x2 x3 x5 x6 x7 x8 x9 x10 (idx_main_v128 i) := by
  unfold val_main_v128
  generalize val_main_v127 (F := F) x0 x1 x2 x3 x5 x6 x7 x8 x9 x10 = y
  exact broadcastInDim_apply _ bcast_S1024x4x1_S1024x4x512_0_1_2 y i (idx_main_v128 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

def val_main_v129 : (⟨S1024x4x512, .f32⟩ : BufTy).Contents (Elt F) :=
  Host.divf (val_main_v123 (F := F) x0 x1 x2 x3 x5 x6 x7 x8 x9 x10) (val_main_v128 (F := F) x0 x1 x2 x3 x5 x6 x7 x8 x9 x10)
theorem val_main_v129_apply (i : S1024x4x512.Idx) :
    val_main_v129 (F := F) x0 x1 x2 x3 x5 x6 x7 x8 x9 x10 i = FloatOps.hostDivf (val_main_v123 (F := F) x0 x1 x2 x3 x5 x6 x7 x8 x9 x10 i) (val_main_v128 (F := F) x0 x1 x2 x3 x5 x6 x7 x8 x9 x10 i) := rfl

def val_main_v130 : (⟨S1024x4x128, .f32⟩ : BufTy).Contents (Elt F) :=
  Host.dotGeneral dot_S1024x4x512_S1024x512x128_S1024x4x128_2_1_1_2_0_0 none (val_main_v129 (F := F) x0 x1 x2 x3 x5 x6 x7 x8 x9 x10) (x1)
theorem lhs_main_v130_0 (i : S1024x4x128.Idx) (q : dot_S1024x4x512_S1024x512x128_S1024x4x128_2_1_1_2_0_0.contr.Idx) :
    (dot_S1024x4x512_S1024x512x128_S1024x4x128_2_1_1_2_0_0.lhsIdx i q 0).val = (i 0).val := by
  unfold DotDims.lhsIdx
  rw [dif_pos (show (0 : Fin S1024x4x512.rank) ∈ dot_S1024x4x512_S1024x512x128_S1024x4x128_2_1_1_2_0_0.lhsBatch by decide)]
  rfl
theorem lhs_main_v130_1 (i : S1024x4x128.Idx) (q : dot_S1024x4x512_S1024x512x128_S1024x4x128_2_1_1_2_0_0.contr.Idx) :
    (dot_S1024x4x512_S1024x512x128_S1024x4x128_2_1_1_2_0_0.lhsIdx i q 1).val = (i 1).val := by
  unfold DotDims.lhsIdx
  rw [dif_neg (show ¬(1 : Fin S1024x4x512.rank) ∈ dot_S1024x4x512_S1024x512x128_S1024x4x128_2_1_1_2_0_0.lhsBatch by decide), dif_pos (show (1 : Fin S1024x4x512.rank) ∈ dot_S1024x4x512_S1024x512x128_S1024x4x128_2_1_1_2_0_0.lhsNonContracting by decide)]
  rfl
theorem lhs_main_v130_2 (i : S1024x4x128.Idx) (q : dot_S1024x4x512_S1024x512x128_S1024x4x128_2_1_1_2_0_0.contr.Idx) :
    (dot_S1024x4x512_S1024x512x128_S1024x4x128_2_1_1_2_0_0.lhsIdx i q 2).val = (q ⟨0, by decide⟩).val :=
  dot_S1024x4x512_S1024x512x128_S1024x4x128_2_1_1_2_0_0.lhsIdx_val_of_single rfl i q
theorem rhs_main_v130_0 (i : S1024x4x128.Idx) (q : dot_S1024x4x512_S1024x512x128_S1024x4x128_2_1_1_2_0_0.contr.Idx) :
    (dot_S1024x4x512_S1024x512x128_S1024x4x128_2_1_1_2_0_0.rhsIdx i q 0).val = (i 0).val := by
  unfold DotDims.rhsIdx
  rw [dif_pos (show (0 : Fin S1024x512x128.rank) ∈ dot_S1024x4x512_S1024x512x128_S1024x4x128_2_1_1_2_0_0.rhsBatch by decide)]
  rfl
theorem rhs_main_v130_1 (i : S1024x4x128.Idx) (q : dot_S1024x4x512_S1024x512x128_S1024x4x128_2_1_1_2_0_0.contr.Idx) :
    (dot_S1024x4x512_S1024x512x128_S1024x4x128_2_1_1_2_0_0.rhsIdx i q 1).val = (q ⟨0, by decide⟩).val :=
  dot_S1024x4x512_S1024x512x128_S1024x4x128_2_1_1_2_0_0.rhsIdx_val_of_single rfl i q
theorem rhs_main_v130_2 (i : S1024x4x128.Idx) (q : dot_S1024x4x512_S1024x512x128_S1024x4x128_2_1_1_2_0_0.contr.Idx) :
    (dot_S1024x4x512_S1024x512x128_S1024x4x128_2_1_1_2_0_0.rhsIdx i q 2).val = (i 2).val := by
  unfold DotDims.rhsIdx
  rw [dif_neg (show ¬(2 : Fin S1024x512x128.rank) ∈ dot_S1024x4x512_S1024x512x128_S1024x4x128_2_1_1_2_0_0.rhsBatch by decide), dif_pos (show (2 : Fin S1024x512x128.rank) ∈ dot_S1024x4x512_S1024x512x128_S1024x4x128_2_1_1_2_0_0.rhsNonContracting by decide)]
  rfl
abbrev lidx_main_v130 (i : S1024x4x128.Idx) (k : Fin 512) : S1024x4x512.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v130 (i : S1024x4x128.Idx) (k : Fin 512) : S1024x512x128.Idx := fun a => match a with
  | ⟨0, _⟩ => ⟨(i 0).val, (i 0).isLt⟩
  | ⟨1, _⟩ => ⟨k.val, k.isLt⟩
  | ⟨2, _⟩ => ⟨(i 2).val, (i 2).isLt⟩
/-- Stated at `F := Ideal`, where the host's `dot_general` is this sum; at a bit-exact instance it is an opaque function of its operands. -/
theorem val_main_v130_apply (x0 : (⟨S1024x128, .f32⟩ : BufTy).Contents (Elt Ideal)) (x1 : (⟨S1024x512x128, .f32⟩ : BufTy).Contents (Elt Ideal)) (x2 : (⟨S1024x256, .f32⟩ : BufTy).Contents (Elt Ideal)) (x3 : (⟨S1024x4x512, .f32⟩ : BufTy).Contents (Elt Ideal)) (x5 : (⟨S768x128, .f32⟩ : BufTy).Contents (Elt Ideal)) (x6 : (⟨S768x256, .f32⟩ : BufTy).Contents (Elt Ideal)) (x7 x8 : (⟨S768, .f32⟩ : BufTy).Contents (Elt Ideal)) (x9 : (⟨S536x256, .f32⟩ : BufTy).Contents (Elt Ideal)) (x10 : (⟨S536, .f32⟩ : BufTy).Contents (Elt Ideal)) (i : S1024x4x128.Idx) :
    val_main_v130 (F := Ideal) x0 x1 x2 x3 x5 x6 x7 x8 x9 x10 i = ∑ k : Fin 512, (val_main_v129 (F := Ideal) x0 x1 x2 x3 x5 x6 x7 x8 x9 x10) (lidx_main_v130 i k) * x1 (ridx_main_v130 i k) := by
  unfold val_main_v130
  generalize val_main_v129 (F := Ideal) x0 x1 x2 x3 x5 x6 x7 x8 x9 x10 = y0
  simp only [Host.dotGeneral]
  rw [Ideal.dotGeneral_apply, ← Equiv.sum_comp (ValueIdx.contrEquiv1 dot_S1024x4x512_S1024x512x128_S1024x4x128_2_1_1_2_0_0 512 rfl rfl).symm]
  refine Finset.sum_congr rfl fun k _ => ?_
  have hk := ValueIdx.contrEquiv1_symm_val dot_S1024x4x512_S1024x512x128_S1024x4x128_2_1_1_2_0_0 512 rfl rfl k
  have el : dot_S1024x4x512_S1024x512x128_S1024x4x128_2_1_1_2_0_0.lhsIdx i ((ValueIdx.contrEquiv1 dot_S1024x4x512_S1024x512x128_S1024x4x128_2_1_1_2_0_0 512 rfl rfl).symm k) = lidx_main_v130 i k := funext fun a => Fin.ext (by
    match a with
    | ⟨0, _⟩ => exact lhs_main_v130_0 _ _
    | ⟨1, _⟩ => exact lhs_main_v130_1 _ _
    | ⟨2, _⟩ => exact (lhs_main_v130_2 _ _).trans hk)
  have er : dot_S1024x4x512_S1024x512x128_S1024x4x128_2_1_1_2_0_0.rhsIdx i ((ValueIdx.contrEquiv1 dot_S1024x4x512_S1024x512x128_S1024x4x128_2_1_1_2_0_0 512 rfl rfl).symm k) = ridx_main_v130 i k := funext fun a => Fin.ext (by
    match a with
    | ⟨0, _⟩ => exact rhs_main_v130_0 _ _
    | ⟨1, _⟩ => exact (rhs_main_v130_1 _ _).trans hk
    | ⟨2, _⟩ => exact rhs_main_v130_2 _ _)
  rw [el, er]

def val_main_v131 : (⟨S1024x512, .f32⟩ : BufTy).Contents (Elt F) :=
  shapeCast _ (val_main_v130 (F := F) x0 x1 x2 x3 x5 x6 x7 x8 x9 x10) shapeCasts_S1024x4x128_S1024x512
abbrev idx_main_v131 (i : S1024x512.Idx) : S1024x4x128.Idx := fun a => match a with
  | ⟨0, _⟩ => ⟨((i 0).val * 512 + (i 1).val) / 512, by have h0 : (i 0).val < 1024 := (i 0).isLt; have h1 : (i 1).val < 512 := (i 1).isLt; show ((i 0).val * 512 + (i 1).val) / 512 < 1024; omega⟩
  | ⟨1, _⟩ => ⟨((i 0).val * 512 + (i 1).val) / 128 % 4, by have h0 : (i 0).val < 1024 := (i 0).isLt; have h1 : (i 1).val < 512 := (i 1).isLt; show ((i 0).val * 512 + (i 1).val) / 128 % 4 < 4; omega⟩
  | ⟨2, _⟩ => ⟨((i 0).val * 512 + (i 1).val) % 128, by have h0 : (i 0).val < 1024 := (i 0).isLt; have h1 : (i 1).val < 512 := (i 1).isLt; show ((i 0).val * 512 + (i 1).val) % 128 < 128; omega⟩
theorem val_main_v131_apply (i : S1024x512.Idx) :
    val_main_v131 (F := F) x0 x1 x2 x3 x5 x6 x7 x8 x9 x10 i = val_main_v130 (F := F) x0 x1 x2 x3 x5 x6 x7 x8 x9 x10 (idx_main_v131 i) := by
  unfold val_main_v131
  generalize val_main_v130 (F := F) x0 x1 x2 x3 x5 x6 x7 x8 x9 x10 = y
  exact shapeCast_apply y shapeCasts_S1024x4x128_S1024x512 i (idx_main_v131 i)
    (by rewrite [Shape.rowMajor_val_three, Shape.rowMajor_val_two]; have h0 : (i 0).val < 1024 := (i 0).isLt; have h1 : (i 1).val < 512 := (i 1).isLt; show (((i 0).val * 512 + (i 1).val) / 512 * 4 + ((i 0).val * 512 + (i 1).val) / 128 % 4) * 128 + ((i 0).val * 512 + (i 1).val) % 128 = (i 0).val * 512 + (i 1).val; omega)

def val_main_v132 : (⟨S256x128, .f32⟩ : BufTy).Contents (Elt F) :=
  transpose S256x128 [1, 0] (x14) transposes_S128x256_S256x128_1_0
abbrev idx_main_v132 (i : S256x128.Idx) : S128x256.Idx := fun a => match a with
  | ⟨0, _⟩ => ⟨(i 1).val, (i 1).isLt⟩
  | ⟨1, _⟩ => ⟨(i 0).val, (i 0).isLt⟩
theorem val_main_v132_apply (i : S256x128.Idx) :
    val_main_v132 (F := F) x14 i = x14 (idx_main_v132 i) := by
  unfold val_main_v132
  exact transpose_apply [1, 0] x14 transposes_S128x256_S256x128_1_0 i (idx_main_v132 i) (fun b => match b with
    | ⟨0, _⟩ => rfl
    | ⟨1, _⟩ => rfl)

def val_main_v133 : (⟨S1024x128, .f32⟩ : BufTy).Contents (Elt F) :=
  Host.dotGeneral dot_S1024x256_S256x128_S1024x128_1_0_0_1_n_n none (val_main_v37 (F := F) x0 x2 x5 x6 x7 x8) (val_main_v132 (F := F) x14)
theorem lhs_main_v133_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
theorem lhs_main_v133_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
theorem rhs_main_v133_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
theorem rhs_main_v133_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl
abbrev lidx_main_v133 (i : S1024x128.Idx) (k : Fin 256) : S1024x256.Idx := fun a => match a with
  | ⟨0, _⟩ => ⟨(i 0).val, (i 0).isLt⟩
  | ⟨1, _⟩ => ⟨k.val, k.isLt⟩
abbrev ridx_main_v133 (i : S1024x128.Idx) (k : Fin 256) : S256x128.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v133_apply (x0 : (⟨S1024x128, .f32⟩ : BufTy).Contents (Elt Ideal)) (x2 : (⟨S1024x256, .f32⟩ : BufTy).Contents (Elt Ideal)) (x5 : (⟨S768x128, .f32⟩ : BufTy).Contents (Elt Ideal)) (x6 : (⟨S768x256, .f32⟩ : BufTy).Contents (Elt Ideal)) (x7 x8 : (⟨S768, .f32⟩ : BufTy).Contents (Elt Ideal)) (x14 : (⟨S128x256, .f32⟩ : BufTy).Contents (Elt Ideal)) (i : S1024x128.Idx) :
    val_main_v133 (F := Ideal) x0 x2 x5 x6 x7 x8 x14 i = ∑ k : Fin 256, (val_main_v37 (F := Ideal) x0 x2 x5 x6 x7 x8) (lidx_main_v133 i k) * (val_main_v132 (F := Ideal) x14) (ridx_main_v133 i k) := by
  unfold val_main_v133
  generalize val_main_v37 (F := Ideal) x0 x2 x5 x6 x7 x8 = y0
  generalize val_main_v132 (F := Ideal) x14 = y1
  simp only [Host.dotGeneral]
  rw [Ideal.dotGeneral_apply, ← Equiv.sum_comp (ValueIdx.contrEquiv1 dot_S1024x256_S256x128_S1024x128_1_0_0_1_n_n 256 rfl rfl).symm]
  refine Finset.sum_congr rfl fun k _ => ?_
  have hk := ValueIdx.contrEquiv1_symm_val dot_S1024x256_S256x128_S1024x128_1_0_0_1_n_n 256 rfl rfl k
  have el : dot_S1024x256_S256x128_S1024x128_1_0_0_1_n_n.lhsIdx i ((ValueIdx.contrEquiv1 dot_S1024x256_S256x128_S1024x128_1_0_0_1_n_n 256 rfl rfl).symm k) = lidx_main_v133 i k := funext fun a => Fin.ext (by
    match a with
    | ⟨0, _⟩ => exact lhs_main_v133_0 _ _
    | ⟨1, _⟩ => exact (lhs_main_v133_1 _ _).trans hk)
  have er : dot_S1024x256_S256x128_S1024x128_1_0_0_1_n_n.rhsIdx i ((ValueIdx.contrEquiv1 dot_S1024x256_S256x128_S1024x128_1_0_0_1_n_n 256 rfl rfl).symm k) = ridx_main_v133 i k := funext fun a => Fin.ext (by
    match a with
    | ⟨0, _⟩ => exact (rhs_main_v133_0 _ _).trans hk
    | ⟨1, _⟩ => exact rhs_main_v133_1 _ _)
  rw [el, er]

def val_main_v134 : (⟨S1x128, .f32⟩ : BufTy).Contents (Elt F) :=
  broadcastInDim S1x128 ![1] bcast_S128_S1x128_1 (x15)
abbrev idx_main_v134 (i : S1x128.Idx) : S128.Idx := fun a => match a with
  | ⟨0, _⟩ => ⟨(i 1).val, (i 1).isLt⟩
theorem val_main_v134_apply (i : S1x128.Idx) :
    val_main_v134 (F := F) x15 i = x15 (idx_main_v134 i) := by
  unfold val_main_v134
  exact broadcastInDim_apply _ bcast_S128_S1x128_1 x15 i (idx_main_v134 i) (fun a => match a with
    | ⟨0, _⟩ => by show (i 1).val = if (128 : Nat) = 1 then 0 else (i 1).val; rw [if_neg (by decide)])

def val_main_v135 : (⟨S1024x128, .f32⟩ : BufTy).Contents (Elt F) :=
  broadcastInDim S1024x128 ![0, 1] bcast_S1x128_S1024x128_0_1 (val_main_v134 (F := F) x15)
abbrev idx_main_v135 (i : S1024x128.Idx) : S1x128.Idx := fun a => match a with
  | ⟨0, _⟩ => ⟨0, Nat.one_pos⟩
  | ⟨1, _⟩ => ⟨(i 1).val, (i 1).isLt⟩
theorem val_main_v135_apply (i : S1024x128.Idx) :
    val_main_v135 (F := F) x15 i = val_main_v134 (F := F) x15 (idx_main_v135 i) := by
  unfold val_main_v135
  generalize val_main_v134 (F := F) x15 = y
  exact broadcastInDim_apply _ bcast_S1x128_S1024x128_0_1 y i (idx_main_v135 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v136 : (⟨S1024x128, .f32⟩ : BufTy).Contents (Elt F) :=
  addf (val_main_v133 (F := F) x0 x2 x5 x6 x7 x8 x14) (val_main_v135 (F := F) x15)
theorem val_main_v136_apply (i : S1024x128.Idx) :
    val_main_v136 (F := F) x0 x2 x5 x6 x7 x8 x14 x15 i = FloatOps.addf (val_main_v133 (F := F) x0 x2 x5 x6 x7 x8 x14 i) (val_main_v135 (F := F) x15 i) := rfl

def val_main_v137 : (⟨S512x128, .f32⟩ : BufTy).Contents (Elt F) :=
  transpose S512x128 [1, 0] (x13) transposes_S128x512_S512x128_1_0
abbrev idx_main_v137 (i : S512x128.Idx) : S128x512.Idx := fun a => match a with
  | ⟨0, _⟩ => ⟨(i 1).val, (i 1).isLt⟩
  | ⟨1, _⟩ => ⟨(i 0).val, (i 0).isLt⟩
theorem val_main_v137_apply (i : S512x128.Idx) :
    val_main_v137 (F := F) x13 i = x13 (idx_main_v137 i) := by
  unfold val_main_v137
  exact transpose_apply [1, 0] x13 transposes_S128x512_S512x128_1_0 i (idx_main_v137 i) (fun b => match b with
    | ⟨0, _⟩ => rfl
    | ⟨1, _⟩ => rfl)

def val_main_v138 : (⟨S1024x128, .f32⟩ : BufTy).Contents (Elt F) :=
  Host.dotGeneral dot_S1024x512_S512x128_S1024x128_1_0_0_1_n_n none (val_main_v131 (F := F) x0 x1 x2 x3 x5 x6 x7 x8 x9 x10) (val_main_v137 (F := F) x13)
theorem lhs_main_v138_0 (i : S1024x128.Idx) (q : dot_S1024x512_S512x128_S1024x128_1_0_0_1_n_n.contr.Idx) :
    (dot_S1024x512_S512x128_S1024x128_1_0_0_1_n_n.lhsIdx i q 0).val = (i 0).val := by
  unfold DotDims.lhsIdx
  rw [dif_neg (show ¬(0 : Fin S1024x512.rank) ∈ dot_S1024x512_S512x128_S1024x128_1_0_0_1_n_n.lhsBatch by decide), dif_pos (show (0 : Fin S1024x512.rank) ∈ dot_S1024x512_S512x128_S1024x128_1_0_0_1_n_n.lhsNonContracting by decide)]
  rfl
theorem lhs_main_v138_1 (i : S1024x128.Idx) (q : dot_S1024x512_S512x128_S1024x128_1_0_0_1_n_n.contr.Idx) :
    (dot_S1024x512_S512x128_S1024x128_1_0_0_1_n_n.lhsIdx i q 1).val = (q ⟨0, by decide⟩).val :=
  dot_S1024x512_S512x128_S1024x128_1_0_0_1_n_n.lhsIdx_val_of_single rfl i q
theorem rhs_main_v138_0 (i : S1024x128.Idx) (q : dot_S1024x512_S512x128_S1024x128_1_0_0_1_n_n.contr.Idx) :
    (dot_S1024x512_S512x128_S1024x128_1_0_0_1_n_n.rhsIdx i q 0).val = (q ⟨0, by decide⟩).val :=
  dot_S1024x512_S512x128_S1024x128_1_0_0_1_n_n.rhsIdx_val_of_single rfl i q
theorem rhs_main_v138_1 (i : S1024x128.Idx) (q : dot_S1024x512_S512x128_S1024x128_1_0_0_1_n_n.contr.Idx) :
    (dot_S1024x512_S512x128_S1024x128_1_0_0_1_n_n.rhsIdx i q 1).val = (i 1).val := by
  unfold DotDims.rhsIdx
  rw [dif_neg (show ¬(1 : Fin S512x128.rank) ∈ dot_S1024x512_S512x128_S1024x128_1_0_0_1_n_n.rhsBatch by decide), dif_pos (show (1 : Fin S512x128.rank) ∈ dot_S1024x512_S512x128_S1024x128_1_0_0_1_n_n.rhsNonContracting by decide)]
  rfl
abbrev lidx_main_v138 (i : S1024x128.Idx) (k : Fin 512) : S1024x512.Idx := fun a => match a with
  | ⟨0, _⟩ => ⟨(i 0).val, (i 0).isLt⟩
  | ⟨1, _⟩ => ⟨k.val, k.isLt⟩
abbrev ridx_main_v138 (i : S1024x128.Idx) (k : Fin 512) : S512x128.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v138_apply (x0 : (⟨S1024x128, .f32⟩ : BufTy).Contents (Elt Ideal)) (x1 : (⟨S1024x512x128, .f32⟩ : BufTy).Contents (Elt Ideal)) (x2 : (⟨S1024x256, .f32⟩ : BufTy).Contents (Elt Ideal)) (x3 : (⟨S1024x4x512, .f32⟩ : BufTy).Contents (Elt Ideal)) (x5 : (⟨S768x128, .f32⟩ : BufTy).Contents (Elt Ideal)) (x6 : (⟨S768x256, .f32⟩ : BufTy).Contents (Elt Ideal)) (x7 x8 : (⟨S768, .f32⟩ : BufTy).Contents (Elt Ideal)) (x9 : (⟨S536x256, .f32⟩ : BufTy).Contents (Elt Ideal)) (x10 : (⟨S536, .f32⟩ : BufTy).Contents (Elt Ideal)) (x13 : (⟨S128x512, .f32⟩ : BufTy).Contents (Elt Ideal)) (i : S1024x128.Idx) :
    val_main_v138 (F := Ideal) x0 x1 x2 x3 x5 x6 x7 x8 x9 x10 x13 i = ∑ k : Fin 512, (val_main_v131 (F := Ideal) x0 x1 x2 x3 x5 x6 x7 x8 x9 x10) (lidx_main_v138 i k) * (val_main_v137 (F := Ideal) x13) (ridx_main_v138 i k) := by
  unfold val_main_v138
  generalize val_main_v131 (F := Ideal) x0 x1 x2 x3 x5 x6 x7 x8 x9 x10 = y0
  generalize val_main_v137 (F := Ideal) x13 = y1
  simp only [Host.dotGeneral]
  rw [Ideal.dotGeneral_apply, ← Equiv.sum_comp (ValueIdx.contrEquiv1 dot_S1024x512_S512x128_S1024x128_1_0_0_1_n_n 512 rfl rfl).symm]
  refine Finset.sum_congr rfl fun k _ => ?_
  have hk := ValueIdx.contrEquiv1_symm_val dot_S1024x512_S512x128_S1024x128_1_0_0_1_n_n 512 rfl rfl k
  have el : dot_S1024x512_S512x128_S1024x128_1_0_0_1_n_n.lhsIdx i ((ValueIdx.contrEquiv1 dot_S1024x512_S512x128_S1024x128_1_0_0_1_n_n 512 rfl rfl).symm k) = lidx_main_v138 i k := funext fun a => Fin.ext (by
    match a with
    | ⟨0, _⟩ => exact lhs_main_v138_0 _ _
    | ⟨1, _⟩ => exact (lhs_main_v138_1 _ _).trans hk)
  have er : dot_S1024x512_S512x128_S1024x128_1_0_0_1_n_n.rhsIdx i ((ValueIdx.contrEquiv1 dot_S1024x512_S512x128_S1024x128_1_0_0_1_n_n 512 rfl rfl).symm k) = ridx_main_v138 i k := funext fun a => Fin.ext (by
    match a with
    | ⟨0, _⟩ => exact (rhs_main_v138_0 _ _).trans hk
    | ⟨1, _⟩ => exact rhs_main_v138_1 _ _)
  rw [el, er]

def val_main_v139 : (⟨S1024x128, .f32⟩ : BufTy).Contents (Elt F) :=
  addf (val_main_v136 (F := F) x0 x2 x5 x6 x7 x8 x14 x15) (val_main_v138 (F := F) x0 x1 x2 x3 x5 x6 x7 x8 x9 x10 x13)
theorem val_main_v139_apply (i : S1024x128.Idx) :
    val_main_v139 (F := F) x0 x1 x2 x3 x5 x6 x7 x8 x9 x10 x13 x14 x15 i = FloatOps.addf (val_main_v136 (F := F) x0 x2 x5 x6 x7 x8 x14 x15 i) (val_main_v138 (F := F) x0 x1 x2 x3 x5 x6 x7 x8 x9 x10 x13 i) := rfl

def val_main_v140 : (⟨S256x1560, .f32⟩ : BufTy).Contents (Elt F) :=
  transpose S256x1560 [1, 0] (x11) transposes_S1560x256_S256x1560_1_0
abbrev idx_main_v140 (i : S256x1560.Idx) : S1560x256.Idx := fun a => match a with
  | ⟨0, _⟩ => ⟨(i 1).val, (i 1).isLt⟩
  | ⟨1, _⟩ => ⟨(i 0).val, (i 0).isLt⟩
theorem val_main_v140_apply (i : S256x1560.Idx) :
    val_main_v140 (F := F) x11 i = x11 (idx_main_v140 i) := by
  unfold val_main_v140
  exact transpose_apply [1, 0] x11 transposes_S1560x256_S256x1560_1_0 i (idx_main_v140 i) (fun b => match b with
    | ⟨0, _⟩ => rfl
    | ⟨1, _⟩ => rfl)

def val_main_v141 : (⟨S1024x1560, .f32⟩ : BufTy).Contents (Elt F) :=
  Host.dotGeneral dot_S1024x256_S256x1560_S1024x1560_1_0_0_1_n_n none (val_main_v37 (F := F) x0 x2 x5 x6 x7 x8) (val_main_v140 (F := F) x11)
theorem lhs_main_v141_0 (i : S1024x1560.Idx) (q : dot_S1024x256_S256x1560_S1024x1560_1_0_0_1_n_n.contr.Idx) :
    (dot_S1024x256_S256x1560_S1024x1560_1_0_0_1_n_n.lhsIdx i q 0).val = (i 0).val := by
  unfold DotDims.lhsIdx
  rw [dif_neg (show ¬(0 : Fin S1024x256.rank) ∈ dot_S1024x256_S256x1560_S1024x1560_1_0_0_1_n_n.lhsBatch by decide), dif_pos (show (0 : Fin S1024x256.rank) ∈ dot_S1024x256_S256x1560_S1024x1560_1_0_0_1_n_n.lhsNonContracting by decide)]
  rfl
theorem lhs_main_v141_1 (i : S1024x1560.Idx) (q : dot_S1024x256_S256x1560_S1024x1560_1_0_0_1_n_n.contr.Idx) :
    (dot_S1024x256_S256x1560_S1024x1560_1_0_0_1_n_n.lhsIdx i q 1).val = (q ⟨0, by decide⟩).val :=
  dot_S1024x256_S256x1560_S1024x1560_1_0_0_1_n_n.lhsIdx_val_of_single rfl i q
theorem rhs_main_v141_0 (i : S1024x1560.Idx) (q : dot_S1024x256_S256x1560_S1024x1560_1_0_0_1_n_n.contr.Idx) :
    (dot_S1024x256_S256x1560_S1024x1560_1_0_0_1_n_n.rhsIdx i q 0).val = (q ⟨0, by decide⟩).val :=
  dot_S1024x256_S256x1560_S1024x1560_1_0_0_1_n_n.rhsIdx_val_of_single rfl i q
theorem rhs_main_v141_1 (i : S1024x1560.Idx) (q : dot_S1024x256_S256x1560_S1024x1560_1_0_0_1_n_n.contr.Idx) :
    (dot_S1024x256_S256x1560_S1024x1560_1_0_0_1_n_n.rhsIdx i q 1).val = (i 1).val := by
  unfold DotDims.rhsIdx
  rw [dif_neg (show ¬(1 : Fin S256x1560.rank) ∈ dot_S1024x256_S256x1560_S1024x1560_1_0_0_1_n_n.rhsBatch by decide), dif_pos (show (1 : Fin S256x1560.rank) ∈ dot_S1024x256_S256x1560_S1024x1560_1_0_0_1_n_n.rhsNonContracting by decide)]
  rfl
abbrev lidx_main_v141 (i : S1024x1560.Idx) (k : Fin 256) : S1024x256.Idx := fun a => match a with
  | ⟨0, _⟩ => ⟨(i 0).val, (i 0).isLt⟩
  | ⟨1, _⟩ => ⟨k.val, k.isLt⟩
abbrev ridx_main_v141 (i : S1024x1560.Idx) (k : Fin 256) : S256x1560.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v141_apply (x0 : (⟨S1024x128, .f32⟩ : BufTy).Contents (Elt Ideal)) (x2 : (⟨S1024x256, .f32⟩ : BufTy).Contents (Elt Ideal)) (x5 : (⟨S768x128, .f32⟩ : BufTy).Contents (Elt Ideal)) (x6 : (⟨S768x256, .f32⟩ : BufTy).Contents (Elt Ideal)) (x7 x8 : (⟨S768, .f32⟩ : BufTy).Contents (Elt Ideal)) (x11 : (⟨S1560x256, .f32⟩ : BufTy).Contents (Elt Ideal)) (i : S1024x1560.Idx) :
    val_main_v141 (F := Ideal) x0 x2 x5 x6 x7 x8 x11 i = ∑ k : Fin 256, (val_main_v37 (F := Ideal) x0 x2 x5 x6 x7 x8) (lidx_main_v141 i k) * (val_main_v140 (F := Ideal) x11) (ridx_main_v141 i k) := by
  unfold val_main_v141
  generalize val_main_v37 (F := Ideal) x0 x2 x5 x6 x7 x8 = y0
  generalize val_main_v140 (F := Ideal) x11 = y1
  simp only [Host.dotGeneral]
  rw [Ideal.dotGeneral_apply, ← Equiv.sum_comp (ValueIdx.contrEquiv1 dot_S1024x256_S256x1560_S1024x1560_1_0_0_1_n_n 256 rfl rfl).symm]
  refine Finset.sum_congr rfl fun k _ => ?_
  have hk := ValueIdx.contrEquiv1_symm_val dot_S1024x256_S256x1560_S1024x1560_1_0_0_1_n_n 256 rfl rfl k
  have el : dot_S1024x256_S256x1560_S1024x1560_1_0_0_1_n_n.lhsIdx i ((ValueIdx.contrEquiv1 dot_S1024x256_S256x1560_S1024x1560_1_0_0_1_n_n 256 rfl rfl).symm k) = lidx_main_v141 i k := funext fun a => Fin.ext (by
    match a with
    | ⟨0, _⟩ => exact lhs_main_v141_0 _ _
    | ⟨1, _⟩ => exact (lhs_main_v141_1 _ _).trans hk)
  have er : dot_S1024x256_S256x1560_S1024x1560_1_0_0_1_n_n.rhsIdx i ((ValueIdx.contrEquiv1 dot_S1024x256_S256x1560_S1024x1560_1_0_0_1_n_n 256 rfl rfl).symm k) = ridx_main_v141 i k := funext fun a => Fin.ext (by
    match a with
    | ⟨0, _⟩ => exact (rhs_main_v141_0 _ _).trans hk
    | ⟨1, _⟩ => exact rhs_main_v141_1 _ _)
  rw [el, er]

def val_main_v142 : (⟨S1x1560, .f32⟩ : BufTy).Contents (Elt F) :=
  broadcastInDim S1x1560 ![1] bcast_S1560_S1x1560_1 (x12)
abbrev idx_main_v142 (i : S1x1560.Idx) : S1560.Idx := fun a => match a with
  | ⟨0, _⟩ => ⟨(i 1).val, (i 1).isLt⟩
theorem val_main_v142_apply (i : S1x1560.Idx) :
    val_main_v142 (F := F) x12 i = x12 (idx_main_v142 i) := by
  unfold val_main_v142
  exact broadcastInDim_apply _ bcast_S1560_S1x1560_1 x12 i (idx_main_v142 i) (fun a => match a with
    | ⟨0, _⟩ => by show (i 1).val = if (1560 : Nat) = 1 then 0 else (i 1).val; rw [if_neg (by decide)])

def val_main_v143 : (⟨S1024x1560, .f32⟩ : BufTy).Contents (Elt F) :=
  broadcastInDim S1024x1560 ![0, 1] bcast_S1x1560_S1024x1560_0_1 (val_main_v142 (F := F) x12)
abbrev idx_main_v143 (i : S1024x1560.Idx) : S1x1560.Idx := fun a => match a with
  | ⟨0, _⟩ => ⟨0, Nat.one_pos⟩
  | ⟨1, _⟩ => ⟨(i 1).val, (i 1).isLt⟩
theorem val_main_v143_apply (i : S1024x1560.Idx) :
    val_main_v143 (F := F) x12 i = val_main_v142 (F := F) x12 (idx_main_v143 i) := by
  unfold val_main_v143
  generalize val_main_v142 (F := F) x12 = y
  exact broadcastInDim_apply _ bcast_S1x1560_S1024x1560_0_1 y i (idx_main_v143 i) (fun a => match a with
    | ⟨0, _⟩ => by show 0 = if (1 : Nat) = 1 then 0 else (i 0).val; rw [if_pos rfl]
    | ⟨1, _⟩ => by show (i 1).val = if (1560 : Nat) = 1 then 0 else (i 1).val; rw [if_neg (by decide)])

def val_main_v144 : (⟨S1024x1560, .f32⟩ : BufTy).Contents (Elt F) :=
  addf (val_main_v141 (F := F) x0 x2 x5 x6 x7 x8 x11) (val_main_v143 (F := F) x12)
theorem val_main_v144_apply (i : S1024x1560.Idx) :
    val_main_v144 (F := F) x0 x2 x5 x6 x7 x8 x11 x12 i = FloatOps.addf (val_main_v141 (F := F) x0 x2 x5 x6 x7 x8 x11 i) (val_main_v143 (F := F) x12 i) := rfl

def val_main_v145 : (⟨S1024x4x390, .f32⟩ : BufTy).Contents (Elt F) :=
  shapeCast _ (val_main_v144 (F := F) x0 x2 x5 x6 x7 x8 x11 x12) shapeCasts_S1024x1560_S1024x4x390
abbrev idx_main_v145 (i : S1024x4x390.Idx) : S1024x1560.Idx := fun a => match a with
  | ⟨0, _⟩ => ⟨(((i 0).val * 4 + (i 1).val) * 390 + (i 2).val) / 1560, by have h0 : (i 0).val < 1024 := (i 0).isLt; have h1 : (i 1).val < 4 := (i 1).isLt; have h2 : (i 2).val < 390 := (i 2).isLt; show (((i 0).val * 4 + (i 1).val) * 390 + (i 2).val) / 1560 < 1024; omega⟩
  | ⟨1, _⟩ => ⟨(((i 0).val * 4 + (i 1).val) * 390 + (i 2).val) % 1560, by have h0 : (i 0).val < 1024 := (i 0).isLt; have h1 : (i 1).val < 4 := (i 1).isLt; have h2 : (i 2).val < 390 := (i 2).isLt; show (((i 0).val * 4 + (i 1).val) * 390 + (i 2).val) % 1560 < 1560; omega⟩
theorem val_main_v145_apply (i : S1024x4x390.Idx) :
    val_main_v145 (F := F) x0 x2 x5 x6 x7 x8 x11 x12 i = val_main_v144 (F := F) x0 x2 x5 x6 x7 x8 x11 x12 (idx_main_v145 i) := by
  unfold val_main_v145
  generalize val_main_v144 (F := F) x0 x2 x5 x6 x7 x8 x11 x12 = y
  exact shapeCast_apply y shapeCasts_S1024x1560_S1024x4x390 i (idx_main_v145 i)
    (by rewrite [Shape.rowMajor_val_two, Shape.rowMajor_val_three]; have h0 : (i 0).val < 1024 := (i 0).isLt; have h1 : (i 1).val < 4 := (i 1).isLt; have h2 : (i 2).val < 390 := (i 2).isLt; show (((i 0).val * 4 + (i 1).val) * 390 + (i 2).val) / 1560 * 1560 + (((i 0).val * 4 + (i 1).val) * 390 + (i 2).val) % 1560 = ((i 0).val * 4 + (i 1).val) * 390 + (i 2).val; omega)

def val_main_v146 : (⟨S1024x4x128, .f32⟩ : BufTy).Contents (Elt F) :=
  extractStridedSlice S1024x4x128 ![0, 0, 0] (val_main_v145 (F := F) x0 x2 x5 x6 x7 x8 x11 x12) slices_S1024x4x390_S1024x4x128_0_0_0
abbrev idx_main_v146 (i : S1024x4x128.Idx) : S1024x4x390.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 128 := (i 2).isLt; show (i 2).val < 390; omega⟩
theorem val_main_v146_apply (i : S1024x4x128.Idx) :
    val_main_v146 (F := F) x0 x2 x5 x6 x7 x8 x11 x12 i = val_main_v145 (F := F) x0 x2 x5 x6 x7 x8 x11 x12 (idx_main_v146 i) := by
  unfold val_main_v146
  generalize val_main_v145 (F := F) x0 x2 x5 x6 x7 x8 x11 x12 = y
  exact extractStridedSlice_apply ![0, 0, 0] y slices_S1024x4x390_S1024x4x128_0_0_0 i (idx_main_v146 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v147 : (⟨S1024x4x1, .f32⟩ : BufTy).Contents (Elt F) :=
  extractStridedSlice S1024x4x1 ![0, 0, 128] (val_main_v145 (F := F) x0 x2 x5 x6 x7 x8 x11 x12) slices_S1024x4x390_S1024x4x1_0_0_128
abbrev idx_main_v147 (i : S1024x4x1.Idx) : S1024x4x390.Idx := fun a => match a with
  | ⟨0, _⟩ => ⟨(i 0).val, (i 0).isLt⟩
  | ⟨1, _⟩ => ⟨(i 1).val, (i 1).isLt⟩
  | ⟨2, _⟩ => ⟨128 + (i 2).val, by have h2 : (i 2).val < 1 := (i 2).isLt; show 128 + (i 2).val < 390; omega⟩
theorem val_main_v147_apply (i : S1024x4x1.Idx) :
    val_main_v147 (F := F) x0 x2 x5 x6 x7 x8 x11 x12 i = val_main_v145 (F := F) x0 x2 x5 x6 x7 x8 x11 x12 (idx_main_v147 i) := by
  unfold val_main_v147
  generalize val_main_v145 (F := F) x0 x2 x5 x6 x7 x8 x11 x12 = y
  exact extractStridedSlice_apply ![0, 0, 128] y slices_S1024x4x390_S1024x4x1_0_0_128 i (idx_main_v147 i) (fun a => match a with
    | ⟨0, _⟩ => by show (i 0).val = 0 + (i 0).val; omega
    | ⟨1, _⟩ => by show (i 1).val = 0 + (i 1).val; omega
    | ⟨2, _⟩ => by show 128 + (i 2).val = 128 + (i 2).val; omega)

def val_main_v148 : (⟨S1024x4, .f32⟩ : BufTy).Contents (Elt F) :=
  shapeCast _ (val_main_v147 (F := F) x0 x2 x5 x6 x7 x8 x11 x12) shapeCasts_S1024x4x1_S1024x4
abbrev idx_main_v148 (i : S1024x4.Idx) : S1024x4x1.Idx := fun a => match a with
  | ⟨0, _⟩ => ⟨((i 0).val * 4 + (i 1).val) / 4, by have h0 : (i 0).val < 1024 := (i 0).isLt; have h1 : (i 1).val < 4 := (i 1).isLt; show ((i 0).val * 4 + (i 1).val) / 4 < 1024; omega⟩
  | ⟨1, _⟩ => ⟨((i 0).val * 4 + (i 1).val) / 1 % 4, by have h0 : (i 0).val < 1024 := (i 0).isLt; have h1 : (i 1).val < 4 := (i 1).isLt; show ((i 0).val * 4 + (i 1).val) / 1 % 4 < 4; omega⟩
  | ⟨2, _⟩ => ⟨0, Nat.one_pos⟩
theorem val_main_v148_apply (i : S1024x4.Idx) :
    val_main_v148 (F := F) x0 x2 x5 x6 x7 x8 x11 x12 i = val_main_v147 (F := F) x0 x2 x5 x6 x7 x8 x11 x12 (idx_main_v148 i) := by
  unfold val_main_v148
  generalize val_main_v147 (F := F) x0 x2 x5 x6 x7 x8 x11 x12 = y
  exact shapeCast_apply y shapeCasts_S1024x4x1_S1024x4 i (idx_main_v148 i)
    (by rewrite [Shape.rowMajor_val_three, Shape.rowMajor_val_two]; have h0 : (i 0).val < 1024 := (i 0).isLt; have h1 : (i 1).val < 4 := (i 1).isLt; show (((i 0).val * 4 + (i 1).val) / 4 * 4 + ((i 0).val * 4 + (i 1).val) / 1 % 4) * 1 + 0 = (i 0).val * 4 + (i 1).val; omega)

def val_main_v149 : (⟨S1024x4x1, .f32⟩ : BufTy).Contents (Elt F) :=
  extractStridedSlice S1024x4x1 ![0, 0, 129] (val_main_v145 (F := F) x0 x2 x5 x6 x7 x8 x11 x12) slices_S1024x4x390_S1024x4x1_0_0_129
abbrev idx_main_v149 (i : S1024x4x1.Idx) : S1024x4x390.Idx := fun a => match a with
  | ⟨0, _⟩ => ⟨(i 0).val, (i 0).isLt⟩
  | ⟨1, _⟩ => ⟨(i 1).val, (i 1).isLt⟩
  | ⟨2, _⟩ => ⟨129 + (i 2).val, by have h2 : (i 2).val < 1 := (i 2).isLt; show 129 + (i 2).val < 390; omega⟩
theorem val_main_v149_apply (i : S1024x4x1.Idx) :
    val_main_v149 (F := F) x0 x2 x5 x6 x7 x8 x11 x12 i = val_main_v145 (F := F) x0 x2 x5 x6 x7 x8 x11 x12 (idx_main_v149 i) := by
  unfold val_main_v149
  generalize val_main_v145 (F := F) x0 x2 x5 x6 x7 x8 x11 x12 = y
  exact extractStridedSlice_apply ![0, 0, 129] y slices_S1024x4x390_S1024x4x1_0_0_129 i (idx_main_v149 i) (fun a => match a with
    | ⟨0, _⟩ => by show (i 0).val = 0 + (i 0).val; omega
    | ⟨1, _⟩ => by show (i 1).val = 0 + (i 1).val; omega
    | ⟨2, _⟩ => by show 129 + (i 2).val = 129 + (i 2).val; omega)

def val_main_v150 : (⟨S1024x4, .f32⟩ : BufTy).Contents (Elt F) :=
  shapeCast _ (val_main_v149 (F := F) x0 x2 x5 x6 x7 x8 x11 x12) shapeCasts_S1024x4x1_S1024x4
abbrev idx_main_v150 (i : S1024x4.Idx) : S1024x4x1.Idx := fun a => match a with
  | ⟨0, _⟩ => ⟨((i 0).val * 4 + (i 1).val) / 4, by have h0 : (i 0).val < 1024 := (i 0).isLt; have h1 : (i 1).val < 4 := (i 1).isLt; show ((i 0).val * 4 + (i 1).val) / 4 < 1024; omega⟩
  | ⟨1, _⟩ => ⟨((i 0).val * 4 + (i 1).val) / 1 % 4, by have h0 : (i 0).val < 1024 := (i 0).isLt; have h1 : (i 1).val < 4 := (i 1).isLt; show ((i 0).val * 4 + (i 1).val) / 1 % 4 < 4; omega⟩
  | ⟨2, _⟩ => ⟨0, Nat.one_pos⟩
theorem val_main_v150_apply (i : S1024x4.Idx) :
    val_main_v150 (F := F) x0 x2 x5 x6 x7 x8 x11 x12 i = val_main_v149 (F := F) x0 x2 x5 x6 x7 x8 x11 x12 (idx_main_v150 i) := by
  unfold val_main_v150
  generalize val_main_v149 (F := F) x0 x2 x5 x6 x7 x8 x11 x12 = y
  exact shapeCast_apply y shapeCasts_S1024x4x1_S1024x4 i (idx_main_v150 i)
    (by rewrite [Shape.rowMajor_val_three, Shape.rowMajor_val_two]; have h0 : (i 0).val < 1024 := (i 0).isLt; have h1 : (i 1).val < 4 := (i 1).isLt; show (((i 0).val * 4 + (i 1).val) / 4 * 4 + ((i 0).val * 4 + (i 1).val) / 1 % 4) * 1 + 0 = (i 0).val * 4 + (i 1).val; omega)

def val_main_v151 : (⟨S1024x4x3, .f32⟩ : BufTy).Contents (Elt F) :=
  extractStridedSlice S1024x4x3 ![0, 0, 130] (val_main_v145 (F := F) x0 x2 x5 x6 x7 x8 x11 x12) slices_S1024x4x390_S1024x4x3_0_0_130
abbrev idx_main_v151 (i : S1024x4x3.Idx) : S1024x4x390.Idx := fun a => match a with
  | ⟨0, _⟩ => ⟨(i 0).val, (i 0).isLt⟩
  | ⟨1, _⟩ => ⟨(i 1).val, (i 1).isLt⟩
  | ⟨2, _⟩ => ⟨130 + (i 2).val, by have h2 : (i 2).val < 3 := (i 2).isLt; show 130 + (i 2).val < 390; omega⟩
theorem val_main_v151_apply (i : S1024x4x3.Idx) :
    val_main_v151 (F := F) x0 x2 x5 x6 x7 x8 x11 x12 i = val_main_v145 (F := F) x0 x2 x5 x6 x7 x8 x11 x12 (idx_main_v151 i) := by
  unfold val_main_v151
  generalize val_main_v145 (F := F) x0 x2 x5 x6 x7 x8 x11 x12 = y
  exact extractStridedSlice_apply ![0, 0, 130] y slices_S1024x4x390_S1024x4x3_0_0_130 i (idx_main_v151 i) (fun a => match a with
    | ⟨0, _⟩ => by show (i 0).val = 0 + (i 0).val; omega
    | ⟨1, _⟩ => by show (i 1).val = 0 + (i 1).val; omega
    | ⟨2, _⟩ => by show 130 + (i 2).val = 130 + (i 2).val; omega)

def val_main_v152 : (⟨S1024x4x1, .f32⟩ : BufTy).Contents (Elt F) :=
  extractStridedSlice S1024x4x1 ![0, 0, 133] (val_main_v145 (F := F) x0 x2 x5 x6 x7 x8 x11 x12) slices_S1024x4x390_S1024x4x1_0_0_133
abbrev idx_main_v152 (i : S1024x4x1.Idx) : S1024x4x390.Idx := fun a => match a with
  | ⟨0, _⟩ => ⟨(i 0).val, (i 0).isLt⟩
  | ⟨1, _⟩ => ⟨(i 1).val, (i 1).isLt⟩
  | ⟨2, _⟩ => ⟨133 + (i 2).val, by have h2 : (i 2).val < 1 := (i 2).isLt; show 133 + (i 2).val < 390; omega⟩
theorem val_main_v152_apply (i : S1024x4x1.Idx) :
    val_main_v152 (F := F) x0 x2 x5 x6 x7 x8 x11 x12 i = val_main_v145 (F := F) x0 x2 x5 x6 x7 x8 x11 x12 (idx_main_v152 i) := by
  unfold val_main_v152
  generalize val_main_v145 (F := F) x0 x2 x5 x6 x7 x8 x11 x12 = y
  exact extractStridedSlice_apply ![0, 0, 133] y slices_S1024x4x390_S1024x4x1_0_0_133 i (idx_main_v152 i) (fun a => match a with
    | ⟨0, _⟩ => by show (i 0).val = 0 + (i 0).val; omega
    | ⟨1, _⟩ => by show (i 1).val = 0 + (i 1).val; omega
    | ⟨2, _⟩ => by show 133 + (i 2).val = 133 + (i 2).val; omega)

def val_main_v153 : (⟨S1024x4, .f32⟩ : BufTy).Contents (Elt F) :=
  shapeCast _ (val_main_v152 (F := F) x0 x2 x5 x6 x7 x8 x11 x12) shapeCasts_S1024x4x1_S1024x4
abbrev idx_main_v153 (i : S1024x4.Idx) : S1024x4x1.Idx := fun a => match a with
  | ⟨0, _⟩ => ⟨((i 0).val * 4 + (i 1).val) / 4, by have h0 : (i 0).val < 1024 := (i 0).isLt; have h1 : (i 1).val < 4 := (i 1).isLt; show ((i 0).val * 4 + (i 1).val) / 4 < 1024; omega⟩
  | ⟨1, _⟩ => ⟨((i 0).val * 4 + (i 1).val) / 1 % 4, by have h0 : (i 0).val < 1024 := (i 0).isLt; have h1 : (i 1).val < 4 := (i 1).isLt; show ((i 0).val * 4 + (i 1).val) / 1 % 4 < 4; omega⟩
  | ⟨2, _⟩ => ⟨0, Nat.one_pos⟩
theorem val_main_v153_apply (i : S1024x4.Idx) :
    val_main_v153 (F := F) x0 x2 x5 x6 x7 x8 x11 x12 i = val_main_v152 (F := F) x0 x2 x5 x6 x7 x8 x11 x12 (idx_main_v153 i) := by
  unfold val_main_v153
  generalize val_main_v152 (F := F) x0 x2 x5 x6 x7 x8 x11 x12 = y
  exact shapeCast_apply y shapeCasts_S1024x4x1_S1024x4 i (idx_main_v153 i)
    (by rewrite [Shape.rowMajor_val_three, Shape.rowMajor_val_two]; have h0 : (i 0).val < 1024 := (i 0).isLt; have h1 : (i 1).val < 4 := (i 1).isLt; show (((i 0).val * 4 + (i 1).val) / 4 * 4 + ((i 0).val * 4 + (i 1).val) / 1 % 4) * 1 + 0 = (i 0).val * 4 + (i 1).val; omega)

def val_main_call6_cst : (⟨S_, .f32⟩ : BufTy).Contents (Elt F) :=
  constant S_ .f32 0x00000000#32
theorem val_main_call6_cst_apply (i : S_.Idx) :
    val_main_call6_cst (F := F) i = FloatOps.ofBits .f32 0x00000000#32 := rfl

def val_main_call6_v0 : (⟨S1024x4, .f32⟩ : BufTy).Contents (Elt F) :=
  broadcastInDim S1024x4 ![] bcast_S_S1024x4 (val_main_call6_cst (F := F))
abbrev idx_main_call6_v0 (i : S1024x4.Idx) : S_.Idx := fun a => a.elim0
theorem val_main_call6_v0_apply (i : S1024x4.Idx) :
    val_main_call6_v0 (F := F) i = val_main_call6_cst (F := F) (idx_main_call6_v0 i) := by
  unfold val_main_call6_v0
  generalize val_main_call6_cst (F := F) = y
  exact broadcastInDim_apply _ bcast_S_S1024x4 y i (idx_main_call6_v0 i) (fun a => a.elim0)

def val_main_call6_v1 : (⟨S1024x4, .f32⟩ : BufTy).Contents (Elt F) :=
  maximumf (val_main_v148 (F := F) x0 x2 x5 x6 x7 x8 x11 x12) (val_main_call6_v0 (F := F))
theorem val_main_call6_v1_apply (i : S1024x4.Idx) :
    val_main_call6_v1 (F := F) x0 x2 x5 x6 x7 x8 x11 x12 i = FloatOps.maximumf (val_main_v148 (F := F) x0 x2 x5 x6 x7 x8 x11 x12 i) (val_main_call6_v0 (F := F) i) := rfl

def val_main_call6_v2 : (⟨S1024x4, .f32⟩ : BufTy).Contents (Elt F) :=
  broadcastInDim S1024x4 ![] bcast_S_S1024x4 (val_main_call6_cst (F := F))
abbrev idx_main_call6_v2 (i : S1024x4.Idx) : S_.Idx := fun a => a.elim0
theorem val_main_call6_v2_apply (i : S1024x4.Idx) :
    val_main_call6_v2 (F := F) i = val_main_call6_cst (F := F) (idx_main_call6_v2 i) := by
  unfold val_main_call6_v2
  generalize val_main_call6_cst (F := F) = y
  exact broadcastInDim_apply _ bcast_S_S1024x4 y i (idx_main_call6_v2 i) (fun a => a.elim0)

def val_main_call6_v3 : (⟨S1024x4, .f32⟩ : BufTy).Contents (Elt F) :=
  subf (val_main_v148 (F := F) x0 x2 x5 x6 x7 x8 x11 x12) (val_main_call6_v2 (F := F))
theorem val_main_call6_v3_apply (i : S1024x4.Idx) :
    val_main_call6_v3 (F := F) x0 x2 x5 x6 x7 x8 x11 x12 i = FloatOps.subf (val_main_v148 (F := F) x0 x2 x5 x6 x7 x8 x11 x12 i) (val_main_call6_v2 (F := F) i) := rfl

def val_main_call6_v4 : (⟨S1024x4, .i1⟩ : BufTy).Contents (Elt F) :=
  cmpf .une (val_main_call6_v3 (F := F) x0 x2 x5 x6 x7 x8 x11 x12) (val_main_call6_v3 (F := F) x0 x2 x5 x6 x7 x8 x11 x12)
theorem val_main_call6_v4_apply (i : S1024x4.Idx) :
    val_main_call6_v4 (F := F) x0 x2 x5 x6 x7 x8 x11 x12 i = FloatOps.cmpf .une (val_main_call6_v3 (F := F) x0 x2 x5 x6 x7 x8 x11 x12 i) (val_main_call6_v3 (F := F) x0 x2 x5 x6 x7 x8 x11 x12 i) := rfl

def val_main_call6_v5 : (⟨S1024x4, .f32⟩ : BufTy).Contents (Elt F) :=
  broadcastInDim S1024x4 ![] bcast_S_S1024x4 (val_main_call6_cst (F := F))
abbrev idx_main_call6_v5 (i : S1024x4.Idx) : S_.Idx := fun a => a.elim0
theorem val_main_call6_v5_apply (i : S1024x4.Idx) :
    val_main_call6_v5 (F := F) i = val_main_call6_cst (F := F) (idx_main_call6_v5 i) := by
  unfold val_main_call6_v5
  generalize val_main_call6_cst (F := F) = y
  exact broadcastInDim_apply _ bcast_S_S1024x4 y i (idx_main_call6_v5 i) (fun a => a.elim0)

def val_main_call6_v6 : (⟨S1024x4, .f32⟩ : BufTy).Contents (Elt F) :=
  addf (val_main_v148 (F := F) x0 x2 x5 x6 x7 x8 x11 x12) (val_main_call6_v5 (F := F))
theorem val_main_call6_v6_apply (i : S1024x4.Idx) :
    val_main_call6_v6 (F := F) x0 x2 x5 x6 x7 x8 x11 x12 i = FloatOps.addf (val_main_v148 (F := F) x0 x2 x5 x6 x7 x8 x11 x12 i) (val_main_call6_v5 (F := F) i) := rfl

def val_main_call6_v7 : (⟨S1024x4, .f32⟩ : BufTy).Contents (Elt F) :=
  Host.absf (val_main_call6_v3 (F := F) x0 x2 x5 x6 x7 x8 x11 x12)
theorem val_main_call6_v7_apply (i : S1024x4.Idx) :
    val_main_call6_v7 (F := F) x0 x2 x5 x6 x7 x8 x11 x12 i = FloatOps.hostAbsf (val_main_call6_v3 (F := F) x0 x2 x5 x6 x7 x8 x11 x12 i) := rfl

def val_main_call6_v8 : (⟨S1024x4, .f32⟩ : BufTy).Contents (Elt F) :=
  Host.negf (val_main_call6_v7 (F := F) x0 x2 x5 x6 x7 x8 x11 x12)
theorem val_main_call6_v8_apply (i : S1024x4.Idx) :
    val_main_call6_v8 (F := F) x0 x2 x5 x6 x7 x8 x11 x12 i = FloatOps.hostNegf (val_main_call6_v7 (F := F) x0 x2 x5 x6 x7 x8 x11 x12 i) := rfl

def val_main_call6_v9 : (⟨S1024x4, .f32⟩ : BufTy).Contents (Elt F) :=
  Host.exp (val_main_call6_v8 (F := F) x0 x2 x5 x6 x7 x8 x11 x12)
theorem val_main_call6_v9_apply (i : S1024x4.Idx) :
    val_main_call6_v9 (F := F) x0 x2 x5 x6 x7 x8 x11 x12 i = FloatOps.hostUnary .exp (val_main_call6_v8 (F := F) x0 x2 x5 x6 x7 x8 x11 x12 i) := rfl

def val_main_call6_v10 : (⟨S1024x4, .f32⟩ : BufTy).Contents (Elt F) :=
  Host.log1p (val_main_call6_v9 (F := F) x0 x2 x5 x6 x7 x8 x11 x12)
theorem val_main_call6_v10_apply (i : S1024x4.Idx) :
    val_main_call6_v10 (F := F) x0 x2 x5 x6 x7 x8 x11 x12 i = FloatOps.hostUnary .log1p (val_main_call6_v9 (F := F) x0 x2 x5 x6 x7 x8 x11 x12 i) := rfl

def val_main_call6_v11 : (⟨S1024x4, .f32⟩ : BufTy).Contents (Elt F) :=
  addf (val_main_call6_v1 (F := F) x0 x2 x5 x6 x7 x8 x11 x12) (val_main_call6_v10 (F := F) x0 x2 x5 x6 x7 x8 x11 x12)
theorem val_main_call6_v11_apply (i : S1024x4.Idx) :
    val_main_call6_v11 (F := F) x0 x2 x5 x6 x7 x8 x11 x12 i = FloatOps.addf (val_main_call6_v1 (F := F) x0 x2 x5 x6 x7 x8 x11 x12 i) (val_main_call6_v10 (F := F) x0 x2 x5 x6 x7 x8 x11 x12 i) := rfl

def val_main_v154 : (⟨S1024x4, .f32⟩ : BufTy).Contents (Elt F) :=
  select (val_main_call6_v4 (F := F) x0 x2 x5 x6 x7 x8 x11 x12) (val_main_call6_v6 (F := F) x0 x2 x5 x6 x7 x8 x11 x12) (val_main_call6_v11 (F := F) x0 x2 x5 x6 x7 x8 x11 x12)
theorem val_main_v154_apply (i : S1024x4.Idx) :
    val_main_v154 (F := F) x0 x2 x5 x6 x7 x8 x11 x12 i = Scalar.select (val_main_call6_v4 (F := F) x0 x2 x5 x6 x7 x8 x11 x12 i) (val_main_call6_v6 (F := F) x0 x2 x5 x6 x7 x8 x11 x12 i) (val_main_call6_v11 (F := F) x0 x2 x5 x6 x7 x8 x11 x12 i) := rfl

def val_main_call7_v0 : (⟨S1024x4x128, .f32⟩ : BufTy).Contents (Elt F) :=
  mulf (val_main_v146 (F := F) x0 x2 x5 x6 x7 x8 x11 x12) (val_main_v146 (F := F) x0 x2 x5 x6 x7 x8 x11 x12)
theorem val_main_call7_v0_apply (i : S1024x4x128.Idx) :
    val_main_call7_v0 (F := F) x0 x2 x5 x6 x7 x8 x11 x12 i = FloatOps.mulf (val_main_v146 (F := F) x0 x2 x5 x6 x7 x8 x11 x12 i) (val_main_v146 (F := F) x0 x2 x5 x6 x7 x8 x11 x12 i) := rfl

def val_main_call7_cst : (⟨S_, .f32⟩ : BufTy).Contents (Elt F) :=
  constant S_ .f32 0x00000000#32
theorem val_main_call7_cst_apply (i : S_.Idx) :
    val_main_call7_cst (F := F) i = FloatOps.ofBits .f32 0x00000000#32 := rfl

def val_main_call7_v1 : (⟨S1024x4, .f32⟩ : BufTy).Contents (Elt F) :=
  Host.reduceAdd (val_main_call7_v0 (F := F) x0 x2 x5 x6 x7 x8 x11 x12) (val_main_call7_cst (F := F)) reducesTo_S1024x4x128_S1024x4_d2 h_S_
abbrev idx_main_call7_v1 (i : S1024x4.Idx) (k : Fin 128) : S1024x4x128.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_call7_v1_apply (x0 : (⟨S1024x128, .f32⟩ : BufTy).Contents (Elt Ideal)) (x2 : (⟨S1024x256, .f32⟩ : BufTy).Contents (Elt Ideal)) (x5 : (⟨S768x128, .f32⟩ : BufTy).Contents (Elt Ideal)) (x6 : (⟨S768x256, .f32⟩ : BufTy).Contents (Elt Ideal)) (x7 x8 : (⟨S768, .f32⟩ : BufTy).Contents (Elt Ideal)) (x11 : (⟨S1560x256, .f32⟩ : BufTy).Contents (Elt Ideal)) (x12 : (⟨S1560, .f32⟩ : BufTy).Contents (Elt Ideal)) (i : S1024x4.Idx) :
    val_main_call7_v1 (F := Ideal) x0 x2 x5 x6 x7 x8 x11 x12 i = (val_main_call7_cst (F := Ideal)) (Shape.Idx.first h_S_) + ∑ k : Fin 128, (val_main_call7_v0 (F := Ideal) x0 x2 x5 x6 x7 x8 x11 x12) (idx_main_call7_v1 i k) := by
  unfold val_main_call7_v1
  generalize val_main_call7_v0 (F := Ideal) x0 x2 x5 x6 x7 x8 x11 x12 = y0
  simp only [Host.reduceAdd, Ideal.hostReduceAdd_def]
  rw [Ideal.hostReduceAdd_single reducesTo_S1024x4x128_S1024x4_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_call7_v2 : (⟨S1024x4x1, .f32⟩ : BufTy).Contents (Elt F) :=
  broadcastInDim S1024x4x1 ![0, 1] bcast_S1024x4_S1024x4x1_0_1 (val_main_call7_v1 (F := F) x0 x2 x5 x6 x7 x8 x11 x12)
abbrev idx_main_call7_v2 (i : S1024x4x1.Idx) : S1024x4.Idx := fun a => match a with
  | ⟨0, _⟩ => ⟨(i 0).val, (i 0).isLt⟩
  | ⟨1, _⟩ => ⟨(i 1).val, (i 1).isLt⟩
theorem val_main_call7_v2_apply (i : S1024x4x1.Idx) :
    val_main_call7_v2 (F := F) x0 x2 x5 x6 x7 x8 x11 x12 i = val_main_call7_v1 (F := F) x0 x2 x5 x6 x7 x8 x11 x12 (idx_main_call7_v2 i) := by
  unfold val_main_call7_v2
  generalize val_main_call7_v1 (F := F) x0 x2 x5 x6 x7 x8 x11 x12 = y
  exact broadcastInDim_apply _ bcast_S1024x4_S1024x4x1_0_1 y i (idx_main_call7_v2 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)])

def val_main_v155 : (⟨S1024x4x1, .f32⟩ : BufTy).Contents (Elt F) :=
  Host.sqrt (val_main_call7_v2 (F := F) x0 x2 x5 x6 x7 x8 x11 x12)
theorem val_main_v155_apply (i : S1024x4x1.Idx) :
    val_main_v155 (F := F) x0 x2 x5 x6 x7 x8 x11 x12 i = FloatOps.hostUnary .sqrt (val_main_call7_v2 (F := F) x0 x2 x5 x6 x7 x8 x11 x12 i) := rfl

def val_main_cst_19 : (⟨S_, .f32⟩ : BufTy).Contents (Elt F) :=
  constant S_ .f32 0x2B8CBCCC#32
theorem val_main_cst_19_apply (i : S_.Idx) :
    val_main_cst_19 (F := F) i = FloatOps.ofBits .f32 0x2B8CBCCC#32 := rfl

def val_main_v156 : (⟨S1024x4x1, .f32⟩ : BufTy).Contents (Elt F) :=
  broadcastInDim S1024x4x1 ![] bcast_S_S1024x4x1 (val_main_cst_19 (F := F))
abbrev idx_main_v156 (i : S1024x4x1.Idx) : S_.Idx := fun a => a.elim0
theorem val_main_v156_apply (i : S1024x4x1.Idx) :
    val_main_v156 (F := F) i = val_main_cst_19 (F := F) (idx_main_v156 i) := by
  unfold val_main_v156
  generalize val_main_cst_19 (F := F) = y
  exact broadcastInDim_apply _ bcast_S_S1024x4x1 y i (idx_main_v156 i) (fun a => a.elim0)

def val_main_v157 : (⟨S1024x4x1, .f32⟩ : BufTy).Contents (Elt F) :=
  addf (val_main_v155 (F := F) x0 x2 x5 x6 x7 x8 x11 x12) (val_main_v156 (F := F))
theorem val_main_v157_apply (i : S1024x4x1.Idx) :
    val_main_v157 (F := F) x0 x2 x5 x6 x7 x8 x11 x12 i = FloatOps.addf (val_main_v155 (F := F) x0 x2 x5 x6 x7 x8 x11 x12 i) (val_main_v156 (F := F) i) := rfl

def val_main_v158 : (⟨S1024x4x128, .f32⟩ : BufTy).Contents (Elt F) :=
  broadcastInDim S1024x4x128 ![0, 1, 2] bcast_S1024x4x1_S1024x4x128_0_1_2 (val_main_v157 (F := F) x0 x2 x5 x6 x7 x8 x11 x12)
abbrev idx_main_v158 (i : S1024x4x128.Idx) : S1024x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v158_apply (i : S1024x4x128.Idx) :
    val_main_v158 (F := F) x0 x2 x5 x6 x7 x8 x11 x12 i = val_main_v157 (F := F) x0 x2 x5 x6 x7 x8 x11 x12 (idx_main_v158 i) := by
  unfold val_main_v158
  generalize val_main_v157 (F := F) x0 x2 x5 x6 x7 x8 x11 x12 = y
  exact broadcastInDim_apply _ bcast_S1024x4x1_S1024x4x128_0_1_2 y i (idx_main_v158 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

def val_main_v159 : (⟨S1024x4x128, .f32⟩ : BufTy).Contents (Elt F) :=
  Host.divf (val_main_v146 (F := F) x0 x2 x5 x6 x7 x8 x11 x12) (val_main_v158 (F := F) x0 x2 x5 x6 x7 x8 x11 x12)
theorem val_main_v159_apply (i : S1024x4x128.Idx) :
    val_main_v159 (F := F) x0 x2 x5 x6 x7 x8 x11 x12 i = FloatOps.hostDivf (val_main_v146 (F := F) x0 x2 x5 x6 x7 x8 x11 x12 i) (val_main_v158 (F := F) x0 x2 x5 x6 x7 x8 x11 x12 i) := rfl

def val_main_v160 : (⟨S1024x4x512, .f32⟩ : BufTy).Contents (Elt F) :=
  Host.dotGeneral dot_S1024x4x128_S1024x512x128_S1024x4x512_2_2_1_1_0_0 none (val_main_v159 (F := F) x0 x2 x5 x6 x7 x8 x11 x12) (val_main_v42 (F := F) x1)
theorem lhs_main_v160_0 (i : S1024x4x512.Idx) (q : dot_S1024x4x128_S1024x512x128_S1024x4x512_2_2_1_1_0_0.contr.Idx) :
    (dot_S1024x4x128_S1024x512x128_S1024x4x512_2_2_1_1_0_0.lhsIdx i q 0).val = (i 0).val := by
  unfold DotDims.lhsIdx
  rw [dif_pos (show (0 : Fin S1024x4x128.rank) ∈ dot_S1024x4x128_S1024x512x128_S1024x4x512_2_2_1_1_0_0.lhsBatch by decide)]
  rfl
theorem lhs_main_v160_1 (i : S1024x4x512.Idx) (q : dot_S1024x4x128_S1024x512x128_S1024x4x512_2_2_1_1_0_0.contr.Idx) :
    (dot_S1024x4x128_S1024x512x128_S1024x4x512_2_2_1_1_0_0.lhsIdx i q 1).val = (i 1).val := by
  unfold DotDims.lhsIdx
  rw [dif_neg (show ¬(1 : Fin S1024x4x128.rank) ∈ dot_S1024x4x128_S1024x512x128_S1024x4x512_2_2_1_1_0_0.lhsBatch by decide), dif_pos (show (1 : Fin S1024x4x128.rank) ∈ dot_S1024x4x128_S1024x512x128_S1024x4x512_2_2_1_1_0_0.lhsNonContracting by decide)]
  rfl
theorem lhs_main_v160_2 (i : S1024x4x512.Idx) (q : dot_S1024x4x128_S1024x512x128_S1024x4x512_2_2_1_1_0_0.contr.Idx) :
    (dot_S1024x4x128_S1024x512x128_S1024x4x512_2_2_1_1_0_0.lhsIdx i q 2).val = (q ⟨0, by decide⟩).val :=
  dot_S1024x4x128_S1024x512x128_S1024x4x512_2_2_1_1_0_0.lhsIdx_val_of_single rfl i q
theorem rhs_main_v160_0 (i : S1024x4x512.Idx) (q : dot_S1024x4x128_S1024x512x128_S1024x4x512_2_2_1_1_0_0.contr.Idx) :
    (dot_S1024x4x128_S1024x512x128_S1024x4x512_2_2_1_1_0_0.rhsIdx i q 0).val = (i 0).val := by
  unfold DotDims.rhsIdx
  rw [dif_pos (show (0 : Fin S1024x512x128.rank) ∈ dot_S1024x4x128_S1024x512x128_S1024x4x512_2_2_1_1_0_0.rhsBatch by decide)]
  rfl
theorem rhs_main_v160_1 (i : S1024x4x512.Idx) (q : dot_S1024x4x128_S1024x512x128_S1024x4x512_2_2_1_1_0_0.contr.Idx) :
    (dot_S1024x4x128_S1024x512x128_S1024x4x512_2_2_1_1_0_0.rhsIdx i q 1).val = (i 2).val := by
  unfold DotDims.rhsIdx
  rw [dif_neg (show ¬(1 : Fin S1024x512x128.rank) ∈ dot_S1024x4x128_S1024x512x128_S1024x4x512_2_2_1_1_0_0.rhsBatch by decide), dif_pos (show (1 : Fin S1024x512x128.rank) ∈ dot_S1024x4x128_S1024x512x128_S1024x4x512_2_2_1_1_0_0.rhsNonContracting by decide)]
  rfl
theorem rhs_main_v160_2 (i : S1024x4x512.Idx) (q : dot_S1024x4x128_S1024x512x128_S1024x4x512_2_2_1_1_0_0.contr.Idx) :
    (dot_S1024x4x128_S1024x512x128_S1024x4x512_2_2_1_1_0_0.rhsIdx i q 2).val = (q ⟨0, by decide⟩).val :=
  dot_S1024x4x128_S1024x512x128_S1024x4x512_2_2_1_1_0_0.rhsIdx_val_of_single rfl i q
abbrev lidx_main_v160 (i : S1024x4x512.Idx) (k : Fin 128) : S1024x4x128.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v160 (i : S1024x4x512.Idx) (k : Fin 128) : S1024x512x128.Idx := fun a => match a with
  | ⟨0, _⟩ => ⟨(i 0).val, (i 0).isLt⟩
  | ⟨1, _⟩ => ⟨(i 2).val, (i 2).isLt⟩
  | ⟨2, _⟩ => ⟨k.val, k.isLt⟩
/-- Stated at `F := Ideal`, where the host's `dot_general` is this sum; at a bit-exact instance it is an opaque function of its operands. -/
theorem val_main_v160_apply (x0 : (⟨S1024x128, .f32⟩ : BufTy).Contents (Elt Ideal)) (x1 : (⟨S1024x512x128, .f32⟩ : BufTy).Contents (Elt Ideal)) (x2 : (⟨S1024x256, .f32⟩ : BufTy).Contents (Elt Ideal)) (x5 : (⟨S768x128, .f32⟩ : BufTy).Contents (Elt Ideal)) (x6 : (⟨S768x256, .f32⟩ : BufTy).Contents (Elt Ideal)) (x7 x8 : (⟨S768, .f32⟩ : BufTy).Contents (Elt Ideal)) (x11 : (⟨S1560x256, .f32⟩ : BufTy).Contents (Elt Ideal)) (x12 : (⟨S1560, .f32⟩ : BufTy).Contents (Elt Ideal)) (i : S1024x4x512.Idx) :
    val_main_v160 (F := Ideal) x0 x1 x2 x5 x6 x7 x8 x11 x12 i = ∑ k : Fin 128, (val_main_v159 (F := Ideal) x0 x2 x5 x6 x7 x8 x11 x12) (lidx_main_v160 i k) * (val_main_v42 (F := Ideal) x1) (ridx_main_v160 i k) := by
  unfold val_main_v160
  generalize val_main_v159 (F := Ideal) x0 x2 x5 x6 x7 x8 x11 x12 = y0
  generalize val_main_v42 (F := Ideal) x1 = y1
  simp only [Host.dotGeneral]
  rw [Ideal.dotGeneral_apply, ← Equiv.sum_comp (ValueIdx.contrEquiv1 dot_S1024x4x128_S1024x512x128_S1024x4x512_2_2_1_1_0_0 128 rfl rfl).symm]
  refine Finset.sum_congr rfl fun k _ => ?_
  have hk := ValueIdx.contrEquiv1_symm_val dot_S1024x4x128_S1024x512x128_S1024x4x512_2_2_1_1_0_0 128 rfl rfl k
  have el : dot_S1024x4x128_S1024x512x128_S1024x4x512_2_2_1_1_0_0.lhsIdx i ((ValueIdx.contrEquiv1 dot_S1024x4x128_S1024x512x128_S1024x4x512_2_2_1_1_0_0 128 rfl rfl).symm k) = lidx_main_v160 i k := funext fun a => Fin.ext (by
    match a with
    | ⟨0, _⟩ => exact lhs_main_v160_0 _ _
    | ⟨1, _⟩ => exact lhs_main_v160_1 _ _
    | ⟨2, _⟩ => exact (lhs_main_v160_2 _ _).trans hk)
  have er : dot_S1024x4x128_S1024x512x128_S1024x4x512_2_2_1_1_0_0.rhsIdx i ((ValueIdx.contrEquiv1 dot_S1024x4x128_S1024x512x128_S1024x4x512_2_2_1_1_0_0 128 rfl rfl).symm k) = ridx_main_v160 i k := funext fun a => Fin.ext (by
    match a with
    | ⟨0, _⟩ => exact rhs_main_v160_0 _ _
    | ⟨1, _⟩ => exact rhs_main_v160_1 _ _
    | ⟨2, _⟩ => exact (rhs_main_v160_2 _ _).trans hk)
  rw [el, er]

def val_main_v161 : (⟨S1024x4x1, .f32⟩ : BufTy).Contents (Elt F) :=
  broadcastInDim S1024x4x1 ![0, 1] bcast_S1024x4_S1024x4x1_0_1 (val_main_v154 (F := F) x0 x2 x5 x6 x7 x8 x11 x12)
abbrev idx_main_v161 (i : S1024x4x1.Idx) : S1024x4.Idx := fun a => match a with
  | ⟨0, _⟩ => ⟨(i 0).val, (i 0).isLt⟩
  | ⟨1, _⟩ => ⟨(i 1).val, (i 1).isLt⟩
theorem val_main_v161_apply (i : S1024x4x1.Idx) :
    val_main_v161 (F := F) x0 x2 x5 x6 x7 x8 x11 x12 i = val_main_v154 (F := F) x0 x2 x5 x6 x7 x8 x11 x12 (idx_main_v161 i) := by
  unfold val_main_v161
  generalize val_main_v154 (F := F) x0 x2 x5 x6 x7 x8 x11 x12 = y
  exact broadcastInDim_apply _ bcast_S1024x4_S1024x4x1_0_1 y i (idx_main_v161 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)])

def val_main_v162 : (⟨S1024x4x512, .f32⟩ : BufTy).Contents (Elt F) :=
  broadcastInDim S1024x4x512 ![0, 1, 2] bcast_S1024x4x1_S1024x4x512_0_1_2 (val_main_v161 (F := F) x0 x2 x5 x6 x7 x8 x11 x12)
abbrev idx_main_v162 (i : S1024x4x512.Idx) : S1024x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v162_apply (i : S1024x4x512.Idx) :
    val_main_v162 (F := F) x0 x2 x5 x6 x7 x8 x11 x12 i = val_main_v161 (F := F) x0 x2 x5 x6 x7 x8 x11 x12 (idx_main_v162 i) := by
  unfold val_main_v162
  generalize val_main_v161 (F := F) x0 x2 x5 x6 x7 x8 x11 x12 = y
  exact broadcastInDim_apply _ bcast_S1024x4x1_S1024x4x512_0_1_2 y i (idx_main_v162 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

def val_main_v163 : (⟨S1024x4x512, .f32⟩ : BufTy).Contents (Elt F) :=
  mulf (val_main_v162 (F := F) x0 x2 x5 x6 x7 x8 x11 x12) (val_main_v160 (F := F) x0 x1 x2 x5 x6 x7 x8 x11 x12)
theorem val_main_v163_apply (i : S1024x4x512.Idx) :
    val_main_v163 (F := F) x0 x1 x2 x5 x6 x7 x8 x11 x12 i = FloatOps.mulf (val_main_v162 (F := F) x0 x2 x5 x6 x7 x8 x11 x12 i) (val_main_v160 (F := F) x0 x1 x2 x5 x6 x7 x8 x11 x12 i) := rfl

def val_main_cst_20 : (⟨S_, .f32⟩ : BufTy).Contents (Elt F) :=
  constant S_ .f32 0xFF800000#32
theorem val_main_cst_20_apply (i : S_.Idx) :
    val_main_cst_20 (F := F) i = FloatOps.ofBits .f32 0xFF800000#32 := rfl

def val_main_v164 : (⟨S1024x4, .f32⟩ : BufTy).Contents (Elt F) :=
  Host.reduce FloatOps.maximumf (val_main_v163 (F := F) x0 x1 x2 x5 x6 x7 x8 x11 x12) (val_main_cst_20 (F := F)) reducesTo_S1024x4x512_S1024x4_d2 h_S_

def val_main_cst_21 : (⟨S_, .f32⟩ : BufTy).Contents (Elt F) :=
  constant S_ .f32 0xFF800000#32
theorem val_main_cst_21_apply (i : S_.Idx) :
    val_main_cst_21 (F := F) i = FloatOps.ofBits .f32 0xFF800000#32 := rfl

def val_main_v165 : (⟨S1024x4, .f32⟩ : BufTy).Contents (Elt F) :=
  broadcastInDim S1024x4 ![] bcast_S_S1024x4 (val_main_cst_21 (F := F))
abbrev idx_main_v165 (i : S1024x4.Idx) : S_.Idx := fun a => a.elim0
theorem val_main_v165_apply (i : S1024x4.Idx) :
    val_main_v165 (F := F) i = val_main_cst_21 (F := F) (idx_main_v165 i) := by
  unfold val_main_v165
  generalize val_main_cst_21 (F := F) = y
  exact broadcastInDim_apply _ bcast_S_S1024x4 y i (idx_main_v165 i) (fun a => a.elim0)

def val_main_v166 : (⟨S1024x4, .f32⟩ : BufTy).Contents (Elt F) :=
  maximumf (val_main_v165 (F := F)) (val_main_v164 (F := F) x0 x1 x2 x5 x6 x7 x8 x11 x12)
theorem val_main_v166_apply (i : S1024x4.Idx) :
    val_main_v166 (F := F) x0 x1 x2 x5 x6 x7 x8 x11 x12 i = FloatOps.maximumf (val_main_v165 (F := F) i) (val_main_v164 (F := F) x0 x1 x2 x5 x6 x7 x8 x11 x12 i) := rfl

def val_main_v167 : (⟨S1024x4x1, .f32⟩ : BufTy).Contents (Elt F) :=
  broadcastInDim S1024x4x1 ![0, 1] bcast_S1024x4_S1024x4x1_0_1 (val_main_v166 (F := F) x0 x1 x2 x5 x6 x7 x8 x11 x12)
abbrev idx_main_v167 (i : S1024x4x1.Idx) : S1024x4.Idx := fun a => match a with
  | ⟨0, _⟩ => ⟨(i 0).val, (i 0).isLt⟩
  | ⟨1, _⟩ => ⟨(i 1).val, (i 1).isLt⟩
theorem val_main_v167_apply (i : S1024x4x1.Idx) :
    val_main_v167 (F := F) x0 x1 x2 x5 x6 x7 x8 x11 x12 i = val_main_v166 (F := F) x0 x1 x2 x5 x6 x7 x8 x11 x12 (idx_main_v167 i) := by
  unfold val_main_v167
  generalize val_main_v166 (F := F) x0 x1 x2 x5 x6 x7 x8 x11 x12 = y
  exact broadcastInDim_apply _ bcast_S1024x4_S1024x4x1_0_1 y i (idx_main_v167 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)])

def val_main_v168 : (⟨S1024x4x512, .f32⟩ : BufTy).Contents (Elt F) :=
  broadcastInDim S1024x4x512 ![0, 1, 2] bcast_S1024x4x1_S1024x4x512_0_1_2 (val_main_v167 (F := F) x0 x1 x2 x5 x6 x7 x8 x11 x12)
abbrev idx_main_v168 (i : S1024x4x512.Idx) : S1024x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v168_apply (i : S1024x4x512.Idx) :
    val_main_v168 (F := F) x0 x1 x2 x5 x6 x7 x8 x11 x12 i = val_main_v167 (F := F) x0 x1 x2 x5 x6 x7 x8 x11 x12 (idx_main_v168 i) := by
  unfold val_main_v168
  generalize val_main_v167 (F := F) x0 x1 x2 x5 x6 x7 x8 x11 x12 = y
  exact broadcastInDim_apply _ bcast_S1024x4x1_S1024x4x512_0_1_2 y i (idx_main_v168 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

def val_main_v169 : (⟨S1024x4x512, .f32⟩ : BufTy).Contents (Elt F) :=
  subf (val_main_v163 (F := F) x0 x1 x2 x5 x6 x7 x8 x11 x12) (val_main_v168 (F := F) x0 x1 x2 x5 x6 x7 x8 x11 x12)
theorem val_main_v169_apply (i : S1024x4x512.Idx) :
    val_main_v169 (F := F) x0 x1 x2 x5 x6 x7 x8 x11 x12 i = FloatOps.subf (val_main_v163 (F := F) x0 x1 x2 x5 x6 x7 x8 x11 x12 i) (val_main_v168 (F := F) x0 x1 x2 x5 x6 x7 x8 x11 x12 i) := rfl

def val_main_v170 : (⟨S1024x4x512, .f32⟩ : BufTy).Contents (Elt F) :=
  Host.exp (val_main_v169 (F := F) x0 x1 x2 x5 x6 x7 x8 x11 x12)
theorem val_main_v170_apply (i : S1024x4x512.Idx) :
    val_main_v170 (F := F) x0 x1 x2 x5 x6 x7 x8 x11 x12 i = FloatOps.hostUnary .exp (val_main_v169 (F := F) x0 x1 x2 x5 x6 x7 x8 x11 x12 i) := rfl

def val_main_cst_22 : (⟨S_, .f32⟩ : BufTy).Contents (Elt F) :=
  constant S_ .f32 0x00000000#32
theorem val_main_cst_22_apply (i : S_.Idx) :
    val_main_cst_22 (F := F) i = FloatOps.ofBits .f32 0x00000000#32 := rfl

def val_main_v171 : (⟨S1024x4, .f32⟩ : BufTy).Contents (Elt F) :=
  Host.reduceAdd (val_main_v170 (F := F) x0 x1 x2 x5 x6 x7 x8 x11 x12) (val_main_cst_22 (F := F)) reducesTo_S1024x4x512_S1024x4_d2 h_S_
abbrev idx_main_v171 (i : S1024x4.Idx) (k : Fin 512) : S1024x4x512.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v171_apply (x0 : (⟨S1024x128, .f32⟩ : BufTy).Contents (Elt Ideal)) (x1 : (⟨S1024x512x128, .f32⟩ : BufTy).Contents (Elt Ideal)) (x2 : (⟨S1024x256, .f32⟩ : BufTy).Contents (Elt Ideal)) (x5 : (⟨S768x128, .f32⟩ : BufTy).Contents (Elt Ideal)) (x6 : (⟨S768x256, .f32⟩ : BufTy).Contents (Elt Ideal)) (x7 x8 : (⟨S768, .f32⟩ : BufTy).Contents (Elt Ideal)) (x11 : (⟨S1560x256, .f32⟩ : BufTy).Contents (Elt Ideal)) (x12 : (⟨S1560, .f32⟩ : BufTy).Contents (Elt Ideal)) (i : S1024x4.Idx) :
    val_main_v171 (F := Ideal) x0 x1 x2 x5 x6 x7 x8 x11 x12 i = (val_main_cst_22 (F := Ideal)) (Shape.Idx.first h_S_) + ∑ k : Fin 512, (val_main_v170 (F := Ideal) x0 x1 x2 x5 x6 x7 x8 x11 x12) (idx_main_v171 i k) := by
  unfold val_main_v171
  generalize val_main_v170 (F := Ideal) x0 x1 x2 x5 x6 x7 x8 x11 x12 = y0
  simp only [Host.reduceAdd, Ideal.hostReduceAdd_def]
  rw [Ideal.hostReduceAdd_single reducesTo_S1024x4x512_S1024x4_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_v172 : (⟨S1024x4x1, .f32⟩ : BufTy).Contents (Elt F) :=
  broadcastInDim S1024x4x1 ![0, 1] bcast_S1024x4_S1024x4x1_0_1 (val_main_v171 (F := F) x0 x1 x2 x5 x6 x7 x8 x11 x12)
abbrev idx_main_v172 (i : S1024x4x1.Idx) : S1024x4.Idx := fun a => match a with
  | ⟨0, _⟩ => ⟨(i 0).val, (i 0).isLt⟩
  | ⟨1, _⟩ => ⟨(i 1).val, (i 1).isLt⟩
theorem val_main_v172_apply (i : S1024x4x1.Idx) :
    val_main_v172 (F := F) x0 x1 x2 x5 x6 x7 x8 x11 x12 i = val_main_v171 (F := F) x0 x1 x2 x5 x6 x7 x8 x11 x12 (idx_main_v172 i) := by
  unfold val_main_v172
  generalize val_main_v171 (F := F) x0 x1 x2 x5 x6 x7 x8 x11 x12 = y
  exact broadcastInDim_apply _ bcast_S1024x4_S1024x4x1_0_1 y i (idx_main_v172 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)])

def val_main_v173 : (⟨S1024x4x512, .f32⟩ : BufTy).Contents (Elt F) :=
  broadcastInDim S1024x4x512 ![0, 1, 2] bcast_S1024x4x1_S1024x4x512_0_1_2 (val_main_v172 (F := F) x0 x1 x2 x5 x6 x7 x8 x11 x12)
abbrev idx_main_v173 (i : S1024x4x512.Idx) : S1024x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v173_apply (i : S1024x4x512.Idx) :
    val_main_v173 (F := F) x0 x1 x2 x5 x6 x7 x8 x11 x12 i = val_main_v172 (F := F) x0 x1 x2 x5 x6 x7 x8 x11 x12 (idx_main_v173 i) := by
  unfold val_main_v173
  generalize val_main_v172 (F := F) x0 x1 x2 x5 x6 x7 x8 x11 x12 = y
  exact broadcastInDim_apply _ bcast_S1024x4x1_S1024x4x512_0_1_2 y i (idx_main_v173 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

def val_main_v174 : (⟨S1024x4x512, .f32⟩ : BufTy).Contents (Elt F) :=
  Host.divf (val_main_v170 (F := F) x0 x1 x2 x5 x6 x7 x8 x11 x12) (val_main_v173 (F := F) x0 x1 x2 x5 x6 x7 x8 x11 x12)
theorem val_main_v174_apply (i : S1024x4x512.Idx) :
    val_main_v174 (F := F) x0 x1 x2 x5 x6 x7 x8 x11 x12 i = FloatOps.hostDivf (val_main_v170 (F := F) x0 x1 x2 x5 x6 x7 x8 x11 x12 i) (val_main_v173 (F := F) x0 x1 x2 x5 x6 x7 x8 x11 x12 i) := rfl

def val_main_v175 : (⟨S1024x4, .f32⟩ : BufTy).Contents (Elt F) :=
  Host.negf (val_main_v150 (F := F) x0 x2 x5 x6 x7 x8 x11 x12)
theorem val_main_v175_apply (i : S1024x4.Idx) :
    val_main_v175 (F := F) x0 x2 x5 x6 x7 x8 x11 x12 i = FloatOps.hostNegf (val_main_v150 (F := F) x0 x2 x5 x6 x7 x8 x11 x12 i) := rfl

def val_main_v176 : (⟨S1024x4, .f32⟩ : BufTy).Contents (Elt F) :=
  Host.exp (val_main_v175 (F := F) x0 x2 x5 x6 x7 x8 x11 x12)
theorem val_main_v176_apply (i : S1024x4.Idx) :
    val_main_v176 (F := F) x0 x2 x5 x6 x7 x8 x11 x12 i = FloatOps.hostUnary .exp (val_main_v175 (F := F) x0 x2 x5 x6 x7 x8 x11 x12 i) := rfl

def val_main_cst_23 : (⟨S_, .f32⟩ : BufTy).Contents (Elt F) :=
  constant S_ .f32 0x3F800000#32
theorem val_main_cst_23_apply (i : S_.Idx) :
    val_main_cst_23 (F := F) i = FloatOps.ofBits .f32 0x3F800000#32 := rfl

def val_main_v177 : (⟨S1024x4, .f32⟩ : BufTy).Contents (Elt F) :=
  broadcastInDim S1024x4 ![] bcast_S_S1024x4 (val_main_cst_23 (F := F))
abbrev idx_main_v177 (i : S1024x4.Idx) : S_.Idx := fun a => a.elim0
theorem val_main_v177_apply (i : S1024x4.Idx) :
    val_main_v177 (F := F) i = val_main_cst_23 (F := F) (idx_main_v177 i) := by
  unfold val_main_v177
  generalize val_main_cst_23 (F := F) = y
  exact broadcastInDim_apply _ bcast_S_S1024x4 y i (idx_main_v177 i) (fun a => a.elim0)

def val_main_v178 : (⟨S1024x4, .f32⟩ : BufTy).Contents (Elt F) :=
  addf (val_main_v177 (F := F)) (val_main_v176 (F := F) x0 x2 x5 x6 x7 x8 x11 x12)
theorem val_main_v178_apply (i : S1024x4.Idx) :
    val_main_v178 (F := F) x0 x2 x5 x6 x7 x8 x11 x12 i = FloatOps.addf (val_main_v177 (F := F) i) (val_main_v176 (F := F) x0 x2 x5 x6 x7 x8 x11 x12 i) := rfl

def val_main_cst_24 : (⟨S_, .f32⟩ : BufTy).Contents (Elt F) :=
  constant S_ .f32 0x3F800000#32
theorem val_main_cst_24_apply (i : S_.Idx) :
    val_main_cst_24 (F := F) i = FloatOps.ofBits .f32 0x3F800000#32 := rfl

def val_main_v179 : (⟨S1024x4, .f32⟩ : BufTy).Contents (Elt F) :=
  broadcastInDim S1024x4 ![] bcast_S_S1024x4 (val_main_cst_24 (F := F))
abbrev idx_main_v179 (i : S1024x4.Idx) : S_.Idx := fun a => a.elim0
theorem val_main_v179_apply (i : S1024x4.Idx) :
    val_main_v179 (F := F) i = val_main_cst_24 (F := F) (idx_main_v179 i) := by
  unfold val_main_v179
  generalize val_main_cst_24 (F := F) = y
  exact broadcastInDim_apply _ bcast_S_S1024x4 y i (idx_main_v179 i) (fun a => a.elim0)

def val_main_v180 : (⟨S1024x4, .f32⟩ : BufTy).Contents (Elt F) :=
  Host.divf (val_main_v179 (F := F)) (val_main_v178 (F := F) x0 x2 x5 x6 x7 x8 x11 x12)
theorem val_main_v180_apply (i : S1024x4.Idx) :
    val_main_v180 (F := F) x0 x2 x5 x6 x7 x8 x11 x12 i = FloatOps.hostDivf (val_main_v179 (F := F) i) (val_main_v178 (F := F) x0 x2 x5 x6 x7 x8 x11 x12 i) := rfl

def val_main_v181 : (⟨S1024x4x1, .f32⟩ : BufTy).Contents (Elt F) :=
  broadcastInDim S1024x4x1 ![0, 1] bcast_S1024x4_S1024x4x1_0_1 (val_main_v180 (F := F) x0 x2 x5 x6 x7 x8 x11 x12)
abbrev idx_main_v181 (i : S1024x4x1.Idx) : S1024x4.Idx := fun a => match a with
  | ⟨0, _⟩ => ⟨(i 0).val, (i 0).isLt⟩
  | ⟨1, _⟩ => ⟨(i 1).val, (i 1).isLt⟩
theorem val_main_v181_apply (i : S1024x4x1.Idx) :
    val_main_v181 (F := F) x0 x2 x5 x6 x7 x8 x11 x12 i = val_main_v180 (F := F) x0 x2 x5 x6 x7 x8 x11 x12 (idx_main_v181 i) := by
  unfold val_main_v181
  generalize val_main_v180 (F := F) x0 x2 x5 x6 x7 x8 x11 x12 = y
  exact broadcastInDim_apply _ bcast_S1024x4_S1024x4x1_0_1 y i (idx_main_v181 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)])

def val_main_v182 : (⟨S1024x4x512, .f32⟩ : BufTy).Contents (Elt F) :=
  broadcastInDim S1024x4x512 ![0, 1, 2] bcast_S1024x4x1_S1024x4x512_0_1_2 (val_main_v181 (F := F) x0 x2 x5 x6 x7 x8 x11 x12)
abbrev idx_main_v182 (i : S1024x4x512.Idx) : S1024x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v182_apply (i : S1024x4x512.Idx) :
    val_main_v182 (F := F) x0 x2 x5 x6 x7 x8 x11 x12 i = val_main_v181 (F := F) x0 x2 x5 x6 x7 x8 x11 x12 (idx_main_v182 i) := by
  unfold val_main_v182
  generalize val_main_v181 (F := F) x0 x2 x5 x6 x7 x8 x11 x12 = y
  exact broadcastInDim_apply _ bcast_S1024x4x1_S1024x4x512_0_1_2 y i (idx_main_v182 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

def val_main_v183 : (⟨S1024x4x512, .f32⟩ : BufTy).Contents (Elt F) :=
  mulf (val_main_v182 (F := F) x0 x2 x5 x6 x7 x8 x11 x12) (val_main_v174 (F := F) x0 x1 x2 x5 x6 x7 x8 x11 x12)
theorem val_main_v183_apply (i : S1024x4x512.Idx) :
    val_main_v183 (F := F) x0 x1 x2 x5 x6 x7 x8 x11 x12 i = FloatOps.mulf (val_main_v182 (F := F) x0 x2 x5 x6 x7 x8 x11 x12 i) (val_main_v174 (F := F) x0 x1 x2 x5 x6 x7 x8 x11 x12 i) := rfl

def val_main_cst_25 : (⟨S_, .f32⟩ : BufTy).Contents (Elt F) :=
  constant S_ .f32 0x3F800000#32
theorem val_main_cst_25_apply (i : S_.Idx) :
    val_main_cst_25 (F := F) i = FloatOps.ofBits .f32 0x3F800000#32 := rfl

def val_main_v184 : (⟨S1024x4x1, .f32⟩ : BufTy).Contents (Elt F) :=
  broadcastInDim S1024x4x1 ![] bcast_S_S1024x4x1 (val_main_cst_25 (F := F))
abbrev idx_main_v184 (i : S1024x4x1.Idx) : S_.Idx := fun a => a.elim0
theorem val_main_v184_apply (i : S1024x4x1.Idx) :
    val_main_v184 (F := F) i = val_main_cst_25 (F := F) (idx_main_v184 i) := by
  unfold val_main_v184
  generalize val_main_cst_25 (F := F) = y
  exact broadcastInDim_apply _ bcast_S_S1024x4x1 y i (idx_main_v184 i) (fun a => a.elim0)

def val_main_v185 : (⟨S1024x4x1, .f32⟩ : BufTy).Contents (Elt F) :=
  subf (val_main_v184 (F := F)) (val_main_v181 (F := F) x0 x2 x5 x6 x7 x8 x11 x12)
theorem val_main_v185_apply (i : S1024x4x1.Idx) :
    val_main_v185 (F := F) x0 x2 x5 x6 x7 x8 x11 x12 i = FloatOps.subf (val_main_v184 (F := F) i) (val_main_v181 (F := F) x0 x2 x5 x6 x7 x8 x11 x12 i) := rfl

def val_main_v186 : (⟨S1024x4x512, .f32⟩ : BufTy).Contents (Elt F) :=
  broadcastInDim S1024x4x512 ![0, 1, 2] bcast_S1024x4x1_S1024x4x512_0_1_2 (val_main_v185 (F := F) x0 x2 x5 x6 x7 x8 x11 x12)
abbrev idx_main_v186 (i : S1024x4x512.Idx) : S1024x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v186_apply (i : S1024x4x512.Idx) :
    val_main_v186 (F := F) x0 x2 x5 x6 x7 x8 x11 x12 i = val_main_v185 (F := F) x0 x2 x5 x6 x7 x8 x11 x12 (idx_main_v186 i) := by
  unfold val_main_v186
  generalize val_main_v185 (F := F) x0 x2 x5 x6 x7 x8 x11 x12 = y
  exact broadcastInDim_apply _ bcast_S1024x4x1_S1024x4x512_0_1_2 y i (idx_main_v186 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

def val_main_v187 : (⟨S1024x4x512, .f32⟩ : BufTy).Contents (Elt F) :=
  mulf (val_main_v186 (F := F) x0 x2 x5 x6 x7 x8 x11 x12) (x4)
theorem val_main_v187_apply (i : S1024x4x512.Idx) :
    val_main_v187 (F := F) x0 x2 x4 x5 x6 x7 x8 x11 x12 i = FloatOps.mulf (val_main_v186 (F := F) x0 x2 x5 x6 x7 x8 x11 x12 i) (x4 i) := rfl

def val_main_v188 : (⟨S1024x4x512, .f32⟩ : BufTy).Contents (Elt F) :=
  addf (val_main_v183 (F := F) x0 x1 x2 x5 x6 x7 x8 x11 x12) (val_main_v187 (F := F) x0 x2 x4 x5 x6 x7 x8 x11 x12)
theorem val_main_v188_apply (i : S1024x4x512.Idx) :
    val_main_v188 (F := F) x0 x1 x2 x4 x5 x6 x7 x8 x11 x12 i = FloatOps.addf (val_main_v183 (F := F) x0 x1 x2 x5 x6 x7 x8 x11 x12 i) (val_main_v187 (F := F) x0 x2 x4 x5 x6 x7 x8 x11 x12 i) := rfl

def val_main_cst_26 : (⟨S_, .f32⟩ : BufTy).Contents (Elt F) :=
  constant S_ .f32 0xFF800000#32
theorem val_main_cst_26_apply (i : S_.Idx) :
    val_main_cst_26 (F := F) i = FloatOps.ofBits .f32 0xFF800000#32 := rfl

def val_main_v189 : (⟨S1024x4, .f32⟩ : BufTy).Contents (Elt F) :=
  Host.reduce FloatOps.maximumf (val_main_v151 (F := F) x0 x2 x5 x6 x7 x8 x11 x12) (val_main_cst_26 (F := F)) reducesTo_S1024x4x3_S1024x4_d2 h_S_

def val_main_cst_27 : (⟨S_, .f32⟩ : BufTy).Contents (Elt F) :=
  constant S_ .f32 0xFF800000#32
theorem val_main_cst_27_apply (i : S_.Idx) :
    val_main_cst_27 (F := F) i = FloatOps.ofBits .f32 0xFF800000#32 := rfl

def val_main_v190 : (⟨S1024x4, .f32⟩ : BufTy).Contents (Elt F) :=
  broadcastInDim S1024x4 ![] bcast_S_S1024x4 (val_main_cst_27 (F := F))
abbrev idx_main_v190 (i : S1024x4.Idx) : S_.Idx := fun a => a.elim0
theorem val_main_v190_apply (i : S1024x4.Idx) :
    val_main_v190 (F := F) i = val_main_cst_27 (F := F) (idx_main_v190 i) := by
  unfold val_main_v190
  generalize val_main_cst_27 (F := F) = y
  exact broadcastInDim_apply _ bcast_S_S1024x4 y i (idx_main_v190 i) (fun a => a.elim0)

def val_main_v191 : (⟨S1024x4, .f32⟩ : BufTy).Contents (Elt F) :=
  maximumf (val_main_v190 (F := F)) (val_main_v189 (F := F) x0 x2 x5 x6 x7 x8 x11 x12)
theorem val_main_v191_apply (i : S1024x4.Idx) :
    val_main_v191 (F := F) x0 x2 x5 x6 x7 x8 x11 x12 i = FloatOps.maximumf (val_main_v190 (F := F) i) (val_main_v189 (F := F) x0 x2 x5 x6 x7 x8 x11 x12 i) := rfl

def val_main_v192 : (⟨S1024x4x1, .f32⟩ : BufTy).Contents (Elt F) :=
  broadcastInDim S1024x4x1 ![0, 1] bcast_S1024x4_S1024x4x1_0_1 (val_main_v191 (F := F) x0 x2 x5 x6 x7 x8 x11 x12)
abbrev idx_main_v192 (i : S1024x4x1.Idx) : S1024x4.Idx := fun a => match a with
  | ⟨0, _⟩ => ⟨(i 0).val, (i 0).isLt⟩
  | ⟨1, _⟩ => ⟨(i 1).val, (i 1).isLt⟩
theorem val_main_v192_apply (i : S1024x4x1.Idx) :
    val_main_v192 (F := F) x0 x2 x5 x6 x7 x8 x11 x12 i = val_main_v191 (F := F) x0 x2 x5 x6 x7 x8 x11 x12 (idx_main_v192 i) := by
  unfold val_main_v192
  generalize val_main_v191 (F := F) x0 x2 x5 x6 x7 x8 x11 x12 = y
  exact broadcastInDim_apply _ bcast_S1024x4_S1024x4x1_0_1 y i (idx_main_v192 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)])

def val_main_v193 : (⟨S1024x4x3, .f32⟩ : BufTy).Contents (Elt F) :=
  broadcastInDim S1024x4x3 ![0, 1, 2] bcast_S1024x4x1_S1024x4x3_0_1_2 (val_main_v192 (F := F) x0 x2 x5 x6 x7 x8 x11 x12)
abbrev idx_main_v193 (i : S1024x4x3.Idx) : S1024x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v193_apply (i : S1024x4x3.Idx) :
    val_main_v193 (F := F) x0 x2 x5 x6 x7 x8 x11 x12 i = val_main_v192 (F := F) x0 x2 x5 x6 x7 x8 x11 x12 (idx_main_v193 i) := by
  unfold val_main_v193
  generalize val_main_v192 (F := F) x0 x2 x5 x6 x7 x8 x11 x12 = y
  exact broadcastInDim_apply _ bcast_S1024x4x1_S1024x4x3_0_1_2 y i (idx_main_v193 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

def val_main_v194 : (⟨S1024x4x3, .f32⟩ : BufTy).Contents (Elt F) :=
  subf (val_main_v151 (F := F) x0 x2 x5 x6 x7 x8 x11 x12) (val_main_v193 (F := F) x0 x2 x5 x6 x7 x8 x11 x12)
theorem val_main_v194_apply (i : S1024x4x3.Idx) :
    val_main_v194 (F := F) x0 x2 x5 x6 x7 x8 x11 x12 i = FloatOps.subf (val_main_v151 (F := F) x0 x2 x5 x6 x7 x8 x11 x12 i) (val_main_v193 (F := F) x0 x2 x5 x6 x7 x8 x11 x12 i) := rfl

def val_main_v195 : (⟨S1024x4x3, .f32⟩ : BufTy).Contents (Elt F) :=
  Host.exp (val_main_v194 (F := F) x0 x2 x5 x6 x7 x8 x11 x12)
theorem val_main_v195_apply (i : S1024x4x3.Idx) :
    val_main_v195 (F := F) x0 x2 x5 x6 x7 x8 x11 x12 i = FloatOps.hostUnary .exp (val_main_v194 (F := F) x0 x2 x5 x6 x7 x8 x11 x12 i) := rfl

def val_main_cst_28 : (⟨S_, .f32⟩ : BufTy).Contents (Elt F) :=
  constant S_ .f32 0x00000000#32
theorem val_main_cst_28_apply (i : S_.Idx) :
    val_main_cst_28 (F := F) i = FloatOps.ofBits .f32 0x00000000#32 := rfl

def val_main_v196 : (⟨S1024x4, .f32⟩ : BufTy).Contents (Elt F) :=
  Host.reduceAdd (val_main_v195 (F := F) x0 x2 x5 x6 x7 x8 x11 x12) (val_main_cst_28 (F := F)) reducesTo_S1024x4x3_S1024x4_d2 h_S_
abbrev idx_main_v196 (i : S1024x4.Idx) (k : Fin 3) : S1024x4x3.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v196_apply (x0 : (⟨S1024x128, .f32⟩ : BufTy).Contents (Elt Ideal)) (x2 : (⟨S1024x256, .f32⟩ : BufTy).Contents (Elt Ideal)) (x5 : (⟨S768x128, .f32⟩ : BufTy).Contents (Elt Ideal)) (x6 : (⟨S768x256, .f32⟩ : BufTy).Contents (Elt Ideal)) (x7 x8 : (⟨S768, .f32⟩ : BufTy).Contents (Elt Ideal)) (x11 : (⟨S1560x256, .f32⟩ : BufTy).Contents (Elt Ideal)) (x12 : (⟨S1560, .f32⟩ : BufTy).Contents (Elt Ideal)) (i : S1024x4.Idx) :
    val_main_v196 (F := Ideal) x0 x2 x5 x6 x7 x8 x11 x12 i = (val_main_cst_28 (F := Ideal)) (Shape.Idx.first h_S_) + ∑ k : Fin 3, (val_main_v195 (F := Ideal) x0 x2 x5 x6 x7 x8 x11 x12) (idx_main_v196 i k) := by
  unfold val_main_v196
  generalize val_main_v195 (F := Ideal) x0 x2 x5 x6 x7 x8 x11 x12 = y0
  simp only [Host.reduceAdd, Ideal.hostReduceAdd_def]
  rw [Ideal.hostReduceAdd_single reducesTo_S1024x4x3_S1024x4_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_v197 : (⟨S1024x4x1, .f32⟩ : BufTy).Contents (Elt F) :=
  broadcastInDim S1024x4x1 ![0, 1] bcast_S1024x4_S1024x4x1_0_1 (val_main_v196 (F := F) x0 x2 x5 x6 x7 x8 x11 x12)
abbrev idx_main_v197 (i : S1024x4x1.Idx) : S1024x4.Idx := fun a => match a with
  | ⟨0, _⟩ => ⟨(i 0).val, (i 0).isLt⟩
  | ⟨1, _⟩ => ⟨(i 1).val, (i 1).isLt⟩
theorem val_main_v197_apply (i : S1024x4x1.Idx) :
    val_main_v197 (F := F) x0 x2 x5 x6 x7 x8 x11 x12 i = val_main_v196 (F := F) x0 x2 x5 x6 x7 x8 x11 x12 (idx_main_v197 i) := by
  unfold val_main_v197
  generalize val_main_v196 (F := F) x0 x2 x5 x6 x7 x8 x11 x12 = y
  exact broadcastInDim_apply _ bcast_S1024x4_S1024x4x1_0_1 y i (idx_main_v197 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)])

def val_main_v198 : (⟨S1024x4x3, .f32⟩ : BufTy).Contents (Elt F) :=
  broadcastInDim S1024x4x3 ![0, 1, 2] bcast_S1024x4x1_S1024x4x3_0_1_2 (val_main_v197 (F := F) x0 x2 x5 x6 x7 x8 x11 x12)
abbrev idx_main_v198 (i : S1024x4x3.Idx) : S1024x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v198_apply (i : S1024x4x3.Idx) :
    val_main_v198 (F := F) x0 x2 x5 x6 x7 x8 x11 x12 i = val_main_v197 (F := F) x0 x2 x5 x6 x7 x8 x11 x12 (idx_main_v198 i) := by
  unfold val_main_v198
  generalize val_main_v197 (F := F) x0 x2 x5 x6 x7 x8 x11 x12 = y
  exact broadcastInDim_apply _ bcast_S1024x4x1_S1024x4x3_0_1_2 y i (idx_main_v198 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

def val_main_v199 : (⟨S1024x4x3, .f32⟩ : BufTy).Contents (Elt F) :=
  Host.divf (val_main_v195 (F := F) x0 x2 x5 x6 x7 x8 x11 x12) (val_main_v198 (F := F) x0 x2 x5 x6 x7 x8 x11 x12)
theorem val_main_v199_apply (i : S1024x4x3.Idx) :
    val_main_v199 (F := F) x0 x2 x5 x6 x7 x8 x11 x12 i = FloatOps.hostDivf (val_main_v195 (F := F) x0 x2 x5 x6 x7 x8 x11 x12 i) (val_main_v198 (F := F) x0 x2 x5 x6 x7 x8 x11 x12 i) := rfl

def val_main_v200 : (⟨S1024x4x1, .f32⟩ : BufTy).Contents (Elt F) :=
  extractStridedSlice S1024x4x1 ![0, 0, 0] (val_main_v199 (F := F) x0 x2 x5 x6 x7 x8 x11 x12) slices_S1024x4x3_S1024x4x1_0_0_0
abbrev idx_main_v200 (i : S1024x4x1.Idx) : S1024x4x3.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 3; omega⟩
theorem val_main_v200_apply (i : S1024x4x1.Idx) :
    val_main_v200 (F := F) x0 x2 x5 x6 x7 x8 x11 x12 i = val_main_v199 (F := F) x0 x2 x5 x6 x7 x8 x11 x12 (idx_main_v200 i) := by
  unfold val_main_v200
  generalize val_main_v199 (F := F) x0 x2 x5 x6 x7 x8 x11 x12 = y
  exact extractStridedSlice_apply ![0, 0, 0] y slices_S1024x4x3_S1024x4x1_0_0_0 i (idx_main_v200 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_call8_v0 : (⟨S1024x4x511, .f32⟩ : BufTy).Contents (Elt F) :=
  extractStridedSlice S1024x4x511 ![0, 0, 1] (val_main_v188 (F := F) x0 x1 x2 x4 x5 x6 x7 x8 x11 x12) slices_S1024x4x512_S1024x4x511_0_0_1
abbrev idx_main_call8_v0 (i : S1024x4x511.Idx) : S1024x4x512.Idx := fun a => match a with
  | ⟨0, _⟩ => ⟨(i 0).val, (i 0).isLt⟩
  | ⟨1, _⟩ => ⟨(i 1).val, (i 1).isLt⟩
  | ⟨2, _⟩ => ⟨1 + (i 2).val, by have h2 : (i 2).val < 511 := (i 2).isLt; show 1 + (i 2).val < 512; omega⟩
theorem val_main_call8_v0_apply (i : S1024x4x511.Idx) :
    val_main_call8_v0 (F := F) x0 x1 x2 x4 x5 x6 x7 x8 x11 x12 i = val_main_v188 (F := F) x0 x1 x2 x4 x5 x6 x7 x8 x11 x12 (idx_main_call8_v0 i) := by
  unfold val_main_call8_v0
  generalize val_main_v188 (F := F) x0 x1 x2 x4 x5 x6 x7 x8 x11 x12 = y
  exact extractStridedSlice_apply ![0, 0, 1] y slices_S1024x4x512_S1024x4x511_0_0_1 i (idx_main_call8_v0 i) (fun a => match a with
    | ⟨0, _⟩ => by show (i 0).val = 0 + (i 0).val; omega
    | ⟨1, _⟩ => by show (i 1).val = 0 + (i 1).val; omega
    | ⟨2, _⟩ => by show 1 + (i 2).val = 1 + (i 2).val; omega)

def val_main_call8_v1 : (⟨S1024x4x1, .f32⟩ : BufTy).Contents (Elt F) :=
  extractStridedSlice S1024x4x1 ![0, 0, 0] (val_main_v188 (F := F) x0 x1 x2 x4 x5 x6 x7 x8 x11 x12) slices_S1024x4x512_S1024x4x1_0_0_0
abbrev idx_main_call8_v1 (i : S1024x4x1.Idx) : S1024x4x512.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 512; omega⟩
theorem val_main_call8_v1_apply (i : S1024x4x1.Idx) :
    val_main_call8_v1 (F := F) x0 x1 x2 x4 x5 x6 x7 x8 x11 x12 i = val_main_v188 (F := F) x0 x1 x2 x4 x5 x6 x7 x8 x11 x12 (idx_main_call8_v1 i) := by
  unfold val_main_call8_v1
  generalize val_main_v188 (F := F) x0 x1 x2 x4 x5 x6 x7 x8 x11 x12 = y
  exact extractStridedSlice_apply ![0, 0, 0] y slices_S1024x4x512_S1024x4x1_0_0_0 i (idx_main_call8_v1 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v201 : (⟨S1024x4x512, .f32⟩ : BufTy).Contents (Elt F) :=
  concatenate S1024x4x512 2 [⟨S1024x4x511, (val_main_call8_v0 (F := F) x0 x1 x2 x4 x5 x6 x7 x8 x11 x12)⟩, ⟨S1024x4x1, (val_main_call8_v1 (F := F) x0 x1 x2 x4 x5 x6 x7 x8 x11 x12)⟩] concatenates_S1024x4x511_S1024x4x1_S1024x4x512_d2

def val_main_v202 : (⟨S1024x4x512, .f32⟩ : BufTy).Contents (Elt F) :=
  broadcastInDim S1024x4x512 ![0, 1, 2] bcast_S1024x4x1_S1024x4x512_0_1_2 (val_main_v200 (F := F) x0 x2 x5 x6 x7 x8 x11 x12)
abbrev idx_main_v202 (i : S1024x4x512.Idx) : S1024x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v202_apply (i : S1024x4x512.Idx) :
    val_main_v202 (F := F) x0 x2 x5 x6 x7 x8 x11 x12 i = val_main_v200 (F := F) x0 x2 x5 x6 x7 x8 x11 x12 (idx_main_v202 i) := by
  unfold val_main_v202
  generalize val_main_v200 (F := F) x0 x2 x5 x6 x7 x8 x11 x12 = y
  exact broadcastInDim_apply _ bcast_S1024x4x1_S1024x4x512_0_1_2 y i (idx_main_v202 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

def val_main_v203 : (⟨S1024x4x512, .f32⟩ : BufTy).Contents (Elt F) :=
  mulf (val_main_v202 (F := F) x0 x2 x5 x6 x7 x8 x11 x12) (val_main_v201 (F := F) x0 x1 x2 x4 x5 x6 x7 x8 x11 x12)
theorem val_main_v203_apply (i : S1024x4x512.Idx) :
    val_main_v203 (F := F) x0 x1 x2 x4 x5 x6 x7 x8 x11 x12 i = FloatOps.mulf (val_main_v202 (F := F) x0 x2 x5 x6 x7 x8 x11 x12 i) (val_main_v201 (F := F) x0 x1 x2 x4 x5 x6 x7 x8 x11 x12 i) := rfl

def val_main_v204 : (⟨S1024x4x1, .f32⟩ : BufTy).Contents (Elt F) :=
  extractStridedSlice S1024x4x1 ![0, 0, 1] (val_main_v199 (F := F) x0 x2 x5 x6 x7 x8 x11 x12) slices_S1024x4x3_S1024x4x1_0_0_1
abbrev idx_main_v204 (i : S1024x4x1.Idx) : S1024x4x3.Idx := fun a => match a with
  | ⟨0, _⟩ => ⟨(i 0).val, (i 0).isLt⟩
  | ⟨1, _⟩ => ⟨(i 1).val, (i 1).isLt⟩
  | ⟨2, _⟩ => ⟨1 + (i 2).val, by have h2 : (i 2).val < 1 := (i 2).isLt; show 1 + (i 2).val < 3; omega⟩
theorem val_main_v204_apply (i : S1024x4x1.Idx) :
    val_main_v204 (F := F) x0 x2 x5 x6 x7 x8 x11 x12 i = val_main_v199 (F := F) x0 x2 x5 x6 x7 x8 x11 x12 (idx_main_v204 i) := by
  unfold val_main_v204
  generalize val_main_v199 (F := F) x0 x2 x5 x6 x7 x8 x11 x12 = y
  exact extractStridedSlice_apply ![0, 0, 1] y slices_S1024x4x3_S1024x4x1_0_0_1 i (idx_main_v204 i) (fun a => match a with
    | ⟨0, _⟩ => by show (i 0).val = 0 + (i 0).val; omega
    | ⟨1, _⟩ => by show (i 1).val = 0 + (i 1).val; omega
    | ⟨2, _⟩ => by show 1 + (i 2).val = 1 + (i 2).val; omega)

def val_main_v205 : (⟨S1024x4x512, .f32⟩ : BufTy).Contents (Elt F) :=
  broadcastInDim S1024x4x512 ![0, 1, 2] bcast_S1024x4x1_S1024x4x512_0_1_2 (val_main_v204 (F := F) x0 x2 x5 x6 x7 x8 x11 x12)
abbrev idx_main_v205 (i : S1024x4x512.Idx) : S1024x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v205_apply (i : S1024x4x512.Idx) :
    val_main_v205 (F := F) x0 x2 x5 x6 x7 x8 x11 x12 i = val_main_v204 (F := F) x0 x2 x5 x6 x7 x8 x11 x12 (idx_main_v205 i) := by
  unfold val_main_v205
  generalize val_main_v204 (F := F) x0 x2 x5 x6 x7 x8 x11 x12 = y
  exact broadcastInDim_apply _ bcast_S1024x4x1_S1024x4x512_0_1_2 y i (idx_main_v205 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

def val_main_v206 : (⟨S1024x4x512, .f32⟩ : BufTy).Contents (Elt F) :=
  mulf (val_main_v205 (F := F) x0 x2 x5 x6 x7 x8 x11 x12) (val_main_v188 (F := F) x0 x1 x2 x4 x5 x6 x7 x8 x11 x12)
theorem val_main_v206_apply (i : S1024x4x512.Idx) :
    val_main_v206 (F := F) x0 x1 x2 x4 x5 x6 x7 x8 x11 x12 i = FloatOps.mulf (val_main_v205 (F := F) x0 x2 x5 x6 x7 x8 x11 x12 i) (val_main_v188 (F := F) x0 x1 x2 x4 x5 x6 x7 x8 x11 x12 i) := rfl

def val_main_v207 : (⟨S1024x4x512, .f32⟩ : BufTy).Contents (Elt F) :=
  addf (val_main_v203 (F := F) x0 x1 x2 x4 x5 x6 x7 x8 x11 x12) (val_main_v206 (F := F) x0 x1 x2 x4 x5 x6 x7 x8 x11 x12)
theorem val_main_v207_apply (i : S1024x4x512.Idx) :
    val_main_v207 (F := F) x0 x1 x2 x4 x5 x6 x7 x8 x11 x12 i = FloatOps.addf (val_main_v203 (F := F) x0 x1 x2 x4 x5 x6 x7 x8 x11 x12 i) (val_main_v206 (F := F) x0 x1 x2 x4 x5 x6 x7 x8 x11 x12 i) := rfl

def val_main_v208 : (⟨S1024x4x1, .f32⟩ : BufTy).Contents (Elt F) :=
  extractStridedSlice S1024x4x1 ![0, 0, 2] (val_main_v199 (F := F) x0 x2 x5 x6 x7 x8 x11 x12) slices_S1024x4x3_S1024x4x1_0_0_2
abbrev idx_main_v208 (i : S1024x4x1.Idx) : S1024x4x3.Idx := fun a => match a with
  | ⟨0, _⟩ => ⟨(i 0).val, (i 0).isLt⟩
  | ⟨1, _⟩ => ⟨(i 1).val, (i 1).isLt⟩
  | ⟨2, _⟩ => ⟨2 + (i 2).val, by have h2 : (i 2).val < 1 := (i 2).isLt; show 2 + (i 2).val < 3; omega⟩
theorem val_main_v208_apply (i : S1024x4x1.Idx) :
    val_main_v208 (F := F) x0 x2 x5 x6 x7 x8 x11 x12 i = val_main_v199 (F := F) x0 x2 x5 x6 x7 x8 x11 x12 (idx_main_v208 i) := by
  unfold val_main_v208
  generalize val_main_v199 (F := F) x0 x2 x5 x6 x7 x8 x11 x12 = y
  exact extractStridedSlice_apply ![0, 0, 2] y slices_S1024x4x3_S1024x4x1_0_0_2 i (idx_main_v208 i) (fun a => match a with
    | ⟨0, _⟩ => by show (i 0).val = 0 + (i 0).val; omega
    | ⟨1, _⟩ => by show (i 1).val = 0 + (i 1).val; omega
    | ⟨2, _⟩ => by show 2 + (i 2).val = 2 + (i 2).val; omega)

def val_main_call9_v0 : (⟨S1024x4x1, .f32⟩ : BufTy).Contents (Elt F) :=
  extractStridedSlice S1024x4x1 ![0, 0, 511] (val_main_v188 (F := F) x0 x1 x2 x4 x5 x6 x7 x8 x11 x12) slices_S1024x4x512_S1024x4x1_0_0_511
abbrev idx_main_call9_v0 (i : S1024x4x1.Idx) : S1024x4x512.Idx := fun a => match a with
  | ⟨0, _⟩ => ⟨(i 0).val, (i 0).isLt⟩
  | ⟨1, _⟩ => ⟨(i 1).val, (i 1).isLt⟩
  | ⟨2, _⟩ => ⟨511 + (i 2).val, by have h2 : (i 2).val < 1 := (i 2).isLt; show 511 + (i 2).val < 512; omega⟩
theorem val_main_call9_v0_apply (i : S1024x4x1.Idx) :
    val_main_call9_v0 (F := F) x0 x1 x2 x4 x5 x6 x7 x8 x11 x12 i = val_main_v188 (F := F) x0 x1 x2 x4 x5 x6 x7 x8 x11 x12 (idx_main_call9_v0 i) := by
  unfold val_main_call9_v0
  generalize val_main_v188 (F := F) x0 x1 x2 x4 x5 x6 x7 x8 x11 x12 = y
  exact extractStridedSlice_apply ![0, 0, 511] y slices_S1024x4x512_S1024x4x1_0_0_511 i (idx_main_call9_v0 i) (fun a => match a with
    | ⟨0, _⟩ => by show (i 0).val = 0 + (i 0).val; omega
    | ⟨1, _⟩ => by show (i 1).val = 0 + (i 1).val; omega
    | ⟨2, _⟩ => by show 511 + (i 2).val = 511 + (i 2).val; omega)

def val_main_call9_v1 : (⟨S1024x4x511, .f32⟩ : BufTy).Contents (Elt F) :=
  extractStridedSlice S1024x4x511 ![0, 0, 0] (val_main_v188 (F := F) x0 x1 x2 x4 x5 x6 x7 x8 x11 x12) slices_S1024x4x512_S1024x4x511_0_0_0
abbrev idx_main_call9_v1 (i : S1024x4x511.Idx) : S1024x4x512.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 511 := (i 2).isLt; show (i 2).val < 512; omega⟩
theorem val_main_call9_v1_apply (i : S1024x4x511.Idx) :
    val_main_call9_v1 (F := F) x0 x1 x2 x4 x5 x6 x7 x8 x11 x12 i = val_main_v188 (F := F) x0 x1 x2 x4 x5 x6 x7 x8 x11 x12 (idx_main_call9_v1 i) := by
  unfold val_main_call9_v1
  generalize val_main_v188 (F := F) x0 x1 x2 x4 x5 x6 x7 x8 x11 x12 = y
  exact extractStridedSlice_apply ![0, 0, 0] y slices_S1024x4x512_S1024x4x511_0_0_0 i (idx_main_call9_v1 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v209 : (⟨S1024x4x512, .f32⟩ : BufTy).Contents (Elt F) :=
  concatenate S1024x4x512 2 [⟨S1024x4x1, (val_main_call9_v0 (F := F) x0 x1 x2 x4 x5 x6 x7 x8 x11 x12)⟩, ⟨S1024x4x511, (val_main_call9_v1 (F := F) x0 x1 x2 x4 x5 x6 x7 x8 x11 x12)⟩] concatenates_S1024x4x1_S1024x4x511_S1024x4x512_d2

def val_main_v210 : (⟨S1024x4x512, .f32⟩ : BufTy).Contents (Elt F) :=
  broadcastInDim S1024x4x512 ![0, 1, 2] bcast_S1024x4x1_S1024x4x512_0_1_2 (val_main_v208 (F := F) x0 x2 x5 x6 x7 x8 x11 x12)
abbrev idx_main_v210 (i : S1024x4x512.Idx) : S1024x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v210_apply (i : S1024x4x512.Idx) :
    val_main_v210 (F := F) x0 x2 x5 x6 x7 x8 x11 x12 i = val_main_v208 (F := F) x0 x2 x5 x6 x7 x8 x11 x12 (idx_main_v210 i) := by
  unfold val_main_v210
  generalize val_main_v208 (F := F) x0 x2 x5 x6 x7 x8 x11 x12 = y
  exact broadcastInDim_apply _ bcast_S1024x4x1_S1024x4x512_0_1_2 y i (idx_main_v210 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

def val_main_v211 : (⟨S1024x4x512, .f32⟩ : BufTy).Contents (Elt F) :=
  mulf (val_main_v210 (F := F) x0 x2 x5 x6 x7 x8 x11 x12) (val_main_v209 (F := F) x0 x1 x2 x4 x5 x6 x7 x8 x11 x12)
theorem val_main_v211_apply (i : S1024x4x512.Idx) :
    val_main_v211 (F := F) x0 x1 x2 x4 x5 x6 x7 x8 x11 x12 i = FloatOps.mulf (val_main_v210 (F := F) x0 x2 x5 x6 x7 x8 x11 x12 i) (val_main_v209 (F := F) x0 x1 x2 x4 x5 x6 x7 x8 x11 x12 i) := rfl

def val_main_v212 : (⟨S1024x4x512, .f32⟩ : BufTy).Contents (Elt F) :=
  addf (val_main_v207 (F := F) x0 x1 x2 x4 x5 x6 x7 x8 x11 x12) (val_main_v211 (F := F) x0 x1 x2 x4 x5 x6 x7 x8 x11 x12)
theorem val_main_v212_apply (i : S1024x4x512.Idx) :
    val_main_v212 (F := F) x0 x1 x2 x4 x5 x6 x7 x8 x11 x12 i = FloatOps.addf (val_main_v207 (F := F) x0 x1 x2 x4 x5 x6 x7 x8 x11 x12 i) (val_main_v211 (F := F) x0 x1 x2 x4 x5 x6 x7 x8 x11 x12 i) := rfl

def val_main_call10_cst : (⟨S_, .f32⟩ : BufTy).Contents (Elt F) :=
  constant S_ .f32 0x00000000#32
theorem val_main_call10_cst_apply (i : S_.Idx) :
    val_main_call10_cst (F := F) i = FloatOps.ofBits .f32 0x00000000#32 := rfl

def val_main_call10_v0 : (⟨S1024x4, .f32⟩ : BufTy).Contents (Elt F) :=
  broadcastInDim S1024x4 ![] bcast_S_S1024x4 (val_main_call10_cst (F := F))
abbrev idx_main_call10_v0 (i : S1024x4.Idx) : S_.Idx := fun a => a.elim0
theorem val_main_call10_v0_apply (i : S1024x4.Idx) :
    val_main_call10_v0 (F := F) i = val_main_call10_cst (F := F) (idx_main_call10_v0 i) := by
  unfold val_main_call10_v0
  generalize val_main_call10_cst (F := F) = y
  exact broadcastInDim_apply _ bcast_S_S1024x4 y i (idx_main_call10_v0 i) (fun a => a.elim0)

def val_main_call10_v1 : (⟨S1024x4, .f32⟩ : BufTy).Contents (Elt F) :=
  maximumf (val_main_v153 (F := F) x0 x2 x5 x6 x7 x8 x11 x12) (val_main_call10_v0 (F := F))
theorem val_main_call10_v1_apply (i : S1024x4.Idx) :
    val_main_call10_v1 (F := F) x0 x2 x5 x6 x7 x8 x11 x12 i = FloatOps.maximumf (val_main_v153 (F := F) x0 x2 x5 x6 x7 x8 x11 x12 i) (val_main_call10_v0 (F := F) i) := rfl

def val_main_call10_v2 : (⟨S1024x4, .f32⟩ : BufTy).Contents (Elt F) :=
  broadcastInDim S1024x4 ![] bcast_S_S1024x4 (val_main_call10_cst (F := F))
abbrev idx_main_call10_v2 (i : S1024x4.Idx) : S_.Idx := fun a => a.elim0
theorem val_main_call10_v2_apply (i : S1024x4.Idx) :
    val_main_call10_v2 (F := F) i = val_main_call10_cst (F := F) (idx_main_call10_v2 i) := by
  unfold val_main_call10_v2
  generalize val_main_call10_cst (F := F) = y
  exact broadcastInDim_apply _ bcast_S_S1024x4 y i (idx_main_call10_v2 i) (fun a => a.elim0)

def val_main_call10_v3 : (⟨S1024x4, .f32⟩ : BufTy).Contents (Elt F) :=
  subf (val_main_v153 (F := F) x0 x2 x5 x6 x7 x8 x11 x12) (val_main_call10_v2 (F := F))
theorem val_main_call10_v3_apply (i : S1024x4.Idx) :
    val_main_call10_v3 (F := F) x0 x2 x5 x6 x7 x8 x11 x12 i = FloatOps.subf (val_main_v153 (F := F) x0 x2 x5 x6 x7 x8 x11 x12 i) (val_main_call10_v2 (F := F) i) := rfl

def val_main_call10_v4 : (⟨S1024x4, .i1⟩ : BufTy).Contents (Elt F) :=
  cmpf .une (val_main_call10_v3 (F := F) x0 x2 x5 x6 x7 x8 x11 x12) (val_main_call10_v3 (F := F) x0 x2 x5 x6 x7 x8 x11 x12)
theorem val_main_call10_v4_apply (i : S1024x4.Idx) :
    val_main_call10_v4 (F := F) x0 x2 x5 x6 x7 x8 x11 x12 i = FloatOps.cmpf .une (val_main_call10_v3 (F := F) x0 x2 x5 x6 x7 x8 x11 x12 i) (val_main_call10_v3 (F := F) x0 x2 x5 x6 x7 x8 x11 x12 i) := rfl

def val_main_call10_v5 : (⟨S1024x4, .f32⟩ : BufTy).Contents (Elt F) :=
  broadcastInDim S1024x4 ![] bcast_S_S1024x4 (val_main_call10_cst (F := F))
abbrev idx_main_call10_v5 (i : S1024x4.Idx) : S_.Idx := fun a => a.elim0
theorem val_main_call10_v5_apply (i : S1024x4.Idx) :
    val_main_call10_v5 (F := F) i = val_main_call10_cst (F := F) (idx_main_call10_v5 i) := by
  unfold val_main_call10_v5
  generalize val_main_call10_cst (F := F) = y
  exact broadcastInDim_apply _ bcast_S_S1024x4 y i (idx_main_call10_v5 i) (fun a => a.elim0)

def val_main_call10_v6 : (⟨S1024x4, .f32⟩ : BufTy).Contents (Elt F) :=
  addf (val_main_v153 (F := F) x0 x2 x5 x6 x7 x8 x11 x12) (val_main_call10_v5 (F := F))
theorem val_main_call10_v6_apply (i : S1024x4.Idx) :
    val_main_call10_v6 (F := F) x0 x2 x5 x6 x7 x8 x11 x12 i = FloatOps.addf (val_main_v153 (F := F) x0 x2 x5 x6 x7 x8 x11 x12 i) (val_main_call10_v5 (F := F) i) := rfl

def val_main_call10_v7 : (⟨S1024x4, .f32⟩ : BufTy).Contents (Elt F) :=
  Host.absf (val_main_call10_v3 (F := F) x0 x2 x5 x6 x7 x8 x11 x12)
theorem val_main_call10_v7_apply (i : S1024x4.Idx) :
    val_main_call10_v7 (F := F) x0 x2 x5 x6 x7 x8 x11 x12 i = FloatOps.hostAbsf (val_main_call10_v3 (F := F) x0 x2 x5 x6 x7 x8 x11 x12 i) := rfl

def val_main_call10_v8 : (⟨S1024x4, .f32⟩ : BufTy).Contents (Elt F) :=
  Host.negf (val_main_call10_v7 (F := F) x0 x2 x5 x6 x7 x8 x11 x12)
theorem val_main_call10_v8_apply (i : S1024x4.Idx) :
    val_main_call10_v8 (F := F) x0 x2 x5 x6 x7 x8 x11 x12 i = FloatOps.hostNegf (val_main_call10_v7 (F := F) x0 x2 x5 x6 x7 x8 x11 x12 i) := rfl

def val_main_call10_v9 : (⟨S1024x4, .f32⟩ : BufTy).Contents (Elt F) :=
  Host.exp (val_main_call10_v8 (F := F) x0 x2 x5 x6 x7 x8 x11 x12)
theorem val_main_call10_v9_apply (i : S1024x4.Idx) :
    val_main_call10_v9 (F := F) x0 x2 x5 x6 x7 x8 x11 x12 i = FloatOps.hostUnary .exp (val_main_call10_v8 (F := F) x0 x2 x5 x6 x7 x8 x11 x12 i) := rfl

def val_main_call10_v10 : (⟨S1024x4, .f32⟩ : BufTy).Contents (Elt F) :=
  Host.log1p (val_main_call10_v9 (F := F) x0 x2 x5 x6 x7 x8 x11 x12)
theorem val_main_call10_v10_apply (i : S1024x4.Idx) :
    val_main_call10_v10 (F := F) x0 x2 x5 x6 x7 x8 x11 x12 i = FloatOps.hostUnary .log1p (val_main_call10_v9 (F := F) x0 x2 x5 x6 x7 x8 x11 x12 i) := rfl

def val_main_call10_v11 : (⟨S1024x4, .f32⟩ : BufTy).Contents (Elt F) :=
  addf (val_main_call10_v1 (F := F) x0 x2 x5 x6 x7 x8 x11 x12) (val_main_call10_v10 (F := F) x0 x2 x5 x6 x7 x8 x11 x12)
theorem val_main_call10_v11_apply (i : S1024x4.Idx) :
    val_main_call10_v11 (F := F) x0 x2 x5 x6 x7 x8 x11 x12 i = FloatOps.addf (val_main_call10_v1 (F := F) x0 x2 x5 x6 x7 x8 x11 x12 i) (val_main_call10_v10 (F := F) x0 x2 x5 x6 x7 x8 x11 x12 i) := rfl

def val_main_v213 : (⟨S1024x4, .f32⟩ : BufTy).Contents (Elt F) :=
  select (val_main_call10_v4 (F := F) x0 x2 x5 x6 x7 x8 x11 x12) (val_main_call10_v6 (F := F) x0 x2 x5 x6 x7 x8 x11 x12) (val_main_call10_v11 (F := F) x0 x2 x5 x6 x7 x8 x11 x12)
theorem val_main_v213_apply (i : S1024x4.Idx) :
    val_main_v213 (F := F) x0 x2 x5 x6 x7 x8 x11 x12 i = Scalar.select (val_main_call10_v4 (F := F) x0 x2 x5 x6 x7 x8 x11 x12 i) (val_main_call10_v6 (F := F) x0 x2 x5 x6 x7 x8 x11 x12 i) (val_main_call10_v11 (F := F) x0 x2 x5 x6 x7 x8 x11 x12 i) := rfl

def val_main_cst_29 : (⟨S_, .f32⟩ : BufTy).Contents (Elt F) :=
  constant S_ .f32 0x3F800000#32
theorem val_main_cst_29_apply (i : S_.Idx) :
    val_main_cst_29 (F := F) i = FloatOps.ofBits .f32 0x3F800000#32 := rfl

def val_main_v214 : (⟨S1024x4, .f32⟩ : BufTy).Contents (Elt F) :=
  broadcastInDim S1024x4 ![] bcast_S_S1024x4 (val_main_cst_29 (F := F))
abbrev idx_main_v214 (i : S1024x4.Idx) : S_.Idx := fun a => a.elim0
theorem val_main_v214_apply (i : S1024x4.Idx) :
    val_main_v214 (F := F) i = val_main_cst_29 (F := F) (idx_main_v214 i) := by
  unfold val_main_v214
  generalize val_main_cst_29 (F := F) = y
  exact broadcastInDim_apply _ bcast_S_S1024x4 y i (idx_main_v214 i) (fun a => a.elim0)

def val_main_v215 : (⟨S1024x4, .f32⟩ : BufTy).Contents (Elt F) :=
  addf (val_main_v214 (F := F)) (val_main_v213 (F := F) x0 x2 x5 x6 x7 x8 x11 x12)
theorem val_main_v215_apply (i : S1024x4.Idx) :
    val_main_v215 (F := F) x0 x2 x5 x6 x7 x8 x11 x12 i = FloatOps.addf (val_main_v214 (F := F) i) (val_main_v213 (F := F) x0 x2 x5 x6 x7 x8 x11 x12 i) := rfl

def val_main_cst_30 : (⟨S_, .f32⟩ : BufTy).Contents (Elt F) :=
  constant S_ .f32 0x2B8CBCCC#32
theorem val_main_cst_30_apply (i : S_.Idx) :
    val_main_cst_30 (F := F) i = FloatOps.ofBits .f32 0x2B8CBCCC#32 := rfl

def val_main_v216 : (⟨S1024x4x512, .f32⟩ : BufTy).Contents (Elt F) :=
  broadcastInDim S1024x4x512 ![] bcast_S_S1024x4x512 (val_main_cst_30 (F := F))
abbrev idx_main_v216 (i : S1024x4x512.Idx) : S_.Idx := fun a => a.elim0
theorem val_main_v216_apply (i : S1024x4x512.Idx) :
    val_main_v216 (F := F) i = val_main_cst_30 (F := F) (idx_main_v216 i) := by
  unfold val_main_v216
  generalize val_main_cst_30 (F := F) = y
  exact broadcastInDim_apply _ bcast_S_S1024x4x512 y i (idx_main_v216 i) (fun a => a.elim0)

def val_main_v217 : (⟨S1024x4x512, .f32⟩ : BufTy).Contents (Elt F) :=
  addf (val_main_v212 (F := F) x0 x1 x2 x4 x5 x6 x7 x8 x11 x12) (val_main_v216 (F := F))
theorem val_main_v217_apply (i : S1024x4x512.Idx) :
    val_main_v217 (F := F) x0 x1 x2 x4 x5 x6 x7 x8 x11 x12 i = FloatOps.addf (val_main_v212 (F := F) x0 x1 x2 x4 x5 x6 x7 x8 x11 x12 i) (val_main_v216 (F := F) i) := rfl

def val_main_v218 : (⟨S1024x4x1, .f32⟩ : BufTy).Contents (Elt F) :=
  broadcastInDim S1024x4x1 ![0, 1] bcast_S1024x4_S1024x4x1_0_1 (val_main_v215 (F := F) x0 x2 x5 x6 x7 x8 x11 x12)
abbrev idx_main_v218 (i : S1024x4x1.Idx) : S1024x4.Idx := fun a => match a with
  | ⟨0, _⟩ => ⟨(i 0).val, (i 0).isLt⟩
  | ⟨1, _⟩ => ⟨(i 1).val, (i 1).isLt⟩
theorem val_main_v218_apply (i : S1024x4x1.Idx) :
    val_main_v218 (F := F) x0 x2 x5 x6 x7 x8 x11 x12 i = val_main_v215 (F := F) x0 x2 x5 x6 x7 x8 x11 x12 (idx_main_v218 i) := by
  unfold val_main_v218
  generalize val_main_v215 (F := F) x0 x2 x5 x6 x7 x8 x11 x12 = y
  exact broadcastInDim_apply _ bcast_S1024x4_S1024x4x1_0_1 y i (idx_main_v218 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)])

def val_main_v219 : (⟨S1024x4x512, .f32⟩ : BufTy).Contents (Elt F) :=
  broadcastInDim S1024x4x512 ![0, 1, 2] bcast_S1024x4x1_S1024x4x512_0_1_2 (val_main_v218 (F := F) x0 x2 x5 x6 x7 x8 x11 x12)
abbrev idx_main_v219 (i : S1024x4x512.Idx) : S1024x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v219_apply (i : S1024x4x512.Idx) :
    val_main_v219 (F := F) x0 x2 x5 x6 x7 x8 x11 x12 i = val_main_v218 (F := F) x0 x2 x5 x6 x7 x8 x11 x12 (idx_main_v219 i) := by
  unfold val_main_v219
  generalize val_main_v218 (F := F) x0 x2 x5 x6 x7 x8 x11 x12 = y
  exact broadcastInDim_apply _ bcast_S1024x4x1_S1024x4x512_0_1_2 y i (idx_main_v219 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

def val_main_v220 : (⟨S1024x4x512, .f32⟩ : BufTy).Contents (Elt F) :=
  Host.powf (val_main_v217 (F := F) x0 x1 x2 x4 x5 x6 x7 x8 x11 x12) (val_main_v219 (F := F) x0 x2 x5 x6 x7 x8 x11 x12)
theorem val_main_v220_apply (i : S1024x4x512.Idx) :
    val_main_v220 (F := F) x0 x1 x2 x4 x5 x6 x7 x8 x11 x12 i = FloatOps.hostPowf (val_main_v217 (F := F) x0 x1 x2 x4 x5 x6 x7 x8 x11 x12 i) (val_main_v219 (F := F) x0 x2 x5 x6 x7 x8 x11 x12 i) := rfl

def val_main_cst_31 : (⟨S_, .f32⟩ : BufTy).Contents (Elt F) :=
  constant S_ .f32 0x00000000#32
theorem val_main_cst_31_apply (i : S_.Idx) :
    val_main_cst_31 (F := F) i = FloatOps.ofBits .f32 0x00000000#32 := rfl

def val_main_v221 : (⟨S1024x4, .f32⟩ : BufTy).Contents (Elt F) :=
  Host.reduceAdd (val_main_v220 (F := F) x0 x1 x2 x4 x5 x6 x7 x8 x11 x12) (val_main_cst_31 (F := F)) reducesTo_S1024x4x512_S1024x4_d2 h_S_
abbrev idx_main_v221 (i : S1024x4.Idx) (k : Fin 512) : S1024x4x512.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v221_apply (x0 : (⟨S1024x128, .f32⟩ : BufTy).Contents (Elt Ideal)) (x1 : (⟨S1024x512x128, .f32⟩ : BufTy).Contents (Elt Ideal)) (x2 : (⟨S1024x256, .f32⟩ : BufTy).Contents (Elt Ideal)) (x4 : (⟨S1024x4x512, .f32⟩ : BufTy).Contents (Elt Ideal)) (x5 : (⟨S768x128, .f32⟩ : BufTy).Contents (Elt Ideal)) (x6 : (⟨S768x256, .f32⟩ : BufTy).Contents (Elt Ideal)) (x7 x8 : (⟨S768, .f32⟩ : BufTy).Contents (Elt Ideal)) (x11 : (⟨S1560x256, .f32⟩ : BufTy).Contents (Elt Ideal)) (x12 : (⟨S1560, .f32⟩ : BufTy).Contents (Elt Ideal)) (i : S1024x4.Idx) :
    val_main_v221 (F := Ideal) x0 x1 x2 x4 x5 x6 x7 x8 x11 x12 i = (val_main_cst_31 (F := Ideal)) (Shape.Idx.first h_S_) + ∑ k : Fin 512, (val_main_v220 (F := Ideal) x0 x1 x2 x4 x5 x6 x7 x8 x11 x12) (idx_main_v221 i k) := by
  unfold val_main_v221
  generalize val_main_v220 (F := Ideal) x0 x1 x2 x4 x5 x6 x7 x8 x11 x12 = y0
  simp only [Host.reduceAdd, Ideal.hostReduceAdd_def]
  rw [Ideal.hostReduceAdd_single reducesTo_S1024x4x512_S1024x4_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_v222 : (⟨S1024x4x1, .f32⟩ : BufTy).Contents (Elt F) :=
  broadcastInDim S1024x4x1 ![0, 1] bcast_S1024x4_S1024x4x1_0_1 (val_main_v221 (F := F) x0 x1 x2 x4 x5 x6 x7 x8 x11 x12)
abbrev idx_main_v222 (i : S1024x4x1.Idx) : S1024x4.Idx := fun a => match a with
  | ⟨0, _⟩ => ⟨(i 0).val, (i 0).isLt⟩
  | ⟨1, _⟩ => ⟨(i 1).val, (i 1).isLt⟩
theorem val_main_v222_apply (i : S1024x4x1.Idx) :
    val_main_v222 (F := F) x0 x1 x2 x4 x5 x6 x7 x8 x11 x12 i = val_main_v221 (F := F) x0 x1 x2 x4 x5 x6 x7 x8 x11 x12 (idx_main_v222 i) := by
  unfold val_main_v222
  generalize val_main_v221 (F := F) x0 x1 x2 x4 x5 x6 x7 x8 x11 x12 = y
  exact broadcastInDim_apply _ bcast_S1024x4_S1024x4x1_0_1 y i (idx_main_v222 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)])

def val_main_cst_32 : (⟨S_, .f32⟩ : BufTy).Contents (Elt F) :=
  constant S_ .f32 0x2B8CBCCC#32
theorem val_main_cst_32_apply (i : S_.Idx) :
    val_main_cst_32 (F := F) i = FloatOps.ofBits .f32 0x2B8CBCCC#32 := rfl

def val_main_v223 : (⟨S1024x4x1, .f32⟩ : BufTy).Contents (Elt F) :=
  broadcastInDim S1024x4x1 ![] bcast_S_S1024x4x1 (val_main_cst_32 (F := F))
abbrev idx_main_v223 (i : S1024x4x1.Idx) : S_.Idx := fun a => a.elim0
theorem val_main_v223_apply (i : S1024x4x1.Idx) :
    val_main_v223 (F := F) i = val_main_cst_32 (F := F) (idx_main_v223 i) := by
  unfold val_main_v223
  generalize val_main_cst_32 (F := F) = y
  exact broadcastInDim_apply _ bcast_S_S1024x4x1 y i (idx_main_v223 i) (fun a => a.elim0)

def val_main_v224 : (⟨S1024x4x1, .f32⟩ : BufTy).Contents (Elt F) :=
  addf (val_main_v222 (F := F) x0 x1 x2 x4 x5 x6 x7 x8 x11 x12) (val_main_v223 (F := F))
theorem val_main_v224_apply (i : S1024x4x1.Idx) :
    val_main_v224 (F := F) x0 x1 x2 x4 x5 x6 x7 x8 x11 x12 i = FloatOps.addf (val_main_v222 (F := F) x0 x1 x2 x4 x5 x6 x7 x8 x11 x12 i) (val_main_v223 (F := F) i) := rfl

def val_main_v225 : (⟨S1024x4x512, .f32⟩ : BufTy).Contents (Elt F) :=
  broadcastInDim S1024x4x512 ![0, 1, 2] bcast_S1024x4x1_S1024x4x512_0_1_2 (val_main_v224 (F := F) x0 x1 x2 x4 x5 x6 x7 x8 x11 x12)
abbrev idx_main_v225 (i : S1024x4x512.Idx) : S1024x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v225_apply (i : S1024x4x512.Idx) :
    val_main_v225 (F := F) x0 x1 x2 x4 x5 x6 x7 x8 x11 x12 i = val_main_v224 (F := F) x0 x1 x2 x4 x5 x6 x7 x8 x11 x12 (idx_main_v225 i) := by
  unfold val_main_v225
  generalize val_main_v224 (F := F) x0 x1 x2 x4 x5 x6 x7 x8 x11 x12 = y
  exact broadcastInDim_apply _ bcast_S1024x4x1_S1024x4x512_0_1_2 y i (idx_main_v225 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

def val_main_v226 : (⟨S1024x4x512, .f32⟩ : BufTy).Contents (Elt F) :=
  Host.divf (val_main_v220 (F := F) x0 x1 x2 x4 x5 x6 x7 x8 x11 x12) (val_main_v225 (F := F) x0 x1 x2 x4 x5 x6 x7 x8 x11 x12)
theorem val_main_v226_apply (i : S1024x4x512.Idx) :
    val_main_v226 (F := F) x0 x1 x2 x4 x5 x6 x7 x8 x11 x12 i = FloatOps.hostDivf (val_main_v220 (F := F) x0 x1 x2 x4 x5 x6 x7 x8 x11 x12 i) (val_main_v225 (F := F) x0 x1 x2 x4 x5 x6 x7 x8 x11 x12 i) := rfl

def val_main_v227 : (⟨S1024x4x128, .f32⟩ : BufTy).Contents (Elt F) :=
  extractStridedSlice S1024x4x128 ![0, 0, 134] (val_main_v145 (F := F) x0 x2 x5 x6 x7 x8 x11 x12) slices_S1024x4x390_S1024x4x128_0_0_134
abbrev idx_main_v227 (i : S1024x4x128.Idx) : S1024x4x390.Idx := fun a => match a with
  | ⟨0, _⟩ => ⟨(i 0).val, (i 0).isLt⟩
  | ⟨1, _⟩ => ⟨(i 1).val, (i 1).isLt⟩
  | ⟨2, _⟩ => ⟨134 + (i 2).val, by have h2 : (i 2).val < 128 := (i 2).isLt; show 134 + (i 2).val < 390; omega⟩
theorem val_main_v227_apply (i : S1024x4x128.Idx) :
    val_main_v227 (F := F) x0 x2 x5 x6 x7 x8 x11 x12 i = val_main_v145 (F := F) x0 x2 x5 x6 x7 x8 x11 x12 (idx_main_v227 i) := by
  unfold val_main_v227
  generalize val_main_v145 (F := F) x0 x2 x5 x6 x7 x8 x11 x12 = y
  exact extractStridedSlice_apply ![0, 0, 134] y slices_S1024x4x390_S1024x4x128_0_0_134 i (idx_main_v227 i) (fun a => match a with
    | ⟨0, _⟩ => by show (i 0).val = 0 + (i 0).val; omega
    | ⟨1, _⟩ => by show (i 1).val = 0 + (i 1).val; omega
    | ⟨2, _⟩ => by show 134 + (i 2).val = 134 + (i 2).val; omega)

def val_main_v228 : (⟨S1024x4x128, .f32⟩ : BufTy).Contents (Elt F) :=
  Host.negf (val_main_v227 (F := F) x0 x2 x5 x6 x7 x8 x11 x12)
theorem val_main_v228_apply (i : S1024x4x128.Idx) :
    val_main_v228 (F := F) x0 x2 x5 x6 x7 x8 x11 x12 i = FloatOps.hostNegf (val_main_v227 (F := F) x0 x2 x5 x6 x7 x8 x11 x12 i) := rfl

def val_main_v229 : (⟨S1024x4x128, .f32⟩ : BufTy).Contents (Elt F) :=
  Host.exp (val_main_v228 (F := F) x0 x2 x5 x6 x7 x8 x11 x12)
theorem val_main_v229_apply (i : S1024x4x128.Idx) :
    val_main_v229 (F := F) x0 x2 x5 x6 x7 x8 x11 x12 i = FloatOps.hostUnary .exp (val_main_v228 (F := F) x0 x2 x5 x6 x7 x8 x11 x12 i) := rfl

def val_main_cst_33 : (⟨S_, .f32⟩ : BufTy).Contents (Elt F) :=
  constant S_ .f32 0x3F800000#32
theorem val_main_cst_33_apply (i : S_.Idx) :
    val_main_cst_33 (F := F) i = FloatOps.ofBits .f32 0x3F800000#32 := rfl

def val_main_v230 : (⟨S1024x4x128, .f32⟩ : BufTy).Contents (Elt F) :=
  broadcastInDim S1024x4x128 ![] bcast_S_S1024x4x128 (val_main_cst_33 (F := F))
abbrev idx_main_v230 (i : S1024x4x128.Idx) : S_.Idx := fun a => a.elim0
theorem val_main_v230_apply (i : S1024x4x128.Idx) :
    val_main_v230 (F := F) i = val_main_cst_33 (F := F) (idx_main_v230 i) := by
  unfold val_main_v230
  generalize val_main_cst_33 (F := F) = y
  exact broadcastInDim_apply _ bcast_S_S1024x4x128 y i (idx_main_v230 i) (fun a => a.elim0)

def val_main_v231 : (⟨S1024x4x128, .f32⟩ : BufTy).Contents (Elt F) :=
  addf (val_main_v230 (F := F)) (val_main_v229 (F := F) x0 x2 x5 x6 x7 x8 x11 x12)
theorem val_main_v231_apply (i : S1024x4x128.Idx) :
    val_main_v231 (F := F) x0 x2 x5 x6 x7 x8 x11 x12 i = FloatOps.addf (val_main_v230 (F := F) i) (val_main_v229 (F := F) x0 x2 x5 x6 x7 x8 x11 x12 i) := rfl

def val_main_cst_34 : (⟨S_, .f32⟩ : BufTy).Contents (Elt F) :=
  constant S_ .f32 0x3F800000#32
theorem val_main_cst_34_apply (i : S_.Idx) :
    val_main_cst_34 (F := F) i = FloatOps.ofBits .f32 0x3F800000#32 := rfl

def val_main_v232 : (⟨S1024x4x128, .f32⟩ : BufTy).Contents (Elt F) :=
  broadcastInDim S1024x4x128 ![] bcast_S_S1024x4x128 (val_main_cst_34 (F := F))
abbrev idx_main_v232 (i : S1024x4x128.Idx) : S_.Idx := fun a => a.elim0
theorem val_main_v232_apply (i : S1024x4x128.Idx) :
    val_main_v232 (F := F) i = val_main_cst_34 (F := F) (idx_main_v232 i) := by
  unfold val_main_v232
  generalize val_main_cst_34 (F := F) = y
  exact broadcastInDim_apply _ bcast_S_S1024x4x128 y i (idx_main_v232 i) (fun a => a.elim0)

def val_main_v233 : (⟨S1024x4x128, .f32⟩ : BufTy).Contents (Elt F) :=
  Host.divf (val_main_v232 (F := F)) (val_main_v231 (F := F) x0 x2 x5 x6 x7 x8 x11 x12)
theorem val_main_v233_apply (i : S1024x4x128.Idx) :
    val_main_v233 (F := F) x0 x2 x5 x6 x7 x8 x11 x12 i = FloatOps.hostDivf (val_main_v232 (F := F) i) (val_main_v231 (F := F) x0 x2 x5 x6 x7 x8 x11 x12 i) := rfl

def val_main_v234 : (⟨S1024x4x128, .f32⟩ : BufTy).Contents (Elt F) :=
  extractStridedSlice S1024x4x128 ![0, 0, 262] (val_main_v145 (F := F) x0 x2 x5 x6 x7 x8 x11 x12) slices_S1024x4x390_S1024x4x128_0_0_262
abbrev idx_main_v234 (i : S1024x4x128.Idx) : S1024x4x390.Idx := fun a => match a with
  | ⟨0, _⟩ => ⟨(i 0).val, (i 0).isLt⟩
  | ⟨1, _⟩ => ⟨(i 1).val, (i 1).isLt⟩
  | ⟨2, _⟩ => ⟨262 + (i 2).val, by have h2 : (i 2).val < 128 := (i 2).isLt; show 262 + (i 2).val < 390; omega⟩
theorem val_main_v234_apply (i : S1024x4x128.Idx) :
    val_main_v234 (F := F) x0 x2 x5 x6 x7 x8 x11 x12 i = val_main_v145 (F := F) x0 x2 x5 x6 x7 x8 x11 x12 (idx_main_v234 i) := by
  unfold val_main_v234
  generalize val_main_v145 (F := F) x0 x2 x5 x6 x7 x8 x11 x12 = y
  exact extractStridedSlice_apply ![0, 0, 262] y slices_S1024x4x390_S1024x4x128_0_0_262 i (idx_main_v234 i) (fun a => match a with
    | ⟨0, _⟩ => by show (i 0).val = 0 + (i 0).val; omega
    | ⟨1, _⟩ => by show (i 1).val = 0 + (i 1).val; omega
    | ⟨2, _⟩ => by show 262 + (i 2).val = 262 + (i 2).val; omega)

def val_main_v235 : (⟨S1024x4x128, .f32⟩ : BufTy).Contents (Elt F) :=
  Host.tanh (val_main_v234 (F := F) x0 x2 x5 x6 x7 x8 x11 x12)
theorem val_main_v235_apply (i : S1024x4x128.Idx) :
    val_main_v235 (F := F) x0 x2 x5 x6 x7 x8 x11 x12 i = FloatOps.hostUnary .tanh (val_main_v234 (F := F) x0 x2 x5 x6 x7 x8 x11 x12 i) := rfl

def val_main_v236 : (⟨S1024x1x512, .f32⟩ : BufTy).Contents (Elt F) :=
  extractStridedSlice S1024x1x512 ![0, 0, 0] (val_main_v226 (F := F) x0 x1 x2 x4 x5 x6 x7 x8 x11 x12) slices_S1024x4x512_S1024x1x512_0_0_0
abbrev idx_main_v236 (i : S1024x1x512.Idx) : S1024x4x512.Idx := fun a => match a with
  | ⟨0, _⟩ => ⟨(i 0).val, (i 0).isLt⟩
  | ⟨1, _⟩ => ⟨(i 1).val, by have h1 : (i 1).val < 1 := (i 1).isLt; show (i 1).val < 4; omega⟩
  | ⟨2, _⟩ => ⟨(i 2).val, (i 2).isLt⟩
theorem val_main_v236_apply (i : S1024x1x512.Idx) :
    val_main_v236 (F := F) x0 x1 x2 x4 x5 x6 x7 x8 x11 x12 i = val_main_v226 (F := F) x0 x1 x2 x4 x5 x6 x7 x8 x11 x12 (idx_main_v236 i) := by
  unfold val_main_v236
  generalize val_main_v226 (F := F) x0 x1 x2 x4 x5 x6 x7 x8 x11 x12 = y
  exact extractStridedSlice_apply ![0, 0, 0] y slices_S1024x4x512_S1024x1x512_0_0_0 i (idx_main_v236 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v237 : (⟨S1024x512, .f32⟩ : BufTy).Contents (Elt F) :=
  shapeCast _ (val_main_v236 (F := F) x0 x1 x2 x4 x5 x6 x7 x8 x11 x12) shapeCasts_S1024x1x512_S1024x512
abbrev idx_main_v237 (i : S1024x512.Idx) : S1024x1x512.Idx := fun a => match a with
  | ⟨0, _⟩ => ⟨((i 0).val * 512 + (i 1).val) / 512, by have h0 : (i 0).val < 1024 := (i 0).isLt; have h1 : (i 1).val < 512 := (i 1).isLt; show ((i 0).val * 512 + (i 1).val) / 512 < 1024; omega⟩
  | ⟨1, _⟩ => ⟨0, Nat.one_pos⟩
  | ⟨2, _⟩ => ⟨((i 0).val * 512 + (i 1).val) % 512, by have h0 : (i 0).val < 1024 := (i 0).isLt; have h1 : (i 1).val < 512 := (i 1).isLt; show ((i 0).val * 512 + (i 1).val) % 512 < 512; omega⟩
theorem val_main_v237_apply (i : S1024x512.Idx) :
    val_main_v237 (F := F) x0 x1 x2 x4 x5 x6 x7 x8 x11 x12 i = val_main_v236 (F := F) x0 x1 x2 x4 x5 x6 x7 x8 x11 x12 (idx_main_v237 i) := by
  unfold val_main_v237
  generalize val_main_v236 (F := F) x0 x1 x2 x4 x5 x6 x7 x8 x11 x12 = y
  exact shapeCast_apply y shapeCasts_S1024x1x512_S1024x512 i (idx_main_v237 i)
    (by rewrite [Shape.rowMajor_val_three, Shape.rowMajor_val_two]; have h0 : (i 0).val < 1024 := (i 0).isLt; have h1 : (i 1).val < 512 := (i 1).isLt; show (((i 0).val * 512 + (i 1).val) / 512 * 1 + 0) * 512 + ((i 0).val * 512 + (i 1).val) % 512 = (i 0).val * 512 + (i 1).val; omega)

def val_main_v238 : (⟨S1024x512x1, .f32⟩ : BufTy).Contents (Elt F) :=
  broadcastInDim S1024x512x1 ![0, 1] bcast_S1024x512_S1024x512x1_0_1 (val_main_v237 (F := F) x0 x1 x2 x4 x5 x6 x7 x8 x11 x12)
abbrev idx_main_v238 (i : S1024x512x1.Idx) : S1024x512.Idx := fun a => match a with
  | ⟨0, _⟩ => ⟨(i 0).val, (i 0).isLt⟩
  | ⟨1, _⟩ => ⟨(i 1).val, (i 1).isLt⟩
theorem val_main_v238_apply (i : S1024x512x1.Idx) :
    val_main_v238 (F := F) x0 x1 x2 x4 x5 x6 x7 x8 x11 x12 i = val_main_v237 (F := F) x0 x1 x2 x4 x5 x6 x7 x8 x11 x12 (idx_main_v238 i) := by
  unfold val_main_v238
  generalize val_main_v237 (F := F) x0 x1 x2 x4 x5 x6 x7 x8 x11 x12 = y
  exact broadcastInDim_apply _ bcast_S1024x512_S1024x512x1_0_1 y i (idx_main_v238 i) (fun a => match a with
    | ⟨0, _⟩ => by show (i 0).val = if (1024 : Nat) = 1 then 0 else (i 0).val; rw [if_neg (by decide)]
    | ⟨1, _⟩ => by show (i 1).val = if (512 : Nat) = 1 then 0 else (i 1).val; rw [if_neg (by decide)])

def val_main_v239 : (⟨S1024x1x128, .f32⟩ : BufTy).Contents (Elt F) :=
  extractStridedSlice S1024x1x128 ![0, 0, 0] (val_main_v233 (F := F) x0 x2 x5 x6 x7 x8 x11 x12) slices_S1024x4x128_S1024x1x128_0_0_0
abbrev idx_main_v239 (i : S1024x1x128.Idx) : S1024x4x128.Idx := fun a => match a with
  | ⟨0, _⟩ => ⟨(i 0).val, (i 0).isLt⟩
  | ⟨1, _⟩ => ⟨(i 1).val, by have h1 : (i 1).val < 1 := (i 1).isLt; show (i 1).val < 4; omega⟩
  | ⟨2, _⟩ => ⟨(i 2).val, (i 2).isLt⟩
theorem val_main_v239_apply (i : S1024x1x128.Idx) :
    val_main_v239 (F := F) x0 x2 x5 x6 x7 x8 x11 x12 i = val_main_v233 (F := F) x0 x2 x5 x6 x7 x8 x11 x12 (idx_main_v239 i) := by
  unfold val_main_v239
  generalize val_main_v233 (F := F) x0 x2 x5 x6 x7 x8 x11 x12 = y
  exact extractStridedSlice_apply ![0, 0, 0] y slices_S1024x4x128_S1024x1x128_0_0_0 i (idx_main_v239 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v240 : (⟨S1024x128, .f32⟩ : BufTy).Contents (Elt F) :=
  shapeCast _ (val_main_v239 (F := F) x0 x2 x5 x6 x7 x8 x11 x12) shapeCasts_S1024x1x128_S1024x128
abbrev idx_main_v240 (i : S1024x128.Idx) : S1024x1x128.Idx := fun a => match a with
  | ⟨0, _⟩ => ⟨((i 0).val * 128 + (i 1).val) / 128, by have h0 : (i 0).val < 1024 := (i 0).isLt; have h1 : (i 1).val < 128 := (i 1).isLt; show ((i 0).val * 128 + (i 1).val) / 128 < 1024; omega⟩
  | ⟨1, _⟩ => ⟨0, Nat.one_pos⟩
  | ⟨2, _⟩ => ⟨((i 0).val * 128 + (i 1).val) % 128, by have h0 : (i 0).val < 1024 := (i 0).isLt; have h1 : (i 1).val < 128 := (i 1).isLt; show ((i 0).val * 128 + (i 1).val) % 128 < 128; omega⟩
theorem val_main_v240_apply (i : S1024x128.Idx) :
    val_main_v240 (F := F) x0 x2 x5 x6 x7 x8 x11 x12 i = val_main_v239 (F := F) x0 x2 x5 x6 x7 x8 x11 x12 (idx_main_v240 i) := by
  unfold val_main_v240
  generalize val_main_v239 (F := F) x0 x2 x5 x6 x7 x8 x11 x12 = y
  exact shapeCast_apply y shapeCasts_S1024x1x128_S1024x128 i (idx_main_v240 i)
    (by rewrite [Shape.rowMajor_val_three, Shape.rowMajor_val_two]; have h0 : (i 0).val < 1024 := (i 0).isLt; have h1 : (i 1).val < 128 := (i 1).isLt; show (((i 0).val * 128 + (i 1).val) / 128 * 1 + 0) * 128 + ((i 0).val * 128 + (i 1).val) % 128 = (i 0).val * 128 + (i 1).val; omega)

def val_main_v241 : (⟨S1024x1x128, .f32⟩ : BufTy).Contents (Elt F) :=
  broadcastInDim S1024x1x128 ![0, 2] bcast_S1024x128_S1024x1x128_0_2 (val_main_v240 (F := F) x0 x2 x5 x6 x7 x8 x11 x12)
abbrev idx_main_v241 (i : S1024x1x128.Idx) : S1024x128.Idx := fun a => match a with
  | ⟨0, _⟩ => ⟨(i 0).val, (i 0).isLt⟩
  | ⟨1, _⟩ => ⟨(i 2).val, (i 2).isLt⟩
theorem val_main_v241_apply (i : S1024x1x128.Idx) :
    val_main_v241 (F := F) x0 x2 x5 x6 x7 x8 x11 x12 i = val_main_v240 (F := F) x0 x2 x5 x6 x7 x8 x11 x12 (idx_main_v241 i) := by
  unfold val_main_v241
  generalize val_main_v240 (F := F) x0 x2 x5 x6 x7 x8 x11 x12 = y
  exact broadcastInDim_apply _ bcast_S1024x128_S1024x1x128_0_2 y i (idx_main_v241 i) (fun a => match a with
    | ⟨0, _⟩ => by show (i 0).val = if (1024 : Nat) = 1 then 0 else (i 0).val; rw [if_neg (by decide)]
    | ⟨1, _⟩ => by show (i 2).val = if (128 : Nat) = 1 then 0 else (i 2).val; rw [if_neg (by decide)])

def val_main_v242 : (⟨S1024x512x128, .f32⟩ : BufTy).Contents (Elt F) :=
  broadcastInDim S1024x512x128 ![0, 1, 2] bcast_S1024x512x1_S1024x512x128_0_1_2 (val_main_v238 (F := F) x0 x1 x2 x4 x5 x6 x7 x8 x11 x12)
abbrev idx_main_v242 (i : S1024x512x128.Idx) : S1024x512x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v242_apply (i : S1024x512x128.Idx) :
    val_main_v242 (F := F) x0 x1 x2 x4 x5 x6 x7 x8 x11 x12 i = val_main_v238 (F := F) x0 x1 x2 x4 x5 x6 x7 x8 x11 x12 (idx_main_v242 i) := by
  unfold val_main_v242
  generalize val_main_v238 (F := F) x0 x1 x2 x4 x5 x6 x7 x8 x11 x12 = y
  exact broadcastInDim_apply _ bcast_S1024x512x1_S1024x512x128_0_1_2 y i (idx_main_v242 i) (fun a => match a with
    | ⟨0, _⟩ => by show (i 0).val = if (1024 : Nat) = 1 then 0 else (i 0).val; rw [if_neg (by decide)]
    | ⟨1, _⟩ => by show (i 1).val = if (512 : Nat) = 1 then 0 else (i 1).val; rw [if_neg (by decide)]
    | ⟨2, _⟩ => by show 0 = if (1 : Nat) = 1 then 0 else (i 2).val; rw [if_pos rfl])

def val_main_v243 : (⟨S1024x512x128, .f32⟩ : BufTy).Contents (Elt F) :=
  broadcastInDim S1024x512x128 ![0, 1, 2] bcast_S1024x1x128_S1024x512x128_0_1_2 (val_main_v241 (F := F) x0 x2 x5 x6 x7 x8 x11 x12)
abbrev idx_main_v243 (i : S1024x512x128.Idx) : S1024x1x128.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v243_apply (i : S1024x512x128.Idx) :
    val_main_v243 (F := F) x0 x2 x5 x6 x7 x8 x11 x12 i = val_main_v241 (F := F) x0 x2 x5 x6 x7 x8 x11 x12 (idx_main_v243 i) := by
  unfold val_main_v243
  generalize val_main_v241 (F := F) x0 x2 x5 x6 x7 x8 x11 x12 = y
  exact broadcastInDim_apply _ bcast_S1024x1x128_S1024x512x128_0_1_2 y i (idx_main_v243 i) (fun a => match a with
    | ⟨0, _⟩ => by show (i 0).val = if (1024 : Nat) = 1 then 0 else (i 0).val; rw [if_neg (by decide)]
    | ⟨1, _⟩ => by show 0 = if (1 : Nat) = 1 then 0 else (i 1).val; rw [if_pos rfl]
    | ⟨2, _⟩ => by show (i 2).val = if (128 : Nat) = 1 then 0 else (i 2).val; rw [if_neg (by decide)])

def val_main_v244 : (⟨S1024x512x128, .f32⟩ : BufTy).Contents (Elt F) :=
  mulf (val_main_v242 (F := F) x0 x1 x2 x4 x5 x6 x7 x8 x11 x12) (val_main_v243 (F := F) x0 x2 x5 x6 x7 x8 x11 x12)
theorem val_main_v244_apply (i : S1024x512x128.Idx) :
    val_main_v244 (F := F) x0 x1 x2 x4 x5 x6 x7 x8 x11 x12 i = FloatOps.mulf (val_main_v242 (F := F) x0 x1 x2 x4 x5 x6 x7 x8 x11 x12 i) (val_main_v243 (F := F) x0 x2 x5 x6 x7 x8 x11 x12 i) := rfl

def val_main_cst_35 : (⟨S_, .f32⟩ : BufTy).Contents (Elt F) :=
  constant S_ .f32 0x3F800000#32
theorem val_main_cst_35_apply (i : S_.Idx) :
    val_main_cst_35 (F := F) i = FloatOps.ofBits .f32 0x3F800000#32 := rfl

def val_main_v245 : (⟨S1024x512x128, .f32⟩ : BufTy).Contents (Elt F) :=
  broadcastInDim S1024x512x128 ![] bcast_S_S1024x512x128 (val_main_cst_35 (F := F))
abbrev idx_main_v245 (i : S1024x512x128.Idx) : S_.Idx := fun a => a.elim0
theorem val_main_v245_apply (i : S1024x512x128.Idx) :
    val_main_v245 (F := F) i = val_main_cst_35 (F := F) (idx_main_v245 i) := by
  unfold val_main_v245
  generalize val_main_cst_35 (F := F) = y
  exact broadcastInDim_apply _ bcast_S_S1024x512x128 y i (idx_main_v245 i) (fun a => a.elim0)

def val_main_v246 : (⟨S1024x512x128, .f32⟩ : BufTy).Contents (Elt F) :=
  subf (val_main_v245 (F := F)) (val_main_v244 (F := F) x0 x1 x2 x4 x5 x6 x7 x8 x11 x12)
theorem val_main_v246_apply (i : S1024x512x128.Idx) :
    val_main_v246 (F := F) x0 x1 x2 x4 x5 x6 x7 x8 x11 x12 i = FloatOps.subf (val_main_v245 (F := F) i) (val_main_v244 (F := F) x0 x1 x2 x4 x5 x6 x7 x8 x11 x12 i) := rfl

def val_main_v247 : (⟨S1024x512x128, .f32⟩ : BufTy).Contents (Elt F) :=
  mulf (x1) (val_main_v246 (F := F) x0 x1 x2 x4 x5 x6 x7 x8 x11 x12)
theorem val_main_v247_apply (i : S1024x512x128.Idx) :
    val_main_v247 (F := F) x0 x1 x2 x4 x5 x6 x7 x8 x11 x12 i = FloatOps.mulf (x1 i) (val_main_v246 (F := F) x0 x1 x2 x4 x5 x6 x7 x8 x11 x12 i) := rfl

def val_main_v248 : (⟨S1024x1x128, .f32⟩ : BufTy).Contents (Elt F) :=
  extractStridedSlice S1024x1x128 ![0, 0, 0] (val_main_v235 (F := F) x0 x2 x5 x6 x7 x8 x11 x12) slices_S1024x4x128_S1024x1x128_0_0_0
abbrev idx_main_v248 (i : S1024x1x128.Idx) : S1024x4x128.Idx := fun a => match a with
  | ⟨0, _⟩ => ⟨(i 0).val, (i 0).isLt⟩
  | ⟨1, _⟩ => ⟨(i 1).val, by have h1 : (i 1).val < 1 := (i 1).isLt; show (i 1).val < 4; omega⟩
  | ⟨2, _⟩ => ⟨(i 2).val, (i 2).isLt⟩
theorem val_main_v248_apply (i : S1024x1x128.Idx) :
    val_main_v248 (F := F) x0 x2 x5 x6 x7 x8 x11 x12 i = val_main_v235 (F := F) x0 x2 x5 x6 x7 x8 x11 x12 (idx_main_v248 i) := by
  unfold val_main_v248
  generalize val_main_v235 (F := F) x0 x2 x5 x6 x7 x8 x11 x12 = y
  exact extractStridedSlice_apply ![0, 0, 0] y slices_S1024x4x128_S1024x1x128_0_0_0 i (idx_main_v248 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v249 : (⟨S1024x128, .f32⟩ : BufTy).Contents (Elt F) :=
  shapeCast _ (val_main_v248 (F := F) x0 x2 x5 x6 x7 x8 x11 x12) shapeCasts_S1024x1x128_S1024x128
abbrev idx_main_v249 (i : S1024x128.Idx) : S1024x1x128.Idx := fun a => match a with
  | ⟨0, _⟩ => ⟨((i 0).val * 128 + (i 1).val) / 128, by have h0 : (i 0).val < 1024 := (i 0).isLt; have h1 : (i 1).val < 128 := (i 1).isLt; show ((i 0).val * 128 + (i 1).val) / 128 < 1024; omega⟩
  | ⟨1, _⟩ => ⟨0, Nat.one_pos⟩
  | ⟨2, _⟩ => ⟨((i 0).val * 128 + (i 1).val) % 128, by have h0 : (i 0).val < 1024 := (i 0).isLt; have h1 : (i 1).val < 128 := (i 1).isLt; show ((i 0).val * 128 + (i 1).val) % 128 < 128; omega⟩
theorem val_main_v249_apply (i : S1024x128.Idx) :
    val_main_v249 (F := F) x0 x2 x5 x6 x7 x8 x11 x12 i = val_main_v248 (F := F) x0 x2 x5 x6 x7 x8 x11 x12 (idx_main_v249 i) := by
  unfold val_main_v249
  generalize val_main_v248 (F := F) x0 x2 x5 x6 x7 x8 x11 x12 = y
  exact shapeCast_apply y shapeCasts_S1024x1x128_S1024x128 i (idx_main_v249 i)
    (by rewrite [Shape.rowMajor_val_three, Shape.rowMajor_val_two]; have h0 : (i 0).val < 1024 := (i 0).isLt; have h1 : (i 1).val < 128 := (i 1).isLt; show (((i 0).val * 128 + (i 1).val) / 128 * 1 + 0) * 128 + ((i 0).val * 128 + (i 1).val) % 128 = (i 0).val * 128 + (i 1).val; omega)

def val_main_v250 : (⟨S1024x1x128, .f32⟩ : BufTy).Contents (Elt F) :=
  broadcastInDim S1024x1x128 ![0, 2] bcast_S1024x128_S1024x1x128_0_2 (val_main_v249 (F := F) x0 x2 x5 x6 x7 x8 x11 x12)
abbrev idx_main_v250 (i : S1024x1x128.Idx) : S1024x128.Idx := fun a => match a with
  | ⟨0, _⟩ => ⟨(i 0).val, (i 0).isLt⟩
  | ⟨1, _⟩ => ⟨(i 2).val, (i 2).isLt⟩
theorem val_main_v250_apply (i : S1024x1x128.Idx) :
    val_main_v250 (F := F) x0 x2 x5 x6 x7 x8 x11 x12 i = val_main_v249 (F := F) x0 x2 x5 x6 x7 x8 x11 x12 (idx_main_v250 i) := by
  unfold val_main_v250
  generalize val_main_v249 (F := F) x0 x2 x5 x6 x7 x8 x11 x12 = y
  exact broadcastInDim_apply _ bcast_S1024x128_S1024x1x128_0_2 y i (idx_main_v250 i) (fun a => match a with
    | ⟨0, _⟩ => by show (i 0).val = if (1024 : Nat) = 1 then 0 else (i 0).val; rw [if_neg (by decide)]
    | ⟨1, _⟩ => by show (i 2).val = if (128 : Nat) = 1 then 0 else (i 2).val; rw [if_neg (by decide)])

def val_main_v251 : (⟨S1024x512x128, .f32⟩ : BufTy).Contents (Elt F) :=
  broadcastInDim S1024x512x128 ![0, 1, 2] bcast_S1024x512x1_S1024x512x128_0_1_2 (val_main_v238 (F := F) x0 x1 x2 x4 x5 x6 x7 x8 x11 x12)
abbrev idx_main_v251 (i : S1024x512x128.Idx) : S1024x512x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v251_apply (i : S1024x512x128.Idx) :
    val_main_v251 (F := F) x0 x1 x2 x4 x5 x6 x7 x8 x11 x12 i = val_main_v238 (F := F) x0 x1 x2 x4 x5 x6 x7 x8 x11 x12 (idx_main_v251 i) := by
  unfold val_main_v251
  generalize val_main_v238 (F := F) x0 x1 x2 x4 x5 x6 x7 x8 x11 x12 = y
  exact broadcastInDim_apply _ bcast_S1024x512x1_S1024x512x128_0_1_2 y i (idx_main_v251 i) (fun a => match a with
    | ⟨0, _⟩ => by show (i 0).val = if (1024 : Nat) = 1 then 0 else (i 0).val; rw [if_neg (by decide)]
    | ⟨1, _⟩ => by show (i 1).val = if (512 : Nat) = 1 then 0 else (i 1).val; rw [if_neg (by decide)]
    | ⟨2, _⟩ => by show 0 = if (1 : Nat) = 1 then 0 else (i 2).val; rw [if_pos rfl])

def val_main_v252 : (⟨S1024x512x128, .f32⟩ : BufTy).Contents (Elt F) :=
  broadcastInDim S1024x512x128 ![0, 1, 2] bcast_S1024x1x128_S1024x512x128_0_1_2 (val_main_v250 (F := F) x0 x2 x5 x6 x7 x8 x11 x12)
abbrev idx_main_v252 (i : S1024x512x128.Idx) : S1024x1x128.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v252_apply (i : S1024x512x128.Idx) :
    val_main_v252 (F := F) x0 x2 x5 x6 x7 x8 x11 x12 i = val_main_v250 (F := F) x0 x2 x5 x6 x7 x8 x11 x12 (idx_main_v252 i) := by
  unfold val_main_v252
  generalize val_main_v250 (F := F) x0 x2 x5 x6 x7 x8 x11 x12 = y
  exact broadcastInDim_apply _ bcast_S1024x1x128_S1024x512x128_0_1_2 y i (idx_main_v252 i) (fun a => match a with
    | ⟨0, _⟩ => by show (i 0).val = if (1024 : Nat) = 1 then 0 else (i 0).val; rw [if_neg (by decide)]
    | ⟨1, _⟩ => by show 0 = if (1 : Nat) = 1 then 0 else (i 1).val; rw [if_pos rfl]
    | ⟨2, _⟩ => by show (i 2).val = if (128 : Nat) = 1 then 0 else (i 2).val; rw [if_neg (by decide)])

def val_main_v253 : (⟨S1024x512x128, .f32⟩ : BufTy).Contents (Elt F) :=
  mulf (val_main_v251 (F := F) x0 x1 x2 x4 x5 x6 x7 x8 x11 x12) (val_main_v252 (F := F) x0 x2 x5 x6 x7 x8 x11 x12)
theorem val_main_v253_apply (i : S1024x512x128.Idx) :
    val_main_v253 (F := F) x0 x1 x2 x4 x5 x6 x7 x8 x11 x12 i = FloatOps.mulf (val_main_v251 (F := F) x0 x1 x2 x4 x5 x6 x7 x8 x11 x12 i) (val_main_v252 (F := F) x0 x2 x5 x6 x7 x8 x11 x12 i) := rfl

def val_main_v254 : (⟨S1024x512x128, .f32⟩ : BufTy).Contents (Elt F) :=
  addf (val_main_v247 (F := F) x0 x1 x2 x4 x5 x6 x7 x8 x11 x12) (val_main_v253 (F := F) x0 x1 x2 x4 x5 x6 x7 x8 x11 x12)
theorem val_main_v254_apply (i : S1024x512x128.Idx) :
    val_main_v254 (F := F) x0 x1 x2 x4 x5 x6 x7 x8 x11 x12 i = FloatOps.addf (val_main_v247 (F := F) x0 x1 x2 x4 x5 x6 x7 x8 x11 x12 i) (val_main_v253 (F := F) x0 x1 x2 x4 x5 x6 x7 x8 x11 x12 i) := rfl

def val_main_v255 : (⟨S1024x1x512, .f32⟩ : BufTy).Contents (Elt F) :=
  extractStridedSlice S1024x1x512 ![0, 1, 0] (val_main_v226 (F := F) x0 x1 x2 x4 x5 x6 x7 x8 x11 x12) slices_S1024x4x512_S1024x1x512_0_1_0
abbrev idx_main_v255 (i : S1024x1x512.Idx) : S1024x4x512.Idx := fun a => match a with
  | ⟨0, _⟩ => ⟨(i 0).val, (i 0).isLt⟩
  | ⟨1, _⟩ => ⟨1 + (i 1).val, by have h1 : (i 1).val < 1 := (i 1).isLt; show 1 + (i 1).val < 4; omega⟩
  | ⟨2, _⟩ => ⟨(i 2).val, (i 2).isLt⟩
theorem val_main_v255_apply (i : S1024x1x512.Idx) :
    val_main_v255 (F := F) x0 x1 x2 x4 x5 x6 x7 x8 x11 x12 i = val_main_v226 (F := F) x0 x1 x2 x4 x5 x6 x7 x8 x11 x12 (idx_main_v255 i) := by
  unfold val_main_v255
  generalize val_main_v226 (F := F) x0 x1 x2 x4 x5 x6 x7 x8 x11 x12 = y
  exact extractStridedSlice_apply ![0, 1, 0] y slices_S1024x4x512_S1024x1x512_0_1_0 i (idx_main_v255 i) (fun a => match a with
    | ⟨0, _⟩ => by show (i 0).val = 0 + (i 0).val; omega
    | ⟨1, _⟩ => by show 1 + (i 1).val = 1 + (i 1).val; omega
    | ⟨2, _⟩ => by show (i 2).val = 0 + (i 2).val; omega)

def val_main_v256 : (⟨S1024x512, .f32⟩ : BufTy).Contents (Elt F) :=
  shapeCast _ (val_main_v255 (F := F) x0 x1 x2 x4 x5 x6 x7 x8 x11 x12) shapeCasts_S1024x1x512_S1024x512
abbrev idx_main_v256 (i : S1024x512.Idx) : S1024x1x512.Idx := fun a => match a with
  | ⟨0, _⟩ => ⟨((i 0).val * 512 + (i 1).val) / 512, by have h0 : (i 0).val < 1024 := (i 0).isLt; have h1 : (i 1).val < 512 := (i 1).isLt; show ((i 0).val * 512 + (i 1).val) / 512 < 1024; omega⟩
  | ⟨1, _⟩ => ⟨0, Nat.one_pos⟩
  | ⟨2, _⟩ => ⟨((i 0).val * 512 + (i 1).val) % 512, by have h0 : (i 0).val < 1024 := (i 0).isLt; have h1 : (i 1).val < 512 := (i 1).isLt; show ((i 0).val * 512 + (i 1).val) % 512 < 512; omega⟩
theorem val_main_v256_apply (i : S1024x512.Idx) :
    val_main_v256 (F := F) x0 x1 x2 x4 x5 x6 x7 x8 x11 x12 i = val_main_v255 (F := F) x0 x1 x2 x4 x5 x6 x7 x8 x11 x12 (idx_main_v256 i) := by
  unfold val_main_v256
  generalize val_main_v255 (F := F) x0 x1 x2 x4 x5 x6 x7 x8 x11 x12 = y
  exact shapeCast_apply y shapeCasts_S1024x1x512_S1024x512 i (idx_main_v256 i)
    (by rewrite [Shape.rowMajor_val_three, Shape.rowMajor_val_two]; have h0 : (i 0).val < 1024 := (i 0).isLt; have h1 : (i 1).val < 512 := (i 1).isLt; show (((i 0).val * 512 + (i 1).val) / 512 * 1 + 0) * 512 + ((i 0).val * 512 + (i 1).val) % 512 = (i 0).val * 512 + (i 1).val; omega)

def val_main_v257 : (⟨S1024x512x1, .f32⟩ : BufTy).Contents (Elt F) :=
  broadcastInDim S1024x512x1 ![0, 1] bcast_S1024x512_S1024x512x1_0_1 (val_main_v256 (F := F) x0 x1 x2 x4 x5 x6 x7 x8 x11 x12)
abbrev idx_main_v257 (i : S1024x512x1.Idx) : S1024x512.Idx := fun a => match a with
  | ⟨0, _⟩ => ⟨(i 0).val, (i 0).isLt⟩
  | ⟨1, _⟩ => ⟨(i 1).val, (i 1).isLt⟩
theorem val_main_v257_apply (i : S1024x512x1.Idx) :
    val_main_v257 (F := F) x0 x1 x2 x4 x5 x6 x7 x8 x11 x12 i = val_main_v256 (F := F) x0 x1 x2 x4 x5 x6 x7 x8 x11 x12 (idx_main_v257 i) := by
  unfold val_main_v257
  generalize val_main_v256 (F := F) x0 x1 x2 x4 x5 x6 x7 x8 x11 x12 = y
  exact broadcastInDim_apply _ bcast_S1024x512_S1024x512x1_0_1 y i (idx_main_v257 i) (fun a => match a with
    | ⟨0, _⟩ => by show (i 0).val = if (1024 : Nat) = 1 then 0 else (i 0).val; rw [if_neg (by decide)]
    | ⟨1, _⟩ => by show (i 1).val = if (512 : Nat) = 1 then 0 else (i 1).val; rw [if_neg (by decide)])

def val_main_v258 : (⟨S1024x1x128, .f32⟩ : BufTy).Contents (Elt F) :=
  extractStridedSlice S1024x1x128 ![0, 1, 0] (val_main_v233 (F := F) x0 x2 x5 x6 x7 x8 x11 x12) slices_S1024x4x128_S1024x1x128_0_1_0
abbrev idx_main_v258 (i : S1024x1x128.Idx) : S1024x4x128.Idx := fun a => match a with
  | ⟨0, _⟩ => ⟨(i 0).val, (i 0).isLt⟩
  | ⟨1, _⟩ => ⟨1 + (i 1).val, by have h1 : (i 1).val < 1 := (i 1).isLt; show 1 + (i 1).val < 4; omega⟩
  | ⟨2, _⟩ => ⟨(i 2).val, (i 2).isLt⟩
theorem val_main_v258_apply (i : S1024x1x128.Idx) :
    val_main_v258 (F := F) x0 x2 x5 x6 x7 x8 x11 x12 i = val_main_v233 (F := F) x0 x2 x5 x6 x7 x8 x11 x12 (idx_main_v258 i) := by
  unfold val_main_v258
  generalize val_main_v233 (F := F) x0 x2 x5 x6 x7 x8 x11 x12 = y
  exact extractStridedSlice_apply ![0, 1, 0] y slices_S1024x4x128_S1024x1x128_0_1_0 i (idx_main_v258 i) (fun a => match a with
    | ⟨0, _⟩ => by show (i 0).val = 0 + (i 0).val; omega
    | ⟨1, _⟩ => by show 1 + (i 1).val = 1 + (i 1).val; omega
    | ⟨2, _⟩ => by show (i 2).val = 0 + (i 2).val; omega)

def val_main_v259 : (⟨S1024x128, .f32⟩ : BufTy).Contents (Elt F) :=
  shapeCast _ (val_main_v258 (F := F) x0 x2 x5 x6 x7 x8 x11 x12) shapeCasts_S1024x1x128_S1024x128
abbrev idx_main_v259 (i : S1024x128.Idx) : S1024x1x128.Idx := fun a => match a with
  | ⟨0, _⟩ => ⟨((i 0).val * 128 + (i 1).val) / 128, by have h0 : (i 0).val < 1024 := (i 0).isLt; have h1 : (i 1).val < 128 := (i 1).isLt; show ((i 0).val * 128 + (i 1).val) / 128 < 1024; omega⟩
  | ⟨1, _⟩ => ⟨0, Nat.one_pos⟩
  | ⟨2, _⟩ => ⟨((i 0).val * 128 + (i 1).val) % 128, by have h0 : (i 0).val < 1024 := (i 0).isLt; have h1 : (i 1).val < 128 := (i 1).isLt; show ((i 0).val * 128 + (i 1).val) % 128 < 128; omega⟩
theorem val_main_v259_apply (i : S1024x128.Idx) :
    val_main_v259 (F := F) x0 x2 x5 x6 x7 x8 x11 x12 i = val_main_v258 (F := F) x0 x2 x5 x6 x7 x8 x11 x12 (idx_main_v259 i) := by
  unfold val_main_v259
  generalize val_main_v258 (F := F) x0 x2 x5 x6 x7 x8 x11 x12 = y
  exact shapeCast_apply y shapeCasts_S1024x1x128_S1024x128 i (idx_main_v259 i)
    (by rewrite [Shape.rowMajor_val_three, Shape.rowMajor_val_two]; have h0 : (i 0).val < 1024 := (i 0).isLt; have h1 : (i 1).val < 128 := (i 1).isLt; show (((i 0).val * 128 + (i 1).val) / 128 * 1 + 0) * 128 + ((i 0).val * 128 + (i 1).val) % 128 = (i 0).val * 128 + (i 1).val; omega)

def val_main_v260 : (⟨S1024x1x128, .f32⟩ : BufTy).Contents (Elt F) :=
  broadcastInDim S1024x1x128 ![0, 2] bcast_S1024x128_S1024x1x128_0_2 (val_main_v259 (F := F) x0 x2 x5 x6 x7 x8 x11 x12)
abbrev idx_main_v260 (i : S1024x1x128.Idx) : S1024x128.Idx := fun a => match a with
  | ⟨0, _⟩ => ⟨(i 0).val, (i 0).isLt⟩
  | ⟨1, _⟩ => ⟨(i 2).val, (i 2).isLt⟩
theorem val_main_v260_apply (i : S1024x1x128.Idx) :
    val_main_v260 (F := F) x0 x2 x5 x6 x7 x8 x11 x12 i = val_main_v259 (F := F) x0 x2 x5 x6 x7 x8 x11 x12 (idx_main_v260 i) := by
  unfold val_main_v260
  generalize val_main_v259 (F := F) x0 x2 x5 x6 x7 x8 x11 x12 = y
  exact broadcastInDim_apply _ bcast_S1024x128_S1024x1x128_0_2 y i (idx_main_v260 i) (fun a => match a with
    | ⟨0, _⟩ => by show (i 0).val = if (1024 : Nat) = 1 then 0 else (i 0).val; rw [if_neg (by decide)]
    | ⟨1, _⟩ => by show (i 2).val = if (128 : Nat) = 1 then 0 else (i 2).val; rw [if_neg (by decide)])

def val_main_v261 : (⟨S1024x512x128, .f32⟩ : BufTy).Contents (Elt F) :=
  broadcastInDim S1024x512x128 ![0, 1, 2] bcast_S1024x512x1_S1024x512x128_0_1_2 (val_main_v257 (F := F) x0 x1 x2 x4 x5 x6 x7 x8 x11 x12)
abbrev idx_main_v261 (i : S1024x512x128.Idx) : S1024x512x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v261_apply (i : S1024x512x128.Idx) :
    val_main_v261 (F := F) x0 x1 x2 x4 x5 x6 x7 x8 x11 x12 i = val_main_v257 (F := F) x0 x1 x2 x4 x5 x6 x7 x8 x11 x12 (idx_main_v261 i) := by
  unfold val_main_v261
  generalize val_main_v257 (F := F) x0 x1 x2 x4 x5 x6 x7 x8 x11 x12 = y
  exact broadcastInDim_apply _ bcast_S1024x512x1_S1024x512x128_0_1_2 y i (idx_main_v261 i) (fun a => match a with
    | ⟨0, _⟩ => by show (i 0).val = if (1024 : Nat) = 1 then 0 else (i 0).val; rw [if_neg (by decide)]
    | ⟨1, _⟩ => by show (i 1).val = if (512 : Nat) = 1 then 0 else (i 1).val; rw [if_neg (by decide)]
    | ⟨2, _⟩ => by show 0 = if (1 : Nat) = 1 then 0 else (i 2).val; rw [if_pos rfl])

def val_main_v262 : (⟨S1024x512x128, .f32⟩ : BufTy).Contents (Elt F) :=
  broadcastInDim S1024x512x128 ![0, 1, 2] bcast_S1024x1x128_S1024x512x128_0_1_2 (val_main_v260 (F := F) x0 x2 x5 x6 x7 x8 x11 x12)
abbrev idx_main_v262 (i : S1024x512x128.Idx) : S1024x1x128.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v262_apply (i : S1024x512x128.Idx) :
    val_main_v262 (F := F) x0 x2 x5 x6 x7 x8 x11 x12 i = val_main_v260 (F := F) x0 x2 x5 x6 x7 x8 x11 x12 (idx_main_v262 i) := by
  unfold val_main_v262
  generalize val_main_v260 (F := F) x0 x2 x5 x6 x7 x8 x11 x12 = y
  exact broadcastInDim_apply _ bcast_S1024x1x128_S1024x512x128_0_1_2 y i (idx_main_v262 i) (fun a => match a with
    | ⟨0, _⟩ => by show (i 0).val = if (1024 : Nat) = 1 then 0 else (i 0).val; rw [if_neg (by decide)]
    | ⟨1, _⟩ => by show 0 = if (1 : Nat) = 1 then 0 else (i 1).val; rw [if_pos rfl]
    | ⟨2, _⟩ => by show (i 2).val = if (128 : Nat) = 1 then 0 else (i 2).val; rw [if_neg (by decide)])

def val_main_v263 : (⟨S1024x512x128, .f32⟩ : BufTy).Contents (Elt F) :=
  mulf (val_main_v261 (F := F) x0 x1 x2 x4 x5 x6 x7 x8 x11 x12) (val_main_v262 (F := F) x0 x2 x5 x6 x7 x8 x11 x12)
theorem val_main_v263_apply (i : S1024x512x128.Idx) :
    val_main_v263 (F := F) x0 x1 x2 x4 x5 x6 x7 x8 x11 x12 i = FloatOps.mulf (val_main_v261 (F := F) x0 x1 x2 x4 x5 x6 x7 x8 x11 x12 i) (val_main_v262 (F := F) x0 x2 x5 x6 x7 x8 x11 x12 i) := rfl

def val_main_cst_36 : (⟨S_, .f32⟩ : BufTy).Contents (Elt F) :=
  constant S_ .f32 0x3F800000#32
theorem val_main_cst_36_apply (i : S_.Idx) :
    val_main_cst_36 (F := F) i = FloatOps.ofBits .f32 0x3F800000#32 := rfl

def val_main_v264 : (⟨S1024x512x128, .f32⟩ : BufTy).Contents (Elt F) :=
  broadcastInDim S1024x512x128 ![] bcast_S_S1024x512x128 (val_main_cst_36 (F := F))
abbrev idx_main_v264 (i : S1024x512x128.Idx) : S_.Idx := fun a => a.elim0
theorem val_main_v264_apply (i : S1024x512x128.Idx) :
    val_main_v264 (F := F) i = val_main_cst_36 (F := F) (idx_main_v264 i) := by
  unfold val_main_v264
  generalize val_main_cst_36 (F := F) = y
  exact broadcastInDim_apply _ bcast_S_S1024x512x128 y i (idx_main_v264 i) (fun a => a.elim0)

def val_main_v265 : (⟨S1024x512x128, .f32⟩ : BufTy).Contents (Elt F) :=
  subf (val_main_v264 (F := F)) (val_main_v263 (F := F) x0 x1 x2 x4 x5 x6 x7 x8 x11 x12)
theorem val_main_v265_apply (i : S1024x512x128.Idx) :
    val_main_v265 (F := F) x0 x1 x2 x4 x5 x6 x7 x8 x11 x12 i = FloatOps.subf (val_main_v264 (F := F) i) (val_main_v263 (F := F) x0 x1 x2 x4 x5 x6 x7 x8 x11 x12 i) := rfl

def val_main_v266 : (⟨S1024x512x128, .f32⟩ : BufTy).Contents (Elt F) :=
  mulf (val_main_v254 (F := F) x0 x1 x2 x4 x5 x6 x7 x8 x11 x12) (val_main_v265 (F := F) x0 x1 x2 x4 x5 x6 x7 x8 x11 x12)
theorem val_main_v266_apply (i : S1024x512x128.Idx) :
    val_main_v266 (F := F) x0 x1 x2 x4 x5 x6 x7 x8 x11 x12 i = FloatOps.mulf (val_main_v254 (F := F) x0 x1 x2 x4 x5 x6 x7 x8 x11 x12 i) (val_main_v265 (F := F) x0 x1 x2 x4 x5 x6 x7 x8 x11 x12 i) := rfl

def val_main_v267 : (⟨S1024x1x128, .f32⟩ : BufTy).Contents (Elt F) :=
  extractStridedSlice S1024x1x128 ![0, 1, 0] (val_main_v235 (F := F) x0 x2 x5 x6 x7 x8 x11 x12) slices_S1024x4x128_S1024x1x128_0_1_0
abbrev idx_main_v267 (i : S1024x1x128.Idx) : S1024x4x128.Idx := fun a => match a with
  | ⟨0, _⟩ => ⟨(i 0).val, (i 0).isLt⟩
  | ⟨1, _⟩ => ⟨1 + (i 1).val, by have h1 : (i 1).val < 1 := (i 1).isLt; show 1 + (i 1).val < 4; omega⟩
  | ⟨2, _⟩ => ⟨(i 2).val, (i 2).isLt⟩
theorem val_main_v267_apply (i : S1024x1x128.Idx) :
    val_main_v267 (F := F) x0 x2 x5 x6 x7 x8 x11 x12 i = val_main_v235 (F := F) x0 x2 x5 x6 x7 x8 x11 x12 (idx_main_v267 i) := by
  unfold val_main_v267
  generalize val_main_v235 (F := F) x0 x2 x5 x6 x7 x8 x11 x12 = y
  exact extractStridedSlice_apply ![0, 1, 0] y slices_S1024x4x128_S1024x1x128_0_1_0 i (idx_main_v267 i) (fun a => match a with
    | ⟨0, _⟩ => by show (i 0).val = 0 + (i 0).val; omega
    | ⟨1, _⟩ => by show 1 + (i 1).val = 1 + (i 1).val; omega
    | ⟨2, _⟩ => by show (i 2).val = 0 + (i 2).val; omega)

def val_main_v268 : (⟨S1024x128, .f32⟩ : BufTy).Contents (Elt F) :=
  shapeCast _ (val_main_v267 (F := F) x0 x2 x5 x6 x7 x8 x11 x12) shapeCasts_S1024x1x128_S1024x128
abbrev idx_main_v268 (i : S1024x128.Idx) : S1024x1x128.Idx := fun a => match a with
  | ⟨0, _⟩ => ⟨((i 0).val * 128 + (i 1).val) / 128, by have h0 : (i 0).val < 1024 := (i 0).isLt; have h1 : (i 1).val < 128 := (i 1).isLt; show ((i 0).val * 128 + (i 1).val) / 128 < 1024; omega⟩
  | ⟨1, _⟩ => ⟨0, Nat.one_pos⟩
  | ⟨2, _⟩ => ⟨((i 0).val * 128 + (i 1).val) % 128, by have h0 : (i 0).val < 1024 := (i 0).isLt; have h1 : (i 1).val < 128 := (i 1).isLt; show ((i 0).val * 128 + (i 1).val) % 128 < 128; omega⟩
theorem val_main_v268_apply (i : S1024x128.Idx) :
    val_main_v268 (F := F) x0 x2 x5 x6 x7 x8 x11 x12 i = val_main_v267 (F := F) x0 x2 x5 x6 x7 x8 x11 x12 (idx_main_v268 i) := by
  unfold val_main_v268
  generalize val_main_v267 (F := F) x0 x2 x5 x6 x7 x8 x11 x12 = y
  exact shapeCast_apply y shapeCasts_S1024x1x128_S1024x128 i (idx_main_v268 i)
    (by rewrite [Shape.rowMajor_val_three, Shape.rowMajor_val_two]; have h0 : (i 0).val < 1024 := (i 0).isLt; have h1 : (i 1).val < 128 := (i 1).isLt; show (((i 0).val * 128 + (i 1).val) / 128 * 1 + 0) * 128 + ((i 0).val * 128 + (i 1).val) % 128 = (i 0).val * 128 + (i 1).val; omega)

def val_main_v269 : (⟨S1024x1x128, .f32⟩ : BufTy).Contents (Elt F) :=
  broadcastInDim S1024x1x128 ![0, 2] bcast_S1024x128_S1024x1x128_0_2 (val_main_v268 (F := F) x0 x2 x5 x6 x7 x8 x11 x12)
abbrev idx_main_v269 (i : S1024x1x128.Idx) : S1024x128.Idx := fun a => match a with
  | ⟨0, _⟩ => ⟨(i 0).val, (i 0).isLt⟩
  | ⟨1, _⟩ => ⟨(i 2).val, (i 2).isLt⟩
theorem val_main_v269_apply (i : S1024x1x128.Idx) :
    val_main_v269 (F := F) x0 x2 x5 x6 x7 x8 x11 x12 i = val_main_v268 (F := F) x0 x2 x5 x6 x7 x8 x11 x12 (idx_main_v269 i) := by
  unfold val_main_v269
  generalize val_main_v268 (F := F) x0 x2 x5 x6 x7 x8 x11 x12 = y
  exact broadcastInDim_apply _ bcast_S1024x128_S1024x1x128_0_2 y i (idx_main_v269 i) (fun a => match a with
    | ⟨0, _⟩ => by show (i 0).val = if (1024 : Nat) = 1 then 0 else (i 0).val; rw [if_neg (by decide)]
    | ⟨1, _⟩ => by show (i 2).val = if (128 : Nat) = 1 then 0 else (i 2).val; rw [if_neg (by decide)])

def val_main_v270 : (⟨S1024x512x128, .f32⟩ : BufTy).Contents (Elt F) :=
  broadcastInDim S1024x512x128 ![0, 1, 2] bcast_S1024x512x1_S1024x512x128_0_1_2 (val_main_v257 (F := F) x0 x1 x2 x4 x5 x6 x7 x8 x11 x12)
abbrev idx_main_v270 (i : S1024x512x128.Idx) : S1024x512x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v270_apply (i : S1024x512x128.Idx) :
    val_main_v270 (F := F) x0 x1 x2 x4 x5 x6 x7 x8 x11 x12 i = val_main_v257 (F := F) x0 x1 x2 x4 x5 x6 x7 x8 x11 x12 (idx_main_v270 i) := by
  unfold val_main_v270
  generalize val_main_v257 (F := F) x0 x1 x2 x4 x5 x6 x7 x8 x11 x12 = y
  exact broadcastInDim_apply _ bcast_S1024x512x1_S1024x512x128_0_1_2 y i (idx_main_v270 i) (fun a => match a with
    | ⟨0, _⟩ => by show (i 0).val = if (1024 : Nat) = 1 then 0 else (i 0).val; rw [if_neg (by decide)]
    | ⟨1, _⟩ => by show (i 1).val = if (512 : Nat) = 1 then 0 else (i 1).val; rw [if_neg (by decide)]
    | ⟨2, _⟩ => by show 0 = if (1 : Nat) = 1 then 0 else (i 2).val; rw [if_pos rfl])

def val_main_v271 : (⟨S1024x512x128, .f32⟩ : BufTy).Contents (Elt F) :=
  broadcastInDim S1024x512x128 ![0, 1, 2] bcast_S1024x1x128_S1024x512x128_0_1_2 (val_main_v269 (F := F) x0 x2 x5 x6 x7 x8 x11 x12)
abbrev idx_main_v271 (i : S1024x512x128.Idx) : S1024x1x128.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v271_apply (i : S1024x512x128.Idx) :
    val_main_v271 (F := F) x0 x2 x5 x6 x7 x8 x11 x12 i = val_main_v269 (F := F) x0 x2 x5 x6 x7 x8 x11 x12 (idx_main_v271 i) := by
  unfold val_main_v271
  generalize val_main_v269 (F := F) x0 x2 x5 x6 x7 x8 x11 x12 = y
  exact broadcastInDim_apply _ bcast_S1024x1x128_S1024x512x128_0_1_2 y i (idx_main_v271 i) (fun a => match a with
    | ⟨0, _⟩ => by show (i 0).val = if (1024 : Nat) = 1 then 0 else (i 0).val; rw [if_neg (by decide)]
    | ⟨1, _⟩ => by show 0 = if (1 : Nat) = 1 then 0 else (i 1).val; rw [if_pos rfl]
    | ⟨2, _⟩ => by show (i 2).val = if (128 : Nat) = 1 then 0 else (i 2).val; rw [if_neg (by decide)])

def val_main_v272 : (⟨S1024x512x128, .f32⟩ : BufTy).Contents (Elt F) :=
  mulf (val_main_v270 (F := F) x0 x1 x2 x4 x5 x6 x7 x8 x11 x12) (val_main_v271 (F := F) x0 x2 x5 x6 x7 x8 x11 x12)
theorem val_main_v272_apply (i : S1024x512x128.Idx) :
    val_main_v272 (F := F) x0 x1 x2 x4 x5 x6 x7 x8 x11 x12 i = FloatOps.mulf (val_main_v270 (F := F) x0 x1 x2 x4 x5 x6 x7 x8 x11 x12 i) (val_main_v271 (F := F) x0 x2 x5 x6 x7 x8 x11 x12 i) := rfl

def val_main_v273 : (⟨S1024x512x128, .f32⟩ : BufTy).Contents (Elt F) :=
  addf (val_main_v266 (F := F) x0 x1 x2 x4 x5 x6 x7 x8 x11 x12) (val_main_v272 (F := F) x0 x1 x2 x4 x5 x6 x7 x8 x11 x12)
theorem val_main_v273_apply (i : S1024x512x128.Idx) :
    val_main_v273 (F := F) x0 x1 x2 x4 x5 x6 x7 x8 x11 x12 i = FloatOps.addf (val_main_v266 (F := F) x0 x1 x2 x4 x5 x6 x7 x8 x11 x12 i) (val_main_v272 (F := F) x0 x1 x2 x4 x5 x6 x7 x8 x11 x12 i) := rfl

def val_main_v274 : (⟨S1024x1x512, .f32⟩ : BufTy).Contents (Elt F) :=
  extractStridedSlice S1024x1x512 ![0, 2, 0] (val_main_v226 (F := F) x0 x1 x2 x4 x5 x6 x7 x8 x11 x12) slices_S1024x4x512_S1024x1x512_0_2_0
abbrev idx_main_v274 (i : S1024x1x512.Idx) : S1024x4x512.Idx := fun a => match a with
  | ⟨0, _⟩ => ⟨(i 0).val, (i 0).isLt⟩
  | ⟨1, _⟩ => ⟨2 + (i 1).val, by have h1 : (i 1).val < 1 := (i 1).isLt; show 2 + (i 1).val < 4; omega⟩
  | ⟨2, _⟩ => ⟨(i 2).val, (i 2).isLt⟩
theorem val_main_v274_apply (i : S1024x1x512.Idx) :
    val_main_v274 (F := F) x0 x1 x2 x4 x5 x6 x7 x8 x11 x12 i = val_main_v226 (F := F) x0 x1 x2 x4 x5 x6 x7 x8 x11 x12 (idx_main_v274 i) := by
  unfold val_main_v274
  generalize val_main_v226 (F := F) x0 x1 x2 x4 x5 x6 x7 x8 x11 x12 = y
  exact extractStridedSlice_apply ![0, 2, 0] y slices_S1024x4x512_S1024x1x512_0_2_0 i (idx_main_v274 i) (fun a => match a with
    | ⟨0, _⟩ => by show (i 0).val = 0 + (i 0).val; omega
    | ⟨1, _⟩ => by show 2 + (i 1).val = 2 + (i 1).val; omega
    | ⟨2, _⟩ => by show (i 2).val = 0 + (i 2).val; omega)

def val_main_v275 : (⟨S1024x512, .f32⟩ : BufTy).Contents (Elt F) :=
  shapeCast _ (val_main_v274 (F := F) x0 x1 x2 x4 x5 x6 x7 x8 x11 x12) shapeCasts_S1024x1x512_S1024x512
abbrev idx_main_v275 (i : S1024x512.Idx) : S1024x1x512.Idx := fun a => match a with
  | ⟨0, _⟩ => ⟨((i 0).val * 512 + (i 1).val) / 512, by have h0 : (i 0).val < 1024 := (i 0).isLt; have h1 : (i 1).val < 512 := (i 1).isLt; show ((i 0).val * 512 + (i 1).val) / 512 < 1024; omega⟩
  | ⟨1, _⟩ => ⟨0, Nat.one_pos⟩
  | ⟨2, _⟩ => ⟨((i 0).val * 512 + (i 1).val) % 512, by have h0 : (i 0).val < 1024 := (i 0).isLt; have h1 : (i 1).val < 512 := (i 1).isLt; show ((i 0).val * 512 + (i 1).val) % 512 < 512; omega⟩
theorem val_main_v275_apply (i : S1024x512.Idx) :
    val_main_v275 (F := F) x0 x1 x2 x4 x5 x6 x7 x8 x11 x12 i = val_main_v274 (F := F) x0 x1 x2 x4 x5 x6 x7 x8 x11 x12 (idx_main_v275 i) := by
  unfold val_main_v275
  generalize val_main_v274 (F := F) x0 x1 x2 x4 x5 x6 x7 x8 x11 x12 = y
  exact shapeCast_apply y shapeCasts_S1024x1x512_S1024x512 i (idx_main_v275 i)
    (by rewrite [Shape.rowMajor_val_three, Shape.rowMajor_val_two]; have h0 : (i 0).val < 1024 := (i 0).isLt; have h1 : (i 1).val < 512 := (i 1).isLt; show (((i 0).val * 512 + (i 1).val) / 512 * 1 + 0) * 512 + ((i 0).val * 512 + (i 1).val) % 512 = (i 0).val * 512 + (i 1).val; omega)

def val_main_v276 : (⟨S1024x512x1, .f32⟩ : BufTy).Contents (Elt F) :=
  broadcastInDim S1024x512x1 ![0, 1] bcast_S1024x512_S1024x512x1_0_1 (val_main_v275 (F := F) x0 x1 x2 x4 x5 x6 x7 x8 x11 x12)
abbrev idx_main_v276 (i : S1024x512x1.Idx) : S1024x512.Idx := fun a => match a with
  | ⟨0, _⟩ => ⟨(i 0).val, (i 0).isLt⟩
  | ⟨1, _⟩ => ⟨(i 1).val, (i 1).isLt⟩
theorem val_main_v276_apply (i : S1024x512x1.Idx) :
    val_main_v276 (F := F) x0 x1 x2 x4 x5 x6 x7 x8 x11 x12 i = val_main_v275 (F := F) x0 x1 x2 x4 x5 x6 x7 x8 x11 x12 (idx_main_v276 i) := by
  unfold val_main_v276
  generalize val_main_v275 (F := F) x0 x1 x2 x4 x5 x6 x7 x8 x11 x12 = y
  exact broadcastInDim_apply _ bcast_S1024x512_S1024x512x1_0_1 y i (idx_main_v276 i) (fun a => match a with
    | ⟨0, _⟩ => by show (i 0).val = if (1024 : Nat) = 1 then 0 else (i 0).val; rw [if_neg (by decide)]
    | ⟨1, _⟩ => by show (i 1).val = if (512 : Nat) = 1 then 0 else (i 1).val; rw [if_neg (by decide)])

def val_main_v277 : (⟨S1024x1x128, .f32⟩ : BufTy).Contents (Elt F) :=
  extractStridedSlice S1024x1x128 ![0, 2, 0] (val_main_v233 (F := F) x0 x2 x5 x6 x7 x8 x11 x12) slices_S1024x4x128_S1024x1x128_0_2_0
abbrev idx_main_v277 (i : S1024x1x128.Idx) : S1024x4x128.Idx := fun a => match a with
  | ⟨0, _⟩ => ⟨(i 0).val, (i 0).isLt⟩
  | ⟨1, _⟩ => ⟨2 + (i 1).val, by have h1 : (i 1).val < 1 := (i 1).isLt; show 2 + (i 1).val < 4; omega⟩
  | ⟨2, _⟩ => ⟨(i 2).val, (i 2).isLt⟩
theorem val_main_v277_apply (i : S1024x1x128.Idx) :
    val_main_v277 (F := F) x0 x2 x5 x6 x7 x8 x11 x12 i = val_main_v233 (F := F) x0 x2 x5 x6 x7 x8 x11 x12 (idx_main_v277 i) := by
  unfold val_main_v277
  generalize val_main_v233 (F := F) x0 x2 x5 x6 x7 x8 x11 x12 = y
  exact extractStridedSlice_apply ![0, 2, 0] y slices_S1024x4x128_S1024x1x128_0_2_0 i (idx_main_v277 i) (fun a => match a with
    | ⟨0, _⟩ => by show (i 0).val = 0 + (i 0).val; omega
    | ⟨1, _⟩ => by show 2 + (i 1).val = 2 + (i 1).val; omega
    | ⟨2, _⟩ => by show (i 2).val = 0 + (i 2).val; omega)

def val_main_v278 : (⟨S1024x128, .f32⟩ : BufTy).Contents (Elt F) :=
  shapeCast _ (val_main_v277 (F := F) x0 x2 x5 x6 x7 x8 x11 x12) shapeCasts_S1024x1x128_S1024x128
abbrev idx_main_v278 (i : S1024x128.Idx) : S1024x1x128.Idx := fun a => match a with
  | ⟨0, _⟩ => ⟨((i 0).val * 128 + (i 1).val) / 128, by have h0 : (i 0).val < 1024 := (i 0).isLt; have h1 : (i 1).val < 128 := (i 1).isLt; show ((i 0).val * 128 + (i 1).val) / 128 < 1024; omega⟩
  | ⟨1, _⟩ => ⟨0, Nat.one_pos⟩
  | ⟨2, _⟩ => ⟨((i 0).val * 128 + (i 1).val) % 128, by have h0 : (i 0).val < 1024 := (i 0).isLt; have h1 : (i 1).val < 128 := (i 1).isLt; show ((i 0).val * 128 + (i 1).val) % 128 < 128; omega⟩
theorem val_main_v278_apply (i : S1024x128.Idx) :
    val_main_v278 (F := F) x0 x2 x5 x6 x7 x8 x11 x12 i = val_main_v277 (F := F) x0 x2 x5 x6 x7 x8 x11 x12 (idx_main_v278 i) := by
  unfold val_main_v278
  generalize val_main_v277 (F := F) x0 x2 x5 x6 x7 x8 x11 x12 = y
  exact shapeCast_apply y shapeCasts_S1024x1x128_S1024x128 i (idx_main_v278 i)
    (by rewrite [Shape.rowMajor_val_three, Shape.rowMajor_val_two]; have h0 : (i 0).val < 1024 := (i 0).isLt; have h1 : (i 1).val < 128 := (i 1).isLt; show (((i 0).val * 128 + (i 1).val) / 128 * 1 + 0) * 128 + ((i 0).val * 128 + (i 1).val) % 128 = (i 0).val * 128 + (i 1).val; omega)

def val_main_v279 : (⟨S1024x1x128, .f32⟩ : BufTy).Contents (Elt F) :=
  broadcastInDim S1024x1x128 ![0, 2] bcast_S1024x128_S1024x1x128_0_2 (val_main_v278 (F := F) x0 x2 x5 x6 x7 x8 x11 x12)
abbrev idx_main_v279 (i : S1024x1x128.Idx) : S1024x128.Idx := fun a => match a with
  | ⟨0, _⟩ => ⟨(i 0).val, (i 0).isLt⟩
  | ⟨1, _⟩ => ⟨(i 2).val, (i 2).isLt⟩
theorem val_main_v279_apply (i : S1024x1x128.Idx) :
    val_main_v279 (F := F) x0 x2 x5 x6 x7 x8 x11 x12 i = val_main_v278 (F := F) x0 x2 x5 x6 x7 x8 x11 x12 (idx_main_v279 i) := by
  unfold val_main_v279
  generalize val_main_v278 (F := F) x0 x2 x5 x6 x7 x8 x11 x12 = y
  exact broadcastInDim_apply _ bcast_S1024x128_S1024x1x128_0_2 y i (idx_main_v279 i) (fun a => match a with
    | ⟨0, _⟩ => by show (i 0).val = if (1024 : Nat) = 1 then 0 else (i 0).val; rw [if_neg (by decide)]
    | ⟨1, _⟩ => by show (i 2).val = if (128 : Nat) = 1 then 0 else (i 2).val; rw [if_neg (by decide)])

def val_main_v280 : (⟨S1024x512x128, .f32⟩ : BufTy).Contents (Elt F) :=
  broadcastInDim S1024x512x128 ![0, 1, 2] bcast_S1024x512x1_S1024x512x128_0_1_2 (val_main_v276 (F := F) x0 x1 x2 x4 x5 x6 x7 x8 x11 x12)
abbrev idx_main_v280 (i : S1024x512x128.Idx) : S1024x512x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v280_apply (i : S1024x512x128.Idx) :
    val_main_v280 (F := F) x0 x1 x2 x4 x5 x6 x7 x8 x11 x12 i = val_main_v276 (F := F) x0 x1 x2 x4 x5 x6 x7 x8 x11 x12 (idx_main_v280 i) := by
  unfold val_main_v280
  generalize val_main_v276 (F := F) x0 x1 x2 x4 x5 x6 x7 x8 x11 x12 = y
  exact broadcastInDim_apply _ bcast_S1024x512x1_S1024x512x128_0_1_2 y i (idx_main_v280 i) (fun a => match a with
    | ⟨0, _⟩ => by show (i 0).val = if (1024 : Nat) = 1 then 0 else (i 0).val; rw [if_neg (by decide)]
    | ⟨1, _⟩ => by show (i 1).val = if (512 : Nat) = 1 then 0 else (i 1).val; rw [if_neg (by decide)]
    | ⟨2, _⟩ => by show 0 = if (1 : Nat) = 1 then 0 else (i 2).val; rw [if_pos rfl])

def val_main_v281 : (⟨S1024x512x128, .f32⟩ : BufTy).Contents (Elt F) :=
  broadcastInDim S1024x512x128 ![0, 1, 2] bcast_S1024x1x128_S1024x512x128_0_1_2 (val_main_v279 (F := F) x0 x2 x5 x6 x7 x8 x11 x12)
abbrev idx_main_v281 (i : S1024x512x128.Idx) : S1024x1x128.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v281_apply (i : S1024x512x128.Idx) :
    val_main_v281 (F := F) x0 x2 x5 x6 x7 x8 x11 x12 i = val_main_v279 (F := F) x0 x2 x5 x6 x7 x8 x11 x12 (idx_main_v281 i) := by
  unfold val_main_v281
  generalize val_main_v279 (F := F) x0 x2 x5 x6 x7 x8 x11 x12 = y
  exact broadcastInDim_apply _ bcast_S1024x1x128_S1024x512x128_0_1_2 y i (idx_main_v281 i) (fun a => match a with
    | ⟨0, _⟩ => by show (i 0).val = if (1024 : Nat) = 1 then 0 else (i 0).val; rw [if_neg (by decide)]
    | ⟨1, _⟩ => by show 0 = if (1 : Nat) = 1 then 0 else (i 1).val; rw [if_pos rfl]
    | ⟨2, _⟩ => by show (i 2).val = if (128 : Nat) = 1 then 0 else (i 2).val; rw [if_neg (by decide)])

def val_main_v282 : (⟨S1024x512x128, .f32⟩ : BufTy).Contents (Elt F) :=
  mulf (val_main_v280 (F := F) x0 x1 x2 x4 x5 x6 x7 x8 x11 x12) (val_main_v281 (F := F) x0 x2 x5 x6 x7 x8 x11 x12)
theorem val_main_v282_apply (i : S1024x512x128.Idx) :
    val_main_v282 (F := F) x0 x1 x2 x4 x5 x6 x7 x8 x11 x12 i = FloatOps.mulf (val_main_v280 (F := F) x0 x1 x2 x4 x5 x6 x7 x8 x11 x12 i) (val_main_v281 (F := F) x0 x2 x5 x6 x7 x8 x11 x12 i) := rfl

def val_main_cst_37 : (⟨S_, .f32⟩ : BufTy).Contents (Elt F) :=
  constant S_ .f32 0x3F800000#32
theorem val_main_cst_37_apply (i : S_.Idx) :
    val_main_cst_37 (F := F) i = FloatOps.ofBits .f32 0x3F800000#32 := rfl

def val_main_v283 : (⟨S1024x512x128, .f32⟩ : BufTy).Contents (Elt F) :=
  broadcastInDim S1024x512x128 ![] bcast_S_S1024x512x128 (val_main_cst_37 (F := F))
abbrev idx_main_v283 (i : S1024x512x128.Idx) : S_.Idx := fun a => a.elim0
theorem val_main_v283_apply (i : S1024x512x128.Idx) :
    val_main_v283 (F := F) i = val_main_cst_37 (F := F) (idx_main_v283 i) := by
  unfold val_main_v283
  generalize val_main_cst_37 (F := F) = y
  exact broadcastInDim_apply _ bcast_S_S1024x512x128 y i (idx_main_v283 i) (fun a => a.elim0)

def val_main_v284 : (⟨S1024x512x128, .f32⟩ : BufTy).Contents (Elt F) :=
  subf (val_main_v283 (F := F)) (val_main_v282 (F := F) x0 x1 x2 x4 x5 x6 x7 x8 x11 x12)
theorem val_main_v284_apply (i : S1024x512x128.Idx) :
    val_main_v284 (F := F) x0 x1 x2 x4 x5 x6 x7 x8 x11 x12 i = FloatOps.subf (val_main_v283 (F := F) i) (val_main_v282 (F := F) x0 x1 x2 x4 x5 x6 x7 x8 x11 x12 i) := rfl

def val_main_v285 : (⟨S1024x512x128, .f32⟩ : BufTy).Contents (Elt F) :=
  mulf (val_main_v273 (F := F) x0 x1 x2 x4 x5 x6 x7 x8 x11 x12) (val_main_v284 (F := F) x0 x1 x2 x4 x5 x6 x7 x8 x11 x12)
theorem val_main_v285_apply (i : S1024x512x128.Idx) :
    val_main_v285 (F := F) x0 x1 x2 x4 x5 x6 x7 x8 x11 x12 i = FloatOps.mulf (val_main_v273 (F := F) x0 x1 x2 x4 x5 x6 x7 x8 x11 x12 i) (val_main_v284 (F := F) x0 x1 x2 x4 x5 x6 x7 x8 x11 x12 i) := rfl

def val_main_v286 : (⟨S1024x1x128, .f32⟩ : BufTy).Contents (Elt F) :=
  extractStridedSlice S1024x1x128 ![0, 2, 0] (val_main_v235 (F := F) x0 x2 x5 x6 x7 x8 x11 x12) slices_S1024x4x128_S1024x1x128_0_2_0
abbrev idx_main_v286 (i : S1024x1x128.Idx) : S1024x4x128.Idx := fun a => match a with
  | ⟨0, _⟩ => ⟨(i 0).val, (i 0).isLt⟩
  | ⟨1, _⟩ => ⟨2 + (i 1).val, by have h1 : (i 1).val < 1 := (i 1).isLt; show 2 + (i 1).val < 4; omega⟩
  | ⟨2, _⟩ => ⟨(i 2).val, (i 2).isLt⟩
theorem val_main_v286_apply (i : S1024x1x128.Idx) :
    val_main_v286 (F := F) x0 x2 x5 x6 x7 x8 x11 x12 i = val_main_v235 (F := F) x0 x2 x5 x6 x7 x8 x11 x12 (idx_main_v286 i) := by
  unfold val_main_v286
  generalize val_main_v235 (F := F) x0 x2 x5 x6 x7 x8 x11 x12 = y
  exact extractStridedSlice_apply ![0, 2, 0] y slices_S1024x4x128_S1024x1x128_0_2_0 i (idx_main_v286 i) (fun a => match a with
    | ⟨0, _⟩ => by show (i 0).val = 0 + (i 0).val; omega
    | ⟨1, _⟩ => by show 2 + (i 1).val = 2 + (i 1).val; omega
    | ⟨2, _⟩ => by show (i 2).val = 0 + (i 2).val; omega)

def val_main_v287 : (⟨S1024x128, .f32⟩ : BufTy).Contents (Elt F) :=
  shapeCast _ (val_main_v286 (F := F) x0 x2 x5 x6 x7 x8 x11 x12) shapeCasts_S1024x1x128_S1024x128
abbrev idx_main_v287 (i : S1024x128.Idx) : S1024x1x128.Idx := fun a => match a with
  | ⟨0, _⟩ => ⟨((i 0).val * 128 + (i 1).val) / 128, by have h0 : (i 0).val < 1024 := (i 0).isLt; have h1 : (i 1).val < 128 := (i 1).isLt; show ((i 0).val * 128 + (i 1).val) / 128 < 1024; omega⟩
  | ⟨1, _⟩ => ⟨0, Nat.one_pos⟩
  | ⟨2, _⟩ => ⟨((i 0).val * 128 + (i 1).val) % 128, by have h0 : (i 0).val < 1024 := (i 0).isLt; have h1 : (i 1).val < 128 := (i 1).isLt; show ((i 0).val * 128 + (i 1).val) % 128 < 128; omega⟩
theorem val_main_v287_apply (i : S1024x128.Idx) :
    val_main_v287 (F := F) x0 x2 x5 x6 x7 x8 x11 x12 i = val_main_v286 (F := F) x0 x2 x5 x6 x7 x8 x11 x12 (idx_main_v287 i) := by
  unfold val_main_v287
  generalize val_main_v286 (F := F) x0 x2 x5 x6 x7 x8 x11 x12 = y
  exact shapeCast_apply y shapeCasts_S1024x1x128_S1024x128 i (idx_main_v287 i)
    (by rewrite [Shape.rowMajor_val_three, Shape.rowMajor_val_two]; have h0 : (i 0).val < 1024 := (i 0).isLt; have h1 : (i 1).val < 128 := (i 1).isLt; show (((i 0).val * 128 + (i 1).val) / 128 * 1 + 0) * 128 + ((i 0).val * 128 + (i 1).val) % 128 = (i 0).val * 128 + (i 1).val; omega)

def val_main_v288 : (⟨S1024x1x128, .f32⟩ : BufTy).Contents (Elt F) :=
  broadcastInDim S1024x1x128 ![0, 2] bcast_S1024x128_S1024x1x128_0_2 (val_main_v287 (F := F) x0 x2 x5 x6 x7 x8 x11 x12)
abbrev idx_main_v288 (i : S1024x1x128.Idx) : S1024x128.Idx := fun a => match a with
  | ⟨0, _⟩ => ⟨(i 0).val, (i 0).isLt⟩
  | ⟨1, _⟩ => ⟨(i 2).val, (i 2).isLt⟩
theorem val_main_v288_apply (i : S1024x1x128.Idx) :
    val_main_v288 (F := F) x0 x2 x5 x6 x7 x8 x11 x12 i = val_main_v287 (F := F) x0 x2 x5 x6 x7 x8 x11 x12 (idx_main_v288 i) := by
  unfold val_main_v288
  generalize val_main_v287 (F := F) x0 x2 x5 x6 x7 x8 x11 x12 = y
  exact broadcastInDim_apply _ bcast_S1024x128_S1024x1x128_0_2 y i (idx_main_v288 i) (fun a => match a with
    | ⟨0, _⟩ => by show (i 0).val = if (1024 : Nat) = 1 then 0 else (i 0).val; rw [if_neg (by decide)]
    | ⟨1, _⟩ => by show (i 2).val = if (128 : Nat) = 1 then 0 else (i 2).val; rw [if_neg (by decide)])

def val_main_v289 : (⟨S1024x512x128, .f32⟩ : BufTy).Contents (Elt F) :=
  broadcastInDim S1024x512x128 ![0, 1, 2] bcast_S1024x512x1_S1024x512x128_0_1_2 (val_main_v276 (F := F) x0 x1 x2 x4 x5 x6 x7 x8 x11 x12)
abbrev idx_main_v289 (i : S1024x512x128.Idx) : S1024x512x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v289_apply (i : S1024x512x128.Idx) :
    val_main_v289 (F := F) x0 x1 x2 x4 x5 x6 x7 x8 x11 x12 i = val_main_v276 (F := F) x0 x1 x2 x4 x5 x6 x7 x8 x11 x12 (idx_main_v289 i) := by
  unfold val_main_v289
  generalize val_main_v276 (F := F) x0 x1 x2 x4 x5 x6 x7 x8 x11 x12 = y
  exact broadcastInDim_apply _ bcast_S1024x512x1_S1024x512x128_0_1_2 y i (idx_main_v289 i) (fun a => match a with
    | ⟨0, _⟩ => by show (i 0).val = if (1024 : Nat) = 1 then 0 else (i 0).val; rw [if_neg (by decide)]
    | ⟨1, _⟩ => by show (i 1).val = if (512 : Nat) = 1 then 0 else (i 1).val; rw [if_neg (by decide)]
    | ⟨2, _⟩ => by show 0 = if (1 : Nat) = 1 then 0 else (i 2).val; rw [if_pos rfl])

def val_main_v290 : (⟨S1024x512x128, .f32⟩ : BufTy).Contents (Elt F) :=
  broadcastInDim S1024x512x128 ![0, 1, 2] bcast_S1024x1x128_S1024x512x128_0_1_2 (val_main_v288 (F := F) x0 x2 x5 x6 x7 x8 x11 x12)
abbrev idx_main_v290 (i : S1024x512x128.Idx) : S1024x1x128.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v290_apply (i : S1024x512x128.Idx) :
    val_main_v290 (F := F) x0 x2 x5 x6 x7 x8 x11 x12 i = val_main_v288 (F := F) x0 x2 x5 x6 x7 x8 x11 x12 (idx_main_v290 i) := by
  unfold val_main_v290
  generalize val_main_v288 (F := F) x0 x2 x5 x6 x7 x8 x11 x12 = y
  exact broadcastInDim_apply _ bcast_S1024x1x128_S1024x512x128_0_1_2 y i (idx_main_v290 i) (fun a => match a with
    | ⟨0, _⟩ => by show (i 0).val = if (1024 : Nat) = 1 then 0 else (i 0).val; rw [if_neg (by decide)]
    | ⟨1, _⟩ => by show 0 = if (1 : Nat) = 1 then 0 else (i 1).val; rw [if_pos rfl]
    | ⟨2, _⟩ => by show (i 2).val = if (128 : Nat) = 1 then 0 else (i 2).val; rw [if_neg (by decide)])

def val_main_v291 : (⟨S1024x512x128, .f32⟩ : BufTy).Contents (Elt F) :=
  mulf (val_main_v289 (F := F) x0 x1 x2 x4 x5 x6 x7 x8 x11 x12) (val_main_v290 (F := F) x0 x2 x5 x6 x7 x8 x11 x12)
theorem val_main_v291_apply (i : S1024x512x128.Idx) :
    val_main_v291 (F := F) x0 x1 x2 x4 x5 x6 x7 x8 x11 x12 i = FloatOps.mulf (val_main_v289 (F := F) x0 x1 x2 x4 x5 x6 x7 x8 x11 x12 i) (val_main_v290 (F := F) x0 x2 x5 x6 x7 x8 x11 x12 i) := rfl

def val_main_v292 : (⟨S1024x512x128, .f32⟩ : BufTy).Contents (Elt F) :=
  addf (val_main_v285 (F := F) x0 x1 x2 x4 x5 x6 x7 x8 x11 x12) (val_main_v291 (F := F) x0 x1 x2 x4 x5 x6 x7 x8 x11 x12)
theorem val_main_v292_apply (i : S1024x512x128.Idx) :
    val_main_v292 (F := F) x0 x1 x2 x4 x5 x6 x7 x8 x11 x12 i = FloatOps.addf (val_main_v285 (F := F) x0 x1 x2 x4 x5 x6 x7 x8 x11 x12 i) (val_main_v291 (F := F) x0 x1 x2 x4 x5 x6 x7 x8 x11 x12 i) := rfl

def val_main_v293 : (⟨S1024x1x512, .f32⟩ : BufTy).Contents (Elt F) :=
  extractStridedSlice S1024x1x512 ![0, 3, 0] (val_main_v226 (F := F) x0 x1 x2 x4 x5 x6 x7 x8 x11 x12) slices_S1024x4x512_S1024x1x512_0_3_0
abbrev idx_main_v293 (i : S1024x1x512.Idx) : S1024x4x512.Idx := fun a => match a with
  | ⟨0, _⟩ => ⟨(i 0).val, (i 0).isLt⟩
  | ⟨1, _⟩ => ⟨3 + (i 1).val, by have h1 : (i 1).val < 1 := (i 1).isLt; show 3 + (i 1).val < 4; omega⟩
  | ⟨2, _⟩ => ⟨(i 2).val, (i 2).isLt⟩
theorem val_main_v293_apply (i : S1024x1x512.Idx) :
    val_main_v293 (F := F) x0 x1 x2 x4 x5 x6 x7 x8 x11 x12 i = val_main_v226 (F := F) x0 x1 x2 x4 x5 x6 x7 x8 x11 x12 (idx_main_v293 i) := by
  unfold val_main_v293
  generalize val_main_v226 (F := F) x0 x1 x2 x4 x5 x6 x7 x8 x11 x12 = y
  exact extractStridedSlice_apply ![0, 3, 0] y slices_S1024x4x512_S1024x1x512_0_3_0 i (idx_main_v293 i) (fun a => match a with
    | ⟨0, _⟩ => by show (i 0).val = 0 + (i 0).val; omega
    | ⟨1, _⟩ => by show 3 + (i 1).val = 3 + (i 1).val; omega
    | ⟨2, _⟩ => by show (i 2).val = 0 + (i 2).val; omega)

def val_main_v294 : (⟨S1024x512, .f32⟩ : BufTy).Contents (Elt F) :=
  shapeCast _ (val_main_v293 (F := F) x0 x1 x2 x4 x5 x6 x7 x8 x11 x12) shapeCasts_S1024x1x512_S1024x512
abbrev idx_main_v294 (i : S1024x512.Idx) : S1024x1x512.Idx := fun a => match a with
  | ⟨0, _⟩ => ⟨((i 0).val * 512 + (i 1).val) / 512, by have h0 : (i 0).val < 1024 := (i 0).isLt; have h1 : (i 1).val < 512 := (i 1).isLt; show ((i 0).val * 512 + (i 1).val) / 512 < 1024; omega⟩
  | ⟨1, _⟩ => ⟨0, Nat.one_pos⟩
  | ⟨2, _⟩ => ⟨((i 0).val * 512 + (i 1).val) % 512, by have h0 : (i 0).val < 1024 := (i 0).isLt; have h1 : (i 1).val < 512 := (i 1).isLt; show ((i 0).val * 512 + (i 1).val) % 512 < 512; omega⟩
theorem val_main_v294_apply (i : S1024x512.Idx) :
    val_main_v294 (F := F) x0 x1 x2 x4 x5 x6 x7 x8 x11 x12 i = val_main_v293 (F := F) x0 x1 x2 x4 x5 x6 x7 x8 x11 x12 (idx_main_v294 i) := by
  unfold val_main_v294
  generalize val_main_v293 (F := F) x0 x1 x2 x4 x5 x6 x7 x8 x11 x12 = y
  exact shapeCast_apply y shapeCasts_S1024x1x512_S1024x512 i (idx_main_v294 i)
    (by rewrite [Shape.rowMajor_val_three, Shape.rowMajor_val_two]; have h0 : (i 0).val < 1024 := (i 0).isLt; have h1 : (i 1).val < 512 := (i 1).isLt; show (((i 0).val * 512 + (i 1).val) / 512 * 1 + 0) * 512 + ((i 0).val * 512 + (i 1).val) % 512 = (i 0).val * 512 + (i 1).val; omega)

def val_main_v295 : (⟨S1024x512x1, .f32⟩ : BufTy).Contents (Elt F) :=
  broadcastInDim S1024x512x1 ![0, 1] bcast_S1024x512_S1024x512x1_0_1 (val_main_v294 (F := F) x0 x1 x2 x4 x5 x6 x7 x8 x11 x12)
abbrev idx_main_v295 (i : S1024x512x1.Idx) : S1024x512.Idx := fun a => match a with
  | ⟨0, _⟩ => ⟨(i 0).val, (i 0).isLt⟩
  | ⟨1, _⟩ => ⟨(i 1).val, (i 1).isLt⟩
theorem val_main_v295_apply (i : S1024x512x1.Idx) :
    val_main_v295 (F := F) x0 x1 x2 x4 x5 x6 x7 x8 x11 x12 i = val_main_v294 (F := F) x0 x1 x2 x4 x5 x6 x7 x8 x11 x12 (idx_main_v295 i) := by
  unfold val_main_v295
  generalize val_main_v294 (F := F) x0 x1 x2 x4 x5 x6 x7 x8 x11 x12 = y
  exact broadcastInDim_apply _ bcast_S1024x512_S1024x512x1_0_1 y i (idx_main_v295 i) (fun a => match a with
    | ⟨0, _⟩ => by show (i 0).val = if (1024 : Nat) = 1 then 0 else (i 0).val; rw [if_neg (by decide)]
    | ⟨1, _⟩ => by show (i 1).val = if (512 : Nat) = 1 then 0 else (i 1).val; rw [if_neg (by decide)])

def val_main_v296 : (⟨S1024x1x128, .f32⟩ : BufTy).Contents (Elt F) :=
  extractStridedSlice S1024x1x128 ![0, 3, 0] (val_main_v233 (F := F) x0 x2 x5 x6 x7 x8 x11 x12) slices_S1024x4x128_S1024x1x128_0_3_0
abbrev idx_main_v296 (i : S1024x1x128.Idx) : S1024x4x128.Idx := fun a => match a with
  | ⟨0, _⟩ => ⟨(i 0).val, (i 0).isLt⟩
  | ⟨1, _⟩ => ⟨3 + (i 1).val, by have h1 : (i 1).val < 1 := (i 1).isLt; show 3 + (i 1).val < 4; omega⟩
  | ⟨2, _⟩ => ⟨(i 2).val, (i 2).isLt⟩
theorem val_main_v296_apply (i : S1024x1x128.Idx) :
    val_main_v296 (F := F) x0 x2 x5 x6 x7 x8 x11 x12 i = val_main_v233 (F := F) x0 x2 x5 x6 x7 x8 x11 x12 (idx_main_v296 i) := by
  unfold val_main_v296
  generalize val_main_v233 (F := F) x0 x2 x5 x6 x7 x8 x11 x12 = y
  exact extractStridedSlice_apply ![0, 3, 0] y slices_S1024x4x128_S1024x1x128_0_3_0 i (idx_main_v296 i) (fun a => match a with
    | ⟨0, _⟩ => by show (i 0).val = 0 + (i 0).val; omega
    | ⟨1, _⟩ => by show 3 + (i 1).val = 3 + (i 1).val; omega
    | ⟨2, _⟩ => by show (i 2).val = 0 + (i 2).val; omega)

def val_main_v297 : (⟨S1024x128, .f32⟩ : BufTy).Contents (Elt F) :=
  shapeCast _ (val_main_v296 (F := F) x0 x2 x5 x6 x7 x8 x11 x12) shapeCasts_S1024x1x128_S1024x128
abbrev idx_main_v297 (i : S1024x128.Idx) : S1024x1x128.Idx := fun a => match a with
  | ⟨0, _⟩ => ⟨((i 0).val * 128 + (i 1).val) / 128, by have h0 : (i 0).val < 1024 := (i 0).isLt; have h1 : (i 1).val < 128 := (i 1).isLt; show ((i 0).val * 128 + (i 1).val) / 128 < 1024; omega⟩
  | ⟨1, _⟩ => ⟨0, Nat.one_pos⟩
  | ⟨2, _⟩ => ⟨((i 0).val * 128 + (i 1).val) % 128, by have h0 : (i 0).val < 1024 := (i 0).isLt; have h1 : (i 1).val < 128 := (i 1).isLt; show ((i 0).val * 128 + (i 1).val) % 128 < 128; omega⟩
theorem val_main_v297_apply (i : S1024x128.Idx) :
    val_main_v297 (F := F) x0 x2 x5 x6 x7 x8 x11 x12 i = val_main_v296 (F := F) x0 x2 x5 x6 x7 x8 x11 x12 (idx_main_v297 i) := by
  unfold val_main_v297
  generalize val_main_v296 (F := F) x0 x2 x5 x6 x7 x8 x11 x12 = y
  exact shapeCast_apply y shapeCasts_S1024x1x128_S1024x128 i (idx_main_v297 i)
    (by rewrite [Shape.rowMajor_val_three, Shape.rowMajor_val_two]; have h0 : (i 0).val < 1024 := (i 0).isLt; have h1 : (i 1).val < 128 := (i 1).isLt; show (((i 0).val * 128 + (i 1).val) / 128 * 1 + 0) * 128 + ((i 0).val * 128 + (i 1).val) % 128 = (i 0).val * 128 + (i 1).val; omega)

def val_main_v298 : (⟨S1024x1x128, .f32⟩ : BufTy).Contents (Elt F) :=
  broadcastInDim S1024x1x128 ![0, 2] bcast_S1024x128_S1024x1x128_0_2 (val_main_v297 (F := F) x0 x2 x5 x6 x7 x8 x11 x12)
abbrev idx_main_v298 (i : S1024x1x128.Idx) : S1024x128.Idx := fun a => match a with
  | ⟨0, _⟩ => ⟨(i 0).val, (i 0).isLt⟩
  | ⟨1, _⟩ => ⟨(i 2).val, (i 2).isLt⟩
theorem val_main_v298_apply (i : S1024x1x128.Idx) :
    val_main_v298 (F := F) x0 x2 x5 x6 x7 x8 x11 x12 i = val_main_v297 (F := F) x0 x2 x5 x6 x7 x8 x11 x12 (idx_main_v298 i) := by
  unfold val_main_v298
  generalize val_main_v297 (F := F) x0 x2 x5 x6 x7 x8 x11 x12 = y
  exact broadcastInDim_apply _ bcast_S1024x128_S1024x1x128_0_2 y i (idx_main_v298 i) (fun a => match a with
    | ⟨0, _⟩ => by show (i 0).val = if (1024 : Nat) = 1 then 0 else (i 0).val; rw [if_neg (by decide)]
    | ⟨1, _⟩ => by show (i 2).val = if (128 : Nat) = 1 then 0 else (i 2).val; rw [if_neg (by decide)])

def val_main_v299 : (⟨S1024x512x128, .f32⟩ : BufTy).Contents (Elt F) :=
  broadcastInDim S1024x512x128 ![0, 1, 2] bcast_S1024x512x1_S1024x512x128_0_1_2 (val_main_v295 (F := F) x0 x1 x2 x4 x5 x6 x7 x8 x11 x12)
abbrev idx_main_v299 (i : S1024x512x128.Idx) : S1024x512x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v299_apply (i : S1024x512x128.Idx) :
    val_main_v299 (F := F) x0 x1 x2 x4 x5 x6 x7 x8 x11 x12 i = val_main_v295 (F := F) x0 x1 x2 x4 x5 x6 x7 x8 x11 x12 (idx_main_v299 i) := by
  unfold val_main_v299
  generalize val_main_v295 (F := F) x0 x1 x2 x4 x5 x6 x7 x8 x11 x12 = y
  exact broadcastInDim_apply _ bcast_S1024x512x1_S1024x512x128_0_1_2 y i (idx_main_v299 i) (fun a => match a with
    | ⟨0, _⟩ => by show (i 0).val = if (1024 : Nat) = 1 then 0 else (i 0).val; rw [if_neg (by decide)]
    | ⟨1, _⟩ => by show (i 1).val = if (512 : Nat) = 1 then 0 else (i 1).val; rw [if_neg (by decide)]
    | ⟨2, _⟩ => by show 0 = if (1 : Nat) = 1 then 0 else (i 2).val; rw [if_pos rfl])

def val_main_v300 : (⟨S1024x512x128, .f32⟩ : BufTy).Contents (Elt F) :=
  broadcastInDim S1024x512x128 ![0, 1, 2] bcast_S1024x1x128_S1024x512x128_0_1_2 (val_main_v298 (F := F) x0 x2 x5 x6 x7 x8 x11 x12)
abbrev idx_main_v300 (i : S1024x512x128.Idx) : S1024x1x128.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v300_apply (i : S1024x512x128.Idx) :
    val_main_v300 (F := F) x0 x2 x5 x6 x7 x8 x11 x12 i = val_main_v298 (F := F) x0 x2 x5 x6 x7 x8 x11 x12 (idx_main_v300 i) := by
  unfold val_main_v300
  generalize val_main_v298 (F := F) x0 x2 x5 x6 x7 x8 x11 x12 = y
  exact broadcastInDim_apply _ bcast_S1024x1x128_S1024x512x128_0_1_2 y i (idx_main_v300 i) (fun a => match a with
    | ⟨0, _⟩ => by show (i 0).val = if (1024 : Nat) = 1 then 0 else (i 0).val; rw [if_neg (by decide)]
    | ⟨1, _⟩ => by show 0 = if (1 : Nat) = 1 then 0 else (i 1).val; rw [if_pos rfl]
    | ⟨2, _⟩ => by show (i 2).val = if (128 : Nat) = 1 then 0 else (i 2).val; rw [if_neg (by decide)])

def val_main_v301 : (⟨S1024x512x128, .f32⟩ : BufTy).Contents (Elt F) :=
  mulf (val_main_v299 (F := F) x0 x1 x2 x4 x5 x6 x7 x8 x11 x12) (val_main_v300 (F := F) x0 x2 x5 x6 x7 x8 x11 x12)
theorem val_main_v301_apply (i : S1024x512x128.Idx) :
    val_main_v301 (F := F) x0 x1 x2 x4 x5 x6 x7 x8 x11 x12 i = FloatOps.mulf (val_main_v299 (F := F) x0 x1 x2 x4 x5 x6 x7 x8 x11 x12 i) (val_main_v300 (F := F) x0 x2 x5 x6 x7 x8 x11 x12 i) := rfl

def val_main_cst_38 : (⟨S_, .f32⟩ : BufTy).Contents (Elt F) :=
  constant S_ .f32 0x3F800000#32
theorem val_main_cst_38_apply (i : S_.Idx) :
    val_main_cst_38 (F := F) i = FloatOps.ofBits .f32 0x3F800000#32 := rfl

def val_main_v302 : (⟨S1024x512x128, .f32⟩ : BufTy).Contents (Elt F) :=
  broadcastInDim S1024x512x128 ![] bcast_S_S1024x512x128 (val_main_cst_38 (F := F))
abbrev idx_main_v302 (i : S1024x512x128.Idx) : S_.Idx := fun a => a.elim0
theorem val_main_v302_apply (i : S1024x512x128.Idx) :
    val_main_v302 (F := F) i = val_main_cst_38 (F := F) (idx_main_v302 i) := by
  unfold val_main_v302
  generalize val_main_cst_38 (F := F) = y
  exact broadcastInDim_apply _ bcast_S_S1024x512x128 y i (idx_main_v302 i) (fun a => a.elim0)

def val_main_v303 : (⟨S1024x512x128, .f32⟩ : BufTy).Contents (Elt F) :=
  subf (val_main_v302 (F := F)) (val_main_v301 (F := F) x0 x1 x2 x4 x5 x6 x7 x8 x11 x12)
theorem val_main_v303_apply (i : S1024x512x128.Idx) :
    val_main_v303 (F := F) x0 x1 x2 x4 x5 x6 x7 x8 x11 x12 i = FloatOps.subf (val_main_v302 (F := F) i) (val_main_v301 (F := F) x0 x1 x2 x4 x5 x6 x7 x8 x11 x12 i) := rfl

def val_main_v304 : (⟨S1024x512x128, .f32⟩ : BufTy).Contents (Elt F) :=
  mulf (val_main_v292 (F := F) x0 x1 x2 x4 x5 x6 x7 x8 x11 x12) (val_main_v303 (F := F) x0 x1 x2 x4 x5 x6 x7 x8 x11 x12)
theorem val_main_v304_apply (i : S1024x512x128.Idx) :
    val_main_v304 (F := F) x0 x1 x2 x4 x5 x6 x7 x8 x11 x12 i = FloatOps.mulf (val_main_v292 (F := F) x0 x1 x2 x4 x5 x6 x7 x8 x11 x12 i) (val_main_v303 (F := F) x0 x1 x2 x4 x5 x6 x7 x8 x11 x12 i) := rfl

def val_main_v305 : (⟨S1024x1x128, .f32⟩ : BufTy).Contents (Elt F) :=
  extractStridedSlice S1024x1x128 ![0, 3, 0] (val_main_v235 (F := F) x0 x2 x5 x6 x7 x8 x11 x12) slices_S1024x4x128_S1024x1x128_0_3_0
abbrev idx_main_v305 (i : S1024x1x128.Idx) : S1024x4x128.Idx := fun a => match a with
  | ⟨0, _⟩ => ⟨(i 0).val, (i 0).isLt⟩
  | ⟨1, _⟩ => ⟨3 + (i 1).val, by have h1 : (i 1).val < 1 := (i 1).isLt; show 3 + (i 1).val < 4; omega⟩
  | ⟨2, _⟩ => ⟨(i 2).val, (i 2).isLt⟩
theorem val_main_v305_apply (i : S1024x1x128.Idx) :
    val_main_v305 (F := F) x0 x2 x5 x6 x7 x8 x11 x12 i = val_main_v235 (F := F) x0 x2 x5 x6 x7 x8 x11 x12 (idx_main_v305 i) := by
  unfold val_main_v305
  generalize val_main_v235 (F := F) x0 x2 x5 x6 x7 x8 x11 x12 = y
  exact extractStridedSlice_apply ![0, 3, 0] y slices_S1024x4x128_S1024x1x128_0_3_0 i (idx_main_v305 i) (fun a => match a with
    | ⟨0, _⟩ => by show (i 0).val = 0 + (i 0).val; omega
    | ⟨1, _⟩ => by show 3 + (i 1).val = 3 + (i 1).val; omega
    | ⟨2, _⟩ => by show (i 2).val = 0 + (i 2).val; omega)

def val_main_v306 : (⟨S1024x128, .f32⟩ : BufTy).Contents (Elt F) :=
  shapeCast _ (val_main_v305 (F := F) x0 x2 x5 x6 x7 x8 x11 x12) shapeCasts_S1024x1x128_S1024x128
abbrev idx_main_v306 (i : S1024x128.Idx) : S1024x1x128.Idx := fun a => match a with
  | ⟨0, _⟩ => ⟨((i 0).val * 128 + (i 1).val) / 128, by have h0 : (i 0).val < 1024 := (i 0).isLt; have h1 : (i 1).val < 128 := (i 1).isLt; show ((i 0).val * 128 + (i 1).val) / 128 < 1024; omega⟩
  | ⟨1, _⟩ => ⟨0, Nat.one_pos⟩
  | ⟨2, _⟩ => ⟨((i 0).val * 128 + (i 1).val) % 128, by have h0 : (i 0).val < 1024 := (i 0).isLt; have h1 : (i 1).val < 128 := (i 1).isLt; show ((i 0).val * 128 + (i 1).val) % 128 < 128; omega⟩
theorem val_main_v306_apply (i : S1024x128.Idx) :
    val_main_v306 (F := F) x0 x2 x5 x6 x7 x8 x11 x12 i = val_main_v305 (F := F) x0 x2 x5 x6 x7 x8 x11 x12 (idx_main_v306 i) := by
  unfold val_main_v306
  generalize val_main_v305 (F := F) x0 x2 x5 x6 x7 x8 x11 x12 = y
  exact shapeCast_apply y shapeCasts_S1024x1x128_S1024x128 i (idx_main_v306 i)
    (by rewrite [Shape.rowMajor_val_three, Shape.rowMajor_val_two]; have h0 : (i 0).val < 1024 := (i 0).isLt; have h1 : (i 1).val < 128 := (i 1).isLt; show (((i 0).val * 128 + (i 1).val) / 128 * 1 + 0) * 128 + ((i 0).val * 128 + (i 1).val) % 128 = (i 0).val * 128 + (i 1).val; omega)

def val_main_v307 : (⟨S1024x1x128, .f32⟩ : BufTy).Contents (Elt F) :=
  broadcastInDim S1024x1x128 ![0, 2] bcast_S1024x128_S1024x1x128_0_2 (val_main_v306 (F := F) x0 x2 x5 x6 x7 x8 x11 x12)
abbrev idx_main_v307 (i : S1024x1x128.Idx) : S1024x128.Idx := fun a => match a with
  | ⟨0, _⟩ => ⟨(i 0).val, (i 0).isLt⟩
  | ⟨1, _⟩ => ⟨(i 2).val, (i 2).isLt⟩
theorem val_main_v307_apply (i : S1024x1x128.Idx) :
    val_main_v307 (F := F) x0 x2 x5 x6 x7 x8 x11 x12 i = val_main_v306 (F := F) x0 x2 x5 x6 x7 x8 x11 x12 (idx_main_v307 i) := by
  unfold val_main_v307
  generalize val_main_v306 (F := F) x0 x2 x5 x6 x7 x8 x11 x12 = y
  exact broadcastInDim_apply _ bcast_S1024x128_S1024x1x128_0_2 y i (idx_main_v307 i) (fun a => match a with
    | ⟨0, _⟩ => by show (i 0).val = if (1024 : Nat) = 1 then 0 else (i 0).val; rw [if_neg (by decide)]
    | ⟨1, _⟩ => by show (i 2).val = if (128 : Nat) = 1 then 0 else (i 2).val; rw [if_neg (by decide)])

def val_main_v308 : (⟨S1024x512x128, .f32⟩ : BufTy).Contents (Elt F) :=
  broadcastInDim S1024x512x128 ![0, 1, 2] bcast_S1024x512x1_S1024x512x128_0_1_2 (val_main_v295 (F := F) x0 x1 x2 x4 x5 x6 x7 x8 x11 x12)
abbrev idx_main_v308 (i : S1024x512x128.Idx) : S1024x512x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v308_apply (i : S1024x512x128.Idx) :
    val_main_v308 (F := F) x0 x1 x2 x4 x5 x6 x7 x8 x11 x12 i = val_main_v295 (F := F) x0 x1 x2 x4 x5 x6 x7 x8 x11 x12 (idx_main_v308 i) := by
  unfold val_main_v308
  generalize val_main_v295 (F := F) x0 x1 x2 x4 x5 x6 x7 x8 x11 x12 = y
  exact broadcastInDim_apply _ bcast_S1024x512x1_S1024x512x128_0_1_2 y i (idx_main_v308 i) (fun a => match a with
    | ⟨0, _⟩ => by show (i 0).val = if (1024 : Nat) = 1 then 0 else (i 0).val; rw [if_neg (by decide)]
    | ⟨1, _⟩ => by show (i 1).val = if (512 : Nat) = 1 then 0 else (i 1).val; rw [if_neg (by decide)]
    | ⟨2, _⟩ => by show 0 = if (1 : Nat) = 1 then 0 else (i 2).val; rw [if_pos rfl])

def val_main_v309 : (⟨S1024x512x128, .f32⟩ : BufTy).Contents (Elt F) :=
  broadcastInDim S1024x512x128 ![0, 1, 2] bcast_S1024x1x128_S1024x512x128_0_1_2 (val_main_v307 (F := F) x0 x2 x5 x6 x7 x8 x11 x12)
abbrev idx_main_v309 (i : S1024x512x128.Idx) : S1024x1x128.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v309_apply (i : S1024x512x128.Idx) :
    val_main_v309 (F := F) x0 x2 x5 x6 x7 x8 x11 x12 i = val_main_v307 (F := F) x0 x2 x5 x6 x7 x8 x11 x12 (idx_main_v309 i) := by
  unfold val_main_v309
  generalize val_main_v307 (F := F) x0 x2 x5 x6 x7 x8 x11 x12 = y
  exact broadcastInDim_apply _ bcast_S1024x1x128_S1024x512x128_0_1_2 y i (idx_main_v309 i) (fun a => match a with
    | ⟨0, _⟩ => by show (i 0).val = if (1024 : Nat) = 1 then 0 else (i 0).val; rw [if_neg (by decide)]
    | ⟨1, _⟩ => by show 0 = if (1 : Nat) = 1 then 0 else (i 1).val; rw [if_pos rfl]
    | ⟨2, _⟩ => by show (i 2).val = if (128 : Nat) = 1 then 0 else (i 2).val; rw [if_neg (by decide)])

def val_main_v310 : (⟨S1024x512x128, .f32⟩ : BufTy).Contents (Elt F) :=
  mulf (val_main_v308 (F := F) x0 x1 x2 x4 x5 x6 x7 x8 x11 x12) (val_main_v309 (F := F) x0 x2 x5 x6 x7 x8 x11 x12)
theorem val_main_v310_apply (i : S1024x512x128.Idx) :
    val_main_v310 (F := F) x0 x1 x2 x4 x5 x6 x7 x8 x11 x12 i = FloatOps.mulf (val_main_v308 (F := F) x0 x1 x2 x4 x5 x6 x7 x8 x11 x12 i) (val_main_v309 (F := F) x0 x2 x5 x6 x7 x8 x11 x12 i) := rfl

def val_main_v311 : (⟨S1024x512x128, .f32⟩ : BufTy).Contents (Elt F) :=
  addf (val_main_v304 (F := F) x0 x1 x2 x4 x5 x6 x7 x8 x11 x12) (val_main_v310 (F := F) x0 x1 x2 x4 x5 x6 x7 x8 x11 x12)
theorem val_main_v311_apply (i : S1024x512x128.Idx) :
    val_main_v311 (F := F) x0 x1 x2 x4 x5 x6 x7 x8 x11 x12 i = FloatOps.addf (val_main_v304 (F := F) x0 x1 x2 x4 x5 x6 x7 x8 x11 x12 i) (val_main_v310 (F := F) x0 x1 x2 x4 x5 x6 x7 x8 x11 x12 i) := rfl

end Cert.ReferenceIdeal.ReadB

end
-- ==== Proof.RefA.lean ====
import proofs.«155057_j13159779795433_2_alg».proof.Proof.ReadB
import proofs.«155057_j13159779795433_2_alg».proof.Proof.Rows
import Idealize.ShloMosaic.Lib.IdealHost

noncomputable section

namespace NTM.Ref

open Idealize.ShloMosaic Idealize.ShloMosaic.TcCoe Idealize.ShloMosaic.ValueIdx Cert.ReferenceIdeal Cert.ReferenceIdeal.ReadB NTM

-- An index is determined by the values of its coordinates.
theorem ix1_of {n : ℕ} {i : (⟨1, ![n]⟩ : Shape).Idx} {a : Fin n} (h0 : (i 0).val = a.val) : i = ix1 a :=
  funext fun d => Fin.ext (by match d with | ⟨0, _⟩ => exact h0)

theorem ix2_of {m n : ℕ} {i : (⟨2, ![m, n]⟩ : Shape).Idx} {a : Fin m} {b : Fin n}
    (h0 : (i 0).val = a.val) (h1 : (i 1).val = b.val) : i = ix2 a b :=
  funext fun d => Fin.ext (by match d with | ⟨0, _⟩ => exact h0 | ⟨1, _⟩ => exact h1)

theorem ix3_of {l m n : ℕ} {i : (⟨3, ![l, m, n]⟩ : Shape).Idx} {a : Fin l} {b : Fin m} {c : Fin n}
    (h0 : (i 0).val = a.val) (h1 : (i 1).val = b.val) (h2 : (i 2).val = c.val) : i = ix3 a b c :=
  funext fun d => Fin.ext (by match d with | ⟨0, _⟩ => exact h0 | ⟨1, _⟩ => exact h1 | ⟨2, _⟩ => exact h2)

-- Quotient and remainder of a row-major pair by its inner extent.
theorem divmod_flat {n : ℕ} (a : ℕ) (c : Fin n) : (a * n + c.val) / n = a ∧ (a * n + c.val) % n = c.val := by
  rw [Nat.mul_comm, Nat.mul_add_div (by have := c.isLt; omega), Nat.mul_add_mod, Nat.div_eq_of_lt c.isLt, Nat.mod_eq_of_lt c.isLt]
  exact ⟨rfl, rfl⟩

-- An index whose outer and last coordinates are the regrouped pair (a, c).
theorem ix3_flat {l m n : ℕ} {i : (⟨3, ![l, m, n]⟩ : Shape).Idx} {a : Fin l} {b : Fin m} {c : Fin n}
    (h0 : (i 0).val = (a.val * n + c.val) / n) (h1 : (i 1).val = b.val) (h2 : (i 2).val = (a.val * n + c.val) % n) :
    i = ix3 a b c :=
  ix3_of (h0.trans (divmod_flat _ c).1) h1 (h2.trans (divmod_flat _ c).2)

-- An index whose first two coordinates are the regrouped pair (a, b).
theorem ix3_pair {l m n : ℕ} {i : (⟨3, ![l, m, n]⟩ : Shape).Idx} {a : Fin l} {b : Fin m} {c : Fin n}
    (h0 : (i 0).val = (a.val * m + b.val) / m) (h1 : (i 1).val = (a.val * m + b.val) / 1 % m) (h2 : (i 2).val = c.val) :
    i = ix3 a b c :=
  ix3_of (h0.trans (divmod_flat _ b).1) (h1.trans (by rw [Nat.div_one]; exact (divmod_flat _ b).2)) h2

-- Two pieces joined along the last axis, each reading w at the slot σ sends its position to, read w at σ of the joined position.
theorem cat_last {p q : ℕ} {u : (⟨3, ![1024, 4, p]⟩ : Shape).Idx → EReal} {v : (⟨3, ![1024, 4, q]⟩ : Shape).Idx → EReal}
    (hc : Shape.Concatenates [⟨3, ![1024, 4, p]⟩, ⟨3, ![1024, 4, q]⟩] S1024x4x512 2) (hpq : p + q = 512)
    {w : S1024x4x512.Idx → EReal} {σ : Fin 512 → Fin 512} (b : Fin 1024) (h : Fin 4) (n : Fin 512)
    (hu : ∀ m : Fin p, m.val = n.val → u (ix3 b h m) = w (ix3 b h (σ n)))
    (hv : ∀ m : Fin q, m.val + p = n.val → v (ix3 b h m) = w (ix3 b h (σ n))) :
    concatenate S1024x4x512 2 [⟨_, u⟩, ⟨_, v⟩] hc (ix3 b h n) = w (ix3 b h (σ n)) := by
  by_cases hn : n.val < p
  · rw [concatenate_pair_apply_left (2 : Fin S1024x4x512.rank) _ _ hc (ix3 b h n) rfl (ix3 b h (⟨n.val, hn⟩ : Fin p))
      (fun c => by match c with | ⟨0, _⟩ => rfl | ⟨1, _⟩ => rfl | ⟨2, _⟩ => rfl)]
    exact hu _ rfl
  · have hq : n.val - p < q := by have := n.isLt; omega
    rw [concatenate_pair_apply_right (2 : Fin S1024x4x512.rank) _ _ hc (ix3 b h n) rfl rfl (ix3 b h (⟨n.val - p, hq⟩ : Fin q))
      (fun c hc' => by match c with | ⟨0, _⟩ => rfl | ⟨1, _⟩ => rfl | ⟨2, _⟩ => exact absurd (Fin.ext rfl) hc')
      (by show n.val - p + p = n.val; omega)]
    exact hv _ (by show n.val - p + p = n.val; omega)

theorem logistic_word (x : EReal) :
    Ideal.div (Ideal.ofBits .f32 0x3F800000#32) (Ideal.ofBits .f32 0x3F800000#32 + Ideal.exp (-x)) = Ideal.logistic x := by
  rw [Ideal.ofBits_one_f32]; rfl

theorem cmp_une_self (d : EReal) : Ideal.cmp .une d d = 0#1 := by
  simp [Ideal.cmp]

theorem hostMax_last {n : ℕ} (y : FVec Ideal ⟨3, ![1024, 4, n]⟩ .f32) (init : FVec Ideal S_ .f32)
    (h' : (⟨3, ![1024, 4, n]⟩ : Shape).ReducesTo [2] S1024x4) (h : (⟨3, ![1024, 4, n]⟩ : Shape).Reduces [2] S1024x4)
    (b : Fin 1024) (hd : Fin 4) {f : Fin n → EReal} (hy : ∀ k, y (ix3 b hd k) = f k) :
    Host.reduce FloatOps.maximumf y init h' Gen.h_S_ (ix2 b hd)
      = (Finset.univ : Finset (Fin n)).fold max (init (Shape.Idx.first Gen.h_S_)) f := by
  rw [Host.reduce_eq_fold_single FloatOps.maximumf y init h' h Gen.h_S_]
  exact congrArg (fun f => Finset.fold max (init (Shape.Idx.first Gen.h_S_)) f (Finset.univ : Finset (Fin n)))
    (funext fun k => (congrArg y (ix3_of rfl rfl rfl)).trans (hy k))

-- The sixteen arguments of the program, and what the row-level step reads of them.
structure Args where
  X0 : FVec Ideal S1024x128 .f32
  X1 : FVec Ideal S1024x512x128 .f32
  X2 : FVec Ideal S1024x256 .f32
  (X3 X4 : FVec Ideal S1024x4x512 .f32)
  X5 : FVec Ideal S768x128 .f32
  X6 : FVec Ideal S768x256 .f32
  (X7 X8 : FVec Ideal S768 .f32)
  X9 : FVec Ideal S536x256 .f32
  X10 : FVec Ideal S536 .f32
  X11 : FVec Ideal S1560x256 .f32
  X12 : FVec Ideal S1560 .f32
  X13 : FVec Ideal S128x512 .f32
  X14 : FVec Ideal S128x256 .f32
  X15 : FVec Ideal S128 .f32

variable (A : Args)

abbrev Args.row (b : Fin 1024) : Row := rowOf (B := 1024) A.X0 A.X1 A.X2 A.X3 A.X4 b
abbrev Args.wts : Wts := wtsOf A.X5 A.X6 A.X7 A.X8 A.X9 A.X10 A.X11 A.X12 A.X13 A.X14 A.X15
abbrev Args.hR (b : Fin 1024) : Head := headR (rp (A.row b) A.wts)
abbrev Args.hW (b : Fin 1024) : Head := headW (wp (A.row b) A.wts)

variable (b : Fin 1024) (h : Fin 4)

theorem ref_gi (c : Fin 768) :
    val_main_v4 (F := Ideal) A.X0 A.X5 A.X7 (ix2 b c)
      = NTM.lin A.wts.Wih A.wts.bih (A.row b).x c := by
  rw [val_main_v4_apply, val_main_v1_apply, val_main_v3_apply, val_main_v2_apply]
  simp only [val_main_v0_apply]
  have e1 : ∀ k : Fin 128, lidx_main_v1 (ix2 b c) k = ix2 b k := fun k => ix2_of rfl rfl
  have e2 : ∀ k : Fin 128, idx_main_v0 (ridx_main_v1 (ix2 b c) k) = ix2 c k := fun k => ix2_of rfl rfl
  have e3 : idx_main_v2 (idx_main_v3 (ix2 b c)) = ix1 c := ix1_of rfl
  simp only [e1, e2, e3]
  rfl

theorem ref_gh (c : Fin 768) :
    val_main_v9 (F := Ideal) A.X2 A.X6 A.X8 (ix2 b c)
      = NTM.lin A.wts.Whh A.wts.bhh (A.row b).hid c := by
  rw [val_main_v9_apply, val_main_v6_apply, val_main_v8_apply, val_main_v7_apply]
  simp only [val_main_v5_apply]
  have e1 : ∀ k : Fin 256, lidx_main_v6 (ix2 b c) k = ix2 b k := fun k => ix2_of rfl rfl
  have e2 : ∀ k : Fin 256, idx_main_v5 (ridx_main_v6 (ix2 b c) k) = ix2 c k := fun k => ix2_of rfl rfl
  have e3 : idx_main_v7 (idx_main_v8 (ix2 b c)) = ix1 c := ix1_of rfl
  simp only [e1, e2, e3]
  rfl

theorem ref_o (j : Fin 256) :
    val_main_v37 (F := Ideal) A.X0 A.X2 A.X5 A.X6 A.X7 A.X8 (ix2 b j) = NTM.o (A.row b) A.wts j := by
  simp only [val_main_v37_apply, val_main_v36_apply, val_main_v35_apply, val_main_v34_apply, val_main_v33_apply,
    val_main_cst_3_apply, val_main_v32_apply, val_main_v31_apply, val_main_v30_apply, val_main_v29_apply,
    val_main_v28_apply, val_main_cst_2_apply, val_main_v27_apply, val_main_v26_apply, val_main_cst_1_apply,
    val_main_v25_apply, val_main_v24_apply, val_main_v23_apply, val_main_v22_apply, val_main_v21_apply,
    val_main_cst_0_apply, val_main_v20_apply, val_main_v19_apply, val_main_cst_apply, val_main_v18_apply,
    val_main_v17_apply, val_main_v16_apply, val_main_v15_apply, val_main_v14_apply, val_main_v13_apply,
    val_main_v12_apply, val_main_v11_apply, val_main_v10_apply]
  have e10 : idx_main_v10 (ix2 b j) = ix2 b (⟨j.val, by omega⟩ : Fin 768) := ix2_of rfl rfl
  have e11 : idx_main_v11 (ix2 b j) = ix2 b (⟨256 + j.val, by omega⟩ : Fin 768) := ix2_of rfl rfl
  have e12 : idx_main_v12 (ix2 b j) = ix2 b (⟨512 + j.val, by omega⟩ : Fin 768) := ix2_of rfl rfl
  have e13 : idx_main_v13 (ix2 b j) = ix2 b (⟨j.val, by omega⟩ : Fin 768) := ix2_of rfl rfl
  have e14 : idx_main_v14 (ix2 b j) = ix2 b (⟨256 + j.val, by omega⟩ : Fin 768) := ix2_of rfl rfl
  have e15 : idx_main_v15 (ix2 b j) = ix2 b (⟨512 + j.val, by omega⟩ : Fin 768) := ix2_of rfl rfl
  simp only [e10, e11, e12, e13, e14, e15, ref_gi, ref_gh, Ideal.ofBits_def, Ideal.addf_def, Ideal.subf_def,
    Ideal.mulf_def, Ideal.hostDivf_def, Ideal.hostNegf_def, Ideal.negf_def, Ideal.hostUnary_exp_def,
    Ideal.hostUnary_tanh_def, logistic_word]
  rfl

theorem ref_mn (n : Fin 512) (k : Fin 128) :
    val_main_v42 (F := Ideal) A.X1 (ix3 b n k) = NTM.mn (A.row b) n k := by
  rw [val_main_v42_apply, val_main_v41_apply, val_main_v40_apply, val_main_v38_apply, val_main_v39_apply,
    val_main_cst_4_apply, val_main_call0_v2_apply, val_main_call0_v1_apply, val_main_call0_cst_apply]
  simp only [val_main_call0_v0_apply]
  have e1 : ∀ q : Fin 128, idx_main_call0_v1 (idx_main_call0_v2 (idx_main_v41 (ix3 b n k))) q = ix3 b n q :=
    fun q => ix3_of rfl rfl rfl
  simp only [e1, Ideal.ofBits_def, Ideal.ofBits_zero_f32, zero_add, Ideal.addf_def, Ideal.mulf_def,
    Ideal.hostDivf_def, Ideal.hostUnary_sqrt_def]
  rfl

theorem ref_rp (c : Fin 536) :
    val_main_v47 (F := Ideal) A.X0 A.X2 A.X5 A.X6 A.X7 A.X8 A.X9 A.X10 (ix2 b c) = NTM.rp (A.row b) A.wts c := by
  rw [val_main_v47_apply, val_main_v44_apply, val_main_v46_apply, val_main_v45_apply]
  simp only [val_main_v43_apply]
  have e1 : ∀ k : Fin 256, lidx_main_v44 (ix2 b c) k = ix2 b k := fun k => ix2_of rfl rfl
  have e2 : ∀ k : Fin 256, idx_main_v43 (ridx_main_v44 (ix2 b c) k) = ix2 c k := fun k => ix2_of rfl rfl
  have e3 : idx_main_v45 (idx_main_v46 (ix2 b c)) = ix1 c := ix1_of rfl
  simp only [e1, e2, e3, ref_o A]
  rfl

theorem ref_hd (c : Fin 134) :
    val_main_v48 (F := Ideal) A.X0 A.X2 A.X5 A.X6 A.X7 A.X8 A.X9 A.X10 (ix3 b h c) = NTM.hdR (NTM.rp (A.row b) A.wts) h c := by
  rw [val_main_v48_apply]
  have e : idx_main_v48 (ix3 b h c) = ix2 b (⟨134 * h.val + c.val, by omega⟩ : Fin 536) :=
    ix2_of (by show ((b.val * 4 + h.val) * 134 + c.val) / 536 = b.val; omega) (by show ((b.val * 4 + h.val) * 134 + c.val) % 536 = 134 * h.val + c.val; omega)
  rw [e, ref_rp A]
  rfl

theorem ref_key (k : Fin 128) :
    val_main_v49 (F := Ideal) A.X0 A.X2 A.X5 A.X6 A.X7 A.X8 A.X9 A.X10 (ix3 b h k) = (A.hR b).keyv h k := by
  rw [val_main_v49_apply]
  have e : idx_main_v49 (ix3 b h k) = ix3 b h (⟨k.val, by omega⟩ : Fin 134) := ix3_of rfl rfl rfl
  rw [e, ref_hd A]
  rfl

theorem ref_shift (s : Fin 3) :
    val_main_v54 (F := Ideal) A.X0 A.X2 A.X5 A.X6 A.X7 A.X8 A.X9 A.X10 (ix3 b h s) = (A.hR b).shift h s := by
  rw [val_main_v54_apply]
  have e : idx_main_v54 (ix3 b h s) = ix3 b h (⟨130 + s.val, by omega⟩ : Fin 134) := ix3_of rfl rfl rfl
  rw [e, ref_hd A]
  rfl

theorem ref_spb :
    val_main_v57 (F := Ideal) A.X0 A.X2 A.X5 A.X6 A.X7 A.X8 A.X9 A.X10 (ix2 b h) = NTM.softplus ((A.hR b).beta h) := by
  have e : idx_main_v50 (idx_main_v51 (ix2 b h)) = ix3 b h (⟨128, by omega⟩ : Fin 134) :=
    ix3_pair rfl rfl rfl
  simp only [val_main_v51_apply, val_main_v50_apply, e, val_main_v57_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v5_apply, val_main_call1_v2_apply,
    val_main_call1_v0_apply, val_main_call1_cst_apply, ref_hd A, Ideal.cmpf_def, cmp_une_self, select_zero, Ideal.ofBits_def, Ideal.ofBits_zero_f32,
    Ideal.addf_def, Ideal.subf_def, Ideal.maximumf_def, Ideal.hostUnary_log1p_def, Ideal.hostUnary_exp_def,
    Ideal.hostNegf_def, Ideal.negf_def, Ideal.hostAbsf_def, Ideal.absf_def, sub_zero]
  rfl

theorem ref_kn (k : Fin 128) :
    val_main_v62 (F := Ideal) A.X0 A.X2 A.X5 A.X6 A.X7 A.X8 A.X9 A.X10 (ix3 b h k) = NTM.kn (A.hR b) h k := by
  have e : ∀ q : Fin 128, idx_main_call2_v1 (idx_main_call2_v2 (idx_main_v61 (ix3 b h k))) q = ix3 b h q :=
    fun q => ix3_of rfl rfl rfl
  simp only [val_main_v62_apply, val_main_v61_apply, val_main_v60_apply, val_main_v58_apply, val_main_v59_apply, val_main_cst_5_apply,
    val_main_call2_v2_apply, val_main_call2_v1_apply, val_main_call2_cst_apply, val_main_call2_v0_apply, e, ref_key A,
    Ideal.ofBits_def, Ideal.ofBits_zero_f32, zero_add, Ideal.addf_def, Ideal.mulf_def, Ideal.hostUnary_sqrt_def]
  rfl

theorem ref_logit (n : Fin 512) :
    val_main_v66 (F := Ideal) A.X0 A.X1 A.X2 A.X5 A.X6 A.X7 A.X8 A.X9 A.X10 (ix3 b h n) = NTM.logit (A.hR b) (mn (A.row b)) h n := by
  rw [val_main_v66_apply, val_main_v65_apply, val_main_v64_apply, val_main_v63_apply]
  have e : idx_main_v64 (idx_main_v65 (ix3 b h n)) = ix2 b h := ix2_of rfl rfl
  have e1 : ∀ k : Fin 128, lidx_main_v63 (ix3 b h n) k = ix3 b h k := fun k => ix3_of rfl rfl rfl
  have e2 : ∀ k : Fin 128, ridx_main_v63 (ix3 b h n) k = ix3 b n k := fun k => ix3_of rfl rfl rfl
  simp only [e, e1, e2, ref_spb A, ref_kn A, ref_mn A]
  rfl

theorem ref_smexp (n : Fin 512) :
    val_main_v73 (F := Ideal) A.X0 A.X1 A.X2 A.X5 A.X6 A.X7 A.X8 A.X9 A.X10 (ix3 b h n) = NTM.smExp (NTM.logit (A.hR b) (mn (A.row b)) h) n := by
  rw [val_main_v73_apply, val_main_v72_apply, val_main_v71_apply, val_main_v70_apply, val_main_v69_apply, val_main_v68_apply, val_main_cst_7_apply]
  have e : idx_main_v70 (idx_main_v71 (ix3 b h n)) = ix2 b h := ix2_of rfl rfl
  rw [e, ref_logit A, show val_main_v67 (F := Ideal) A.X0 A.X1 A.X2 A.X5 A.X6 A.X7 A.X8 A.X9 A.X10 (ix2 b h) = _ from
    hostMax_last _ _ Gen.reducesTo_S1024x4x512_S1024x4_d2 (by decide) b h (ref_logit A b h)]
  rfl

theorem ref_sm (n : Fin 512) :
    val_main_v77 (F := Ideal) A.X0 A.X1 A.X2 A.X5 A.X6 A.X7 A.X8 A.X9 A.X10 (ix3 b h n) = NTM.softmax (NTM.logit (A.hR b) (mn (A.row b)) h) n := by
  rw [val_main_v77_apply, val_main_v76_apply, val_main_v75_apply, val_main_v74_apply, val_main_cst_8_apply]
  have e : idx_main_v75 (idx_main_v76 (ix3 b h n)) = ix2 b h := ix2_of rfl rfl
  have e1 : ∀ k : Fin 512, idx_main_v74 (ix2 b h) k = ix3 b h k := fun k => ix3_of rfl rfl rfl
  simp only [e, e1, ref_smexp A, Ideal.ofBits_def, Ideal.ofBits_zero_f32, zero_add]
  rfl

theorem ref_wtI (n : Fin 512) :
    val_main_v91 (F := Ideal) A.X0 A.X1 A.X2 A.X3 A.X5 A.X6 A.X7 A.X8 A.X9 A.X10 (ix3 b h n)
      = NTM.wtI (A.hR b) (mn (A.row b)) (A.row b).rw h n := by
  have e1 : idx_main_v84 (idx_main_v85 (ix3 b h n)) = ix2 b h := ix2_of rfl rfl
  have e2 : idx_main_v84 (idx_main_v89 (ix3 b h n)) = ix2 b h := ix2_of rfl rfl
  have e : idx_main_v52 (idx_main_v53 (ix2 b h)) = ix3 b h (⟨129, by omega⟩ : Fin 134) := ix3_pair rfl rfl rfl
  simp only [val_main_v91_apply, val_main_v86_apply, val_main_v90_apply, val_main_v85_apply, val_main_v89_apply,
    val_main_v88_apply, val_main_v87_apply, val_main_cst_11_apply, val_main_v84_apply, e1, e2, ref_sm A,
    val_main_v53_apply, val_main_v52_apply, e, val_main_v83_apply, val_main_v82_apply, val_main_cst_10_apply, val_main_v81_apply, val_main_v80_apply,
    val_main_cst_9_apply, val_main_v79_apply, val_main_v78_apply, ref_hd A, Ideal.ofBits_def, Ideal.addf_def,
    Ideal.hostDivf_def, Ideal.hostNegf_def, Ideal.negf_def, Ideal.hostUnary_exp_def, logistic_word]
  rfl

theorem ref_smexpS (s : Fin 3) :
    val_main_v98 (F := Ideal) A.X0 A.X2 A.X5 A.X6 A.X7 A.X8 A.X9 A.X10 (ix3 b h s) = NTM.smExp ((A.hR b).shift h) s := by
  rw [val_main_v98_apply, val_main_v97_apply, val_main_v96_apply, val_main_v95_apply, val_main_v94_apply, val_main_v93_apply, val_main_cst_13_apply]
  have e : idx_main_v95 (idx_main_v96 (ix3 b h s)) = ix2 b h := ix2_of rfl rfl
  rw [e, ref_shift A, show val_main_v92 (F := Ideal) A.X0 A.X2 A.X5 A.X6 A.X7 A.X8 A.X9 A.X10 (ix2 b h) = _ from
    hostMax_last _ _ Gen.reducesTo_S1024x4x3_S1024x4_d2 (by decide) b h (ref_shift A b h)]
  rfl

theorem ref_smS (s : Fin 3) :
    val_main_v102 (F := Ideal) A.X0 A.X2 A.X5 A.X6 A.X7 A.X8 A.X9 A.X10 (ix3 b h s) = NTM.softmax ((A.hR b).shift h) s := by
  rw [val_main_v102_apply, val_main_v101_apply, val_main_v100_apply, val_main_v99_apply, val_main_cst_14_apply]
  have e : idx_main_v100 (idx_main_v101 (ix3 b h s)) = ix2 b h := ix2_of rfl rfl
  have e1 : ∀ k : Fin 3, idx_main_v99 (ix2 b h) k = ix3 b h k := fun k => ix3_of rfl rfl rfl
  simp only [e, e1, ref_smexpS A, Ideal.ofBits_def, Ideal.ofBits_zero_f32, zero_add]
  rfl

theorem ref_roll_nxt (n : Fin 512) :
    val_main_v104 (F := Ideal) A.X0 A.X1 A.X2 A.X3 A.X5 A.X6 A.X7 A.X8 A.X9 A.X10 (ix3 b h n) = val_main_v91 (F := Ideal) A.X0 A.X1 A.X2 A.X3 A.X5 A.X6 A.X7 A.X8 A.X9 A.X10 (ix3 b h (NTM.nxt n)) := by
  unfold val_main_v104
  exact cat_last Gen.concatenates_S1024x4x511_S1024x4x1_S1024x4x512_d2 rfl b h n
    (fun m hm => by rw [val_main_call3_v0_apply]; exact congrArg _ (ix3_of rfl rfl (by show 1 + m.val = (n.val + 1) % 512; omega)))
    (fun m hm => by rw [val_main_call3_v1_apply]; exact congrArg _ (ix3_of rfl rfl (by show m.val = (n.val + 1) % 512; omega)))

theorem ref_roll_prv (n : Fin 512) :
    val_main_v112 (F := Ideal) A.X0 A.X1 A.X2 A.X3 A.X5 A.X6 A.X7 A.X8 A.X9 A.X10 (ix3 b h n) = val_main_v91 (F := Ideal) A.X0 A.X1 A.X2 A.X3 A.X5 A.X6 A.X7 A.X8 A.X9 A.X10 (ix3 b h (NTM.prv n)) := by
  unfold val_main_v112
  exact cat_last Gen.concatenates_S1024x4x1_S1024x4x511_S1024x4x512_d2 rfl b h n
    (fun m hm => by rw [val_main_call4_v0_apply]; exact congrArg _ (ix3_of rfl rfl (by show 511 + m.val = (n.val + 511) % 512; omega)))
    (fun m hm => by rw [val_main_call4_v1_apply]; exact congrArg _ (ix3_of rfl rfl (by show m.val = (n.val + 511) % 512; omega)))

theorem ref_shifted (n : Fin 512) :
    val_main_v115 (F := Ideal) A.X0 A.X1 A.X2 A.X3 A.X5 A.X6 A.X7 A.X8 A.X9 A.X10 (ix3 b h n) = NTM.shifted (A.hR b) (mn (A.row b)) (A.row b).rw h n := by
  rw [val_main_v115_apply, val_main_v110_apply, val_main_v106_apply, val_main_v109_apply, val_main_v114_apply,
    val_main_v105_apply, val_main_v103_apply, val_main_v108_apply, val_main_v107_apply, val_main_v113_apply,
    val_main_v111_apply, ref_roll_nxt, ref_roll_prv]
  have e0 : idx_main_v103 (idx_main_v105 (ix3 b h n)) = ix3 b h (0 : Fin 3) := ix3_of rfl rfl rfl
  have e1 : idx_main_v107 (idx_main_v108 (ix3 b h n)) = ix3 b h (1 : Fin 3) := ix3_of rfl rfl rfl
  have e2 : idx_main_v111 (idx_main_v113 (ix3 b h n)) = ix3 b h (2 : Fin 3) := ix3_of rfl rfl rfl
  simp only [e0, e1, e2, ref_smS A, ref_wtI A]
  rfl

theorem ref_sharp (n : Fin 512) :
    val_main_v123 (F := Ideal) A.X0 A.X1 A.X2 A.X3 A.X5 A.X6 A.X7 A.X8 A.X9 A.X10 (ix3 b h n) = NTM.sharp NTM.powR (A.hR b) (mn (A.row b)) (A.row b).rw h n := by
  have e' : idx_main_v121 (idx_main_v122 (ix3 b h n)) = ix2 b h := ix2_of rfl rfl
  have e : idx_main_v55 (idx_main_v56 (ix2 b h)) = ix3 b h (⟨133, by omega⟩ : Fin 134) := ix3_pair rfl rfl rfl
  simp only [val_main_v123_apply, val_main_v120_apply, val_main_v119_apply, val_main_cst_16_apply, val_main_v122_apply,
    val_main_v121_apply, e', ref_shifted A,
    val_main_v118_apply, val_main_v117_apply, val_main_cst_15_apply, val_main_v56_apply, val_main_v55_apply, e,
    val_main_v116_apply, val_main_call5_v4_apply, val_main_call5_v6_apply, val_main_call5_v11_apply,
    val_main_call5_v1_apply, val_main_call5_v10_apply, val_main_call5_v9_apply, val_main_call5_v8_apply,
    val_main_call5_v7_apply, val_main_call5_v3_apply, val_main_call5_v5_apply, val_main_call5_v2_apply,
    val_main_call5_v0_apply, val_main_call5_cst_apply, ref_hd A, Ideal.cmpf_def, cmp_une_self, select_zero, Ideal.ofBits_def, Ideal.ofBits_zero_f32,
    Ideal.addf_def, Ideal.subf_def, Ideal.maximumf_def, Ideal.hostUnary_log1p_def, Ideal.hostUnary_exp_def,
    Ideal.hostNegf_def, Ideal.negf_def, Ideal.hostAbsf_def, Ideal.absf_def, sub_zero]
  rfl

theorem ref_rwt (n : Fin 512) :
    val_main_v129 (F := Ideal) A.X0 A.X1 A.X2 A.X3 A.X5 A.X6 A.X7 A.X8 A.X9 A.X10 (ix3 b h n) = NTM.rwt NTM.powR (A.row b) A.wts h n := by
  rw [val_main_v129_apply, val_main_v128_apply, val_main_v127_apply, val_main_v125_apply, val_main_v126_apply,
    val_main_cst_18_apply, val_main_v124_apply, val_main_cst_17_apply]
  have e : idx_main_v125 (idx_main_v128 (ix3 b h n)) = ix2 b h := ix2_of rfl rfl
  have e1 : ∀ k : Fin 512, idx_main_v124 (ix2 b h) k = ix3 b h k := fun k => ix3_of rfl rfl rfl
  simp only [e, e1, ref_sharp A, Ideal.ofBits_def, Ideal.ofBits_zero_f32, zero_add]
  rfl
theorem ref_out (j : Fin 128) :
    val_main_v139 (F := Ideal) A.X0 A.X1 A.X2 A.X3 A.X5 A.X6 A.X7 A.X8 A.X9 A.X10 A.X13 A.X14 A.X15 (ix2 b j) = NTM.y NTM.powR (A.row b) A.wts j := by
  rw [val_main_v139_apply, val_main_v136_apply, val_main_v133_apply, val_main_v135_apply, val_main_v134_apply,
    val_main_v138_apply]
  simp only [val_main_v132_apply, val_main_v137_apply, val_main_v131_apply, val_main_v130_apply]
  have e1 : ∀ k : Fin 256, lidx_main_v133 (ix2 b j) k = ix2 b k := fun k => ix2_of rfl rfl
  have e2 : ∀ k : Fin 256, idx_main_v132 (ridx_main_v133 (ix2 b j) k) = ix2 j k := fun k => ix2_of rfl rfl
  have e3 : idx_main_v134 (idx_main_v135 (ix2 b j)) = ix1 j := ix1_of rfl
  have e4 : ∀ q : Fin 512, lidx_main_v138 (ix2 b j) q = ix2 b q := fun q => ix2_of rfl rfl
  have e5 : ∀ q : Fin 512, idx_main_v137 (ridx_main_v138 (ix2 b j) q) = ix2 j q := fun q => ix2_of rfl rfl
  have e6 : ∀ q : Fin 512, idx_main_v131 (ix2 b q)
      = ix3 b (⟨q.val / 128, by omega⟩ : Fin 4) (⟨q.val % 128, Nat.mod_lt _ (by omega)⟩ : Fin 128) := fun q => ix3_of (by show (b.val * 512 + q.val) / 512 = b.val; omega)
      (by show (b.val * 512 + q.val) / 128 % 4 = q.val / 128; omega) (by show (b.val * 512 + q.val) % 128 = q.val % 128; omega)
  have e7 : ∀ (h : Fin 4) (k : Fin 128) (n : Fin 512), lidx_main_v130 (ix3 b h k) n = ix3 b h n := fun h k n => ix3_of rfl rfl rfl
  have e8 : ∀ (h : Fin 4) (k : Fin 128) (n : Fin 512), ridx_main_v130 (ix3 b h k) n = ix3 b n k := fun h k n => ix3_of rfl rfl rfl
  simp only [e1, e2, e3, e4, e5, e6, e7, e8, ref_o A, ref_rwt A, Ideal.addf_def]
  rfl

variable (X0 : FVec Ideal S1024x128 .f32) (X1 : FVec Ideal S1024x512x128 .f32) (X2 : FVec Ideal S1024x256 .f32)
  (X3 X4 : FVec Ideal S1024x4x512 .f32) (X5 : FVec Ideal S768x128 .f32) (X6 : FVec Ideal S768x256 .f32)
  (X7 X8 : FVec Ideal S768 .f32) (X9 : FVec Ideal S536x256 .f32) (X10 : FVec Ideal S536 .f32)
  (X11 : FVec Ideal S1560x256 .f32) (X12 : FVec Ideal S1560 .f32) (X13 : FVec Ideal S128x512 .f32)
  (X14 : FVec Ideal S128x256 .f32) (X15 : FVec Ideal S128 .f32)

theorem ref_y (b : Fin 1024) (j : Fin 128) :
    val_main_v139 (F := Ideal) X0 X1 X2 X3 X5 X6 X7 X8 X9 X10 X13 X14 X15 (ix2 b j) = NTM.y NTM.powR (rowOf (B := 1024) X0 X1 X2 X3 X4 b) (wtsOf X5 X6 X7 X8 X9 X10 X11 X12 X13 X14 X15) j :=
  ref_out ⟨X0, X1, X2, X3, X4, X5, X6, X7, X8, X9, X10, X11, X12, X13, X14, X15⟩ b j

end NTM.Ref

end
-- ==== Proof.RefB.lean ====
import proofs.«155057_j13159779795433_2_alg».proof.Proof.RefA

noncomputable section

namespace NTM.Ref

open Idealize.ShloMosaic Idealize.ShloMosaic.TcCoe Idealize.ShloMosaic.ValueIdx Cert.ReferenceIdeal Cert.ReferenceIdeal.ReadB NTM

variable (A : Args) (b : Fin 1024) (h : Fin 4)

open Cert.ReferenceIdeal.Gen

theorem s144 (j : Fin 1560) :
    val_main_v144 (F := Ideal) A.X0 A.X2 A.X5 A.X6 A.X7 A.X8 A.X11 A.X12 (ix2 b j) = NTM.wp (A.row b) A.wts j := by
  rw [val_main_v144_apply, val_main_v141_apply, val_main_v143_apply, val_main_v142_apply]
  have e1 : ∀ k : Fin 256, lidx_main_v141 (ix2 b j) k = ix2 b k := fun k => ix2_of rfl rfl
  have e2 : ∀ k : Fin 256, idx_main_v140 (ridx_main_v141 (ix2 b j) k) = ix2 j k := fun k => ix2_of rfl rfl
  have e3 : idx_main_v142 (idx_main_v143 (ix2 b j)) = ix1 j := ix1_of rfl
  simp only [val_main_v140_apply, e1, e2, e3, ref_o A, Ideal.addf_def]
  rfl

theorem s145 (c : Fin 390) :
    val_main_v145 (F := Ideal) A.X0 A.X2 A.X5 A.X6 A.X7 A.X8 A.X11 A.X12 (ix3 b h c) = NTM.hdW (NTM.wp (A.row b) A.wts) h c := by
  rw [val_main_v145_apply]
  have e : idx_main_v145 (ix3 b h c) = ix2 b (⟨390 * h.val + c.val, by omega⟩ : Fin 1560) := ix2_of (by show ((b.val * 4 + h.val) * 390 + c.val) / 1560 = b.val; omega) (by show ((b.val * 4 + h.val) * 390 + c.val) % 1560 = 390 * h.val + c.val; omega)
  rw [e, s144]; rfl

theorem s146 (k : Fin 128) :
    val_main_v146 (F := Ideal) A.X0 A.X2 A.X5 A.X6 A.X7 A.X8 A.X11 A.X12 (ix3 b h k) = (A.hW b).keyv h k := by
  rw [val_main_v146_apply]
  have e : idx_main_v146 (ix3 b h k) = ix3 b h (⟨k.val, by omega⟩ : Fin 390) := ix3_of rfl rfl rfl
  rw [e, s145]; rfl

theorem s151 (s : Fin 3) :
    val_main_v151 (F := Ideal) A.X0 A.X2 A.X5 A.X6 A.X7 A.X8 A.X11 A.X12 (ix3 b h s) = (A.hW b).shift h s := by
  rw [val_main_v151_apply]
  have e : idx_main_v151 (ix3 b h s) = ix3 b h (⟨130 + s.val, by omega⟩ : Fin 390) := ix3_of rfl rfl rfl
  rw [e, s145]; rfl

theorem s154 :
    val_main_v154 (F := Ideal) A.X0 A.X2 A.X5 A.X6 A.X7 A.X8 A.X11 A.X12 (ix2 b h) = NTM.softplus ((A.hW b).beta h) := by
  have e : idx_main_v147 (idx_main_v148 (ix2 b h)) = ix3 b h (⟨128, by omega⟩ : Fin 390) :=
    ix3_pair rfl rfl rfl
  simp only [val_main_v148_apply, val_main_v147_apply, e, val_main_v154_apply, val_main_call6_v4_apply, val_main_call6_v11_apply, val_main_call6_v1_apply,
    val_main_call6_v10_apply, val_main_call6_v9_apply, val_main_call6_v8_apply, val_main_call6_v7_apply,
    val_main_call6_v3_apply, val_main_call6_v0_apply, val_main_call6_v2_apply, val_main_call6_cst_apply,
    s145 A, Ideal.cmpf_def, cmp_une_self, select_zero, Ideal.ofBits_def, Ideal.ofBits_zero_f32,
    Ideal.addf_def, Ideal.subf_def, Ideal.maximumf_def, Ideal.hostUnary_log1p_def, Ideal.hostUnary_exp_def,
    Ideal.hostNegf_def, Ideal.negf_def, Ideal.hostAbsf_def, Ideal.absf_def, sub_zero]
  rfl

theorem s159 (k : Fin 128) :
    val_main_v159 (F := Ideal) A.X0 A.X2 A.X5 A.X6 A.X7 A.X8 A.X11 A.X12 (ix3 b h k) = NTM.kn (A.hW b) h k := by
  have e : ∀ q : Fin 128, idx_main_call7_v1 (idx_main_call7_v2 (idx_main_v158 (ix3 b h k))) q = ix3 b h q := fun q => ix3_of rfl rfl rfl
  simp only [val_main_v159_apply, val_main_v158_apply, val_main_v157_apply, val_main_v155_apply, val_main_call7_v2_apply, val_main_call7_v1_apply,
    val_main_call7_v0_apply, val_main_call7_cst_apply, val_main_v156_apply, val_main_cst_19_apply, e, s146 A,
    Ideal.ofBits_def, Ideal.ofBits_zero_f32, zero_add, Ideal.addf_def, Ideal.mulf_def, Ideal.hostUnary_sqrt_def, Ideal.hostDivf_def]
  rfl

theorem s233 (k : Fin 128) :
    val_main_v233 (F := Ideal) A.X0 A.X2 A.X5 A.X6 A.X7 A.X8 A.X11 A.X12 (ix3 b h k) = NTM.erase (NTM.wp (A.row b) A.wts) h k := by
  have e : idx_main_v227 (ix3 b h k) = ix3 b h (⟨134 + k.val, by omega⟩ : Fin 390) := ix3_of rfl rfl rfl
  simp only [val_main_v233_apply, val_main_v232_apply, val_main_v231_apply, val_main_v230_apply, val_main_v229_apply,
    val_main_v228_apply, val_main_v227_apply, val_main_cst_33_apply, val_main_cst_34_apply, e, s145 A, Ideal.ofBits_def,
    Ideal.ofBits_one_f32, Ideal.hostDivf_def, Ideal.addf_def, Ideal.hostUnary_exp_def, Ideal.hostNegf_def, Ideal.negf_def]
  rfl

theorem s235 (k : Fin 128) :
    val_main_v235 (F := Ideal) A.X0 A.X2 A.X5 A.X6 A.X7 A.X8 A.X11 A.X12 (ix3 b h k) = NTM.addv (NTM.wp (A.row b) A.wts) h k := by
  have e : idx_main_v234 (ix3 b h k) = ix3 b h (⟨262 + k.val, by omega⟩ : Fin 390) := ix3_of rfl rfl rfl
  simp only [val_main_v235_apply, val_main_v234_apply, e, s145 A, Ideal.hostUnary_tanh_def]
  rfl

theorem s163 (n : Fin 512) :
    val_main_v163 (F := Ideal) A.X0 A.X1 A.X2 A.X5 A.X6 A.X7 A.X8 A.X11 A.X12 (ix3 b h n) = (NTM.logit (A.hW b) (NTM.mn (A.row b)) h) n := by
  have e : idx_main_v161 (idx_main_v162 (ix3 b h n)) = ix2 b h := ix2_of rfl rfl
  have e1 : ∀ k : Fin 128, lidx_main_v160 (ix3 b h n) k = ix3 b h k := fun k => ix3_of rfl rfl rfl
  have e2 : ∀ k : Fin 128, ridx_main_v160 (ix3 b h n) k = ix3 b n k := fun k => ix3_of rfl rfl rfl
  simp only [val_main_v163_apply, val_main_v162_apply, val_main_v161_apply, val_main_v160_apply, e, e1, e2, s154 A, s159 A, ref_mn A, Ideal.mulf_def]
  rfl

theorem s170 (n : Fin 512) :
    val_main_v170 (F := Ideal) A.X0 A.X1 A.X2 A.X5 A.X6 A.X7 A.X8 A.X11 A.X12 (ix3 b h n) = NTM.smExp (NTM.logit (A.hW b) (NTM.mn (A.row b)) h) n := by
  rw [val_main_v170_apply, val_main_v169_apply, val_main_v168_apply, val_main_v167_apply, val_main_v166_apply, val_main_v165_apply, val_main_cst_21_apply]
  have e : idx_main_v167 (idx_main_v168 (ix3 b h n)) = ix2 b h := ix2_of rfl rfl
  rw [e, s163 A, show val_main_v164 (F := Ideal) A.X0 A.X1 A.X2 A.X5 A.X6 A.X7 A.X8 A.X11 A.X12 (ix2 b h) = _ from
    hostMax_last _ _ reducesTo_S1024x4x512_S1024x4_d2 (by decide) b h (s163 A b h)]
  rfl

theorem s174 (n : Fin 512) :
    val_main_v174 (F := Ideal) A.X0 A.X1 A.X2 A.X5 A.X6 A.X7 A.X8 A.X11 A.X12 (ix3 b h n) = NTM.softmax (NTM.logit (A.hW b) (NTM.mn (A.row b)) h) n := by
  have e : idx_main_v172 (idx_main_v173 (ix3 b h n)) = ix2 b h := ix2_of rfl rfl
  have e1 : ∀ k : Fin 512, idx_main_v171 (ix2 b h) k = ix3 b h k := fun k => ix3_of rfl rfl rfl
  simp only [val_main_v174_apply, val_main_v173_apply, val_main_v172_apply, val_main_v171_apply, val_main_cst_22_apply, e, e1,
    s170 A, Ideal.ofBits_def, Ideal.ofBits_zero_f32, zero_add, Ideal.hostDivf_def]
  rfl

theorem s188 (n : Fin 512) :
    val_main_v188 (F := Ideal) A.X0 A.X1 A.X2 A.X4 A.X5 A.X6 A.X7 A.X8 A.X11 A.X12 (ix3 b h n)
      = NTM.wtI (A.hW b) (NTM.mn (A.row b)) (A.row b).ww h n := by
  have e : idx_main_v181 (idx_main_v182 (ix3 b h n)) = ix2 b h := ix2_of rfl rfl
  have e' : idx_main_v181 (idx_main_v186 (ix3 b h n)) = ix2 b h := ix2_of rfl rfl
  have e'' : idx_main_v149 (idx_main_v150 (ix2 b h)) = ix3 b h (⟨129, by omega⟩ : Fin 390) := ix3_pair rfl rfl rfl
  simp only [val_main_v188_apply, val_main_v183_apply, val_main_v182_apply, val_main_v181_apply, val_main_v187_apply,
    val_main_v186_apply, val_main_v185_apply, val_main_v184_apply, val_main_cst_25_apply, e, e', s174 A,
    Ideal.mulf_def, Ideal.subf_def,
    val_main_v150_apply, val_main_v149_apply, e'', val_main_v180_apply, val_main_v179_apply, val_main_v178_apply, val_main_v177_apply, val_main_v176_apply,
    val_main_v175_apply, val_main_cst_23_apply, val_main_cst_24_apply, s145 A, Ideal.ofBits_def,
    logistic_word, Ideal.hostDivf_def, Ideal.addf_def, Ideal.hostUnary_exp_def, Ideal.hostNegf_def, Ideal.negf_def]
  rfl

theorem s195 (s : Fin 3) :
    val_main_v195 (F := Ideal) A.X0 A.X2 A.X5 A.X6 A.X7 A.X8 A.X11 A.X12 (ix3 b h s) = NTM.smExp ((A.hW b).shift h) s := by
  rw [val_main_v195_apply, val_main_v194_apply, val_main_v193_apply, val_main_v192_apply, val_main_v191_apply, val_main_v190_apply, val_main_cst_27_apply]
  have e : idx_main_v192 (idx_main_v193 (ix3 b h s)) = ix2 b h := ix2_of rfl rfl
  rw [e, s151 A, show val_main_v189 (F := Ideal) A.X0 A.X2 A.X5 A.X6 A.X7 A.X8 A.X11 A.X12 (ix2 b h) = _ from
    hostMax_last _ _ reducesTo_S1024x4x3_S1024x4_d2 (by decide) b h (s151 A b h)]
  rfl

theorem s199 (s : Fin 3) :
    val_main_v199 (F := Ideal) A.X0 A.X2 A.X5 A.X6 A.X7 A.X8 A.X11 A.X12 (ix3 b h s) = NTM.softmax ((A.hW b).shift h) s := by
  have e : idx_main_v197 (idx_main_v198 (ix3 b h s)) = ix2 b h := ix2_of rfl rfl
  have e1 : ∀ k : Fin 3, idx_main_v196 (ix2 b h) k = ix3 b h k := fun k => ix3_of rfl rfl rfl
  simp only [val_main_v199_apply, val_main_v198_apply, val_main_v197_apply, val_main_v196_apply, val_main_cst_28_apply, e, e1,
    s195 A, Ideal.ofBits_def, Ideal.ofBits_zero_f32, zero_add, Ideal.hostDivf_def]
  rfl

theorem s201 (n : Fin 512) :
    val_main_v201 (F := Ideal) A.X0 A.X1 A.X2 A.X4 A.X5 A.X6 A.X7 A.X8 A.X11 A.X12 (ix3 b h n) = val_main_v188 (F := Ideal) A.X0 A.X1 A.X2 A.X4 A.X5 A.X6 A.X7 A.X8 A.X11 A.X12 (ix3 b h (NTM.nxt n)) := by
  unfold val_main_v201
  exact cat_last concatenates_S1024x4x511_S1024x4x1_S1024x4x512_d2 rfl b h n
    (fun m hm => by rw [val_main_call8_v0_apply]; exact congrArg _ (ix3_of rfl rfl (by show 1 + m.val = (n.val + 1) % 512; omega)))
    (fun m hm => by rw [val_main_call8_v1_apply]; exact congrArg _ (ix3_of rfl rfl (by show m.val = (n.val + 1) % 512; omega)))

theorem s209 (n : Fin 512) :
    val_main_v209 (F := Ideal) A.X0 A.X1 A.X2 A.X4 A.X5 A.X6 A.X7 A.X8 A.X11 A.X12 (ix3 b h n) = val_main_v188 (F := Ideal) A.X0 A.X1 A.X2 A.X4 A.X5 A.X6 A.X7 A.X8 A.X11 A.X12 (ix3 b h (NTM.prv n)) := by
  unfold val_main_v209
  exact cat_last concatenates_S1024x4x1_S1024x4x511_S1024x4x512_d2 rfl b h n
    (fun m hm => by rw [val_main_call9_v0_apply]; exact congrArg _ (ix3_of rfl rfl (by show 511 + m.val = (n.val + 511) % 512; omega)))
    (fun m hm => by rw [val_main_call9_v1_apply]; exact congrArg _ (ix3_of rfl rfl (by show m.val = (n.val + 511) % 512; omega)))

theorem s212 (n : Fin 512) :
    val_main_v212 (F := Ideal) A.X0 A.X1 A.X2 A.X4 A.X5 A.X6 A.X7 A.X8 A.X11 A.X12 (ix3 b h n) = NTM.shifted (A.hW b) (NTM.mn (A.row b)) (A.row b).ww h n := by
  have e0 : idx_main_v200 (idx_main_v202 (ix3 b h n)) = ix3 b h (0 : Fin 3) := ix3_of rfl rfl rfl
  have e1 : idx_main_v204 (idx_main_v205 (ix3 b h n)) = ix3 b h (1 : Fin 3) := ix3_of rfl rfl rfl
  have e2 : idx_main_v208 (idx_main_v210 (ix3 b h n)) = ix3 b h (2 : Fin 3) := ix3_of rfl rfl rfl
  simp only [val_main_v212_apply, val_main_v207_apply, val_main_v203_apply, val_main_v202_apply, val_main_v200_apply,
    val_main_v206_apply, val_main_v205_apply, val_main_v204_apply, val_main_v211_apply, val_main_v210_apply, val_main_v208_apply,
    e0, e1, e2, s199 A, s201 A, s209 A, s188 A, Ideal.addf_def, Ideal.mulf_def]
  rfl

theorem s220 (n : Fin 512) :
    val_main_v220 (F := Ideal) A.X0 A.X1 A.X2 A.X4 A.X5 A.X6 A.X7 A.X8 A.X11 A.X12 (ix3 b h n) = NTM.sharp NTM.powR (A.hW b) (NTM.mn (A.row b)) (A.row b).ww h n := by
  have e : idx_main_v218 (idx_main_v219 (ix3 b h n)) = ix2 b h := ix2_of rfl rfl
  have e' : idx_main_v152 (idx_main_v153 (ix2 b h)) = ix3 b h (⟨133, by omega⟩ : Fin 390) := ix3_pair rfl rfl rfl
  simp only [val_main_v220_apply, val_main_v217_apply, val_main_v216_apply, val_main_cst_30_apply, val_main_v219_apply,
    val_main_v218_apply, e, s212 A, Ideal.hostPowf_def,
    val_main_v215_apply, val_main_v214_apply, val_main_cst_29_apply, val_main_v153_apply, val_main_v152_apply, e',
    val_main_v213_apply, val_main_call10_v4_apply, val_main_call10_v11_apply, val_main_call10_v1_apply,
    val_main_call10_v10_apply, val_main_call10_v9_apply, val_main_call10_v8_apply, val_main_call10_v7_apply,
    val_main_call10_v3_apply, val_main_call10_v0_apply, val_main_call10_v2_apply, val_main_call10_cst_apply,
    s145 A, Ideal.cmpf_def, cmp_une_self, select_zero, Ideal.ofBits_def, Ideal.ofBits_zero_f32,
    Ideal.addf_def, Ideal.subf_def, Ideal.maximumf_def, Ideal.hostUnary_log1p_def, Ideal.hostUnary_exp_def,
    Ideal.hostNegf_def, Ideal.negf_def, Ideal.hostAbsf_def, Ideal.absf_def, sub_zero]
  rfl

theorem s226 (n : Fin 512) :
    val_main_v226 (F := Ideal) A.X0 A.X1 A.X2 A.X4 A.X5 A.X6 A.X7 A.X8 A.X11 A.X12 (ix3 b h n) = NTM.addr NTM.powR (A.hW b) (NTM.mn (A.row b)) (A.row b).ww h n := by
  have e : idx_main_v222 (idx_main_v225 (ix3 b h n)) = ix2 b h := ix2_of rfl rfl
  have e1 : ∀ k : Fin 512, idx_main_v221 (ix2 b h) k = ix3 b h k := fun k => ix3_of rfl rfl rfl
  simp only [val_main_v226_apply, val_main_v225_apply, val_main_v224_apply, val_main_v223_apply, val_main_cst_32_apply,
    val_main_v222_apply, val_main_v221_apply, val_main_cst_31_apply, e, e1, s220 A, Ideal.ofBits_def, Ideal.ofBits_zero_f32,
    zero_add, Ideal.addf_def, Ideal.hostDivf_def]
  rfl

theorem s254 (n : Fin 512) (k : Fin 128) :
    val_main_v254 (F := Ideal) A.X0 A.X1 A.X2 A.X4 A.X5 A.X6 A.X7 A.X8 A.X11 A.X12 (ix3 b n k) = NTM.nmUpTo NTM.powR (A.row b) A.wts 1 n k := by
  have eW : idx_main_v236 (idx_main_v237 (idx_main_v238 (idx_main_v242 (ix3 b n k)))) = ix3 b (⟨0, by omega⟩ : Fin 4) n := ix3_flat rfl rfl rfl
  have eW' : idx_main_v236 (idx_main_v237 (idx_main_v238 (idx_main_v251 (ix3 b n k)))) = ix3 b (⟨0, by omega⟩ : Fin 4) n := ix3_flat rfl rfl rfl
  have eE : idx_main_v239 (idx_main_v240 (idx_main_v241 (idx_main_v243 (ix3 b n k)))) = ix3 b (⟨0, by omega⟩ : Fin 4) k := ix3_flat rfl rfl rfl
  have eA : idx_main_v248 (idx_main_v249 (idx_main_v250 (idx_main_v252 (ix3 b n k)))) = ix3 b (⟨0, by omega⟩ : Fin 4) k := ix3_flat rfl rfl rfl
  simp only [val_main_v254_apply, val_main_v247_apply, val_main_v246_apply, val_main_v245_apply, val_main_cst_35_apply, val_main_v244_apply,
    val_main_v242_apply, val_main_v238_apply, val_main_v237_apply, val_main_v236_apply, val_main_v243_apply, val_main_v241_apply, val_main_v240_apply, val_main_v239_apply,
    val_main_v253_apply, val_main_v251_apply, val_main_v252_apply, val_main_v250_apply, val_main_v249_apply, val_main_v248_apply, eW, eW', eE, eA,
    s226 A, s233 A, s235 A, Ideal.ofBits_def, Ideal.addf_def, Ideal.mulf_def, Ideal.subf_def]
  rfl

theorem s273 (n : Fin 512) (k : Fin 128) :
    val_main_v273 (F := Ideal) A.X0 A.X1 A.X2 A.X4 A.X5 A.X6 A.X7 A.X8 A.X11 A.X12 (ix3 b n k) = NTM.nmUpTo NTM.powR (A.row b) A.wts 2 n k := by
  have eW : idx_main_v255 (idx_main_v256 (idx_main_v257 (idx_main_v261 (ix3 b n k)))) = ix3 b (⟨1, by omega⟩ : Fin 4) n := ix3_flat rfl rfl rfl
  have eW' : idx_main_v255 (idx_main_v256 (idx_main_v257 (idx_main_v270 (ix3 b n k)))) = ix3 b (⟨1, by omega⟩ : Fin 4) n := ix3_flat rfl rfl rfl
  have eE : idx_main_v258 (idx_main_v259 (idx_main_v260 (idx_main_v262 (ix3 b n k)))) = ix3 b (⟨1, by omega⟩ : Fin 4) k := ix3_flat rfl rfl rfl
  have eA : idx_main_v267 (idx_main_v268 (idx_main_v269 (idx_main_v271 (ix3 b n k)))) = ix3 b (⟨1, by omega⟩ : Fin 4) k := ix3_flat rfl rfl rfl
  simp only [val_main_v273_apply, val_main_v266_apply, val_main_v265_apply, val_main_v264_apply, val_main_cst_36_apply, val_main_v263_apply,
    val_main_v261_apply, val_main_v257_apply, val_main_v256_apply, val_main_v255_apply, val_main_v262_apply, val_main_v260_apply, val_main_v259_apply, val_main_v258_apply,
    val_main_v272_apply, val_main_v270_apply, val_main_v271_apply, val_main_v269_apply, val_main_v268_apply, val_main_v267_apply, eW, eW', eE, eA, s254 A,
    s226 A, s233 A, s235 A, Ideal.ofBits_def, Ideal.addf_def, Ideal.mulf_def, Ideal.subf_def]
  rfl

theorem s292 (n : Fin 512) (k : Fin 128) :
    val_main_v292 (F := Ideal) A.X0 A.X1 A.X2 A.X4 A.X5 A.X6 A.X7 A.X8 A.X11 A.X12 (ix3 b n k) = NTM.nmUpTo NTM.powR (A.row b) A.wts 3 n k := by
  have eW : idx_main_v274 (idx_main_v275 (idx_main_v276 (idx_main_v280 (ix3 b n k)))) = ix3 b (⟨2, by omega⟩ : Fin 4) n := ix3_flat rfl rfl rfl
  have eW' : idx_main_v274 (idx_main_v275 (idx_main_v276 (idx_main_v289 (ix3 b n k)))) = ix3 b (⟨2, by omega⟩ : Fin 4) n := ix3_flat rfl rfl rfl
  have eE : idx_main_v277 (idx_main_v278 (idx_main_v279 (idx_main_v281 (ix3 b n k)))) = ix3 b (⟨2, by omega⟩ : Fin 4) k := ix3_flat rfl rfl rfl
  have eA : idx_main_v286 (idx_main_v287 (idx_main_v288 (idx_main_v290 (ix3 b n k)))) = ix3 b (⟨2, by omega⟩ : Fin 4) k := ix3_flat rfl rfl rfl
  simp only [val_main_v292_apply, val_main_v285_apply, val_main_v284_apply, val_main_v283_apply, val_main_cst_37_apply, val_main_v282_apply,
    val_main_v280_apply, val_main_v276_apply, val_main_v275_apply, val_main_v274_apply, val_main_v281_apply, val_main_v279_apply, val_main_v278_apply, val_main_v277_apply,
    val_main_v291_apply, val_main_v289_apply, val_main_v290_apply, val_main_v288_apply, val_main_v287_apply, val_main_v286_apply, eW, eW', eE, eA, s273 A,
    s226 A, s233 A, s235 A, Ideal.ofBits_def, Ideal.addf_def, Ideal.mulf_def, Ideal.subf_def]
  rfl

theorem s311 (n : Fin 512) (k : Fin 128) :
    val_main_v311 (F := Ideal) A.X0 A.X1 A.X2 A.X4 A.X5 A.X6 A.X7 A.X8 A.X11 A.X12 (ix3 b n k) = NTM.nmUpTo NTM.powR (A.row b) A.wts 4 n k := by
  have eW : idx_main_v293 (idx_main_v294 (idx_main_v295 (idx_main_v299 (ix3 b n k)))) = ix3 b (⟨3, by omega⟩ : Fin 4) n := ix3_flat rfl rfl rfl
  have eW' : idx_main_v293 (idx_main_v294 (idx_main_v295 (idx_main_v308 (ix3 b n k)))) = ix3 b (⟨3, by omega⟩ : Fin 4) n := ix3_flat rfl rfl rfl
  have eE : idx_main_v296 (idx_main_v297 (idx_main_v298 (idx_main_v300 (ix3 b n k)))) = ix3 b (⟨3, by omega⟩ : Fin 4) k := ix3_flat rfl rfl rfl
  have eA : idx_main_v305 (idx_main_v306 (idx_main_v307 (idx_main_v309 (ix3 b n k)))) = ix3 b (⟨3, by omega⟩ : Fin 4) k := ix3_flat rfl rfl rfl
  simp only [val_main_v311_apply, val_main_v304_apply, val_main_v303_apply, val_main_v302_apply, val_main_cst_38_apply, val_main_v301_apply,
    val_main_v299_apply, val_main_v295_apply, val_main_v294_apply, val_main_v293_apply, val_main_v300_apply, val_main_v298_apply, val_main_v297_apply, val_main_v296_apply,
    val_main_v310_apply, val_main_v308_apply, val_main_v309_apply, val_main_v307_apply, val_main_v306_apply, val_main_v305_apply, eW, eW', eE, eA, s292 A,
    s226 A, s233 A, s235 A, Ideal.ofBits_def, Ideal.addf_def, Ideal.mulf_def, Ideal.subf_def]
  rfl

theorem ref_mem (n : Fin 512) (k : Fin 128) :
    val_main_v311 (F := Ideal) A.X0 A.X1 A.X2 A.X4 A.X5 A.X6 A.X7 A.X8 A.X11 A.X12 (ix3 b n k) = NTM.nm NTM.powR (A.row b) A.wts n k := by
  rw [s311 A]; rfl

variable (X0 : FVec Ideal S1024x128 .f32) (X1 : FVec Ideal S1024x512x128 .f32) (X2 : FVec Ideal S1024x256 .f32)
  (X3 X4 : FVec Ideal S1024x4x512 .f32) (X5 : FVec Ideal S768x128 .f32) (X6 : FVec Ideal S768x256 .f32)
  (X7 X8 : FVec Ideal S768 .f32) (X9 : FVec Ideal S536x256 .f32) (X10 : FVec Ideal S536 .f32)
  (X11 : FVec Ideal S1560x256 .f32) (X12 : FVec Ideal S1560 .f32) (X13 : FVec Ideal S128x512 .f32)
  (X14 : FVec Ideal S128x256 .f32) (X15 : FVec Ideal S128 .f32)

theorem ref_nm (b : Fin 1024) (n : Fin 512) (k : Fin 128) :
    val_main_v311 (F := Ideal) X0 X1 X2 X4 X5 X6 X7 X8 X11 X12 (ix3 b n k) = NTM.nm NTM.powR (rowOf (B := 1024) X0 X1 X2 X3 X4 b) (wtsOf X5 X6 X7 X8 X9 X10 X11 X12 X13 X14 X15) n k :=
  ref_mem ⟨X0, X1, X2, X3, X4, X5, X6, X7, X8, X9, X10, X11, X12, X13, X14, X15⟩ b n k

end NTM.Ref

end
-- ==== Proof.SpecOK.lean ====
import proofs.«155057_j13159779795433_2_alg».proof.Proof.Spec

noncomputable section

namespace NTM

def IsR (x : EReal) : Prop := x ≠ ⊥ ∧ x ≠ ⊤

structure RowOK (R : Row) : Prop where
  x : ∀ k, IsR (R.x k)
  mem : ∀ n k, IsR (R.mem n k)
  hid : ∀ k, IsR (R.hid k)
  rw : ∀ h n, IsR (R.rw h n)
  ww : ∀ h n, IsR (R.ww h n)
  rw_nonneg : ∀ h n, 0 ≤ R.rw h n
  ww_nonneg : ∀ h n, 0 ≤ R.ww h n

structure WtsOK (W : Wts) : Prop where
  Wih : ∀ j k, IsR (W.Wih j k)
  Whh : ∀ j k, IsR (W.Whh j k)
  bih : ∀ j, IsR (W.bih j)
  bhh : ∀ j, IsR (W.bhh j)
  Wrh : ∀ j k, IsR (W.Wrh j k)
  brh : ∀ j, IsR (W.brh j)
  Wwh : ∀ j k, IsR (W.Wwh j k)
  bwh : ∀ j, IsR (W.bwh j)
  Wrm : ∀ j k, IsR (W.Wrm j k)
  Wout : ∀ j k, IsR (W.Wout j k)
  bout : ∀ j, IsR (W.bout j)

end NTM

end
-- ==== Proof.Math.lean ====
import proofs.«155057_j13159779795433_2_alg».proof.Proof.SpecOK
import Mathlib.Data.Finset.Fold
import Mathlib.Analysis.SpecialFunctions.Log.Basic
import Mathlib.Analysis.SpecialFunctions.Pow.Real

noncomputable section

namespace NTM

open Idealize.ShloMosaic

theorem oneE_eq : oneE = 1 := by
  rw [show (1 : EReal) = ((1 : ℝ) : EReal) by norm_cast]
  simp [oneE, Ideal.ofBits, Ideal.ieee, -EReal.coe_mul]; norm_num

theorem ninfE_eq : ninfE = ⊥ := by
  simp [ninfE, Ideal.ofBits, Ideal.ieee]

theorem epsE_eq : epsE = ((9223372 * (2 : ℝ) ^ (-63 : ℤ) : ℝ) : EReal) := by
  simp [epsE, Ideal.ofBits, Ideal.ieee, -EReal.coe_mul]

/-- A nonnegative, resp. positive, real number among the extended reals. -/
def NN (x : EReal) : Prop := ∃ r : ℝ, 0 ≤ r ∧ x = (r : EReal)
def PosR (x : EReal) : Prop := ∃ r : ℝ, 0 < r ∧ x = (r : EReal)

/-- For real `r ≥ 0` and `s > 0`: `r ^ s = exp (s * log r)`, with `0 ^ s = 0 = exp ⊥` at `r = 0`. -/
theorem pow_eq_exp_log {x g : EReal} (hx : NN x) (hg : PosR g) : Ideal.pow x g = Ideal.exp (g * Ideal.log x) := by
  obtain ⟨r, hr, rfl⟩ := hx
  obtain ⟨s, hs, rfl⟩ := hg
  rw [Ideal.pow_coe_coe, Ideal.log_coe]
  rcases hr.eq_or_lt with h0 | h0
  · subst h0
    rw [if_pos le_rfl, EReal.coe_mul_bot_of_pos hs, Ideal.exp_bot]
    show ((Real.rpow 0 s : ℝ) : EReal) = 0
    rw [show Real.rpow 0 s = (0:ℝ) ^ s from rfl, Real.zero_rpow hs.ne', EReal.coe_zero]
  · rw [if_neg (not_le.mpr h0), ← EReal.coe_mul, Ideal.exp_coe]
    show ((r ^ s : ℝ) : EReal) = _
    rw [Real.rpow_def_of_pos h0, mul_comm]

theorem IsR.ex {x : EReal} (h : IsR x) : ∃ r : ℝ, x = (r : EReal) := by
  induction x using EReal.rec with
  | bot => exact absurd rfl h.1
  | top => exact absurd rfl h.2
  | coe r => exact ⟨r, rfl⟩

theorem isR_coe (r : ℝ) : IsR (r : EReal) := ⟨EReal.coe_ne_bot r, EReal.coe_ne_top r⟩
theorem isR_zero : IsR (0 : EReal) := by simpa using isR_coe 0
theorem nn_zero : NN (0 : EReal) := ⟨0, le_rfl, by simp⟩
theorem PosR.nn {x : EReal} (h : PosR x) : NN x := by obtain ⟨r, hr, rfl⟩ := h; exact ⟨r, hr.le, rfl⟩
theorem NN.isR {x : EReal} (h : NN x) : IsR x := by obtain ⟨r, _, rfl⟩ := h; exact isR_coe r
theorem PosR.isR {x : EReal} (h : PosR x) : IsR x := h.nn.isR
theorem NN.of {x : EReal} (h : IsR x) (h0 : 0 ≤ x) : NN x := by
  obtain ⟨r, rfl⟩ := h.ex; exact ⟨r, by exact_mod_cast h0, rfl⟩

theorem IsR.add {x y : EReal} (hx : IsR x) (hy : IsR y) : IsR (x + y) := by
  obtain ⟨r, rfl⟩ := hx.ex; obtain ⟨s, rfl⟩ := hy.ex; rw [← EReal.coe_add]; exact isR_coe _
theorem IsR.mul {x y : EReal} (hx : IsR x) (hy : IsR y) : IsR (x * y) := by
  obtain ⟨r, rfl⟩ := hx.ex; obtain ⟨s, rfl⟩ := hy.ex; rw [← EReal.coe_mul]; exact isR_coe _
theorem IsR.sub {x y : EReal} (hx : IsR x) (hy : IsR y) : IsR (x - y) := by
  obtain ⟨r, rfl⟩ := hx.ex; obtain ⟨s, rfl⟩ := hy.ex; rw [← EReal.coe_sub]; exact isR_coe _
theorem IsR.sum {ι : Type*} (s : Finset ι) (f : ι → EReal) (h : ∀ i ∈ s, IsR (f i)) : IsR (∑ i ∈ s, f i) :=
  Finset.sum_induction f IsR (fun _ _ => IsR.add) isR_zero h

theorem NN.add {x y : EReal} (hx : NN x) (hy : NN y) : NN (x + y) := by
  obtain ⟨r, hr, rfl⟩ := hx; obtain ⟨s, hs, rfl⟩ := hy
  exact ⟨r + s, add_nonneg hr hs, (EReal.coe_add r s).symm⟩
theorem NN.mul {x y : EReal} (hx : NN x) (hy : NN y) : NN (x * y) := by
  obtain ⟨r, hr, rfl⟩ := hx; obtain ⟨s, hs, rfl⟩ := hy
  exact ⟨r * s, mul_nonneg hr hs, (EReal.coe_mul r s).symm⟩
theorem NN.sum {ι : Type*} (s : Finset ι) (f : ι → EReal) (h : ∀ i ∈ s, NN (f i)) : NN (∑ i ∈ s, f i) :=
  Finset.sum_induction f NN (fun _ _ => NN.add) nn_zero h
theorem PosR.add {x y : EReal} (hx : PosR x) (hy : PosR y) : PosR (x + y) := by
  obtain ⟨r, hr, rfl⟩ := hx; obtain ⟨s, hs, rfl⟩ := hy
  exact ⟨r + s, add_pos hr hs, (EReal.coe_add r s).symm⟩
theorem NN.add_pos {x y : EReal} (hx : NN x) (hy : PosR y) : PosR (x + y) := by
  obtain ⟨r, hr, rfl⟩ := hx; obtain ⟨s, hs, rfl⟩ := hy
  exact ⟨r + s, add_pos_of_nonneg_of_pos hr hs, (EReal.coe_add r s).symm⟩
theorem PosR.add_nn {x y : EReal} (hx : PosR x) (hy : NN y) : PosR (x + y) := by
  obtain ⟨r, hr, rfl⟩ := hx; obtain ⟨s, hs, rfl⟩ := hy
  exact ⟨r + s, add_pos_of_pos_of_nonneg hr hs, (EReal.coe_add r s).symm⟩
theorem PosR.sum {ι : Type*} (s : Finset ι) (hs : s.Nonempty) (f : ι → EReal) (h : ∀ i ∈ s, PosR (f i)) :
    PosR (∑ i ∈ s, f i) :=
  Finset.sum_induction_nonempty f PosR (fun _ _ => PosR.add) hs h

theorem IsR.div {x y : EReal} (hx : IsR x) (hy : PosR y) : IsR (Ideal.div x y) := by
  obtain ⟨r, rfl⟩ := hx.ex; obtain ⟨s, hs, rfl⟩ := hy
  rw [Ideal.div_coe hs.ne', ← EReal.coe_mul]; exact isR_coe _
theorem PosR.div {x y : EReal} (hx : PosR x) (hy : PosR y) : PosR (Ideal.div x y) := by
  obtain ⟨r, hr, rfl⟩ := hx; obtain ⟨s, hs, rfl⟩ := hy
  exact ⟨r * (1 / s), by positivity, by rw [Ideal.div_coe hs.ne', EReal.coe_mul]⟩

theorem posR_exp {x : EReal} (h : IsR x) : PosR (Ideal.exp x) := by
  obtain ⟨r, rfl⟩ := h.ex; exact ⟨Real.exp r, Real.exp_pos r, Ideal.exp_coe r⟩
theorem isR_tanh {x : EReal} (h : IsR x) : IsR (Ideal.tanh x) := by
  obtain ⟨r, rfl⟩ := h.ex; rw [Ideal.tanh_coe]; exact isR_coe _
theorem posR_logistic {x : EReal} (h : IsR x) : PosR (Ideal.logistic x) := by
  obtain ⟨r, rfl⟩ := h.ex
  exact ⟨(1 + Real.exp (-r))⁻¹, by positivity, Ideal.logistic_coe r⟩
theorem posR_one_sub_logistic {x : EReal} (h : IsR x) : PosR (oneE - Ideal.logistic x) := by
  obtain ⟨r, rfl⟩ := h.ex
  refine ⟨1 - (1 + Real.exp (-r))⁻¹, ?_, ?_⟩
  · have : (1 + Real.exp (-r))⁻¹ < 1 := inv_lt_one_of_one_lt₀ (by linarith [Real.exp_pos (-r)])
    linarith
  · rw [oneE_eq, Ideal.logistic_coe, ← EReal.coe_one, ← EReal.coe_sub]
theorem nn_sqrt {x : EReal} (h : NN x) : NN (Ideal.sqrt x) := by
  obtain ⟨r, hr, rfl⟩ := h
  exact ⟨Real.sqrt r, Real.sqrt_nonneg r, by rw [Ideal.sqrt_coe, if_neg (not_lt.mpr hr)]⟩

theorem posR_oneE : PosR oneE := ⟨1, one_pos, by rw [oneE_eq, EReal.coe_one]⟩
theorem posR_epsE : PosR epsE := ⟨_, by positivity, epsE_eq⟩

theorem nn_softplus {x : EReal} (h : IsR x) : NN (softplus x) := by
  obtain ⟨r, rfl⟩ := h.ex
  have hm0 : max (r : EReal) 0 = ((max r 0 : ℝ) : EReal) := by
    rw [← EReal.coe_zero]; exact (EReal.coe_strictMono.monotone.map_max).symm
  have hma : max (r : EReal) (-(r : EReal)) = ((max r (-r) : ℝ) : EReal) := by
    rw [← EReal.coe_neg]; exact (EReal.coe_strictMono.monotone.map_max).symm
  have hpos : ¬ (1 + Real.exp (-(max r (-r))) ≤ 0) := not_le.mpr (by positivity)
  refine ⟨max r 0 + Real.log (1 + Real.exp (-(max r (-r)))), ?_, ?_⟩
  · exact add_nonneg (le_max_right _ _) (Real.log_nonneg (by linarith [Real.exp_pos (-(max r (-r)))]))
  · unfold softplus Ideal.log1p
    rw [hm0, hma, ← EReal.coe_neg, Ideal.exp_coe, ← EReal.coe_one, ← EReal.coe_add, Ideal.log_coe, if_neg hpos,
      ← EReal.coe_add]

theorem isR_lin {n k : ℕ} {W : Fin n → Fin k → EReal} {b : Fin n → EReal} {v : Fin k → EReal}
    (hW : ∀ j q, IsR (W j q)) (hb : ∀ j, IsR (b j)) (hv : ∀ q, IsR (v q)) (j : Fin n) : IsR (lin W b v j) := by
  unfold lin
  exact (IsR.sum _ _ fun q _ => (hv q).mul (hW j q)).add (hb j)

theorem isR_ctrl {gi gh : Fin 768 → EReal} {hid : Fin 256 → EReal} (hgi : ∀ j, IsR (gi j)) (hgh : ∀ j, IsR (gh j))
    (hh : ∀ j, IsR (hid j)) (j : Fin 256) : IsR (ctrl gi gh hid j) := by
  have hr : IsR (rGate gi gh j) := by unfold rGate; exact (posR_logistic ((hgi _).add (hgh _))).isR
  have hz : IsR (zGate gi gh j) := by unfold zGate; exact (posR_logistic ((hgi _).add (hgh _))).isR
  have hn : IsR (nCand gi gh j) := by unfold nCand; exact isR_tanh ((hgi _).add (hr.mul (hgh _)))
  unfold ctrl
  exact ((posR_oneE.isR.sub hz).mul hn).add (hz.mul (hh j))

theorem isR_o {R : Row} {W : Wts} (hR : RowOK R) (hW : WtsOK W) (j : Fin 256) : IsR (o R W j) := by
  unfold o
  exact isR_ctrl (isR_lin hW.Wih hW.bih hR.x) (isR_lin hW.Whh hW.bhh hR.hid) hR.hid j
theorem isR_rp {R : Row} {W : Wts} (hR : RowOK R) (hW : WtsOK W) (j : Fin 536) : IsR (rp R W j) := by
  unfold rp; exact isR_lin hW.Wrh hW.brh (isR_o hR hW) j
theorem isR_wp {R : Row} {W : Wts} (hR : RowOK R) (hW : WtsOK W) (j : Fin 1560) : IsR (wp R W j) := by
  unfold wp; exact isR_lin hW.Wwh hW.bwh (isR_o hR hW) j

structure HeadOK (H : Head) : Prop where
  keyv : ∀ h k, IsR (H.keyv h k)
  beta : ∀ h, IsR (H.beta h)
  gate : ∀ h, IsR (H.gate h)
  shift : ∀ h s, IsR (H.shift h s)
  gamma : ∀ h, IsR (H.gamma h)

theorem headR_ok {p : Fin 536 → EReal} (hp : ∀ j, IsR (p j)) : HeadOK (headR p) :=
  ⟨fun _ _ => hp _, fun _ => hp _, fun _ => hp _, fun _ _ => hp _, fun _ => hp _⟩
theorem headW_ok {p : Fin 1560 → EReal} (hp : ∀ j, IsR (p j)) : HeadOK (headW p) :=
  ⟨fun _ _ => hp _, fun _ => hp _, fun _ => hp _, fun _ _ => hp _, fun _ => hp _⟩

theorem posR_norm {n : ℕ} {f : Fin n → EReal} (hf : ∀ q, IsR (f q)) :
    PosR (Ideal.sqrt (∑ q : Fin n, f q * f q) + epsE) := by
  refine (nn_sqrt (NN.sum _ _ fun q _ => ?_)).add_pos posR_epsE
  obtain ⟨r, hr⟩ := (hf q).ex
  exact ⟨r * r, mul_self_nonneg r, by rw [hr, EReal.coe_mul]⟩

theorem isR_mn {R : Row} (hR : RowOK R) (n : Fin 512) (k : Fin 128) : IsR (mn R n k) := by
  unfold mn mnorm; exact (hR.mem n k).div (posR_norm (hR.mem n))

theorem isR_logit {H : Head} {mn : Fin 512 → Fin 128 → EReal} (hH : HeadOK H) (hmn : ∀ n k, IsR (mn n k))
    (h : Fin 4) (n : Fin 512) : IsR (logit H mn h n) := by
  unfold logit cosv kn knorm
  exact (nn_softplus (hH.beta h)).isR.mul
    (IsR.sum _ _ fun k _ => ((hH.keyv h k).div (posR_norm (hH.keyv h))).mul (hmn n k))

theorem isR_rowMax {n : ℕ} {f : Fin n → EReal} (hf : ∀ q, IsR (f q)) (i : Fin n) : IsR (rowMax f) := by
  unfold rowMax
  rw [ninfE_eq, max_eq_right bot_le]
  constructor
  · exact (bot_lt_iff_ne_bot.mp ((Finset.lt_fold_max _).mpr (Or.inr ⟨i, Finset.mem_univ i, bot_lt_iff_ne_bot.mpr (hf i).1⟩)))
  · exact (lt_top_iff_ne_top.mp ((Finset.fold_max_lt _).mpr ⟨bot_lt_top, fun q _ => lt_top_iff_ne_top.mpr (hf q).2⟩))

theorem posR_softmax {n : ℕ} {f : Fin n → EReal} (hf : ∀ q, IsR (f q)) (i : Fin n) : PosR (softmax f i) := by
  have he : ∀ q, PosR (smExp f q) := fun q => by
    unfold smExp; exact posR_exp ((hf q).sub (isR_rowMax hf i))
  unfold softmax
  exact (he i).div (PosR.sum _ ⟨i, Finset.mem_univ i⟩ _ fun q _ => he q)

theorem nn_wtI {H : Head} {mn : Fin 512 → Fin 128 → EReal} {prev : Fin 4 → Fin 512 → EReal} (hH : HeadOK H)
    (hmn : ∀ n k, IsR (mn n k)) (hprev : ∀ h n, NN (prev h n)) (h : Fin 4) (n : Fin 512) : NN (wtI H mn prev h n) := by
  unfold wtI gsig
  exact ((posR_logistic (hH.gate h)).nn.mul (posR_softmax (isR_logit hH hmn h) n).nn).add
    ((posR_one_sub_logistic (hH.gate h)).nn.mul (hprev h n))

theorem nn_shifted {H : Head} {mn : Fin 512 → Fin 128 → EReal} {prev : Fin 4 → Fin 512 → EReal} (hH : HeadOK H)
    (hmn : ∀ n k, IsR (mn n k)) (hprev : ∀ h n, NN (prev h n)) (h : Fin 4) (n : Fin 512) :
    NN (shifted H mn prev h n) := by
  unfold shifted
  exact (((posR_softmax (hH.shift h) 0).nn.mul (nn_wtI hH hmn hprev h _)).add
    ((posR_softmax (hH.shift h) 1).nn.mul (nn_wtI hH hmn hprev h _))).add
    ((posR_softmax (hH.shift h) 2).nn.mul (nn_wtI hH hmn hprev h _))

theorem posR_gam {H : Head} (hH : HeadOK H) (h : Fin 4) : PosR (gam H h) := by
  unfold gam; exact posR_oneE.add_nn (nn_softplus (hH.gamma h))

/-- The sharpened base is a nonnegative real and the exponent `1 + softplus γ` a positive one, so the two spellings of the power agree. -/
theorem sharp_eq {H : Head} {mn : Fin 512 → Fin 128 → EReal} {prev : Fin 4 → Fin 512 → EReal} (hH : HeadOK H)
    (hmn : ∀ n k, IsR (mn n k)) (hprev : ∀ h n, NN (prev h n)) : sharp powK H mn prev = sharp powR H mn prev := by
  funext h n
  unfold sharp powK powR
  exact (pow_eq_exp_log ((nn_shifted hH hmn hprev h n).add posR_epsE.nn) (posR_gam hH h)).symm

theorem addr_eq {H : Head} {mn : Fin 512 → Fin 128 → EReal} {prev : Fin 4 → Fin 512 → EReal} (hH : HeadOK H)
    (hmn : ∀ n k, IsR (mn n k)) (hprev : ∀ h n, NN (prev h n)) : addr powK H mn prev = addr powR H mn prev := by
  funext h n
  unfold addr
  rw [sharp_eq hH hmn hprev]

theorem rwt_eq {R : Row} {W : Wts} (hR : RowOK R) (hW : WtsOK W) : rwt powK R W = rwt powR R W := by
  unfold rwt
  exact addr_eq (headR_ok (isR_rp hR hW)) (isR_mn hR) fun h n => NN.of (hR.rw h n) (hR.rw_nonneg h n)

theorem wwt_eq {R : Row} {W : Wts} (hR : RowOK R) (hW : WtsOK W) : wwt powK R W = wwt powR R W := by
  unfold wwt
  exact addr_eq (headW_ok (isR_wp hR hW)) (isR_mn hR) fun h n => NN.of (hR.ww h n) (hR.ww_nonneg h n)

theorem y_eq (R : Row) (W : Wts) (hR : RowOK R) (hW : WtsOK W) (j : Fin 128) : y powK R W j = y powR R W j := by
  unfold y rvFlat rv
  rw [rwt_eq hR hW]

theorem nmUpTo_eq {R : Row} {W : Wts} (hR : RowOK R) (hW : WtsOK W) (i : ℕ) : nmUpTo powK R W i = nmUpTo powR R W i := by
  induction i with
  | zero => rfl
  | succ i ih => simp only [nmUpTo, wwt_eq hR hW, ih]

theorem nm_eq (R : Row) (W : Wts) (hR : RowOK R) (hW : WtsOK W) (n : Fin 512) (k : Fin 128) :
    nm powK R W n k = nm powR R W n k := by
  unfold nm
  rw [nmUpTo_eq hR hW]

end NTM

end
-- ==== Proof.Bridge.lean ====
import proofs.«155057_j13159779795433_2_alg».proof.Proof.RefB
import proofs.«155057_j13159779795433_2_alg».proof.Proof.Math

noncomputable section

namespace NTM.Bridge

open Idealize.ShloMosaic Idealize.ShloMosaic.TcCoe Idealize.ShloMosaic.ValueIdx Cert.ReferenceIdeal Cert.ReferenceIdeal.ReadB NTM NTM.Ref

variable (X0 : FVec Ideal S1024x128 .f32) (X1 : FVec Ideal S1024x512x128 .f32) (X2 : FVec Ideal S1024x256 .f32)
  (X3 X4 : FVec Ideal S1024x4x512 .f32) (X5 : FVec Ideal S768x128 .f32) (X6 : FVec Ideal S768x256 .f32)
  (X7 X8 : FVec Ideal S768 .f32) (X9 : FVec Ideal S536x256 .f32) (X10 : FVec Ideal S536 .f32)
  (X11 : FVec Ideal S1560x256 .f32) (X12 : FVec Ideal S1560 .f32) (X13 : FVec Ideal S128x512 .f32)
  (X14 : FVec Ideal S128x256 .f32) (X15 : FVec Ideal S128 .f32)

/-- Row by row the reference's output is the step's output; the spelling of the power does not matter in a row of reals with nonnegative previous weightings. -/
theorem y_bridge (hR : ∀ b : Fin 1024, RowOK (rowOf (B := 1024) X0 X1 X2 X3 X4 b)) (hW : WtsOK (wtsOf X5 X6 X7 X8 X9 X10 X11 X12 X13 X14 X15)) :
    val_main_v139 (F := Ideal) X0 X1 X2 X3 X5 X6 X7 X8 X9 X10 X13 X14 X15
      = fun i => NTM.y NTM.powK (rowOf (B := 1024) X0 X1 X2 X3 X4 ⟨(i 0).val, idx2_lt0 i⟩) (wtsOf X5 X6 X7 X8 X9 X10 X11 X12 X13 X14 X15) ⟨(i 1).val, idx2_lt1 i⟩ := by
  funext i
  obtain ⟨b, j, rfl⟩ : ∃ (b : Fin 1024) (j : Fin 128), i = ix2 b j := ⟨i 0, i 1, eq_ix2 i⟩
  rw [ref_y X0 X1 X2 X3 X4 X5 X6 X7 X8 X9 X10 X11 X12 X13 X14 X15 b j]
  exact (y_eq _ _ (hR b) hW j).symm

/-- The same for the new memory. -/
theorem nm_bridge (hR : ∀ b : Fin 1024, RowOK (rowOf (B := 1024) X0 X1 X2 X3 X4 b)) (hW : WtsOK (wtsOf X5 X6 X7 X8 X9 X10 X11 X12 X13 X14 X15)) :
    val_main_v311 (F := Ideal) X0 X1 X2 X4 X5 X6 X7 X8 X11 X12
      = fun i => NTM.nm NTM.powK (rowOf (B := 1024) X0 X1 X2 X3 X4 ⟨(i 0).val, (i 0).isLt⟩) (wtsOf X5 X6 X7 X8 X9 X10 X11 X12 X13 X14 X15) ⟨(i 1).val, (i 1).isLt⟩ ⟨(i 2).val, (i 2).isLt⟩ := by
  funext i
  obtain ⟨b, n, k, rfl⟩ : ∃ (b : Fin 1024) (n : Fin 512) (k : Fin 128), i = ix3 b n k := ⟨i 0, i 1, i 2, eq_ix3 i⟩
  rw [ref_nm X0 X1 X2 X3 X4 X5 X6 X7 X8 X9 X10 X11 X12 X13 X14 X15 b n k]
  exact (nm_eq _ _ (hR b) hW n k).symm

end NTM.Bridge

end
-- ==== Proof.RefRunT.lean ====
import Idealize.ShloMosaic.Lib.StableHlo.Run

noncomputable section

namespace NTM.RefRun

open Idealize.ShloMosaic Idealize.ShloMosaic.TcCoe Idealize.SL.Sem Idealize.ShloMosaic.StableHlo

section Line

variable {τ : Topo} {sig : RefSig} {Val : EltTy → Type}

def key (r : Ref sig .tc) : ℕ := r.idx.val

theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

def Asc : ℕ → List (HloOp τ sig Val) → Prop
  | _, [] => True
  | n, op :: ops => (∃ y : Ref sig .tc, key y = n ∧ op.writes = {Proc.devRef .tc y}) ∧ Asc (n + 1) ops

theorem asc_append : ∀ (l₁ l₂ : List (HloOp τ sig Val)) (n : ℕ), Asc n l₁ → Asc (n + l₁.length) l₂ → Asc n (l₁ ++ l₂)
  | [], _, _, _, h₂ => by simpa using h₂
  | op :: l₁, l₂, n, h₁, h₂ => by
    refine ⟨h₁.1, asc_append l₁ l₂ (n + 1) h₁.2 ?_⟩
    have e : n + 1 + l₁.length = n + (op :: l₁).length := by simp only [List.length_cons]; omega
    rw [e]; exact h₂

theorem asc_of_writes : ∀ (ops : List (HloOp τ sig Val)) (W : List (Ref sig .tc)) (n : ℕ),
    ops.map (fun op => op.writes) = W.map (fun y => ({Proc.devRef .tc y} : Finset (DevRef τ sig))) →
    W.map key = List.range' n W.length → Asc n ops
  | [], _, _, _, _ => trivial
  | op :: ops, [], _, hw, _ => by simp at hw
  | op :: ops, y :: W, n, hw, hk => by
    simp only [List.map_cons, List.cons.injEq, List.length_cons, List.range'_succ] at hw hk
    exact ⟨⟨y, hk.1, hw.1⟩, asc_of_writes ops W (n + 1) hw.2 hk.2⟩

theorem after_keep : ∀ (ops : List (HloOp τ sig Val)) (n : ℕ), Asc n ops → ∀ (V : Valuation τ sig Val) (r : Ref sig .tc),
    key r < n → after ops V (Proc.devRef .tc r) = V (Proc.devRef .tc r)
  | [], _, _, _, _, _ => rfl
  | op :: ops, n, h, V, r, hr => by
    obtain ⟨⟨y, hy, hw⟩, h'⟩ := h
    rw [after_cons, after_keep ops (n + 1) h' _ r (by omega)]
    refine op.result_of_not_mem V ?_
    rw [hw, Finset.mem_singleton]
    intro e
    have : r = y := Proc.devRef_injective _ e
    subst this; omega

/-- Single assignment: a buffer is final once written, so every operation's equation holds of the FINAL contents, and a long line is read one operation at a time. -/
theorem ssa : ∀ (i : ℕ) (ops : List (HloOp τ sig Val)) (n : ℕ) (op : HloOp τ sig Val), Asc n ops → ops[i]? = some op →
    ∀ V : Valuation τ sig Val,
      (∀ y : Ref sig .tc, key y = n + i → after ops V (Proc.devRef .tc y) = op.result (after (ops.take i) V) (Proc.devRef .tc y))
      ∧ (∀ x : Ref sig .tc, key x < n + i → after (ops.take i) V (Proc.devRef .tc x) = after ops V (Proc.devRef .tc x))
  | _, [], _, _, _, hi, _ => by simp at hi
  | 0, o :: ops, n, op, h, hi, V => by
    simp only [List.getElem?_cons_zero, Option.some.injEq] at hi
    subst hi
    refine ⟨fun y hy => ?_, fun x hx => ?_⟩
    · rw [after_cons, List.take_zero, after_nil, after_keep ops (n + 1) h.2 _ y (by omega)]
    · rw [List.take_zero, after_nil, after_keep (o :: ops) n h V x (by omega)]
  | i + 1, o :: ops, n, op, h, hi, V => by
    simp only [List.getElem?_cons_succ] at hi
    obtain ⟨h1, h2⟩ := ssa i ops (n + 1) op h.2 hi (o.result V)
    refine ⟨fun y hy => ?_, fun x hx => ?_⟩
    · rw [after_cons, List.take_succ_cons, after_cons]; exact h1 y (by omega)
    · rw [after_cons, List.take_succ_cons, after_cons]; exact h2 x (by omega)

variable {ops : List (HloOp τ sig Val)} {n : ℕ}

theorem ssa_nullary (h : Asc n ops) (i : ℕ) {y : Ref sig .tc} {v : y.ty.Contents Val} {hy}
    (hi : ops[i]? = some (nullary y v hy)) (ky : key y = n + i) (V : Valuation τ sig Val) :
    after ops V (Proc.devRef .tc y) = v := by
  rw [(ssa i ops n _ h hi V).1 y ky, nullary_result]

theorem ssa_unary (h : Asc n ops) (i : ℕ) {x y : Ref sig .tc} {f : x.ty.Contents Val → y.ty.Contents Val} {hx hy}
    (hi : ops[i]? = some (unary x y f hx hy)) (ky : key y = n + i) (kx : key x < n + i) (V : Valuation τ sig Val) :
    after ops V (Proc.devRef .tc y) = f (after ops V (Proc.devRef .tc x)) := by
  obtain ⟨h1, h2⟩ := ssa i ops n _ h hi V
  rw [h1 y ky, unary_result, h2 x kx]

theorem ssa_binary (h : Asc n ops) (i : ℕ) {a b y : Ref sig .tc} {f : a.ty.Contents Val → b.ty.Contents Val → y.ty.Contents Val} {ha hb hy}
    (hi : ops[i]? = some (binary a b y f ha hb hy)) (ky : key y = n + i) (ka : key a < n + i) (kb : key b < n + i)
    (V : Valuation τ sig Val) :
    after ops V (Proc.devRef .tc y) = f (after ops V (Proc.devRef .tc a)) (after ops V (Proc.devRef .tc b)) := by
  obtain ⟨h1, h2⟩ := ssa i ops n _ h hi V
  rw [h1 y ky, binary_result, h2 a ka, h2 b kb]

theorem ssa_ternary (h : Asc n ops) (i : ℕ) {c a b y : Ref sig .tc}
    {f : c.ty.Contents Val → a.ty.Contents Val → b.ty.Contents Val → y.ty.Contents Val} {hc ha hb hy}
    (hi : ops[i]? = some (ternary c a b y f hc ha hb hy)) (ky : key y = n + i) (kc : key c < n + i) (ka : key a < n + i)
    (kb : key b < n + i) (V : Valuation τ sig Val) :
    after ops V (Proc.devRef .tc y)
      = f (after ops V (Proc.devRef .tc c)) (after ops V (Proc.devRef .tc a)) (after ops V (Proc.devRef .tc b)) := by
  obtain ⟨h1, h2⟩ := ssa i ops n _ h hi V
  rw [h1 y ky, ternary_result, h2 c kc, h2 a ka, h2 b kb]

theorem ssa_reshape (h : Asc n ops) (i : ℕ) {x y : Ref sig .tc} {he : x.ty.elt = y.ty.elt} {hn : x.ty.shape.ShapeCasts y.ty.shape} {hx hy}
    (hi : ops[i]? = some (reshape x y he hn hx hy)) (ky : key y = n + i) (kx : key x < n + i) (V : Valuation τ sig Val) :
    after ops V (Proc.devRef .tc y) = fun j => he ▸ shapeCast y.ty.shape (after ops V (Proc.devRef .tc x)) hn j := by
  obtain ⟨h1, h2⟩ := ssa i ops n _ h hi V
  rw [h1 y ky, reshape_result, h2 x kx]

end Line

end NTM.RefRun

end
-- ==== Proof.RefRunW0.lean ====
import proofs.«155057_j13159779795433_2_alg».proof.Proof.Gen.ReferenceIdeal
import Idealize.ShloMosaic.Lib.StableHlo.Run

noncomputable section

namespace NTM.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations 1 … 64, in order (a called function's operations stand in its call's place). -/
abbrev ops0 : List (HloOp τ sig (Elt F)) :=
  [ unary main_arg5 main_v0 ((transpose S128x768 [1, 0] · transposes_S768x128_S128x768_1_0) : (⟨S768x128, .f32⟩ : BufTy).Contents (Elt F) → (⟨S128x768, .f32⟩ : BufTy).Contents (Elt F)),
    binary main_arg0 main_v0 main_v1 ((fun l r => Host.dotGeneral dot_S1024x128_S128x768_S1024x768_1_0_0_1_n_n none l r) : (⟨S1024x128, .f32⟩ : BufTy).Contents (Elt F) → (⟨S128x768, .f32⟩ : BufTy).Contents (Elt F) → (⟨S1024x768, .f32⟩ : BufTy).Contents (Elt F)),
    unary main_arg7 main_v2 (broadcastInDim S1x768 ![1] bcast_S768_S1x768_1 : (⟨S768, .f32⟩ : BufTy).Contents (Elt F) → (⟨S1x768, .f32⟩ : BufTy).Contents (Elt F)),
    unary main_v2 main_v3 (broadcastInDim S1024x768 ![0, 1] bcast_S1x768_S1024x768_0_1 : (⟨S1x768, .f32⟩ : BufTy).Contents (Elt F) → (⟨S1024x768, .f32⟩ : BufTy).Contents (Elt F)),
    binary main_v1 main_v3 main_v4 (addf : (⟨S1024x768, .f32⟩ : BufTy).Contents (Elt F) → (⟨S1024x768, .f32⟩ : BufTy).Contents (Elt F) → (⟨S1024x768, .f32⟩ : BufTy).Contents (Elt F)),
    unary main_arg6 main_v5 ((transpose S256x768 [1, 0] · transposes_S768x256_S256x768_1_0) : (⟨S768x256, .f32⟩ : BufTy).Contents (Elt F) → (⟨S256x768, .f32⟩ : BufTy).Contents (Elt F)),
    binary main_arg2 main_v5 main_v6 ((fun l r => Host.dotGeneral dot_S1024x256_S256x768_S1024x768_1_0_0_1_n_n none l r) : (⟨S1024x256, .f32⟩ : BufTy).Contents (Elt F) → (⟨S256x768, .f32⟩ : BufTy).Contents (Elt F) → (⟨S1024x768, .f32⟩ : BufTy).Contents (Elt F)),
    unary main_arg8 main_v7 (broadcastInDim S1x768 ![1] bcast_S768_S1x768_1 : (⟨S768, .f32⟩ : BufTy).Contents (Elt F) → (⟨S1x768, .f32⟩ : BufTy).Contents (Elt F)),
    unary main_v7 main_v8 (broadcastInDim S1024x768 ![0, 1] bcast_S1x768_S1024x768_0_1 : (⟨S1x768, .f32⟩ : BufTy).Contents (Elt F) → (⟨S1024x768, .f32⟩ : BufTy).Contents (Elt F)),
    binary main_v6 main_v8 main_v9 (addf : (⟨S1024x768, .f32⟩ : BufTy).Contents (Elt F) → (⟨S1024x768, .f32⟩ : BufTy).Contents (Elt F) → (⟨S1024x768, .f32⟩ : BufTy).Contents (Elt F)),
    unary main_v4 main_v10 ((extractStridedSlice S1024x256 ![0, 0] · slices_S1024x768_S1024x256_0_0) : (⟨S1024x768, .f32⟩ : BufTy).Contents (Elt F) → (⟨S1024x256, .f32⟩ : BufTy).Contents (Elt F)),
    unary main_v4 main_v11 ((extractStridedSlice S1024x256 ![0, 256] · slices_S1024x768_S1024x256_0_256) : (⟨S1024x768, .f32⟩ : BufTy).Contents (Elt F) → (⟨S1024x256, .f32⟩ : BufTy).Contents (Elt F)),
    unary main_v4 main_v12 ((extractStridedSlice S1024x256 ![0, 512] · slices_S1024x768_S1024x256_0_512) : (⟨S1024x768, .f32⟩ : BufTy).Contents (Elt F) → (⟨S1024x256, .f32⟩ : BufTy).Contents (Elt F)),
    unary main_v9 main_v13 ((extractStridedSlice S1024x256 ![0, 0] · slices_S1024x768_S1024x256_0_0) : (⟨S1024x768, .f32⟩ : BufTy).Contents (Elt F) → (⟨S1024x256, .f32⟩ : BufTy).Contents (Elt F)),
    unary main_v9 main_v14 ((extractStridedSlice S1024x256 ![0, 256] · slices_S1024x768_S1024x256_0_256) : (⟨S1024x768, .f32⟩ : BufTy).Contents (Elt F) → (⟨S1024x256, .f32⟩ : BufTy).Contents (Elt F)),
    unary main_v9 main_v15 ((extractStridedSlice S1024x256 ![0, 512] · slices_S1024x768_S1024x256_0_512) : (⟨S1024x768, .f32⟩ : BufTy).Contents (Elt F) → (⟨S1024x256, .f32⟩ : BufTy).Contents (Elt F)),
    binary main_v10 main_v13 main_v16 (addf : (⟨S1024x256, .f32⟩ : BufTy).Contents (Elt F) → (⟨S1024x256, .f32⟩ : BufTy).Contents (Elt F) → (⟨S1024x256, .f32⟩ : BufTy).Contents (Elt F)),
    unary main_v16 main_v17 (Host.negf : (⟨S1024x256, .f32⟩ : BufTy).Contents (Elt F) → (⟨S1024x256, .f32⟩ : BufTy).Contents (Elt F)),
    unary main_v17 main_v18 (Host.exp : (⟨S1024x256, .f32⟩ : BufTy).Contents (Elt F) → (⟨S1024x256, .f32⟩ : BufTy).Contents (Elt F)),
    nullary main_cst (constant S_ .f32 0x3F800000#32),
    unary main_cst main_v19 (broadcastInDim S1024x256 ![] bcast_S_S1024x256 : (⟨S_, .f32⟩ : BufTy).Contents (Elt F) → (⟨S1024x256, .f32⟩ : BufTy).Contents (Elt F)),
    binary main_v19 main_v18 main_v20 (addf : (⟨S1024x256, .f32⟩ : BufTy).Contents (Elt F) → (⟨S1024x256, .f32⟩ : BufTy).Contents (Elt F) → (⟨S1024x256, .f32⟩ : BufTy).Contents (Elt F)),
    nullary main_cst_0 (constant S_ .f32 0x3F800000#32),
    unary main_cst_0 main_v21 (broadcastInDim S1024x256 ![] bcast_S_S1024x256 : (⟨S_, .f32⟩ : BufTy).Contents (Elt F) → (⟨S1024x256, .f32⟩ : BufTy).Contents (Elt F)),
    binary main_v21 main_v20 main_v22 (Host.divf : (⟨S1024x256, .f32⟩ : BufTy).Contents (Elt F) → (⟨S1024x256, .f32⟩ : BufTy).Contents (Elt F) → (⟨S1024x256, .f32⟩ : BufTy).Contents (Elt F)),
    binary main_v11 main_v14 main_v23 (addf : (⟨S1024x256, .f32⟩ : BufTy).Contents (Elt F) → (⟨S1024x256, .f32⟩ : BufTy).Contents (Elt F) → (⟨S1024x256, .f32⟩ : BufTy).Contents (Elt F)),
    unary main_v23 main_v24 (Host.negf : (⟨S1024x256, .f32⟩ : BufTy).Contents (Elt F) → (⟨S1024x256, .f32⟩ : BufTy).Contents (Elt F)),
    unary main_v24 main_v25 (Host.exp : (⟨S1024x256, .f32⟩ : BufTy).Contents (Elt F) → (⟨S1024x256, .f32⟩ : BufTy).Contents (Elt F)),
    nullary main_cst_1 (constant S_ .f32 0x3F800000#32),
    unary main_cst_1 main_v26 (broadcastInDim S1024x256 ![] bcast_S_S1024x256 : (⟨S_, .f32⟩ : BufTy).Contents (Elt F) → (⟨S1024x256, .f32⟩ : BufTy).Contents (Elt F)),
    binary main_v26 main_v25 main_v27 (addf : (⟨S1024x256, .f32⟩ : BufTy).Contents (Elt F) → (⟨S1024x256, .f32⟩ : BufTy).Contents (Elt F) → (⟨S1024x256, .f32⟩ : BufTy).Contents (Elt F)),
    nullary main_cst_2 (constant S_ .f32 0x3F800000#32),
    unary main_cst_2 main_v28 (broadcastInDim S1024x256 ![] bcast_S_S1024x256 : (⟨S_, .f32⟩ : BufTy).Contents (Elt F) → (⟨S1024x256, .f32⟩ : BufTy).Contents (Elt F)),
    binary main_v28 main_v27 main_v29 (Host.divf : (⟨S1024x256, .f32⟩ : BufTy).Contents (Elt F) → (⟨S1024x256, .f32⟩ : BufTy).Contents (Elt F) → (⟨S1024x256, .f32⟩ : BufTy).Contents (Elt F)),
    binary main_v22 main_v15 main_v30 (mulf : (⟨S1024x256, .f32⟩ : BufTy).Contents (Elt F) → (⟨S1024x256, .f32⟩ : BufTy).Contents (Elt F) → (⟨S1024x256, .f32⟩ : BufTy).Contents (Elt F)),
    binary main_v12 main_v30 main_v31 (addf : (⟨S1024x256, .f32⟩ : BufTy).Contents (Elt F) → (⟨S1024x256, .f32⟩ : BufTy).Contents (Elt F) → (⟨S1024x256, .f32⟩ : BufTy).Contents (Elt F)),
    unary main_v31 main_v32 (Host.tanh : (⟨S1024x256, .f32⟩ : BufTy).Contents (Elt F) → (⟨S1024x256, .f32⟩ : BufTy).Contents (Elt F)),
    nullary main_cst_3 (constant S_ .f32 0x3F800000#32),
    unary main_cst_3 main_v33 (broadcastInDim S1024x256 ![] bcast_S_S1024x256 : (⟨S_, .f32⟩ : BufTy).Contents (Elt F) → (⟨S1024x256, .f32⟩ : BufTy).Contents (Elt F)),
    binary main_v33 main_v29 main_v34 (subf : (⟨S1024x256, .f32⟩ : BufTy).Contents (Elt F) → (⟨S1024x256, .f32⟩ : BufTy).Contents (Elt F) → (⟨S1024x256, .f32⟩ : BufTy).Contents (Elt F)),
    binary main_v34 main_v32 main_v35 (mulf : (⟨S1024x256, .f32⟩ : BufTy).Contents (Elt F) → (⟨S1024x256, .f32⟩ : BufTy).Contents (Elt F) → (⟨S1024x256, .f32⟩ : BufTy).Contents (Elt F)),
    binary main_v29 main_arg2 main_v36 (mulf : (⟨S1024x256, .f32⟩ : BufTy).Contents (Elt F) → (⟨S1024x256, .f32⟩ : BufTy).Contents (Elt F) → (⟨S1024x256, .f32⟩ : BufTy).Contents (Elt F)),
    binary main_v35 main_v36 main_v37 (addf : (⟨S1024x256, .f32⟩ : BufTy).Contents (Elt F) → (⟨S1024x256, .f32⟩ : BufTy).Contents (Elt F) → (⟨S1024x256, .f32⟩ : BufTy).Contents (Elt F)),
    TRef.binary (TRef.of (T := ⟨S1024x512x128, .f32⟩) main_arg1) (TRef.of (T := ⟨S1024x512x128, .f32⟩) main_arg1) (TRef.of (T := ⟨S1024x512x128, .f32⟩) main_call0_v0) mulf,
    TRef.nullary (TRef.of (T := ⟨S_, .f32⟩) main_call0_cst) (constant S_ .f32 0x00000000#32),
    TRef.binary (TRef.of (T := ⟨S1024x512x128, .f32⟩) main_call0_v0) (TRef.of (T := ⟨S_, .f32⟩) main_call0_cst) (TRef.of (T := ⟨S1024x512, .f32⟩) main_call0_v1) (fun x v => Host.reduceAdd x v reducesTo_S1024x512x128_S1024x512_d2 h_S_),
    TRef.unary (TRef.of (T := ⟨S1024x512, .f32⟩) main_call0_v1) (TRef.of (T := ⟨S1024x512x1, .f32⟩) main_call0_v2) (broadcastInDim S1024x512x1 ![0, 1] bcast_S1024x512_S1024x512x1_0_1),
    TRef.unary (TRef.of (T := ⟨S1024x512x1, .f32⟩) main_call0_v2) (TRef.of (T := ⟨S1024x512x1, .f32⟩) main_v38) Host.sqrt,
    nullary main_cst_4 (constant S_ .f32 0x2B8CBCCC#32),
    unary main_cst_4 main_v39 (broadcastInDim S1024x512x1 ![] bcast_S_S1024x512x1 : (⟨S_, .f32⟩ : BufTy).Contents (Elt F) → (⟨S1024x512x1, .f32⟩ : BufTy).Contents (Elt F)),
    binary main_v38 main_v39 main_v40 (addf : (⟨S1024x512x1, .f32⟩ : BufTy).Contents (Elt F) → (⟨S1024x512x1, .f32⟩ : BufTy).Contents (Elt F) → (⟨S1024x512x1, .f32⟩ : BufTy).Contents (Elt F)),
    unary main_v40 main_v41 (broadcastInDim S1024x512x128 ![0, 1, 2] bcast_S1024x512x1_S1024x512x128_0_1_2 : (⟨S1024x512x1, .f32⟩ : BufTy).Contents (Elt F) → (⟨S1024x512x128, .f32⟩ : BufTy).Contents (Elt F)),
    binary main_arg1 main_v41 main_v42 (Host.divf : (⟨S1024x512x128, .f32⟩ : BufTy).Contents (Elt F) → (⟨S1024x512x128, .f32⟩ : BufTy).Contents (Elt F) → (⟨S1024x512x128, .f32⟩ : BufTy).Contents (Elt F)),
    unary main_arg9 main_v43 ((transpose S256x536 [1, 0] · transposes_S536x256_S256x536_1_0) : (⟨S536x256, .f32⟩ : BufTy).Contents (Elt F) → (⟨S256x536, .f32⟩ : BufTy).Contents (Elt F)),
    binary main_v37 main_v43 main_v44 ((fun l r => Host.dotGeneral dot_S1024x256_S256x536_S1024x536_1_0_0_1_n_n none l r) : (⟨S1024x256, .f32⟩ : BufTy).Contents (Elt F) → (⟨S256x536, .f32⟩ : BufTy).Contents (Elt F) → (⟨S1024x536, .f32⟩ : BufTy).Contents (Elt F)),
    unary main_arg10 main_v45 (broadcastInDim S1x536 ![1] bcast_S536_S1x536_1 : (⟨S536, .f32⟩ : BufTy).Contents (Elt F) → (⟨S1x536, .f32⟩ : BufTy).Contents (Elt F)),
    unary main_v45 main_v46 (broadcastInDim S1024x536 ![0, 1] bcast_S1x536_S1024x536_0_1 : (⟨S1x536, .f32⟩ : BufTy).Contents (Elt F) → (⟨S1024x536, .f32⟩ : BufTy).Contents (Elt F)),
    binary main_v44 main_v46 main_v47 (addf : (⟨S1024x536, .f32⟩ : BufTy).Contents (Elt F) → (⟨S1024x536, .f32⟩ : BufTy).Contents (Elt F) → (⟨S1024x536, .f32⟩ : BufTy).Contents (Elt F)),
    reshape main_v47 main_v48 rfl shapeCasts_S1024x536_S1024x4x134,
    unary main_v48 main_v49 ((extractStridedSlice S1024x4x128 ![0, 0, 0] · slices_S1024x4x134_S1024x4x128_0_0_0) : (⟨S1024x4x134, .f32⟩ : BufTy).Contents (Elt F) → (⟨S1024x4x128, .f32⟩ : BufTy).Contents (Elt F)),
    unary main_v48 main_v50 ((extractStridedSlice S1024x4x1 ![0, 0, 128] · slices_S1024x4x134_S1024x4x1_0_0_128) : (⟨S1024x4x134, .f32⟩ : BufTy).Contents (Elt F) → (⟨S1024x4x1, .f32⟩ : BufTy).Contents (Elt F)),
    reshape main_v50 main_v51 rfl shapeCasts_S1024x4x1_S1024x4,
    unary main_v48 main_v52 ((extractStridedSlice S1024x4x1 ![0, 0, 129] · slices_S1024x4x134_S1024x4x1_0_0_129) : (⟨S1024x4x134, .f32⟩ : BufTy).Contents (Elt F) → (⟨S1024x4x1, .f32⟩ : BufTy).Contents (Elt F)),
    reshape main_v52 main_v53 rfl shapeCasts_S1024x4x1_S1024x4 ]

/-- The buffers they write, in order. -/
abbrev wr0 : List (Ref sig .tc) :=
  [main_v0, main_v1, main_v2, main_v3, main_v4, main_v5, main_v6, main_v7, main_v8, main_v9, main_v10, main_v11, main_v12, main_v13, main_v14, main_v15, main_v16, main_v17, main_v18, main_cst, main_v19, main_v20, main_cst_0, main_v21, main_v22, main_v23, main_v24, main_v25, main_cst_1, main_v26, main_v27, main_cst_2, main_v28, main_v29, main_v30, main_v31, main_v32, main_cst_3, main_v33, main_v34, main_v35, main_v36, main_v37, main_call0_v0, main_call0_cst, main_call0_v1, main_call0_v2, main_v38, main_cst_4, main_v39, main_v40, main_v41, main_v42, main_v43, main_v44, main_v45, main_v46, main_v47, main_v48, main_v49, main_v50, main_v51, main_v52, main_v53]

set_option maxRecDepth 8192 in
set_option maxHeartbeats 4000000 in
theorem main_part0_eq (c : Dev nD) : main_part0 (F := F) c = seq ops0 := rfl

set_option maxRecDepth 8192 in
theorem ops0_sub : (ops0 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., unary_bufs_sub .., unary_bufs_sub .., binary_bufs_sub .., reshape_bufs_sub .., unary_bufs_sub .., unary_bufs_sub .., reshape_bufs_sub .., unary_bufs_sub .., reshape_bufs_sub ..⟩

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops0_writes : (ops0 : List (HloOp τ sig (Elt F))).map (fun op => op.writes)
    = wr0.map (fun y => ({Proc.devRef .tc y} : Finset (DevRef τ sig))) := rfl

theorem wr0_keys : wr0.map (fun y => y.idx.val) = List.range' 16 64 := by decide

end NTM.RefRun

end
-- ==== Proof.RefRunW1.lean ====
import proofs.«155057_j13159779795433_2_alg».proof.Proof.Gen.ReferenceIdeal
import Idealize.ShloMosaic.Lib.StableHlo.Run

noncomputable section

namespace NTM.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations 65 … 141, in order (a called function's operations stand in its call's place). -/
abbrev ops1 : List (HloOp τ sig (Elt F)) :=
  [ unary main_v48 main_v54 ((extractStridedSlice S1024x4x3 ![0, 0, 130] · slices_S1024x4x134_S1024x4x3_0_0_130) : (⟨S1024x4x134, .f32⟩ : BufTy).Contents (Elt F) → (⟨S1024x4x3, .f32⟩ : BufTy).Contents (Elt F)),
    unary main_v48 main_v55 ((extractStridedSlice S1024x4x1 ![0, 0, 133] · slices_S1024x4x134_S1024x4x1_0_0_133) : (⟨S1024x4x134, .f32⟩ : BufTy).Contents (Elt F) → (⟨S1024x4x1, .f32⟩ : BufTy).Contents (Elt F)),
    reshape main_v55 main_v56 rfl shapeCasts_S1024x4x1_S1024x4,
    TRef.nullary (TRef.of (T := ⟨S_, .f32⟩) main_call1_cst) (constant S_ .f32 0x00000000#32),
    TRef.unary (TRef.of (T := ⟨S_, .f32⟩) main_call1_cst) (TRef.of (T := ⟨S1024x4, .f32⟩) main_call1_v0) (broadcastInDim S1024x4 ![] bcast_S_S1024x4),
    TRef.binary (TRef.of (T := ⟨S1024x4, .f32⟩) main_v51) (TRef.of (T := ⟨S1024x4, .f32⟩) main_call1_v0) (TRef.of (T := ⟨S1024x4, .f32⟩) main_call1_v1) maximumf,
    TRef.unary (TRef.of (T := ⟨S_, .f32⟩) main_call1_cst) (TRef.of (T := ⟨S1024x4, .f32⟩) main_call1_v2) (broadcastInDim S1024x4 ![] bcast_S_S1024x4),
    TRef.binary (TRef.of (T := ⟨S1024x4, .f32⟩) main_v51) (TRef.of (T := ⟨S1024x4, .f32⟩) main_call1_v2) (TRef.of (T := ⟨S1024x4, .f32⟩) main_call1_v3) subf,
    TRef.binary (TRef.of (T := ⟨S1024x4, .f32⟩) main_call1_v3) (TRef.of (T := ⟨S1024x4, .f32⟩) main_call1_v3) (TRef.of (T := ⟨S1024x4, .i1⟩) main_call1_v4) (cmpf .une),
    TRef.unary (TRef.of (T := ⟨S_, .f32⟩) main_call1_cst) (TRef.of (T := ⟨S1024x4, .f32⟩) main_call1_v5) (broadcastInDim S1024x4 ![] bcast_S_S1024x4),
    TRef.binary (TRef.of (T := ⟨S1024x4, .f32⟩) main_v51) (TRef.of (T := ⟨S1024x4, .f32⟩) main_call1_v5) (TRef.of (T := ⟨S1024x4, .f32⟩) main_call1_v6) addf,
    TRef.unary (TRef.of (T := ⟨S1024x4, .f32⟩) main_call1_v3) (TRef.of (T := ⟨S1024x4, .f32⟩) main_call1_v7) Host.absf,
    TRef.unary (TRef.of (T := ⟨S1024x4, .f32⟩) main_call1_v7) (TRef.of (T := ⟨S1024x4, .f32⟩) main_call1_v8) Host.negf,
    TRef.unary (TRef.of (T := ⟨S1024x4, .f32⟩) main_call1_v8) (TRef.of (T := ⟨S1024x4, .f32⟩) main_call1_v9) Host.exp,
    TRef.unary (TRef.of (T := ⟨S1024x4, .f32⟩) main_call1_v9) (TRef.of (T := ⟨S1024x4, .f32⟩) main_call1_v10) Host.log1p,
    TRef.binary (TRef.of (T := ⟨S1024x4, .f32⟩) main_call1_v1) (TRef.of (T := ⟨S1024x4, .f32⟩) main_call1_v10) (TRef.of (T := ⟨S1024x4, .f32⟩) main_call1_v11) addf,
    TRef.ternary (TRef.of (T := ⟨S1024x4, .i1⟩) main_call1_v4) (TRef.of (T := ⟨S1024x4, .f32⟩) main_call1_v6) (TRef.of (T := ⟨S1024x4, .f32⟩) main_call1_v11) (TRef.of (T := ⟨S1024x4, .f32⟩) main_v57) select,
    TRef.binary (TRef.of (T := ⟨S1024x4x128, .f32⟩) main_v49) (TRef.of (T := ⟨S1024x4x128, .f32⟩) main_v49) (TRef.of (T := ⟨S1024x4x128, .f32⟩) main_call2_v0) mulf,
    TRef.nullary (TRef.of (T := ⟨S_, .f32⟩) main_call2_cst) (constant S_ .f32 0x00000000#32),
    TRef.binary (TRef.of (T := ⟨S1024x4x128, .f32⟩) main_call2_v0) (TRef.of (T := ⟨S_, .f32⟩) main_call2_cst) (TRef.of (T := ⟨S1024x4, .f32⟩) main_call2_v1) (fun x v => Host.reduceAdd x v reducesTo_S1024x4x128_S1024x4_d2 h_S_),
    TRef.unary (TRef.of (T := ⟨S1024x4, .f32⟩) main_call2_v1) (TRef.of (T := ⟨S1024x4x1, .f32⟩) main_call2_v2) (broadcastInDim S1024x4x1 ![0, 1] bcast_S1024x4_S1024x4x1_0_1),
    TRef.unary (TRef.of (T := ⟨S1024x4x1, .f32⟩) main_call2_v2) (TRef.of (T := ⟨S1024x4x1, .f32⟩) main_v58) Host.sqrt,
    nullary main_cst_5 (constant S_ .f32 0x2B8CBCCC#32),
    unary main_cst_5 main_v59 (broadcastInDim S1024x4x1 ![] bcast_S_S1024x4x1 : (⟨S_, .f32⟩ : BufTy).Contents (Elt F) → (⟨S1024x4x1, .f32⟩ : BufTy).Contents (Elt F)),
    binary main_v58 main_v59 main_v60 (addf : (⟨S1024x4x1, .f32⟩ : BufTy).Contents (Elt F) → (⟨S1024x4x1, .f32⟩ : BufTy).Contents (Elt F) → (⟨S1024x4x1, .f32⟩ : BufTy).Contents (Elt F)),
    unary main_v60 main_v61 (broadcastInDim S1024x4x128 ![0, 1, 2] bcast_S1024x4x1_S1024x4x128_0_1_2 : (⟨S1024x4x1, .f32⟩ : BufTy).Contents (Elt F) → (⟨S1024x4x128, .f32⟩ : BufTy).Contents (Elt F)),
    binary main_v49 main_v61 main_v62 (Host.divf : (⟨S1024x4x128, .f32⟩ : BufTy).Contents (Elt F) → (⟨S1024x4x128, .f32⟩ : BufTy).Contents (Elt F) → (⟨S1024x4x128, .f32⟩ : BufTy).Contents (Elt F)),
    binary main_v62 main_v42 main_v63 ((fun l r => Host.dotGeneral dot_S1024x4x128_S1024x512x128_S1024x4x512_2_2_1_1_0_0 none l r) : (⟨S1024x4x128, .f32⟩ : BufTy).Contents (Elt F) → (⟨S1024x512x128, .f32⟩ : BufTy).Contents (Elt F) → (⟨S1024x4x512, .f32⟩ : BufTy).Contents (Elt F)),
    unary main_v57 main_v64 (broadcastInDim S1024x4x1 ![0, 1] bcast_S1024x4_S1024x4x1_0_1 : (⟨S1024x4, .f32⟩ : BufTy).Contents (Elt F) → (⟨S1024x4x1, .f32⟩ : BufTy).Contents (Elt F)),
    unary main_v64 main_v65 (broadcastInDim S1024x4x512 ![0, 1, 2] bcast_S1024x4x1_S1024x4x512_0_1_2 : (⟨S1024x4x1, .f32⟩ : BufTy).Contents (Elt F) → (⟨S1024x4x512, .f32⟩ : BufTy).Contents (Elt F)),
    binary main_v65 main_v63 main_v66 (mulf : (⟨S1024x4x512, .f32⟩ : BufTy).Contents (Elt F) → (⟨S1024x4x512, .f32⟩ : BufTy).Contents (Elt F) → (⟨S1024x4x512, .f32⟩ : BufTy).Contents (Elt F)),
    nullary main_cst_6 (constant S_ .f32 0xFF800000#32),
    binary main_v66 main_cst_6 main_v67 ((fun x v => Host.reduce FloatOps.maximumf x v reducesTo_S1024x4x512_S1024x4_d2 h_S_) : (⟨S1024x4x512, .f32⟩ : BufTy).Contents (Elt F) → (⟨S_, .f32⟩ : BufTy).Contents (Elt F) → (⟨S1024x4, .f32⟩ : BufTy).Contents (Elt F)),
    nullary main_cst_7 (constant S_ .f32 0xFF800000#32),
    unary main_cst_7 main_v68 (broadcastInDim S1024x4 ![] bcast_S_S1024x4 : (⟨S_, .f32⟩ : BufTy).Contents (Elt F) → (⟨S1024x4, .f32⟩ : BufTy).Contents (Elt F)),
    binary main_v68 main_v67 main_v69 (maximumf : (⟨S1024x4, .f32⟩ : BufTy).Contents (Elt F) → (⟨S1024x4, .f32⟩ : BufTy).Contents (Elt F) → (⟨S1024x4, .f32⟩ : BufTy).Contents (Elt F)),
    unary main_v69 main_v70 (broadcastInDim S1024x4x1 ![0, 1] bcast_S1024x4_S1024x4x1_0_1 : (⟨S1024x4, .f32⟩ : BufTy).Contents (Elt F) → (⟨S1024x4x1, .f32⟩ : BufTy).Contents (Elt F)),
    unary main_v70 main_v71 (broadcastInDim S1024x4x512 ![0, 1, 2] bcast_S1024x4x1_S1024x4x512_0_1_2 : (⟨S1024x4x1, .f32⟩ : BufTy).Contents (Elt F) → (⟨S1024x4x512, .f32⟩ : BufTy).Contents (Elt F)),
    binary main_v66 main_v71 main_v72 (subf : (⟨S1024x4x512, .f32⟩ : BufTy).Contents (Elt F) → (⟨S1024x4x512, .f32⟩ : BufTy).Contents (Elt F) → (⟨S1024x4x512, .f32⟩ : BufTy).Contents (Elt F)),
    unary main_v72 main_v73 (Host.exp : (⟨S1024x4x512, .f32⟩ : BufTy).Contents (Elt F) → (⟨S1024x4x512, .f32⟩ : BufTy).Contents (Elt F)),
    nullary main_cst_8 (constant S_ .f32 0x00000000#32),
    binary main_v73 main_cst_8 main_v74 ((fun x v => Host.reduceAdd x v reducesTo_S1024x4x512_S1024x4_d2 h_S_) : (⟨S1024x4x512, .f32⟩ : BufTy).Contents (Elt F) → (⟨S_, .f32⟩ : BufTy).Contents (Elt F) → (⟨S1024x4, .f32⟩ : BufTy).Contents (Elt F)),
    unary main_v74 main_v75 (broadcastInDim S1024x4x1 ![0, 1] bcast_S1024x4_S1024x4x1_0_1 : (⟨S1024x4, .f32⟩ : BufTy).Contents (Elt F) → (⟨S1024x4x1, .f32⟩ : BufTy).Contents (Elt F)),
    unary main_v75 main_v76 (broadcastInDim S1024x4x512 ![0, 1, 2] bcast_S1024x4x1_S1024x4x512_0_1_2 : (⟨S1024x4x1, .f32⟩ : BufTy).Contents (Elt F) → (⟨S1024x4x512, .f32⟩ : BufTy).Contents (Elt F)),
    binary main_v73 main_v76 main_v77 (Host.divf : (⟨S1024x4x512, .f32⟩ : BufTy).Contents (Elt F) → (⟨S1024x4x512, .f32⟩ : BufTy).Contents (Elt F) → (⟨S1024x4x512, .f32⟩ : BufTy).Contents (Elt F)),
    unary main_v53 main_v78 (Host.negf : (⟨S1024x4, .f32⟩ : BufTy).Contents (Elt F) → (⟨S1024x4, .f32⟩ : BufTy).Contents (Elt F)),
    unary main_v78 main_v79 (Host.exp : (⟨S1024x4, .f32⟩ : BufTy).Contents (Elt F) → (⟨S1024x4, .f32⟩ : BufTy).Contents (Elt F)),
    nullary main_cst_9 (constant S_ .f32 0x3F800000#32),
    unary main_cst_9 main_v80 (broadcastInDim S1024x4 ![] bcast_S_S1024x4 : (⟨S_, .f32⟩ : BufTy).Contents (Elt F) → (⟨S1024x4, .f32⟩ : BufTy).Contents (Elt F)),
    binary main_v80 main_v79 main_v81 (addf : (⟨S1024x4, .f32⟩ : BufTy).Contents (Elt F) → (⟨S1024x4, .f32⟩ : BufTy).Contents (Elt F) → (⟨S1024x4, .f32⟩ : BufTy).Contents (Elt F)),
    nullary main_cst_10 (constant S_ .f32 0x3F800000#32),
    unary main_cst_10 main_v82 (broadcastInDim S1024x4 ![] bcast_S_S1024x4 : (⟨S_, .f32⟩ : BufTy).Contents (Elt F) → (⟨S1024x4, .f32⟩ : BufTy).Contents (Elt F)),
    binary main_v82 main_v81 main_v83 (Host.divf : (⟨S1024x4, .f32⟩ : BufTy).Contents (Elt F) → (⟨S1024x4, .f32⟩ : BufTy).Contents (Elt F) → (⟨S1024x4, .f32⟩ : BufTy).Contents (Elt F)),
    unary main_v83 main_v84 (broadcastInDim S1024x4x1 ![0, 1] bcast_S1024x4_S1024x4x1_0_1 : (⟨S1024x4, .f32⟩ : BufTy).Contents (Elt F) → (⟨S1024x4x1, .f32⟩ : BufTy).Contents (Elt F)),
    unary main_v84 main_v85 (broadcastInDim S1024x4x512 ![0, 1, 2] bcast_S1024x4x1_S1024x4x512_0_1_2 : (⟨S1024x4x1, .f32⟩ : BufTy).Contents (Elt F) → (⟨S1024x4x512, .f32⟩ : BufTy).Contents (Elt F)),
    binary main_v85 main_v77 main_v86 (mulf : (⟨S1024x4x512, .f32⟩ : BufTy).Contents (Elt F) → (⟨S1024x4x512, .f32⟩ : BufTy).Contents (Elt F) → (⟨S1024x4x512, .f32⟩ : BufTy).Contents (Elt F)),
    nullary main_cst_11 (constant S_ .f32 0x3F800000#32),
    unary main_cst_11 main_v87 (broadcastInDim S1024x4x1 ![] bcast_S_S1024x4x1 : (⟨S_, .f32⟩ : BufTy).Contents (Elt F) → (⟨S1024x4x1, .f32⟩ : BufTy).Contents (Elt F)),
    binary main_v87 main_v84 main_v88 (subf : (⟨S1024x4x1, .f32⟩ : BufTy).Contents (Elt F) → (⟨S1024x4x1, .f32⟩ : BufTy).Contents (Elt F) → (⟨S1024x4x1, .f32⟩ : BufTy).Contents (Elt F)),
    unary main_v88 main_v89 (broadcastInDim S1024x4x512 ![0, 1, 2] bcast_S1024x4x1_S1024x4x512_0_1_2 : (⟨S1024x4x1, .f32⟩ : BufTy).Contents (Elt F) → (⟨S1024x4x512, .f32⟩ : BufTy).Contents (Elt F)),
    binary main_v89 main_arg3 main_v90 (mulf : (⟨S1024x4x512, .f32⟩ : BufTy).Contents (Elt F) → (⟨S1024x4x512, .f32⟩ : BufTy).Contents (Elt F) → (⟨S1024x4x512, .f32⟩ : BufTy).Contents (Elt F)),
    binary main_v86 main_v90 main_v91 (addf : (⟨S1024x4x512, .f32⟩ : BufTy).Contents (Elt F) → (⟨S1024x4x512, .f32⟩ : BufTy).Contents (Elt F) → (⟨S1024x4x512, .f32⟩ : BufTy).Contents (Elt F)),
    nullary main_cst_12 (constant S_ .f32 0xFF800000#32),
    binary main_v54 main_cst_12 main_v92 ((fun x v => Host.reduce FloatOps.maximumf x v reducesTo_S1024x4x3_S1024x4_d2 h_S_) : (⟨S1024x4x3, .f32⟩ : BufTy).Contents (Elt F) → (⟨S_, .f32⟩ : BufTy).Contents (Elt F) → (⟨S1024x4, .f32⟩ : BufTy).Contents (Elt F)),
    nullary main_cst_13 (constant S_ .f32 0xFF800000#32),
    unary main_cst_13 main_v93 (broadcastInDim S1024x4 ![] bcast_S_S1024x4 : (⟨S_, .f32⟩ : BufTy).Contents (Elt F) → (⟨S1024x4, .f32⟩ : BufTy).Contents (Elt F)),
    binary main_v93 main_v92 main_v94 (maximumf : (⟨S1024x4, .f32⟩ : BufTy).Contents (Elt F) → (⟨S1024x4, .f32⟩ : BufTy).Contents (Elt F) → (⟨S1024x4, .f32⟩ : BufTy).Contents (Elt F)),
    unary main_v94 main_v95 (broadcastInDim S1024x4x1 ![0, 1] bcast_S1024x4_S1024x4x1_0_1 : (⟨S1024x4, .f32⟩ : BufTy).Contents (Elt F) → (⟨S1024x4x1, .f32⟩ : BufTy).Contents (Elt F)),
    unary main_v95 main_v96 (broadcastInDim S1024x4x3 ![0, 1, 2] bcast_S1024x4x1_S1024x4x3_0_1_2 : (⟨S1024x4x1, .f32⟩ : BufTy).Contents (Elt F) → (⟨S1024x4x3, .f32⟩ : BufTy).Contents (Elt F)),
    binary main_v54 main_v96 main_v97 (subf : (⟨S1024x4x3, .f32⟩ : BufTy).Contents (Elt F) → (⟨S1024x4x3, .f32⟩ : BufTy).Contents (Elt F) → (⟨S1024x4x3, .f32⟩ : BufTy).Contents (Elt F)),
    unary main_v97 main_v98 (Host.exp : (⟨S1024x4x3, .f32⟩ : BufTy).Contents (Elt F) → (⟨S1024x4x3, .f32⟩ : BufTy).Contents (Elt F)),
    nullary main_cst_14 (constant S_ .f32 0x00000000#32),
    binary main_v98 main_cst_14 main_v99 ((fun x v => Host.reduceAdd x v reducesTo_S1024x4x3_S1024x4_d2 h_S_) : (⟨S1024x4x3, .f32⟩ : BufTy).Contents (Elt F) → (⟨S_, .f32⟩ : BufTy).Contents (Elt F) → (⟨S1024x4, .f32⟩ : BufTy).Contents (Elt F)),
    unary main_v99 main_v100 (broadcastInDim S1024x4x1 ![0, 1] bcast_S1024x4_S1024x4x1_0_1 : (⟨S1024x4, .f32⟩ : BufTy).Contents (Elt F) → (⟨S1024x4x1, .f32⟩ : BufTy).Contents (Elt F)),
    unary main_v100 main_v101 (broadcastInDim S1024x4x3 ![0, 1, 2] bcast_S1024x4x1_S1024x4x3_0_1_2 : (⟨S1024x4x1, .f32⟩ : BufTy).Contents (Elt F) → (⟨S1024x4x3, .f32⟩ : BufTy).Contents (Elt F)),
    binary main_v98 main_v101 main_v102 (Host.divf : (⟨S1024x4x3, .f32⟩ : BufTy).Contents (Elt F) → (⟨S1024x4x3, .f32⟩ : BufTy).Contents (Elt F) → (⟨S1024x4x3, .f32⟩ : BufTy).Contents (Elt F)),
    unary main_v102 main_v103 ((extractStridedSlice S1024x4x1 ![0, 0, 0] · slices_S1024x4x3_S1024x4x1_0_0_0) : (⟨S1024x4x3, .f32⟩ : BufTy).Contents (Elt F) → (⟨S1024x4x1, .f32⟩ : BufTy).Contents (Elt F)) ]

/-- The buffers they write, in order. -/
abbrev wr1 : List (Ref sig .tc) :=
  [main_v54, main_v55, main_v56, main_call1_cst, main_call1_v0, main_call1_v1, main_call1_v2, main_call1_v3, main_call1_v4, main_call1_v5, main_call1_v6, main_call1_v7, main_call1_v8, main_call1_v9, main_call1_v10, main_call1_v11, main_v57, main_call2_v0, main_call2_cst, main_call2_v1, main_call2_v2, main_v58, main_cst_5, main_v59, main_v60, main_v61, main_v62, main_v63, main_v64, main_v65, main_v66, main_cst_6, main_v67, main_cst_7, main_v68, main_v69, main_v70, main_v71, main_v72, main_v73, main_cst_8, main_v74, main_v75, main_v76, main_v77, main_v78, main_v79, main_cst_9, main_v80, main_v81, main_cst_10, main_v82, main_v83, main_v84, main_v85, main_v86, main_cst_11, main_v87, main_v88, main_v89, main_v90, main_v91, main_cst_12, main_v92, main_cst_13, main_v93, main_v94, main_v95, main_v96, main_v97, main_v98, main_cst_14, main_v99, main_v100, main_v101, main_v102, main_v103]

set_option maxRecDepth 8192 in
set_option maxHeartbeats 4000000 in
theorem main_part1_eq (c : Dev nD) : main_part1 (F := F) c = seq ops1 := rfl

set_option maxRecDepth 8192 in
theorem ops1_sub : (ops1 : List (HloOp τ sig (Elt F))).Forall fun op => op.bufs ⊆ tcRefs τ sig :=
  ⟨unary_bufs_sub .., unary_bufs_sub .., reshape_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub ..⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops1_writes : (ops1 : List (HloOp τ sig (Elt F))).map (fun op => op.writes)
    = wr1.map (fun y => ({Proc.devRef .tc y} : Finset (DevRef τ sig))) := rfl

theorem wr1_keys : wr1.map (fun y => y.idx.val) = List.range' 80 77 := by decide

end NTM.RefRun

end
-- ==== Proof.RefRunW2.lean ====
import proofs.«155057_j13159779795433_2_alg».proof.Proof.Gen.ReferenceIdeal
import Idealize.ShloMosaic.Lib.StableHlo.Run

noncomputable section

namespace NTM.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations 142 … 235, in order (a called function's operations stand in its call's place). -/
abbrev ops2 : List (HloOp τ sig (Elt F)) :=
  [ TRef.unary (TRef.of (T := ⟨S1024x4x512, .f32⟩) main_v91) (TRef.of (T := ⟨S1024x4x511, .f32⟩) main_call3_v0) (extractStridedSlice S1024x4x511 ![0, 0, 1] · slices_S1024x4x512_S1024x4x511_0_0_1),
    TRef.unary (TRef.of (T := ⟨S1024x4x512, .f32⟩) main_v91) (TRef.of (T := ⟨S1024x4x1, .f32⟩) main_call3_v1) (extractStridedSlice S1024x4x1 ![0, 0, 0] · slices_S1024x4x512_S1024x4x1_0_0_0),
    TRef.binary (TRef.of (T := ⟨S1024x4x511, .f32⟩) main_call3_v0) (TRef.of (T := ⟨S1024x4x1, .f32⟩) main_call3_v1) (TRef.of (T := ⟨S1024x4x512, .f32⟩) main_v104) (fun a b => concatenate S1024x4x512 2 [⟨S1024x4x511, a⟩, ⟨S1024x4x1, b⟩] concatenates_S1024x4x511_S1024x4x1_S1024x4x512_d2),
    unary main_v103 main_v105 (broadcastInDim S1024x4x512 ![0, 1, 2] bcast_S1024x4x1_S1024x4x512_0_1_2 : (⟨S1024x4x1, .f32⟩ : BufTy).Contents (Elt F) → (⟨S1024x4x512, .f32⟩ : BufTy).Contents (Elt F)),
    binary main_v105 main_v104 main_v106 (mulf : (⟨S1024x4x512, .f32⟩ : BufTy).Contents (Elt F) → (⟨S1024x4x512, .f32⟩ : BufTy).Contents (Elt F) → (⟨S1024x4x512, .f32⟩ : BufTy).Contents (Elt F)),
    unary main_v102 main_v107 ((extractStridedSlice S1024x4x1 ![0, 0, 1] · slices_S1024x4x3_S1024x4x1_0_0_1) : (⟨S1024x4x3, .f32⟩ : BufTy).Contents (Elt F) → (⟨S1024x4x1, .f32⟩ : BufTy).Contents (Elt F)),
    unary main_v107 main_v108 (broadcastInDim S1024x4x512 ![0, 1, 2] bcast_S1024x4x1_S1024x4x512_0_1_2 : (⟨S1024x4x1, .f32⟩ : BufTy).Contents (Elt F) → (⟨S1024x4x512, .f32⟩ : BufTy).Contents (Elt F)),
    binary main_v108 main_v91 main_v109 (mulf : (⟨S1024x4x512, .f32⟩ : BufTy).Contents (Elt F) → (⟨S1024x4x512, .f32⟩ : BufTy).Contents (Elt F) → (⟨S1024x4x512, .f32⟩ : BufTy).Contents (Elt F)),
    binary main_v106 main_v109 main_v110 (addf : (⟨S1024x4x512, .f32⟩ : BufTy).Contents (Elt F) → (⟨S1024x4x512, .f32⟩ : BufTy).Contents (Elt F) → (⟨S1024x4x512, .f32⟩ : BufTy).Contents (Elt F)),
    unary main_v102 main_v111 ((extractStridedSlice S1024x4x1 ![0, 0, 2] · slices_S1024x4x3_S1024x4x1_0_0_2) : (⟨S1024x4x3, .f32⟩ : BufTy).Contents (Elt F) → (⟨S1024x4x1, .f32⟩ : BufTy).Contents (Elt F)),
    TRef.unary (TRef.of (T := ⟨S1024x4x512, .f32⟩) main_v91) (TRef.of (T := ⟨S1024x4x1, .f32⟩) main_call4_v0) (extractStridedSlice S1024x4x1 ![0, 0, 511] · slices_S1024x4x512_S1024x4x1_0_0_511),
    TRef.unary (TRef.of (T := ⟨S1024x4x512, .f32⟩) main_v91) (TRef.of (T := ⟨S1024x4x511, .f32⟩) main_call4_v1) (extractStridedSlice S1024x4x511 ![0, 0, 0] · slices_S1024x4x512_S1024x4x511_0_0_0),
    TRef.binary (TRef.of (T := ⟨S1024x4x1, .f32⟩) main_call4_v0) (TRef.of (T := ⟨S1024x4x511, .f32⟩) main_call4_v1) (TRef.of (T := ⟨S1024x4x512, .f32⟩) main_v112) (fun a b => concatenate S1024x4x512 2 [⟨S1024x4x1, a⟩, ⟨S1024x4x511, b⟩] concatenates_S1024x4x1_S1024x4x511_S1024x4x512_d2),
    unary main_v111 main_v113 (broadcastInDim S1024x4x512 ![0, 1, 2] bcast_S1024x4x1_S1024x4x512_0_1_2 : (⟨S1024x4x1, .f32⟩ : BufTy).Contents (Elt F) → (⟨S1024x4x512, .f32⟩ : BufTy).Contents (Elt F)),
    binary main_v113 main_v112 main_v114 (mulf : (⟨S1024x4x512, .f32⟩ : BufTy).Contents (Elt F) → (⟨S1024x4x512, .f32⟩ : BufTy).Contents (Elt F) → (⟨S1024x4x512, .f32⟩ : BufTy).Contents (Elt F)),
    binary main_v110 main_v114 main_v115 (addf : (⟨S1024x4x512, .f32⟩ : BufTy).Contents (Elt F) → (⟨S1024x4x512, .f32⟩ : BufTy).Contents (Elt F) → (⟨S1024x4x512, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S1024x4, .f32⟩) main_call5_v0) (broadcastInDim S1024x4 ![] bcast_S_S1024x4),
    TRef.binary (TRef.of (T := ⟨S1024x4, .f32⟩) main_v56) (TRef.of (T := ⟨S1024x4, .f32⟩) main_call5_v0) (TRef.of (T := ⟨S1024x4, .f32⟩) main_call5_v1) maximumf,
    TRef.unary (TRef.of (T := ⟨S_, .f32⟩) main_call5_cst) (TRef.of (T := ⟨S1024x4, .f32⟩) main_call5_v2) (broadcastInDim S1024x4 ![] bcast_S_S1024x4),
    TRef.binary (TRef.of (T := ⟨S1024x4, .f32⟩) main_v56) (TRef.of (T := ⟨S1024x4, .f32⟩) main_call5_v2) (TRef.of (T := ⟨S1024x4, .f32⟩) main_call5_v3) subf,
    TRef.binary (TRef.of (T := ⟨S1024x4, .f32⟩) main_call5_v3) (TRef.of (T := ⟨S1024x4, .f32⟩) main_call5_v3) (TRef.of (T := ⟨S1024x4, .i1⟩) main_call5_v4) (cmpf .une),
    TRef.unary (TRef.of (T := ⟨S_, .f32⟩) main_call5_cst) (TRef.of (T := ⟨S1024x4, .f32⟩) main_call5_v5) (broadcastInDim S1024x4 ![] bcast_S_S1024x4),
    TRef.binary (TRef.of (T := ⟨S1024x4, .f32⟩) main_v56) (TRef.of (T := ⟨S1024x4, .f32⟩) main_call5_v5) (TRef.of (T := ⟨S1024x4, .f32⟩) main_call5_v6) addf,
    TRef.unary (TRef.of (T := ⟨S1024x4, .f32⟩) main_call5_v3) (TRef.of (T := ⟨S1024x4, .f32⟩) main_call5_v7) Host.absf,
    TRef.unary (TRef.of (T := ⟨S1024x4, .f32⟩) main_call5_v7) (TRef.of (T := ⟨S1024x4, .f32⟩) main_call5_v8) Host.negf,
    TRef.unary (TRef.of (T := ⟨S1024x4, .f32⟩) main_call5_v8) (TRef.of (T := ⟨S1024x4, .f32⟩) main_call5_v9) Host.exp,
    TRef.unary (TRef.of (T := ⟨S1024x4, .f32⟩) main_call5_v9) (TRef.of (T := ⟨S1024x4, .f32⟩) main_call5_v10) Host.log1p,
    TRef.binary (TRef.of (T := ⟨S1024x4, .f32⟩) main_call5_v1) (TRef.of (T := ⟨S1024x4, .f32⟩) main_call5_v10) (TRef.of (T := ⟨S1024x4, .f32⟩) main_call5_v11) addf,
    TRef.ternary (TRef.of (T := ⟨S1024x4, .i1⟩) main_call5_v4) (TRef.of (T := ⟨S1024x4, .f32⟩) main_call5_v6) (TRef.of (T := ⟨S1024x4, .f32⟩) main_call5_v11) (TRef.of (T := ⟨S1024x4, .f32⟩) main_v116) select,
    nullary main_cst_15 (constant S_ .f32 0x3F800000#32),
    unary main_cst_15 main_v117 (broadcastInDim S1024x4 ![] bcast_S_S1024x4 : (⟨S_, .f32⟩ : BufTy).Contents (Elt F) → (⟨S1024x4, .f32⟩ : BufTy).Contents (Elt F)),
    binary main_v117 main_v116 main_v118 (addf : (⟨S1024x4, .f32⟩ : BufTy).Contents (Elt F) → (⟨S1024x4, .f32⟩ : BufTy).Contents (Elt F) → (⟨S1024x4, .f32⟩ : BufTy).Contents (Elt F)),
    nullary main_cst_16 (constant S_ .f32 0x2B8CBCCC#32),
    unary main_cst_16 main_v119 (broadcastInDim S1024x4x512 ![] bcast_S_S1024x4x512 : (⟨S_, .f32⟩ : BufTy).Contents (Elt F) → (⟨S1024x4x512, .f32⟩ : BufTy).Contents (Elt F)),
    binary main_v115 main_v119 main_v120 (addf : (⟨S1024x4x512, .f32⟩ : BufTy).Contents (Elt F) → (⟨S1024x4x512, .f32⟩ : BufTy).Contents (Elt F) → (⟨S1024x4x512, .f32⟩ : BufTy).Contents (Elt F)),
    unary main_v118 main_v121 (broadcastInDim S1024x4x1 ![0, 1] bcast_S1024x4_S1024x4x1_0_1 : (⟨S1024x4, .f32⟩ : BufTy).Contents (Elt F) → (⟨S1024x4x1, .f32⟩ : BufTy).Contents (Elt F)),
    unary main_v121 main_v122 (broadcastInDim S1024x4x512 ![0, 1, 2] bcast_S1024x4x1_S1024x4x512_0_1_2 : (⟨S1024x4x1, .f32⟩ : BufTy).Contents (Elt F) → (⟨S1024x4x512, .f32⟩ : BufTy).Contents (Elt F)),
    binary main_v120 main_v122 main_v123 (Host.powf : (⟨S1024x4x512, .f32⟩ : BufTy).Contents (Elt F) → (⟨S1024x4x512, .f32⟩ : BufTy).Contents (Elt F) → (⟨S1024x4x512, .f32⟩ : BufTy).Contents (Elt F)),
    nullary main_cst_17 (constant S_ .f32 0x00000000#32),
    binary main_v123 main_cst_17 main_v124 ((fun x v => Host.reduceAdd x v reducesTo_S1024x4x512_S1024x4_d2 h_S_) : (⟨S1024x4x512, .f32⟩ : BufTy).Contents (Elt F) → (⟨S_, .f32⟩ : BufTy).Contents (Elt F) → (⟨S1024x4, .f32⟩ : BufTy).Contents (Elt F)),
    unary main_v124 main_v125 (broadcastInDim S1024x4x1 ![0, 1] bcast_S1024x4_S1024x4x1_0_1 : (⟨S1024x4, .f32⟩ : BufTy).Contents (Elt F) → (⟨S1024x4x1, .f32⟩ : BufTy).Contents (Elt F)),
    nullary main_cst_18 (constant S_ .f32 0x2B8CBCCC#32),
    unary main_cst_18 main_v126 (broadcastInDim S1024x4x1 ![] bcast_S_S1024x4x1 : (⟨S_, .f32⟩ : BufTy).Contents (Elt F) → (⟨S1024x4x1, .f32⟩ : BufTy).Contents (Elt F)),
    binary main_v125 main_v126 main_v127 (addf : (⟨S1024x4x1, .f32⟩ : BufTy).Contents (Elt F) → (⟨S1024x4x1, .f32⟩ : BufTy).Contents (Elt F) → (⟨S1024x4x1, .f32⟩ : BufTy).Contents (Elt F)),
    unary main_v127 main_v128 (broadcastInDim S1024x4x512 ![0, 1, 2] bcast_S1024x4x1_S1024x4x512_0_1_2 : (⟨S1024x4x1, .f32⟩ : BufTy).Contents (Elt F) → (⟨S1024x4x512, .f32⟩ : BufTy).Contents (Elt F)),
    binary main_v123 main_v128 main_v129 (Host.divf : (⟨S1024x4x512, .f32⟩ : BufTy).Contents (Elt F) → (⟨S1024x4x512, .f32⟩ : BufTy).Contents (Elt F) → (⟨S1024x4x512, .f32⟩ : BufTy).Contents (Elt F)),
    binary main_v129 main_arg1 main_v130 ((fun l r => Host.dotGeneral dot_S1024x4x512_S1024x512x128_S1024x4x128_2_1_1_2_0_0 none l r) : (⟨S1024x4x512, .f32⟩ : BufTy).Contents (Elt F) → (⟨S1024x512x128, .f32⟩ : BufTy).Contents (Elt F) → (⟨S1024x4x128, .f32⟩ : BufTy).Contents (Elt F)),
    reshape main_v130 main_v131 rfl shapeCasts_S1024x4x128_S1024x512,
    unary main_arg14 main_v132 ((transpose S256x128 [1, 0] · transposes_S128x256_S256x128_1_0) : (⟨S128x256, .f32⟩ : BufTy).Contents (Elt F) → (⟨S256x128, .f32⟩ : BufTy).Contents (Elt F)),
    binary main_v37 main_v132 main_v133 ((fun l r => Host.dotGeneral dot_S1024x256_S256x128_S1024x128_1_0_0_1_n_n none l r) : (⟨S1024x256, .f32⟩ : BufTy).Contents (Elt F) → (⟨S256x128, .f32⟩ : BufTy).Contents (Elt F) → (⟨S1024x128, .f32⟩ : BufTy).Contents (Elt F)),
    unary main_arg15 main_v134 (broadcastInDim S1x128 ![1] bcast_S128_S1x128_1 : (⟨S128, .f32⟩ : BufTy).Contents (Elt F) → (⟨S1x128, .f32⟩ : BufTy).Contents (Elt F)),
    unary main_v134 main_v135 (broadcastInDim S1024x128 ![0, 1] bcast_S1x128_S1024x128_0_1 : (⟨S1x128, .f32⟩ : BufTy).Contents (Elt F) → (⟨S1024x128, .f32⟩ : BufTy).Contents (Elt F)),
    binary main_v133 main_v135 main_v136 (addf : (⟨S1024x128, .f32⟩ : BufTy).Contents (Elt F) → (⟨S1024x128, .f32⟩ : BufTy).Contents (Elt F) → (⟨S1024x128, .f32⟩ : BufTy).Contents (Elt F)),
    unary main_arg13 main_v137 ((transpose S512x128 [1, 0] · transposes_S128x512_S512x128_1_0) : (⟨S128x512, .f32⟩ : BufTy).Contents (Elt F) → (⟨S512x128, .f32⟩ : BufTy).Contents (Elt F)),
    binary main_v131 main_v137 main_v138 ((fun l r => Host.dotGeneral dot_S1024x512_S512x128_S1024x128_1_0_0_1_n_n none l r) : (⟨S1024x512, .f32⟩ : BufTy).Contents (Elt F) → (⟨S512x128, .f32⟩ : BufTy).Contents (Elt F) → (⟨S1024x128, .f32⟩ : BufTy).Contents (Elt F)),
    binary main_v136 main_v138 main_v139 (addf : (⟨S1024x128, .f32⟩ : BufTy).Contents (Elt F) → (⟨S1024x128, .f32⟩ : BufTy).Contents (Elt F) → (⟨S1024x128, .f32⟩ : BufTy).Contents (Elt F)),
    unary main_arg11 main_v140 ((transpose S256x1560 [1, 0] · transposes_S1560x256_S256x1560_1_0) : (⟨S1560x256, .f32⟩ : BufTy).Contents (Elt F) → (⟨S256x1560, .f32⟩ : BufTy).Contents (Elt F)),
    binary main_v37 main_v140 main_v141 ((fun l r => Host.dotGeneral dot_S1024x256_S256x1560_S1024x1560_1_0_0_1_n_n none l r) : (⟨S1024x256, .f32⟩ : BufTy).Contents (Elt F) → (⟨S256x1560, .f32⟩ : BufTy).Contents (Elt F) → (⟨S1024x1560, .f32⟩ : BufTy).Contents (Elt F)),
    unary main_arg12 main_v142 (broadcastInDim S1x1560 ![1] bcast_S1560_S1x1560_1 : (⟨S1560, .f32⟩ : BufTy).Contents (Elt F) → (⟨S1x1560, .f32⟩ : BufTy).Contents (Elt F)),
    unary main_v142 main_v143 (broadcastInDim S1024x1560 ![0, 1] bcast_S1x1560_S1024x1560_0_1 : (⟨S1x1560, .f32⟩ : BufTy).Contents (Elt F) → (⟨S1024x1560, .f32⟩ : BufTy).Contents (Elt F)),
    binary main_v141 main_v143 main_v144 (addf : (⟨S1024x1560, .f32⟩ : BufTy).Contents (Elt F) → (⟨S1024x1560, .f32⟩ : BufTy).Contents (Elt F) → (⟨S1024x1560, .f32⟩ : BufTy).Contents (Elt F)),
    reshape main_v144 main_v145 rfl shapeCasts_S1024x1560_S1024x4x390,
    unary main_v145 main_v146 ((extractStridedSlice S1024x4x128 ![0, 0, 0] · slices_S1024x4x390_S1024x4x128_0_0_0) : (⟨S1024x4x390, .f32⟩ : BufTy).Contents (Elt F) → (⟨S1024x4x128, .f32⟩ : BufTy).Contents (Elt F)),
    unary main_v145 main_v147 ((extractStridedSlice S1024x4x1 ![0, 0, 128] · slices_S1024x4x390_S1024x4x1_0_0_128) : (⟨S1024x4x390, .f32⟩ : BufTy).Contents (Elt F) → (⟨S1024x4x1, .f32⟩ : BufTy).Contents (Elt F)),
    reshape main_v147 main_v148 rfl shapeCasts_S1024x4x1_S1024x4,
    unary main_v145 main_v149 ((extractStridedSlice S1024x4x1 ![0, 0, 129] · slices_S1024x4x390_S1024x4x1_0_0_129) : (⟨S1024x4x390, .f32⟩ : BufTy).Contents (Elt F) → (⟨S1024x4x1, .f32⟩ : BufTy).Contents (Elt F)),
    reshape main_v149 main_v150 rfl shapeCasts_S1024x4x1_S1024x4,
    unary main_v145 main_v151 ((extractStridedSlice S1024x4x3 ![0, 0, 130] · slices_S1024x4x390_S1024x4x3_0_0_130) : (⟨S1024x4x390, .f32⟩ : BufTy).Contents (Elt F) → (⟨S1024x4x3, .f32⟩ : BufTy).Contents (Elt F)),
    unary main_v145 main_v152 ((extractStridedSlice S1024x4x1 ![0, 0, 133] · slices_S1024x4x390_S1024x4x1_0_0_133) : (⟨S1024x4x390, .f32⟩ : BufTy).Contents (Elt F) → (⟨S1024x4x1, .f32⟩ : BufTy).Contents (Elt F)),
    reshape main_v152 main_v153 rfl shapeCasts_S1024x4x1_S1024x4,
    TRef.nullary (TRef.of (T := ⟨S_, .f32⟩) main_call6_cst) (constant S_ .f32 0x00000000#32),
    TRef.unary (TRef.of (T := ⟨S_, .f32⟩) main_call6_cst) (TRef.of (T := ⟨S1024x4, .f32⟩) main_call6_v0) (broadcastInDim S1024x4 ![] bcast_S_S1024x4),
    TRef.binary (TRef.of (T := ⟨S1024x4, .f32⟩) main_v148) (TRef.of (T := ⟨S1024x4, .f32⟩) main_call6_v0) (TRef.of (T := ⟨S1024x4, .f32⟩) main_call6_v1) maximumf,
    TRef.unary (TRef.of (T := ⟨S_, .f32⟩) main_call6_cst) (TRef.of (T := ⟨S1024x4, .f32⟩) main_call6_v2) (broadcastInDim S1024x4 ![] bcast_S_S1024x4),
    TRef.binary (TRef.of (T := ⟨S1024x4, .f32⟩) main_v148) (TRef.of (T := ⟨S1024x4, .f32⟩) main_call6_v2) (TRef.of (T := ⟨S1024x4, .f32⟩) main_call6_v3) subf,
    TRef.binary (TRef.of (T := ⟨S1024x4, .f32⟩) main_call6_v3) (TRef.of (T := ⟨S1024x4, .f32⟩) main_call6_v3) (TRef.of (T := ⟨S1024x4, .i1⟩) main_call6_v4) (cmpf .une),
    TRef.unary (TRef.of (T := ⟨S_, .f32⟩) main_call6_cst) (TRef.of (T := ⟨S1024x4, .f32⟩) main_call6_v5) (broadcastInDim S1024x4 ![] bcast_S_S1024x4),
    TRef.binary (TRef.of (T := ⟨S1024x4, .f32⟩) main_v148) (TRef.of (T := ⟨S1024x4, .f32⟩) main_call6_v5) (TRef.of (T := ⟨S1024x4, .f32⟩) main_call6_v6) addf,
    TRef.unary (TRef.of (T := ⟨S1024x4, .f32⟩) main_call6_v3) (TRef.of (T := ⟨S1024x4, .f32⟩) main_call6_v7) Host.absf,
    TRef.unary (TRef.of (T := ⟨S1024x4, .f32⟩) main_call6_v7) (TRef.of (T := ⟨S1024x4, .f32⟩) main_call6_v8) Host.negf,
    TRef.unary (TRef.of (T := ⟨S1024x4, .f32⟩) main_call6_v8) (TRef.of (T := ⟨S1024x4, .f32⟩) main_call6_v9) Host.exp,
    TRef.unary (TRef.of (T := ⟨S1024x4, .f32⟩) main_call6_v9) (TRef.of (T := ⟨S1024x4, .f32⟩) main_call6_v10) Host.log1p,
    TRef.binary (TRef.of (T := ⟨S1024x4, .f32⟩) main_call6_v1) (TRef.of (T := ⟨S1024x4, .f32⟩) main_call6_v10) (TRef.of (T := ⟨S1024x4, .f32⟩) main_call6_v11) addf,
    TRef.ternary (TRef.of (T := ⟨S1024x4, .i1⟩) main_call6_v4) (TRef.of (T := ⟨S1024x4, .f32⟩) main_call6_v6) (TRef.of (T := ⟨S1024x4, .f32⟩) main_call6_v11) (TRef.of (T := ⟨S1024x4, .f32⟩) main_v154) select,
    TRef.binary (TRef.of (T := ⟨S1024x4x128, .f32⟩) main_v146) (TRef.of (T := ⟨S1024x4x128, .f32⟩) main_v146) (TRef.of (T := ⟨S1024x4x128, .f32⟩) main_call7_v0) mulf,
    TRef.nullary (TRef.of (T := ⟨S_, .f32⟩) main_call7_cst) (constant S_ .f32 0x00000000#32),
    TRef.binary (TRef.of (T := ⟨S1024x4x128, .f32⟩) main_call7_v0) (TRef.of (T := ⟨S_, .f32⟩) main_call7_cst) (TRef.of (T := ⟨S1024x4, .f32⟩) main_call7_v1) (fun x v => Host.reduceAdd x v reducesTo_S1024x4x128_S1024x4_d2 h_S_),
    TRef.unary (TRef.of (T := ⟨S1024x4, .f32⟩) main_call7_v1) (TRef.of (T := ⟨S1024x4x1, .f32⟩) main_call7_v2) (broadcastInDim S1024x4x1 ![0, 1] bcast_S1024x4_S1024x4x1_0_1),
    TRef.unary (TRef.of (T := ⟨S1024x4x1, .f32⟩) main_call7_v2) (TRef.of (T := ⟨S1024x4x1, .f32⟩) main_v155) Host.sqrt,
    nullary main_cst_19 (constant S_ .f32 0x2B8CBCCC#32),
    unary main_cst_19 main_v156 (broadcastInDim S1024x4x1 ![] bcast_S_S1024x4x1 : (⟨S_, .f32⟩ : BufTy).Contents (Elt F) → (⟨S1024x4x1, .f32⟩ : BufTy).Contents (Elt F)),
    binary main_v155 main_v156 main_v157 (addf : (⟨S1024x4x1, .f32⟩ : BufTy).Contents (Elt F) → (⟨S1024x4x1, .f32⟩ : BufTy).Contents (Elt F) → (⟨S1024x4x1, .f32⟩ : BufTy).Contents (Elt F)),
    unary main_v157 main_v158 (broadcastInDim S1024x4x128 ![0, 1, 2] bcast_S1024x4x1_S1024x4x128_0_1_2 : (⟨S1024x4x1, .f32⟩ : BufTy).Contents (Elt F) → (⟨S1024x4x128, .f32⟩ : BufTy).Contents (Elt F)) ]

/-- The buffers they write, in order. -/
abbrev wr2 : List (Ref sig .tc) :=
  [main_call3_v0, main_call3_v1, main_v104, main_v105, main_v106, main_v107, main_v108, main_v109, main_v110, main_v111, main_call4_v0, main_call4_v1, main_v112, main_v113, main_v114, main_v115, main_call5_cst, main_call5_v0, main_call5_v1, main_call5_v2, main_call5_v3, main_call5_v4, main_call5_v5, main_call5_v6, main_call5_v7, main_call5_v8, main_call5_v9, main_call5_v10, main_call5_v11, main_v116, main_cst_15, main_v117, main_v118, main_cst_16, main_v119, main_v120, main_v121, main_v122, main_v123, main_cst_17, main_v124, main_v125, main_cst_18, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_call6_cst, main_call6_v0, main_call6_v1, main_call6_v2, main_call6_v3, main_call6_v4, main_call6_v5, main_call6_v6, main_call6_v7, main_call6_v8, main_call6_v9, main_call6_v10, main_call6_v11, main_v154, main_call7_v0, main_call7_cst, main_call7_v1, main_call7_v2, main_v155, main_cst_19, main_v156, main_v157, main_v158]

set_option maxRecDepth 8192 in
set_option maxHeartbeats 4000000 in
theorem main_part2_eq (c : Dev nD) : main_part2 (F := F) c = seq ops2 := rfl

set_option maxRecDepth 8192 in
theorem ops2_sub : (ops2 : List (HloOp τ sig (Elt F))).Forall fun op => op.bufs ⊆ tcRefs τ sig :=
  ⟨unary_bufs_sub .., unary_bufs_sub .., binary_bufs_sub .., unary_bufs_sub .., binary_bufs_sub .., unary_bufs_sub .., unary_bufs_sub .., binary_bufs_sub .., binary_bufs_sub .., unary_bufs_sub .., unary_bufs_sub .., unary_bufs_sub .., binary_bufs_sub .., unary_bufs_sub .., binary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., reshape_bufs_sub .., unary_bufs_sub .., binary_bufs_sub .., unary_bufs_sub .., unary_bufs_sub .., binary_bufs_sub .., unary_bufs_sub .., binary_bufs_sub .., binary_bufs_sub .., unary_bufs_sub .., binary_bufs_sub .., unary_bufs_sub .., unary_bufs_sub .., binary_bufs_sub .., reshape_bufs_sub .., unary_bufs_sub .., unary_bufs_sub .., reshape_bufs_sub .., unary_bufs_sub .., reshape_bufs_sub .., unary_bufs_sub .., unary_bufs_sub .., reshape_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub ..⟩

set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops2_writes : (ops2 : List (HloOp τ sig (Elt F))).map (fun op => op.writes)
    = wr2.map (fun y => ({Proc.devRef .tc y} : Finset (DevRef τ sig))) := rfl

theorem wr2_keys : wr2.map (fun y => y.idx.val) = List.range' 157 94 := by decide

end NTM.RefRun

end
-- ==== Proof.RefRunW3.lean ====
import proofs.«155057_j13159779795433_2_alg».proof.Proof.Gen.ReferenceIdeal
import Idealize.ShloMosaic.Lib.StableHlo.Run

noncomputable section

namespace NTM.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations 236 … 299, in order (a called function's operations stand in its call's place). -/
abbrev ops3 : List (HloOp τ sig (Elt F)) :=
  [ binary main_v146 main_v158 main_v159 (Host.divf : (⟨S1024x4x128, .f32⟩ : BufTy).Contents (Elt F) → (⟨S1024x4x128, .f32⟩ : BufTy).Contents (Elt F) → (⟨S1024x4x128, .f32⟩ : BufTy).Contents (Elt F)),
    binary main_v159 main_v42 main_v160 ((fun l r => Host.dotGeneral dot_S1024x4x128_S1024x512x128_S1024x4x512_2_2_1_1_0_0 none l r) : (⟨S1024x4x128, .f32⟩ : BufTy).Contents (Elt F) → (⟨S1024x512x128, .f32⟩ : BufTy).Contents (Elt F) → (⟨S1024x4x512, .f32⟩ : BufTy).Contents (Elt F)),
    unary main_v154 main_v161 (broadcastInDim S1024x4x1 ![0, 1] bcast_S1024x4_S1024x4x1_0_1 : (⟨S1024x4, .f32⟩ : BufTy).Contents (Elt F) → (⟨S1024x4x1, .f32⟩ : BufTy).Contents (Elt F)),
    unary main_v161 main_v162 (broadcastInDim S1024x4x512 ![0, 1, 2] bcast_S1024x4x1_S1024x4x512_0_1_2 : (⟨S1024x4x1, .f32⟩ : BufTy).Contents (Elt F) → (⟨S1024x4x512, .f32⟩ : BufTy).Contents (Elt F)),
    binary main_v162 main_v160 main_v163 (mulf : (⟨S1024x4x512, .f32⟩ : BufTy).Contents (Elt F) → (⟨S1024x4x512, .f32⟩ : BufTy).Contents (Elt F) → (⟨S1024x4x512, .f32⟩ : BufTy).Contents (Elt F)),
    nullary main_cst_20 (constant S_ .f32 0xFF800000#32),
    binary main_v163 main_cst_20 main_v164 ((fun x v => Host.reduce FloatOps.maximumf x v reducesTo_S1024x4x512_S1024x4_d2 h_S_) : (⟨S1024x4x512, .f32⟩ : BufTy).Contents (Elt F) → (⟨S_, .f32⟩ : BufTy).Contents (Elt F) → (⟨S1024x4, .f32⟩ : BufTy).Contents (Elt F)),
    nullary main_cst_21 (constant S_ .f32 0xFF800000#32),
    unary main_cst_21 main_v165 (broadcastInDim S1024x4 ![] bcast_S_S1024x4 : (⟨S_, .f32⟩ : BufTy).Contents (Elt F) → (⟨S1024x4, .f32⟩ : BufTy).Contents (Elt F)),
    binary main_v165 main_v164 main_v166 (maximumf : (⟨S1024x4, .f32⟩ : BufTy).Contents (Elt F) → (⟨S1024x4, .f32⟩ : BufTy).Contents (Elt F) → (⟨S1024x4, .f32⟩ : BufTy).Contents (Elt F)),
    unary main_v166 main_v167 (broadcastInDim S1024x4x1 ![0, 1] bcast_S1024x4_S1024x4x1_0_1 : (⟨S1024x4, .f32⟩ : BufTy).Contents (Elt F) → (⟨S1024x4x1, .f32⟩ : BufTy).Contents (Elt F)),
    unary main_v167 main_v168 (broadcastInDim S1024x4x512 ![0, 1, 2] bcast_S1024x4x1_S1024x4x512_0_1_2 : (⟨S1024x4x1, .f32⟩ : BufTy).Contents (Elt F) → (⟨S1024x4x512, .f32⟩ : BufTy).Contents (Elt F)),
    binary main_v163 main_v168 main_v169 (subf : (⟨S1024x4x512, .f32⟩ : BufTy).Contents (Elt F) → (⟨S1024x4x512, .f32⟩ : BufTy).Contents (Elt F) → (⟨S1024x4x512, .f32⟩ : BufTy).Contents (Elt F)),
    unary main_v169 main_v170 (Host.exp : (⟨S1024x4x512, .f32⟩ : BufTy).Contents (Elt F) → (⟨S1024x4x512, .f32⟩ : BufTy).Contents (Elt F)),
    nullary main_cst_22 (constant S_ .f32 0x00000000#32),
    binary main_v170 main_cst_22 main_v171 ((fun x v => Host.reduceAdd x v reducesTo_S1024x4x512_S1024x4_d2 h_S_) : (⟨S1024x4x512, .f32⟩ : BufTy).Contents (Elt F) → (⟨S_, .f32⟩ : BufTy).Contents (Elt F) → (⟨S1024x4, .f32⟩ : BufTy).Contents (Elt F)),
    unary main_v171 main_v172 (broadcastInDim S1024x4x1 ![0, 1] bcast_S1024x4_S1024x4x1_0_1 : (⟨S1024x4, .f32⟩ : BufTy).Contents (Elt F) → (⟨S1024x4x1, .f32⟩ : BufTy).Contents (Elt F)),
    unary main_v172 main_v173 (broadcastInDim S1024x4x512 ![0, 1, 2] bcast_S1024x4x1_S1024x4x512_0_1_2 : (⟨S1024x4x1, .f32⟩ : BufTy).Contents (Elt F) → (⟨S1024x4x512, .f32⟩ : BufTy).Contents (Elt F)),
    binary main_v170 main_v173 main_v174 (Host.divf : (⟨S1024x4x512, .f32⟩ : BufTy).Contents (Elt F) → (⟨S1024x4x512, .f32⟩ : BufTy).Contents (Elt F) → (⟨S1024x4x512, .f32⟩ : BufTy).Contents (Elt F)),
    unary main_v150 main_v175 (Host.negf : (⟨S1024x4, .f32⟩ : BufTy).Contents (Elt F) → (⟨S1024x4, .f32⟩ : BufTy).Contents (Elt F)),
    unary main_v175 main_v176 (Host.exp : (⟨S1024x4, .f32⟩ : BufTy).Contents (Elt F) → (⟨S1024x4, .f32⟩ : BufTy).Contents (Elt F)),
    nullary main_cst_23 (constant S_ .f32 0x3F800000#32),
    unary main_cst_23 main_v177 (broadcastInDim S1024x4 ![] bcast_S_S1024x4 : (⟨S_, .f32⟩ : BufTy).Contents (Elt F) → (⟨S1024x4, .f32⟩ : BufTy).Contents (Elt F)),
    binary main_v177 main_v176 main_v178 (addf : (⟨S1024x4, .f32⟩ : BufTy).Contents (Elt F) → (⟨S1024x4, .f32⟩ : BufTy).Contents (Elt F) → (⟨S1024x4, .f32⟩ : BufTy).Contents (Elt F)),
    nullary main_cst_24 (constant S_ .f32 0x3F800000#32),
    unary main_cst_24 main_v179 (broadcastInDim S1024x4 ![] bcast_S_S1024x4 : (⟨S_, .f32⟩ : BufTy).Contents (Elt F) → (⟨S1024x4, .f32⟩ : BufTy).Contents (Elt F)),
    binary main_v179 main_v178 main_v180 (Host.divf : (⟨S1024x4, .f32⟩ : BufTy).Contents (Elt F) → (⟨S1024x4, .f32⟩ : BufTy).Contents (Elt F) → (⟨S1024x4, .f32⟩ : BufTy).Contents (Elt F)),
    unary main_v180 main_v181 (broadcastInDim S1024x4x1 ![0, 1] bcast_S1024x4_S1024x4x1_0_1 : (⟨S1024x4, .f32⟩ : BufTy).Contents (Elt F) → (⟨S1024x4x1, .f32⟩ : BufTy).Contents (Elt F)),
    unary main_v181 main_v182 (broadcastInDim S1024x4x512 ![0, 1, 2] bcast_S1024x4x1_S1024x4x512_0_1_2 : (⟨S1024x4x1, .f32⟩ : BufTy).Contents (Elt F) → (⟨S1024x4x512, .f32⟩ : BufTy).Contents (Elt F)),
    binary main_v182 main_v174 main_v183 (mulf : (⟨S1024x4x512, .f32⟩ : BufTy).Contents (Elt F) → (⟨S1024x4x512, .f32⟩ : BufTy).Contents (Elt F) → (⟨S1024x4x512, .f32⟩ : BufTy).Contents (Elt F)),
    nullary main_cst_25 (constant S_ .f32 0x3F800000#32),
    unary main_cst_25 main_v184 (broadcastInDim S1024x4x1 ![] bcast_S_S1024x4x1 : (⟨S_, .f32⟩ : BufTy).Contents (Elt F) → (⟨S1024x4x1, .f32⟩ : BufTy).Contents (Elt F)),
    binary main_v184 main_v181 main_v185 (subf : (⟨S1024x4x1, .f32⟩ : BufTy).Contents (Elt F) → (⟨S1024x4x1, .f32⟩ : BufTy).Contents (Elt F) → (⟨S1024x4x1, .f32⟩ : BufTy).Contents (Elt F)),
    unary main_v185 main_v186 (broadcastInDim S1024x4x512 ![0, 1, 2] bcast_S1024x4x1_S1024x4x512_0_1_2 : (⟨S1024x4x1, .f32⟩ : BufTy).Contents (Elt F) → (⟨S1024x4x512, .f32⟩ : BufTy).Contents (Elt F)),
    binary main_v186 main_arg4 main_v187 (mulf : (⟨S1024x4x512, .f32⟩ : BufTy).Contents (Elt F) → (⟨S1024x4x512, .f32⟩ : BufTy).Contents (Elt F) → (⟨S1024x4x512, .f32⟩ : BufTy).Contents (Elt F)),
    binary main_v183 main_v187 main_v188 (addf : (⟨S1024x4x512, .f32⟩ : BufTy).Contents (Elt F) → (⟨S1024x4x512, .f32⟩ : BufTy).Contents (Elt F) → (⟨S1024x4x512, .f32⟩ : BufTy).Contents (Elt F)),
    nullary main_cst_26 (constant S_ .f32 0xFF800000#32),
    binary main_v151 main_cst_26 main_v189 ((fun x v => Host.reduce FloatOps.maximumf x v reducesTo_S1024x4x3_S1024x4_d2 h_S_) : (⟨S1024x4x3, .f32⟩ : BufTy).Contents (Elt F) → (⟨S_, .f32⟩ : BufTy).Contents (Elt F) → (⟨S1024x4, .f32⟩ : BufTy).Contents (Elt F)),
    nullary main_cst_27 (constant S_ .f32 0xFF800000#32),
    unary main_cst_27 main_v190 (broadcastInDim S1024x4 ![] bcast_S_S1024x4 : (⟨S_, .f32⟩ : BufTy).Contents (Elt F) → (⟨S1024x4, .f32⟩ : BufTy).Contents (Elt F)),
    binary main_v190 main_v189 main_v191 (maximumf : (⟨S1024x4, .f32⟩ : BufTy).Contents (Elt F) → (⟨S1024x4, .f32⟩ : BufTy).Contents (Elt F) → (⟨S1024x4, .f32⟩ : BufTy).Contents (Elt F)),
    unary main_v191 main_v192 (broadcastInDim S1024x4x1 ![0, 1] bcast_S1024x4_S1024x4x1_0_1 : (⟨S1024x4, .f32⟩ : BufTy).Contents (Elt F) → (⟨S1024x4x1, .f32⟩ : BufTy).Contents (Elt F)),
    unary main_v192 main_v193 (broadcastInDim S1024x4x3 ![0, 1, 2] bcast_S1024x4x1_S1024x4x3_0_1_2 : (⟨S1024x4x1, .f32⟩ : BufTy).Contents (Elt F) → (⟨S1024x4x3, .f32⟩ : BufTy).Contents (Elt F)),
    binary main_v151 main_v193 main_v194 (subf : (⟨S1024x4x3, .f32⟩ : BufTy).Contents (Elt F) → (⟨S1024x4x3, .f32⟩ : BufTy).Contents (Elt F) → (⟨S1024x4x3, .f32⟩ : BufTy).Contents (Elt F)),
    unary main_v194 main_v195 (Host.exp : (⟨S1024x4x3, .f32⟩ : BufTy).Contents (Elt F) → (⟨S1024x4x3, .f32⟩ : BufTy).Contents (Elt F)),
    nullary main_cst_28 (constant S_ .f32 0x00000000#32),
    binary main_v195 main_cst_28 main_v196 ((fun x v => Host.reduceAdd x v reducesTo_S1024x4x3_S1024x4_d2 h_S_) : (⟨S1024x4x3, .f32⟩ : BufTy).Contents (Elt F) → (⟨S_, .f32⟩ : BufTy).Contents (Elt F) → (⟨S1024x4, .f32⟩ : BufTy).Contents (Elt F)),
    unary main_v196 main_v197 (broadcastInDim S1024x4x1 ![0, 1] bcast_S1024x4_S1024x4x1_0_1 : (⟨S1024x4, .f32⟩ : BufTy).Contents (Elt F) → (⟨S1024x4x1, .f32⟩ : BufTy).Contents (Elt F)),
    unary main_v197 main_v198 (broadcastInDim S1024x4x3 ![0, 1, 2] bcast_S1024x4x1_S1024x4x3_0_1_2 : (⟨S1024x4x1, .f32⟩ : BufTy).Contents (Elt F) → (⟨S1024x4x3, .f32⟩ : BufTy).Contents (Elt F)),
    binary main_v195 main_v198 main_v199 (Host.divf : (⟨S1024x4x3, .f32⟩ : BufTy).Contents (Elt F) → (⟨S1024x4x3, .f32⟩ : BufTy).Contents (Elt F) → (⟨S1024x4x3, .f32⟩ : BufTy).Contents (Elt F)),
    unary main_v199 main_v200 ((extractStridedSlice S1024x4x1 ![0, 0, 0] · slices_S1024x4x3_S1024x4x1_0_0_0) : (⟨S1024x4x3, .f32⟩ : BufTy).Contents (Elt F) → (⟨S1024x4x1, .f32⟩ : BufTy).Contents (Elt F)),
    TRef.unary (TRef.of (T := ⟨S1024x4x512, .f32⟩) main_v188) (TRef.of (T := ⟨S1024x4x511, .f32⟩) main_call8_v0) (extractStridedSlice S1024x4x511 ![0, 0, 1] · slices_S1024x4x512_S1024x4x511_0_0_1),
    TRef.unary (TRef.of (T := ⟨S1024x4x512, .f32⟩) main_v188) (TRef.of (T := ⟨S1024x4x1, .f32⟩) main_call8_v1) (extractStridedSlice S1024x4x1 ![0, 0, 0] · slices_S1024x4x512_S1024x4x1_0_0_0),
    TRef.binary (TRef.of (T := ⟨S1024x4x511, .f32⟩) main_call8_v0) (TRef.of (T := ⟨S1024x4x1, .f32⟩) main_call8_v1) (TRef.of (T := ⟨S1024x4x512, .f32⟩) main_v201) (fun a b => concatenate S1024x4x512 2 [⟨S1024x4x511, a⟩, ⟨S1024x4x1, b⟩] concatenates_S1024x4x511_S1024x4x1_S1024x4x512_d2),
    unary main_v200 main_v202 (broadcastInDim S1024x4x512 ![0, 1, 2] bcast_S1024x4x1_S1024x4x512_0_1_2 : (⟨S1024x4x1, .f32⟩ : BufTy).Contents (Elt F) → (⟨S1024x4x512, .f32⟩ : BufTy).Contents (Elt F)),
    binary main_v202 main_v201 main_v203 (mulf : (⟨S1024x4x512, .f32⟩ : BufTy).Contents (Elt F) → (⟨S1024x4x512, .f32⟩ : BufTy).Contents (Elt F) → (⟨S1024x4x512, .f32⟩ : BufTy).Contents (Elt F)),
    unary main_v199 main_v204 ((extractStridedSlice S1024x4x1 ![0, 0, 1] · slices_S1024x4x3_S1024x4x1_0_0_1) : (⟨S1024x4x3, .f32⟩ : BufTy).Contents (Elt F) → (⟨S1024x4x1, .f32⟩ : BufTy).Contents (Elt F)),
    unary main_v204 main_v205 (broadcastInDim S1024x4x512 ![0, 1, 2] bcast_S1024x4x1_S1024x4x512_0_1_2 : (⟨S1024x4x1, .f32⟩ : BufTy).Contents (Elt F) → (⟨S1024x4x512, .f32⟩ : BufTy).Contents (Elt F)),
    binary main_v205 main_v188 main_v206 (mulf : (⟨S1024x4x512, .f32⟩ : BufTy).Contents (Elt F) → (⟨S1024x4x512, .f32⟩ : BufTy).Contents (Elt F) → (⟨S1024x4x512, .f32⟩ : BufTy).Contents (Elt F)),
    binary main_v203 main_v206 main_v207 (addf : (⟨S1024x4x512, .f32⟩ : BufTy).Contents (Elt F) → (⟨S1024x4x512, .f32⟩ : BufTy).Contents (Elt F) → (⟨S1024x4x512, .f32⟩ : BufTy).Contents (Elt F)),
    unary main_v199 main_v208 ((extractStridedSlice S1024x4x1 ![0, 0, 2] · slices_S1024x4x3_S1024x4x1_0_0_2) : (⟨S1024x4x3, .f32⟩ : BufTy).Contents (Elt F) → (⟨S1024x4x1, .f32⟩ : BufTy).Contents (Elt F)),
    TRef.unary (TRef.of (T := ⟨S1024x4x512, .f32⟩) main_v188) (TRef.of (T := ⟨S1024x4x1, .f32⟩) main_call9_v0) (extractStridedSlice S1024x4x1 ![0, 0, 511] · slices_S1024x4x512_S1024x4x1_0_0_511),
    TRef.unary (TRef.of (T := ⟨S1024x4x512, .f32⟩) main_v188) (TRef.of (T := ⟨S1024x4x511, .f32⟩) main_call9_v1) (extractStridedSlice S1024x4x511 ![0, 0, 0] · slices_S1024x4x512_S1024x4x511_0_0_0),
    TRef.binary (TRef.of (T := ⟨S1024x4x1, .f32⟩) main_call9_v0) (TRef.of (T := ⟨S1024x4x511, .f32⟩) main_call9_v1) (TRef.of (T := ⟨S1024x4x512, .f32⟩) main_v209) (fun a b => concatenate S1024x4x512 2 [⟨S1024x4x1, a⟩, ⟨S1024x4x511, b⟩] concatenates_S1024x4x1_S1024x4x511_S1024x4x512_d2) ]

/-- The buffers they write, in order. -/
abbrev wr3 : List (Ref sig .tc) :=
  [main_v159, main_v160, main_v161, main_v162, main_v163, main_cst_20, main_v164, main_cst_21, main_v165, main_v166, main_v167, main_v168, main_v169, main_v170, main_cst_22, main_v171, main_v172, main_v173, main_v174, main_v175, main_v176, main_cst_23, main_v177, main_v178, main_cst_24, main_v179, main_v180, main_v181, main_v182, main_v183, main_cst_25, main_v184, main_v185, main_v186, main_v187, main_v188, main_cst_26, main_v189, main_cst_27, main_v190, main_v191, main_v192, main_v193, main_v194, main_v195, main_cst_28, main_v196, main_v197, main_v198, main_v199, main_v200, main_call8_v0, main_call8_v1, main_v201, main_v202, main_v203, main_v204, main_v205, main_v206, main_v207, main_v208, main_call9_v0, main_call9_v1, main_v209]

set_option maxRecDepth 8192 in
set_option maxHeartbeats 4000000 in
theorem main_part3_eq (c : Dev nD) : main_part3 (F := F) c = seq ops3 := rfl

set_option maxRecDepth 8192 in
theorem ops3_sub : (ops3 : List (HloOp τ sig (Elt F))).Forall fun op => op.bufs ⊆ tcRefs τ sig :=
  ⟨binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., unary_bufs_sub .., binary_bufs_sub .., unary_bufs_sub .., binary_bufs_sub .., unary_bufs_sub .., unary_bufs_sub .., binary_bufs_sub .., binary_bufs_sub .., unary_bufs_sub .., unary_bufs_sub .., unary_bufs_sub .., binary_bufs_sub ..⟩

set_option maxRecDepth 8192 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops3_writes : (ops3 : List (HloOp τ sig (Elt F))).map (fun op => op.writes)
    = wr3.map (fun y => ({Proc.devRef .tc y} : Finset (DevRef τ sig))) := rfl

theorem wr3_keys : wr3.map (fun y => y.idx.val) = List.range' 251 64 := by decide

end NTM.RefRun

end
-- ==== Proof.RefRunW4.lean ====
import proofs.«155057_j13159779795433_2_alg».proof.Proof.Gen.ReferenceIdeal
import Idealize.ShloMosaic.Lib.StableHlo.Run

noncomputable section

namespace NTM.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations 300 … 372, in order (a called function's operations stand in its call's place). -/
abbrev ops4 : List (HloOp τ sig (Elt F)) :=
  [ unary main_v208 main_v210 (broadcastInDim S1024x4x512 ![0, 1, 2] bcast_S1024x4x1_S1024x4x512_0_1_2 : (⟨S1024x4x1, .f32⟩ : BufTy).Contents (Elt F) → (⟨S1024x4x512, .f32⟩ : BufTy).Contents (Elt F)),
    binary main_v210 main_v209 main_v211 (mulf : (⟨S1024x4x512, .f32⟩ : BufTy).Contents (Elt F) → (⟨S1024x4x512, .f32⟩ : BufTy).Contents (Elt F) → (⟨S1024x4x512, .f32⟩ : BufTy).Contents (Elt F)),
    binary main_v207 main_v211 main_v212 (addf : (⟨S1024x4x512, .f32⟩ : BufTy).Contents (Elt F) → (⟨S1024x4x512, .f32⟩ : BufTy).Contents (Elt F) → (⟨S1024x4x512, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S1024x4, .f32⟩) main_call10_v0) (broadcastInDim S1024x4 ![] bcast_S_S1024x4),
    TRef.binary (TRef.of (T := ⟨S1024x4, .f32⟩) main_v153) (TRef.of (T := ⟨S1024x4, .f32⟩) main_call10_v0) (TRef.of (T := ⟨S1024x4, .f32⟩) main_call10_v1) maximumf,
    TRef.unary (TRef.of (T := ⟨S_, .f32⟩) main_call10_cst) (TRef.of (T := ⟨S1024x4, .f32⟩) main_call10_v2) (broadcastInDim S1024x4 ![] bcast_S_S1024x4),
    TRef.binary (TRef.of (T := ⟨S1024x4, .f32⟩) main_v153) (TRef.of (T := ⟨S1024x4, .f32⟩) main_call10_v2) (TRef.of (T := ⟨S1024x4, .f32⟩) main_call10_v3) subf,
    TRef.binary (TRef.of (T := ⟨S1024x4, .f32⟩) main_call10_v3) (TRef.of (T := ⟨S1024x4, .f32⟩) main_call10_v3) (TRef.of (T := ⟨S1024x4, .i1⟩) main_call10_v4) (cmpf .une),
    TRef.unary (TRef.of (T := ⟨S_, .f32⟩) main_call10_cst) (TRef.of (T := ⟨S1024x4, .f32⟩) main_call10_v5) (broadcastInDim S1024x4 ![] bcast_S_S1024x4),
    TRef.binary (TRef.of (T := ⟨S1024x4, .f32⟩) main_v153) (TRef.of (T := ⟨S1024x4, .f32⟩) main_call10_v5) (TRef.of (T := ⟨S1024x4, .f32⟩) main_call10_v6) addf,
    TRef.unary (TRef.of (T := ⟨S1024x4, .f32⟩) main_call10_v3) (TRef.of (T := ⟨S1024x4, .f32⟩) main_call10_v7) Host.absf,
    TRef.unary (TRef.of (T := ⟨S1024x4, .f32⟩) main_call10_v7) (TRef.of (T := ⟨S1024x4, .f32⟩) main_call10_v8) Host.negf,
    TRef.unary (TRef.of (T := ⟨S1024x4, .f32⟩) main_call10_v8) (TRef.of (T := ⟨S1024x4, .f32⟩) main_call10_v9) Host.exp,
    TRef.unary (TRef.of (T := ⟨S1024x4, .f32⟩) main_call10_v9) (TRef.of (T := ⟨S1024x4, .f32⟩) main_call10_v10) Host.log1p,
    TRef.binary (TRef.of (T := ⟨S1024x4, .f32⟩) main_call10_v1) (TRef.of (T := ⟨S1024x4, .f32⟩) main_call10_v10) (TRef.of (T := ⟨S1024x4, .f32⟩) main_call10_v11) addf,
    TRef.ternary (TRef.of (T := ⟨S1024x4, .i1⟩) main_call10_v4) (TRef.of (T := ⟨S1024x4, .f32⟩) main_call10_v6) (TRef.of (T := ⟨S1024x4, .f32⟩) main_call10_v11) (TRef.of (T := ⟨S1024x4, .f32⟩) main_v213) select,
    nullary main_cst_29 (constant S_ .f32 0x3F800000#32),
    unary main_cst_29 main_v214 (broadcastInDim S1024x4 ![] bcast_S_S1024x4 : (⟨S_, .f32⟩ : BufTy).Contents (Elt F) → (⟨S1024x4, .f32⟩ : BufTy).Contents (Elt F)),
    binary main_v214 main_v213 main_v215 (addf : (⟨S1024x4, .f32⟩ : BufTy).Contents (Elt F) → (⟨S1024x4, .f32⟩ : BufTy).Contents (Elt F) → (⟨S1024x4, .f32⟩ : BufTy).Contents (Elt F)),
    nullary main_cst_30 (constant S_ .f32 0x2B8CBCCC#32),
    unary main_cst_30 main_v216 (broadcastInDim S1024x4x512 ![] bcast_S_S1024x4x512 : (⟨S_, .f32⟩ : BufTy).Contents (Elt F) → (⟨S1024x4x512, .f32⟩ : BufTy).Contents (Elt F)),
    binary main_v212 main_v216 main_v217 (addf : (⟨S1024x4x512, .f32⟩ : BufTy).Contents (Elt F) → (⟨S1024x4x512, .f32⟩ : BufTy).Contents (Elt F) → (⟨S1024x4x512, .f32⟩ : BufTy).Contents (Elt F)),
    unary main_v215 main_v218 (broadcastInDim S1024x4x1 ![0, 1] bcast_S1024x4_S1024x4x1_0_1 : (⟨S1024x4, .f32⟩ : BufTy).Contents (Elt F) → (⟨S1024x4x1, .f32⟩ : BufTy).Contents (Elt F)),
    unary main_v218 main_v219 (broadcastInDim S1024x4x512 ![0, 1, 2] bcast_S1024x4x1_S1024x4x512_0_1_2 : (⟨S1024x4x1, .f32⟩ : BufTy).Contents (Elt F) → (⟨S1024x4x512, .f32⟩ : BufTy).Contents (Elt F)),
    binary main_v217 main_v219 main_v220 (Host.powf : (⟨S1024x4x512, .f32⟩ : BufTy).Contents (Elt F) → (⟨S1024x4x512, .f32⟩ : BufTy).Contents (Elt F) → (⟨S1024x4x512, .f32⟩ : BufTy).Contents (Elt F)),
    nullary main_cst_31 (constant S_ .f32 0x00000000#32),
    binary main_v220 main_cst_31 main_v221 ((fun x v => Host.reduceAdd x v reducesTo_S1024x4x512_S1024x4_d2 h_S_) : (⟨S1024x4x512, .f32⟩ : BufTy).Contents (Elt F) → (⟨S_, .f32⟩ : BufTy).Contents (Elt F) → (⟨S1024x4, .f32⟩ : BufTy).Contents (Elt F)),
    unary main_v221 main_v222 (broadcastInDim S1024x4x1 ![0, 1] bcast_S1024x4_S1024x4x1_0_1 : (⟨S1024x4, .f32⟩ : BufTy).Contents (Elt F) → (⟨S1024x4x1, .f32⟩ : BufTy).Contents (Elt F)),
    nullary main_cst_32 (constant S_ .f32 0x2B8CBCCC#32),
    unary main_cst_32 main_v223 (broadcastInDim S1024x4x1 ![] bcast_S_S1024x4x1 : (⟨S_, .f32⟩ : BufTy).Contents (Elt F) → (⟨S1024x4x1, .f32⟩ : BufTy).Contents (Elt F)),
    binary main_v222 main_v223 main_v224 (addf : (⟨S1024x4x1, .f32⟩ : BufTy).Contents (Elt F) → (⟨S1024x4x1, .f32⟩ : BufTy).Contents (Elt F) → (⟨S1024x4x1, .f32⟩ : BufTy).Contents (Elt F)),
    unary main_v224 main_v225 (broadcastInDim S1024x4x512 ![0, 1, 2] bcast_S1024x4x1_S1024x4x512_0_1_2 : (⟨S1024x4x1, .f32⟩ : BufTy).Contents (Elt F) → (⟨S1024x4x512, .f32⟩ : BufTy).Contents (Elt F)),
    binary main_v220 main_v225 main_v226 (Host.divf : (⟨S1024x4x512, .f32⟩ : BufTy).Contents (Elt F) → (⟨S1024x4x512, .f32⟩ : BufTy).Contents (Elt F) → (⟨S1024x4x512, .f32⟩ : BufTy).Contents (Elt F)),
    unary main_v145 main_v227 ((extractStridedSlice S1024x4x128 ![0, 0, 134] · slices_S1024x4x390_S1024x4x128_0_0_134) : (⟨S1024x4x390, .f32⟩ : BufTy).Contents (Elt F) → (⟨S1024x4x128, .f32⟩ : BufTy).Contents (Elt F)),
    unary main_v227 main_v228 (Host.negf : (⟨S1024x4x128, .f32⟩ : BufTy).Contents (Elt F) → (⟨S1024x4x128, .f32⟩ : BufTy).Contents (Elt F)),
    unary main_v228 main_v229 (Host.exp : (⟨S1024x4x128, .f32⟩ : BufTy).Contents (Elt F) → (⟨S1024x4x128, .f32⟩ : BufTy).Contents (Elt F)),
    nullary main_cst_33 (constant S_ .f32 0x3F800000#32),
    unary main_cst_33 main_v230 (broadcastInDim S1024x4x128 ![] bcast_S_S1024x4x128 : (⟨S_, .f32⟩ : BufTy).Contents (Elt F) → (⟨S1024x4x128, .f32⟩ : BufTy).Contents (Elt F)),
    binary main_v230 main_v229 main_v231 (addf : (⟨S1024x4x128, .f32⟩ : BufTy).Contents (Elt F) → (⟨S1024x4x128, .f32⟩ : BufTy).Contents (Elt F) → (⟨S1024x4x128, .f32⟩ : BufTy).Contents (Elt F)),
    nullary main_cst_34 (constant S_ .f32 0x3F800000#32),
    unary main_cst_34 main_v232 (broadcastInDim S1024x4x128 ![] bcast_S_S1024x4x128 : (⟨S_, .f32⟩ : BufTy).Contents (Elt F) → (⟨S1024x4x128, .f32⟩ : BufTy).Contents (Elt F)),
    binary main_v232 main_v231 main_v233 (Host.divf : (⟨S1024x4x128, .f32⟩ : BufTy).Contents (Elt F) → (⟨S1024x4x128, .f32⟩ : BufTy).Contents (Elt F) → (⟨S1024x4x128, .f32⟩ : BufTy).Contents (Elt F)),
    unary main_v145 main_v234 ((extractStridedSlice S1024x4x128 ![0, 0, 262] · slices_S1024x4x390_S1024x4x128_0_0_262) : (⟨S1024x4x390, .f32⟩ : BufTy).Contents (Elt F) → (⟨S1024x4x128, .f32⟩ : BufTy).Contents (Elt F)),
    unary main_v234 main_v235 (Host.tanh : (⟨S1024x4x128, .f32⟩ : BufTy).Contents (Elt F) → (⟨S1024x4x128, .f32⟩ : BufTy).Contents (Elt F)),
    unary main_v226 main_v236 ((extractStridedSlice S1024x1x512 ![0, 0, 0] · slices_S1024x4x512_S1024x1x512_0_0_0) : (⟨S1024x4x512, .f32⟩ : BufTy).Contents (Elt F) → (⟨S1024x1x512, .f32⟩ : BufTy).Contents (Elt F)),
    reshape main_v236 main_v237 rfl shapeCasts_S1024x1x512_S1024x512,
    unary main_v237 main_v238 (broadcastInDim S1024x512x1 ![0, 1] bcast_S1024x512_S1024x512x1_0_1 : (⟨S1024x512, .f32⟩ : BufTy).Contents (Elt F) → (⟨S1024x512x1, .f32⟩ : BufTy).Contents (Elt F)),
    unary main_v233 main_v239 ((extractStridedSlice S1024x1x128 ![0, 0, 0] · slices_S1024x4x128_S1024x1x128_0_0_0) : (⟨S1024x4x128, .f32⟩ : BufTy).Contents (Elt F) → (⟨S1024x1x128, .f32⟩ : BufTy).Contents (Elt F)),
    reshape main_v239 main_v240 rfl shapeCasts_S1024x1x128_S1024x128,
    unary main_v240 main_v241 (broadcastInDim S1024x1x128 ![0, 2] bcast_S1024x128_S1024x1x128_0_2 : (⟨S1024x128, .f32⟩ : BufTy).Contents (Elt F) → (⟨S1024x1x128, .f32⟩ : BufTy).Contents (Elt F)),
    unary main_v238 main_v242 (broadcastInDim S1024x512x128 ![0, 1, 2] bcast_S1024x512x1_S1024x512x128_0_1_2 : (⟨S1024x512x1, .f32⟩ : BufTy).Contents (Elt F) → (⟨S1024x512x128, .f32⟩ : BufTy).Contents (Elt F)),
    unary main_v241 main_v243 (broadcastInDim S1024x512x128 ![0, 1, 2] bcast_S1024x1x128_S1024x512x128_0_1_2 : (⟨S1024x1x128, .f32⟩ : BufTy).Contents (Elt F) → (⟨S1024x512x128, .f32⟩ : BufTy).Contents (Elt F)),
    binary main_v242 main_v243 main_v244 (mulf : (⟨S1024x512x128, .f32⟩ : BufTy).Contents (Elt F) → (⟨S1024x512x128, .f32⟩ : BufTy).Contents (Elt F) → (⟨S1024x512x128, .f32⟩ : BufTy).Contents (Elt F)),
    nullary main_cst_35 (constant S_ .f32 0x3F800000#32),
    unary main_cst_35 main_v245 (broadcastInDim S1024x512x128 ![] bcast_S_S1024x512x128 : (⟨S_, .f32⟩ : BufTy).Contents (Elt F) → (⟨S1024x512x128, .f32⟩ : BufTy).Contents (Elt F)),
    binary main_v245 main_v244 main_v246 (subf : (⟨S1024x512x128, .f32⟩ : BufTy).Contents (Elt F) → (⟨S1024x512x128, .f32⟩ : BufTy).Contents (Elt F) → (⟨S1024x512x128, .f32⟩ : BufTy).Contents (Elt F)),
    binary main_arg1 main_v246 main_v247 (mulf : (⟨S1024x512x128, .f32⟩ : BufTy).Contents (Elt F) → (⟨S1024x512x128, .f32⟩ : BufTy).Contents (Elt F) → (⟨S1024x512x128, .f32⟩ : BufTy).Contents (Elt F)),
    unary main_v235 main_v248 ((extractStridedSlice S1024x1x128 ![0, 0, 0] · slices_S1024x4x128_S1024x1x128_0_0_0) : (⟨S1024x4x128, .f32⟩ : BufTy).Contents (Elt F) → (⟨S1024x1x128, .f32⟩ : BufTy).Contents (Elt F)),
    reshape main_v248 main_v249 rfl shapeCasts_S1024x1x128_S1024x128,
    unary main_v249 main_v250 (broadcastInDim S1024x1x128 ![0, 2] bcast_S1024x128_S1024x1x128_0_2 : (⟨S1024x128, .f32⟩ : BufTy).Contents (Elt F) → (⟨S1024x1x128, .f32⟩ : BufTy).Contents (Elt F)),
    unary main_v238 main_v251 (broadcastInDim S1024x512x128 ![0, 1, 2] bcast_S1024x512x1_S1024x512x128_0_1_2 : (⟨S1024x512x1, .f32⟩ : BufTy).Contents (Elt F) → (⟨S1024x512x128, .f32⟩ : BufTy).Contents (Elt F)),
    unary main_v250 main_v252 (broadcastInDim S1024x512x128 ![0, 1, 2] bcast_S1024x1x128_S1024x512x128_0_1_2 : (⟨S1024x1x128, .f32⟩ : BufTy).Contents (Elt F) → (⟨S1024x512x128, .f32⟩ : BufTy).Contents (Elt F)),
    binary main_v251 main_v252 main_v253 (mulf : (⟨S1024x512x128, .f32⟩ : BufTy).Contents (Elt F) → (⟨S1024x512x128, .f32⟩ : BufTy).Contents (Elt F) → (⟨S1024x512x128, .f32⟩ : BufTy).Contents (Elt F)),
    binary main_v247 main_v253 main_v254 (addf : (⟨S1024x512x128, .f32⟩ : BufTy).Contents (Elt F) → (⟨S1024x512x128, .f32⟩ : BufTy).Contents (Elt F) → (⟨S1024x512x128, .f32⟩ : BufTy).Contents (Elt F)),
    unary main_v226 main_v255 ((extractStridedSlice S1024x1x512 ![0, 1, 0] · slices_S1024x4x512_S1024x1x512_0_1_0) : (⟨S1024x4x512, .f32⟩ : BufTy).Contents (Elt F) → (⟨S1024x1x512, .f32⟩ : BufTy).Contents (Elt F)),
    reshape main_v255 main_v256 rfl shapeCasts_S1024x1x512_S1024x512,
    unary main_v256 main_v257 (broadcastInDim S1024x512x1 ![0, 1] bcast_S1024x512_S1024x512x1_0_1 : (⟨S1024x512, .f32⟩ : BufTy).Contents (Elt F) → (⟨S1024x512x1, .f32⟩ : BufTy).Contents (Elt F)),
    unary main_v233 main_v258 ((extractStridedSlice S1024x1x128 ![0, 1, 0] · slices_S1024x4x128_S1024x1x128_0_1_0) : (⟨S1024x4x128, .f32⟩ : BufTy).Contents (Elt F) → (⟨S1024x1x128, .f32⟩ : BufTy).Contents (Elt F)),
    reshape main_v258 main_v259 rfl shapeCasts_S1024x1x128_S1024x128,
    unary main_v259 main_v260 (broadcastInDim S1024x1x128 ![0, 2] bcast_S1024x128_S1024x1x128_0_2 : (⟨S1024x128, .f32⟩ : BufTy).Contents (Elt F) → (⟨S1024x1x128, .f32⟩ : BufTy).Contents (Elt F)),
    unary main_v257 main_v261 (broadcastInDim S1024x512x128 ![0, 1, 2] bcast_S1024x512x1_S1024x512x128_0_1_2 : (⟨S1024x512x1, .f32⟩ : BufTy).Contents (Elt F) → (⟨S1024x512x128, .f32⟩ : BufTy).Contents (Elt F)),
    unary main_v260 main_v262 (broadcastInDim S1024x512x128 ![0, 1, 2] bcast_S1024x1x128_S1024x512x128_0_1_2 : (⟨S1024x1x128, .f32⟩ : BufTy).Contents (Elt F) → (⟨S1024x512x128, .f32⟩ : BufTy).Contents (Elt F)) ]

/-- The buffers they write, in order. -/
abbrev wr4 : List (Ref sig .tc) :=
  [main_v210, main_v211, main_v212, main_call10_cst, main_call10_v0, main_call10_v1, main_call10_v2, main_call10_v3, main_call10_v4, main_call10_v5, main_call10_v6, main_call10_v7, main_call10_v8, main_call10_v9, main_call10_v10, main_call10_v11, main_v213, main_cst_29, main_v214, main_v215, main_cst_30, main_v216, main_v217, main_v218, main_v219, main_v220, main_cst_31, main_v221, main_v222, main_cst_32, main_v223, main_v224, main_v225, main_v226, main_v227, main_v228, main_v229, main_cst_33, main_v230, main_v231, main_cst_34, main_v232, main_v233, main_v234, main_v235, main_v236, main_v237, main_v238, main_v239, main_v240, main_v241, main_v242, main_v243, main_v244, main_cst_35, main_v245, main_v246, main_v247, main_v248, main_v249, main_v250, main_v251, main_v252, main_v253, main_v254, main_v255, main_v256, main_v257, main_v258, main_v259, main_v260, main_v261, main_v262]

set_option maxRecDepth 8192 in
set_option maxHeartbeats 4000000 in
theorem main_part4_eq (c : Dev nD) : main_part4 (F := F) c = seq ops4 := rfl

set_option maxRecDepth 8192 in
theorem ops4_sub : (ops4 : List (HloOp τ sig (Elt F))).Forall fun op => op.bufs ⊆ tcRefs τ sig :=
  ⟨unary_bufs_sub .., binary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., unary_bufs_sub .., unary_bufs_sub .., unary_bufs_sub .., reshape_bufs_sub .., unary_bufs_sub .., unary_bufs_sub .., reshape_bufs_sub .., unary_bufs_sub .., unary_bufs_sub .., unary_bufs_sub .., binary_bufs_sub .., nullary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., reshape_bufs_sub .., unary_bufs_sub .., unary_bufs_sub .., unary_bufs_sub ..⟩

set_option maxRecDepth 8192 in
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops4_writes : (ops4 : List (HloOp τ sig (Elt F))).map (fun op => op.writes)
    = wr4.map (fun y => ({Proc.devRef .tc y} : Finset (DevRef τ sig))) := rfl

theorem wr4_keys : wr4.map (fun y => y.idx.val) = List.range' 315 73 := by decide

end NTM.RefRun

end
-- ==== Proof.RefRunW5.lean ====
import proofs.«155057_j13159779795433_2_alg».proof.Proof.Gen.ReferenceIdeal
import Idealize.ShloMosaic.Lib.StableHlo.Run

noncomputable section

namespace NTM.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations 373 … 424, in order (a called function's operations stand in its call's place). -/
abbrev ops5 : List (HloOp τ sig (Elt F)) :=
  [ binary main_v261 main_v262 main_v263 (mulf : (⟨S1024x512x128, .f32⟩ : BufTy).Contents (Elt F) → (⟨S1024x512x128, .f32⟩ : BufTy).Contents (Elt F) → (⟨S1024x512x128, .f32⟩ : BufTy).Contents (Elt F)),
    nullary main_cst_36 (constant S_ .f32 0x3F800000#32),
    unary main_cst_36 main_v264 (broadcastInDim S1024x512x128 ![] bcast_S_S1024x512x128 : (⟨S_, .f32⟩ : BufTy).Contents (Elt F) → (⟨S1024x512x128, .f32⟩ : BufTy).Contents (Elt F)),
    binary main_v264 main_v263 main_v265 (subf : (⟨S1024x512x128, .f32⟩ : BufTy).Contents (Elt F) → (⟨S1024x512x128, .f32⟩ : BufTy).Contents (Elt F) → (⟨S1024x512x128, .f32⟩ : BufTy).Contents (Elt F)),
    binary main_v254 main_v265 main_v266 (mulf : (⟨S1024x512x128, .f32⟩ : BufTy).Contents (Elt F) → (⟨S1024x512x128, .f32⟩ : BufTy).Contents (Elt F) → (⟨S1024x512x128, .f32⟩ : BufTy).Contents (Elt F)),
    unary main_v235 main_v267 ((extractStridedSlice S1024x1x128 ![0, 1, 0] · slices_S1024x4x128_S1024x1x128_0_1_0) : (⟨S1024x4x128, .f32⟩ : BufTy).Contents (Elt F) → (⟨S1024x1x128, .f32⟩ : BufTy).Contents (Elt F)),
    reshape main_v267 main_v268 rfl shapeCasts_S1024x1x128_S1024x128,
    unary main_v268 main_v269 (broadcastInDim S1024x1x128 ![0, 2] bcast_S1024x128_S1024x1x128_0_2 : (⟨S1024x128, .f32⟩ : BufTy).Contents (Elt F) → (⟨S1024x1x128, .f32⟩ : BufTy).Contents (Elt F)),
    unary main_v257 main_v270 (broadcastInDim S1024x512x128 ![0, 1, 2] bcast_S1024x512x1_S1024x512x128_0_1_2 : (⟨S1024x512x1, .f32⟩ : BufTy).Contents (Elt F) → (⟨S1024x512x128, .f32⟩ : BufTy).Contents (Elt F)),
    unary main_v269 main_v271 (broadcastInDim S1024x512x128 ![0, 1, 2] bcast_S1024x1x128_S1024x512x128_0_1_2 : (⟨S1024x1x128, .f32⟩ : BufTy).Contents (Elt F) → (⟨S1024x512x128, .f32⟩ : BufTy).Contents (Elt F)),
    binary main_v270 main_v271 main_v272 (mulf : (⟨S1024x512x128, .f32⟩ : BufTy).Contents (Elt F) → (⟨S1024x512x128, .f32⟩ : BufTy).Contents (Elt F) → (⟨S1024x512x128, .f32⟩ : BufTy).Contents (Elt F)),
    binary main_v266 main_v272 main_v273 (addf : (⟨S1024x512x128, .f32⟩ : BufTy).Contents (Elt F) → (⟨S1024x512x128, .f32⟩ : BufTy).Contents (Elt F) → (⟨S1024x512x128, .f32⟩ : BufTy).Contents (Elt F)),
    unary main_v226 main_v274 ((extractStridedSlice S1024x1x512 ![0, 2, 0] · slices_S1024x4x512_S1024x1x512_0_2_0) : (⟨S1024x4x512, .f32⟩ : BufTy).Contents (Elt F) → (⟨S1024x1x512, .f32⟩ : BufTy).Contents (Elt F)),
    reshape main_v274 main_v275 rfl shapeCasts_S1024x1x512_S1024x512,
    unary main_v275 main_v276 (broadcastInDim S1024x512x1 ![0, 1] bcast_S1024x512_S1024x512x1_0_1 : (⟨S1024x512, .f32⟩ : BufTy).Contents (Elt F) → (⟨S1024x512x1, .f32⟩ : BufTy).Contents (Elt F)),
    unary main_v233 main_v277 ((extractStridedSlice S1024x1x128 ![0, 2, 0] · slices_S1024x4x128_S1024x1x128_0_2_0) : (⟨S1024x4x128, .f32⟩ : BufTy).Contents (Elt F) → (⟨S1024x1x128, .f32⟩ : BufTy).Contents (Elt F)),
    reshape main_v277 main_v278 rfl shapeCasts_S1024x1x128_S1024x128,
    unary main_v278 main_v279 (broadcastInDim S1024x1x128 ![0, 2] bcast_S1024x128_S1024x1x128_0_2 : (⟨S1024x128, .f32⟩ : BufTy).Contents (Elt F) → (⟨S1024x1x128, .f32⟩ : BufTy).Contents (Elt F)),
    unary main_v276 main_v280 (broadcastInDim S1024x512x128 ![0, 1, 2] bcast_S1024x512x1_S1024x512x128_0_1_2 : (⟨S1024x512x1, .f32⟩ : BufTy).Contents (Elt F) → (⟨S1024x512x128, .f32⟩ : BufTy).Contents (Elt F)),
    unary main_v279 main_v281 (broadcastInDim S1024x512x128 ![0, 1, 2] bcast_S1024x1x128_S1024x512x128_0_1_2 : (⟨S1024x1x128, .f32⟩ : BufTy).Contents (Elt F) → (⟨S1024x512x128, .f32⟩ : BufTy).Contents (Elt F)),
    binary main_v280 main_v281 main_v282 (mulf : (⟨S1024x512x128, .f32⟩ : BufTy).Contents (Elt F) → (⟨S1024x512x128, .f32⟩ : BufTy).Contents (Elt F) → (⟨S1024x512x128, .f32⟩ : BufTy).Contents (Elt F)),
    nullary main_cst_37 (constant S_ .f32 0x3F800000#32),
    unary main_cst_37 main_v283 (broadcastInDim S1024x512x128 ![] bcast_S_S1024x512x128 : (⟨S_, .f32⟩ : BufTy).Contents (Elt F) → (⟨S1024x512x128, .f32⟩ : BufTy).Contents (Elt F)),
    binary main_v283 main_v282 main_v284 (subf : (⟨S1024x512x128, .f32⟩ : BufTy).Contents (Elt F) → (⟨S1024x512x128, .f32⟩ : BufTy).Contents (Elt F) → (⟨S1024x512x128, .f32⟩ : BufTy).Contents (Elt F)),
    binary main_v273 main_v284 main_v285 (mulf : (⟨S1024x512x128, .f32⟩ : BufTy).Contents (Elt F) → (⟨S1024x512x128, .f32⟩ : BufTy).Contents (Elt F) → (⟨S1024x512x128, .f32⟩ : BufTy).Contents (Elt F)),
    unary main_v235 main_v286 ((extractStridedSlice S1024x1x128 ![0, 2, 0] · slices_S1024x4x128_S1024x1x128_0_2_0) : (⟨S1024x4x128, .f32⟩ : BufTy).Contents (Elt F) → (⟨S1024x1x128, .f32⟩ : BufTy).Contents (Elt F)),
    reshape main_v286 main_v287 rfl shapeCasts_S1024x1x128_S1024x128,
    unary main_v287 main_v288 (broadcastInDim S1024x1x128 ![0, 2] bcast_S1024x128_S1024x1x128_0_2 : (⟨S1024x128, .f32⟩ : BufTy).Contents (Elt F) → (⟨S1024x1x128, .f32⟩ : BufTy).Contents (Elt F)),
    unary main_v276 main_v289 (broadcastInDim S1024x512x128 ![0, 1, 2] bcast_S1024x512x1_S1024x512x128_0_1_2 : (⟨S1024x512x1, .f32⟩ : BufTy).Contents (Elt F) → (⟨S1024x512x128, .f32⟩ : BufTy).Contents (Elt F)),
    unary main_v288 main_v290 (broadcastInDim S1024x512x128 ![0, 1, 2] bcast_S1024x1x128_S1024x512x128_0_1_2 : (⟨S1024x1x128, .f32⟩ : BufTy).Contents (Elt F) → (⟨S1024x512x128, .f32⟩ : BufTy).Contents (Elt F)),
    binary main_v289 main_v290 main_v291 (mulf : (⟨S1024x512x128, .f32⟩ : BufTy).Contents (Elt F) → (⟨S1024x512x128, .f32⟩ : BufTy).Contents (Elt F) → (⟨S1024x512x128, .f32⟩ : BufTy).Contents (Elt F)),
    binary main_v285 main_v291 main_v292 (addf : (⟨S1024x512x128, .f32⟩ : BufTy).Contents (Elt F) → (⟨S1024x512x128, .f32⟩ : BufTy).Contents (Elt F) → (⟨S1024x512x128, .f32⟩ : BufTy).Contents (Elt F)),
    unary main_v226 main_v293 ((extractStridedSlice S1024x1x512 ![0, 3, 0] · slices_S1024x4x512_S1024x1x512_0_3_0) : (⟨S1024x4x512, .f32⟩ : BufTy).Contents (Elt F) → (⟨S1024x1x512, .f32⟩ : BufTy).Contents (Elt F)),
    reshape main_v293 main_v294 rfl shapeCasts_S1024x1x512_S1024x512,
    unary main_v294 main_v295 (broadcastInDim S1024x512x1 ![0, 1] bcast_S1024x512_S1024x512x1_0_1 : (⟨S1024x512, .f32⟩ : BufTy).Contents (Elt F) → (⟨S1024x512x1, .f32⟩ : BufTy).Contents (Elt F)),
    unary main_v233 main_v296 ((extractStridedSlice S1024x1x128 ![0, 3, 0] · slices_S1024x4x128_S1024x1x128_0_3_0) : (⟨S1024x4x128, .f32⟩ : BufTy).Contents (Elt F) → (⟨S1024x1x128, .f32⟩ : BufTy).Contents (Elt F)),
    reshape main_v296 main_v297 rfl shapeCasts_S1024x1x128_S1024x128,
    unary main_v297 main_v298 (broadcastInDim S1024x1x128 ![0, 2] bcast_S1024x128_S1024x1x128_0_2 : (⟨S1024x128, .f32⟩ : BufTy).Contents (Elt F) → (⟨S1024x1x128, .f32⟩ : BufTy).Contents (Elt F)),
    unary main_v295 main_v299 (broadcastInDim S1024x512x128 ![0, 1, 2] bcast_S1024x512x1_S1024x512x128_0_1_2 : (⟨S1024x512x1, .f32⟩ : BufTy).Contents (Elt F) → (⟨S1024x512x128, .f32⟩ : BufTy).Contents (Elt F)),
    unary main_v298 main_v300 (broadcastInDim S1024x512x128 ![0, 1, 2] bcast_S1024x1x128_S1024x512x128_0_1_2 : (⟨S1024x1x128, .f32⟩ : BufTy).Contents (Elt F) → (⟨S1024x512x128, .f32⟩ : BufTy).Contents (Elt F)),
    binary main_v299 main_v300 main_v301 (mulf : (⟨S1024x512x128, .f32⟩ : BufTy).Contents (Elt F) → (⟨S1024x512x128, .f32⟩ : BufTy).Contents (Elt F) → (⟨S1024x512x128, .f32⟩ : BufTy).Contents (Elt F)),
    nullary main_cst_38 (constant S_ .f32 0x3F800000#32),
    unary main_cst_38 main_v302 (broadcastInDim S1024x512x128 ![] bcast_S_S1024x512x128 : (⟨S_, .f32⟩ : BufTy).Contents (Elt F) → (⟨S1024x512x128, .f32⟩ : BufTy).Contents (Elt F)),
    binary main_v302 main_v301 main_v303 (subf : (⟨S1024x512x128, .f32⟩ : BufTy).Contents (Elt F) → (⟨S1024x512x128, .f32⟩ : BufTy).Contents (Elt F) → (⟨S1024x512x128, .f32⟩ : BufTy).Contents (Elt F)),
    binary main_v292 main_v303 main_v304 (mulf : (⟨S1024x512x128, .f32⟩ : BufTy).Contents (Elt F) → (⟨S1024x512x128, .f32⟩ : BufTy).Contents (Elt F) → (⟨S1024x512x128, .f32⟩ : BufTy).Contents (Elt F)),
    unary main_v235 main_v305 ((extractStridedSlice S1024x1x128 ![0, 3, 0] · slices_S1024x4x128_S1024x1x128_0_3_0) : (⟨S1024x4x128, .f32⟩ : BufTy).Contents (Elt F) → (⟨S1024x1x128, .f32⟩ : BufTy).Contents (Elt F)),
    reshape main_v305 main_v306 rfl shapeCasts_S1024x1x128_S1024x128,
    unary main_v306 main_v307 (broadcastInDim S1024x1x128 ![0, 2] bcast_S1024x128_S1024x1x128_0_2 : (⟨S1024x128, .f32⟩ : BufTy).Contents (Elt F) → (⟨S1024x1x128, .f32⟩ : BufTy).Contents (Elt F)),
    unary main_v295 main_v308 (broadcastInDim S1024x512x128 ![0, 1, 2] bcast_S1024x512x1_S1024x512x128_0_1_2 : (⟨S1024x512x1, .f32⟩ : BufTy).Contents (Elt F) → (⟨S1024x512x128, .f32⟩ : BufTy).Contents (Elt F)),
    unary main_v307 main_v309 (broadcastInDim S1024x512x128 ![0, 1, 2] bcast_S1024x1x128_S1024x512x128_0_1_2 : (⟨S1024x1x128, .f32⟩ : BufTy).Contents (Elt F) → (⟨S1024x512x128, .f32⟩ : BufTy).Contents (Elt F)),
    binary main_v308 main_v309 main_v310 (mulf : (⟨S1024x512x128, .f32⟩ : BufTy).Contents (Elt F) → (⟨S1024x512x128, .f32⟩ : BufTy).Contents (Elt F) → (⟨S1024x512x128, .f32⟩ : BufTy).Contents (Elt F)),
    binary main_v304 main_v310 main_v311 (addf : (⟨S1024x512x128, .f32⟩ : BufTy).Contents (Elt F) → (⟨S1024x512x128, .f32⟩ : BufTy).Contents (Elt F) → (⟨S1024x512x128, .f32⟩ : BufTy).Contents (Elt F)) ]

/-- The buffers they write, in order. -/
abbrev wr5 : List (Ref sig .tc) :=
  [main_v263, main_cst_36, main_v264, main_v265, main_v266, main_v267, main_v268, main_v269, main_v270, main_v271, main_v272, main_v273, main_v274, main_v275, main_v276, main_v277, main_v278, main_v279, main_v280, main_v281, main_v282, main_cst_37, main_v283, main_v284, main_v285, main_v286, main_v287, main_v288, main_v289, main_v290, main_v291, main_v292, main_v293, main_v294, main_v295, main_v296, main_v297, main_v298, main_v299, main_v300, main_v301, main_cst_38, main_v302, main_v303, main_v304, main_v305, main_v306, main_v307, main_v308, main_v309, main_v310, main_v311]

set_option maxRecDepth 8192 in
set_option maxHeartbeats 4000000 in
theorem main_part5_eq (c : Dev nD) : main_part5 (F := F) c = seq ops5 := rfl

set_option maxRecDepth 8192 in
theorem ops5_sub : (ops5 : List (HloOp τ sig (Elt F))).Forall fun op => op.bufs ⊆ tcRefs τ sig :=
  ⟨binary_bufs_sub .., nullary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., reshape_bufs_sub .., unary_bufs_sub .., unary_bufs_sub .., unary_bufs_sub .., binary_bufs_sub .., nullary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., reshape_bufs_sub .., unary_bufs_sub .., unary_bufs_sub .., unary_bufs_sub .., binary_bufs_sub .., nullary_bufs_sub .., unary_bufs_sub .., binary_bufs_sub .., binary_bufs_sub .., unary_bufs_sub .., reshape_bufs_sub .., unary_bufs_sub .., unary_bufs_sub .., unary_bufs_sub .., binary_bufs_sub .., binary_bufs_sub ..⟩

set_option maxRecDepth 8192 in
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops5_writes : (ops5 : List (HloOp τ sig (Elt F))).map (fun op => op.writes)
    = wr5.map (fun y => ({Proc.devRef .tc y} : Finset (DevRef τ sig))) := rfl

theorem wr5_keys : wr5.map (fun y => y.idx.val) = List.range' 388 52 := by decide

end NTM.RefRun

end
-- ==== Proof.RefRunL.lean ====
import proofs.«155057_j13159779795433_2_alg».proof.Proof.RefRunT
import proofs.«155057_j13159779795433_2_alg».proof.Proof.RefRunW0
import proofs.«155057_j13159779795433_2_alg».proof.Proof.RefRunW1
import proofs.«155057_j13159779795433_2_alg».proof.Proof.RefRunW2
import proofs.«155057_j13159779795433_2_alg».proof.Proof.RefRunW3
import proofs.«155057_j13159779795433_2_alg».proof.Proof.RefRunW4
import proofs.«155057_j13159779795433_2_alg».proof.Proof.RefRunW5

noncomputable section

namespace NTM.RefRun

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) := ops0 ++ (ops1 ++ (ops2 ++ (ops3 ++ (ops4 ++ ops5))))

theorem main_eq (c : Dev nD) : main (F := F) c = seq ops := by
  simp only [ops, seq_append, ← main_part0_eq c, ← main_part1_eq c, ← main_part2_eq c, ← main_part3_eq c, ← main_part4_eq c,
    ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h, List.forall_iff_forall_mem.mp ops5_sub op h]

theorem ops_fresh : ∀ op ∈ (ops : List (HloOp τ sig (Elt F))), op.fresh = ∅ := fun op h => by
  simp only [ops, List.mem_append] at h
  rcases h with h | h | h | h | h | h
  exacts [List.forall_iff_forall_mem.mp ops0_fresh op h, List.forall_iff_forall_mem.mp ops1_fresh op h,
    List.forall_iff_forall_mem.mp ops2_fresh op h, List.forall_iff_forall_mem.mp ops3_fresh op h,
    List.forall_iff_forall_mem.mp ops4_fresh op h, List.forall_iff_forall_mem.mp ops5_fresh op h]

theorem ops_asc : Asc 16 (ops : List (HloOp τ sig (Elt F))) :=
  asc_append _ _ 16 (asc_of_writes _ _ 16 ops0_writes wr0_keys)
    (asc_append _ _ 80 (asc_of_writes _ _ 80 ops1_writes wr1_keys)
      (asc_append _ _ 157 (asc_of_writes _ _ 157 ops2_writes wr2_keys)
        (asc_append _ _ 251 (asc_of_writes _ _ 251 ops3_writes wr3_keys)
          (asc_append _ _ 315 (asc_of_writes _ _ 315 ops4_writes wr4_keys) (asc_of_writes _ _ 388 ops5_writes wr5_keys)))))

theorem fin_arg (m : (ℓ : Loc nD τ sig) → Buf (Elt F) ℓ) (c : Dev nD) (r : Ref sig .tc) (hr : key r < 16) :
    after (ops (F := F)) (launchContents m c) (Proc.devRef .tc r) = m ((c.tc : Thread nD τ).loc r) :=
  after_keep ops 16 ops_asc _ r hr

/-- One stage: the operation's own equation in the line, with its operands' stages rewritten in. -/
macro "stage_nullary " i:num " [" "]" : tactic =>
  `(tactic| exact (ssa_nullary ops_asc $i rfl (by decide) _).trans (by first | rfl | (simp only [TRef.toBuf, cast_eq]; rfl)))
macro "stage_unary " i:num " [" hs:term,* "]" : tactic =>
  `(tactic| exact (ssa_unary ops_asc $i rfl (by decide) (by decide) _).trans
    (by rw [$[$hs:term],*]; first | rfl | (simp only [TRef.ofBuf, TRef.toBuf, cast_eq]; rfl)))
macro "stage_binary " i:num " [" hs:term,* "]" : tactic =>
  `(tactic| exact (ssa_binary ops_asc $i rfl (by decide) (by decide) (by decide) _).trans
    (by rw [$[$hs:term],*]; first | rfl | (simp only [TRef.ofBuf, TRef.toBuf, cast_eq]; rfl)))
macro "stage_ternary " i:num " [" hs:term,* "]" : tactic =>
  `(tactic| exact (ssa_ternary ops_asc $i rfl (by decide) (by decide) (by decide) (by decide) _).trans
    (by rw [$[$hs:term],*]; first | rfl | (simp only [TRef.ofBuf, TRef.toBuf, cast_eq]; rfl)))
macro "stage_reshape " i:num " [" hs:term,* "]" : tactic =>
  `(tactic| exact (ssa_reshape ops_asc $i rfl (by decide) (by decide) _).trans (by rw [$[$hs:term],*]; rfl))

end NTM.RefRun

end
-- ==== Proof.RefRunS.lean ====
import proofs.«155057_j13159779795433_2_alg».proof.Proof.RefRunL
import proofs.«155057_j13159779795433_2_alg».proof.Proof.ReadB

noncomputable section

namespace NTM.RefRun

open Cert.ReferenceIdeal Cert.ReferenceIdeal.Gen Cert.ReferenceIdeal.ReadB Idealize.ShloMosaic Idealize.ShloMosaic.TcCoe Idealize.SL.Sem Idealize.ShloMosaic.StableHlo

variable {F : FTy → Type} [FloatOps F] (m : (ℓ : Loc nD τ sig) → Buf (Elt F) ℓ) (c : Dev nD)

local notation "FIN" => after (ops (F := F)) (launchContents m c)

theorem s_main_v0 : FIN (Proc.devRef .tc main_v0) = val_main_v0 (F := F) (m ((c.tc : Thread nD τ).loc main_arg5)) := by
  stage_unary 0 [fin_arg m c main_arg5 (by decide)]
theorem s_main_v1 : FIN (Proc.devRef .tc main_v1) = val_main_v1 (F := F) (m ((c.tc : Thread nD τ).loc main_arg0)) (m ((c.tc : Thread nD τ).loc main_arg5)) := by
  stage_binary 1 [fin_arg m c main_arg0 (by decide), s_main_v0 m c]
theorem s_main_v2 : FIN (Proc.devRef .tc main_v2) = val_main_v2 (F := F) (m ((c.tc : Thread nD τ).loc main_arg7)) := by
  stage_unary 2 [fin_arg m c main_arg7 (by decide)]
theorem s_main_v3 : FIN (Proc.devRef .tc main_v3) = val_main_v3 (F := F) (m ((c.tc : Thread nD τ).loc main_arg7)) := by
  stage_unary 3 [s_main_v2 m c]
theorem s_main_v4 : FIN (Proc.devRef .tc main_v4) = val_main_v4 (F := F) (m ((c.tc : Thread nD τ).loc main_arg0)) (m ((c.tc : Thread nD τ).loc main_arg5)) (m ((c.tc : Thread nD τ).loc main_arg7)) := by
  stage_binary 4 [s_main_v1 m c, s_main_v3 m c]
theorem s_main_v5 : FIN (Proc.devRef .tc main_v5) = val_main_v5 (F := F) (m ((c.tc : Thread nD τ).loc main_arg6)) := by
  stage_unary 5 [fin_arg m c main_arg6 (by decide)]
theorem s_main_v6 : FIN (Proc.devRef .tc main_v6) = val_main_v6 (F := F) (m ((c.tc : Thread nD τ).loc main_arg2)) (m ((c.tc : Thread nD τ).loc main_arg6)) := by
  stage_binary 6 [fin_arg m c main_arg2 (by decide), s_main_v5 m c]
theorem s_main_v7 : FIN (Proc.devRef .tc main_v7) = val_main_v7 (F := F) (m ((c.tc : Thread nD τ).loc main_arg8)) := by
  stage_unary 7 [fin_arg m c main_arg8 (by decide)]
theorem s_main_v8 : FIN (Proc.devRef .tc main_v8) = val_main_v8 (F := F) (m ((c.tc : Thread nD τ).loc main_arg8)) := by
  stage_unary 8 [s_main_v7 m c]
theorem s_main_v9 : FIN (Proc.devRef .tc main_v9) = val_main_v9 (F := F) (m ((c.tc : Thread nD τ).loc main_arg2)) (m ((c.tc : Thread nD τ).loc main_arg6)) (m ((c.tc : Thread nD τ).loc main_arg8)) := by
  stage_binary 9 [s_main_v6 m c, s_main_v8 m c]
theorem s_main_v10 : FIN (Proc.devRef .tc main_v10) = val_main_v10 (F := F) (m ((c.tc : Thread nD τ).loc main_arg0)) (m ((c.tc : Thread nD τ).loc main_arg5)) (m ((c.tc : Thread nD τ).loc main_arg7)) := by
  stage_unary 10 [s_main_v4 m c]
theorem s_main_v11 : FIN (Proc.devRef .tc main_v11) = val_main_v11 (F := F) (m ((c.tc : Thread nD τ).loc main_arg0)) (m ((c.tc : Thread nD τ).loc main_arg5)) (m ((c.tc : Thread nD τ).loc main_arg7)) := by
  stage_unary 11 [s_main_v4 m c]
theorem s_main_v12 : FIN (Proc.devRef .tc main_v12) = val_main_v12 (F := F) (m ((c.tc : Thread nD τ).loc main_arg0)) (m ((c.tc : Thread nD τ).loc main_arg5)) (m ((c.tc : Thread nD τ).loc main_arg7)) := by
  stage_unary 12 [s_main_v4 m c]
theorem s_main_v13 : FIN (Proc.devRef .tc main_v13) = val_main_v13 (F := F) (m ((c.tc : Thread nD τ).loc main_arg2)) (m ((c.tc : Thread nD τ).loc main_arg6)) (m ((c.tc : Thread nD τ).loc main_arg8)) := by
  stage_unary 13 [s_main_v9 m c]
theorem s_main_v14 : FIN (Proc.devRef .tc main_v14) = val_main_v14 (F := F) (m ((c.tc : Thread nD τ).loc main_arg2)) (m ((c.tc : Thread nD τ).loc main_arg6)) (m ((c.tc : Thread nD τ).loc main_arg8)) := by
  stage_unary 14 [s_main_v9 m c]
theorem s_main_v15 : FIN (Proc.devRef .tc main_v15) = val_main_v15 (F := F) (m ((c.tc : Thread nD τ).loc main_arg2)) (m ((c.tc : Thread nD τ).loc main_arg6)) (m ((c.tc : Thread nD τ).loc main_arg8)) := by
  stage_unary 15 [s_main_v9 m c]
theorem s_main_v16 : FIN (Proc.devRef .tc main_v16) = val_main_v16 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) := by
  stage_binary 16 [s_main_v10 m c, s_main_v13 m c]
theorem s_main_v17 : FIN (Proc.devRef .tc main_v17) = val_main_v17 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) := by
  stage_unary 17 [s_main_v16 m c]
theorem s_main_v18 : FIN (Proc.devRef .tc main_v18) = val_main_v18 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) := by
  stage_unary 18 [s_main_v17 m c]
theorem s_main_cst : FIN (Proc.devRef .tc main_cst) = val_main_cst (F := F) := by
  stage_nullary 19 []
theorem s_main_v19 : FIN (Proc.devRef .tc main_v19) = val_main_v19 (F := F) := by
  stage_unary 20 [s_main_cst m c]
theorem s_main_v20 : FIN (Proc.devRef .tc main_v20) = val_main_v20 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) := by
  stage_binary 21 [s_main_v19 m c, s_main_v18 m c]
theorem s_main_cst_0 : FIN (Proc.devRef .tc main_cst_0) = val_main_cst_0 (F := F) := by
  stage_nullary 22 []
theorem s_main_v21 : FIN (Proc.devRef .tc main_v21) = val_main_v21 (F := F) := by
  stage_unary 23 [s_main_cst_0 m c]
theorem s_main_v22 : FIN (Proc.devRef .tc main_v22) = val_main_v22 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) := by
  stage_binary 24 [s_main_v21 m c, s_main_v20 m c]
theorem s_main_v23 : FIN (Proc.devRef .tc main_v23) = val_main_v23 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) := by
  stage_binary 25 [s_main_v11 m c, s_main_v14 m c]
theorem s_main_v24 : FIN (Proc.devRef .tc main_v24) = val_main_v24 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) := by
  stage_unary 26 [s_main_v23 m c]
theorem s_main_v25 : FIN (Proc.devRef .tc main_v25) = val_main_v25 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) := by
  stage_unary 27 [s_main_v24 m c]
theorem s_main_cst_1 : FIN (Proc.devRef .tc main_cst_1) = val_main_cst_1 (F := F) := by
  stage_nullary 28 []
theorem s_main_v26 : FIN (Proc.devRef .tc main_v26) = val_main_v26 (F := F) := by
  stage_unary 29 [s_main_cst_1 m c]
theorem s_main_v27 : FIN (Proc.devRef .tc main_v27) = val_main_v27 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) := by
  stage_binary 30 [s_main_v26 m c, s_main_v25 m c]
theorem s_main_cst_2 : FIN (Proc.devRef .tc main_cst_2) = val_main_cst_2 (F := F) := by
  stage_nullary 31 []
theorem s_main_v28 : FIN (Proc.devRef .tc main_v28) = val_main_v28 (F := F) := by
  stage_unary 32 [s_main_cst_2 m c]
theorem s_main_v29 : FIN (Proc.devRef .tc main_v29) = val_main_v29 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) := by
  stage_binary 33 [s_main_v28 m c, s_main_v27 m c]
theorem s_main_v30 : FIN (Proc.devRef .tc main_v30) = val_main_v30 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) := by
  stage_binary 34 [s_main_v22 m c, s_main_v15 m c]
theorem s_main_v31 : FIN (Proc.devRef .tc main_v31) = val_main_v31 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) := by
  stage_binary 35 [s_main_v12 m c, s_main_v30 m c]
theorem s_main_v32 : FIN (Proc.devRef .tc main_v32) = val_main_v32 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) := by
  stage_unary 36 [s_main_v31 m c]
theorem s_main_cst_3 : FIN (Proc.devRef .tc main_cst_3) = val_main_cst_3 (F := F) := by
  stage_nullary 37 []
theorem s_main_v33 : FIN (Proc.devRef .tc main_v33) = val_main_v33 (F := F) := by
  stage_unary 38 [s_main_cst_3 m c]
theorem s_main_v34 : FIN (Proc.devRef .tc main_v34) = val_main_v34 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) := by
  stage_binary 39 [s_main_v33 m c, s_main_v29 m c]
theorem s_main_v35 : FIN (Proc.devRef .tc main_v35) = val_main_v35 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) := by
  stage_binary 40 [s_main_v34 m c, s_main_v32 m c]
theorem s_main_v36 : FIN (Proc.devRef .tc main_v36) = val_main_v36 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) := by
  stage_binary 41 [s_main_v29 m c, fin_arg m c main_arg2 (by decide)]
theorem s_main_v37 : FIN (Proc.devRef .tc main_v37) = val_main_v37 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) := by
  stage_binary 42 [s_main_v35 m c, s_main_v36 m c]
theorem s_main_call0_v0 : FIN (Proc.devRef .tc main_call0_v0) = val_main_call0_v0 (F := F) (m ((c.tc : Thread nD τ).loc main_arg1)) := by
  stage_binary 43 [fin_arg m c main_arg1 (by decide)]
theorem s_main_call0_cst : FIN (Proc.devRef .tc main_call0_cst) = val_main_call0_cst (F := F) := by
  stage_nullary 44 []
theorem s_main_call0_v1 : FIN (Proc.devRef .tc main_call0_v1) = val_main_call0_v1 (F := F) (m ((c.tc : Thread nD τ).loc main_arg1)) := by
  stage_binary 45 [s_main_call0_v0 m c, s_main_call0_cst m c]
theorem s_main_call0_v2 : FIN (Proc.devRef .tc main_call0_v2) = val_main_call0_v2 (F := F) (m ((c.tc : Thread nD τ).loc main_arg1)) := by
  stage_unary 46 [s_main_call0_v1 m c]
theorem s_main_v38 : FIN (Proc.devRef .tc main_v38) = val_main_v38 (F := F) (m ((c.tc : Thread nD τ).loc main_arg1)) := by
  stage_unary 47 [s_main_call0_v2 m c]
theorem s_main_cst_4 : FIN (Proc.devRef .tc main_cst_4) = val_main_cst_4 (F := F) := by
  stage_nullary 48 []
theorem s_main_v39 : FIN (Proc.devRef .tc main_v39) = val_main_v39 (F := F) := by
  stage_unary 49 [s_main_cst_4 m c]
theorem s_main_v40 : FIN (Proc.devRef .tc main_v40) = val_main_v40 (F := F) (m ((c.tc : Thread nD τ).loc main_arg1)) := by
  stage_binary 50 [s_main_v38 m c, s_main_v39 m c]
theorem s_main_v41 : FIN (Proc.devRef .tc main_v41) = val_main_v41 (F := F) (m ((c.tc : Thread nD τ).loc main_arg1)) := by
  stage_unary 51 [s_main_v40 m c]
theorem s_main_v42 : FIN (Proc.devRef .tc main_v42) = val_main_v42 (F := F) (m ((c.tc : Thread nD τ).loc main_arg1)) := by
  stage_binary 52 [fin_arg m c main_arg1 (by decide), s_main_v41 m c]
theorem s_main_v43 : FIN (Proc.devRef .tc main_v43) = val_main_v43 (F := F) (m ((c.tc : Thread nD τ).loc main_arg9)) := by
  stage_unary 53 [fin_arg m c main_arg9 (by decide)]
theorem s_main_v44 : FIN (Proc.devRef .tc main_v44) = val_main_v44 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  stage_binary 54 [s_main_v37 m c, s_main_v43 m c]
theorem s_main_v45 : FIN (Proc.devRef .tc main_v45) = val_main_v45 (F := F) (m ((c.tc : Thread nD τ).loc main_arg10)) := by
  stage_unary 55 [fin_arg m c main_arg10 (by decide)]
theorem s_main_v46 : FIN (Proc.devRef .tc main_v46) = val_main_v46 (F := F) (m ((c.tc : Thread nD τ).loc main_arg10)) := by
  stage_unary 56 [s_main_v45 m c]
theorem s_main_v47 : FIN (Proc.devRef .tc main_v47) = val_main_v47 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 57 [s_main_v44 m c, s_main_v46 m c]
theorem s_main_v48 : FIN (Proc.devRef .tc main_v48) = val_main_v48 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_reshape 58 [s_main_v47 m c]
theorem s_main_v49 : FIN (Proc.devRef .tc main_v49) = val_main_v49 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 59 [s_main_v48 m c]
theorem s_main_v50 : FIN (Proc.devRef .tc main_v50) = val_main_v50 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 60 [s_main_v48 m c]
theorem s_main_v51 : FIN (Proc.devRef .tc main_v51) = val_main_v51 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_reshape 61 [s_main_v50 m c]
theorem s_main_v52 : FIN (Proc.devRef .tc main_v52) = val_main_v52 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 62 [s_main_v48 m c]
theorem s_main_v53 : FIN (Proc.devRef .tc main_v53) = val_main_v53 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_reshape 63 [s_main_v52 m c]
theorem s_main_v54 : FIN (Proc.devRef .tc main_v54) = val_main_v54 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 64 [s_main_v48 m c]
theorem s_main_v55 : FIN (Proc.devRef .tc main_v55) = val_main_v55 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 65 [s_main_v48 m c]
theorem s_main_v56 : FIN (Proc.devRef .tc main_v56) = val_main_v56 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_reshape 66 [s_main_v55 m c]
theorem s_main_call1_cst : FIN (Proc.devRef .tc main_call1_cst) = val_main_call1_cst (F := F) := by
  stage_nullary 67 []
theorem s_main_call1_v0 : FIN (Proc.devRef .tc main_call1_v0) = val_main_call1_v0 (F := F) := by
  stage_unary 68 [s_main_call1_cst m c]
theorem s_main_call1_v1 : FIN (Proc.devRef .tc main_call1_v1) = val_main_call1_v1 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 69 [s_main_v51 m c, s_main_call1_v0 m c]
theorem s_main_call1_v2 : FIN (Proc.devRef .tc main_call1_v2) = val_main_call1_v2 (F := F) := by
  stage_unary 70 [s_main_call1_cst m c]
theorem s_main_call1_v3 : FIN (Proc.devRef .tc main_call1_v3) = val_main_call1_v3 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 71 [s_main_v51 m c, s_main_call1_v2 m c]
theorem s_main_call1_v4 : FIN (Proc.devRef .tc main_call1_v4) = val_main_call1_v4 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 72 [s_main_call1_v3 m c]
theorem s_main_call1_v5 : FIN (Proc.devRef .tc main_call1_v5) = val_main_call1_v5 (F := F) := by
  stage_unary 73 [s_main_call1_cst m c]
theorem s_main_call1_v6 : FIN (Proc.devRef .tc main_call1_v6) = val_main_call1_v6 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 74 [s_main_v51 m c, s_main_call1_v5 m c]
theorem s_main_call1_v7 : FIN (Proc.devRef .tc main_call1_v7) = val_main_call1_v7 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 75 [s_main_call1_v3 m c]
theorem s_main_call1_v8 : FIN (Proc.devRef .tc main_call1_v8) = val_main_call1_v8 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 76 [s_main_call1_v7 m c]
theorem s_main_call1_v9 : FIN (Proc.devRef .tc main_call1_v9) = val_main_call1_v9 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 77 [s_main_call1_v8 m c]
theorem s_main_call1_v10 : FIN (Proc.devRef .tc main_call1_v10) = val_main_call1_v10 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 78 [s_main_call1_v9 m c]
theorem s_main_call1_v11 : FIN (Proc.devRef .tc main_call1_v11) = val_main_call1_v11 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 79 [s_main_call1_v1 m c, s_main_call1_v10 m c]
theorem s_main_v57 : FIN (Proc.devRef .tc main_v57) = val_main_v57 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_ternary 80 [s_main_call1_v4 m c, s_main_call1_v6 m c, s_main_call1_v11 m c]
theorem s_main_call2_v0 : FIN (Proc.devRef .tc main_call2_v0) = val_main_call2_v0 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 81 [s_main_v49 m c]
theorem s_main_call2_cst : FIN (Proc.devRef .tc main_call2_cst) = val_main_call2_cst (F := F) := by
  stage_nullary 82 []
theorem s_main_call2_v1 : FIN (Proc.devRef .tc main_call2_v1) = val_main_call2_v1 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 83 [s_main_call2_v0 m c, s_main_call2_cst m c]
theorem s_main_call2_v2 : FIN (Proc.devRef .tc main_call2_v2) = val_main_call2_v2 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 84 [s_main_call2_v1 m c]
theorem s_main_v58 : FIN (Proc.devRef .tc main_v58) = val_main_v58 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 85 [s_main_call2_v2 m c]
theorem s_main_cst_5 : FIN (Proc.devRef .tc main_cst_5) = val_main_cst_5 (F := F) := by
  stage_nullary 86 []
theorem s_main_v59 : FIN (Proc.devRef .tc main_v59) = val_main_v59 (F := F) := by
  stage_unary 87 [s_main_cst_5 m c]
theorem s_main_v60 : FIN (Proc.devRef .tc main_v60) = val_main_v60 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 88 [s_main_v58 m c, s_main_v59 m c]
theorem s_main_v61 : FIN (Proc.devRef .tc main_v61) = val_main_v61 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 89 [s_main_v60 m c]
theorem s_main_v62 : FIN (Proc.devRef .tc main_v62) = val_main_v62 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 90 [s_main_v49 m c, s_main_v61 m c]
theorem s_main_v63 : FIN (Proc.devRef .tc main_v63) = val_main_v63 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 91 [s_main_v62 m c, s_main_v42 m c]
theorem s_main_v64 : FIN (Proc.devRef .tc main_v64) = val_main_v64 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 92 [s_main_v57 m c]
theorem s_main_v65 : FIN (Proc.devRef .tc main_v65) = val_main_v65 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 93 [s_main_v64 m c]
theorem s_main_v66 : FIN (Proc.devRef .tc main_v66) = val_main_v66 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 94 [s_main_v65 m c, s_main_v63 m c]
theorem s_main_cst_6 : FIN (Proc.devRef .tc main_cst_6) = val_main_cst_6 (F := F) := by
  stage_nullary 95 []
theorem s_main_v67 : FIN (Proc.devRef .tc main_v67) = val_main_v67 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 96 [s_main_v66 m c, s_main_cst_6 m c]
theorem s_main_cst_7 : FIN (Proc.devRef .tc main_cst_7) = val_main_cst_7 (F := F) := by
  stage_nullary 97 []
theorem s_main_v68 : FIN (Proc.devRef .tc main_v68) = val_main_v68 (F := F) := by
  stage_unary 98 [s_main_cst_7 m c]
theorem s_main_v69 : FIN (Proc.devRef .tc main_v69) = val_main_v69 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 99 [s_main_v68 m c, s_main_v67 m c]
theorem s_main_v70 : FIN (Proc.devRef .tc main_v70) = val_main_v70 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 100 [s_main_v69 m c]
theorem s_main_v71 : FIN (Proc.devRef .tc main_v71) = val_main_v71 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 101 [s_main_v70 m c]
theorem s_main_v72 : FIN (Proc.devRef .tc main_v72) = val_main_v72 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 102 [s_main_v66 m c, s_main_v71 m c]
theorem s_main_v73 : FIN (Proc.devRef .tc main_v73) = val_main_v73 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 103 [s_main_v72 m c]
theorem s_main_cst_8 : FIN (Proc.devRef .tc main_cst_8) = val_main_cst_8 (F := F) := by
  stage_nullary 104 []
theorem s_main_v74 : FIN (Proc.devRef .tc main_v74) = val_main_v74 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 105 [s_main_v73 m c, s_main_cst_8 m c]
theorem s_main_v75 : FIN (Proc.devRef .tc main_v75) = val_main_v75 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 106 [s_main_v74 m c]
theorem s_main_v76 : FIN (Proc.devRef .tc main_v76) = val_main_v76 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 107 [s_main_v75 m c]
theorem s_main_v77 : FIN (Proc.devRef .tc main_v77) = val_main_v77 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 108 [s_main_v73 m c, s_main_v76 m c]
theorem s_main_v78 : FIN (Proc.devRef .tc main_v78) = val_main_v78 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 109 [s_main_v53 m c]
theorem s_main_v79 : FIN (Proc.devRef .tc main_v79) = val_main_v79 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 110 [s_main_v78 m c]
theorem s_main_cst_9 : FIN (Proc.devRef .tc main_cst_9) = val_main_cst_9 (F := F) := by
  stage_nullary 111 []
theorem s_main_v80 : FIN (Proc.devRef .tc main_v80) = val_main_v80 (F := F) := by
  stage_unary 112 [s_main_cst_9 m c]
theorem s_main_v81 : FIN (Proc.devRef .tc main_v81) = val_main_v81 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 113 [s_main_v80 m c, s_main_v79 m c]
theorem s_main_cst_10 : FIN (Proc.devRef .tc main_cst_10) = val_main_cst_10 (F := F) := by
  stage_nullary 114 []
theorem s_main_v82 : FIN (Proc.devRef .tc main_v82) = val_main_v82 (F := F) := by
  stage_unary 115 [s_main_cst_10 m c]
theorem s_main_v83 : FIN (Proc.devRef .tc main_v83) = val_main_v83 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 116 [s_main_v82 m c, s_main_v81 m c]
theorem s_main_v84 : FIN (Proc.devRef .tc main_v84) = val_main_v84 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 117 [s_main_v83 m c]
theorem s_main_v85 : FIN (Proc.devRef .tc main_v85) = val_main_v85 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 118 [s_main_v84 m c]
theorem s_main_v86 : FIN (Proc.devRef .tc main_v86) = val_main_v86 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 119 [s_main_v85 m c, s_main_v77 m c]
theorem s_main_cst_11 : FIN (Proc.devRef .tc main_cst_11) = val_main_cst_11 (F := F) := by
  stage_nullary 120 []
theorem s_main_v87 : FIN (Proc.devRef .tc main_v87) = val_main_v87 (F := F) := by
  stage_unary 121 [s_main_cst_11 m c]
theorem s_main_v88 : FIN (Proc.devRef .tc main_v88) = val_main_v88 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 122 [s_main_v87 m c, s_main_v84 m c]
theorem s_main_v89 : FIN (Proc.devRef .tc main_v89) = val_main_v89 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 123 [s_main_v88 m c]
theorem s_main_v90 : FIN (Proc.devRef .tc main_v90) = val_main_v90 (F := F) (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 124 [s_main_v89 m c, fin_arg m c main_arg3 (by decide)]
theorem s_main_v91 : FIN (Proc.devRef .tc main_v91) = val_main_v91 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 125 [s_main_v86 m c, s_main_v90 m c]
theorem s_main_cst_12 : FIN (Proc.devRef .tc main_cst_12) = val_main_cst_12 (F := F) := by
  stage_nullary 126 []
theorem s_main_v92 : FIN (Proc.devRef .tc main_v92) = val_main_v92 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 127 [s_main_v54 m c, s_main_cst_12 m c]
theorem s_main_cst_13 : FIN (Proc.devRef .tc main_cst_13) = val_main_cst_13 (F := F) := by
  stage_nullary 128 []
theorem s_main_v93 : FIN (Proc.devRef .tc main_v93) = val_main_v93 (F := F) := by
  stage_unary 129 [s_main_cst_13 m c]
theorem s_main_v94 : FIN (Proc.devRef .tc main_v94) = val_main_v94 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 130 [s_main_v93 m c, s_main_v92 m c]
theorem s_main_v95 : FIN (Proc.devRef .tc main_v95) = val_main_v95 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 131 [s_main_v94 m c]
theorem s_main_v96 : FIN (Proc.devRef .tc main_v96) = val_main_v96 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 132 [s_main_v95 m c]
theorem s_main_v97 : FIN (Proc.devRef .tc main_v97) = val_main_v97 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 133 [s_main_v54 m c, s_main_v96 m c]
theorem s_main_v98 : FIN (Proc.devRef .tc main_v98) = val_main_v98 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 134 [s_main_v97 m c]
theorem s_main_cst_14 : FIN (Proc.devRef .tc main_cst_14) = val_main_cst_14 (F := F) := by
  stage_nullary 135 []
theorem s_main_v99 : FIN (Proc.devRef .tc main_v99) = val_main_v99 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 136 [s_main_v98 m c, s_main_cst_14 m c]
theorem s_main_v100 : FIN (Proc.devRef .tc main_v100) = val_main_v100 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 137 [s_main_v99 m c]
theorem s_main_v101 : FIN (Proc.devRef .tc main_v101) = val_main_v101 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 138 [s_main_v100 m c]
theorem s_main_v102 : FIN (Proc.devRef .tc main_v102) = val_main_v102 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 139 [s_main_v98 m c, s_main_v101 m c]
theorem s_main_v103 : FIN (Proc.devRef .tc main_v103) = val_main_v103 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 140 [s_main_v102 m c]
theorem s_main_call3_v0 : FIN (Proc.devRef .tc main_call3_v0) = val_main_call3_v0 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 141 [s_main_v91 m c]
theorem s_main_call3_v1 : FIN (Proc.devRef .tc main_call3_v1) = val_main_call3_v1 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 142 [s_main_v91 m c]
theorem s_main_v104 : FIN (Proc.devRef .tc main_v104) = val_main_v104 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 143 [s_main_call3_v0 m c, s_main_call3_v1 m c]
theorem s_main_v105 : FIN (Proc.devRef .tc main_v105) = val_main_v105 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 144 [s_main_v103 m c]
theorem s_main_v106 : FIN (Proc.devRef .tc main_v106) = val_main_v106 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 145 [s_main_v105 m c, s_main_v104 m c]
theorem s_main_v107 : FIN (Proc.devRef .tc main_v107) = val_main_v107 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 146 [s_main_v102 m c]
theorem s_main_v108 : FIN (Proc.devRef .tc main_v108) = val_main_v108 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 147 [s_main_v107 m c]
theorem s_main_v109 : FIN (Proc.devRef .tc main_v109) = val_main_v109 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 148 [s_main_v108 m c, s_main_v91 m c]
theorem s_main_v110 : FIN (Proc.devRef .tc main_v110) = val_main_v110 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 149 [s_main_v106 m c, s_main_v109 m c]
theorem s_main_v111 : FIN (Proc.devRef .tc main_v111) = val_main_v111 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 150 [s_main_v102 m c]
theorem s_main_call4_v0 : FIN (Proc.devRef .tc main_call4_v0) = val_main_call4_v0 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 151 [s_main_v91 m c]
theorem s_main_call4_v1 : FIN (Proc.devRef .tc main_call4_v1) = val_main_call4_v1 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 152 [s_main_v91 m c]
theorem s_main_v112 : FIN (Proc.devRef .tc main_v112) = val_main_v112 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 153 [s_main_call4_v0 m c, s_main_call4_v1 m c]
theorem s_main_v113 : FIN (Proc.devRef .tc main_v113) = val_main_v113 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 154 [s_main_v111 m c]
theorem s_main_v114 : FIN (Proc.devRef .tc main_v114) = val_main_v114 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 155 [s_main_v113 m c, s_main_v112 m c]
theorem s_main_v115 : FIN (Proc.devRef .tc main_v115) = val_main_v115 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 156 [s_main_v110 m c, s_main_v114 m c]
theorem s_main_call5_cst : FIN (Proc.devRef .tc main_call5_cst) = val_main_call5_cst (F := F) := by
  stage_nullary 157 []
theorem s_main_call5_v0 : FIN (Proc.devRef .tc main_call5_v0) = val_main_call5_v0 (F := F) := by
  stage_unary 158 [s_main_call5_cst m c]
theorem s_main_call5_v1 : FIN (Proc.devRef .tc main_call5_v1) = val_main_call5_v1 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 159 [s_main_v56 m c, s_main_call5_v0 m c]
theorem s_main_call5_v2 : FIN (Proc.devRef .tc main_call5_v2) = val_main_call5_v2 (F := F) := by
  stage_unary 160 [s_main_call5_cst m c]
theorem s_main_call5_v3 : FIN (Proc.devRef .tc main_call5_v3) = val_main_call5_v3 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 161 [s_main_v56 m c, s_main_call5_v2 m c]
theorem s_main_call5_v4 : FIN (Proc.devRef .tc main_call5_v4) = val_main_call5_v4 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 162 [s_main_call5_v3 m c]
theorem s_main_call5_v5 : FIN (Proc.devRef .tc main_call5_v5) = val_main_call5_v5 (F := F) := by
  stage_unary 163 [s_main_call5_cst m c]
theorem s_main_call5_v6 : FIN (Proc.devRef .tc main_call5_v6) = val_main_call5_v6 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 164 [s_main_v56 m c, s_main_call5_v5 m c]
theorem s_main_call5_v7 : FIN (Proc.devRef .tc main_call5_v7) = val_main_call5_v7 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 165 [s_main_call5_v3 m c]
theorem s_main_call5_v8 : FIN (Proc.devRef .tc main_call5_v8) = val_main_call5_v8 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 166 [s_main_call5_v7 m c]
theorem s_main_call5_v9 : FIN (Proc.devRef .tc main_call5_v9) = val_main_call5_v9 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 167 [s_main_call5_v8 m c]
theorem s_main_call5_v10 : FIN (Proc.devRef .tc main_call5_v10) = val_main_call5_v10 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 168 [s_main_call5_v9 m c]
theorem s_main_call5_v11 : FIN (Proc.devRef .tc main_call5_v11) = val_main_call5_v11 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 169 [s_main_call5_v1 m c, s_main_call5_v10 m c]
theorem s_main_v116 : FIN (Proc.devRef .tc main_v116) = val_main_v116 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_ternary 170 [s_main_call5_v4 m c, s_main_call5_v6 m c, s_main_call5_v11 m c]
theorem s_main_cst_15 : FIN (Proc.devRef .tc main_cst_15) = val_main_cst_15 (F := F) := by
  stage_nullary 171 []
theorem s_main_v117 : FIN (Proc.devRef .tc main_v117) = val_main_v117 (F := F) := by
  stage_unary 172 [s_main_cst_15 m c]
theorem s_main_v118 : FIN (Proc.devRef .tc main_v118) = val_main_v118 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 173 [s_main_v117 m c, s_main_v116 m c]
theorem s_main_cst_16 : FIN (Proc.devRef .tc main_cst_16) = val_main_cst_16 (F := F) := by
  stage_nullary 174 []
theorem s_main_v119 : FIN (Proc.devRef .tc main_v119) = val_main_v119 (F := F) := by
  stage_unary 175 [s_main_cst_16 m c]
theorem s_main_v120 : FIN (Proc.devRef .tc main_v120) = val_main_v120 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 176 [s_main_v115 m c, s_main_v119 m c]
theorem s_main_v121 : FIN (Proc.devRef .tc main_v121) = val_main_v121 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 177 [s_main_v118 m c]
theorem s_main_v122 : FIN (Proc.devRef .tc main_v122) = val_main_v122 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 178 [s_main_v121 m c]
theorem s_main_v123 : FIN (Proc.devRef .tc main_v123) = val_main_v123 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 179 [s_main_v120 m c, s_main_v122 m c]
theorem s_main_cst_17 : FIN (Proc.devRef .tc main_cst_17) = val_main_cst_17 (F := F) := by
  stage_nullary 180 []
theorem s_main_v124 : FIN (Proc.devRef .tc main_v124) = val_main_v124 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 181 [s_main_v123 m c, s_main_cst_17 m c]
theorem s_main_v125 : FIN (Proc.devRef .tc main_v125) = val_main_v125 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 182 [s_main_v124 m c]
theorem s_main_cst_18 : FIN (Proc.devRef .tc main_cst_18) = val_main_cst_18 (F := F) := by
  stage_nullary 183 []
theorem s_main_v126 : FIN (Proc.devRef .tc main_v126) = val_main_v126 (F := F) := by
  stage_unary 184 [s_main_cst_18 m c]
theorem s_main_v127 : FIN (Proc.devRef .tc main_v127) = val_main_v127 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 185 [s_main_v125 m c, s_main_v126 m c]
theorem s_main_v128 : FIN (Proc.devRef .tc main_v128) = val_main_v128 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_unary 186 [s_main_v127 m c]
theorem s_main_v129 : FIN (Proc.devRef .tc main_v129) = val_main_v129 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 187 [s_main_v123 m c, s_main_v128 m c]
theorem s_main_v130 : FIN (Proc.devRef .tc main_v130) = val_main_v130 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_binary 188 [s_main_v129 m c, fin_arg m c main_arg1 (by decide)]
theorem s_main_v131 : FIN (Proc.devRef .tc main_v131) = val_main_v131 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  stage_reshape 189 [s_main_v130 m c]
theorem s_main_v132 : FIN (Proc.devRef .tc main_v132) = val_main_v132 (F := F) (m ((c.tc : Thread nD τ).loc main_arg14)) := by
  stage_unary 190 [fin_arg m c main_arg14 (by decide)]
theorem s_main_v133 : FIN (Proc.devRef .tc main_v133) = val_main_v133 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg14)) := by
  stage_binary 191 [s_main_v37 m c, s_main_v132 m c]
theorem s_main_v134 : FIN (Proc.devRef .tc main_v134) = val_main_v134 (F := F) (m ((c.tc : Thread nD τ).loc main_arg15)) := by
  stage_unary 192 [fin_arg m c main_arg15 (by decide)]
theorem s_main_v135 : FIN (Proc.devRef .tc main_v135) = val_main_v135 (F := F) (m ((c.tc : Thread nD τ).loc main_arg15)) := by
  stage_unary 193 [s_main_v134 m c]
theorem s_main_v136 : FIN (Proc.devRef .tc main_v136) = val_main_v136 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg14)) (m ((c.tc : Thread nD τ).loc main_arg15)) := by
  stage_binary 194 [s_main_v133 m c, s_main_v135 m c]
theorem s_main_v137 : FIN (Proc.devRef .tc main_v137) = val_main_v137 (F := F) (m ((c.tc : Thread nD τ).loc main_arg13)) := by
  stage_unary 195 [fin_arg m c main_arg13 (by decide)]
theorem s_main_v138 : FIN (Proc.devRef .tc main_v138) = val_main_v138 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg13)) := by
  stage_binary 196 [s_main_v131 m c, s_main_v137 m c]
theorem s_main_v139 : FIN (Proc.devRef .tc main_v139) = val_main_v139 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg13)) (m ((c.tc : Thread nD τ).loc main_arg14)) (m ((c.tc : Thread nD τ).loc main_arg15)) := by
  stage_binary 197 [s_main_v136 m c, s_main_v138 m c]
theorem s_main_v140 : FIN (Proc.devRef .tc main_v140) = val_main_v140 (F := F) (m ((c.tc : Thread nD τ).loc main_arg11)) := by
  stage_unary 198 [fin_arg m c main_arg11 (by decide)]
theorem s_main_v141 : FIN (Proc.devRef .tc main_v141) = val_main_v141 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) := by
  stage_binary 199 [s_main_v37 m c, s_main_v140 m c]
theorem s_main_v142 : FIN (Proc.devRef .tc main_v142) = val_main_v142 (F := F) (m ((c.tc : Thread nD τ).loc main_arg12)) := by
  stage_unary 200 [fin_arg m c main_arg12 (by decide)]
theorem s_main_v143 : FIN (Proc.devRef .tc main_v143) = val_main_v143 (F := F) (m ((c.tc : Thread nD τ).loc main_arg12)) := by
  stage_unary 201 [s_main_v142 m c]
theorem s_main_v144 : FIN (Proc.devRef .tc main_v144) = val_main_v144 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 202 [s_main_v141 m c, s_main_v143 m c]
theorem s_main_v145 : FIN (Proc.devRef .tc main_v145) = val_main_v145 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_reshape 203 [s_main_v144 m c]
theorem s_main_v146 : FIN (Proc.devRef .tc main_v146) = val_main_v146 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 204 [s_main_v145 m c]
theorem s_main_v147 : FIN (Proc.devRef .tc main_v147) = val_main_v147 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 205 [s_main_v145 m c]
theorem s_main_v148 : FIN (Proc.devRef .tc main_v148) = val_main_v148 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_reshape 206 [s_main_v147 m c]
theorem s_main_v149 : FIN (Proc.devRef .tc main_v149) = val_main_v149 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 207 [s_main_v145 m c]
theorem s_main_v150 : FIN (Proc.devRef .tc main_v150) = val_main_v150 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_reshape 208 [s_main_v149 m c]
theorem s_main_v151 : FIN (Proc.devRef .tc main_v151) = val_main_v151 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 209 [s_main_v145 m c]
theorem s_main_v152 : FIN (Proc.devRef .tc main_v152) = val_main_v152 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 210 [s_main_v145 m c]
theorem s_main_v153 : FIN (Proc.devRef .tc main_v153) = val_main_v153 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_reshape 211 [s_main_v152 m c]
theorem s_main_call6_cst : FIN (Proc.devRef .tc main_call6_cst) = val_main_call6_cst (F := F) := by
  stage_nullary 212 []
theorem s_main_call6_v0 : FIN (Proc.devRef .tc main_call6_v0) = val_main_call6_v0 (F := F) := by
  stage_unary 213 [s_main_call6_cst m c]
theorem s_main_call6_v1 : FIN (Proc.devRef .tc main_call6_v1) = val_main_call6_v1 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 214 [s_main_v148 m c, s_main_call6_v0 m c]
theorem s_main_call6_v2 : FIN (Proc.devRef .tc main_call6_v2) = val_main_call6_v2 (F := F) := by
  stage_unary 215 [s_main_call6_cst m c]
theorem s_main_call6_v3 : FIN (Proc.devRef .tc main_call6_v3) = val_main_call6_v3 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 216 [s_main_v148 m c, s_main_call6_v2 m c]
theorem s_main_call6_v4 : FIN (Proc.devRef .tc main_call6_v4) = val_main_call6_v4 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 217 [s_main_call6_v3 m c]
theorem s_main_call6_v5 : FIN (Proc.devRef .tc main_call6_v5) = val_main_call6_v5 (F := F) := by
  stage_unary 218 [s_main_call6_cst m c]
theorem s_main_call6_v6 : FIN (Proc.devRef .tc main_call6_v6) = val_main_call6_v6 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 219 [s_main_v148 m c, s_main_call6_v5 m c]
theorem s_main_call6_v7 : FIN (Proc.devRef .tc main_call6_v7) = val_main_call6_v7 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 220 [s_main_call6_v3 m c]
theorem s_main_call6_v8 : FIN (Proc.devRef .tc main_call6_v8) = val_main_call6_v8 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 221 [s_main_call6_v7 m c]
theorem s_main_call6_v9 : FIN (Proc.devRef .tc main_call6_v9) = val_main_call6_v9 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 222 [s_main_call6_v8 m c]
theorem s_main_call6_v10 : FIN (Proc.devRef .tc main_call6_v10) = val_main_call6_v10 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 223 [s_main_call6_v9 m c]
theorem s_main_call6_v11 : FIN (Proc.devRef .tc main_call6_v11) = val_main_call6_v11 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 224 [s_main_call6_v1 m c, s_main_call6_v10 m c]
theorem s_main_v154 : FIN (Proc.devRef .tc main_v154) = val_main_v154 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_ternary 225 [s_main_call6_v4 m c, s_main_call6_v6 m c, s_main_call6_v11 m c]
theorem s_main_call7_v0 : FIN (Proc.devRef .tc main_call7_v0) = val_main_call7_v0 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 226 [s_main_v146 m c]
theorem s_main_call7_cst : FIN (Proc.devRef .tc main_call7_cst) = val_main_call7_cst (F := F) := by
  stage_nullary 227 []
theorem s_main_call7_v1 : FIN (Proc.devRef .tc main_call7_v1) = val_main_call7_v1 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 228 [s_main_call7_v0 m c, s_main_call7_cst m c]
theorem s_main_call7_v2 : FIN (Proc.devRef .tc main_call7_v2) = val_main_call7_v2 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 229 [s_main_call7_v1 m c]
theorem s_main_v155 : FIN (Proc.devRef .tc main_v155) = val_main_v155 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 230 [s_main_call7_v2 m c]
theorem s_main_cst_19 : FIN (Proc.devRef .tc main_cst_19) = val_main_cst_19 (F := F) := by
  stage_nullary 231 []
theorem s_main_v156 : FIN (Proc.devRef .tc main_v156) = val_main_v156 (F := F) := by
  stage_unary 232 [s_main_cst_19 m c]
theorem s_main_v157 : FIN (Proc.devRef .tc main_v157) = val_main_v157 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 233 [s_main_v155 m c, s_main_v156 m c]
theorem s_main_v158 : FIN (Proc.devRef .tc main_v158) = val_main_v158 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 234 [s_main_v157 m c]
theorem s_main_v159 : FIN (Proc.devRef .tc main_v159) = val_main_v159 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 235 [s_main_v146 m c, s_main_v158 m c]
theorem s_main_v160 : FIN (Proc.devRef .tc main_v160) = val_main_v160 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 236 [s_main_v159 m c, s_main_v42 m c]
theorem s_main_v161 : FIN (Proc.devRef .tc main_v161) = val_main_v161 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 237 [s_main_v154 m c]
theorem s_main_v162 : FIN (Proc.devRef .tc main_v162) = val_main_v162 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 238 [s_main_v161 m c]
theorem s_main_v163 : FIN (Proc.devRef .tc main_v163) = val_main_v163 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 239 [s_main_v162 m c, s_main_v160 m c]
theorem s_main_cst_20 : FIN (Proc.devRef .tc main_cst_20) = val_main_cst_20 (F := F) := by
  stage_nullary 240 []
theorem s_main_v164 : FIN (Proc.devRef .tc main_v164) = val_main_v164 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 241 [s_main_v163 m c, s_main_cst_20 m c]
theorem s_main_cst_21 : FIN (Proc.devRef .tc main_cst_21) = val_main_cst_21 (F := F) := by
  stage_nullary 242 []
theorem s_main_v165 : FIN (Proc.devRef .tc main_v165) = val_main_v165 (F := F) := by
  stage_unary 243 [s_main_cst_21 m c]
theorem s_main_v166 : FIN (Proc.devRef .tc main_v166) = val_main_v166 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 244 [s_main_v165 m c, s_main_v164 m c]
theorem s_main_v167 : FIN (Proc.devRef .tc main_v167) = val_main_v167 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 245 [s_main_v166 m c]
theorem s_main_v168 : FIN (Proc.devRef .tc main_v168) = val_main_v168 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 246 [s_main_v167 m c]
theorem s_main_v169 : FIN (Proc.devRef .tc main_v169) = val_main_v169 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 247 [s_main_v163 m c, s_main_v168 m c]
theorem s_main_v170 : FIN (Proc.devRef .tc main_v170) = val_main_v170 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 248 [s_main_v169 m c]
theorem s_main_cst_22 : FIN (Proc.devRef .tc main_cst_22) = val_main_cst_22 (F := F) := by
  stage_nullary 249 []
theorem s_main_v171 : FIN (Proc.devRef .tc main_v171) = val_main_v171 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 250 [s_main_v170 m c, s_main_cst_22 m c]
theorem s_main_v172 : FIN (Proc.devRef .tc main_v172) = val_main_v172 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 251 [s_main_v171 m c]
theorem s_main_v173 : FIN (Proc.devRef .tc main_v173) = val_main_v173 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 252 [s_main_v172 m c]
theorem s_main_v174 : FIN (Proc.devRef .tc main_v174) = val_main_v174 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 253 [s_main_v170 m c, s_main_v173 m c]
theorem s_main_v175 : FIN (Proc.devRef .tc main_v175) = val_main_v175 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 254 [s_main_v150 m c]
theorem s_main_v176 : FIN (Proc.devRef .tc main_v176) = val_main_v176 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 255 [s_main_v175 m c]
theorem s_main_cst_23 : FIN (Proc.devRef .tc main_cst_23) = val_main_cst_23 (F := F) := by
  stage_nullary 256 []
theorem s_main_v177 : FIN (Proc.devRef .tc main_v177) = val_main_v177 (F := F) := by
  stage_unary 257 [s_main_cst_23 m c]
theorem s_main_v178 : FIN (Proc.devRef .tc main_v178) = val_main_v178 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 258 [s_main_v177 m c, s_main_v176 m c]
theorem s_main_cst_24 : FIN (Proc.devRef .tc main_cst_24) = val_main_cst_24 (F := F) := by
  stage_nullary 259 []
theorem s_main_v179 : FIN (Proc.devRef .tc main_v179) = val_main_v179 (F := F) := by
  stage_unary 260 [s_main_cst_24 m c]
theorem s_main_v180 : FIN (Proc.devRef .tc main_v180) = val_main_v180 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 261 [s_main_v179 m c, s_main_v178 m c]
theorem s_main_v181 : FIN (Proc.devRef .tc main_v181) = val_main_v181 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 262 [s_main_v180 m c]
theorem s_main_v182 : FIN (Proc.devRef .tc main_v182) = val_main_v182 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 263 [s_main_v181 m c]
theorem s_main_v183 : FIN (Proc.devRef .tc main_v183) = val_main_v183 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 264 [s_main_v182 m c, s_main_v174 m c]
theorem s_main_cst_25 : FIN (Proc.devRef .tc main_cst_25) = val_main_cst_25 (F := F) := by
  stage_nullary 265 []
theorem s_main_v184 : FIN (Proc.devRef .tc main_v184) = val_main_v184 (F := F) := by
  stage_unary 266 [s_main_cst_25 m c]
theorem s_main_v185 : FIN (Proc.devRef .tc main_v185) = val_main_v185 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 267 [s_main_v184 m c, s_main_v181 m c]
theorem s_main_v186 : FIN (Proc.devRef .tc main_v186) = val_main_v186 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 268 [s_main_v185 m c]
theorem s_main_v187 : FIN (Proc.devRef .tc main_v187) = val_main_v187 (F := F) (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 269 [s_main_v186 m c, fin_arg m c main_arg4 (by decide)]
theorem s_main_v188 : FIN (Proc.devRef .tc main_v188) = val_main_v188 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 270 [s_main_v183 m c, s_main_v187 m c]
theorem s_main_cst_26 : FIN (Proc.devRef .tc main_cst_26) = val_main_cst_26 (F := F) := by
  stage_nullary 271 []
theorem s_main_v189 : FIN (Proc.devRef .tc main_v189) = val_main_v189 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 272 [s_main_v151 m c, s_main_cst_26 m c]
theorem s_main_cst_27 : FIN (Proc.devRef .tc main_cst_27) = val_main_cst_27 (F := F) := by
  stage_nullary 273 []
theorem s_main_v190 : FIN (Proc.devRef .tc main_v190) = val_main_v190 (F := F) := by
  stage_unary 274 [s_main_cst_27 m c]
theorem s_main_v191 : FIN (Proc.devRef .tc main_v191) = val_main_v191 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 275 [s_main_v190 m c, s_main_v189 m c]
theorem s_main_v192 : FIN (Proc.devRef .tc main_v192) = val_main_v192 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 276 [s_main_v191 m c]
theorem s_main_v193 : FIN (Proc.devRef .tc main_v193) = val_main_v193 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 277 [s_main_v192 m c]
theorem s_main_v194 : FIN (Proc.devRef .tc main_v194) = val_main_v194 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 278 [s_main_v151 m c, s_main_v193 m c]
theorem s_main_v195 : FIN (Proc.devRef .tc main_v195) = val_main_v195 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 279 [s_main_v194 m c]
theorem s_main_cst_28 : FIN (Proc.devRef .tc main_cst_28) = val_main_cst_28 (F := F) := by
  stage_nullary 280 []
theorem s_main_v196 : FIN (Proc.devRef .tc main_v196) = val_main_v196 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 281 [s_main_v195 m c, s_main_cst_28 m c]
theorem s_main_v197 : FIN (Proc.devRef .tc main_v197) = val_main_v197 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 282 [s_main_v196 m c]
theorem s_main_v198 : FIN (Proc.devRef .tc main_v198) = val_main_v198 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 283 [s_main_v197 m c]
theorem s_main_v199 : FIN (Proc.devRef .tc main_v199) = val_main_v199 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 284 [s_main_v195 m c, s_main_v198 m c]
theorem s_main_v200 : FIN (Proc.devRef .tc main_v200) = val_main_v200 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 285 [s_main_v199 m c]
theorem s_main_call8_v0 : FIN (Proc.devRef .tc main_call8_v0) = val_main_call8_v0 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 286 [s_main_v188 m c]
theorem s_main_call8_v1 : FIN (Proc.devRef .tc main_call8_v1) = val_main_call8_v1 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 287 [s_main_v188 m c]
theorem s_main_v201 : FIN (Proc.devRef .tc main_v201) = val_main_v201 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 288 [s_main_call8_v0 m c, s_main_call8_v1 m c]
theorem s_main_v202 : FIN (Proc.devRef .tc main_v202) = val_main_v202 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 289 [s_main_v200 m c]
theorem s_main_v203 : FIN (Proc.devRef .tc main_v203) = val_main_v203 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 290 [s_main_v202 m c, s_main_v201 m c]
theorem s_main_v204 : FIN (Proc.devRef .tc main_v204) = val_main_v204 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 291 [s_main_v199 m c]
theorem s_main_v205 : FIN (Proc.devRef .tc main_v205) = val_main_v205 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 292 [s_main_v204 m c]
theorem s_main_v206 : FIN (Proc.devRef .tc main_v206) = val_main_v206 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 293 [s_main_v205 m c, s_main_v188 m c]
theorem s_main_v207 : FIN (Proc.devRef .tc main_v207) = val_main_v207 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 294 [s_main_v203 m c, s_main_v206 m c]
theorem s_main_v208 : FIN (Proc.devRef .tc main_v208) = val_main_v208 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 295 [s_main_v199 m c]
theorem s_main_call9_v0 : FIN (Proc.devRef .tc main_call9_v0) = val_main_call9_v0 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 296 [s_main_v188 m c]
theorem s_main_call9_v1 : FIN (Proc.devRef .tc main_call9_v1) = val_main_call9_v1 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 297 [s_main_v188 m c]
theorem s_main_v209 : FIN (Proc.devRef .tc main_v209) = val_main_v209 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 298 [s_main_call9_v0 m c, s_main_call9_v1 m c]
theorem s_main_v210 : FIN (Proc.devRef .tc main_v210) = val_main_v210 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 299 [s_main_v208 m c]
theorem s_main_v211 : FIN (Proc.devRef .tc main_v211) = val_main_v211 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 300 [s_main_v210 m c, s_main_v209 m c]
theorem s_main_v212 : FIN (Proc.devRef .tc main_v212) = val_main_v212 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 301 [s_main_v207 m c, s_main_v211 m c]
theorem s_main_call10_cst : FIN (Proc.devRef .tc main_call10_cst) = val_main_call10_cst (F := F) := by
  stage_nullary 302 []
theorem s_main_call10_v0 : FIN (Proc.devRef .tc main_call10_v0) = val_main_call10_v0 (F := F) := by
  stage_unary 303 [s_main_call10_cst m c]
theorem s_main_call10_v1 : FIN (Proc.devRef .tc main_call10_v1) = val_main_call10_v1 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 304 [s_main_v153 m c, s_main_call10_v0 m c]
theorem s_main_call10_v2 : FIN (Proc.devRef .tc main_call10_v2) = val_main_call10_v2 (F := F) := by
  stage_unary 305 [s_main_call10_cst m c]
theorem s_main_call10_v3 : FIN (Proc.devRef .tc main_call10_v3) = val_main_call10_v3 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 306 [s_main_v153 m c, s_main_call10_v2 m c]
theorem s_main_call10_v4 : FIN (Proc.devRef .tc main_call10_v4) = val_main_call10_v4 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 307 [s_main_call10_v3 m c]
theorem s_main_call10_v5 : FIN (Proc.devRef .tc main_call10_v5) = val_main_call10_v5 (F := F) := by
  stage_unary 308 [s_main_call10_cst m c]
theorem s_main_call10_v6 : FIN (Proc.devRef .tc main_call10_v6) = val_main_call10_v6 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 309 [s_main_v153 m c, s_main_call10_v5 m c]
theorem s_main_call10_v7 : FIN (Proc.devRef .tc main_call10_v7) = val_main_call10_v7 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 310 [s_main_call10_v3 m c]
theorem s_main_call10_v8 : FIN (Proc.devRef .tc main_call10_v8) = val_main_call10_v8 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 311 [s_main_call10_v7 m c]
theorem s_main_call10_v9 : FIN (Proc.devRef .tc main_call10_v9) = val_main_call10_v9 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 312 [s_main_call10_v8 m c]
theorem s_main_call10_v10 : FIN (Proc.devRef .tc main_call10_v10) = val_main_call10_v10 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 313 [s_main_call10_v9 m c]
theorem s_main_call10_v11 : FIN (Proc.devRef .tc main_call10_v11) = val_main_call10_v11 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 314 [s_main_call10_v1 m c, s_main_call10_v10 m c]
theorem s_main_v213 : FIN (Proc.devRef .tc main_v213) = val_main_v213 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_ternary 315 [s_main_call10_v4 m c, s_main_call10_v6 m c, s_main_call10_v11 m c]
theorem s_main_cst_29 : FIN (Proc.devRef .tc main_cst_29) = val_main_cst_29 (F := F) := by
  stage_nullary 316 []
theorem s_main_v214 : FIN (Proc.devRef .tc main_v214) = val_main_v214 (F := F) := by
  stage_unary 317 [s_main_cst_29 m c]
theorem s_main_v215 : FIN (Proc.devRef .tc main_v215) = val_main_v215 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 318 [s_main_v214 m c, s_main_v213 m c]
theorem s_main_cst_30 : FIN (Proc.devRef .tc main_cst_30) = val_main_cst_30 (F := F) := by
  stage_nullary 319 []
theorem s_main_v216 : FIN (Proc.devRef .tc main_v216) = val_main_v216 (F := F) := by
  stage_unary 320 [s_main_cst_30 m c]
theorem s_main_v217 : FIN (Proc.devRef .tc main_v217) = val_main_v217 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 321 [s_main_v212 m c, s_main_v216 m c]
theorem s_main_v218 : FIN (Proc.devRef .tc main_v218) = val_main_v218 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 322 [s_main_v215 m c]
theorem s_main_v219 : FIN (Proc.devRef .tc main_v219) = val_main_v219 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 323 [s_main_v218 m c]
theorem s_main_v220 : FIN (Proc.devRef .tc main_v220) = val_main_v220 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 324 [s_main_v217 m c, s_main_v219 m c]
theorem s_main_cst_31 : FIN (Proc.devRef .tc main_cst_31) = val_main_cst_31 (F := F) := by
  stage_nullary 325 []
theorem s_main_v221 : FIN (Proc.devRef .tc main_v221) = val_main_v221 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 326 [s_main_v220 m c, s_main_cst_31 m c]
theorem s_main_v222 : FIN (Proc.devRef .tc main_v222) = val_main_v222 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 327 [s_main_v221 m c]
theorem s_main_cst_32 : FIN (Proc.devRef .tc main_cst_32) = val_main_cst_32 (F := F) := by
  stage_nullary 328 []
theorem s_main_v223 : FIN (Proc.devRef .tc main_v223) = val_main_v223 (F := F) := by
  stage_unary 329 [s_main_cst_32 m c]
theorem s_main_v224 : FIN (Proc.devRef .tc main_v224) = val_main_v224 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 330 [s_main_v222 m c, s_main_v223 m c]
theorem s_main_v225 : FIN (Proc.devRef .tc main_v225) = val_main_v225 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 331 [s_main_v224 m c]
theorem s_main_v226 : FIN (Proc.devRef .tc main_v226) = val_main_v226 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 332 [s_main_v220 m c, s_main_v225 m c]
theorem s_main_v227 : FIN (Proc.devRef .tc main_v227) = val_main_v227 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 333 [s_main_v145 m c]
theorem s_main_v228 : FIN (Proc.devRef .tc main_v228) = val_main_v228 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 334 [s_main_v227 m c]
theorem s_main_v229 : FIN (Proc.devRef .tc main_v229) = val_main_v229 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 335 [s_main_v228 m c]
theorem s_main_cst_33 : FIN (Proc.devRef .tc main_cst_33) = val_main_cst_33 (F := F) := by
  stage_nullary 336 []
theorem s_main_v230 : FIN (Proc.devRef .tc main_v230) = val_main_v230 (F := F) := by
  stage_unary 337 [s_main_cst_33 m c]
theorem s_main_v231 : FIN (Proc.devRef .tc main_v231) = val_main_v231 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 338 [s_main_v230 m c, s_main_v229 m c]
theorem s_main_cst_34 : FIN (Proc.devRef .tc main_cst_34) = val_main_cst_34 (F := F) := by
  stage_nullary 339 []
theorem s_main_v232 : FIN (Proc.devRef .tc main_v232) = val_main_v232 (F := F) := by
  stage_unary 340 [s_main_cst_34 m c]
theorem s_main_v233 : FIN (Proc.devRef .tc main_v233) = val_main_v233 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 341 [s_main_v232 m c, s_main_v231 m c]
theorem s_main_v234 : FIN (Proc.devRef .tc main_v234) = val_main_v234 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 342 [s_main_v145 m c]
theorem s_main_v235 : FIN (Proc.devRef .tc main_v235) = val_main_v235 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 343 [s_main_v234 m c]
theorem s_main_v236 : FIN (Proc.devRef .tc main_v236) = val_main_v236 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 344 [s_main_v226 m c]
theorem s_main_v237 : FIN (Proc.devRef .tc main_v237) = val_main_v237 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_reshape 345 [s_main_v236 m c]
theorem s_main_v238 : FIN (Proc.devRef .tc main_v238) = val_main_v238 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 346 [s_main_v237 m c]
theorem s_main_v239 : FIN (Proc.devRef .tc main_v239) = val_main_v239 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 347 [s_main_v233 m c]
theorem s_main_v240 : FIN (Proc.devRef .tc main_v240) = val_main_v240 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_reshape 348 [s_main_v239 m c]
theorem s_main_v241 : FIN (Proc.devRef .tc main_v241) = val_main_v241 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 349 [s_main_v240 m c]
theorem s_main_v242 : FIN (Proc.devRef .tc main_v242) = val_main_v242 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 350 [s_main_v238 m c]
theorem s_main_v243 : FIN (Proc.devRef .tc main_v243) = val_main_v243 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 351 [s_main_v241 m c]
theorem s_main_v244 : FIN (Proc.devRef .tc main_v244) = val_main_v244 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 352 [s_main_v242 m c, s_main_v243 m c]
theorem s_main_cst_35 : FIN (Proc.devRef .tc main_cst_35) = val_main_cst_35 (F := F) := by
  stage_nullary 353 []
theorem s_main_v245 : FIN (Proc.devRef .tc main_v245) = val_main_v245 (F := F) := by
  stage_unary 354 [s_main_cst_35 m c]
theorem s_main_v246 : FIN (Proc.devRef .tc main_v246) = val_main_v246 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 355 [s_main_v245 m c, s_main_v244 m c]
theorem s_main_v247 : FIN (Proc.devRef .tc main_v247) = val_main_v247 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 356 [fin_arg m c main_arg1 (by decide), s_main_v246 m c]
theorem s_main_v248 : FIN (Proc.devRef .tc main_v248) = val_main_v248 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 357 [s_main_v235 m c]
theorem s_main_v249 : FIN (Proc.devRef .tc main_v249) = val_main_v249 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_reshape 358 [s_main_v248 m c]
theorem s_main_v250 : FIN (Proc.devRef .tc main_v250) = val_main_v250 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 359 [s_main_v249 m c]
theorem s_main_v251 : FIN (Proc.devRef .tc main_v251) = val_main_v251 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 360 [s_main_v238 m c]
theorem s_main_v252 : FIN (Proc.devRef .tc main_v252) = val_main_v252 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 361 [s_main_v250 m c]
theorem s_main_v253 : FIN (Proc.devRef .tc main_v253) = val_main_v253 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 362 [s_main_v251 m c, s_main_v252 m c]
theorem s_main_v254 : FIN (Proc.devRef .tc main_v254) = val_main_v254 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 363 [s_main_v247 m c, s_main_v253 m c]
theorem s_main_v255 : FIN (Proc.devRef .tc main_v255) = val_main_v255 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 364 [s_main_v226 m c]
theorem s_main_v256 : FIN (Proc.devRef .tc main_v256) = val_main_v256 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_reshape 365 [s_main_v255 m c]
theorem s_main_v257 : FIN (Proc.devRef .tc main_v257) = val_main_v257 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 366 [s_main_v256 m c]
theorem s_main_v258 : FIN (Proc.devRef .tc main_v258) = val_main_v258 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 367 [s_main_v233 m c]
theorem s_main_v259 : FIN (Proc.devRef .tc main_v259) = val_main_v259 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_reshape 368 [s_main_v258 m c]
theorem s_main_v260 : FIN (Proc.devRef .tc main_v260) = val_main_v260 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 369 [s_main_v259 m c]
theorem s_main_v261 : FIN (Proc.devRef .tc main_v261) = val_main_v261 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 370 [s_main_v257 m c]
theorem s_main_v262 : FIN (Proc.devRef .tc main_v262) = val_main_v262 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 371 [s_main_v260 m c]
theorem s_main_v263 : FIN (Proc.devRef .tc main_v263) = val_main_v263 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 372 [s_main_v261 m c, s_main_v262 m c]
theorem s_main_cst_36 : FIN (Proc.devRef .tc main_cst_36) = val_main_cst_36 (F := F) := by
  stage_nullary 373 []
theorem s_main_v264 : FIN (Proc.devRef .tc main_v264) = val_main_v264 (F := F) := by
  stage_unary 374 [s_main_cst_36 m c]
theorem s_main_v265 : FIN (Proc.devRef .tc main_v265) = val_main_v265 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 375 [s_main_v264 m c, s_main_v263 m c]
theorem s_main_v266 : FIN (Proc.devRef .tc main_v266) = val_main_v266 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 376 [s_main_v254 m c, s_main_v265 m c]
theorem s_main_v267 : FIN (Proc.devRef .tc main_v267) = val_main_v267 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 377 [s_main_v235 m c]
theorem s_main_v268 : FIN (Proc.devRef .tc main_v268) = val_main_v268 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_reshape 378 [s_main_v267 m c]
theorem s_main_v269 : FIN (Proc.devRef .tc main_v269) = val_main_v269 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 379 [s_main_v268 m c]
theorem s_main_v270 : FIN (Proc.devRef .tc main_v270) = val_main_v270 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 380 [s_main_v257 m c]
theorem s_main_v271 : FIN (Proc.devRef .tc main_v271) = val_main_v271 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 381 [s_main_v269 m c]
theorem s_main_v272 : FIN (Proc.devRef .tc main_v272) = val_main_v272 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 382 [s_main_v270 m c, s_main_v271 m c]
theorem s_main_v273 : FIN (Proc.devRef .tc main_v273) = val_main_v273 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 383 [s_main_v266 m c, s_main_v272 m c]
theorem s_main_v274 : FIN (Proc.devRef .tc main_v274) = val_main_v274 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 384 [s_main_v226 m c]
theorem s_main_v275 : FIN (Proc.devRef .tc main_v275) = val_main_v275 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_reshape 385 [s_main_v274 m c]
theorem s_main_v276 : FIN (Proc.devRef .tc main_v276) = val_main_v276 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 386 [s_main_v275 m c]
theorem s_main_v277 : FIN (Proc.devRef .tc main_v277) = val_main_v277 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 387 [s_main_v233 m c]
theorem s_main_v278 : FIN (Proc.devRef .tc main_v278) = val_main_v278 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_reshape 388 [s_main_v277 m c]
theorem s_main_v279 : FIN (Proc.devRef .tc main_v279) = val_main_v279 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 389 [s_main_v278 m c]
theorem s_main_v280 : FIN (Proc.devRef .tc main_v280) = val_main_v280 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 390 [s_main_v276 m c]
theorem s_main_v281 : FIN (Proc.devRef .tc main_v281) = val_main_v281 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 391 [s_main_v279 m c]
theorem s_main_v282 : FIN (Proc.devRef .tc main_v282) = val_main_v282 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 392 [s_main_v280 m c, s_main_v281 m c]
theorem s_main_cst_37 : FIN (Proc.devRef .tc main_cst_37) = val_main_cst_37 (F := F) := by
  stage_nullary 393 []
theorem s_main_v283 : FIN (Proc.devRef .tc main_v283) = val_main_v283 (F := F) := by
  stage_unary 394 [s_main_cst_37 m c]
theorem s_main_v284 : FIN (Proc.devRef .tc main_v284) = val_main_v284 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 395 [s_main_v283 m c, s_main_v282 m c]
theorem s_main_v285 : FIN (Proc.devRef .tc main_v285) = val_main_v285 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 396 [s_main_v273 m c, s_main_v284 m c]
theorem s_main_v286 : FIN (Proc.devRef .tc main_v286) = val_main_v286 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 397 [s_main_v235 m c]
theorem s_main_v287 : FIN (Proc.devRef .tc main_v287) = val_main_v287 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_reshape 398 [s_main_v286 m c]
theorem s_main_v288 : FIN (Proc.devRef .tc main_v288) = val_main_v288 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 399 [s_main_v287 m c]
theorem s_main_v289 : FIN (Proc.devRef .tc main_v289) = val_main_v289 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 400 [s_main_v276 m c]
theorem s_main_v290 : FIN (Proc.devRef .tc main_v290) = val_main_v290 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 401 [s_main_v288 m c]
theorem s_main_v291 : FIN (Proc.devRef .tc main_v291) = val_main_v291 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 402 [s_main_v289 m c, s_main_v290 m c]
theorem s_main_v292 : FIN (Proc.devRef .tc main_v292) = val_main_v292 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 403 [s_main_v285 m c, s_main_v291 m c]
theorem s_main_v293 : FIN (Proc.devRef .tc main_v293) = val_main_v293 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 404 [s_main_v226 m c]
theorem s_main_v294 : FIN (Proc.devRef .tc main_v294) = val_main_v294 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_reshape 405 [s_main_v293 m c]
theorem s_main_v295 : FIN (Proc.devRef .tc main_v295) = val_main_v295 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 406 [s_main_v294 m c]
theorem s_main_v296 : FIN (Proc.devRef .tc main_v296) = val_main_v296 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 407 [s_main_v233 m c]
theorem s_main_v297 : FIN (Proc.devRef .tc main_v297) = val_main_v297 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_reshape 408 [s_main_v296 m c]
theorem s_main_v298 : FIN (Proc.devRef .tc main_v298) = val_main_v298 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 409 [s_main_v297 m c]
theorem s_main_v299 : FIN (Proc.devRef .tc main_v299) = val_main_v299 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 410 [s_main_v295 m c]
theorem s_main_v300 : FIN (Proc.devRef .tc main_v300) = val_main_v300 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 411 [s_main_v298 m c]
theorem s_main_v301 : FIN (Proc.devRef .tc main_v301) = val_main_v301 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 412 [s_main_v299 m c, s_main_v300 m c]
theorem s_main_cst_38 : FIN (Proc.devRef .tc main_cst_38) = val_main_cst_38 (F := F) := by
  stage_nullary 413 []
theorem s_main_v302 : FIN (Proc.devRef .tc main_v302) = val_main_v302 (F := F) := by
  stage_unary 414 [s_main_cst_38 m c]
theorem s_main_v303 : FIN (Proc.devRef .tc main_v303) = val_main_v303 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 415 [s_main_v302 m c, s_main_v301 m c]
theorem s_main_v304 : FIN (Proc.devRef .tc main_v304) = val_main_v304 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 416 [s_main_v292 m c, s_main_v303 m c]
theorem s_main_v305 : FIN (Proc.devRef .tc main_v305) = val_main_v305 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 417 [s_main_v235 m c]
theorem s_main_v306 : FIN (Proc.devRef .tc main_v306) = val_main_v306 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_reshape 418 [s_main_v305 m c]
theorem s_main_v307 : FIN (Proc.devRef .tc main_v307) = val_main_v307 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 419 [s_main_v306 m c]
theorem s_main_v308 : FIN (Proc.devRef .tc main_v308) = val_main_v308 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 420 [s_main_v295 m c]
theorem s_main_v309 : FIN (Proc.devRef .tc main_v309) = val_main_v309 (F := F) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_unary 421 [s_main_v307 m c]
theorem s_main_v310 : FIN (Proc.devRef .tc main_v310) = val_main_v310 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 422 [s_main_v308 m c, s_main_v309 m c]
theorem s_main_v311 : FIN (Proc.devRef .tc main_v311) = val_main_v311 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  stage_binary 423 [s_main_v304 m c, s_main_v310 m c]

end NTM.RefRun

end
-- ==== Proof.RefRun.lean ====
import proofs.«155057_j13159779795433_2_alg».proof.Proof.ReadB
import proofs.«155057_j13159779795433_2_alg».proof.Proof.RefRunS
import Idealize.ShloMosaic.Lib.StableHlo.Run

noncomputable section

namespace NTM.RefRun

open Cert.ReferenceIdeal Cert.ReferenceIdeal.Gen Idealize.ShloMosaic Idealize.ShloMosaic.TcCoe Idealize.SL.Sem Idealize.ShloMosaic.StableHlo

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v139) = Cert.ReferenceIdeal.ReadB.val_main_v139 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg13)) (m ((c.tc : Thread nD τ).loc main_arg14)) (m ((c.tc : Thread nD τ).loc main_arg15))
      ∧ r.2.mem ((c.tc : Thread nD τ).loc main_v311) = Cert.ReferenceIdeal.ReadB.val_main_v311 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v139).trans (s_main_v139 m c), (h c main_v311).trans (s_main_v311 m c),
      (h c main_arg0).trans (fin_arg m c main_arg0 (by decide)), (h c main_arg1).trans (fin_arg m c main_arg1 (by decide)),
      (h c main_arg2).trans (fin_arg m c main_arg2 (by decide)), (h c main_arg3).trans (fin_arg m c main_arg3 (by decide)),
      (h c main_arg4).trans (fin_arg m c main_arg4 (by decide)), (h c main_arg5).trans (fin_arg m c main_arg5 (by decide)),
      (h c main_arg6).trans (fin_arg m c main_arg6 (by decide)), (h c main_arg7).trans (fin_arg m c main_arg7 (by decide)),
      (h c main_arg8).trans (fin_arg m c main_arg8 (by decide)), (h c main_arg9).trans (fin_arg m c main_arg9 (by decide)),
      (h c main_arg10).trans (fin_arg m c main_arg10 (by decide)), (h c main_arg11).trans (fin_arg m c main_arg11 (by decide)),
      (h c main_arg12).trans (fin_arg m c main_arg12 (by decide)), (h c main_arg13).trans (fin_arg m c main_arg13 (by decide)),
      (h c main_arg14).trans (fin_arg m c main_arg14 (by decide)), (h c main_arg15).trans (fin_arg m c main_arg15 (by decide))⟩)
    (run_seq scopedRefs_eq scopedSems_eq defs main (fun _ => ops) main_eq (fun _ => ops_sub) m ρ (fun _ => ops_fresh))

end NTM.RefRun

end
-- ==== Proof.PreOK.lean ====
import proofs.«155057_j13159779795433_2_alg».proof.Defs
import proofs.«155057_j13159779795433_2_alg».proof.Proof.Gen.Pre_finite_inputs
import proofs.«155057_j13159779795433_2_alg».proof.Proof.Rows
import proofs.«155057_j13159779795433_2_alg».proof.Proof.SpecOK
import Idealize.ShloMosaic.Lib.ReduceAll
import Idealize.ShloMosaic.Lib.ValueIdx
import Idealize.ShloMosaic.PureOps.Ideal.Laws

noncomputable section

namespace NTM

open Idealize.ShloMosaic Idealize.ShloMosaic.TcCoe Idealize.ShloMosaic.ValueIdx

namespace PreOK

local instance : Subsingleton (⟨0, ![]⟩ : Shape).Idx := ⟨fun a b => funext fun d => d.elim0⟩

/-- A decided comparison that reads 1 holds. -/
theorem of_cmp {p : Prop} [Decidable p] (h : BitVec.ofBool (decide p) = 1#1) : p :=
  by_contra fun hc => absurd (decide_eq_false hc ▸ h) (by decide)

/-- `|x| < +∞` says `x` is a real number. -/
theorem isR_of_abs_lt (x : EReal) (h : Ideal.cmp .olt (max x (-x)) (Ideal.ofBits .f32 0x7F800000#32) = 1#1) : IsR x := by
  rw [show Ideal.ofBits .f32 0x7F800000#32 = (⊤ : EReal) by simp [Ideal.ofBits, Ideal.ieee]] at h
  obtain ⟨h1, h2⟩ := max_lt_iff.1 (of_cmp h)
  exact ⟨fun hb => by simp [hb] at h2, ne_of_lt h1⟩

section
variable {S : Shape} {axes : List (Fin S.rank)} {x : FVec Ideal S .f32}
  {hb : (⟨0, ![]⟩ : Shape).BroadcastsInDim S (![] : Fin 0 → Fin S.rank)} {hr : S.ReducesTo axes ⟨0, ![]⟩}
  {h0 : 0 < (⟨0, ![]⟩ : Shape).numel}

/-- If every entry passes `|x| < +∞`, every entry is a real number. -/
theorem isR_of_all (h : Host.reduce IntOp.andi
      (cmpf .olt (Host.absf x) (broadcastInDim S ![] hb (constant (F := Ideal) ⟨0, ![]⟩ .f32 0x7F800000#32)))
      (constantI ⟨0, ![]⟩ 1 1#1) hr h0 ix0 = 1#1) (i : S.Idx) : IsR (x i) :=
  isR_of_abs_lt (x i) (Host.reduce_andi_all _ _ hr h0 ix0 h i)

/-- If every entry passes `x ≥ 0`, every entry is nonnegative. -/
theorem nonneg_of_all (h : Host.reduce IntOp.andi
      (cmpf .oge x (broadcastInDim S ![] hb (constant (F := Ideal) ⟨0, ![]⟩ .f32 0x00000000#32)))
      (constantI ⟨0, ![]⟩ 1 1#1) hr h0 ix0 = 1#1) (i : S.Idx) : 0 ≤ x i :=
  of_cmp (Ideal.ofBits_zero_f32 ▸ Host.reduce_andi_all _ _ hr h0 ix0 h i)

end

open Cert.Pre_finite_inputs in
/-- The precondition is a conjunction of such tests, one per array (two for the previous weightings). -/
theorem ok_of_fn [Facts] {X0 X1 X2 X3 X4 X5 X6 X7 X8 X9 X10 X11 X12 X13 X14 X15}
    (h : fn (F := Ideal) X0 X1 X2 X3 X4 X5 X6 X7 X8 X9 X10 X11 X12 X13 X14 X15 = fun _ => 1#1) :
    (∀ b : Fin 1024, RowOK (rowOf (B := 1024) X0 X1 X2 X3 X4 b))
    ∧ WtsOK (wtsOf X5 X6 X7 X8 X9 X10 X11 X12 X13 X14 X15) := by
  have h0 := congrFun h ix0
  dsimp only [fn, fn_part1, fn_part2, fn_part3, fn_part4, fn_part5] at h0
  obtain ⟨h0, n4⟩ := IntOp.andi_eq_one.1 h0
  obtain ⟨h0, n3⟩ := IntOp.andi_eq_one.1 h0
  obtain ⟨h0, r15⟩ := IntOp.andi_eq_one.1 h0
  obtain ⟨h0, r14⟩ := IntOp.andi_eq_one.1 h0
  obtain ⟨h0, r13⟩ := IntOp.andi_eq_one.1 h0
  obtain ⟨h0, r12⟩ := IntOp.andi_eq_one.1 h0
  obtain ⟨h0, r11⟩ := IntOp.andi_eq_one.1 h0
  obtain ⟨h0, r10⟩ := IntOp.andi_eq_one.1 h0
  obtain ⟨h0, r9⟩ := IntOp.andi_eq_one.1 h0
  obtain ⟨h0, r8⟩ := IntOp.andi_eq_one.1 h0
  obtain ⟨h0, r7⟩ := IntOp.andi_eq_one.1 h0
  obtain ⟨h0, r6⟩ := IntOp.andi_eq_one.1 h0
  obtain ⟨h0, r5⟩ := IntOp.andi_eq_one.1 h0
  obtain ⟨h0, r4⟩ := IntOp.andi_eq_one.1 h0
  obtain ⟨h0, r3⟩ := IntOp.andi_eq_one.1 h0
  obtain ⟨h0, r2⟩ := IntOp.andi_eq_one.1 h0
  obtain ⟨r0, r1⟩ := IntOp.andi_eq_one.1 h0
  exact ⟨fun _ => ⟨fun _ => isR_of_all r0 _, fun _ _ => isR_of_all r1 _, fun _ => isR_of_all r2 _,
      fun _ _ => isR_of_all r3 _, fun _ _ => isR_of_all r4 _, fun _ _ => nonneg_of_all n3 _, fun _ _ => nonneg_of_all n4 _⟩,
    ⟨fun _ _ => isR_of_all r5 _, fun _ _ => isR_of_all r6 _, fun _ => isR_of_all r7 _, fun _ => isR_of_all r8 _,
      fun _ _ => isR_of_all r9 _, fun _ => isR_of_all r10 _, fun _ _ => isR_of_all r11 _, fun _ => isR_of_all r12 _,
      fun _ _ => isR_of_all r13 _, fun _ _ => isR_of_all r14 _, fun _ => isR_of_all r15 _⟩⟩

end PreOK

theorem ok_of_pre [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ b : Fin 1024, RowOK (rowOf (B := 1024)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) b))
    ∧ WtsOK (wtsOf
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15))) :=
  PreOK.ok_of_fn (hpre c)

end NTM

end
-- ==== Proof.lean ====
/-
  One step of a neural Turing machine, 8 batch rows a grid point, against the same step written for all 1024 rows at
  once. Row by row both sides are one function of the inputs (Proof/Spec.lean), except that one spells the sharpening
  power `x ^ g` and the other `exp (g * log x)`: these agree for a real base `x ≥ 0` and a real exponent `g > 0`, and
  the base is a nonnegative combination of softmax values and previous weightings, plus `eps`, because the inputs are
  finite and the previous weightings nonnegative.
-/
import proofs.«155057_j13159779795433_2_alg».proof.Defs
import proofs.«155057_j13159779795433_2_alg».proof.Proof.Gen.Kernel
import proofs.«155057_j13159779795433_2_alg».proof.Proof.Gen.Kernel.Frame
import proofs.«155057_j13159779795433_2_alg».proof.Proof.Gen.KernelIdeal
import proofs.«155057_j13159779795433_2_alg».proof.Proof.Gen.ReferenceIdeal
import proofs.«155057_j13159779795433_2_alg».proof.Proof.Gen.Pre_finite_inputs
import proofs.«155057_j13159779795433_2_alg».proof.Proof.Blocks
import proofs.«155057_j13159779795433_2_alg».proof.Proof.Bridge
import proofs.«155057_j13159779795433_2_alg».proof.Proof.RefRun
import proofs.«155057_j13159779795433_2_alg».proof.Proof.PreOK
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (NTM.RefRun.run m ρ)

/-- Both runs end with the two result arrays at the row-level step of each row of the shared inputs. -/
theorem algebraic : Cert.algebraic_KernelIdeal_ReferenceIdeal := by
  intro m ρ m' ρ' hpre hagree
  refine ⟨fun c => NTM.Blocks.G16 m c, fun c => NTM.Blocks.G17 m c, ?_, ?_⟩
  · exact (θ_run Cert.KernelIdeal.defs _ _).mono
      (fun r h c => ⟨(h c).1.trans (NTM.Blocks.final16 m c), (h c).2.1.trans (NTM.Blocks.final17 m c), (h c).2.2⟩)
      (Cert.KernelIdeal.ValueB.run_blocks m ρ)
  · refine (θ_run Cert.ReferenceIdeal.defs _ _).mono (fun r h c => ?_) (NTM.RefRun.run m' ρ')
    obtain ⟨hR, hW⟩ := NTM.ok_of_pre m hpre c
    obtain ⟨a0, a1, a2, a3, a4, a5, a6, a7, a8, a9, a10, a11, a12, a13, a14, a15⟩ := hagree c
    refine ⟨(h c).1.trans ?_, (h c).2.1.trans ?_, (h c).2.2⟩
    · rw [a0, a1, a2, a3, a5, a6, a7, a8, a9, a10, a13, a14, a15]
      exact NTM.Bridge.y_bridge _ _ _ _ _ _ _ _ _ _ _ _ _ _ _ _ hR hW
    · rw [a0, a1, a2, a4, a5, a6, a7, a8, a11, a12]
      exact NTM.Bridge.nm_bridge _ _ _ _ _ _ _ _ _ _ _ _ _ _ _ _ hR hW

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
